-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)) →
    ∃ (v0 : (c : Dev Cert.KernelIdeal.nD) → Buf (Elt Ideal) ((c.tc : Thread Cert.KernelIdeal.nD Cert.KernelIdeal.τ).loc Cert.KernelIdeal.main_v178)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v178) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S163848x2 : Shape := ⟨2, ![163848, 2]⟩
abbrev S2x983040 : Shape := ⟨2, ![2, 983040]⟩
abbrev S2x245760 : Shape := ⟨2, ![2, 245760]⟩
abbrev S2x61440 : Shape := ⟨2, ![2, 61440]⟩
abbrev S2x15360 : Shape := ⟨2, ![2, 15360]⟩
abbrev S983040x2 : Shape := ⟨2, ![983040, 2]⟩
abbrev S245760x2 : Shape := ⟨2, ![245760, 2]⟩
abbrev S61440x2 : Shape := ⟨2, ![61440, 2]⟩
abbrev S15360x2 : Shape := ⟨2, ![15360, 2]⟩
abbrev S40962x7 : Shape := ⟨2, ![40962, 7]⟩
abbrev S10242x7 : Shape := ⟨2, ![10242, 7]⟩
abbrev S2562x7 : Shape := ⟨2, ![2562, 7]⟩
abbrev S642x7 : Shape := ⟨2, ![642, 7]⟩
abbrev S4x1 : Shape := ⟨2, ![4, 1]⟩
abbrev S2x96 : Shape := ⟨2, ![2, 96]⟩
abbrev S3x2 : Shape := ⟨2, ![3, 2]⟩
abbrev S2x32 : Shape := ⟨2, ![2, 32]⟩
abbrev S32 : Shape := ⟨1, ![32]⟩
abbrev S32x192 : Shape := ⟨2, ![32, 192]⟩
abbrev S32x64 : Shape := ⟨2, ![32, 64]⟩
abbrev S64 : Shape := ⟨1, ![64]⟩
abbrev S64x384 : Shape := ⟨2, ![64, 384]⟩
abbrev S64x128 : Shape := ⟨2, ![64, 128]⟩
abbrev S128 : Shape := ⟨1, ![128]⟩
abbrev S128x768 : Shape := ⟨2, ![128, 768]⟩
abbrev S128x256 : Shape := ⟨2, ![128, 256]⟩
abbrev S256 : Shape := ⟨1, ![256]⟩
abbrev S4 : Shape := ⟨1, ![4]⟩
abbrev S41476x256 : Shape := ⟨2, ![41476, 256]⟩
abbrev S256x1 : Shape := ⟨2, ![256, 1]⟩
abbrev S1 : Shape := ⟨1, ![1]⟩
abbrev S_ : Shape := ⟨0, ![]⟩
abbrev S1x983040 : Shape := ⟨2, ![1, 983040]⟩
abbrev S983040 : Shape := ⟨1, ![983040]⟩
abbrev S1x245760 : Shape := ⟨2, ![1, 245760]⟩
abbrev S245760 : Shape := ⟨1, ![245760]⟩
abbrev S1x61440 : Shape := ⟨2, ![1, 61440]⟩
abbrev S61440 : Shape := ⟨1, ![61440]⟩
abbrev S1x15360 : Shape := ⟨2, ![1, 15360]⟩
abbrev S15360 : Shape := ⟨1, ![15360]⟩

class Facts : Prop where
  bcast_S_S163848x2 : S_.BroadcastsInDim S163848x2 (![] : Fin 0 → Fin S163848x2.rank)
  reducesTo_S163848x2_S_d0_1 : S163848x2.ReducesTo [0, 1] S_
  h_S_ : 0 < S_.numel
  bcast_S_S983040x2 : S_.BroadcastsInDim S983040x2 (![] : Fin 0 → Fin S983040x2.rank)
  reducesTo_S983040x2_S_d0_1 : S983040x2.ReducesTo [0, 1] S_
  bcast_S_S245760x2 : S_.BroadcastsInDim S245760x2 (![] : Fin 0 → Fin S245760x2.rank)
  reducesTo_S245760x2_S_d0_1 : S245760x2.ReducesTo [0, 1] S_
  bcast_S_S61440x2 : S_.BroadcastsInDim S61440x2 (![] : Fin 0 → Fin S61440x2.rank)
  reducesTo_S61440x2_S_d0_1 : S61440x2.ReducesTo [0, 1] S_
  bcast_S_S15360x2 : S_.BroadcastsInDim S15360x2 (![] : Fin 0 → Fin S15360x2.rank)
  reducesTo_S15360x2_S_d0_1 : S15360x2.ReducesTo [0, 1] S_
  bcast_S_S4x1 : S_.BroadcastsInDim S4x1 (![] : Fin 0 → Fin S4x1.rank)
  reducesTo_S4x1_S_d0_1 : S4x1.ReducesTo [0, 1] S_
  bcast_S_S2x96 : S_.BroadcastsInDim S2x96 (![] : Fin 0 → Fin S2x96.rank)
  reducesTo_S2x96_S_d0_1 : S2x96.ReducesTo [0, 1] S_
  bcast_S_S3x2 : S_.BroadcastsInDim S3x2 (![] : Fin 0 → Fin S3x2.rank)
  reducesTo_S3x2_S_d0_1 : S3x2.ReducesTo [0, 1] S_
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x192 : S_.BroadcastsInDim S32x192 (![] : Fin 0 → Fin S32x192.rank)
  reducesTo_S32x192_S_d0_1 : S32x192.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x384 : S_.BroadcastsInDim S64x384 (![] : Fin 0 → Fin S64x384.rank)
  reducesTo_S64x384_S_d0_1 : S64x384.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x768 : S_.BroadcastsInDim S128x768 (![] : Fin 0 → Fin S128x768.rank)
  reducesTo_S128x768_S_d0_1 : S128x768.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S4 : S_.BroadcastsInDim S4 (![] : Fin 0 → Fin S4.rank)
  reducesTo_S4_S_d0 : S4.ReducesTo [0] S_
  bcast_S_S41476x256 : S_.BroadcastsInDim S41476x256 (![] : Fin 0 → Fin S41476x256.rank)
  reducesTo_S41476x256_S_d0_1 : S41476x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  slices_S2x983040_S1x983040_0_0 : S2x983040.Slices ![0, 0] S1x983040
  shapeCasts_S1x983040_S983040 : S1x983040.ShapeCasts S983040
  bcast_S_S983040 : S_.BroadcastsInDim S983040 (![] : Fin 0 → Fin S983040.rank)
  reducesTo_S983040_S_d0 : S983040.ReducesTo [0] S_
  slices_S2x245760_S1x245760_0_0 : S2x245760.Slices ![0, 0] S1x245760
  shapeCasts_S1x245760_S245760 : S1x245760.ShapeCasts S245760
  bcast_S_S245760 : S_.BroadcastsInDim S245760 (![] : Fin 0 → Fin S245760.rank)
  reducesTo_S245760_S_d0 : S245760.ReducesTo [0] S_
  slices_S2x61440_S1x61440_0_0 : S2x61440.Slices ![0, 0] S1x61440
  shapeCasts_S1x61440_S61440 : S1x61440.ShapeCasts S61440
  bcast_S_S61440 : S_.BroadcastsInDim S61440 (![] : Fin 0 → Fin S61440.rank)
  reducesTo_S61440_S_d0 : S61440.ReducesTo [0] S_
  slices_S2x15360_S1x15360_0_0 : S2x15360.Slices ![0, 0] S1x15360
  shapeCasts_S1x15360_S15360 : S1x15360.ShapeCasts S15360
  bcast_S_S15360 : S_.BroadcastsInDim S15360 (![] : Fin 0 → Fin S15360.rank)
  reducesTo_S15360_S_d0 : S15360.ReducesTo [0] S_

variable [Facts]

def fn_part11 {F : FTy → Type} [FloatOps F] (main_arg4 : IVec S2x15360 32) (main_v180 : IVec S_ 1) (main_v190 : IVec S_ 1) : IVec S_ 1 :=
  let main_v191 : IVec S_ 1 := andi main_v180 main_v190
  let main_v192 : IVec S1x15360 32 := (extractStridedSlice S1x15360 ![0, 0] · slices_S2x15360_S1x15360_0_0) main_arg4
  let main_v193 : IVec S15360 32 := shapeCast S15360 main_v192 shapeCasts_S1x15360_S15360
  let main_c_71 : IVec S_ 32 := constantI S_ 32 0#32
  let main_v194 : IVec S15360 32 := broadcastInDim S15360 ![] bcast_S_S15360 main_c_71
  let main_v195 : IVec S15360 1 := cmpi .sge main_v193 main_v194
  let main_v196 : IVec S1x15360 32 := (extractStridedSlice S1x15360 ![0, 0] · slices_S2x15360_S1x15360_0_0) main_arg4
  let main_v197 : IVec S15360 32 := shapeCast S15360 main_v196 shapeCasts_S1x15360_S15360
  let main_c_72 : IVec S_ 32 := constantI S_ 32 2568#32
  let main_v198 : IVec S15360 32 := broadcastInDim S15360 ![] bcast_S_S15360 main_c_72
  let main_v199 : IVec S15360 1 := cmpi .slt main_v197 main_v198
  let main_v200 : IVec S15360 1 := andi main_v195 main_v199
  let main_c_73 : IVec S_ 1 := constantI S_ 1 1#1
  let main_v201 : IVec S_ 1 := (fun x v => Host.reduce IntOp.andi x v reducesTo_S15360_S_d0 h_S_) main_v200 main_c_73
  let main_v202 : IVec S_ 1 := andi main_v191 main_v201
  main_v202

def fn_part10 {F : FTy → Type} [FloatOps F] (main_arg2 : IVec S2x245760 32) (main_arg3 : IVec S2x61440 32) (main_arg4 : IVec S2x15360 32) (main_v169 : IVec S_ 1) (main_v171 : IVec S245760 32) (main_c_65 : IVec S_ 32) : IVec S_ 1 :=
  let main_v172 : IVec S245760 32 := broadcastInDim S245760 ![] bcast_S_S245760 main_c_65
  let main_v173 : IVec S245760 1 := cmpi .sge main_v171 main_v172
  let main_v174 : IVec S1x245760 32 := (extractStridedSlice S1x245760 ![0, 0] · slices_S2x245760_S1x245760_0_0) main_arg2
  let main_v175 : IVec S245760 32 := shapeCast S245760 main_v174 shapeCasts_S1x245760_S245760
  let main_c_66 : IVec S_ 32 := constantI S_ 32 40968#32
  let main_v176 : IVec S245760 32 := broadcastInDim S245760 ![] bcast_S_S245760 main_c_66
  let main_v177 : IVec S245760 1 := cmpi .slt main_v175 main_v176
  let main_v178 : IVec S245760 1 := andi main_v173 main_v177
  let main_c_67 : IVec S_ 1 := constantI S_ 1 1#1
  let main_v179 : IVec S_ 1 := (fun x v => Host.reduce IntOp.andi x v reducesTo_S245760_S_d0 h_S_) main_v178 main_c_67
  let main_v180 : IVec S_ 1 := andi main_v169 main_v179
  let main_v181 : IVec S1x61440 32 := (extractStridedSlice S1x61440 ![0, 0] · slices_S2x61440_S1x61440_0_0) main_arg3
  let main_v182 : IVec S61440 32 := shapeCast S61440 main_v181 shapeCasts_S1x61440_S61440
  let main_c_68 : IVec S_ 32 := constantI S_ 32 0#32
  let main_v183 : IVec S61440 32 := broadcastInDim S61440 ![] bcast_S_S61440 main_c_68
  let main_v184 : IVec S61440 1 := cmpi .sge main_v182 main_v183
  let main_v185 : IVec S1x61440 32 := (extractStridedSlice S1x61440 ![0, 0] · slices_S2x61440_S1x61440_0_0) main_arg3
  let main_v186 : IVec S61440 32 := shapeCast S61440 main_v185 shapeCasts_S1x61440_S61440
  let main_c_69 : IVec S_ 32 := constantI S_ 32 10248#32
  let main_v187 : IVec S61440 32 := broadcastInDim S61440 ![] bcast_S_S61440 main_c_69
  let main_v188 : IVec S61440 1 := cmpi .slt main_v186 main_v187
  let main_v189 : IVec S61440 1 := andi main_v184 main_v188
  let main_c_70 : IVec S_ 1 := constantI S_ 1 1#1
  let main_v190 : IVec S_ 1 := (fun x v => Host.reduce IntOp.andi x v reducesTo_S61440_S_d0 h_S_) main_v189 main_c_70
  fn_part11 (F := F) main_arg4 main_v180 main_v190

def fn_part9 {F : FTy → Type} [FloatOps F] (main_arg1 : IVec S2x983040 32) (main_arg2 : IVec S2x245760 32) (main_arg3 : IVec S2x61440 32) (main_arg4 : IVec S2x15360 32) (main_arg39 : FVec F S1 .f32) (main_v153 : IVec S_ 1) : IVec S_ 1 :=
  let main_v154 : FVec F S1 .f32 := Host.absf main_arg39
  let main_cst_60 : FVec F S_ .f32 := constant S_ .f32 0x7F800000#32
  let main_v155 : FVec F S1 .f32 := broadcastInDim S1 ![] bcast_S_S1 main_cst_60
  let main_v156 : IVec S1 1 := cmpf .olt main_v154 main_v155
  let main_c_61 : IVec S_ 1 := constantI S_ 1 1#1
  let main_v157 : IVec S_ 1 := (fun x v => Host.reduce IntOp.andi x v reducesTo_S1_S_d0 h_S_) main_v156 main_c_61
  let main_v158 : IVec S_ 1 := andi main_v153 main_v157
  let main_v159 : IVec S1x983040 32 := (extractStridedSlice S1x983040 ![0, 0] · slices_S2x983040_S1x983040_0_0) main_arg1
  let main_v160 : IVec S983040 32 := shapeCast S983040 main_v159 shapeCasts_S1x983040_S983040
  let main_c_62 : IVec S_ 32 := constantI S_ 32 0#32
  let main_v161 : IVec S983040 32 := broadcastInDim S983040 ![] bcast_S_S983040 main_c_62
  let main_v162 : IVec S983040 1 := cmpi .sge main_v160 main_v161
  let main_v163 : IVec S1x983040 32 := (extractStridedSlice S1x983040 ![0, 0] · slices_S2x983040_S1x983040_0_0) main_arg1
  let main_v164 : IVec S983040 32 := shapeCast S983040 main_v163 shapeCasts_S1x983040_S983040
  let main_c_63 : IVec S_ 32 := constantI S_ 32 163848#32
  let main_v165 : IVec S983040 32 := broadcastInDim S983040 ![] bcast_S_S983040 main_c_63
  let main_v166 : IVec S983040 1 := cmpi .slt main_v164 main_v165
  let main_v167 : IVec S983040 1 := andi main_v162 main_v166
  let main_c_64 : IVec S_ 1 := constantI S_ 1 1#1
  let main_v168 : IVec S_ 1 := (fun x v => Host.reduce IntOp.andi x v reducesTo_S983040_S_d0 h_S_) main_v167 main_c_64
  let main_v169 : IVec S_ 1 := andi main_v158 main_v168
  let main_v170 : IVec S1x245760 32 := (extractStridedSlice S1x245760 ![0, 0] · slices_S2x245760_S1x245760_0_0) main_arg2
  let main_v171 : IVec S245760 32 := shapeCast S245760 main_v170 shapeCasts_S1x245760_S245760
  let main_c_65 : IVec S_ 32 := constantI S_ 32 0#32
  fn_part10 (F := F) main_arg2 main_arg3 main_arg4 main_v169 main_v171 main_c_65

def fn_part8 {F : FTy → Type} [FloatOps F] (main_arg1 : IVec S2x983040 32) (main_arg2 : IVec S2x245760 32) (main_arg3 : IVec S2x61440 32) (main_arg4 : IVec S2x15360 32) (main_arg36 : FVec F S41476x256 .f32) (main_arg37 : FVec F S256 .f32) (main_arg38 : FVec F S256x1 .f32) (main_arg39 : FVec F S1 .f32) (main_v133 : IVec S_ 1) (main_v136 : IVec S4 1) : IVec S_ 1 :=
  let main_c_53 : IVec S_ 1 := constantI S_ 1 1#1
  let main_v137 : IVec S_ 1 := (fun x v => Host.reduce IntOp.andi x v reducesTo_S4_S_d0 h_S_) main_v136 main_c_53
  let main_v138 : IVec S_ 1 := andi main_v133 main_v137
  let main_v139 : FVec F S41476x256 .f32 := Host.absf main_arg36
  let main_cst_54 : FVec F S_ .f32 := constant S_ .f32 0x7F800000#32
  let main_v140 : FVec F S41476x256 .f32 := broadcastInDim S41476x256 ![] bcast_S_S41476x256 main_cst_54
  let main_v141 : IVec S41476x256 1 := cmpf .olt main_v139 main_v140
  let main_c_55 : IVec S_ 1 := constantI S_ 1 1#1
  let main_v142 : IVec S_ 1 := (fun x v => Host.reduce IntOp.andi x v reducesTo_S41476x256_S_d0_1 h_S_) main_v141 main_c_55
  let main_v143 : IVec S_ 1 := andi main_v138 main_v142
  let main_v144 : FVec F S256 .f32 := Host.absf main_arg37
  let main_cst_56 : FVec F S_ .f32 := constant S_ .f32 0x7F800000#32
  let main_v145 : FVec F S256 .f32 := broadcastInDim S256 ![] bcast_S_S256 main_cst_56
  let main_v146 : IVec S256 1 := cmpf .olt main_v144 main_v145
  let main_c_57 : IVec S_ 1 := constantI S_ 1 1#1
  let main_v147 : IVec S_ 1 := (fun x v => Host.reduce IntOp.andi x v reducesTo_S256_S_d0 h_S_) main_v146 main_c_57
  let main_v148 : IVec S_ 1 := andi main_v143 main_v147
  let main_v149 : FVec F S256x1 .f32 := Host.absf main_arg38
  let main_cst_58 : FVec F S_ .f32 := constant S_ .f32 0x7F800000#32
  let main_v150 : FVec F S256x1 .f32 := broadcastInDim S256x1 ![] bcast_S_S256x1 main_cst_58
  let main_v151 : IVec S256x1 1 := cmpf .olt main_v149 main_v150
  let main_c_59 : IVec S_ 1 := constantI S_ 1 1#1
  let main_v152 : IVec S_ 1 := (fun x v => Host.reduce IntOp.andi x v reducesTo_S256x1_S_d0_1 h_S_) main_v151 main_c_59
  let main_v153 : IVec S_ 1 := andi main_v148 main_v152
  fn_part9 (F := F) main_arg1 main_arg2 main_arg3 main_arg4 main_arg39 main_v153

def fn_part7 {F : FTy → Type} [FloatOps F] (main_arg1 : IVec S2x983040 32) (main_arg2 : IVec S2x245760 32) (main_arg3 : IVec S2x61440 32) (main_arg4 : IVec S2x15360 32) (main_arg33 : FVec F S256 .f32) (main_arg34 : FVec F S4 .f32) (main_arg35 : FVec F S4 .f32) (main_arg36 : FVec F S41476x256 .f32) (main_arg37 : FVec F S256 .f32) (main_arg38 : FVec F S256x1 .f32) (main_arg39 : FVec F S1 .f32) (main_v118 : IVec S_ 1) (main_v119 : FVec F S128x256 .f32) : IVec S_ 1 :=
  let main_cst_46 : FVec F S_ .f32 := constant S_ .f32 0x7F800000#32
  let main_v120 : FVec F S128x256 .f32 := broadcastInDim S128x256 ![] bcast_S_S128x256 main_cst_46
  let main_v121 : IVec S128x256 1 := cmpf .olt main_v119 main_v120
  let main_c_47 : IVec S_ 1 := constantI S_ 1 1#1
  let main_v122 : IVec S_ 1 := (fun x v => Host.reduce IntOp.andi x v reducesTo_S128x256_S_d0_1 h_S_) main_v121 main_c_47
  let main_v123 : IVec S_ 1 := andi main_v118 main_v122
  let main_v124 : FVec F S256 .f32 := Host.absf main_arg33
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_v129 : FVec F S4 .f32 := Host.absf main_arg34
  let main_cst_50 : FVec F S_ .f32 := constant S_ .f32 0x7F800000#32
  let main_v130 : FVec F S4 .f32 := broadcastInDim S4 ![] bcast_S_S4 main_cst_50
  let main_v131 : IVec S4 1 := cmpf .olt main_v129 main_v130
  let main_c_51 : IVec S_ 1 := constantI S_ 1 1#1
  let main_v132 : IVec S_ 1 := (fun x v => Host.reduce IntOp.andi x v reducesTo_S4_S_d0 h_S_) main_v131 main_c_51
  let main_v133 : IVec S_ 1 := andi main_v128 main_v132
  let main_v134 : FVec F S4 .f32 := Host.absf main_arg35
  let main_cst_52 : FVec F S_ .f32 := constant S_ .f32 0x7F800000#32
  let main_v135 : FVec F S4 .f32 := broadcastInDim S4 ![] bcast_S_S4 main_cst_52
  let main_v136 : IVec S4 1 := cmpf .olt main_v134 main_v135
  fn_part8 (F := F) main_arg1 main_arg2 main_arg3 main_arg4 main_arg36 main_arg37 main_arg38 main_arg39 main_v133 main_v136

def fn_part6 {F : FTy → Type} [FloatOps F] (main_arg1 : IVec S2x983040 32) (main_arg2 : IVec S2x245760 32) (main_arg3 : IVec S2x61440 32) (main_arg4 : IVec S2x15360 32) (main_arg29 : FVec F S128x768 .f32) (main_arg30 : FVec F S3x2 .f32) (main_arg31 : FVec F S3x2 .f32) (main_arg32 : FVec F S128x256 .f32) (main_arg33 : FVec F S256 .f32) (main_arg34 : FVec F S4 .f32) (main_arg35 : FVec F S4 .f32) (main_arg36 : FVec F S41476x256 .f32) (main_arg37 : FVec F S256 .f32) (main_arg38 : FVec F S256x1 .f32) (main_arg39 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x768 .f32 := Host.absf main_arg29
  let main_cst_40 : FVec F S_ .f32 := constant S_ .f32 0x7F800000#32
  let main_v105 : FVec F S128x768 .f32 := broadcastInDim S128x768 ![] bcast_S_S128x768 main_cst_40
  let main_v106 : IVec S128x768 1 := cmpf .olt main_v104 main_v105
  let main_c_41 : IVec S_ 1 := constantI S_ 1 1#1
  let main_v107 : IVec S_ 1 := (fun x v => Host.reduce IntOp.andi x v reducesTo_S128x768_S_d0_1 h_S_) main_v106 main_c_41
  let main_v108 : IVec S_ 1 := andi main_v103 main_v107
  let main_v109 : FVec F S3x2 .f32 := Host.absf main_arg30
  let main_cst_42 : FVec F S_ .f32 := constant S_ .f32 0x7F800000#32
  let main_v110 : FVec F S3x2 .f32 := broadcastInDim S3x2 ![] bcast_S_S3x2 main_cst_42
  let main_v111 : IVec S3x2 1 := cmpf .olt main_v109 main_v110
  let main_c_43 : IVec S_ 1 := constantI S_ 1 1#1
  let main_v112 : IVec S_ 1 := (fun x v => Host.reduce IntOp.andi x v reducesTo_S3x2_S_d0_1 h_S_) main_v111 main_c_43
  let main_v113 : IVec S_ 1 := andi main_v108 main_v112
  let main_v114 : FVec F S3x2 .f32 := Host.absf main_arg31
  let main_cst_44 : FVec F S_ .f32 := constant S_ .f32 0x7F800000#32
  let main_v115 : FVec F S3x2 .f32 := broadcastInDim S3x2 ![] bcast_S_S3x2 main_cst_44
  let main_v116 : IVec S3x2 1 := cmpf .olt main_v114 main_v115
  let main_c_45 : IVec S_ 1 := constantI S_ 1 1#1
  let main_v117 : IVec S_ 1 := (fun x v => Host.reduce IntOp.andi x v reducesTo_S3x2_S_d0_1 h_S_) main_v116 main_c_45
  let main_v118 : IVec S_ 1 := andi main_v113 main_v117
  let main_v119 : FVec F S128x256 .f32 := Host.absf main_arg32
  fn_part7 (F := F) main_arg1 main_arg2 main_arg3 main_arg4 main_arg33 main_arg34 main_arg35 main_arg36 main_arg37 main_arg38 main_arg39 main_v118 main_v119

def fn_part5 {F : FTy → Type} [FloatOps F] (main_arg1 : IVec S2x983040 32) (main_arg2 : IVec S2x245760 32) (main_arg3 : IVec S2x61440 32) (main_arg4 : IVec S2x15360 32) (main_arg26 : FVec F S3x2 .f32) (main_arg27 : FVec F S64x128 .f32) (main_arg28 : FVec F S128 .f32) (main_arg29 : FVec F S128x768 .f32) (main_arg30 : FVec F S3x2 .f32) (main_arg31 : FVec F S3x2 .f32) (main_arg32 : FVec F S128x256 .f32) (main_arg33 : FVec F S256 .f32) (main_arg34 : FVec F S4 .f32) (main_arg35 : FVec F S4 .f32) (main_arg36 : FVec F S41476x256 .f32) (main_arg37 : FVec F S256 .f32) (main_arg38 : FVec F S256x1 .f32) (main_arg39 : FVec F S1 .f32) (main_v83 : IVec S_ 1) (main_v84 : FVec F S3x2 .f32) (main_cst_32 : FVec F S_ .f32) : IVec S_ 1 :=
  let main_v85 : FVec F S3x2 .f32 := broadcastInDim S3x2 ![] bcast_S_S3x2 main_cst_32
  let main_v86 : IVec S3x2 1 := cmpf .olt main_v84 main_v85
  let main_c_33 : IVec S_ 1 := constantI S_ 1 1#1
  let main_v87 : IVec S_ 1 := (fun x v => Host.reduce IntOp.andi x v reducesTo_S3x2_S_d0_1 h_S_) main_v86 main_c_33
  let main_v88 : IVec S_ 1 := andi main_v83 main_v87
  let main_v89 : FVec F S3x2 .f32 := Host.absf main_arg26
  let main_cst_34 : FVec F S_ .f32 := constant S_ .f32 0x7F800000#32
  let main_v90 : FVec F S3x2 .f32 := broadcastInDim S3x2 ![] bcast_S_S3x2 main_cst_34
  let main_v91 : IVec S3x2 1 := cmpf .olt main_v89 main_v90
  let main_c_35 : IVec S_ 1 := constantI S_ 1 1#1
  let main_v92 : IVec S_ 1 := (fun x v => Host.reduce IntOp.andi x v reducesTo_S3x2_S_d0_1 h_S_) main_v91 main_c_35
  let main_v93 : IVec S_ 1 := andi main_v88 main_v92
  let main_v94 : FVec F S64x128 .f32 := Host.absf main_arg27
  let main_cst_36 : FVec F S_ .f32 := constant S_ .f32 0x7F800000#32
  let main_v95 : FVec F S64x128 .f32 := broadcastInDim S64x128 ![] bcast_S_S64x128 main_cst_36
  let main_v96 : IVec S64x128 1 := cmpf .olt main_v94 main_v95
  let main_c_37 : IVec S_ 1 := constantI S_ 1 1#1
  let main_v97 : IVec S_ 1 := (fun x v => Host.reduce IntOp.andi x v reducesTo_S64x128_S_d0_1 h_S_) main_v96 main_c_37
  let main_v98 : IVec S_ 1 := andi main_v93 main_v97
  let main_v99 : FVec F S128 .f32 := Host.absf main_arg28
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg1 main_arg2 main_arg3 main_arg4 main_arg29 main_arg30 main_arg31 main_arg32 main_arg33 main_arg34 main_arg35 main_arg36 main_arg37 main_arg38 main_arg39 main_v98 main_v101 main_c_39

def fn_part4 {F : FTy → Type} [FloatOps F] (main_arg1 : IVec S2x983040 32) (main_arg2 : IVec S2x245760 32) (main_arg3 : IVec S2x61440 32) (main_arg4 : IVec S2x15360 32) (main_arg22 : FVec F S32x64 .f32) (main_arg23 : FVec F S64 .f32) (main_arg24 : FVec F S64x384 .f32) (main_arg25 : FVec F S3x2 .f32) (main_arg26 : FVec F S3x2 .f32) (main_arg27 : FVec F S64x128 .f32) (main_arg28 : FVec F S128 .f32) (main_arg29 : FVec F S128x768 .f32) (main_arg30 : FVec F S3x2 .f32) (main_arg31 : FVec F S3x2 .f32) (main_arg32 : FVec F S128x256 .f32) (main_arg33 : FVec F S256 .f32) (main_arg34 : FVec F S4 .f32) (main_arg35 : FVec F S4 .f32) (main_arg36 : FVec F S41476x256 .f32) (main_arg37 : FVec F S256 .f32) (main_arg38 : FVec F S256x1 .f32) (main_arg39 : FVec F S1 .f32) (main_v63 : IVec S_ 1) (main_v67 : IVec S_ 1) : IVec S_ 1 :=
  let main_v68 : IVec S_ 1 := andi main_v63 main_v67
  let main_v69 : FVec F S32x64 .f32 := Host.absf main_arg22
  let main_cst_26 : FVec F S_ .f32 := constant S_ .f32 0x7F800000#32
  let main_v70 : FVec F S32x64 .f32 := broadcastInDim S32x64 ![] bcast_S_S32x64 main_cst_26
  let main_v71 : IVec S32x64 1 := cmpf .olt main_v69 main_v70
  let main_c_27 : IVec S_ 1 := constantI S_ 1 1#1
  let main_v72 : IVec S_ 1 := (fun x v => Host.reduce IntOp.andi x v reducesTo_S32x64_S_d0_1 h_S_) main_v71 main_c_27
  let main_v73 : IVec S_ 1 := andi main_v68 main_v72
  let main_v74 : FVec F S64 .f32 := Host.absf main_arg23
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x384 .f32 := Host.absf main_arg24
  let main_cst_30 : FVec F S_ .f32 := constant S_ .f32 0x7F800000#32
  let main_v80 : FVec F S64x384 .f32 := broadcastInDim S64x384 ![] bcast_S_S64x384 main_cst_30
  let main_v81 : IVec S64x384 1 := cmpf .olt main_v79 main_v80
  let main_c_31 : IVec S_ 1 := constantI S_ 1 1#1
  let main_v82 : IVec S_ 1 := (fun x v => Host.reduce IntOp.andi x v reducesTo_S64x384_S_d0_1 h_S_) main_v81 main_c_31
  let main_v83 : IVec S_ 1 := andi main_v78 main_v82
  let main_v84 : FVec F S3x2 .f32 := Host.absf main_arg25
  let main_cst_32 : FVec F S_ .f32 := constant S_ .f32 0x7F800000#32
  fn_part5 (F := F) main_arg1 main_arg2 main_arg3 main_arg4 main_arg26 main_arg27 main_arg28 main_arg29 main_arg30 main_arg31 main_arg32 main_arg33 main_arg34 main_arg35 main_arg36 main_arg37 main_arg38 main_arg39 main_v83 main_v84 main_cst_32

def fn_part3 {F : FTy → Type} [FloatOps F] (main_arg1 : IVec S2x983040 32) (main_arg2 : IVec S2x245760 32) (main_arg3 : IVec S2x61440 32) (main_arg4 : IVec S2x15360 32) (main_arg19 : FVec F S32x192 .f32) (main_arg20 : FVec F S3x2 .f32) (main_arg21 : FVec F S3x2 .f32) (main_arg22 : FVec F S32x64 .f32) (main_arg23 : FVec F S64 .f32) (main_arg24 : FVec F S64x384 .f32) (main_arg25 : FVec F S3x2 .f32) (main_arg26 : FVec F S3x2 .f32) (main_arg27 : FVec F S64x128 .f32) (main_arg28 : FVec F S128 .f32) (main_arg29 : FVec F S128x768 .f32) (main_arg30 : FVec F S3x2 .f32) (main_arg31 : FVec F S3x2 .f32) (main_arg32 : FVec F S128x256 .f32) (main_arg33 : FVec F S256 .f32) (main_arg34 : FVec F S4 .f32) (main_arg35 : FVec F S4 .f32) (main_arg36 : FVec F S41476x256 .f32) (main_arg37 : FVec F S256 .f32) (main_arg38 : FVec F S256x1 .f32) (main_arg39 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x192 .f32 := Host.absf main_arg19
  let main_cst_20 : FVec F S_ .f32 := constant S_ .f32 0x7F800000#32
  let main_v55 : FVec F S32x192 .f32 := broadcastInDim S32x192 ![] bcast_S_S32x192 main_cst_20
  let main_v56 : IVec S32x192 1 := cmpf .olt main_v54 main_v55
  let main_c_21 : IVec S_ 1 := constantI S_ 1 1#1
  let main_v57 : IVec S_ 1 := (fun x v => Host.reduce IntOp.andi x v reducesTo_S32x192_S_d0_1 h_S_) main_v56 main_c_21
  let main_v58 : IVec S_ 1 := andi main_v53 main_v57
  let main_v59 : FVec F S3x2 .f32 := Host.absf main_arg20
  let main_cst_22 : FVec F S_ .f32 := constant S_ .f32 0x7F800000#32
  let main_v60 : FVec F S3x2 .f32 := broadcastInDim S3x2 ![] bcast_S_S3x2 main_cst_22
  let main_v61 : IVec S3x2 1 := cmpf .olt main_v59 main_v60
  let main_c_23 : IVec S_ 1 := constantI S_ 1 1#1
  let main_v62 : IVec S_ 1 := (fun x v => Host.reduce IntOp.andi x v reducesTo_S3x2_S_d0_1 h_S_) main_v61 main_c_23
  let main_v63 : IVec S_ 1 := andi main_v58 main_v62
  let main_v64 : FVec F S3x2 .f32 := Host.absf main_arg21
  let main_cst_24 : FVec F S_ .f32 := constant S_ .f32 0x7F800000#32
  let main_v65 : FVec F S3x2 .f32 := broadcastInDim S3x2 ![] bcast_S_S3x2 main_cst_24
  let main_v66 : IVec S3x2 1 := cmpf .olt main_v64 main_v65
  let main_c_25 : IVec S_ 1 := constantI S_ 1 1#1
  let main_v67 : IVec S_ 1 := (fun x v => Host.reduce IntOp.andi x v reducesTo_S3x2_S_d0_1 h_S_) main_v66 main_c_25
  fn_part4 (F := F) main_arg1 main_arg2 main_arg3 main_arg4 main_arg22 main_arg23 main_arg24 main_arg25 main_arg26 main_arg27 main_arg28 main_arg29 main_arg30 main_arg31 main_arg32 main_arg33 main_arg34 main_arg35 main_arg36 main_arg37 main_arg38 main_arg39 main_v63 main_v67

def fn_part2 {F : FTy → Type} [FloatOps F] (main_arg1 : IVec S2x983040 32) (main_arg2 : IVec S2x245760 32) (main_arg3 : IVec S2x61440 32) (main_arg4 : IVec S2x15360 32) (main_arg15 : FVec F S3x2 .f32) (main_arg16 : FVec F S3x2 .f32) (main_arg17 : FVec F S2x32 .f32) (main_arg18 : FVec F S32 .f32) (main_arg19 : FVec F S32x192 .f32) (main_arg20 : FVec F S3x2 .f32) (main_arg21 : FVec F S3x2 .f32) (main_arg22 : FVec F S32x64 .f32) (main_arg23 : FVec F S64 .f32) (main_arg24 : FVec F S64x384 .f32) (main_arg25 : FVec F S3x2 .f32) (main_arg26 : FVec F S3x2 .f32) (main_arg27 : FVec F S64x128 .f32) (main_arg28 : FVec F S128 .f32) (main_arg29 : FVec F S128x768 .f32) (main_arg30 : FVec F S3x2 .f32) (main_arg31 : FVec F S3x2 .f32) (main_arg32 : FVec F S128x256 .f32) (main_arg33 : FVec F S256 .f32) (main_arg34 : FVec F S4 .f32) (main_arg35 : FVec F S4 .f32) (main_arg36 : FVec F S41476x256 .f32) (main_arg37 : FVec F S256 .f32) (main_arg38 : FVec F S256x1 .f32) (main_arg39 : FVec F S1 .f32) (main_v33 : IVec S_ 1) : IVec S_ 1 :=
  let main_v34 : FVec F S3x2 .f32 := Host.absf main_arg15
  let main_cst_12 : FVec F S_ .f32 := constant S_ .f32 0x7F800000#32
  let main_v35 : FVec F S3x2 .f32 := broadcastInDim S3x2 ![] bcast_S_S3x2 main_cst_12
  let main_v36 : IVec S3x2 1 := cmpf .olt main_v34 main_v35
  let main_c_13 : IVec S_ 1 := constantI S_ 1 1#1
  let main_v37 : IVec S_ 1 := (fun x v => Host.reduce IntOp.andi x v reducesTo_S3x2_S_d0_1 h_S_) main_v36 main_c_13
  let main_v38 : IVec S_ 1 := andi main_v33 main_v37
  let main_v39 : FVec F S3x2 .f32 := Host.absf main_arg16
  let main_cst_14 : FVec F S_ .f32 := constant S_ .f32 0x7F800000#32
  let main_v40 : FVec F S3x2 .f32 := broadcastInDim S3x2 ![] bcast_S_S3x2 main_cst_14
  let main_v41 : IVec S3x2 1 := cmpf .olt main_v39 main_v40
  let main_c_15 : IVec S_ 1 := constantI S_ 1 1#1
  let main_v42 : IVec S_ 1 := (fun x v => Host.reduce IntOp.andi x v reducesTo_S3x2_S_d0_1 h_S_) main_v41 main_c_15
  let main_v43 : IVec S_ 1 := andi main_v38 main_v42
  let main_v44 : FVec F S2x32 .f32 := Host.absf main_arg17
  let main_cst_16 : FVec F S_ .f32 := constant S_ .f32 0x7F800000#32
  let main_v45 : FVec F S2x32 .f32 := broadcastInDim S2x32 ![] bcast_S_S2x32 main_cst_16
  let main_v46 : IVec S2x32 1 := cmpf .olt main_v44 main_v45
  let main_c_17 : IVec S_ 1 := constantI S_ 1 1#1
  let main_v47 : IVec S_ 1 := (fun x v => Host.reduce IntOp.andi x v reducesTo_S2x32_S_d0_1 h_S_) main_v46 main_c_17
  let main_v48 : IVec S_ 1 := andi main_v43 main_v47
  let main_v49 : FVec F S32 .f32 := Host.absf main_arg18
  let main_cst_18 : FVec F S_ .f32 := constant S_ .f32 0x7F800000#32
  let main_v50 : FVec F S32 .f32 := broadcastInDim S32 ![] bcast_S_S32 main_cst_18
  fn_part3 (F := F) main_arg1 main_arg2 main_arg3 main_arg4 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v48 main_v49 main_v50

def fn_part1 {F : FTy → Type} [FloatOps F] (main_arg1 : IVec S2x983040 32) (main_arg2 : IVec S2x245760 32) (main_arg3 : IVec S2x61440 32) (main_arg4 : IVec S2x15360 32) (main_arg8 : FVec F S15360x2 .f32) (main_arg13 : FVec F S4x1 .f32) (main_arg14 : FVec F S2x96 .f32) (main_arg15 : FVec F S3x2 .f32) (main_arg16 : FVec F S3x2 .f32) (main_arg17 : FVec F S2x32 .f32) (main_arg18 : FVec F S32 .f32) (main_arg19 : FVec F S32x192 .f32) (main_arg20 : FVec F S3x2 .f32) (main_arg21 : FVec F S3x2 .f32) (main_arg22 : FVec F S32x64 .f32) (main_arg23 : FVec F S64 .f32) (main_arg24 : FVec F S64x384 .f32) (main_arg25 : FVec F S3x2 .f32) (main_arg26 : FVec F S3x2 .f32) (main_arg27 : FVec F S64x128 .f32) (main_arg28 : FVec F S128 .f32) (main_arg29 : FVec F S128x768 .f32) (main_arg30 : FVec F S3x2 .f32) (main_arg31 : FVec F S3x2 .f32) (main_arg32 : FVec F S128x256 .f32) (main_arg33 : FVec F S256 .f32) (main_arg34 : FVec F S4 .f32) (main_arg35 : FVec F S4 .f32) (main_arg36 : FVec F S41476x256 .f32) (main_arg37 : FVec F S256 .f32) (main_arg38 : FVec F S256x1 .f32) (main_arg39 : FVec F S1 .f32) (main_v13 : IVec S_ 1) (main_v16 : IVec S61440x2 1) : IVec S_ 1 :=
  let main_c_5 : IVec S_ 1 := constantI S_ 1 1#1
  let main_v17 : IVec S_ 1 := (fun x v => Host.reduce IntOp.andi x v reducesTo_S61440x2_S_d0_1 h_S_) main_v16 main_c_5
  let main_v18 : IVec S_ 1 := andi main_v13 main_v17
  let main_v19 : FVec F S15360x2 .f32 := Host.absf main_arg8
  let main_cst_6 : FVec F S_ .f32 := constant S_ .f32 0x7F800000#32
  let main_v20 : FVec F S15360x2 .f32 := broadcastInDim S15360x2 ![] bcast_S_S15360x2 main_cst_6
  let main_v21 : IVec S15360x2 1 := cmpf .olt main_v19 main_v20
  let main_c_7 : IVec S_ 1 := constantI S_ 1 1#1
  let main_v22 : IVec S_ 1 := (fun x v => Host.reduce IntOp.andi x v reducesTo_S15360x2_S_d0_1 h_S_) main_v21 main_c_7
  let main_v23 : IVec S_ 1 := andi main_v18 main_v22
  let main_v24 : FVec F S4x1 .f32 := Host.absf main_arg13
  let main_cst_8 : FVec F S_ .f32 := constant S_ .f32 0x7F800000#32
  let main_v25 : FVec F S4x1 .f32 := broadcastInDim S4x1 ![] bcast_S_S4x1 main_cst_8
  let main_v26 : IVec S4x1 1 := cmpf .olt main_v24 main_v25
  let main_c_9 : IVec S_ 1 := constantI S_ 1 1#1
  let main_v27 : IVec S_ 1 := (fun x v => Host.reduce IntOp.andi x v reducesTo_S4x1_S_d0_1 h_S_) main_v26 main_c_9
  let main_v28 : IVec S_ 1 := andi main_v23 main_v27
  let main_v29 : FVec F S2x96 .f32 := Host.absf main_arg14
  let main_cst_10 : FVec F S_ .f32 := constant S_ .f32 0x7F800000#32
  let main_v30 : FVec F S2x96 .f32 := broadcastInDim S2x96 ![] bcast_S_S2x96 main_cst_10
  let main_v31 : IVec S2x96 1 := cmpf .olt main_v29 main_v30
  let main_c_11 : IVec S_ 1 := constantI S_ 1 1#1
  let main_v32 : IVec S_ 1 := (fun x v => Host.reduce IntOp.andi x v reducesTo_S2x96_S_d0_1 h_S_) main_v31 main_c_11
  let main_v33 : IVec S_ 1 := andi main_v28 main_v32
  fn_part2 (F := F) main_arg1 main_arg2 main_arg3 main_arg4 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v33

def fn {F : FTy → Type} [FloatOps F] (main_arg0 : FVec F S163848x2 .f32) (main_arg1 : IVec S2x983040 32) (main_arg2 : IVec S2x245760 32) (main_arg3 : IVec S2x61440 32) (main_arg4 : IVec S2x15360 32) (main_arg5 : FVec F S983040x2 .f32) (main_arg6 : FVec F S245760x2 .f32) (main_arg7 : FVec F S61440x2 .f32) (main_arg8 : FVec F S15360x2 .f32) (main_arg9 : IVec S40962x7 32) (main_arg10 : IVec S10242x7 32) (main_arg11 : IVec S2562x7 32) (main_arg12 : IVec S642x7 32) (main_arg13 : FVec F S4x1 .f32) (main_arg14 : FVec F S2x96 .f32) (main_arg15 : FVec F S3x2 .f32) (main_arg16 : FVec F S3x2 .f32) (main_arg17 : FVec F S2x32 .f32) (main_arg18 : FVec F S32 .f32) (main_arg19 : FVec F S32x192 .f32) (main_arg20 : FVec F S3x2 .f32) (main_arg21 : FVec F S3x2 .f32) (main_arg22 : FVec F S32x64 .f32) (main_arg23 : FVec F S64 .f32) (main_arg24 : FVec F S64x384 .f32) (main_arg25 : FVec F S3x2 .f32) (main_arg26 : FVec F S3x2 .f32) (main_arg27 : FVec F S64x128 .f32) (main_arg28 : FVec F S128 .f32) (main_arg29 : FVec F S128x768 .f32) (main_arg30 : FVec F S3x2 .f32) (main_arg31 : FVec F S3x2 .f32) (main_arg32 : FVec F S128x256 .f32) (main_arg33 : FVec F S256 .f32) (main_arg34 : FVec F S4 .f32) (main_arg35 : FVec F S4 .f32) (main_arg36 : FVec F S41476x256 .f32) (main_arg37 : FVec F S256 .f32) (main_arg38 : FVec F S256x1 .f32) (main_arg39 : FVec F S1 .f32) : IVec S_ 1 :=
  let main_v0 : FVec F S163848x2 .f32 := Host.absf main_arg0
  let main_cst : FVec F S_ .f32 := constant S_ .f32 0x7F800000#32
  let main_v1 : FVec F S163848x2 .f32 := broadcastInDim S163848x2 ![] bcast_S_S163848x2 main_cst
  let main_v2 : IVec S163848x2 1 := cmpf .olt main_v0 main_v1
  let main_c : IVec S_ 1 := constantI S_ 1 1#1
  let main_v3 : IVec S_ 1 := (fun x v => Host.reduce IntOp.andi x v reducesTo_S163848x2_S_d0_1 h_S_) main_v2 main_c
  let main_v4 : FVec F S983040x2 .f32 := Host.absf main_arg5
  let main_cst_0 : FVec F S_ .f32 := constant S_ .f32 0x7F800000#32
  let main_v5 : FVec F S983040x2 .f32 := broadcastInDim S983040x2 ![] bcast_S_S983040x2 main_cst_0
  let main_v6 : IVec S983040x2 1 := cmpf .olt main_v4 main_v5
  let main_c_1 : IVec S_ 1 := constantI S_ 1 1#1
  let main_v7 : IVec S_ 1 := (fun x v => Host.reduce IntOp.andi x v reducesTo_S983040x2_S_d0_1 h_S_) main_v6 main_c_1
  let main_v8 : IVec S_ 1 := andi main_v3 main_v7
  let main_v9 : FVec F S245760x2 .f32 := Host.absf main_arg6
  let main_cst_2 : FVec F S_ .f32 := constant S_ .f32 0x7F800000#32
  let main_v10 : FVec F S245760x2 .f32 := broadcastInDim S245760x2 ![] bcast_S_S245760x2 main_cst_2
  let main_v11 : IVec S245760x2 1 := cmpf .olt main_v9 main_v10
  let main_c_3 : IVec S_ 1 := constantI S_ 1 1#1
  let main_v12 : IVec S_ 1 := (fun x v => Host.reduce IntOp.andi x v reducesTo_S245760x2_S_d0_1 h_S_) main_v11 main_c_3
  let main_v13 : IVec S_ 1 := andi main_v8 main_v12
  let main_v14 : FVec F S61440x2 .f32 := Host.absf main_arg7
  let main_cst_4 : FVec F S_ .f32 := constant S_ .f32 0x7F800000#32
  let main_v15 : FVec F S61440x2 .f32 := broadcastInDim S61440x2 ![] bcast_S_S61440x2 main_cst_4
  let main_v16 : IVec S61440x2 1 := cmpf .olt main_v14 main_v15
  fn_part1 (F := F) main_arg1 main_arg2 main_arg3 main_arg4 main_arg8 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_arg39 main_v13 main_v16
-- ==== Kernel.lean ====
abbrev S163848x2 : Shape := ⟨2, ![163848, 2]⟩
abbrev S2x983040 : Shape := ⟨2, ![2, 983040]⟩
abbrev S2x245760 : Shape := ⟨2, ![2, 245760]⟩
abbrev S2x61440 : Shape := ⟨2, ![2, 61440]⟩
abbrev S2x15360 : Shape := ⟨2, ![2, 15360]⟩
abbrev S983040x2 : Shape := ⟨2, ![983040, 2]⟩
abbrev S245760x2 : Shape := ⟨2, ![245760, 2]⟩
abbrev S61440x2 : Shape := ⟨2, ![61440, 2]⟩
abbrev S15360x2 : Shape := ⟨2, ![15360, 2]⟩
abbrev S40962x7 : Shape := ⟨2, ![40962, 7]⟩
abbrev S10242x7 : Shape := ⟨2, ![10242, 7]⟩
abbrev S2562x7 : Shape := ⟨2, ![2562, 7]⟩
abbrev S642x7 : Shape := ⟨2, ![642, 7]⟩
abbrev S4x1 : Shape := ⟨2, ![4, 1]⟩
abbrev S2x96 : Shape := ⟨2, ![2, 96]⟩
abbrev S3x2 : Shape := ⟨2, ![3, 2]⟩
abbrev S2x32 : Shape := ⟨2, ![2, 32]⟩
abbrev S32 : Shape := ⟨1, ![32]⟩
abbrev S32x192 : Shape := ⟨2, ![32, 192]⟩
abbrev S32x64 : Shape := ⟨2, ![32, 64]⟩
abbrev S64 : Shape := ⟨1, ![64]⟩
abbrev S64x384 : Shape := ⟨2, ![64, 384]⟩
abbrev S64x128 : Shape := ⟨2, ![64, 128]⟩
abbrev S128 : Shape := ⟨1, ![128]⟩
abbrev S128x768 : Shape := ⟨2, ![128, 768]⟩
abbrev S128x256 : Shape := ⟨2, ![128, 256]⟩
abbrev S256 : Shape := ⟨1, ![256]⟩
abbrev S4 : Shape := ⟨1, ![4]⟩
abbrev S41476x256 : Shape := ⟨2, ![41476, 256]⟩
abbrev S256x1 : Shape := ⟨2, ![256, 1]⟩
abbrev S1 : Shape := ⟨1, ![1]⟩
abbrev S1x983040 : Shape := ⟨2, ![1, 983040]⟩
abbrev S983040 : Shape := ⟨1, ![983040]⟩
abbrev S_ : Shape := ⟨0, ![]⟩
abbrev S983040x1 : Shape := ⟨2, ![983040, 1]⟩
abbrev S1x1 : Shape := ⟨2, ![1, 1]⟩
abbrev S6x32 : Shape := ⟨2, ![6, 32]⟩
abbrev S983040x32 : Shape := ⟨2, ![983040, 32]⟩
abbrev S8192x2 : Shape := ⟨2, ![8192, 2]⟩
abbrev S8192x32 : Shape := ⟨2, ![8192, 32]⟩
abbrev S8192x6 : Shape := ⟨2, ![8192, 6]⟩
abbrev S1x2 : Shape := ⟨2, ![1, 2]⟩
abbrev S2 : Shape := ⟨1, ![2]⟩
abbrev S8192 : Shape := ⟨1, ![8192]⟩
abbrev S8192x1 : Shape := ⟨2, ![8192, 1]⟩
abbrev S983040x33 : Shape := ⟨2, ![983040, 33]⟩
abbrev S163848x33 : Shape := ⟨2, ![163848, 33]⟩
abbrev S163848x32 : Shape := ⟨2, ![163848, 32]⟩
abbrev S163848x1 : Shape := ⟨2, ![163848, 1]⟩
abbrev S1x32 : Shape := ⟨2, ![1, 32]⟩
abbrev S4x40962x32 : Shape := ⟨3, ![4, 40962, 32]⟩
abbrev S40962x7x1 : Shape := ⟨3, ![40962, 7, 1]⟩
abbrev S4x40962x7x32 : Shape := ⟨4, ![4, 40962, 7, 32]⟩
abbrev S4x10242x32 : Shape := ⟨3, ![4, 10242, 32]⟩
abbrev S40968x32 : Shape := ⟨2, ![40968, 32]⟩
abbrev S1x245760 : Shape := ⟨2, ![1, 245760]⟩
abbrev S245760 : Shape := ⟨1, ![245760]⟩
abbrev S245760x1 : Shape := ⟨2, ![245760, 1]⟩
abbrev S245760x32 : Shape := ⟨2, ![245760, 32]⟩
abbrev S96x64 : Shape := ⟨2, ![96, 64]⟩
abbrev S245760x64 : Shape := ⟨2, ![245760, 64]⟩
abbrev S8192x64 : Shape := ⟨2, ![8192, 64]⟩
abbrev S8192x96 : Shape := ⟨2, ![8192, 96]⟩
abbrev S245760x65 : Shape := ⟨2, ![245760, 65]⟩
abbrev S40968x65 : Shape := ⟨2, ![40968, 65]⟩
abbrev S40968x64 : Shape := ⟨2, ![40968, 64]⟩
abbrev S40968x1 : Shape := ⟨2, ![40968, 1]⟩
abbrev S1x64 : Shape := ⟨2, ![1, 64]⟩
abbrev S4x10242x64 : Shape := ⟨3, ![4, 10242, 64]⟩
abbrev S10242x7x1 : Shape := ⟨3, ![10242, 7, 1]⟩
abbrev S4x10242x7x64 : Shape := ⟨4, ![4, 10242, 7, 64]⟩
abbrev S4x2562x64 : Shape := ⟨3, ![4, 2562, 64]⟩
abbrev S10248x64 : Shape := ⟨2, ![10248, 64]⟩
abbrev S1x61440 : Shape := ⟨2, ![1, 61440]⟩
abbrev S61440 : Shape := ⟨1, ![61440]⟩
abbrev S61440x1 : Shape := ⟨2, ![61440, 1]⟩
abbrev S61440x64 : Shape := ⟨2, ![61440, 64]⟩
abbrev S192x128 : Shape := ⟨2, ![192, 128]⟩
abbrev S61440x128 : Shape := ⟨2, ![61440, 128]⟩
abbrev S7680x64 : Shape := ⟨2, ![7680, 64]⟩
abbrev S7680x2 : Shape := ⟨2, ![7680, 2]⟩
abbrev S7680x128 : Shape := ⟨2, ![7680, 128]⟩
abbrev S7680x192 : Shape := ⟨2, ![7680, 192]⟩
abbrev S7680 : Shape := ⟨1, ![7680]⟩
abbrev S7680x1 : Shape := ⟨2, ![7680, 1]⟩
abbrev S61440x129 : Shape := ⟨2, ![61440, 129]⟩
abbrev S10248x129 : Shape := ⟨2, ![10248, 129]⟩
abbrev S10248x128 : Shape := ⟨2, ![10248, 128]⟩
abbrev S10248x1 : Shape := ⟨2, ![10248, 1]⟩
abbrev S1x128 : Shape := ⟨2, ![1, 128]⟩
abbrev S4x2562x128 : Shape := ⟨3, ![4, 2562, 128]⟩
abbrev S2562x7x1 : Shape := ⟨3, ![2562, 7, 1]⟩
abbrev S4x2562x7x128 : Shape := ⟨4, ![4, 2562, 7, 128]⟩
abbrev S4x642x128 : Shape := ⟨3, ![4, 642, 128]⟩
abbrev S2568x128 : Shape := ⟨2, ![2568, 128]⟩
abbrev S1x15360 : Shape := ⟨2, ![1, 15360]⟩
abbrev S15360 : Shape := ⟨1, ![15360]⟩
abbrev S15360x1 : Shape := ⟨2, ![15360, 1]⟩
abbrev S15360x128 : Shape := ⟨2, ![15360, 128]⟩
abbrev S384x256 : Shape := ⟨2, ![384, 256]⟩
abbrev S15360x256 : Shape := ⟨2, ![15360, 256]⟩
abbrev S3840x128 : Shape := ⟨2, ![3840, 128]⟩
abbrev S3840x2 : Shape := ⟨2, ![3840, 2]⟩
abbrev S3840x256 : Shape := ⟨2, ![3840, 256]⟩
abbrev S3840x384 : Shape := ⟨2, ![3840, 384]⟩
abbrev S3840 : Shape := ⟨1, ![3840]⟩
abbrev S3840x1 : Shape := ⟨2, ![3840, 1]⟩
abbrev S15360x257 : Shape := ⟨2, ![15360, 257]⟩
abbrev S2568x257 : Shape := ⟨2, ![2568, 257]⟩
abbrev S2568x256 : Shape := ⟨2, ![2568, 256]⟩
abbrev S2568x1 : Shape := ⟨2, ![2568, 1]⟩
abbrev S1x256 : Shape := ⟨2, ![1, 256]⟩
abbrev S4x642x256 : Shape := ⟨3, ![4, 642, 256]⟩
abbrev S642x7x1 : Shape := ⟨3, ![642, 7, 1]⟩
abbrev S4x642x7x256 : Shape := ⟨4, ![4, 642, 7, 256]⟩
abbrev S4x162x256 : Shape := ⟨3, ![4, 162, 256]⟩
abbrev S648x256 : Shape := ⟨2, ![648, 256]⟩
abbrev S1x4 : Shape := ⟨2, ![1, 4]⟩
abbrev S4x4 : Shape := ⟨2, ![4, 4]⟩
abbrev S4x41472 : Shape := ⟨2, ![4, 41472]⟩
abbrev S4x41476 : Shape := ⟨2, ![4, 41476]⟩
abbrev S4x256 : Shape := ⟨2, ![4, 256]⟩

abbrev nBuf : Space → Nat
  | .hbm => 341
  | .vmem => 40
  | .smem => 0
  | _ => 0

abbrev hbmTy0_0 (i : Nat) : BufTy := match i % 128 with
  | 0 => ⟨S163848x2, .f32⟩
  | 1 => ⟨S2x983040, .i32⟩
  | 2 => ⟨S2x245760, .i32⟩
  | 3 => ⟨S2x61440, .i32⟩
  | 4 => ⟨S2x15360, .i32⟩
  | 5 => ⟨S983040x2, .f32⟩
  | 6 => ⟨S245760x2, .f32⟩
  | 7 => ⟨S61440x2, .f32⟩
  | 8 => ⟨S15360x2, .f32⟩
  | 9 => ⟨S40962x7, .i32⟩
  | 10 => ⟨S10242x7, .i32⟩
  | 11 => ⟨S2562x7, .i32⟩
  | 12 => ⟨S642x7, .i32⟩
  | 13 => ⟨S4x1, .f32⟩
  | 14 => ⟨S2x96, .f32⟩
  | 15 => ⟨S3x2, .f32⟩
  | 16 => ⟨S3x2, .f32⟩
  | 17 => ⟨S2x32, .f32⟩
  | 18 => ⟨S32, .f32⟩
  | 19 => ⟨S32x192, .f32⟩
  | 20 => ⟨S3x2, .f32⟩
  | 21 => ⟨S3x2, .f32⟩
  | 22 => ⟨S32x64, .f32⟩
  | 23 => ⟨S64, .f32⟩
  | 24 => ⟨S64x384, .f32⟩
  | 25 => ⟨S3x2, .f32⟩
  | 26 => ⟨S3x2, .f32⟩
  | 27 => ⟨S64x128, .f32⟩
  | 28 => ⟨S128, .f32⟩
  | 29 => ⟨S128x768, .f32⟩
  | 30 => ⟨S3x2, .f32⟩
  | 31 => ⟨S3x2, .f32⟩
  | 32 => ⟨S128x256, .f32⟩
  | 33 => ⟨S256, .f32⟩
  | 34 => ⟨S4, .f32⟩
  | 35 => ⟨S4, .f32⟩
  | 36 => ⟨S41476x256, .f32⟩
  | 37 => ⟨S256, .f32⟩
  | 38 => ⟨S256x1, .f32⟩
  | 39 => ⟨S1, .f32⟩
  | 40 => ⟨S1x983040, .i32⟩
  | 41 => ⟨S983040, .i32⟩
  | 42 => ⟨S1x983040, .i32⟩
  | 43 => ⟨S983040, .i32⟩
  | 44 => ⟨S_, .i32⟩
  | 45 => ⟨S983040, .i32⟩
  | 46 => ⟨S983040, .i1⟩
  | 47 => ⟨S_, .i32⟩
  | 48 => ⟨S983040, .i32⟩
  | 49 => ⟨S983040, .i32⟩
  | 50 => ⟨S983040, .i32⟩
  | 51 => ⟨S983040x1, .i32⟩
  | 52 => ⟨S1, .i32⟩
  | 53 => ⟨S_, .i32⟩
  | 54 => ⟨S983040x1, .i32⟩
  | 55 => ⟨S983040x1, .i1⟩
  | 56 => ⟨S1x1, .i32⟩
  | 57 => ⟨S983040x1, .i32⟩
  | 58 => ⟨S983040x1, .i1⟩
  | 59 => ⟨S983040x1, .i1⟩
  | 60 => ⟨S_, .i1⟩
  | 61 => ⟨S983040, .i1⟩
  | 62 => ⟨S983040x2, .f32⟩
  | 63 => ⟨S983040x2, .i1⟩
  | 64 => ⟨S_, .f32⟩
  | 65 => ⟨S983040x2, .f32⟩
  | 66 => ⟨S983040x2, .f32⟩
  | 67 => ⟨S983040x2, .bf16⟩
  | 68 => ⟨S2x32, .f32⟩
  | 69 => ⟨S2x32, .f32⟩
  | 70 => ⟨S2x32, .f32⟩
  | 71 => ⟨S6x32, .f32⟩
  | 72 => ⟨S6x32, .bf16⟩
  | 73 => ⟨S983040x32, .f32⟩
  | 74 => ⟨S_, .f32⟩
  | 75 => ⟨S983040x1, .f32⟩
  | 76 => ⟨S983040x33, .f32⟩
  | 77 => ⟨S_, .f32⟩
  | 78 => ⟨S163848x33, .f32⟩
  | 79 => ⟨S983040x1, .i32⟩
  | 80 => ⟨S163848x33, .f32⟩
  | 81 => ⟨S163848x32, .f32⟩
  | 82 => ⟨S163848x1, .f32⟩
  | 83 => ⟨S_, .f32⟩
  | 84 => ⟨S163848x1, .f32⟩
  | 85 => ⟨S163848x1, .f32⟩
  | 86 => ⟨S163848x32, .f32⟩
  | 87 => ⟨S163848x32, .f32⟩
  | 88 => ⟨S163848x32, .f32⟩
  | 89 => ⟨S163848x32, .f32⟩
  | 90 => ⟨S1x32, .f32⟩
  | 91 => ⟨S163848x32, .f32⟩
  | 92 => ⟨S163848x32, .f32⟩
  | 93 => ⟨S_, .f32⟩
  | 94 => ⟨S163848x32, .f32⟩
  | 95 => ⟨S163848x32, .f32⟩
  | 96 => ⟨S4x40962x32, .f32⟩
  | 97 => ⟨S_, .i32⟩
  | 98 => ⟨S40962x7, .i32⟩
  | 99 => ⟨S40962x7, .i1⟩
  | 100 => ⟨S_, .i32⟩
  | 101 => ⟨S40962x7, .i32⟩
  | 102 => ⟨S40962x7, .i32⟩
  | 103 => ⟨S40962x7, .i32⟩
  | 104 => ⟨S40962x7x1, .i32⟩
  | 105 => ⟨S4x40962x7x32, .f32⟩
  | 106 => ⟨S_, .f32⟩
  | 107 => ⟨S4x40962x32, .f32⟩
  | 108 => ⟨S4x10242x32, .f32⟩
  | 109 => ⟨S40968x32, .f32⟩
  | 110 => ⟨S1x245760, .i32⟩
  | 111 => ⟨S245760, .i32⟩
  | 112 => ⟨S1x245760, .i32⟩
  | 113 => ⟨S245760, .i32⟩
  | 114 => ⟨S_, .i32⟩
  | 115 => ⟨S245760, .i32⟩
  | 116 => ⟨S245760, .i1⟩
  | 117 => ⟨S_, .i32⟩
  | 118 => ⟨S245760, .i32⟩
  | 119 => ⟨S245760, .i32⟩
  | 120 => ⟨S245760, .i32⟩
  | 121 => ⟨S245760x1, .i32⟩
  | 122 => ⟨S1, .i32⟩
  | 123 => ⟨S_, .i32⟩
  | 124 => ⟨S245760x1, .i32⟩
  | 125 => ⟨S245760x1, .i1⟩
  | 126 => ⟨S1x1, .i32⟩
  | 127 => ⟨S245760x1, .i32⟩
  | _ => ⟨S163848x2, .f32⟩

abbrev hbmTy0_1 (i : Nat) : BufTy := match i % 128 with
  | 0 => ⟨S245760x1, .i1⟩
  | 1 => ⟨S245760x1, .i1⟩
  | 2 => ⟨S_, .i1⟩
  | 3 => ⟨S245760, .i1⟩
  | 4 => ⟨S245760x32, .f32⟩
  | 5 => ⟨S245760x32, .i1⟩
  | 6 => ⟨S_, .f32⟩
  | 7 => ⟨S245760x32, .f32⟩
  | 8 => ⟨S245760x32, .f32⟩
  | 9 => ⟨S245760x32, .bf16⟩
  | 10 => ⟨S32x64, .f32⟩
  | 11 => ⟨S32x64, .f32⟩
  | 12 => ⟨S32x64, .f32⟩
  | 13 => ⟨S96x64, .f32⟩
  | 14 => ⟨S96x64, .bf16⟩
  | 15 => ⟨S245760x64, .f32⟩
  | 16 => ⟨S_, .f32⟩
  | 17 => ⟨S245760x1, .f32⟩
  | 18 => ⟨S245760x65, .f32⟩
  | 19 => ⟨S_, .f32⟩
  | 20 => ⟨S40968x65, .f32⟩
  | 21 => ⟨S245760x1, .i32⟩
  | 22 => ⟨S40968x65, .f32⟩
  | 23 => ⟨S40968x64, .f32⟩
  | 24 => ⟨S40968x1, .f32⟩
  | 25 => ⟨S_, .f32⟩
  | 26 => ⟨S40968x1, .f32⟩
  | 27 => ⟨S40968x1, .f32⟩
  | 28 => ⟨S40968x64, .f32⟩
  | 29 => ⟨S40968x64, .f32⟩
  | 30 => ⟨S40968x64, .f32⟩
  | 31 => ⟨S40968x64, .f32⟩
  | 32 => ⟨S1x64, .f32⟩
  | 33 => ⟨S40968x64, .f32⟩
  | 34 => ⟨S40968x64, .f32⟩
  | 35 => ⟨S_, .f32⟩
  | 36 => ⟨S40968x64, .f32⟩
  | 37 => ⟨S40968x64, .f32⟩
  | 38 => ⟨S4x10242x64, .f32⟩
  | 39 => ⟨S_, .i32⟩
  | 40 => ⟨S10242x7, .i32⟩
  | 41 => ⟨S10242x7, .i1⟩
  | 42 => ⟨S_, .i32⟩
  | 43 => ⟨S10242x7, .i32⟩
  | 44 => ⟨S10242x7, .i32⟩
  | 45 => ⟨S10242x7, .i32⟩
  | 46 => ⟨S10242x7x1, .i32⟩
  | 47 => ⟨S4x10242x7x64, .f32⟩
  | 48 => ⟨S_, .f32⟩
  | 49 => ⟨S4x10242x64, .f32⟩
  | 50 => ⟨S4x2562x64, .f32⟩
  | 51 => ⟨S10248x64, .f32⟩
  | 52 => ⟨S1x61440, .i32⟩
  | 53 => ⟨S61440, .i32⟩
  | 54 => ⟨S1x61440, .i32⟩
  | 55 => ⟨S61440, .i32⟩
  | 56 => ⟨S_, .i32⟩
  | 57 => ⟨S61440, .i32⟩
  | 58 => ⟨S61440, .i1⟩
  | 59 => ⟨S_, .i32⟩
  | 60 => ⟨S61440, .i32⟩
  | 61 => ⟨S61440, .i32⟩
  | 62 => ⟨S61440, .i32⟩
  | 63 => ⟨S61440x1, .i32⟩
  | 64 => ⟨S1, .i32⟩
  | 65 => ⟨S_, .i32⟩
  | 66 => ⟨S61440x1, .i32⟩
  | 67 => ⟨S61440x1, .i1⟩
  | 68 => ⟨S1x1, .i32⟩
  | 69 => ⟨S61440x1, .i32⟩
  | 70 => ⟨S61440x1, .i1⟩
  | 71 => ⟨S61440x1, .i1⟩
  | 72 => ⟨S_, .i1⟩
  | 73 => ⟨S61440, .i1⟩
  | 74 => ⟨S61440x64, .f32⟩
  | 75 => ⟨S61440x64, .i1⟩
  | 76 => ⟨S_, .f32⟩
  | 77 => ⟨S61440x64, .f32⟩
  | 78 => ⟨S61440x64, .f32⟩
  | 79 => ⟨S61440x64, .bf16⟩
  | 80 => ⟨S64x128, .f32⟩
  | 81 => ⟨S64x128, .f32⟩
  | 82 => ⟨S64x128, .f32⟩
  | 83 => ⟨S192x128, .f32⟩
  | 84 => ⟨S192x128, .bf16⟩
  | 85 => ⟨S61440x128, .f32⟩
  | 86 => ⟨S_, .f32⟩
  | 87 => ⟨S61440x1, .f32⟩
  | 88 => ⟨S61440x129, .f32⟩
  | 89 => ⟨S_, .f32⟩
  | 90 => ⟨S10248x129, .f32⟩
  | 91 => ⟨S61440x1, .i32⟩
  | 92 => ⟨S10248x129, .f32⟩
  | 93 => ⟨S10248x128, .f32⟩
  | 94 => ⟨S10248x1, .f32⟩
  | 95 => ⟨S_, .f32⟩
  | 96 => ⟨S10248x1, .f32⟩
  | 97 => ⟨S10248x1, .f32⟩
  | 98 => ⟨S10248x128, .f32⟩
  | 99 => ⟨S10248x128, .f32⟩
  | 100 => ⟨S10248x128, .f32⟩
  | 101 => ⟨S10248x128, .f32⟩
  | 102 => ⟨S1x128, .f32⟩
  | 103 => ⟨S10248x128, .f32⟩
  | 104 => ⟨S10248x128, .f32⟩
  | 105 => ⟨S_, .f32⟩
  | 106 => ⟨S10248x128, .f32⟩
  | 107 => ⟨S10248x128, .f32⟩
  | 108 => ⟨S4x2562x128, .f32⟩
  | 109 => ⟨S_, .i32⟩
  | 110 => ⟨S2562x7, .i32⟩
  | 111 => ⟨S2562x7, .i1⟩
  | 112 => ⟨S_, .i32⟩
  | 113 => ⟨S2562x7, .i32⟩
  | 114 => ⟨S2562x7, .i32⟩
  | 115 => ⟨S2562x7, .i32⟩
  | 116 => ⟨S2562x7x1, .i32⟩
  | 117 => ⟨S4x2562x7x128, .f32⟩
  | 118 => ⟨S_, .f32⟩
  | 119 => ⟨S4x2562x128, .f32⟩
  | 120 => ⟨S4x642x128, .f32⟩
  | 121 => ⟨S2568x128, .f32⟩
  | 122 => ⟨S1x15360, .i32⟩
  | 123 => ⟨S15360, .i32⟩
  | 124 => ⟨S1x15360, .i32⟩
  | 125 => ⟨S15360, .i32⟩
  | 126 => ⟨S_, .i32⟩
  | 127 => ⟨S15360, .i32⟩
  | _ => ⟨S163848x2, .f32⟩

abbrev hbmTy0_2 (i : Nat) : BufTy := match i % 128 with
  | 0 => ⟨S15360, .i1⟩
  | 1 => ⟨S_, .i32⟩
  | 2 => ⟨S15360, .i32⟩
  | 3 => ⟨S15360, .i32⟩
  | 4 => ⟨S15360, .i32⟩
  | 5 => ⟨S15360x1, .i32⟩
  | 6 => ⟨S1, .i32⟩
  | 7 => ⟨S_, .i32⟩
  | 8 => ⟨S15360x1, .i32⟩
  | 9 => ⟨S15360x1, .i1⟩
  | 10 => ⟨S1x1, .i32⟩
  | 11 => ⟨S15360x1, .i32⟩
  | 12 => ⟨S15360x1, .i1⟩
  | 13 => ⟨S15360x1, .i1⟩
  | 14 => ⟨S_, .i1⟩
  | 15 => ⟨S15360, .i1⟩
  | 16 => ⟨S15360x128, .f32⟩
  | 17 => ⟨S15360x128, .i1⟩
  | 18 => ⟨S_, .f32⟩
  | 19 => ⟨S15360x128, .f32⟩
  | 20 => ⟨S15360x128, .f32⟩
  | 21 => ⟨S15360x128, .bf16⟩
  | 22 => ⟨S128x256, .f32⟩
  | 23 => ⟨S128x256, .f32⟩
  | 24 => ⟨S128x256, .f32⟩
  | 25 => ⟨S384x256, .f32⟩
  | 26 => ⟨S384x256, .bf16⟩
  | 27 => ⟨S15360x256, .f32⟩
  | 28 => ⟨S_, .f32⟩
  | 29 => ⟨S15360x1, .f32⟩
  | 30 => ⟨S15360x257, .f32⟩
  | 31 => ⟨S_, .f32⟩
  | 32 => ⟨S2568x257, .f32⟩
  | 33 => ⟨S15360x1, .i32⟩
  | 34 => ⟨S2568x257, .f32⟩
  | 35 => ⟨S2568x256, .f32⟩
  | 36 => ⟨S2568x1, .f32⟩
  | 37 => ⟨S_, .f32⟩
  | 38 => ⟨S2568x1, .f32⟩
  | 39 => ⟨S2568x1, .f32⟩
  | 40 => ⟨S2568x256, .f32⟩
  | 41 => ⟨S2568x256, .f32⟩
  | 42 => ⟨S2568x256, .f32⟩
  | 43 => ⟨S2568x256, .f32⟩
  | 44 => ⟨S1x256, .f32⟩
  | 45 => ⟨S2568x256, .f32⟩
  | 46 => ⟨S2568x256, .f32⟩
  | 47 => ⟨S_, .f32⟩
  | 48 => ⟨S2568x256, .f32⟩
  | 49 => ⟨S2568x256, .f32⟩
  | 50 => ⟨S4x642x256, .f32⟩
  | 51 => ⟨S_, .i32⟩
  | 52 => ⟨S642x7, .i32⟩
  | 53 => ⟨S642x7, .i1⟩
  | 54 => ⟨S_, .i32⟩
  | 55 => ⟨S642x7, .i32⟩
  | 56 => ⟨S642x7, .i32⟩
  | 57 => ⟨S642x7, .i32⟩
  | 58 => ⟨S642x7x1, .i32⟩
  | 59 => ⟨S4x642x7x256, .f32⟩
  | 60 => ⟨S_, .f32⟩
  | 61 => ⟨S4x642x256, .f32⟩
  | 62 => ⟨S4x162x256, .f32⟩
  | 63 => ⟨S648x256, .f32⟩
  | 64 => ⟨S1x4, .f32⟩
  | 65 => ⟨S4x4, .f32⟩
  | 66 => ⟨S4x4, .f32⟩
  | 67 => ⟨S4x4, .f32⟩
  | 68 => ⟨S1x4, .f32⟩
  | 69 => ⟨S4x4, .f32⟩
  | 70 => ⟨S4x4, .f32⟩
  | 71 => ⟨S4x41472, .f32⟩
  | 72 => ⟨S4x41476, .f32⟩
  | 73 => ⟨S4x256, .f32⟩
  | 74 => ⟨S1x256, .f32⟩
  | 75 => ⟨S4x256, .f32⟩
  | 76 => ⟨S4x256, .f32⟩
  | 77 => ⟨S_, .f32⟩
  | 78 => ⟨S4x256, .f32⟩
  | 79 => ⟨S4x256, .f32⟩
  | 80 => ⟨S4x1, .f32⟩
  | 81 => ⟨S1x1, .f32⟩
  | 82 => ⟨S4x1, .f32⟩
  | 83 => ⟨S4x1, .f32⟩
  | 84 => ⟨S4, .f32⟩
  | _ => ⟨S163848x2, .f32⟩

abbrev hbmTy (i : Nat) : BufTy := match i / 128 with
  | 0 => hbmTy0_0 i
  | 1 => hbmTy0_1 i
  | 2 => hbmTy0_2 i
  | _ => ⟨S163848x2, .f32⟩

abbrev bufTy : (tb : Table) → Fin (tcTables nBuf tb) → BufTy
  | .hbm, ⟨i, _⟩ => hbmTy i
  | .local _ .vmem, ⟨0, _⟩ => ⟨S8192x2, .bf16⟩
  | .local _ .vmem, ⟨1, _⟩ => ⟨S8192x2, .bf16⟩
  | .local _ .vmem, ⟨2, _⟩ => ⟨S8192x2, .f32⟩
  | .local _ .vmem, ⟨3, _⟩ => ⟨S8192x2, .f32⟩
  | .local _ .vmem, ⟨4, _⟩ => ⟨S6x32, .bf16⟩
  | .local _ .vmem, ⟨5, _⟩ => ⟨S3x2, .f32⟩
  | .local _ .vmem, ⟨6, _⟩ => ⟨S3x2, .f32⟩
  | .local _ .vmem, ⟨7, _⟩ => ⟨S8192x32, .f32⟩
  | .local _ .vmem, ⟨8, _⟩ => ⟨S8192x32, .f32⟩
  | .local _ .vmem, ⟨9, _⟩ => ⟨S8192x6, .bf16⟩
  | .local _ .vmem, ⟨10, _⟩ => ⟨S8192x32, .bf16⟩
  | .local _ .vmem, ⟨11, _⟩ => ⟨S8192x32, .bf16⟩
  | .local _ .vmem, ⟨12, _⟩ => ⟨S8192x2, .f32⟩
  | .local _ .vmem, ⟨13, _⟩ => ⟨S8192x2, .f32⟩
  | .local _ .vmem, ⟨14, _⟩ => ⟨S96x64, .bf16⟩
  | .local _ .vmem, ⟨15, _⟩ => ⟨S3x2, .f32⟩
  | .local _ .vmem, ⟨16, _⟩ => ⟨S3x2, .f32⟩
  | .local _ .vmem, ⟨17, _⟩ => ⟨S8192x64, .f32⟩
  | .local _ .vmem, ⟨18, _⟩ => ⟨S8192x64, .f32⟩
  | .local _ .vmem, ⟨19, _⟩ => ⟨S8192x96, .bf16⟩
  | .local _ .vmem, ⟨20, _⟩ => ⟨S7680x64, .bf16⟩
  | .local _ .vmem, ⟨21, _⟩ => ⟨S7680x64, .bf16⟩
  | .local _ .vmem, ⟨22, _⟩ => ⟨S7680x2, .f32⟩
  | .local _ .vmem, ⟨23, _⟩ => ⟨S7680x2, .f32⟩
  | .local _ .vmem, ⟨24, _⟩ => ⟨S192x128, .bf16⟩
  | .local _ .vmem, ⟨25, _⟩ => ⟨S3x2, .f32⟩
  | .local _ .vmem, ⟨26, _⟩ => ⟨S3x2, .f32⟩
  | .local _ .vmem, ⟨27, _⟩ => ⟨S7680x128, .f32⟩
  | .local _ .vmem, ⟨28, _⟩ => ⟨S7680x128, .f32⟩
  | .local _ .vmem, ⟨29, _⟩ => ⟨S7680x192, .bf16⟩
  | .local _ .vmem, ⟨30, _⟩ => ⟨S3840x128, .bf16⟩
  | .local _ .vmem, ⟨31, _⟩ => ⟨S3840x128, .bf16⟩
  | .local _ .vmem, ⟨32, _⟩ => ⟨S3840x2, .f32⟩
  | .local _ .vmem, ⟨33, _⟩ => ⟨S3840x2, .f32⟩
  | .local _ .vmem, ⟨34, _⟩ => ⟨S384x256, .bf16⟩
  | .local _ .vmem, ⟨35, _⟩ => ⟨S3x2, .f32⟩
  | .local _ .vmem, ⟨36, _⟩ => ⟨S3x2, .f32⟩
  | .local _ .vmem, ⟨37, _⟩ => ⟨S3840x256, .f32⟩
  | .local _ .vmem, ⟨38, _⟩ => ⟨S3840x256, .f32⟩
  | .local _ .vmem, ⟨39, _⟩ => ⟨S3840x384, .bf16⟩
  | _, _ => ⟨S163848x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v4 : Ref sig .tc := ⟨.hbm, 66, rfl⟩
abbrev main_v5 : Ref sig .tc := ⟨.hbm, 67, rfl⟩
abbrev main_v6 : Ref sig .tc := ⟨.hbm, 68, rfl⟩
abbrev main_v7 : Ref sig .tc := ⟨.hbm, 69, rfl⟩
abbrev main_v8 : Ref sig .tc := ⟨.hbm, 70, rfl⟩
abbrev main_v9 : Ref sig .tc := ⟨.hbm, 71, rfl⟩
abbrev main_v10 : Ref sig .tc := ⟨.hbm, 72, rfl⟩
abbrev main_v11 : Ref sig .tc := ⟨.hbm, 73, rfl⟩
abbrev main_cst : Ref sig .tc := ⟨.hbm, 74, rfl⟩
abbrev main_v12 : Ref sig .tc := ⟨.hbm, 75, rfl⟩
abbrev main_v13 : Ref sig .tc := ⟨.hbm, 76, rfl⟩
abbrev main_cst_0 : Ref sig .tc := ⟨.hbm, 77, rfl⟩
abbrev main_v14 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_cst_1 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_call1_cst : Ref sig .tc := ⟨.hbm, 93, rfl⟩
abbrev main_call1_v0 : Ref sig .tc := ⟨.hbm, 94, rfl⟩
abbrev main_v28 : Ref sig .tc := ⟨.hbm, 95, rfl⟩
abbrev main_v29 : Ref sig .tc := ⟨.hbm, 96, rfl⟩
abbrev main_c : Ref sig .tc := ⟨.hbm, 97, rfl⟩
abbrev main_v30 : Ref sig .tc := ⟨.hbm, 98, rfl⟩
abbrev main_v31 : Ref sig .tc := ⟨.hbm, 99, rfl⟩
abbrev main_c_2 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_cst_3 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_call2_c : Ref sig .tc := ⟨.hbm, 114, rfl⟩
abbrev main_call2_v0 : Ref sig .tc := ⟨.hbm, 115, rfl⟩
abbrev main_call2_v1 : Ref sig .tc := ⟨.hbm, 116, rfl⟩
abbrev main_call2_c_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_c_1 : Ref sig .tc := ⟨.hbm, 122, rfl⟩
abbrev main_call2_c_2 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_3 : Ref sig .tc := ⟨.hbm, 130, rfl⟩
abbrev main_call2_v12 : Ref sig .tc := ⟨.hbm, 131, rfl⟩
abbrev main_call2_v13 : Ref sig .tc := ⟨.hbm, 132, rfl⟩
abbrev main_call2_v14 : Ref sig .tc := ⟨.hbm, 133, rfl⟩
abbrev main_call2_cst : Ref sig .tc := ⟨.hbm, 134, rfl⟩
abbrev main_call2_v15 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_cst_4 : Ref sig .tc := ⟨.hbm, 144, rfl⟩
abbrev main_v52 : Ref sig .tc := ⟨.hbm, 145, rfl⟩
abbrev main_v53 : Ref sig .tc := ⟨.hbm, 146, rfl⟩
abbrev main_cst_5 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_cst_6 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_call3_cst : Ref sig .tc := ⟨.hbm, 163, rfl⟩
abbrev main_call3_v0 : Ref sig .tc := ⟨.hbm, 164, rfl⟩
abbrev main_v68 : Ref sig .tc := ⟨.hbm, 165, rfl⟩
abbrev main_v69 : Ref sig .tc := ⟨.hbm, 166, rfl⟩
abbrev main_c_7 : Ref sig .tc := ⟨.hbm, 167, rfl⟩
abbrev main_v70 : Ref sig .tc := ⟨.hbm, 168, rfl⟩
abbrev main_v71 : Ref sig .tc := ⟨.hbm, 169, rfl⟩
abbrev main_c_8 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_cst_9 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_call4_c : Ref sig .tc := ⟨.hbm, 184, rfl⟩
abbrev main_call4_v0 : Ref sig .tc := ⟨.hbm, 185, rfl⟩
abbrev main_call4_v1 : Ref sig .tc := ⟨.hbm, 186, rfl⟩
abbrev main_call4_c_0 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_call4_v5 : Ref sig .tc := ⟨.hbm, 191, rfl⟩
abbrev main_call4_c_1 : Ref sig .tc := ⟨.hbm, 192, rfl⟩
abbrev main_call4_c_2 : Ref sig .tc := ⟨.hbm, 193, rfl⟩
abbrev main_call4_v6 : Ref sig .tc := ⟨.hbm, 194, rfl⟩
abbrev main_call4_v7 : Ref sig .tc := ⟨.hbm, 195, rfl⟩
abbrev main_call4_v8 : Ref sig .tc := ⟨.hbm, 196, rfl⟩
abbrev main_call4_v9 : Ref sig .tc := ⟨.hbm, 197, rfl⟩
abbrev main_call4_v10 : Ref sig .tc := ⟨.hbm, 198, rfl⟩
abbrev main_call4_v11 : Ref sig .tc := ⟨.hbm, 199, rfl⟩
abbrev main_call4_c_3 : Ref sig .tc := ⟨.hbm, 200, rfl⟩
abbrev main_call4_v12 : Ref sig .tc := ⟨.hbm, 201, rfl⟩
abbrev main_call4_v13 : Ref sig .tc := ⟨.hbm, 202, rfl⟩
abbrev main_call4_v14 : Ref sig .tc := ⟨.hbm, 203, rfl⟩
abbrev main_call4_cst : Ref sig .tc := ⟨.hbm, 204, rfl⟩
abbrev main_call4_v15 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_v91 : Ref sig .tc := ⟨.hbm, 213, rfl⟩
abbrev main_cst_10 : Ref sig .tc := ⟨.hbm, 214, rfl⟩
abbrev main_v92 : Ref sig .tc := ⟨.hbm, 215, rfl⟩
abbrev main_v93 : Ref sig .tc := ⟨.hbm, 216, rfl⟩
abbrev main_cst_11 : Ref sig .tc := ⟨.hbm, 217, rfl⟩
abbrev main_v94 : Ref sig .tc := ⟨.hbm, 218, rfl⟩
abbrev main_v95 : Ref sig .tc := ⟨.hbm, 219, rfl⟩
abbrev main_v96 : Ref sig .tc := ⟨.hbm, 220, rfl⟩
abbrev main_v97 : Ref sig .tc := ⟨.hbm, 221, rfl⟩
abbrev main_v98 : Ref sig .tc := ⟨.hbm, 222, rfl⟩
abbrev main_cst_12 : Ref sig .tc := ⟨.hbm, 223, rfl⟩
abbrev main_v99 : Ref sig .tc := ⟨.hbm, 224, rfl⟩
abbrev main_v100 : Ref sig .tc := ⟨.hbm, 225, rfl⟩
abbrev main_v101 : Ref sig .tc := ⟨.hbm, 226, rfl⟩
abbrev main_v102 : Ref sig .tc := ⟨.hbm, 227, rfl⟩
abbrev main_v103 : Ref sig .tc := ⟨.hbm, 228, rfl⟩
abbrev main_v104 : Ref sig .tc := ⟨.hbm, 229, rfl⟩
abbrev main_v105 : Ref sig .tc := ⟨.hbm, 230, rfl⟩
abbrev main_v106 : Ref sig .tc := ⟨.hbm, 231, rfl⟩
abbrev main_v107 : Ref sig .tc := ⟨.hbm, 232, rfl⟩
abbrev main_call5_cst : Ref sig .tc := ⟨.hbm, 233, rfl⟩
abbrev main_call5_v0 : Ref sig .tc := ⟨.hbm, 234, rfl⟩
abbrev main_v108 : Ref sig .tc := ⟨.hbm, 235, rfl⟩
abbrev main_v109 : Ref sig .tc := ⟨.hbm, 236, rfl⟩
abbrev main_c_13 : Ref sig .tc := ⟨.hbm, 237, rfl⟩
abbrev main_v110 : Ref sig .tc := ⟨.hbm, 238, rfl⟩
abbrev main_v111 : Ref sig .tc := ⟨.hbm, 239, rfl⟩
abbrev main_c_14 : Ref sig .tc := ⟨.hbm, 240, rfl⟩
abbrev main_v112 : Ref sig .tc := ⟨.hbm, 241, rfl⟩
abbrev main_v113 : Ref sig .tc := ⟨.hbm, 242, rfl⟩
abbrev main_v114 : Ref sig .tc := ⟨.hbm, 243, rfl⟩
abbrev main_v115 : Ref sig .tc := ⟨.hbm, 244, rfl⟩
abbrev main_v116 : Ref sig .tc := ⟨.hbm, 245, rfl⟩
abbrev main_cst_15 : Ref sig .tc := ⟨.hbm, 246, rfl⟩
abbrev main_v117 : Ref sig .tc := ⟨.hbm, 247, rfl⟩
abbrev main_v118 : Ref sig .tc := ⟨.hbm, 248, rfl⟩
abbrev main_v119 : Ref sig .tc := ⟨.hbm, 249, rfl⟩
abbrev main_v120 : Ref sig .tc := ⟨.hbm, 250, rfl⟩
abbrev main_v121 : Ref sig .tc := ⟨.hbm, 251, rfl⟩
abbrev main_v122 : Ref sig .tc := ⟨.hbm, 252, rfl⟩
abbrev main_v123 : Ref sig .tc := ⟨.hbm, 253, rfl⟩
abbrev main_call6_c : Ref sig .tc := ⟨.hbm, 254, rfl⟩
abbrev main_call6_v0 : Ref sig .tc := ⟨.hbm, 255, rfl⟩
abbrev main_call6_v1 : Ref sig .tc := ⟨.hbm, 256, rfl⟩
abbrev main_call6_c_0 : Ref sig .tc := ⟨.hbm, 257, rfl⟩
abbrev main_call6_v2 : Ref sig .tc := ⟨.hbm, 258, rfl⟩
abbrev main_call6_v3 : Ref sig .tc := ⟨.hbm, 259, rfl⟩
abbrev main_call6_v4 : Ref sig .tc := ⟨.hbm, 260, rfl⟩
abbrev main_call6_v5 : Ref sig .tc := ⟨.hbm, 261, rfl⟩
abbrev main_call6_c_1 : Ref sig .tc := ⟨.hbm, 262, rfl⟩
abbrev main_call6_c_2 : Ref sig .tc := ⟨.hbm, 263, rfl⟩
abbrev main_call6_v6 : Ref sig .tc := ⟨.hbm, 264, rfl⟩
abbrev main_call6_v7 : Ref sig .tc := ⟨.hbm, 265, rfl⟩
abbrev main_call6_v8 : Ref sig .tc := ⟨.hbm, 266, rfl⟩
abbrev main_call6_v9 : Ref sig .tc := ⟨.hbm, 267, rfl⟩
abbrev main_call6_v10 : Ref sig .tc := ⟨.hbm, 268, rfl⟩
abbrev main_call6_v11 : Ref sig .tc := ⟨.hbm, 269, rfl⟩
abbrev main_call6_c_3 : Ref sig .tc := ⟨.hbm, 270, rfl⟩
abbrev main_call6_v12 : Ref sig .tc := ⟨.hbm, 271, rfl⟩
abbrev main_call6_v13 : Ref sig .tc := ⟨.hbm, 272, rfl⟩
abbrev main_call6_v14 : Ref sig .tc := ⟨.hbm, 273, rfl⟩
abbrev main_call6_cst : Ref sig .tc := ⟨.hbm, 274, rfl⟩
abbrev main_call6_v15 : Ref sig .tc := ⟨.hbm, 275, rfl⟩
abbrev main_v124 : Ref sig .tc := ⟨.hbm, 276, rfl⟩
abbrev main_v125 : Ref sig .tc := ⟨.hbm, 277, rfl⟩
abbrev main_v126 : Ref sig .tc := ⟨.hbm, 278, rfl⟩
abbrev main_v127 : Ref sig .tc := ⟨.hbm, 279, rfl⟩
abbrev main_v128 : Ref sig .tc := ⟨.hbm, 280, rfl⟩
abbrev main_v129 : Ref sig .tc := ⟨.hbm, 281, rfl⟩
abbrev main_v130 : Ref sig .tc := ⟨.hbm, 282, rfl⟩
abbrev main_v131 : Ref sig .tc := ⟨.hbm, 283, rfl⟩
abbrev main_cst_16 : Ref sig .tc := ⟨.hbm, 284, rfl⟩
abbrev main_v132 : Ref sig .tc := ⟨.hbm, 285, rfl⟩
abbrev main_v133 : Ref sig .tc := ⟨.hbm, 286, rfl⟩
abbrev main_cst_17 : Ref sig .tc := ⟨.hbm, 287, rfl⟩
abbrev main_v134 : Ref sig .tc := ⟨.hbm, 288, rfl⟩
abbrev main_v135 : Ref sig .tc := ⟨.hbm, 289, rfl⟩
abbrev main_v136 : Ref sig .tc := ⟨.hbm, 290, rfl⟩
abbrev main_v137 : Ref sig .tc := ⟨.hbm, 291, rfl⟩
abbrev main_v138 : Ref sig .tc := ⟨.hbm, 292, rfl⟩
abbrev main_cst_18 : Ref sig .tc := ⟨.hbm, 293, rfl⟩
abbrev main_v139 : Ref sig .tc := ⟨.hbm, 294, rfl⟩
abbrev main_v140 : Ref sig .tc := ⟨.hbm, 295, rfl⟩
abbrev main_v141 : Ref sig .tc := ⟨.hbm, 296, rfl⟩
abbrev main_v142 : Ref sig .tc := ⟨.hbm, 297, rfl⟩
abbrev main_v143 : Ref sig .tc := ⟨.hbm, 298, rfl⟩
abbrev main_v144 : Ref sig .tc := ⟨.hbm, 299, rfl⟩
abbrev main_v145 : Ref sig .tc := ⟨.hbm, 300, rfl⟩
abbrev main_v146 : Ref sig .tc := ⟨.hbm, 301, rfl⟩
abbrev main_v147 : Ref sig .tc := ⟨.hbm, 302, rfl⟩
abbrev main_call7_cst : Ref sig .tc := ⟨.hbm, 303, rfl⟩
abbrev main_call7_v0 : Ref sig .tc := ⟨.hbm, 304, rfl⟩
abbrev main_v148 : Ref sig .tc := ⟨.hbm, 305, rfl⟩
abbrev main_v149 : Ref sig .tc := ⟨.hbm, 306, rfl⟩
abbrev main_c_19 : Ref sig .tc := ⟨.hbm, 307, rfl⟩
abbrev main_v150 : Ref sig .tc := ⟨.hbm, 308, rfl⟩
abbrev main_v151 : Ref sig .tc := ⟨.hbm, 309, rfl⟩
abbrev main_c_20 : Ref sig .tc := ⟨.hbm, 310, rfl⟩
abbrev main_v152 : Ref sig .tc := ⟨.hbm, 311, rfl⟩
abbrev main_v153 : Ref sig .tc := ⟨.hbm, 312, rfl⟩
abbrev main_v154 : Ref sig .tc := ⟨.hbm, 313, rfl⟩
abbrev main_v155 : Ref sig .tc := ⟨.hbm, 314, rfl⟩
abbrev main_v156 : Ref sig .tc := ⟨.hbm, 315, rfl⟩
abbrev main_cst_21 : Ref sig .tc := ⟨.hbm, 316, rfl⟩
abbrev main_v157 : Ref sig .tc := ⟨.hbm, 317, rfl⟩
abbrev main_v158 : Ref sig .tc := ⟨.hbm, 318, rfl⟩
abbrev main_v159 : Ref sig .tc := ⟨.hbm, 319, rfl⟩
abbrev main_v160 : Ref sig .tc := ⟨.hbm, 320, rfl⟩
abbrev main_v161 : Ref sig .tc := ⟨.hbm, 321, rfl⟩
abbrev main_v162 : Ref sig .tc := ⟨.hbm, 322, rfl⟩
abbrev main_v163 : Ref sig .tc := ⟨.hbm, 323, rfl⟩
abbrev main_v164 : Ref sig .tc := ⟨.hbm, 324, rfl⟩
abbrev main_v165 : Ref sig .tc := ⟨.hbm, 325, rfl⟩
abbrev main_v166 : Ref sig .tc := ⟨.hbm, 326, rfl⟩
abbrev main_v167 : Ref sig .tc := ⟨.hbm, 327, rfl⟩
abbrev main_v168 : Ref sig .tc := ⟨.hbm, 328, rfl⟩
abbrev main_v169 : Ref sig .tc := ⟨.hbm, 329, rfl⟩
abbrev main_v170 : Ref sig .tc := ⟨.hbm, 330, rfl⟩
abbrev main_v171 : Ref sig .tc := ⟨.hbm, 331, rfl⟩
abbrev main_v172 : Ref sig .tc := ⟨.hbm, 332, rfl⟩
abbrev main_call8_cst : Ref sig .tc := ⟨.hbm, 333, rfl⟩
abbrev main_call8_v0 : Ref sig .tc := ⟨.hbm, 334, rfl⟩
abbrev main_v173 : Ref sig .tc := ⟨.hbm, 335, rfl⟩
abbrev main_v174 : Ref sig .tc := ⟨.hbm, 336, rfl⟩
abbrev main_v175 : Ref sig .tc := ⟨.hbm, 337, rfl⟩
abbrev main_v176 : Ref sig .tc := ⟨.hbm, 338, rfl⟩
abbrev main_v177 : Ref sig .tc := ⟨.hbm, 339, rfl⟩
abbrev main_v178 : Ref sig .tc := ⟨.hbm, 340, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_scratch0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc3_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![120], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S7680x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S7680x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S192x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S7680x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3840x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3840x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S384x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S3x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S3x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S3840x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x983040_S1x983040_0_0 : S2x983040.Slices ![0, 0] S1x983040
  shapeCasts_S1x983040_S983040 : S1x983040.ShapeCasts S983040
  slices_S2x983040_S1x983040_1_0 : S2x983040.Slices ![1, 0] S1x983040
  bcast_S_S983040 : S_.BroadcastsInDim S983040 (![] : Fin 0 → Fin S983040.rank)
  bcast_S983040_S983040x1_0 : S983040.BroadcastsInDim S983040x1 (![0] : Fin 1 → Fin S983040x1.rank)
  bcast_S_S983040x1 : S_.BroadcastsInDim S983040x1 (![] : Fin 0 → Fin S983040x1.rank)
  bcast_S1_S1x1_1 : S1.BroadcastsInDim S1x1 (![1] : Fin 1 → Fin S1x1.rank)
  bcast_S1x1_S983040x1_0_1 : S1x1.BroadcastsInDim S983040x1 (![0, 1] : Fin 2 → Fin S983040x1.rank)
  reducesTo_S983040x1_S983040_d1 : S983040x1.ReducesTo [1] S983040
  h_S_ : 0 < S_.numel
  bcast_S983040_S983040x2_0 : S983040.BroadcastsInDim S983040x2 (![0] : Fin 1 → Fin S983040x2.rank)
  bcast_S_S983040x2 : S_.BroadcastsInDim S983040x2 (![] : Fin 0 → Fin S983040x2.rank)
  bitsLt_bf16_f32 : FTy.bits .bf16 < FTy.bits .f32
  slices_S2x96_S2x32_0_0 : S2x96.Slices ![0, 0] S2x32
  slices_S2x96_S2x32_0_32 : S2x96.Slices ![0, 32] S2x32
  slices_S2x96_S2x32_0_64 : S2x96.Slices ![0, 64] S2x32
  concatenates_S2x32_S2x32_S2x32_S6x32_d0 : Shape.Concatenates [S2x32, S2x32, S2x32] S6x32 0
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  inb_S3x2_S3x2_0_0 : ∀ a, (![0, 0] : Fin 2 → Nat) a + S3x2.size a ≤ S3x2.size a
  h_S3x2 : 0 < S3x2.numel
  slices_S3x2_o0_0_S1x2 : S3x2.Slices ![0, 0] S1x2
  shapeCasts_S1x2_S2 : S1x2.ShapeCasts S2
  shapeCasts_S2_S1x2 : S2.ShapeCasts S1x2
  broadcasts_S1x2_S8192x2 : S1x2.Broadcasts S8192x2
  reduces_S8192x2_S8192 : S8192x2.Reduces [1] S8192
  shapeCasts_S8192_S8192x1 : S8192.ShapeCasts S8192x1
  broadcasts_S8192x1_S8192x2 : S8192x1.Broadcasts S8192x2
  inb_S8192x6_S8192x2_0_0 : ∀ a, (![0, 0] : Fin 2 → Nat) a + S8192x2.size a ≤ S8192x6.size a
  packedbf16_S8192x6_S8192x2_0_0 : (Rect.unit (s := S8192x6) ![0, 0] S8192x2.size inb_S8192x6_S8192x2_0_0).PackedRows (EltTy.packing .bf16)
  slices_S3x2_o1_0_S1x2 : S3x2.Slices ![1, 0] S1x2
  inb_S8192x6_S8192x2_0_2 : ∀ a, (![0, 2] : Fin 2 → Nat) a + S8192x2.size a ≤ S8192x6.size a
  packedbf16_S8192x6_S8192x2_0_2 : (Rect.unit (s := S8192x6) ![0, 2] S8192x2.size inb_S8192x6_S8192x2_0_2).PackedRows (EltTy.packing .bf16)
  slices_S3x2_o2_0_S1x2 : S3x2.Slices ![2, 0] S1x2
  inb_S8192x6_S8192x2_0_4 : ∀ a, (![0, 4] : Fin 2 → Nat) a + S8192x2.size a ≤ S8192x6.size a
  packedbf16_S8192x6_S8192x2_0_4 : (Rect.unit (s := S8192x6) ![0, 4] S8192x2.size inb_S8192x6_S8192x2_0_4).PackedRows (EltTy.packing .bf16)
  inb_S8192x6_S8192x6_0_0 : ∀ a, (![0, 0] : Fin 2 → Nat) a + S8192x6.size a ≤ S8192x6.size a
  h_S8192x6 : 0 < S8192x6.numel
  inb_S6x32_S6x32_0_0 : ∀ a, (![0, 0] : Fin 2 → Nat) a + S6x32.size a ≤ S6x32.size a
  h_S6x32 : 0 < S6x32.numel
  shapeCasts_S6x32_S6x32 : S6x32.ShapeCasts S6x32
  inb_S8192x32_S8192x32_0_0 : ∀ a, (![0, 0] : Fin 2 → Nat) a + S8192x32.size a ≤ S8192x32.size a
  h_S8192x32 : 0 < S8192x32.numel
  concatenates_S983040x32_S983040x1_S983040x33_d1 : Shape.Concatenates [S983040x32, S983040x1] S983040x33 1
  bcast_S_S163848x33 : S_.BroadcastsInDim S163848x33 (![] : Fin 0 → Fin S163848x33.rank)
  slices_S163848x33_S163848x32_0_0 : S163848x33.Slices ![0, 0] S163848x32
  slices_S163848x33_S163848x1_0_32 : S163848x33.Slices ![0, 32] S163848x1
  bcast_S_S163848x1 : S_.BroadcastsInDim S163848x1 (![] : Fin 0 → Fin S163848x1.rank)
  bcast_S163848x1_S163848x32_0_1 : S163848x1.BroadcastsInDim S163848x32 (![0, 1] : Fin 2 → Fin S163848x32.rank)
  bcast_S32_S1x32_1 : S32.BroadcastsInDim S1x32 (![1] : Fin 1 → Fin S1x32.rank)
  bcast_S1x32_S163848x32_0_1 : S1x32.BroadcastsInDim S163848x32 (![0, 1] : Fin 2 → Fin S163848x32.rank)
  bcast_S_S163848x32 : S_.BroadcastsInDim S163848x32 (![] : Fin 0 → Fin S163848x32.rank)
  shapeCasts_S163848x32_S4x40962x32 : S163848x32.ShapeCasts S4x40962x32
  bcast_S_S40962x7 : S_.BroadcastsInDim S40962x7 (![] : Fin 0 → Fin S40962x7.rank)
  bcast_S40962x7_S40962x7x1_0_1 : S40962x7.BroadcastsInDim S40962x7x1 (![0, 1] : Fin 2 → Fin S40962x7x1.rank)
  reducesTo_S4x40962x7x32_S4x40962x32_d2 : S4x40962x7x32.ReducesTo [2] S4x40962x32
  slices_S4x40962x32_S4x10242x32_0_0_0 : S4x40962x32.Slices ![0, 0, 0] S4x10242x32
  shapeCasts_S4x10242x32_S40968x32 : S4x10242x32.ShapeCasts S40968x32
  slices_S2x245760_S1x245760_0_0 : S2x245760.Slices ![0, 0] S1x245760
  shapeCasts_S1x245760_S245760 : S1x245760.ShapeCasts S245760
  slices_S2x245760_S1x245760_1_0 : S2x245760.Slices ![1, 0] S1x245760
  bcast_S_S245760 : S_.BroadcastsInDim S245760 (![] : Fin 0 → Fin S245760.rank)
  bcast_S245760_S245760x1_0 : S245760.BroadcastsInDim S245760x1 (![0] : Fin 1 → Fin S245760x1.rank)
  bcast_S_S245760x1 : S_.BroadcastsInDim S245760x1 (![] : Fin 0 → Fin S245760x1.rank)
  bcast_S1x1_S245760x1_0_1 : S1x1.BroadcastsInDim S245760x1 (![0, 1] : Fin 2 → Fin S245760x1.rank)
  reducesTo_S245760x1_S245760_d1 : S245760x1.ReducesTo [1] S245760
  bcast_S245760_S245760x32_0 : S245760.BroadcastsInDim S245760x32 (![0] : Fin 1 → Fin S245760x32.rank)
  bcast_S_S245760x32 : S_.BroadcastsInDim S245760x32 (![] : Fin 0 → Fin S245760x32.rank)
  slices_S32x192_S32x64_0_0 : S32x192.Slices ![0, 0] S32x64
  slices_S32x192_S32x64_0_64 : S32x192.Slices ![0, 64] S32x64
  slices_S32x192_S32x64_0_128 : S32x192.Slices ![0, 128] S32x64
  concatenates_S32x64_S32x64_S32x64_S96x64_d0 : Shape.Concatenates [S32x64, S32x64, S32x64] S96x64 0
  shapeCasts_S8192x32_S8192x32 : S8192x32.ShapeCasts S8192x32
  broadcasts_S8192x1_S8192x32 : S8192x1.Broadcasts S8192x32
  inb_S8192x96_S8192x32_0_0 : ∀ a, (![0, 0] : Fin 2 → Nat) a + S8192x32.size a ≤ S8192x96.size a
  packedbf16_S8192x96_S8192x32_0_0 : (Rect.unit (s := S8192x96) ![0, 0] S8192x32.size inb_S8192x96_S8192x32_0_0).PackedRows (EltTy.packing .bf16)
  inb_S8192x96_S8192x32_0_32 : ∀ a, (![0, 32] : Fin 2 → Nat) a + S8192x32.size a ≤ S8192x96.size a
  packedbf16_S8192x96_S8192x32_0_32 : (Rect.unit (s := S8192x96) ![0, 32] S8192x32.size inb_S8192x96_S8192x32_0_32).PackedRows (EltTy.packing .bf16)
  inb_S8192x96_S8192x32_0_64 : ∀ a, (![0, 64] : Fin 2 → Nat) a + S8192x32.size a ≤ S8192x96.size a
  packedbf16_S8192x96_S8192x32_0_64 : (Rect.unit (s := S8192x96) ![0, 64] S8192x32.size inb_S8192x96_S8192x32_0_64).PackedRows (EltTy.packing .bf16)
  inb_S8192x96_S8192x96_0_0 : ∀ a, (![0, 0] : Fin 2 → Nat) a + S8192x96.size a ≤ S8192x96.size a
  h_S8192x96 : 0 < S8192x96.numel
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S8192x64_S8192x64_0_0 : ∀ a, (![0, 0] : Fin 2 → Nat) a + S8192x64.size a ≤ S8192x64.size a
  h_S8192x64 : 0 < S8192x64.numel
  concatenates_S245760x64_S245760x1_S245760x65_d1 : Shape.Concatenates [S245760x64, S245760x1] S245760x65 1
  bcast_S_S40968x65 : S_.BroadcastsInDim S40968x65 (![] : Fin 0 → Fin S40968x65.rank)
  slices_S40968x65_S40968x64_0_0 : S40968x65.Slices ![0, 0] S40968x64
  slices_S40968x65_S40968x1_0_64 : S40968x65.Slices ![0, 64] S40968x1
  bcast_S_S40968x1 : S_.BroadcastsInDim S40968x1 (![] : Fin 0 → Fin S40968x1.rank)
  bcast_S40968x1_S40968x64_0_1 : S40968x1.BroadcastsInDim S40968x64 (![0, 1] : Fin 2 → Fin S40968x64.rank)
  bcast_S64_S1x64_1 : S64.BroadcastsInDim S1x64 (![1] : Fin 1 → Fin S1x64.rank)
  bcast_S1x64_S40968x64_0_1 : S1x64.BroadcastsInDim S40968x64 (![0, 1] : Fin 2 → Fin S40968x64.rank)
  bcast_S_S40968x64 : S_.BroadcastsInDim S40968x64 (![] : Fin 0 → Fin S40968x64.rank)
  shapeCasts_S40968x64_S4x10242x64 : S40968x64.ShapeCasts S4x10242x64
  bcast_S_S10242x7 : S_.BroadcastsInDim S10242x7 (![] : Fin 0 → Fin S10242x7.rank)
  bcast_S10242x7_S10242x7x1_0_1 : S10242x7.BroadcastsInDim S10242x7x1 (![0, 1] : Fin 2 → Fin S10242x7x1.rank)
  reducesTo_S4x10242x7x64_S4x10242x64_d2 : S4x10242x7x64.ReducesTo [2] S4x10242x64
  slices_S4x10242x64_S4x2562x64_0_0_0 : S4x10242x64.Slices ![0, 0, 0] S4x2562x64
  shapeCasts_S4x2562x64_S10248x64 : S4x2562x64.ShapeCasts S10248x64
  slices_S2x61440_S1x61440_0_0 : S2x61440.Slices ![0, 0] S1x61440
  shapeCasts_S1x61440_S61440 : S1x61440.ShapeCasts S61440
  slices_S2x61440_S1x61440_1_0 : S2x61440.Slices ![1, 0] S1x61440
  bcast_S_S61440 : S_.BroadcastsInDim S61440 (![] : Fin 0 → Fin S61440.rank)
  bcast_S61440_S61440x1_0 : S61440.BroadcastsInDim S61440x1 (![0] : Fin 1 → Fin S61440x1.rank)
  bcast_S_S61440x1 : S_.BroadcastsInDim S61440x1 (![] : Fin 0 → Fin S61440x1.rank)
  bcast_S1x1_S61440x1_0_1 : S1x1.BroadcastsInDim S61440x1 (![0, 1] : Fin 2 → Fin S61440x1.rank)
  reducesTo_S61440x1_S61440_d1 : S61440x1.ReducesTo [1] S61440
  bcast_S61440_S61440x64_0 : S61440.BroadcastsInDim S61440x64 (![0] : Fin 1 → Fin S61440x64.rank)
  bcast_S_S61440x64 : S_.BroadcastsInDim S61440x64 (![] : Fin 0 → Fin S61440x64.rank)
  slices_S64x384_S64x128_0_0 : S64x384.Slices ![0, 0] S64x128
  slices_S64x384_S64x128_0_128 : S64x384.Slices ![0, 128] S64x128
  slices_S64x384_S64x128_0_256 : S64x384.Slices ![0, 256] S64x128
  concatenates_S64x128_S64x128_S64x128_S192x128_d0 : Shape.Concatenates [S64x128, S64x128, S64x128] S192x128 0
  inb_S7680x2_S7680x2_0_0 : ∀ a, (![0, 0] : Fin 2 → Nat) a + S7680x2.size a ≤ S7680x2.size a
  h_S7680x2 : 0 < S7680x2.numel
  inb_S7680x64_S7680x64_0_0 : ∀ a, (![0, 0] : Fin 2 → Nat) a + S7680x64.size a ≤ S7680x64.size a
  h_S7680x64 : 0 < S7680x64.numel
  shapeCasts_S7680x64_S7680x64 : S7680x64.ShapeCasts S7680x64
  broadcasts_S1x2_S7680x2 : S1x2.Broadcasts S7680x2
  reduces_S7680x2_S7680 : S7680x2.Reduces [1] S7680
  shapeCasts_S7680_S7680x1 : S7680.ShapeCasts S7680x1
  broadcasts_S7680x1_S7680x64 : S7680x1.Broadcasts S7680x64
  inb_S7680x192_S7680x64_0_0 : ∀ a, (![0, 0] : Fin 2 → Nat) a + S7680x64.size a ≤ S7680x192.size a
  packedbf16_S7680x192_S7680x64_0_0 : (Rect.unit (s := S7680x192) ![0, 0] S7680x64.size inb_S7680x192_S7680x64_0_0).PackedRows (EltTy.packing .bf16)
  inb_S7680x192_S7680x64_0_64 : ∀ a, (![0, 64] : Fin 2 → Nat) a + S7680x64.size a ≤ S7680x192.size a
  packedbf16_S7680x192_S7680x64_0_64 : (Rect.unit (s := S7680x192) ![0, 64] S7680x64.size inb_S7680x192_S7680x64_0_64).PackedRows (EltTy.packing .bf16)
  inb_S7680x192_S7680x64_0_128 : ∀ a, (![0, 128] : Fin 2 → Nat) a + S7680x64.size a ≤ S7680x192.size a
  packedbf16_S7680x192_S7680x64_0_128 : (Rect.unit (s := S7680x192) ![0, 128] S7680x64.size inb_S7680x192_S7680x64_0_128).PackedRows (EltTy.packing .bf16)
  inb_S7680x192_S7680x192_0_0 : ∀ a, (![0, 0] : Fin 2 → Nat) a + S7680x192.size a ≤ S7680x192.size a
  h_S7680x192 : 0 < S7680x192.numel
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S7680x128_S7680x128_0_0 : ∀ a, (![0, 0] : Fin 2 → Nat) a + S7680x128.size a ≤ S7680x128.size a
  h_S7680x128 : 0 < S7680x128.numel
  concatenates_S61440x128_S61440x1_S61440x129_d1 : Shape.Concatenates [S61440x128, S61440x1] S61440x129 1
  bcast_S_S10248x129 : S_.BroadcastsInDim S10248x129 (![] : Fin 0 → Fin S10248x129.rank)
  slices_S10248x129_S10248x128_0_0 : S10248x129.Slices ![0, 0] S10248x128
  slices_S10248x129_S10248x1_0_128 : S10248x129.Slices ![0, 128] S10248x1
  bcast_S_S10248x1 : S_.BroadcastsInDim S10248x1 (![] : Fin 0 → Fin S10248x1.rank)
  bcast_S10248x1_S10248x128_0_1 : S10248x1.BroadcastsInDim S10248x128 (![0, 1] : Fin 2 → Fin S10248x128.rank)
  bcast_S128_S1x128_1 : S128.BroadcastsInDim S1x128 (![1] : Fin 1 → Fin S1x128.rank)
  bcast_S1x128_S10248x128_0_1 : S1x128.BroadcastsInDim S10248x128 (![0, 1] : Fin 2 → Fin S10248x128.rank)
  bcast_S_S10248x128 : S_.BroadcastsInDim S10248x128 (![] : Fin 0 → Fin S10248x128.rank)
  shapeCasts_S10248x128_S4x2562x128 : S10248x128.ShapeCasts S4x2562x128
  bcast_S_S2562x7 : S_.BroadcastsInDim S2562x7 (![] : Fin 0 → Fin S2562x7.rank)
  bcast_S2562x7_S2562x7x1_0_1 : S2562x7.BroadcastsInDim S2562x7x1 (![0, 1] : Fin 2 → Fin S2562x7x1.rank)
  reducesTo_S4x2562x7x128_S4x2562x128_d2 : S4x2562x7x128.ReducesTo [2] S4x2562x128
  slices_S4x2562x128_S4x642x128_0_0_0 : S4x2562x128.Slices ![0, 0, 0] S4x642x128
  shapeCasts_S4x642x128_S2568x128 : S4x642x128.ShapeCasts S2568x128
  slices_S2x15360_S1x15360_0_0 : S2x15360.Slices ![0, 0] S1x15360
  shapeCasts_S1x15360_S15360 : S1x15360.ShapeCasts S15360
  slices_S2x15360_S1x15360_1_0 : S2x15360.Slices ![1, 0] S1x15360
  bcast_S_S15360 : S_.BroadcastsInDim S15360 (![] : Fin 0 → Fin S15360.rank)
  bcast_S15360_S15360x1_0 : S15360.BroadcastsInDim S15360x1 (![0] : Fin 1 → Fin S15360x1.rank)
  bcast_S_S15360x1 : S_.BroadcastsInDim S15360x1 (![] : Fin 0 → Fin S15360x1.rank)
  bcast_S1x1_S15360x1_0_1 : S1x1.BroadcastsInDim S15360x1 (![0, 1] : Fin 2 → Fin S15360x1.rank)
  reducesTo_S15360x1_S15360_d1 : S15360x1.ReducesTo [1] S15360
  bcast_S15360_S15360x128_0 : S15360.BroadcastsInDim S15360x128 (![0] : Fin 1 → Fin S15360x128.rank)
  bcast_S_S15360x128 : S_.BroadcastsInDim S15360x128 (![] : Fin 0 → Fin S15360x128.rank)
  slices_S128x768_S128x256_0_0 : S128x768.Slices ![0, 0] S128x256
  slices_S128x768_S128x256_0_256 : S128x768.Slices ![0, 256] S128x256
  slices_S128x768_S128x256_0_512 : S128x768.Slices ![0, 512] S128x256
  concatenates_S128x256_S128x256_S128x256_S384x256_d0 : Shape.Concatenates [S128x256, S128x256, S128x256] S384x256 0
  inb_S3840x2_S3840x2_0_0 : ∀ a, (![0, 0] : Fin 2 → Nat) a + S3840x2.size a ≤ S3840x2.size a
  h_S3840x2 : 0 < S3840x2.numel
  inb_S3840x128_S3840x128_0_0 : ∀ a, (![0, 0] : Fin 2 → Nat) a + S3840x128.size a ≤ S3840x128.size a
  h_S3840x128 : 0 < S3840x128.numel
  shapeCasts_S3840x128_S3840x128 : S3840x128.ShapeCasts S3840x128
  broadcasts_S1x2_S3840x2 : S1x2.Broadcasts S3840x2
  reduces_S3840x2_S3840 : S3840x2.Reduces [1] S3840
  shapeCasts_S3840_S3840x1 : S3840.ShapeCasts S3840x1
  broadcasts_S3840x1_S3840x128 : S3840x1.Broadcasts S3840x128
  inb_S3840x384_S3840x128_0_0 : ∀ a, (![0, 0] : Fin 2 → Nat) a + S3840x128.size a ≤ S3840x384.size a
  packedbf16_S3840x384_S3840x128_0_0 : (Rect.unit (s := S3840x384) ![0, 0] S3840x128.size inb_S3840x384_S3840x128_0_0).PackedRows (EltTy.packing .bf16)
  inb_S3840x384_S3840x128_0_128 : ∀ a, (![0, 128] : Fin 2 → Nat) a + S3840x128.size a ≤ S3840x384.size a
  packedbf16_S3840x384_S3840x128_0_128 : (Rect.unit (s := S3840x384) ![0, 128] S3840x128.size inb_S3840x384_S3840x128_0_128).PackedRows (EltTy.packing .bf16)
  inb_S3840x384_S3840x128_0_256 : ∀ a, (![0, 256] : Fin 2 → Nat) a + S3840x128.size a ≤ S3840x384.size a
  packedbf16_S3840x384_S3840x128_0_256 : (Rect.unit (s := S3840x384) ![0, 256] S3840x128.size inb_S3840x384_S3840x128_0_256).PackedRows (EltTy.packing .bf16)
  inb_S3840x384_S3840x384_0_0 : ∀ a, (![0, 0] : Fin 2 → Nat) a + S3840x384.size a ≤ S3840x384.size a
  h_S3840x384 : 0 < S3840x384.numel
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S3840x256_S3840x256_0_0 : ∀ a, (![0, 0] : Fin 2 → Nat) a + S3840x256.size a ≤ S3840x256.size a
  h_S3840x256 : 0 < S3840x256.numel
  concatenates_S15360x256_S15360x1_S15360x257_d1 : Shape.Concatenates [S15360x256, S15360x1] S15360x257 1
  bcast_S_S2568x257 : S_.BroadcastsInDim S2568x257 (![] : Fin 0 → Fin S2568x257.rank)
  slices_S2568x257_S2568x256_0_0 : S2568x257.Slices ![0, 0] S2568x256
  slices_S2568x257_S2568x1_0_256 : S2568x257.Slices ![0, 256] S2568x1
  bcast_S_S2568x1 : S_.BroadcastsInDim S2568x1 (![] : Fin 0 → Fin S2568x1.rank)
  bcast_S2568x1_S2568x256_0_1 : S2568x1.BroadcastsInDim S2568x256 (![0, 1] : Fin 2 → Fin S2568x256.rank)
  bcast_S256_S1x256_1 : S256.BroadcastsInDim S1x256 (![1] : Fin 1 → Fin S1x256.rank)
  bcast_S1x256_S2568x256_0_1 : S1x256.BroadcastsInDim S2568x256 (![0, 1] : Fin 2 → Fin S2568x256.rank)
  bcast_S_S2568x256 : S_.BroadcastsInDim S2568x256 (![] : Fin 0 → Fin S2568x256.rank)
  shapeCasts_S2568x256_S4x642x256 : S2568x256.ShapeCasts S4x642x256
  bcast_S_S642x7 : S_.BroadcastsInDim S642x7 (![] : Fin 0 → Fin S642x7.rank)
  bcast_S642x7_S642x7x1_0_1 : S642x7.BroadcastsInDim S642x7x1 (![0, 1] : Fin 2 → Fin S642x7x1.rank)
  reducesTo_S4x642x7x256_S4x642x256_d2 : S4x642x7x256.ReducesTo [2] S4x642x256
  slices_S4x642x256_S4x162x256_0_0_0 : S4x642x256.Slices ![0, 0, 0] S4x162x256
  shapeCasts_S4x162x256_S648x256 : S4x162x256.ShapeCasts S648x256
  bcast_S4_S1x4_1 : S4.BroadcastsInDim S1x4 (![1] : Fin 1 → Fin S1x4.rank)
  bcast_S4x1_S4x4_0_1 : S4x1.BroadcastsInDim S4x4 (![0, 1] : Fin 2 → Fin S4x4.rank)
  bcast_S1x4_S4x4_0_1 : S1x4.BroadcastsInDim S4x4 (![0, 1] : Fin 2 → Fin S4x4.rank)
  shapeCasts_S648x256_S4x41472 : S648x256.ShapeCasts S4x41472
  concatenates_S4x41472_S4x4_S4x41476_d1 : Shape.Concatenates [S4x41472, S4x4] S4x41476 1
  bcast_S1x256_S4x256_0_1 : S1x256.BroadcastsInDim S4x256 (![0, 1] : Fin 2 → Fin S4x256.rank)
  bcast_S_S4x256 : S_.BroadcastsInDim S4x256 (![] : Fin 0 → Fin S4x256.rank)
  bcast_S1x1_S4x1_0_1 : S1x1.BroadcastsInDim S4x1 (![0, 1] : Fin 2 → Fin S4x1.rank)
  shapeCasts_S4x1_S4 : S4x1.ShapeCasts S4
  gather_S163848x2_S983040x1_S983040x2_1_0_n_n_0_1_12_wf : GatherDims.WF S163848x2 S983040x1 S983040x2 [1] [0] [] [0] [] 1 ![1, 2]
  dot_S8192x6_S6x32_S8192x32_1_0_0_1_n_n_wf : DotDims.WF S8192x6 S6x32 S8192x32 [1] [0] [0] [1] [] []
  scatter_S163848x33_S983040x1_S983040x33_1_0_0_1_wf : ScatterDims.WF S163848x33 S983040x1 S983040x33 [1] [0] [0] 1
  dot_S163848x2_S2x32_S163848x32_1_0_0_1_n_n_wf : DotDims.WF S163848x2 S2x32 S163848x32 [1] [0] [0] [1] [] []
  gather_S4x40962x32_S40962x7x1_S4x40962x7x32_03_1_n_n_1_2_4132_wf : GatherDims.WF S4x40962x32 S40962x7x1 S4x40962x7x32 [0, 3] [1] [] [1] [] 2 ![4, 1, 32]
  gather_S40968x32_S245760x1_S245760x32_1_0_n_n_0_1_132_wf : GatherDims.WF S40968x32 S245760x1 S245760x32 [1] [0] [] [0] [] 1 ![1, 32]
  dot_S8192x96_S96x64_S8192x64_1_0_0_1_n_n_wf : DotDims.WF S8192x96 S96x64 S8192x64 [1] [0] [0] [1] [] []
  scatter_S40968x65_S245760x1_S245760x65_1_0_0_1_wf : ScatterDims.WF S40968x65 S245760x1 S245760x65 [1] [0] [0] 1
  dot_S40968x32_S32x64_S40968x64_1_0_0_1_n_n_wf : DotDims.WF S40968x32 S32x64 S40968x64 [1] [0] [0] [1] [] []
  gather_S4x10242x64_S10242x7x1_S4x10242x7x64_03_1_n_n_1_2_4164_wf : GatherDims.WF S4x10242x64 S10242x7x1 S4x10242x7x64 [0, 3] [1] [] [1] [] 2 ![4, 1, 64]
  gather_S10248x64_S61440x1_S61440x64_1_0_n_n_0_1_164_wf : GatherDims.WF S10248x64 S61440x1 S61440x64 [1] [0] [] [0] [] 1 ![1, 64]
  dot_S7680x192_S192x128_S7680x128_1_0_0_1_n_n_wf : DotDims.WF S7680x192 S192x128 S7680x128 [1] [0] [0] [1] [] []
  scatter_S10248x129_S61440x1_S61440x129_1_0_0_1_wf : ScatterDims.WF S10248x129 S61440x1 S61440x129 [1] [0] [0] 1
  dot_S10248x64_S64x128_S10248x128_1_0_0_1_n_n_wf : DotDims.WF S10248x64 S64x128 S10248x128 [1] [0] [0] [1] [] []
  gather_S4x2562x128_S2562x7x1_S4x2562x7x128_03_1_n_n_1_2_41128_wf : GatherDims.WF S4x2562x128 S2562x7x1 S4x2562x7x128 [0, 3] [1] [] [1] [] 2 ![4, 1, 128]
  gather_S2568x128_S15360x1_S15360x128_1_0_n_n_0_1_1128_wf : GatherDims.WF S2568x128 S15360x1 S15360x128 [1] [0] [] [0] [] 1 ![1, 128]
  dot_S3840x384_S384x256_S3840x256_1_0_0_1_n_n_wf : DotDims.WF S3840x384 S384x256 S3840x256 [1] [0] [0] [1] [] []
  scatter_S2568x257_S15360x1_S15360x257_1_0_0_1_wf : ScatterDims.WF S2568x257 S15360x1 S15360x257 [1] [0] [0] 1
  dot_S2568x128_S128x256_S2568x256_1_0_0_1_n_n_wf : DotDims.WF S2568x128 S128x256 S2568x256 [1] [0] [0] [1] [] []
  gather_S4x642x256_S642x7x1_S4x642x7x256_03_1_n_n_1_2_41256_wf : GatherDims.WF S4x642x256 S642x7x1 S4x642x7x256 [0, 3] [1] [] [1] [] 2 ![4, 1, 256]
  dot_S4x41476_S41476x256_S4x256_1_0_0_1_n_n_wf : DotDims.WF S4x41476 S41476x256 S4x256 [1] [0] [0] [1] [] []
  dot_S4x256_S256x1_S4x1_1_0_0_1_n_n_wf : DotDims.WF S4x256 S256x1 S4x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S983040x2.size a
  hwx0_0 : ∀ i : grid0.Coords, EltTy.bits .bf16 = 32 ∨ (Rect.block (s := S983040x2) S8192x2.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x2.size a ≤ S983040x2.size a
  hwx0_1 : ∀ i : grid0.Coords, EltTy.bits .f32 = 32 ∨ (Rect.block (s := S983040x2) S8192x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x32.size a ≤ S6x32.size a
  hwx0_2 : ∀ i : grid0.Coords, EltTy.bits .bf16 = 32 ∨ (Rect.block (s := S6x32) S6x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x2.size a ≤ S3x2.size a
  hwx0_3 : ∀ i : grid0.Coords, EltTy.bits .f32 = 32 ∨ (Rect.block (s := S3x2) S3x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x2.size a ≤ S3x2.size a
  hwx0_4 : ∀ i : grid0.Coords, EltTy.bits .f32 = 32 ∨ (Rect.block (s := S3x2) S3x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x32.size a ≤ S983040x32.size a
  hwx0_5 : ∀ i : grid0.Coords, EltTy.bits .f32 = 32 ∨ (Rect.block (s := S983040x32) S8192x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x32.size a ≤ S245760x32.size a
  hwx1_0 : ∀ i : grid1.Coords, EltTy.bits .bf16 = 32 ∨ (Rect.block (s := S245760x32) S8192x32.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x2.size a ≤ S245760x2.size a
  hwx1_1 : ∀ i : grid1.Coords, EltTy.bits .f32 = 32 ∨ (Rect.block (s := S245760x2) S8192x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x64.size a ≤ S96x64.size a
  hwx1_2 : ∀ i : grid1.Coords, EltTy.bits .bf16 = 32 ∨ (Rect.block (s := S96x64) S96x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x2.size a ≤ S3x2.size a
  hwx1_3 : ∀ i : grid1.Coords, EltTy.bits .f32 = 32 ∨ (Rect.block (s := S3x2) S3x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x2.size a ≤ S3x2.size a
  hwx1_4 : ∀ i : grid1.Coords, EltTy.bits .f32 = 32 ∨ (Rect.block (s := S3x2) S3x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x64.size a ≤ S245760x64.size a
  hwx1_5 : ∀ i : grid1.Coords, EltTy.bits .f32 = 32 ∨ (Rect.block (s := S245760x64) S8192x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S7680x64.size a ≤ S61440x64.size a
  hwx2_0 : ∀ i : grid2.Coords, EltTy.bits .bf16 = 32 ∨ (Rect.block (s := S61440x64) S7680x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S7680x2.size a ≤ S61440x2.size a
  hwx2_1 : ∀ i : grid2.Coords, EltTy.bits .f32 = 32 ∨ (Rect.block (s := S61440x2) S7680x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S192x128.size a ≤ S192x128.size a
  hwx2_2 : ∀ i : grid2.Coords, EltTy.bits .bf16 = 32 ∨ (Rect.block (s := S192x128) S192x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x2.size a ≤ S3x2.size a
  hwx2_3 : ∀ i : grid2.Coords, EltTy.bits .f32 = 32 ∨ (Rect.block (s := S3x2) S3x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x2.size a ≤ S3x2.size a
  hwx2_4 : ∀ i : grid2.Coords, EltTy.bits .f32 = 32 ∨ (Rect.block (s := S3x2) S3x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S7680x128.size a ≤ S61440x128.size a
  hwx2_5 : ∀ i : grid2.Coords, EltTy.bits .f32 = 32 ∨ (Rect.block (s := S61440x128) S7680x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3840x128.size a ≤ S15360x128.size a
  hwx3_0 : ∀ i : grid3.Coords, EltTy.bits .bf16 = 32 ∨ (Rect.block (s := S15360x128) S3840x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3840x2.size a ≤ S15360x2.size a
  hwx3_1 : ∀ i : grid3.Coords, EltTy.bits .f32 = 32 ∨ (Rect.block (s := S15360x2) S3840x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S384x256.size a ≤ S384x256.size a
  hwx3_2 : ∀ i : grid3.Coords, EltTy.bits .bf16 = 32 ∨ (Rect.block (s := S384x256) S384x256.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x2.size a ≤ S3x2.size a
  hwx3_3 : ∀ i : grid3.Coords, EltTy.bits .f32 = 32 ∨ (Rect.block (s := S3x2) S3x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S3x2.size a ≤ S3x2.size a
  hwx3_4 : ∀ i : grid3.Coords, EltTy.bits .f32 = 32 ∨ (Rect.block (s := S3x2) S3x2.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S3840x256.size a ≤ S15360x256.size a
  hwx3_5 : ∀ i : grid3.Coords, EltTy.bits .f32 = 32 ∨ (Rect.block (s := S15360x256) S3840x256.size (cc3_transform_5 i) (hinb3_5 i)).WholeWords (EltTy.packing .f32)

variable [Facts₀]

def gather_S163848x2_S983040x1_S983040x2_1_0_n_n_0_1_12 : GatherDims S163848x2 S983040x1 S983040x2 where
  offsetDims := [1]
  collapsedSliceDims := [0]
  operandBatchingDims := []
  startIndicesBatchingDims := []
  startIndexMap := [0]
  indexVectorDim := 1
  sliceSizes := ![1, 2]
  wf := gather_S163848x2_S983040x1_S983040x2_1_0_n_n_0_1_12_wf
def dot_S8192x6_S6x32_S8192x32_1_0_0_1_n_n : DotDims S8192x6 S6x32 S8192x32 where
  lhsContracting := [1]
  rhsContracting := [0]
  lhsNonContracting := [0]
  rhsNonContracting := [1]
  lhsBatch := []
  rhsBatch := []
  wf := dot_S8192x6_S6x32_S8192x32_1_0_0_1_n_n_wf
def scatter_S163848x33_S983040x1_S983040x33_1_0_0_1 : ScatterDims S163848x33 S983040x1 S983040x33 where
  updateWindowDims := [1]
  insertedWindowDims := [0]
  scatterDimsToOperandDims := [0]
  indexVectorDim := 1
  wf := scatter_S163848x33_S983040x1_S983040x33_1_0_0_1_wf
def dot_S163848x2_S2x32_S163848x32_1_0_0_1_n_n : DotDims S163848x2 S2x32 S163848x32 where
  lhsContracting := [1]
  rhsContracting := [0]
  lhsNonContracting := [0]
  rhsNonContracting := [1]
  lhsBatch := []
  rhsBatch := []
  wf := dot_S163848x2_S2x32_S163848x32_1_0_0_1_n_n_wf
def gather_S4x40962x32_S40962x7x1_S4x40962x7x32_03_1_n_n_1_2_4132 : GatherDims S4x40962x32 S40962x7x1 S4x40962x7x32 where
  offsetDims := [0, 3]
  collapsedSliceDims := [1]
  operandBatchingDims := []
  startIndicesBatchingDims := []
  startIndexMap := [1]
  indexVectorDim := 2
  sliceSizes := ![4, 1, 32]
  wf := gather_S4x40962x32_S40962x7x1_S4x40962x7x32_03_1_n_n_1_2_4132_wf
def gather_S40968x32_S245760x1_S245760x32_1_0_n_n_0_1_132 : GatherDims S40968x32 S245760x1 S245760x32 where
  offsetDims := [1]
  collapsedSliceDims := [0]
  operandBatchingDims := []
  startIndicesBatchingDims := []
  startIndexMap := [0]
  indexVectorDim := 1
  sliceSizes := ![1, 32]
  wf := gather_S40968x32_S245760x1_S245760x32_1_0_n_n_0_1_132_wf
def dot_S8192x96_S96x64_S8192x64_1_0_0_1_n_n : DotDims S8192x96 S96x64 S8192x64 where
  lhsContracting := [1]
  rhsContracting := [0]
  lhsNonContracting := [0]
  rhsNonContracting := [1]
  lhsBatch := []
  rhsBatch := []
  wf := dot_S8192x96_S96x64_S8192x64_1_0_0_1_n_n_wf
def scatter_S40968x65_S245760x1_S245760x65_1_0_0_1 : ScatterDims S40968x65 S245760x1 S245760x65 where
  updateWindowDims := [1]
  insertedWindowDims := [0]
  scatterDimsToOperandDims := [0]
  indexVectorDim := 1
  wf := scatter_S40968x65_S245760x1_S245760x65_1_0_0_1_wf
def dot_S40968x32_S32x64_S40968x64_1_0_0_1_n_n : DotDims S40968x32 S32x64 S40968x64 where
  lhsContracting := [1]
  rhsContracting := [0]
  lhsNonContracting := [0]
  rhsNonContracting := [1]
  lhsBatch := []
  rhsBatch := []
  wf := dot_S40968x32_S32x64_S40968x64_1_0_0_1_n_n_wf
def gather_S4x10242x64_S10242x7x1_S4x10242x7x64_03_1_n_n_1_2_4164 : GatherDims S4x10242x64 S10242x7x1 S4x10242x7x64 where
  offsetDims := [0, 3]
  collapsedSliceDims := [1]
  operandBatchingDims := []
  startIndicesBatchingDims := []
  startIndexMap := [1]
  indexVectorDim := 2
  sliceSizes := ![4, 1, 64]
  wf := gather_S4x10242x64_S10242x7x1_S4x10242x7x64_03_1_n_n_1_2_4164_wf
def gather_S10248x64_S61440x1_S61440x64_1_0_n_n_0_1_164 : GatherDims S10248x64 S61440x1 S61440x64 where
  offsetDims := [1]
  collapsedSliceDims := [0]
  operandBatchingDims := []
  startIndicesBatchingDims := []
  startIndexMap := [0]
  indexVectorDim := 1
  sliceSizes := ![1, 64]
  wf := gather_S10248x64_S61440x1_S61440x64_1_0_n_n_0_1_164_wf
def dot_S7680x192_S192x128_S7680x128_1_0_0_1_n_n : DotDims S7680x192 S192x128 S7680x128 where
  lhsContracting := [1]
  rhsContracting := [0]
  lhsNonContracting := [0]
  rhsNonContracting := [1]
  lhsBatch := []
  rhsBatch := []
  wf := dot_S7680x192_S192x128_S7680x128_1_0_0_1_n_n_wf
def scatter_S10248x129_S61440x1_S61440x129_1_0_0_1 : ScatterDims S10248x129 S61440x1 S61440x129 where
  updateWindowDims := [1]
  insertedWindowDims := [0]
  scatterDimsToOperandDims := [0]
  indexVectorDim := 1
  wf := scatter_S10248x129_S61440x1_S61440x129_1_0_0_1_wf
def dot_S10248x64_S64x128_S10248x128_1_0_0_1_n_n : DotDims S10248x64 S64x128 S10248x128 where
  lhsContracting := [1]
  rhsContracting := [0]
  lhsNonContracting := [0]
  rhsNonContracting := [1]
  lhsBatch := []
  rhsBatch := []
  wf := dot_S10248x64_S64x128_S10248x128_1_0_0_1_n_n_wf
def gather_S4x2562x128_S2562x7x1_S4x2562x7x128_03_1_n_n_1_2_41128 : GatherDims S4x2562x128 S2562x7x1 S4x2562x7x128 where
  offsetDims := [0, 3]
  collapsedSliceDims := [1]
  operandBatchingDims := []
  startIndicesBatchingDims := []
  startIndexMap := [1]
  indexVectorDim := 2
  sliceSizes := ![4, 1, 128]
  wf := gather_S4x2562x128_S2562x7x1_S4x2562x7x128_03_1_n_n_1_2_41128_wf
def gather_S2568x128_S15360x1_S15360x128_1_0_n_n_0_1_1128 : GatherDims S2568x128 S15360x1 S15360x128 where
  offsetDims := [1]
  collapsedSliceDims := [0]
  operandBatchingDims := []
  startIndicesBatchingDims := []
  startIndexMap := [0]
  indexVectorDim := 1
  sliceSizes := ![1, 128]
  wf := gather_S2568x128_S15360x1_S15360x128_1_0_n_n_0_1_1128_wf
def dot_S3840x384_S384x256_S3840x256_1_0_0_1_n_n : DotDims S3840x384 S384x256 S3840x256 where
  lhsContracting := [1]
  rhsContracting := [0]
  lhsNonContracting := [0]
  rhsNonContracting := [1]
  lhsBatch := []
  rhsBatch := []
  wf := dot_S3840x384_S384x256_S3840x256_1_0_0_1_n_n_wf
def scatter_S2568x257_S15360x1_S15360x257_1_0_0_1 : ScatterDims S2568x257 S15360x1 S15360x257 where
  updateWindowDims := [1]
  insertedWindowDims := [0]
  scatterDimsToOperandDims := [0]
  indexVectorDim := 1
  wf := scatter_S2568x257_S15360x1_S15360x257_1_0_0_1_wf
def dot_S2568x128_S128x256_S2568x256_1_0_0_1_n_n : DotDims S2568x128 S128x256 S2568x256 where
  lhsContracting := [1]
  rhsContracting := [0]
  lhsNonContracting := [0]
  rhsNonContracting := [1]
  lhsBatch := []
  rhsBatch := []
  wf := dot_S2568x128_S128x256_S2568x256_1_0_0_1_n_n_wf
def gather_S4x642x256_S642x7x1_S4x642x7x256_03_1_n_n_1_2_41256 : GatherDims S4x642x256 S642x7x1 S4x642x7x256 where
  offsetDims := [0, 3]
  collapsedSliceDims := [1]
  operandBatchingDims := []
  startIndicesBatchingDims := []
  startIndexMap := [1]
  indexVectorDim := 2
  sliceSizes := ![4, 1, 256]
  wf := gather_S4x642x256_S642x7x1_S4x642x7x256_03_1_n_n_1_2_41256_wf
def dot_S4x41476_S41476x256_S4x256_1_0_0_1_n_n : DotDims S4x41476 S41476x256 S4x256 where
  lhsContracting := [1]
  rhsContracting := [0]
  lhsNonContracting := [0]
  rhsNonContracting := [1]
  lhsBatch := []
  rhsBatch := []
  wf := dot_S4x41476_S41476x256_S4x256_1_0_0_1_n_n_wf
def dot_S4x256_S256x1_S4x1_1_0_0_1_n_n : DotDims S4x256 S256x1 S4x1 where
  lhsContracting := [1]
  rhsContracting := [0]
  lhsNonContracting := [0]
  rhsNonContracting := [1]
  lhsBatch := []
  rhsBatch := []
  wf := dot_S4x256_S256x1_S4x1_1_0_0_1_n_n_wf

abbrev win0_0 : Pipeline.Window sig grid0 :=
  Pipeline.Window.ofSpec (Memref.whole main_v5) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S8192x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S6x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg15) S3x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg16) S3x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S8192x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S8192x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S8192x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S96x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg20) S3x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg21) S3x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S8192x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v85) S7680x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S7680x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v90) S192x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg25) S3x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg26) S3x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S7680x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v125) S3840x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S3840x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v130) S384x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg30) S3x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg31) S3x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v131) S3840x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S163848x2 : Shape := ⟨2, ![163848, 2]⟩
abbrev S2x983040 : Shape := ⟨2, ![2, 983040]⟩
abbrev S2x245760 : Shape := ⟨2, ![2, 245760]⟩
abbrev S2x61440 : Shape := ⟨2, ![2, 61440]⟩
abbrev S2x15360 : Shape := ⟨2, ![2, 15360]⟩
abbrev S983040x2 : Shape := ⟨2, ![983040, 2]⟩
abbrev S245760x2 : Shape := ⟨2, ![245760, 2]⟩
abbrev S61440x2 : Shape := ⟨2, ![61440, 2]⟩
abbrev S15360x2 : Shape := ⟨2, ![15360, 2]⟩
abbrev S40962x7 : Shape := ⟨2, ![40962, 7]⟩
abbrev S10242x7 : Shape := ⟨2, ![10242, 7]⟩
abbrev S2562x7 : Shape := ⟨2, ![2562, 7]⟩
abbrev S642x7 : Shape := ⟨2, ![642, 7]⟩
abbrev S4x1 : Shape := ⟨2, ![4, 1]⟩
abbrev S2x96 : Shape := ⟨2, ![2, 96]⟩
abbrev S3x2 : Shape := ⟨2, ![3, 2]⟩
abbrev S2x32 : Shape := ⟨2, ![2, 32]⟩
abbrev S32 : Shape := ⟨1, ![32]⟩
abbrev S32x192 : Shape := ⟨2, ![32, 192]⟩
abbrev S32x64 : Shape := ⟨2, ![32, 64]⟩
abbrev S64 : Shape := ⟨1, ![64]⟩
abbrev S64x384 : Shape := ⟨2, ![64, 384]⟩
abbrev S64x128 : Shape := ⟨2, ![64, 128]⟩
abbrev S128 : Shape := ⟨1, ![128]⟩
abbrev S128x768 : Shape := ⟨2, ![128, 768]⟩
abbrev S128x256 : Shape := ⟨2, ![128, 256]⟩
abbrev S256 : Shape := ⟨1, ![256]⟩
abbrev S4 : Shape := ⟨1, ![4]⟩
abbrev S41476x256 : Shape := ⟨2, ![41476, 256]⟩
abbrev S256x1 : Shape := ⟨2, ![256, 1]⟩
abbrev S1 : Shape := ⟨1, ![1]⟩
abbrev S1x983040 : Shape := ⟨2, ![1, 983040]⟩
abbrev S983040 : Shape := ⟨1, ![983040]⟩
abbrev S983040x1x2 : Shape := ⟨3, ![983040, 1, 2]⟩
abbrev S1x3x2 : Shape := ⟨3, ![1, 3, 2]⟩
abbrev S983040x3x2 : Shape := ⟨3, ![983040, 3, 2]⟩
abbrev S_ : Shape := ⟨0, ![]⟩
abbrev S983040x3 : Shape := ⟨2, ![983040, 3]⟩
abbrev S983040x1 : Shape := ⟨2, ![983040, 1]⟩
abbrev S983040x96 : Shape := ⟨2, ![983040, 96]⟩
abbrev S983040x3x32 : Shape := ⟨3, ![983040, 3, 32]⟩
abbrev S983040x3x1 : Shape := ⟨3, ![983040, 3, 1]⟩
abbrev S983040x32 : Shape := ⟨2, ![983040, 32]⟩
abbrev S163848x32 : Shape := ⟨2, ![163848, 32]⟩
abbrev S163848 : Shape := ⟨1, ![163848]⟩
abbrev S163848x1 : Shape := ⟨2, ![163848, 1]⟩
abbrev S1x32 : Shape := ⟨2, ![1, 32]⟩
abbrev S4x40962x32 : Shape := ⟨3, ![4, 40962, 32]⟩
abbrev S40962x7x1 : Shape := ⟨3, ![40962, 7, 1]⟩
abbrev S4x40962x7x32 : Shape := ⟨4, ![4, 40962, 7, 32]⟩
abbrev S4x10242x32 : Shape := ⟨3, ![4, 10242, 32]⟩
abbrev S40968x32 : Shape := ⟨2, ![40968, 32]⟩
abbrev S1x245760 : Shape := ⟨2, ![1, 245760]⟩
abbrev S245760 : Shape := ⟨1, ![245760]⟩
abbrev S245760x1x2 : Shape := ⟨3, ![245760, 1, 2]⟩
abbrev S245760x3x2 : Shape := ⟨3, ![245760, 3, 2]⟩
abbrev S245760x3 : Shape := ⟨2, ![245760, 3]⟩
abbrev S245760x1 : Shape := ⟨2, ![245760, 1]⟩
abbrev S245760x32 : Shape := ⟨2, ![245760, 32]⟩
abbrev S245760x192 : Shape := ⟨2, ![245760, 192]⟩
abbrev S245760x3x64 : Shape := ⟨3, ![245760, 3, 64]⟩
abbrev S245760x3x1 : Shape := ⟨3, ![245760, 3, 1]⟩
abbrev S245760x64 : Shape := ⟨2, ![245760, 64]⟩
abbrev S40968x64 : Shape := ⟨2, ![40968, 64]⟩
abbrev S40968 : Shape := ⟨1, ![40968]⟩
abbrev S40968x1 : Shape := ⟨2, ![40968, 1]⟩
abbrev S1x64 : Shape := ⟨2, ![1, 64]⟩
abbrev S4x10242x64 : Shape := ⟨3, ![4, 10242, 64]⟩
abbrev S10242x7x1 : Shape := ⟨3, ![10242, 7, 1]⟩
abbrev S4x10242x7x64 : Shape := ⟨4, ![4, 10242, 7, 64]⟩
abbrev S4x2562x64 : Shape := ⟨3, ![4, 2562, 64]⟩
abbrev S10248x64 : Shape := ⟨2, ![10248, 64]⟩
abbrev S1x61440 : Shape := ⟨2, ![1, 61440]⟩
abbrev S61440 : Shape := ⟨1, ![61440]⟩
abbrev S61440x1x2 : Shape := ⟨3, ![61440, 1, 2]⟩
abbrev S61440x3x2 : Shape := ⟨3, ![61440, 3, 2]⟩
abbrev S61440x3 : Shape := ⟨2, ![61440, 3]⟩
abbrev S61440x1 : Shape := ⟨2, ![61440, 1]⟩
abbrev S61440x64 : Shape := ⟨2, ![61440, 64]⟩
abbrev S61440x384 : Shape := ⟨2, ![61440, 384]⟩
abbrev S61440x3x128 : Shape := ⟨3, ![61440, 3, 128]⟩
abbrev S61440x3x1 : Shape := ⟨3, ![61440, 3, 1]⟩
abbrev S61440x128 : Shape := ⟨2, ![61440, 128]⟩
abbrev S10248x128 : Shape := ⟨2, ![10248, 128]⟩
abbrev S10248 : Shape := ⟨1, ![10248]⟩
abbrev S10248x1 : Shape := ⟨2, ![10248, 1]⟩
abbrev S1x128 : Shape := ⟨2, ![1, 128]⟩
abbrev S4x2562x128 : Shape := ⟨3, ![4, 2562, 128]⟩
abbrev S2562x7x1 : Shape := ⟨3, ![2562, 7, 1]⟩
abbrev S4x2562x7x128 : Shape := ⟨4, ![4, 2562, 7, 128]⟩
abbrev S4x642x128 : Shape := ⟨3, ![4, 642, 128]⟩
abbrev S2568x128 : Shape := ⟨2, ![2568, 128]⟩
abbrev S1x15360 : Shape := ⟨2, ![1, 15360]⟩
abbrev S15360 : Shape := ⟨1, ![15360]⟩
abbrev S15360x1x2 : Shape := ⟨3, ![15360, 1, 2]⟩
abbrev S15360x3x2 : Shape := ⟨3, ![15360, 3, 2]⟩
abbrev S15360x3 : Shape := ⟨2, ![15360, 3]⟩
abbrev S15360x1 : Shape := ⟨2, ![15360, 1]⟩
abbrev S15360x128 : Shape := ⟨2, ![15360, 128]⟩
abbrev S15360x768 : Shape := ⟨2, ![15360, 768]⟩
abbrev S15360x3x256 : Shape := ⟨3, ![15360, 3, 256]⟩
abbrev S15360x3x1 : Shape := ⟨3, ![15360, 3, 1]⟩
abbrev S15360x256 : Shape := ⟨2, ![15360, 256]⟩
abbrev S2568x256 : Shape := ⟨2, ![2568, 256]⟩
abbrev S2568 : Shape := ⟨1, ![2568]⟩
abbrev S2568x1 : Shape := ⟨2, ![2568, 1]⟩
abbrev S1x256 : Shape := ⟨2, ![1, 256]⟩
abbrev S4x642x256 : Shape := ⟨3, ![4, 642, 256]⟩
abbrev S642x7x1 : Shape := ⟨3, ![642, 7, 1]⟩
abbrev S4x642x7x256 : Shape := ⟨4, ![4, 642, 7, 256]⟩
abbrev S4x162x256 : Shape := ⟨3, ![4, 162, 256]⟩
abbrev S648x256 : Shape := ⟨2, ![648, 256]⟩
abbrev S1x4 : Shape := ⟨2, ![1, 4]⟩
abbrev S4x4 : Shape := ⟨2, ![4, 4]⟩
abbrev S4x41472 : Shape := ⟨2, ![4, 41472]⟩
abbrev S4x41476 : Shape := ⟨2, ![4, 41476]⟩
abbrev S4x256 : Shape := ⟨2, ![4, 256]⟩
abbrev S1x1 : Shape := ⟨2, ![1, 1]⟩

abbrev nBuf : Space → Nat
  | .hbm => 369
  | .vmem => 0
  | .smem => 0
  | _ => 0

abbrev hbmTy0_0 (i : Nat) : BufTy := match i % 128 with
  | 0 => ⟨S163848x2, .f32⟩
  | 1 => ⟨S2x983040, .i32⟩
  | 2 => ⟨S2x245760, .i32⟩
  | 3 => ⟨S2x61440, .i32⟩
  | 4 => ⟨S2x15360, .i32⟩
  | 5 => ⟨S983040x2, .f32⟩
  | 6 => ⟨S245760x2, .f32⟩
  | 7 => ⟨S61440x2, .f32⟩
  | 8 => ⟨S15360x2, .f32⟩
  | 9 => ⟨S40962x7, .i32⟩
  | 10 => ⟨S10242x7, .i32⟩
  | 11 => ⟨S2562x7, .i32⟩
  | 12 => ⟨S642x7, .i32⟩
  | 13 => ⟨S4x1, .f32⟩
  | 14 => ⟨S2x96, .f32⟩
  | 15 => ⟨S3x2, .f32⟩
  | 16 => ⟨S3x2, .f32⟩
  | 17 => ⟨S2x32, .f32⟩
  | 18 => ⟨S32, .f32⟩
  | 19 => ⟨S32x192, .f32⟩
  | 20 => ⟨S3x2, .f32⟩
  | 21 => ⟨S3x2, .f32⟩
  | 22 => ⟨S32x64, .f32⟩
  | 23 => ⟨S64, .f32⟩
  | 24 => ⟨S64x384, .f32⟩
  | 25 => ⟨S3x2, .f32⟩
  | 26 => ⟨S3x2, .f32⟩
  | 27 => ⟨S64x128, .f32⟩
  | 28 => ⟨S128, .f32⟩
  | 29 => ⟨S128x768, .f32⟩
  | 30 => ⟨S3x2, .f32⟩
  | 31 => ⟨S3x2, .f32⟩
  | 32 => ⟨S128x256, .f32⟩
  | 33 => ⟨S256, .f32⟩
  | 34 => ⟨S4, .f32⟩
  | 35 => ⟨S4, .f32⟩
  | 36 => ⟨S41476x256, .f32⟩
  | 37 => ⟨S256, .f32⟩
  | 38 => ⟨S256x1, .f32⟩
  | 39 => ⟨S1, .f32⟩
  | 40 => ⟨S1x983040, .i32⟩
  | 41 => ⟨S983040, .i32⟩
  | 42 => ⟨S1x983040, .i32⟩
  | 43 => ⟨S983040, .i32⟩
  | 44 => ⟨S983040x1x2, .f32⟩
  | 45 => ⟨S1x3x2, .f32⟩
  | 46 => ⟨S983040x3x2, .f32⟩
  | 47 => ⟨S983040x3x2, .f32⟩
  | 48 => ⟨S983040x3x2, .f32⟩
  | 49 => ⟨S983040x3x2, .f32⟩
  | 50 => ⟨S1x3x2, .f32⟩
  | 51 => ⟨S1x3x2, .f32⟩
  | 52 => ⟨S_, .f32⟩
  | 53 => ⟨S1x3x2, .f32⟩
  | 54 => ⟨S1x3x2, .f32⟩
  | 55 => ⟨S983040x3x2, .f32⟩
  | 56 => ⟨S983040x3x2, .f32⟩
  | 57 => ⟨S_, .f32⟩
  | 58 => ⟨S983040x3, .f32⟩
  | 59 => ⟨S_, .f32⟩
  | 60 => ⟨S983040x3, .f32⟩
  | 61 => ⟨S983040x3, .f32⟩
  | 62 => ⟨S983040x3, .f32⟩
  | 63 => ⟨S_, .i32⟩
  | 64 => ⟨S983040, .i32⟩
  | 65 => ⟨S983040, .i1⟩
  | 66 => ⟨S_, .i32⟩
  | 67 => ⟨S983040, .i32⟩
  | 68 => ⟨S983040, .i32⟩
  | 69 => ⟨S983040, .i32⟩
  | 70 => ⟨S983040x1, .i32⟩
  | 71 => ⟨S983040x2, .f32⟩
  | 72 => ⟨S983040x96, .f32⟩
  | 73 => ⟨S983040x3x32, .f32⟩
  | 74 => ⟨S983040x3x1, .f32⟩
  | 75 => ⟨S983040x3x32, .f32⟩
  | 76 => ⟨S983040x3x32, .f32⟩
  | 77 => ⟨S_, .f32⟩
  | 78 => ⟨S983040x32, .f32⟩
  | 79 => ⟨S_, .f32⟩
  | 80 => ⟨S163848x32, .f32⟩
  | 81 => ⟨S983040x1, .i32⟩
  | 82 => ⟨S163848x32, .f32⟩
  | 83 => ⟨S_, .f32⟩
  | 84 => ⟨S983040, .f32⟩
  | 85 => ⟨S_, .f32⟩
  | 86 => ⟨S163848, .f32⟩
  | 87 => ⟨S983040x1, .i32⟩
  | 88 => ⟨S163848, .f32⟩
  | 89 => ⟨S_, .f32⟩
  | 90 => ⟨S163848, .f32⟩
  | 91 => ⟨S163848, .f32⟩
  | 92 => ⟨S163848x1, .f32⟩
  | 93 => ⟨S163848x32, .f32⟩
  | 94 => ⟨S163848x32, .f32⟩
  | 95 => ⟨S163848x32, .f32⟩
  | 96 => ⟨S163848x32, .f32⟩
  | 97 => ⟨S1x32, .f32⟩
  | 98 => ⟨S163848x32, .f32⟩
  | 99 => ⟨S163848x32, .f32⟩
  | 100 => ⟨S_, .f32⟩
  | 101 => ⟨S163848x32, .f32⟩
  | 102 => ⟨S163848x32, .f32⟩
  | 103 => ⟨S4x40962x32, .f32⟩
  | 104 => ⟨S_, .i32⟩
  | 105 => ⟨S40962x7, .i32⟩
  | 106 => ⟨S40962x7, .i1⟩
  | 107 => ⟨S_, .i32⟩
  | 108 => ⟨S40962x7, .i32⟩
  | 109 => ⟨S40962x7, .i32⟩
  | 110 => ⟨S40962x7, .i32⟩
  | 111 => ⟨S40962x7x1, .i32⟩
  | 112 => ⟨S4x40962x7x32, .f32⟩
  | 113 => ⟨S_, .f32⟩
  | 114 => ⟨S4x40962x32, .f32⟩
  | 115 => ⟨S4x10242x32, .f32⟩
  | 116 => ⟨S40968x32, .f32⟩
  | 117 => ⟨S1x245760, .i32⟩
  | 118 => ⟨S245760, .i32⟩
  | 119 => ⟨S1x245760, .i32⟩
  | 120 => ⟨S245760, .i32⟩
  | 121 => ⟨S245760x1x2, .f32⟩
  | 122 => ⟨S1x3x2, .f32⟩
  | 123 => ⟨S245760x3x2, .f32⟩
  | 124 => ⟨S245760x3x2, .f32⟩
  | 125 => ⟨S245760x3x2, .f32⟩
  | 126 => ⟨S245760x3x2, .f32⟩
  | 127 => ⟨S1x3x2, .f32⟩
  | _ => ⟨S163848x2, .f32⟩

abbrev hbmTy0_1 (i : Nat) : BufTy := match i % 128 with
  | 0 => ⟨S1x3x2, .f32⟩
  | 1 => ⟨S_, .f32⟩
  | 2 => ⟨S1x3x2, .f32⟩
  | 3 => ⟨S1x3x2, .f32⟩
  | 4 => ⟨S245760x3x2, .f32⟩
  | 5 => ⟨S245760x3x2, .f32⟩
  | 6 => ⟨S_, .f32⟩
  | 7 => ⟨S245760x3, .f32⟩
  | 8 => ⟨S_, .f32⟩
  | 9 => ⟨S245760x3, .f32⟩
  | 10 => ⟨S245760x3, .f32⟩
  | 11 => ⟨S245760x3, .f32⟩
  | 12 => ⟨S_, .i32⟩
  | 13 => ⟨S245760, .i32⟩
  | 14 => ⟨S245760, .i1⟩
  | 15 => ⟨S_, .i32⟩
  | 16 => ⟨S245760, .i32⟩
  | 17 => ⟨S245760, .i32⟩
  | 18 => ⟨S245760, .i32⟩
  | 19 => ⟨S245760x1, .i32⟩
  | 20 => ⟨S245760x32, .f32⟩
  | 21 => ⟨S245760x192, .f32⟩
  | 22 => ⟨S245760x3x64, .f32⟩
  | 23 => ⟨S245760x3x1, .f32⟩
  | 24 => ⟨S245760x3x64, .f32⟩
  | 25 => ⟨S245760x3x64, .f32⟩
  | 26 => ⟨S_, .f32⟩
  | 27 => ⟨S245760x64, .f32⟩
  | 28 => ⟨S_, .f32⟩
  | 29 => ⟨S40968x64, .f32⟩
  | 30 => ⟨S245760x1, .i32⟩
  | 31 => ⟨S40968x64, .f32⟩
  | 32 => ⟨S_, .f32⟩
  | 33 => ⟨S245760, .f32⟩
  | 34 => ⟨S_, .f32⟩
  | 35 => ⟨S40968, .f32⟩
  | 36 => ⟨S245760x1, .i32⟩
  | 37 => ⟨S40968, .f32⟩
  | 38 => ⟨S_, .f32⟩
  | 39 => ⟨S40968, .f32⟩
  | 40 => ⟨S40968, .f32⟩
  | 41 => ⟨S40968x1, .f32⟩
  | 42 => ⟨S40968x64, .f32⟩
  | 43 => ⟨S40968x64, .f32⟩
  | 44 => ⟨S40968x64, .f32⟩
  | 45 => ⟨S40968x64, .f32⟩
  | 46 => ⟨S1x64, .f32⟩
  | 47 => ⟨S40968x64, .f32⟩
  | 48 => ⟨S40968x64, .f32⟩
  | 49 => ⟨S_, .f32⟩
  | 50 => ⟨S40968x64, .f32⟩
  | 51 => ⟨S40968x64, .f32⟩
  | 52 => ⟨S4x10242x64, .f32⟩
  | 53 => ⟨S_, .i32⟩
  | 54 => ⟨S10242x7, .i32⟩
  | 55 => ⟨S10242x7, .i1⟩
  | 56 => ⟨S_, .i32⟩
  | 57 => ⟨S10242x7, .i32⟩
  | 58 => ⟨S10242x7, .i32⟩
  | 59 => ⟨S10242x7, .i32⟩
  | 60 => ⟨S10242x7x1, .i32⟩
  | 61 => ⟨S4x10242x7x64, .f32⟩
  | 62 => ⟨S_, .f32⟩
  | 63 => ⟨S4x10242x64, .f32⟩
  | 64 => ⟨S4x2562x64, .f32⟩
  | 65 => ⟨S10248x64, .f32⟩
  | 66 => ⟨S1x61440, .i32⟩
  | 67 => ⟨S61440, .i32⟩
  | 68 => ⟨S1x61440, .i32⟩
  | 69 => ⟨S61440, .i32⟩
  | 70 => ⟨S61440x1x2, .f32⟩
  | 71 => ⟨S1x3x2, .f32⟩
  | 72 => ⟨S61440x3x2, .f32⟩
  | 73 => ⟨S61440x3x2, .f32⟩
  | 74 => ⟨S61440x3x2, .f32⟩
  | 75 => ⟨S61440x3x2, .f32⟩
  | 76 => ⟨S1x3x2, .f32⟩
  | 77 => ⟨S1x3x2, .f32⟩
  | 78 => ⟨S_, .f32⟩
  | 79 => ⟨S1x3x2, .f32⟩
  | 80 => ⟨S1x3x2, .f32⟩
  | 81 => ⟨S61440x3x2, .f32⟩
  | 82 => ⟨S61440x3x2, .f32⟩
  | 83 => ⟨S_, .f32⟩
  | 84 => ⟨S61440x3, .f32⟩
  | 85 => ⟨S_, .f32⟩
  | 86 => ⟨S61440x3, .f32⟩
  | 87 => ⟨S61440x3, .f32⟩
  | 88 => ⟨S61440x3, .f32⟩
  | 89 => ⟨S_, .i32⟩
  | 90 => ⟨S61440, .i32⟩
  | 91 => ⟨S61440, .i1⟩
  | 92 => ⟨S_, .i32⟩
  | 93 => ⟨S61440, .i32⟩
  | 94 => ⟨S61440, .i32⟩
  | 95 => ⟨S61440, .i32⟩
  | 96 => ⟨S61440x1, .i32⟩
  | 97 => ⟨S61440x64, .f32⟩
  | 98 => ⟨S61440x384, .f32⟩
  | 99 => ⟨S61440x3x128, .f32⟩
  | 100 => ⟨S61440x3x1, .f32⟩
  | 101 => ⟨S61440x3x128, .f32⟩
  | 102 => ⟨S61440x3x128, .f32⟩
  | 103 => ⟨S_, .f32⟩
  | 104 => ⟨S61440x128, .f32⟩
  | 105 => ⟨S_, .f32⟩
  | 106 => ⟨S10248x128, .f32⟩
  | 107 => ⟨S61440x1, .i32⟩
  | 108 => ⟨S10248x128, .f32⟩
  | 109 => ⟨S_, .f32⟩
  | 110 => ⟨S61440, .f32⟩
  | 111 => ⟨S_, .f32⟩
  | 112 => ⟨S10248, .f32⟩
  | 113 => ⟨S61440x1, .i32⟩
  | 114 => ⟨S10248, .f32⟩
  | 115 => ⟨S_, .f32⟩
  | 116 => ⟨S10248, .f32⟩
  | 117 => ⟨S10248, .f32⟩
  | 118 => ⟨S10248x1, .f32⟩
  | 119 => ⟨S10248x128, .f32⟩
  | 120 => ⟨S10248x128, .f32⟩
  | 121 => ⟨S10248x128, .f32⟩
  | 122 => ⟨S10248x128, .f32⟩
  | 123 => ⟨S1x128, .f32⟩
  | 124 => ⟨S10248x128, .f32⟩
  | 125 => ⟨S10248x128, .f32⟩
  | 126 => ⟨S_, .f32⟩
  | 127 => ⟨S10248x128, .f32⟩
  | _ => ⟨S163848x2, .f32⟩

abbrev hbmTy0_2 (i : Nat) : BufTy := match i % 128 with
  | 0 => ⟨S10248x128, .f32⟩
  | 1 => ⟨S4x2562x128, .f32⟩
  | 2 => ⟨S_, .i32⟩
  | 3 => ⟨S2562x7, .i32⟩
  | 4 => ⟨S2562x7, .i1⟩
  | 5 => ⟨S_, .i32⟩
  | 6 => ⟨S2562x7, .i32⟩
  | 7 => ⟨S2562x7, .i32⟩
  | 8 => ⟨S2562x7, .i32⟩
  | 9 => ⟨S2562x7x1, .i32⟩
  | 10 => ⟨S4x2562x7x128, .f32⟩
  | 11 => ⟨S_, .f32⟩
  | 12 => ⟨S4x2562x128, .f32⟩
  | 13 => ⟨S4x642x128, .f32⟩
  | 14 => ⟨S2568x128, .f32⟩
  | 15 => ⟨S1x15360, .i32⟩
  | 16 => ⟨S15360, .i32⟩
  | 17 => ⟨S1x15360, .i32⟩
  | 18 => ⟨S15360, .i32⟩
  | 19 => ⟨S15360x1x2, .f32⟩
  | 20 => ⟨S1x3x2, .f32⟩
  | 21 => ⟨S15360x3x2, .f32⟩
  | 22 => ⟨S15360x3x2, .f32⟩
  | 23 => ⟨S15360x3x2, .f32⟩
  | 24 => ⟨S15360x3x2, .f32⟩
  | 25 => ⟨S1x3x2, .f32⟩
  | 26 => ⟨S1x3x2, .f32⟩
  | 27 => ⟨S_, .f32⟩
  | 28 => ⟨S1x3x2, .f32⟩
  | 29 => ⟨S1x3x2, .f32⟩
  | 30 => ⟨S15360x3x2, .f32⟩
  | 31 => ⟨S15360x3x2, .f32⟩
  | 32 => ⟨S_, .f32⟩
  | 33 => ⟨S15360x3, .f32⟩
  | 34 => ⟨S_, .f32⟩
  | 35 => ⟨S15360x3, .f32⟩
  | 36 => ⟨S15360x3, .f32⟩
  | 37 => ⟨S15360x3, .f32⟩
  | 38 => ⟨S_, .i32⟩
  | 39 => ⟨S15360, .i32⟩
  | 40 => ⟨S15360, .i1⟩
  | 41 => ⟨S_, .i32⟩
  | 42 => ⟨S15360, .i32⟩
  | 43 => ⟨S15360, .i32⟩
  | 44 => ⟨S15360, .i32⟩
  | 45 => ⟨S15360x1, .i32⟩
  | 46 => ⟨S15360x128, .f32⟩
  | 47 => ⟨S15360x768, .f32⟩
  | 48 => ⟨S15360x3x256, .f32⟩
  | 49 => ⟨S15360x3x1, .f32⟩
  | 50 => ⟨S15360x3x256, .f32⟩
  | 51 => ⟨S15360x3x256, .f32⟩
  | 52 => ⟨S_, .f32⟩
  | 53 => ⟨S15360x256, .f32⟩
  | 54 => ⟨S_, .f32⟩
  | 55 => ⟨S2568x256, .f32⟩
  | 56 => ⟨S15360x1, .i32⟩
  | 57 => ⟨S2568x256, .f32⟩
  | 58 => ⟨S_, .f32⟩
  | 59 => ⟨S15360, .f32⟩
  | 60 => ⟨S_, .f32⟩
  | 61 => ⟨S2568, .f32⟩
  | 62 => ⟨S15360x1, .i32⟩
  | 63 => ⟨S2568, .f32⟩
  | 64 => ⟨S_, .f32⟩
  | 65 => ⟨S2568, .f32⟩
  | 66 => ⟨S2568, .f32⟩
  | 67 => ⟨S2568x1, .f32⟩
  | 68 => ⟨S2568x256, .f32⟩
  | 69 => ⟨S2568x256, .f32⟩
  | 70 => ⟨S2568x256, .f32⟩
  | 71 => ⟨S2568x256, .f32⟩
  | 72 => ⟨S1x256, .f32⟩
  | 73 => ⟨S2568x256, .f32⟩
  | 74 => ⟨S2568x256, .f32⟩
  | 75 => ⟨S_, .f32⟩
  | 76 => ⟨S2568x256, .f32⟩
  | 77 => ⟨S2568x256, .f32⟩
  | 78 => ⟨S4x642x256, .f32⟩
  | 79 => ⟨S_, .i32⟩
  | 80 => ⟨S642x7, .i32⟩
  | 81 => ⟨S642x7, .i1⟩
  | 82 => ⟨S_, .i32⟩
  | 83 => ⟨S642x7, .i32⟩
  | 84 => ⟨S642x7, .i32⟩
  | 85 => ⟨S642x7, .i32⟩
  | 86 => ⟨S642x7x1, .i32⟩
  | 87 => ⟨S4x642x7x256, .f32⟩
  | 88 => ⟨S_, .f32⟩
  | 89 => ⟨S4x642x256, .f32⟩
  | 90 => ⟨S4x162x256, .f32⟩
  | 91 => ⟨S648x256, .f32⟩
  | 92 => ⟨S1x4, .f32⟩
  | 93 => ⟨S4x4, .f32⟩
  | 94 => ⟨S4x4, .f32⟩
  | 95 => ⟨S4x4, .f32⟩
  | 96 => ⟨S1x4, .f32⟩
  | 97 => ⟨S4x4, .f32⟩
  | 98 => ⟨S4x4, .f32⟩
  | 99 => ⟨S4x41472, .f32⟩
  | 100 => ⟨S4x41476, .f32⟩
  | 101 => ⟨S4x256, .f32⟩
  | 102 => ⟨S1x256, .f32⟩
  | 103 => ⟨S4x256, .f32⟩
  | 104 => ⟨S4x256, .f32⟩
  | 105 => ⟨S_, .f32⟩
  | 106 => ⟨S4x256, .f32⟩
  | 107 => ⟨S4x256, .f32⟩
  | 108 => ⟨S4x1, .f32⟩
  | 109 => ⟨S1x1, .f32⟩
  | 110 => ⟨S4x1, .f32⟩
  | 111 => ⟨S4x1, .f32⟩
  | 112 => ⟨S4, .f32⟩
  | _ => ⟨S163848x2, .f32⟩

abbrev hbmTy (i : Nat) : BufTy := match i / 128 with
  | 0 => hbmTy0_0 i
  | 1 => hbmTy0_1 i
  | 2 => hbmTy0_2 i
  | _ => ⟨S163848x2, .f32⟩

abbrev bufTy : (tb : Table) → Fin (tcTables nBuf tb) → BufTy
  | .hbm, ⟨i, _⟩ => hbmTy i
  | _, _ => ⟨S163848x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_cst_0 : Ref sig .tc := ⟨.hbm, 57, rfl⟩
abbrev main_v16 : Ref sig .tc := ⟨.hbm, 58, rfl⟩
abbrev main_cst_1 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_c : Ref sig .tc := ⟨.hbm, 63, rfl⟩
abbrev main_v20 : Ref sig .tc := ⟨.hbm, 64, rfl⟩
abbrev main_v21 : Ref sig .tc := ⟨.hbm, 65, rfl⟩
abbrev main_c_2 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_3 : Ref sig .tc := ⟨.hbm, 77, rfl⟩
abbrev main_v32 : Ref sig .tc := ⟨.hbm, 78, rfl⟩
abbrev main_cst_4 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_5 : Ref sig .tc := ⟨.hbm, 83, rfl⟩
abbrev main_v36 : Ref sig .tc := ⟨.hbm, 84, rfl⟩
abbrev main_cst_6 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_cst_7 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_call0_cst : Ref sig .tc := ⟨.hbm, 100, rfl⟩
abbrev main_call0_v0 : Ref sig .tc := ⟨.hbm, 101, rfl⟩
abbrev main_v50 : Ref sig .tc := ⟨.hbm, 102, rfl⟩
abbrev main_v51 : Ref sig .tc := ⟨.hbm, 103, rfl⟩
abbrev main_c_8 : Ref sig .tc := ⟨.hbm, 104, rfl⟩
abbrev main_v52 : Ref sig .tc := ⟨.hbm, 105, rfl⟩
abbrev main_v53 : Ref sig .tc := ⟨.hbm, 106, rfl⟩
abbrev main_c_9 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_10 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_cst_11 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_12 : Ref sig .tc := ⟨.hbm, 134, rfl⟩
abbrev main_v78 : Ref sig .tc := ⟨.hbm, 135, rfl⟩
abbrev main_cst_13 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_c_14 : Ref sig .tc := ⟨.hbm, 140, rfl⟩
abbrev main_v82 : Ref sig .tc := ⟨.hbm, 141, rfl⟩
abbrev main_v83 : Ref sig .tc := ⟨.hbm, 142, rfl⟩
abbrev main_c_15 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_cst_16 : Ref sig .tc := ⟨.hbm, 154, rfl⟩
abbrev main_v94 : Ref sig .tc := ⟨.hbm, 155, rfl⟩
abbrev main_cst_17 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_cst_18 : Ref sig .tc := ⟨.hbm, 160, rfl⟩
abbrev main_v98 : Ref sig .tc := ⟨.hbm, 161, rfl⟩
abbrev main_cst_19 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_cst_20 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_call1_cst : Ref sig .tc := ⟨.hbm, 177, rfl⟩
abbrev main_call1_v0 : Ref sig .tc := ⟨.hbm, 178, rfl⟩
abbrev main_v112 : Ref sig .tc := ⟨.hbm, 179, rfl⟩
abbrev main_v113 : Ref sig .tc := ⟨.hbm, 180, rfl⟩
abbrev main_c_21 : Ref sig .tc := ⟨.hbm, 181, rfl⟩
abbrev main_v114 : Ref sig .tc := ⟨.hbm, 182, rfl⟩
abbrev main_v115 : Ref sig .tc := ⟨.hbm, 183, rfl⟩
abbrev main_c_22 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_cst_23 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_cst_24 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_cst_25 : Ref sig .tc := ⟨.hbm, 211, rfl⟩
abbrev main_v140 : Ref sig .tc := ⟨.hbm, 212, rfl⟩
abbrev main_cst_26 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_c_27 : Ref sig .tc := ⟨.hbm, 217, rfl⟩
abbrev main_v144 : Ref sig .tc := ⟨.hbm, 218, rfl⟩
abbrev main_v145 : Ref sig .tc := ⟨.hbm, 219, rfl⟩
abbrev main_c_28 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_cst_29 : Ref sig .tc := ⟨.hbm, 231, rfl⟩
abbrev main_v156 : Ref sig .tc := ⟨.hbm, 232, rfl⟩
abbrev main_cst_30 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_cst_31 : Ref sig .tc := ⟨.hbm, 237, rfl⟩
abbrev main_v160 : Ref sig .tc := ⟨.hbm, 238, rfl⟩
abbrev main_cst_32 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_cst_33 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_call2_cst : Ref sig .tc := ⟨.hbm, 254, rfl⟩
abbrev main_call2_v0 : Ref sig .tc := ⟨.hbm, 255, rfl⟩
abbrev main_v174 : Ref sig .tc := ⟨.hbm, 256, rfl⟩
abbrev main_v175 : Ref sig .tc := ⟨.hbm, 257, rfl⟩
abbrev main_c_34 : Ref sig .tc := ⟨.hbm, 258, rfl⟩
abbrev main_v176 : Ref sig .tc := ⟨.hbm, 259, rfl⟩
abbrev main_v177 : Ref sig .tc := ⟨.hbm, 260, rfl⟩
abbrev main_c_35 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_cst_36 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_cst_37 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_v201 : Ref sig .tc := ⟨.hbm, 287, rfl⟩
abbrev main_cst_38 : Ref sig .tc := ⟨.hbm, 288, rfl⟩
abbrev main_v202 : Ref sig .tc := ⟨.hbm, 289, rfl⟩
abbrev main_cst_39 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_c_40 : Ref sig .tc := ⟨.hbm, 294, rfl⟩
abbrev main_v206 : Ref sig .tc := ⟨.hbm, 295, rfl⟩
abbrev main_v207 : Ref sig .tc := ⟨.hbm, 296, rfl⟩
abbrev main_c_41 : Ref sig .tc := ⟨.hbm, 297, rfl⟩
abbrev main_v208 : Ref sig .tc := ⟨.hbm, 298, rfl⟩
abbrev main_v209 : Ref sig .tc := ⟨.hbm, 299, rfl⟩
abbrev main_v210 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_cst_42 : Ref sig .tc := ⟨.hbm, 308, rfl⟩
abbrev main_v218 : Ref sig .tc := ⟨.hbm, 309, rfl⟩
abbrev main_cst_43 : Ref sig .tc := ⟨.hbm, 310, rfl⟩
abbrev main_v219 : Ref sig .tc := ⟨.hbm, 311, rfl⟩
abbrev main_v220 : Ref sig .tc := ⟨.hbm, 312, rfl⟩
abbrev main_v221 : Ref sig .tc := ⟨.hbm, 313, rfl⟩
abbrev main_cst_44 : Ref sig .tc := ⟨.hbm, 314, rfl⟩
abbrev main_v222 : Ref sig .tc := ⟨.hbm, 315, rfl⟩
abbrev main_cst_45 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_cst_46 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_call3_cst : Ref sig .tc := ⟨.hbm, 331, rfl⟩
abbrev main_call3_v0 : Ref sig .tc := ⟨.hbm, 332, rfl⟩
abbrev main_v236 : Ref sig .tc := ⟨.hbm, 333, rfl⟩
abbrev main_v237 : Ref sig .tc := ⟨.hbm, 334, rfl⟩
abbrev main_c_47 : Ref sig .tc := ⟨.hbm, 335, rfl⟩
abbrev main_v238 : Ref sig .tc := ⟨.hbm, 336, rfl⟩
abbrev main_v239 : Ref sig .tc := ⟨.hbm, 337, rfl⟩
abbrev main_c_48 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_cst_49 : Ref sig .tc := ⟨.hbm, 344, rfl⟩
abbrev main_v245 : Ref sig .tc := ⟨.hbm, 345, rfl⟩
abbrev main_v246 : Ref sig .tc := ⟨.hbm, 346, rfl⟩
abbrev main_v247 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_v251 : Ref sig .tc := ⟨.hbm, 351, rfl⟩
abbrev main_v252 : Ref sig .tc := ⟨.hbm, 352, rfl⟩
abbrev main_v253 : Ref sig .tc := ⟨.hbm, 353, rfl⟩
abbrev main_v254 : Ref sig .tc := ⟨.hbm, 354, rfl⟩
abbrev main_v255 : Ref sig .tc := ⟨.hbm, 355, rfl⟩
abbrev main_v256 : Ref sig .tc := ⟨.hbm, 356, rfl⟩
abbrev main_v257 : Ref sig .tc := ⟨.hbm, 357, rfl⟩
abbrev main_v258 : Ref sig .tc := ⟨.hbm, 358, rfl⟩
abbrev main_v259 : Ref sig .tc := ⟨.hbm, 359, rfl⟩
abbrev main_v260 : Ref sig .tc := ⟨.hbm, 360, rfl⟩
abbrev main_call4_cst : Ref sig .tc := ⟨.hbm, 361, rfl⟩
abbrev main_call4_v0 : Ref sig .tc := ⟨.hbm, 362, rfl⟩
abbrev main_v261 : Ref sig .tc := ⟨.hbm, 363, rfl⟩
abbrev main_v262 : Ref sig .tc := ⟨.hbm, 364, rfl⟩
abbrev main_v263 : Ref sig .tc := ⟨.hbm, 365, rfl⟩
abbrev main_v264 : Ref sig .tc := ⟨.hbm, 366, rfl⟩
abbrev main_v265 : Ref sig .tc := ⟨.hbm, 367, rfl⟩
abbrev main_v266 : Ref sig .tc := ⟨.hbm, 368, rfl⟩

abbrev nD : Nat := 1
abbrev τ : Topo := Topo.v7x

variable {F : FTy → Type} [FloatOps F]

class Facts₀ : Prop where
  slices_S2x983040_S1x983040_0_0 : S2x983040.Slices ![0, 0] S1x983040
  shapeCasts_S1x983040_S983040 : S1x983040.ShapeCasts S983040
  slices_S2x983040_S1x983040_1_0 : S2x983040.Slices ![1, 0] S1x983040
  bcast_S983040x2_S983040x1x2_0_2 : S983040x2.BroadcastsInDim S983040x1x2 (![0, 2] : Fin 2 → Fin S983040x1x2.rank)
  bcast_S3x2_S1x3x2_1_2 : S3x2.BroadcastsInDim S1x3x2 (![1, 2] : Fin 2 → Fin S1x3x2.rank)
  bcast_S983040x1x2_S983040x3x2_0_1_2 : S983040x1x2.BroadcastsInDim S983040x3x2 (![0, 1, 2] : Fin 3 → Fin S983040x3x2.rank)
  bcast_S1x3x2_S983040x3x2_0_1_2 : S1x3x2.BroadcastsInDim S983040x3x2 (![0, 1, 2] : Fin 3 → Fin S983040x3x2.rank)
  bcast_S_S1x3x2 : S_.BroadcastsInDim S1x3x2 (![] : Fin 0 → Fin S1x3x2.rank)
  reducesTo_S983040x3x2_S983040x3_d2 : S983040x3x2.ReducesTo [2] S983040x3
  h_S_ : 0 < S_.numel
  bcast_S_S983040x3 : S_.BroadcastsInDim S983040x3 (![] : Fin 0 → Fin S983040x3.rank)
  bcast_S_S983040 : S_.BroadcastsInDim S983040 (![] : Fin 0 → Fin S983040.rank)
  bcast_S983040_S983040x1_0 : S983040.BroadcastsInDim S983040x1 (![0] : Fin 1 → Fin S983040x1.rank)
  shapeCasts_S983040x96_S983040x3x32 : S983040x96.ShapeCasts S983040x3x32
  bcast_S983040x3_S983040x3x1_0_1 : S983040x3.BroadcastsInDim S983040x3x1 (![0, 1] : Fin 2 → Fin S983040x3x1.rank)
  bcast_S983040x3x1_S983040x3x32_0_1_2 : S983040x3x1.BroadcastsInDim S983040x3x32 (![0, 1, 2] : Fin 3 → Fin S983040x3x32.rank)
  reducesTo_S983040x3x32_S983040x32_d1 : S983040x3x32.ReducesTo [1] S983040x32
  bcast_S_S163848x32 : S_.BroadcastsInDim S163848x32 (![] : Fin 0 → Fin S163848x32.rank)
  bcast_S_S163848 : S_.BroadcastsInDim S163848 (![] : Fin 0 → Fin S163848.rank)
  bcast_S163848_S163848x1_0 : S163848.BroadcastsInDim S163848x1 (![0] : Fin 1 → Fin S163848x1.rank)
  bcast_S163848x1_S163848x32_0_1 : S163848x1.BroadcastsInDim S163848x32 (![0, 1] : Fin 2 → Fin S163848x32.rank)
  bcast_S32_S1x32_1 : S32.BroadcastsInDim S1x32 (![1] : Fin 1 → Fin S1x32.rank)
  bcast_S1x32_S163848x32_0_1 : S1x32.BroadcastsInDim S163848x32 (![0, 1] : Fin 2 → Fin S163848x32.rank)
  shapeCasts_S163848x32_S4x40962x32 : S163848x32.ShapeCasts S4x40962x32
  bcast_S_S40962x7 : S_.BroadcastsInDim S40962x7 (![] : Fin 0 → Fin S40962x7.rank)
  bcast_S40962x7_S40962x7x1_0_1 : S40962x7.BroadcastsInDim S40962x7x1 (![0, 1] : Fin 2 → Fin S40962x7x1.rank)
  reducesTo_S4x40962x7x32_S4x40962x32_d2 : S4x40962x7x32.ReducesTo [2] S4x40962x32
  slices_S4x40962x32_S4x10242x32_0_0_0 : S4x40962x32.Slices ![0, 0, 0] S4x10242x32
  shapeCasts_S4x10242x32_S40968x32 : S4x10242x32.ShapeCasts S40968x32
  slices_S2x245760_S1x245760_0_0 : S2x245760.Slices ![0, 0] S1x245760
  shapeCasts_S1x245760_S245760 : S1x245760.ShapeCasts S245760
  slices_S2x245760_S1x245760_1_0 : S2x245760.Slices ![1, 0] S1x245760
  bcast_S245760x2_S245760x1x2_0_2 : S245760x2.BroadcastsInDim S245760x1x2 (![0, 2] : Fin 2 → Fin S245760x1x2.rank)
  bcast_S245760x1x2_S245760x3x2_0_1_2 : S245760x1x2.BroadcastsInDim S245760x3x2 (![0, 1, 2] : Fin 3 → Fin S245760x3x2.rank)
  bcast_S1x3x2_S245760x3x2_0_1_2 : S1x3x2.BroadcastsInDim S245760x3x2 (![0, 1, 2] : Fin 3 → Fin S245760x3x2.rank)
  reducesTo_S245760x3x2_S245760x3_d2 : S245760x3x2.ReducesTo [2] S245760x3
  bcast_S_S245760x3 : S_.BroadcastsInDim S245760x3 (![] : Fin 0 → Fin S245760x3.rank)
  bcast_S_S245760 : S_.BroadcastsInDim S245760 (![] : Fin 0 → Fin S245760.rank)
  bcast_S245760_S245760x1_0 : S245760.BroadcastsInDim S245760x1 (![0] : Fin 1 → Fin S245760x1.rank)
  shapeCasts_S245760x192_S245760x3x64 : S245760x192.ShapeCasts S245760x3x64
  bcast_S245760x3_S245760x3x1_0_1 : S245760x3.BroadcastsInDim S245760x3x1 (![0, 1] : Fin 2 → Fin S245760x3x1.rank)
  bcast_S245760x3x1_S245760x3x64_0_1_2 : S245760x3x1.BroadcastsInDim S245760x3x64 (![0, 1, 2] : Fin 3 → Fin S245760x3x64.rank)
  reducesTo_S245760x3x64_S245760x64_d1 : S245760x3x64.ReducesTo [1] S245760x64
  bcast_S_S40968x64 : S_.BroadcastsInDim S40968x64 (![] : Fin 0 → Fin S40968x64.rank)
  bcast_S_S40968 : S_.BroadcastsInDim S40968 (![] : Fin 0 → Fin S40968.rank)
  bcast_S40968_S40968x1_0 : S40968.BroadcastsInDim S40968x1 (![0] : Fin 1 → Fin S40968x1.rank)
  bcast_S40968x1_S40968x64_0_1 : S40968x1.BroadcastsInDim S40968x64 (![0, 1] : Fin 2 → Fin S40968x64.rank)
  bcast_S64_S1x64_1 : S64.BroadcastsInDim S1x64 (![1] : Fin 1 → Fin S1x64.rank)
  bcast_S1x64_S40968x64_0_1 : S1x64.BroadcastsInDim S40968x64 (![0, 1] : Fin 2 → Fin S40968x64.rank)
  shapeCasts_S40968x64_S4x10242x64 : S40968x64.ShapeCasts S4x10242x64
  bcast_S_S10242x7 : S_.BroadcastsInDim S10242x7 (![] : Fin 0 → Fin S10242x7.rank)
  bcast_S10242x7_S10242x7x1_0_1 : S10242x7.BroadcastsInDim S10242x7x1 (![0, 1] : Fin 2 → Fin S10242x7x1.rank)
  reducesTo_S4x10242x7x64_S4x10242x64_d2 : S4x10242x7x64.ReducesTo [2] S4x10242x64
  slices_S4x10242x64_S4x2562x64_0_0_0 : S4x10242x64.Slices ![0, 0, 0] S4x2562x64
  shapeCasts_S4x2562x64_S10248x64 : S4x2562x64.ShapeCasts S10248x64
  slices_S2x61440_S1x61440_0_0 : S2x61440.Slices ![0, 0] S1x61440
  shapeCasts_S1x61440_S61440 : S1x61440.ShapeCasts S61440
  slices_S2x61440_S1x61440_1_0 : S2x61440.Slices ![1, 0] S1x61440
  bcast_S61440x2_S61440x1x2_0_2 : S61440x2.BroadcastsInDim S61440x1x2 (![0, 2] : Fin 2 → Fin S61440x1x2.rank)
  bcast_S61440x1x2_S61440x3x2_0_1_2 : S61440x1x2.BroadcastsInDim S61440x3x2 (![0, 1, 2] : Fin 3 → Fin S61440x3x2.rank)
  bcast_S1x3x2_S61440x3x2_0_1_2 : S1x3x2.BroadcastsInDim S61440x3x2 (![0, 1, 2] : Fin 3 → Fin S61440x3x2.rank)
  reducesTo_S61440x3x2_S61440x3_d2 : S61440x3x2.ReducesTo [2] S61440x3
  bcast_S_S61440x3 : S_.BroadcastsInDim S61440x3 (![] : Fin 0 → Fin S61440x3.rank)
  bcast_S_S61440 : S_.BroadcastsInDim S61440 (![] : Fin 0 → Fin S61440.rank)
  bcast_S61440_S61440x1_0 : S61440.BroadcastsInDim S61440x1 (![0] : Fin 1 → Fin S61440x1.rank)
  shapeCasts_S61440x384_S61440x3x128 : S61440x384.ShapeCasts S61440x3x128
  bcast_S61440x3_S61440x3x1_0_1 : S61440x3.BroadcastsInDim S61440x3x1 (![0, 1] : Fin 2 → Fin S61440x3x1.rank)
  bcast_S61440x3x1_S61440x3x128_0_1_2 : S61440x3x1.BroadcastsInDim S61440x3x128 (![0, 1, 2] : Fin 3 → Fin S61440x3x128.rank)
  reducesTo_S61440x3x128_S61440x128_d1 : S61440x3x128.ReducesTo [1] S61440x128
  bcast_S_S10248x128 : S_.BroadcastsInDim S10248x128 (![] : Fin 0 → Fin S10248x128.rank)
  bcast_S_S10248 : S_.BroadcastsInDim S10248 (![] : Fin 0 → Fin S10248.rank)
  bcast_S10248_S10248x1_0 : S10248.BroadcastsInDim S10248x1 (![0] : Fin 1 → Fin S10248x1.rank)
  bcast_S10248x1_S10248x128_0_1 : S10248x1.BroadcastsInDim S10248x128 (![0, 1] : Fin 2 → Fin S10248x128.rank)
  bcast_S128_S1x128_1 : S128.BroadcastsInDim S1x128 (![1] : Fin 1 → Fin S1x128.rank)
  bcast_S1x128_S10248x128_0_1 : S1x128.BroadcastsInDim S10248x128 (![0, 1] : Fin 2 → Fin S10248x128.rank)
  shapeCasts_S10248x128_S4x2562x128 : S10248x128.ShapeCasts S4x2562x128
  bcast_S_S2562x7 : S_.BroadcastsInDim S2562x7 (![] : Fin 0 → Fin S2562x7.rank)
  bcast_S2562x7_S2562x7x1_0_1 : S2562x7.BroadcastsInDim S2562x7x1 (![0, 1] : Fin 2 → Fin S2562x7x1.rank)
  reducesTo_S4x2562x7x128_S4x2562x128_d2 : S4x2562x7x128.ReducesTo [2] S4x2562x128
  slices_S4x2562x128_S4x642x128_0_0_0 : S4x2562x128.Slices ![0, 0, 0] S4x642x128
  shapeCasts_S4x642x128_S2568x128 : S4x642x128.ShapeCasts S2568x128
  slices_S2x15360_S1x15360_0_0 : S2x15360.Slices ![0, 0] S1x15360
  shapeCasts_S1x15360_S15360 : S1x15360.ShapeCasts S15360
  slices_S2x15360_S1x15360_1_0 : S2x15360.Slices ![1, 0] S1x15360
  bcast_S15360x2_S15360x1x2_0_2 : S15360x2.BroadcastsInDim S15360x1x2 (![0, 2] : Fin 2 → Fin S15360x1x2.rank)
  bcast_S15360x1x2_S15360x3x2_0_1_2 : S15360x1x2.BroadcastsInDim S15360x3x2 (![0, 1, 2] : Fin 3 → Fin S15360x3x2.rank)
  bcast_S1x3x2_S15360x3x2_0_1_2 : S1x3x2.BroadcastsInDim S15360x3x2 (![0, 1, 2] : Fin 3 → Fin S15360x3x2.rank)
  reducesTo_S15360x3x2_S15360x3_d2 : S15360x3x2.ReducesTo [2] S15360x3
  bcast_S_S15360x3 : S_.BroadcastsInDim S15360x3 (![] : Fin 0 → Fin S15360x3.rank)
  bcast_S_S15360 : S_.BroadcastsInDim S15360 (![] : Fin 0 → Fin S15360.rank)
  bcast_S15360_S15360x1_0 : S15360.BroadcastsInDim S15360x1 (![0] : Fin 1 → Fin S15360x1.rank)
  shapeCasts_S15360x768_S15360x3x256 : S15360x768.ShapeCasts S15360x3x256
  bcast_S15360x3_S15360x3x1_0_1 : S15360x3.BroadcastsInDim S15360x3x1 (![0, 1] : Fin 2 → Fin S15360x3x1.rank)
  bcast_S15360x3x1_S15360x3x256_0_1_2 : S15360x3x1.BroadcastsInDim S15360x3x256 (![0, 1, 2] : Fin 3 → Fin S15360x3x256.rank)
  reducesTo_S15360x3x256_S15360x256_d1 : S15360x3x256.ReducesTo [1] S15360x256
  bcast_S_S2568x256 : S_.BroadcastsInDim S2568x256 (![] : Fin 0 → Fin S2568x256.rank)
  bcast_S_S2568 : S_.BroadcastsInDim S2568 (![] : Fin 0 → Fin S2568.rank)
  bcast_S2568_S2568x1_0 : S2568.BroadcastsInDim S2568x1 (![0] : Fin 1 → Fin S2568x1.rank)
  bcast_S2568x1_S2568x256_0_1 : S2568x1.BroadcastsInDim S2568x256 (![0, 1] : Fin 2 → Fin S2568x256.rank)
  bcast_S256_S1x256_1 : S256.BroadcastsInDim S1x256 (![1] : Fin 1 → Fin S1x256.rank)
  bcast_S1x256_S2568x256_0_1 : S1x256.BroadcastsInDim S2568x256 (![0, 1] : Fin 2 → Fin S2568x256.rank)
  shapeCasts_S2568x256_S4x642x256 : S2568x256.ShapeCasts S4x642x256
  bcast_S_S642x7 : S_.BroadcastsInDim S642x7 (![] : Fin 0 → Fin S642x7.rank)
  bcast_S642x7_S642x7x1_0_1 : S642x7.BroadcastsInDim S642x7x1 (![0, 1] : Fin 2 → Fin S642x7x1.rank)
  reducesTo_S4x642x7x256_S4x642x256_d2 : S4x642x7x256.ReducesTo [2] S4x642x256
  slices_S4x642x256_S4x162x256_0_0_0 : S4x642x256.Slices ![0, 0, 0] S4x162x256
  shapeCasts_S4x162x256_S648x256 : S4x162x256.ShapeCasts S648x256
  bcast_S4_S1x4_1 : S4.BroadcastsInDim S1x4 (![1] : Fin 1 → Fin S1x4.rank)
  bcast_S4x1_S4x4_0_1 : S4x1.BroadcastsInDim S4x4 (![0, 1] : Fin 2 → Fin S4x4.rank)
  bcast_S1x4_S4x4_0_1 : S1x4.BroadcastsInDim S4x4 (![0, 1] : Fin 2 → Fin S4x4.rank)
  shapeCasts_S648x256_S4x41472 : S648x256.ShapeCasts S4x41472
  concatenates_S4x41472_S4x4_S4x41476_d1 : Shape.Concatenates [S4x41472, S4x4] S4x41476 1
  bcast_S1x256_S4x256_0_1 : S1x256.BroadcastsInDim S4x256 (![0, 1] : Fin 2 → Fin S4x256.rank)
  bcast_S_S4x256 : S_.BroadcastsInDim S4x256 (![] : Fin 0 → Fin S4x256.rank)
  bcast_S1_S1x1_1 : S1.BroadcastsInDim S1x1 (![1] : Fin 1 → Fin S1x1.rank)
  bcast_S1x1_S4x1_0_1 : S1x1.BroadcastsInDim S4x1 (![0, 1] : Fin 2 → Fin S4x1.rank)
  shapeCasts_S4x1_S4 : S4x1.ShapeCasts S4
  gather_S163848x2_S983040x1_S983040x2_1_0_n_n_0_1_12_wf : GatherDims.WF S163848x2 S983040x1 S983040x2 [1] [0] [] [0] [] 1 ![1, 2]
  dot_S983040x2_S2x96_S983040x96_1_0_0_1_n_n_wf : DotDims.WF S983040x2 S2x96 S983040x96 [1] [0] [0] [1] [] []
  scatter_S163848x32_S983040x1_S983040x32_1_0_0_1_wf : ScatterDims.WF S163848x32 S983040x1 S983040x32 [1] [0] [0] 1
  scatter_S163848_S983040x1_S983040_n_0_0_1_wf : ScatterDims.WF S163848 S983040x1 S983040 [] [0] [0] 1
  dot_S163848x2_S2x32_S163848x32_1_0_0_1_n_n_wf : DotDims.WF S163848x2 S2x32 S163848x32 [1] [0] [0] [1] [] []
  gather_S4x40962x32_S40962x7x1_S4x40962x7x32_03_1_n_n_1_2_4132_wf : GatherDims.WF S4x40962x32 S40962x7x1 S4x40962x7x32 [0, 3] [1] [] [1] [] 2 ![4, 1, 32]
  gather_S40968x32_S245760x1_S245760x32_1_0_n_n_0_1_132_wf : GatherDims.WF S40968x32 S245760x1 S245760x32 [1] [0] [] [0] [] 1 ![1, 32]
  dot_S245760x32_S32x192_S245760x192_1_0_0_1_n_n_wf : DotDims.WF S245760x32 S32x192 S245760x192 [1] [0] [0] [1] [] []
  scatter_S40968x64_S245760x1_S245760x64_1_0_0_1_wf : ScatterDims.WF S40968x64 S245760x1 S245760x64 [1] [0] [0] 1
  scatter_S40968_S245760x1_S245760_n_0_0_1_wf : ScatterDims.WF S40968 S245760x1 S245760 [] [0] [0] 1
  dot_S40968x32_S32x64_S40968x64_1_0_0_1_n_n_wf : DotDims.WF S40968x32 S32x64 S40968x64 [1] [0] [0] [1] [] []
  gather_S4x10242x64_S10242x7x1_S4x10242x7x64_03_1_n_n_1_2_4164_wf : GatherDims.WF S4x10242x64 S10242x7x1 S4x10242x7x64 [0, 3] [1] [] [1] [] 2 ![4, 1, 64]
  gather_S10248x64_S61440x1_S61440x64_1_0_n_n_0_1_164_wf : GatherDims.WF S10248x64 S61440x1 S61440x64 [1] [0] [] [0] [] 1 ![1, 64]
  dot_S61440x64_S64x384_S61440x384_1_0_0_1_n_n_wf : DotDims.WF S61440x64 S64x384 S61440x384 [1] [0] [0] [1] [] []
  scatter_S10248x128_S61440x1_S61440x128_1_0_0_1_wf : ScatterDims.WF S10248x128 S61440x1 S61440x128 [1] [0] [0] 1
  scatter_S10248_S61440x1_S61440_n_0_0_1_wf : ScatterDims.WF S10248 S61440x1 S61440 [] [0] [0] 1
  dot_S10248x64_S64x128_S10248x128_1_0_0_1_n_n_wf : DotDims.WF S10248x64 S64x128 S10248x128 [1] [0] [0] [1] [] []
  gather_S4x2562x128_S2562x7x1_S4x2562x7x128_03_1_n_n_1_2_41128_wf : GatherDims.WF S4x2562x128 S2562x7x1 S4x2562x7x128 [0, 3] [1] [] [1] [] 2 ![4, 1, 128]
  gather_S2568x128_S15360x1_S15360x128_1_0_n_n_0_1_1128_wf : GatherDims.WF S2568x128 S15360x1 S15360x128 [1] [0] [] [0] [] 1 ![1, 128]
  dot_S15360x128_S128x768_S15360x768_1_0_0_1_n_n_wf : DotDims.WF S15360x128 S128x768 S15360x768 [1] [0] [0] [1] [] []
  scatter_S2568x256_S15360x1_S15360x256_1_0_0_1_wf : ScatterDims.WF S2568x256 S15360x1 S15360x256 [1] [0] [0] 1
  scatter_S2568_S15360x1_S15360_n_0_0_1_wf : ScatterDims.WF S2568 S15360x1 S15360 [] [0] [0] 1
  dot_S2568x128_S128x256_S2568x256_1_0_0_1_n_n_wf : DotDims.WF S2568x128 S128x256 S2568x256 [1] [0] [0] [1] [] []
  gather_S4x642x256_S642x7x1_S4x642x7x256_03_1_n_n_1_2_41256_wf : GatherDims.WF S4x642x256 S642x7x1 S4x642x7x256 [0, 3] [1] [] [1] [] 2 ![4, 1, 256]
  dot_S4x41476_S41476x256_S4x256_1_0_0_1_n_n_wf : DotDims.WF S4x41476 S41476x256 S4x256 [1] [0] [0] [1] [] []
  dot_S4x256_S256x1_S4x1_1_0_0_1_n_n_wf : DotDims.WF S4x256 S256x1 S4x1 [1] [0] [0] [1] [] []

variable [Facts₀]

def gather_S163848x2_S983040x1_S983040x2_1_0_n_n_0_1_12 : GatherDims S163848x2 S983040x1 S983040x2 where
  offsetDims := [1]
  collapsedSliceDims := [0]
  operandBatchingDims := []
  startIndicesBatchingDims := []
  startIndexMap := [0]
  indexVectorDim := 1
  sliceSizes := ![1, 2]
  wf := gather_S163848x2_S983040x1_S983040x2_1_0_n_n_0_1_12_wf
def dot_S983040x2_S2x96_S983040x96_1_0_0_1_n_n : DotDims S983040x2 S2x96 S983040x96 where
  lhsContracting := [1]
  rhsContracting := [0]
  lhsNonContracting := [0]
  rhsNonContracting := [1]
  lhsBatch := []
  rhsBatch := []
  wf := dot_S983040x2_S2x96_S983040x96_1_0_0_1_n_n_wf
def scatter_S163848x32_S983040x1_S983040x32_1_0_0_1 : ScatterDims S163848x32 S983040x1 S983040x32 where
  updateWindowDims := [1]
  insertedWindowDims := [0]
  scatterDimsToOperandDims := [0]
  indexVectorDim := 1
  wf := scatter_S163848x32_S983040x1_S983040x32_1_0_0_1_wf
def scatter_S163848_S983040x1_S983040_n_0_0_1 : ScatterDims S163848 S983040x1 S983040 where
  updateWindowDims := []
  insertedWindowDims := [0]
  scatterDimsToOperandDims := [0]
  indexVectorDim := 1
  wf := scatter_S163848_S983040x1_S983040_n_0_0_1_wf
def dot_S163848x2_S2x32_S163848x32_1_0_0_1_n_n : DotDims S163848x2 S2x32 S163848x32 where
  lhsContracting := [1]
  rhsContracting := [0]
  lhsNonContracting := [0]
  rhsNonContracting := [1]
  lhsBatch := []
  rhsBatch := []
  wf := dot_S163848x2_S2x32_S163848x32_1_0_0_1_n_n_wf
def gather_S4x40962x32_S40962x7x1_S4x40962x7x32_03_1_n_n_1_2_4132 : GatherDims S4x40962x32 S40962x7x1 S4x40962x7x32 where
  offsetDims := [0, 3]
  collapsedSliceDims := [1]
  operandBatchingDims := []
  startIndicesBatchingDims := []
  startIndexMap := [1]
  indexVectorDim := 2
  sliceSizes := ![4, 1, 32]
  wf := gather_S4x40962x32_S40962x7x1_S4x40962x7x32_03_1_n_n_1_2_4132_wf
def gather_S40968x32_S245760x1_S245760x32_1_0_n_n_0_1_132 : GatherDims S40968x32 S245760x1 S245760x32 where
  offsetDims := [1]
  collapsedSliceDims := [0]
  operandBatchingDims := []
  startIndicesBatchingDims := []
  startIndexMap := [0]
  indexVectorDim := 1
  sliceSizes := ![1, 32]
  wf := gather_S40968x32_S245760x1_S245760x32_1_0_n_n_0_1_132_wf
def dot_S245760x32_S32x192_S245760x192_1_0_0_1_n_n : DotDims S245760x32 S32x192 S245760x192 where
  lhsContracting := [1]
  rhsContracting := [0]
  lhsNonContracting := [0]
  rhsNonContracting := [1]
  lhsBatch := []
  rhsBatch := []
  wf := dot_S245760x32_S32x192_S245760x192_1_0_0_1_n_n_wf
def scatter_S40968x64_S245760x1_S245760x64_1_0_0_1 : ScatterDims S40968x64 S245760x1 S245760x64 where
  updateWindowDims := [1]
  insertedWindowDims := [0]
  scatterDimsToOperandDims := [0]
  indexVectorDim := 1
  wf := scatter_S40968x64_S245760x1_S245760x64_1_0_0_1_wf
def scatter_S40968_S245760x1_S245760_n_0_0_1 : ScatterDims S40968 S245760x1 S245760 where
  updateWindowDims := []
  insertedWindowDims := [0]
  scatterDimsToOperandDims := [0]
  indexVectorDim := 1
  wf := scatter_S40968_S245760x1_S245760_n_0_0_1_wf
def dot_S40968x32_S32x64_S40968x64_1_0_0_1_n_n : DotDims S40968x32 S32x64 S40968x64 where
  lhsContracting := [1]
  rhsContracting := [0]
  lhsNonContracting := [0]
  rhsNonContracting := [1]
  lhsBatch := []
  rhsBatch := []
  wf := dot_S40968x32_S32x64_S40968x64_1_0_0_1_n_n_wf
def gather_S4x10242x64_S10242x7x1_S4x10242x7x64_03_1_n_n_1_2_4164 : GatherDims S4x10242x64 S10242x7x1 S4x10242x7x64 where
  offsetDims := [0, 3]
  collapsedSliceDims := [1]
  operandBatchingDims := []
  startIndicesBatchingDims := []
  startIndexMap := [1]
  indexVectorDim := 2
  sliceSizes := ![4, 1, 64]
  wf := gather_S4x10242x64_S10242x7x1_S4x10242x7x64_03_1_n_n_1_2_4164_wf
def gather_S10248x64_S61440x1_S61440x64_1_0_n_n_0_1_164 : GatherDims S10248x64 S61440x1 S61440x64 where
  offsetDims := [1]
  collapsedSliceDims := [0]
  operandBatchingDims := []
  startIndicesBatchingDims := []
  startIndexMap := [0]
  indexVectorDim := 1
  sliceSizes := ![1, 64]
  wf := gather_S10248x64_S61440x1_S61440x64_1_0_n_n_0_1_164_wf
def dot_S61440x64_S64x384_S61440x384_1_0_0_1_n_n : DotDims S61440x64 S64x384 S61440x384 where
  lhsContracting := [1]
  rhsContracting := [0]
  lhsNonContracting := [0]
  rhsNonContracting := [1]
  lhsBatch := []
  rhsBatch := []
  wf := dot_S61440x64_S64x384_S61440x384_1_0_0_1_n_n_wf
def scatter_S10248x128_S61440x1_S61440x128_1_0_0_1 : ScatterDims S10248x128 S61440x1 S61440x128 where
  updateWindowDims := [1]
  insertedWindowDims := [0]
  scatterDimsToOperandDims := [0]
  indexVectorDim := 1
  wf := scatter_S10248x128_S61440x1_S61440x128_1_0_0_1_wf
def scatter_S10248_S61440x1_S61440_n_0_0_1 : ScatterDims S10248 S61440x1 S61440 where
  updateWindowDims := []
  insertedWindowDims := [0]
  scatterDimsToOperandDims := [0]
  indexVectorDim := 1
  wf := scatter_S10248_S61440x1_S61440_n_0_0_1_wf
def dot_S10248x64_S64x128_S10248x128_1_0_0_1_n_n : DotDims S10248x64 S64x128 S10248x128 where
  lhsContracting := [1]
  rhsContracting := [0]
  lhsNonContracting := [0]
  rhsNonContracting := [1]
  lhsBatch := []
  rhsBatch := []
  wf := dot_S10248x64_S64x128_S10248x128_1_0_0_1_n_n_wf
def gather_S4x2562x128_S2562x7x1_S4x2562x7x128_03_1_n_n_1_2_41128 : GatherDims S4x2562x128 S2562x7x1 S4x2562x7x128 where
  offsetDims := [0, 3]
  collapsedSliceDims := [1]
  operandBatchingDims := []
  startIndicesBatchingDims := []
  startIndexMap := [1]
  indexVectorDim := 2
  sliceSizes := ![4, 1, 128]
  wf := gather_S4x2562x128_S2562x7x1_S4x2562x7x128_03_1_n_n_1_2_41128_wf
def gather_S2568x128_S15360x1_S15360x128_1_0_n_n_0_1_1128 : GatherDims S2568x128 S15360x1 S15360x128 where
  offsetDims := [1]
  collapsedSliceDims := [0]
  operandBatchingDims := []
  startIndicesBatchingDims := []
  startIndexMap := [0]
  indexVectorDim := 1
  sliceSizes := ![1, 128]
  wf := gather_S2568x128_S15360x1_S15360x128_1_0_n_n_0_1_1128_wf
def dot_S15360x128_S128x768_S15360x768_1_0_0_1_n_n : DotDims S15360x128 S128x768 S15360x768 where
  lhsContracting := [1]
  rhsContracting := [0]
  lhsNonContracting := [0]
  rhsNonContracting := [1]
  lhsBatch := []
  rhsBatch := []
  wf := dot_S15360x128_S128x768_S15360x768_1_0_0_1_n_n_wf
def scatter_S2568x256_S15360x1_S15360x256_1_0_0_1 : ScatterDims S2568x256 S15360x1 S15360x256 where
  updateWindowDims := [1]
  insertedWindowDims := [0]
  scatterDimsToOperandDims := [0]
  indexVectorDim := 1
  wf := scatter_S2568x256_S15360x1_S15360x256_1_0_0_1_wf
def scatter_S2568_S15360x1_S15360_n_0_0_1 : ScatterDims S2568 S15360x1 S15360 where
  updateWindowDims := []
  insertedWindowDims := [0]
  scatterDimsToOperandDims := [0]
  indexVectorDim := 1
  wf := scatter_S2568_S15360x1_S15360_n_0_0_1_wf
def dot_S2568x128_S128x256_S2568x256_1_0_0_1_n_n : DotDims S2568x128 S128x256 S2568x256 where
  lhsContracting := [1]
  rhsContracting := [0]
  lhsNonContracting := [0]
  rhsNonContracting := [1]
  lhsBatch := []
  rhsBatch := []
  wf := dot_S2568x128_S128x256_S2568x256_1_0_0_1_n_n_wf
def gather_S4x642x256_S642x7x1_S4x642x7x256_03_1_n_n_1_2_41256 : GatherDims S4x642x256 S642x7x1 S4x642x7x256 where
  offsetDims := [0, 3]
  collapsedSliceDims := [1]
  operandBatchingDims := []
  startIndicesBatchingDims := []
  startIndexMap := [1]
  indexVectorDim := 2
  sliceSizes := ![4, 1, 256]
  wf := gather_S4x642x256_S642x7x1_S4x642x7x256_03_1_n_n_1_2_41256_wf
def dot_S4x41476_S41476x256_S4x256_1_0_0_1_n_n : DotDims S4x41476 S41476x256 S4x256 where
  lhsContracting := [1]
  rhsContracting := [0]
  lhsNonContracting := [0]
  rhsNonContracting := [1]
  lhsBatch := []
  rhsBatch := []
  wf := dot_S4x41476_S41476x256_S4x256_1_0_0_1_n_n_wf
def dot_S4x256_S256x1_S4x1_1_0_0_1_n_n : DotDims S4x256 S256x1 S4x1 where
  lhsContracting := [1]
  rhsContracting := [0]
  lhsNonContracting := [0]
  rhsNonContracting := [1]
  lhsBatch := []
  rhsBatch := []
  wf := dot_S4x256_S256x1_S4x1_1_0_0_1_n_n_wf

class Facts : Prop extends Facts₀ where

variable [Facts]
-- ==== Proof.RefRun1.lean ====
import proofs.«402598_j31782757990676_2_alg».proof.ReferenceIdeal
import Idealize.ShloMosaic.Lib.StableHlo.Run

set_option maxRecDepth 8192

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

abbrev ops0 : List (HloOp τ sig (Elt F)) :=
  [ unary main_arg1 main_v0 ((extractStridedSlice S1x983040 ![0, 0] · slices_S2x983040_S1x983040_0_0)),
    reshape main_v0 main_v1 rfl shapeCasts_S1x983040_S983040,
    unary main_arg1 main_v2 ((extractStridedSlice S1x983040 ![1, 0] · slices_S2x983040_S1x983040_1_0)),
    reshape main_v2 main_v3 rfl shapeCasts_S1x983040_S983040,
    unary main_arg5 main_v4 (broadcastInDim S983040x1x2 ![0, 2] bcast_S983040x2_S983040x1x2_0_2),
    unary main_arg15 main_v5 (broadcastInDim S1x3x2 ![1, 2] bcast_S3x2_S1x3x2_1_2),
    unary main_v4 main_v6 (broadcastInDim S983040x3x2 ![0, 1, 2] bcast_S983040x1x2_S983040x3x2_0_1_2),
    unary main_v5 main_v7 (broadcastInDim S983040x3x2 ![0, 1, 2] bcast_S1x3x2_S983040x3x2_0_1_2),
    binary main_v6 main_v7 main_v8 (subf),
    binary main_v8 main_v8 main_v9 (mulf),
    unary main_arg16 main_v10 (broadcastInDim S1x3x2 ![1, 2] bcast_S3x2_S1x3x2_1_2),
    binary main_v10 main_v10 main_v11 (mulf),
    nullary main_cst (constant S_ .f32 0x26901D7D#32),
    unary main_cst main_v12 (broadcastInDim S1x3x2 ![] bcast_S_S1x3x2),
    binary main_v11 main_v12 main_v13 (addf),
    unary main_v13 main_v14 (broadcastInDim S983040x3x2 ![0, 1, 2] bcast_S1x3x2_S983040x3x2_0_1_2),
    binary main_v9 main_v14 main_v15 (Host.divf),
    nullary main_cst_0 (constant S_ .f32 0x00000000#32),
    binary main_v15 main_cst_0 main_v16 ((fun x v => Host.reduceAdd x v reducesTo_S983040x3x2_S983040x3_d2 h_S_)),
    nullary main_cst_1 (constant S_ .f32 0xBF000000#32),
    unary main_cst_1 main_v17 (broadcastInDim S983040x3 ![] bcast_S_S983040x3),
    binary main_v17 main_v16 main_v18 (mulf),
    unary main_v18 main_v19 (Host.exp),
    nullary main_c (constantI S_ 32 0#32),
    unary main_c main_v20 (broadcastInDim S983040 ![] bcast_S_S983040),
    binary main_v1 main_v20 main_v21 (cmpi .slt),
    nullary main_c_2 (constantI S_ 32 163848#32),
    unary main_c_2 main_v22 (broadcastInDim S983040 ![] bcast_S_S983040),
    binary main_v1 main_v22 main_v23 (addi),
    ternary main_v21 main_v23 main_v1 main_v24 (select),
    unary main_v24 main_v25 (broadcastInDim S983040x1 ![0] bcast_S983040_S983040x1_0),
    binary main_arg0 main_v25 main_v26 ((fun x i => Host.gather gather_S163848x2_S983040x1_S983040x2_1_0_n_n_0_1_12 x i)),
    binary main_v26 main_arg14 main_v27 ((fun l r => Host.dotGeneral dot_S983040x2_S2x96_S983040x96_1_0_0_1_n_n none l r)),
    reshape main_v27 main_v28 rfl shapeCasts_S983040x96_S983040x3x32,
    unary main_v19 main_v29 (broadcastInDim S983040x3x1 ![0, 1] bcast_S983040x3_S983040x3x1_0_1),
    unary main_v29 main_v30 (broadcastInDim S983040x3x32 ![0, 1, 2] bcast_S983040x3x1_S983040x3x32_0_1_2),
    binary main_v28 main_v30 main_v31 (mulf),
    nullary main_cst_3 (constant S_ .f32 0x00000000#32),
    binary main_v31 main_cst_3 main_v32 ((fun x v => Host.reduceAdd x v reducesTo_S983040x3x32_S983040x32_d1 h_S_)),
    nullary main_cst_4 (constant S_ .f32 0x00000000#32),
    unary main_cst_4 main_v33 (broadcastInDim S163848x32 ![] bcast_S_S163848x32),
    unary main_v3 main_v34 (broadcastInDim S983040x1 ![0] bcast_S983040_S983040x1_0),
    ternary main_v33 main_v34 main_v32 main_v35 ((fun x i u => Host.scatterAdd scatter_S163848x32_S983040x1_S983040x32_1_0_0_1 x i u)),
    nullary main_cst_5 (constant S_ .f32 0x3F800000#32),
    unary main_cst_5 main_v36 (broadcastInDim S983040 ![] bcast_S_S983040),
    nullary main_cst_6 (constant S_ .f32 0x00000000#32),
    unary main_cst_6 main_v37 (broadcastInDim S163848 ![] bcast_S_S163848),
    unary main_v3 main_v38 (broadcastInDim S983040x1 ![0] bcast_S983040_S983040x1_0),
    ternary main_v37 main_v38 main_v36 main_v39 ((fun x i u => Host.scatterAdd scatter_S163848_S983040x1_S983040_n_0_0_1 x i u)),
    nullary main_cst_7 (constant S_ .f32 0x3F800000#32),
    unary main_cst_7 main_v40 (broadcastInDim S163848 ![] bcast_S_S163848),
    binary main_v39 main_v40 main_v41 (maximumf),
    unary main_v41 main_v42 (broadcastInDim S163848x1 ![0] bcast_S163848_S163848x1_0),
    unary main_v42 main_v43 (broadcastInDim S163848x32 ![0, 1] bcast_S163848x1_S163848x32_0_1),
    binary main_v35 main_v43 main_v44 (Host.divf),
    binary main_arg0 main_arg17 main_v45 ((fun l r => Host.dotGeneral dot_S163848x2_S2x32_S163848x32_1_0_0_1_n_n none l r)),
    binary main_v44 main_v45 main_v46 (addf),
    unary main_arg18 main_v47 (broadcastInDim S1x32 ![1] bcast_S32_S1x32_1),
    unary main_v47 main_v48 (broadcastInDim S163848x32 ![0, 1] bcast_S1x32_S163848x32_0_1),
    binary main_v46 main_v48 main_v49 (addf) ]

theorem ops0_sub : (ops0 : List (HloOp τ sig (Elt F))).Forall fun op => op.bufs ⊆ tcRefs τ sig :=
  ⟨unary_bufs_sub .., reshape_bufs_sub .., unary_bufs_sub .., reshape_bufs_sub .., unary_bufs_sub .., unary_bufs_sub .., unary_bufs_sub .., unary_bufs_sub .., binary_bufs_sub .., binary_bufs_sub .., unary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., unary_bufs_sub .., unary_bufs_sub .., binary_bufs_sub .., nullary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub ..⟩

theorem ops0_fresh : (ops0 : List (HloOp τ sig (Elt F))).Forall fun op => op.fresh = ∅ := by
  simp only [List.Forall]; repeat' constructor

abbrev ops0_W : List (Ref sig .tc) := [main_v0, main_v1, main_v2, main_v3, main_v4, main_v5, main_v6, main_v7, main_v8, main_v9, main_v10, main_v11, main_cst, main_v12, main_v13, main_v14, main_v15, main_cst_0, main_v16, main_cst_1, main_v17, main_v18, main_v19, main_c, main_v20, main_v21, main_c_2, main_v22, main_v23, main_v24, main_v25, main_v26, main_v27, main_v28, main_v29, main_v30, main_v31, main_cst_3, main_v32, main_cst_4, main_v33, main_v34, main_v35, main_cst_5, main_v36, main_cst_6, main_v37, main_v38, main_v39, main_cst_7, main_v40, main_v41, main_v42, main_v43, main_v44, main_v45, main_v46, main_v47, main_v48, main_v49]

theorem ops0_writes : (ops0 : List (HloOp τ sig (Elt F))).Forall fun op => op.writes ⊆ (ops0_W.map (Proc.devRef (τ := τ) .tc)).toFinset := by
  simp only [List.Forall]; and_intros <;>
    (simp only [nullary_writes, unary_writes, binary_writes, ternary_writes, quaternary_writes, reshape_writes, binaryIndexed_writes,
      unaryIndexed_writes, nary_writes, Finset.singleton_subset_iff, List.mem_toFinset]; exact List.mem_map_of_mem (by decide))

set_option maxHeartbeats 4000000 in

theorem main_part0_eq (c : Dev nD) : main_part0 (F := F) c = (seq ops0) := rfl

end Cert.ReferenceIdeal.RefRun

end
-- ==== Proof.RefRun2.lean ====
import proofs.«402598_j31782757990676_2_alg».proof.ReferenceIdeal
import Idealize.ShloMosaic.Lib.StableHlo.Run

set_option maxRecDepth 8192

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

abbrev ops1 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S163848x32, .f32⟩) main_call0_v0) (broadcastInDim S163848x32 ![] bcast_S_S163848x32),
    TRef.binary (TRef.of (T := ⟨S163848x32, .f32⟩) main_v49) (TRef.of (T := ⟨S163848x32, .f32⟩) main_call0_v0) (TRef.of (T := ⟨S163848x32, .f32⟩) main_v50) maximumf,
    reshape main_v50 main_v51 rfl shapeCasts_S163848x32_S4x40962x32,
    nullary main_c_8 (constantI S_ 32 0#32),
    unary main_c_8 main_v52 (broadcastInDim S40962x7 ![] bcast_S_S40962x7),
    binary main_arg9 main_v52 main_v53 (cmpi .slt),
    nullary main_c_9 (constantI S_ 32 40962#32),
    unary main_c_9 main_v54 (broadcastInDim S40962x7 ![] bcast_S_S40962x7),
    binary main_arg9 main_v54 main_v55 (addi),
    ternary main_v53 main_v55 main_arg9 main_v56 (select),
    unary main_v56 main_v57 (broadcastInDim S40962x7x1 ![0, 1] bcast_S40962x7_S40962x7x1_0_1),
    binary main_v51 main_v57 main_v58 ((fun x i => Host.gather gather_S4x40962x32_S40962x7x1_S4x40962x7x32_03_1_n_n_1_2_4132 x i)),
    nullary main_cst_10 (constant S_ .f32 0xFF800000#32),
    binary main_v58 main_cst_10 main_v59 ((fun x v => Host.reduce FloatOps.maximumf x v reducesTo_S4x40962x7x32_S4x40962x32_d2 h_S_)),
    unary main_v59 main_v60 ((extractStridedSlice S4x10242x32 ![0, 0, 0] · slices_S4x40962x32_S4x10242x32_0_0_0)),
    reshape main_v60 main_v61 rfl shapeCasts_S4x10242x32_S40968x32,
    unary main_arg2 main_v62 ((extractStridedSlice S1x245760 ![0, 0] · slices_S2x245760_S1x245760_0_0)),
    reshape main_v62 main_v63 rfl shapeCasts_S1x245760_S245760,
    unary main_arg2 main_v64 ((extractStridedSlice S1x245760 ![1, 0] · slices_S2x245760_S1x245760_1_0)),
    reshape main_v64 main_v65 rfl shapeCasts_S1x245760_S245760,
    unary main_arg6 main_v66 (broadcastInDim S245760x1x2 ![0, 2] bcast_S245760x2_S245760x1x2_0_2),
    unary main_arg20 main_v67 (broadcastInDim S1x3x2 ![1, 2] bcast_S3x2_S1x3x2_1_2),
    unary main_v66 main_v68 (broadcastInDim S245760x3x2 ![0, 1, 2] bcast_S245760x1x2_S245760x3x2_0_1_2),
    unary main_v67 main_v69 (broadcastInDim S245760x3x2 ![0, 1, 2] bcast_S1x3x2_S245760x3x2_0_1_2),
    binary main_v68 main_v69 main_v70 (subf),
    binary main_v70 main_v70 main_v71 (mulf),
    unary main_arg21 main_v72 (broadcastInDim S1x3x2 ![1, 2] bcast_S3x2_S1x3x2_1_2),
    binary main_v72 main_v72 main_v73 (mulf),
    nullary main_cst_11 (constant S_ .f32 0x26901D7D#32),
    unary main_cst_11 main_v74 (broadcastInDim S1x3x2 ![] bcast_S_S1x3x2),
    binary main_v73 main_v74 main_v75 (addf),
    unary main_v75 main_v76 (broadcastInDim S245760x3x2 ![0, 1, 2] bcast_S1x3x2_S245760x3x2_0_1_2),
    binary main_v71 main_v76 main_v77 (Host.divf),
    nullary main_cst_12 (constant S_ .f32 0x00000000#32),
    binary main_v77 main_cst_12 main_v78 ((fun x v => Host.reduceAdd x v reducesTo_S245760x3x2_S245760x3_d2 h_S_)),
    nullary main_cst_13 (constant S_ .f32 0xBF000000#32),
    unary main_cst_13 main_v79 (broadcastInDim S245760x3 ![] bcast_S_S245760x3),
    binary main_v79 main_v78 main_v80 (mulf),
    unary main_v80 main_v81 (Host.exp),
    nullary main_c_14 (constantI S_ 32 0#32),
    unary main_c_14 main_v82 (broadcastInDim S245760 ![] bcast_S_S245760),
    binary main_v63 main_v82 main_v83 (cmpi .slt),
    nullary main_c_15 (constantI S_ 32 40968#32),
    unary main_c_15 main_v84 (broadcastInDim S245760 ![] bcast_S_S245760),
    binary main_v63 main_v84 main_v85 (addi),
    ternary main_v83 main_v85 main_v63 main_v86 (select),
    unary main_v86 main_v87 (broadcastInDim S245760x1 ![0] bcast_S245760_S245760x1_0),
    binary main_v61 main_v87 main_v88 ((fun x i => Host.gather gather_S40968x32_S245760x1_S245760x32_1_0_n_n_0_1_132 x i)),
    binary main_v88 main_arg19 main_v89 ((fun l r => Host.dotGeneral dot_S245760x32_S32x192_S245760x192_1_0_0_1_n_n none l r)),
    reshape main_v89 main_v90 rfl shapeCasts_S245760x192_S245760x3x64,
    unary main_v81 main_v91 (broadcastInDim S245760x3x1 ![0, 1] bcast_S245760x3_S245760x3x1_0_1),
    unary main_v91 main_v92 (broadcastInDim S245760x3x64 ![0, 1, 2] bcast_S245760x3x1_S245760x3x64_0_1_2),
    binary main_v90 main_v92 main_v93 (mulf),
    nullary main_cst_16 (constant S_ .f32 0x00000000#32),
    binary main_v93 main_cst_16 main_v94 ((fun x v => Host.reduceAdd x v reducesTo_S245760x3x64_S245760x64_d1 h_S_)),
    nullary main_cst_17 (constant S_ .f32 0x00000000#32),
    unary main_cst_17 main_v95 (broadcastInDim S40968x64 ![] bcast_S_S40968x64),
    unary main_v65 main_v96 (broadcastInDim S245760x1 ![0] bcast_S245760_S245760x1_0),
    ternary main_v95 main_v96 main_v94 main_v97 ((fun x i u => Host.scatterAdd scatter_S40968x64_S245760x1_S245760x64_1_0_0_1 x i u)),
    nullary main_cst_18 (constant S_ .f32 0x3F800000#32),
    unary main_cst_18 main_v98 (broadcastInDim S245760 ![] bcast_S_S245760) ]

theorem ops1_sub : (ops1 : List (HloOp τ sig (Elt F))).Forall fun op => op.bufs ⊆ tcRefs τ sig :=
  ⟨nullary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., reshape_bufs_sub .., unary_bufs_sub .., reshape_bufs_sub .., unary_bufs_sub .., reshape_bufs_sub .., unary_bufs_sub .., unary_bufs_sub .., unary_bufs_sub .., unary_bufs_sub .., binary_bufs_sub .., binary_bufs_sub .., unary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., unary_bufs_sub .., unary_bufs_sub .., binary_bufs_sub .., nullary_bufs_sub .., binary_bufs_sub .., nullary_bufs_sub .., unary_bufs_sub .., unary_bufs_sub .., ternary_bufs_sub .., nullary_bufs_sub .., unary_bufs_sub ..⟩

theorem ops1_fresh : (ops1 : List (HloOp τ sig (Elt F))).Forall fun op => op.fresh = ∅ := by
  simp only [List.Forall]; repeat' constructor

abbrev ops1_W : List (Ref sig .tc) := [main_call0_cst, main_call0_v0, main_v50, main_v51, main_c_8, main_v52, main_v53, main_c_9, main_v54, main_v55, main_v56, main_v57, main_v58, main_cst_10, main_v59, main_v60, main_v61, main_v62, main_v63, main_v64, main_v65, main_v66, main_v67, main_v68, main_v69, main_v70, main_v71, main_v72, main_v73, main_cst_11, main_v74, main_v75, main_v76, main_v77, main_cst_12, main_v78, main_cst_13, main_v79, main_v80, main_v81, main_c_14, main_v82, main_v83, main_c_15, main_v84, main_v85, main_v86, main_v87, main_v88, main_v89, main_v90, main_v91, main_v92, main_v93, main_cst_16, main_v94, main_cst_17, main_v95, main_v96, main_v97, main_cst_18, main_v98]

theorem ops1_writes : (ops1 : List (HloOp τ sig (Elt F))).Forall fun op => op.writes ⊆ (ops1_W.map (Proc.devRef (τ := τ) .tc)).toFinset := by
  simp only [List.Forall]; and_intros <;>
    (simp only [nullary_writes, unary_writes, binary_writes, ternary_writes, quaternary_writes, reshape_writes, binaryIndexed_writes,
      unaryIndexed_writes, nary_writes, Finset.singleton_subset_iff, List.mem_toFinset]; exact List.mem_map_of_mem (by decide))

set_option maxHeartbeats 4000000 in

theorem main_part1_eq (c : Dev nD) : main_part1 (F := F) c = (seq ops1) := rfl

end Cert.ReferenceIdeal.RefRun

end
-- ==== Proof.RefRun3.lean ====
import proofs.«402598_j31782757990676_2_alg».proof.ReferenceIdeal
import Idealize.ShloMosaic.Lib.StableHlo.Run

set_option maxRecDepth 8192

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

abbrev ops2a : List (HloOp τ sig (Elt F)) :=
  [ nullary main_cst_19 (constant S_ .f32 0x00000000#32),
    unary main_cst_19 main_v99 (broadcastInDim S40968 ![] bcast_S_S40968),
    unary main_v65 main_v100 (broadcastInDim S245760x1 ![0] bcast_S245760_S245760x1_0),
    ternary main_v99 main_v100 main_v98 main_v101 ((fun x i u => Host.scatterAdd scatter_S40968_S245760x1_S245760_n_0_0_1 x i u)),
    nullary main_cst_20 (constant S_ .f32 0x3F800000#32),
    unary main_cst_20 main_v102 (broadcastInDim S40968 ![] bcast_S_S40968),
    binary main_v101 main_v102 main_v103 (maximumf),
    unary main_v103 main_v104 (broadcastInDim S40968x1 ![0] bcast_S40968_S40968x1_0),
    unary main_v104 main_v105 (broadcastInDim S40968x64 ![0, 1] bcast_S40968x1_S40968x64_0_1),
    binary main_v97 main_v105 main_v106 (Host.divf),
    binary main_v61 main_arg22 main_v107 ((fun l r => Host.dotGeneral dot_S40968x32_S32x64_S40968x64_1_0_0_1_n_n none l r)),
    binary main_v106 main_v107 main_v108 (addf),
    unary main_arg23 main_v109 (broadcastInDim S1x64 ![1] bcast_S64_S1x64_1),
    unary main_v109 main_v110 (broadcastInDim S40968x64 ![0, 1] bcast_S1x64_S40968x64_0_1),
    binary main_v108 main_v110 main_v111 (addf) ]

theorem ops2a_sub : (ops2a : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub ..⟩

theorem ops2a_fresh : (ops2a : List (HloOp τ sig (Elt F))).Forall fun op => op.fresh = ∅ := by
  simp only [List.Forall]; repeat' constructor

abbrev ops2a_W : List (Ref sig .tc) := [main_cst_19, main_v99, main_v100, main_v101, main_cst_20, main_v102, main_v103, main_v104, main_v105, main_v106, main_v107, main_v108, main_v109, main_v110, main_v111]

theorem ops2a_writes : (ops2a : List (HloOp τ sig (Elt F))).Forall fun op => op.writes ⊆ (ops2a_W.map (Proc.devRef (τ := τ) .tc)).toFinset := by
  simp only [List.Forall]; and_intros <;>
    (simp only [nullary_writes, unary_writes, binary_writes, ternary_writes, quaternary_writes, reshape_writes, binaryIndexed_writes,
      unaryIndexed_writes, nary_writes, Finset.singleton_subset_iff, List.mem_toFinset]; exact List.mem_map_of_mem (by decide))

abbrev ops2b : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S40968x64, .f32⟩) main_call1_v0) (broadcastInDim S40968x64 ![] bcast_S_S40968x64),
    TRef.binary (TRef.of (T := ⟨S40968x64, .f32⟩) main_v111) (TRef.of (T := ⟨S40968x64, .f32⟩) main_call1_v0) (TRef.of (T := ⟨S40968x64, .f32⟩) main_v112) maximumf,
    reshape main_v112 main_v113 rfl shapeCasts_S40968x64_S4x10242x64,
    nullary main_c_21 (constantI S_ 32 0#32),
    unary main_c_21 main_v114 (broadcastInDim S10242x7 ![] bcast_S_S10242x7),
    binary main_arg10 main_v114 main_v115 (cmpi .slt),
    nullary main_c_22 (constantI S_ 32 10242#32),
    unary main_c_22 main_v116 (broadcastInDim S10242x7 ![] bcast_S_S10242x7),
    binary main_arg10 main_v116 main_v117 (addi),
    ternary main_v115 main_v117 main_arg10 main_v118 (select),
    unary main_v118 main_v119 (broadcastInDim S10242x7x1 ![0, 1] bcast_S10242x7_S10242x7x1_0_1),
    binary main_v113 main_v119 main_v120 ((fun x i => Host.gather gather_S4x10242x64_S10242x7x1_S4x10242x7x64_03_1_n_n_1_2_4164 x i)),
    nullary main_cst_23 (constant S_ .f32 0xFF800000#32),
    binary main_v120 main_cst_23 main_v121 ((fun x v => Host.reduce FloatOps.maximumf x v reducesTo_S4x10242x7x64_S4x10242x64_d2 h_S_)),
    unary main_v121 main_v122 ((extractStridedSlice S4x2562x64 ![0, 0, 0] · slices_S4x10242x64_S4x2562x64_0_0_0)),
    reshape main_v122 main_v123 rfl shapeCasts_S4x2562x64_S10248x64,
    unary main_arg3 main_v124 ((extractStridedSlice S1x61440 ![0, 0] · slices_S2x61440_S1x61440_0_0)),
    reshape main_v124 main_v125 rfl shapeCasts_S1x61440_S61440,
    unary main_arg3 main_v126 ((extractStridedSlice S1x61440 ![1, 0] · slices_S2x61440_S1x61440_1_0)),
    reshape main_v126 main_v127 rfl shapeCasts_S1x61440_S61440,
    unary main_arg7 main_v128 (broadcastInDim S61440x1x2 ![0, 2] bcast_S61440x2_S61440x1x2_0_2),
    unary main_arg25 main_v129 (broadcastInDim S1x3x2 ![1, 2] bcast_S3x2_S1x3x2_1_2),
    unary main_v128 main_v130 (broadcastInDim S61440x3x2 ![0, 1, 2] bcast_S61440x1x2_S61440x3x2_0_1_2),
    unary main_v129 main_v131 (broadcastInDim S61440x3x2 ![0, 1, 2] bcast_S1x3x2_S61440x3x2_0_1_2),
    binary main_v130 main_v131 main_v132 (subf),
    binary main_v132 main_v132 main_v133 (mulf),
    unary main_arg26 main_v134 (broadcastInDim S1x3x2 ![1, 2] bcast_S3x2_S1x3x2_1_2),
    binary main_v134 main_v134 main_v135 (mulf),
    nullary main_cst_24 (constant S_ .f32 0x26901D7D#32),
    unary main_cst_24 main_v136 (broadcastInDim S1x3x2 ![] bcast_S_S1x3x2),
    binary main_v135 main_v136 main_v137 (addf),
    unary main_v137 main_v138 (broadcastInDim S61440x3x2 ![0, 1, 2] bcast_S1x3x2_S61440x3x2_0_1_2),
    binary main_v133 main_v138 main_v139 (Host.divf),
    nullary main_cst_25 (constant S_ .f32 0x00000000#32),
    binary main_v139 main_cst_25 main_v140 ((fun x v => Host.reduceAdd x v reducesTo_S61440x3x2_S61440x3_d2 h_S_)),
    nullary main_cst_26 (constant S_ .f32 0xBF000000#32),
    unary main_cst_26 main_v141 (broadcastInDim S61440x3 ![] bcast_S_S61440x3),
    binary main_v141 main_v140 main_v142 (mulf),
    unary main_v142 main_v143 (Host.exp),
    nullary main_c_27 (constantI S_ 32 0#32),
    unary main_c_27 main_v144 (broadcastInDim S61440 ![] bcast_S_S61440),
    binary main_v125 main_v144 main_v145 (cmpi .slt),
    nullary main_c_28 (constantI S_ 32 10248#32),
    unary main_c_28 main_v146 (broadcastInDim S61440 ![] bcast_S_S61440),
    binary main_v125 main_v146 main_v147 (addi),
    ternary main_v145 main_v147 main_v125 main_v148 (select) ]

theorem ops2b_sub : (ops2b : List (HloOp τ sig (Elt F))).Forall fun op => op.bufs ⊆ tcRefs τ sig :=
  ⟨nullary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., reshape_bufs_sub .., unary_bufs_sub .., reshape_bufs_sub .., unary_bufs_sub .., reshape_bufs_sub .., unary_bufs_sub .., unary_bufs_sub .., unary_bufs_sub .., unary_bufs_sub .., binary_bufs_sub .., binary_bufs_sub .., unary_bufs_sub .., binary_bufs_sub .., nullary_bufs_sub .., unary_bufs_sub .., binary_bufs_sub .., unary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub ..⟩

theorem ops2b_fresh : (ops2b : List (HloOp τ sig (Elt F))).Forall fun op => op.fresh = ∅ := by
  simp only [List.Forall]; repeat' constructor

abbrev ops2b_W : List (Ref sig .tc) := [main_call1_cst, main_call1_v0, main_v112, main_v113, main_c_21, main_v114, main_v115, main_c_22, main_v116, main_v117, main_v118, main_v119, main_v120, main_cst_23, main_v121, main_v122, main_v123, main_v124, main_v125, main_v126, main_v127, main_v128, main_v129, main_v130, main_v131, main_v132, main_v133, main_v134, main_v135, main_cst_24, main_v136, main_v137, main_v138, main_v139, main_cst_25, main_v140, main_cst_26, main_v141, main_v142, main_v143, main_c_27, main_v144, main_v145, main_c_28, main_v146, main_v147, main_v148]

theorem ops2b_writes : (ops2b : List (HloOp τ sig (Elt F))).Forall fun op => op.writes ⊆ (ops2b_W.map (Proc.devRef (τ := τ) .tc)).toFinset := by
  simp only [List.Forall]; and_intros <;>
    (simp only [nullary_writes, unary_writes, binary_writes, ternary_writes, quaternary_writes, reshape_writes, binaryIndexed_writes,
      unaryIndexed_writes, nary_writes, Finset.singleton_subset_iff, List.mem_toFinset]; exact List.mem_map_of_mem (by decide))

set_option maxHeartbeats 4000000 in

theorem main_part2_eq (c : Dev nD) : main_part2 (F := F) c = (seq ops2a >>= fun _ => seq ops2b) := rfl

end Cert.ReferenceIdeal.RefRun

end
-- ==== Proof.RefRun4.lean ====
import proofs.«402598_j31782757990676_2_alg».proof.ReferenceIdeal
import Idealize.ShloMosaic.Lib.StableHlo.Run

set_option maxRecDepth 8192

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

abbrev ops3a : List (HloOp τ sig (Elt F)) :=
  [ unary main_v148 main_v149 (broadcastInDim S61440x1 ![0] bcast_S61440_S61440x1_0),
    binary main_v123 main_v149 main_v150 ((fun x i => Host.gather gather_S10248x64_S61440x1_S61440x64_1_0_n_n_0_1_164 x i)),
    binary main_v150 main_arg24 main_v151 ((fun l r => Host.dotGeneral dot_S61440x64_S64x384_S61440x384_1_0_0_1_n_n none l r)),
    reshape main_v151 main_v152 rfl shapeCasts_S61440x384_S61440x3x128,
    unary main_v143 main_v153 (broadcastInDim S61440x3x1 ![0, 1] bcast_S61440x3_S61440x3x1_0_1),
    unary main_v153 main_v154 (broadcastInDim S61440x3x128 ![0, 1, 2] bcast_S61440x3x1_S61440x3x128_0_1_2),
    binary main_v152 main_v154 main_v155 (mulf),
    nullary main_cst_29 (constant S_ .f32 0x00000000#32),
    binary main_v155 main_cst_29 main_v156 ((fun x v => Host.reduceAdd x v reducesTo_S61440x3x128_S61440x128_d1 h_S_)),
    nullary main_cst_30 (constant S_ .f32 0x00000000#32),
    unary main_cst_30 main_v157 (broadcastInDim S10248x128 ![] bcast_S_S10248x128),
    unary main_v127 main_v158 (broadcastInDim S61440x1 ![0] bcast_S61440_S61440x1_0),
    ternary main_v157 main_v158 main_v156 main_v159 ((fun x i u => Host.scatterAdd scatter_S10248x128_S61440x1_S61440x128_1_0_0_1 x i u)),
    nullary main_cst_31 (constant S_ .f32 0x3F800000#32),
    unary main_cst_31 main_v160 (broadcastInDim S61440 ![] bcast_S_S61440),
    nullary main_cst_32 (constant S_ .f32 0x00000000#32),
    unary main_cst_32 main_v161 (broadcastInDim S10248 ![] bcast_S_S10248),
    unary main_v127 main_v162 (broadcastInDim S61440x1 ![0] bcast_S61440_S61440x1_0),
    ternary main_v161 main_v162 main_v160 main_v163 ((fun x i u => Host.scatterAdd scatter_S10248_S61440x1_S61440_n_0_0_1 x i u)),
    nullary main_cst_33 (constant S_ .f32 0x3F800000#32),
    unary main_cst_33 main_v164 (broadcastInDim S10248 ![] bcast_S_S10248),
    binary main_v163 main_v164 main_v165 (maximumf),
    unary main_v165 main_v166 (broadcastInDim S10248x1 ![0] bcast_S10248_S10248x1_0),
    unary main_v166 main_v167 (broadcastInDim S10248x128 ![0, 1] bcast_S10248x1_S10248x128_0_1),
    binary main_v159 main_v167 main_v168 (Host.divf),
    binary main_v123 main_arg27 main_v169 ((fun l r => Host.dotGeneral dot_S10248x64_S64x128_S10248x128_1_0_0_1_n_n none l r)),
    binary main_v168 main_v169 main_v170 (addf),
    unary main_arg28 main_v171 (broadcastInDim S1x128 ![1] bcast_S128_S1x128_1),
    unary main_v171 main_v172 (broadcastInDim S10248x128 ![0, 1] bcast_S1x128_S10248x128_0_1),
    binary main_v170 main_v172 main_v173 (addf) ]

theorem ops3a_sub : (ops3a : List (HloOp τ sig (Elt F))).Forall fun op => op.bufs ⊆ tcRefs τ sig :=
  ⟨unary_bufs_sub .., binary_bufs_sub .., binary_bufs_sub .., reshape_bufs_sub .., unary_bufs_sub .., unary_bufs_sub .., binary_bufs_sub .., nullary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub ..⟩

theorem ops3a_fresh : (ops3a : List (HloOp τ sig (Elt F))).Forall fun op => op.fresh = ∅ := by
  simp only [List.Forall]; repeat' constructor

abbrev ops3a_W : List (Ref sig .tc) := [main_v149, main_v150, main_v151, main_v152, main_v153, main_v154, main_v155, main_cst_29, main_v156, main_cst_30, main_v157, main_v158, main_v159, main_cst_31, main_v160, main_cst_32, main_v161, main_v162, main_v163, main_cst_33, main_v164, main_v165, main_v166, main_v167, main_v168, main_v169, main_v170, main_v171, main_v172, main_v173]

theorem ops3a_writes : (ops3a : List (HloOp τ sig (Elt F))).Forall fun op => op.writes ⊆ (ops3a_W.map (Proc.devRef (τ := τ) .tc)).toFinset := by
  simp only [List.Forall]; and_intros <;>
    (simp only [nullary_writes, unary_writes, binary_writes, ternary_writes, quaternary_writes, reshape_writes, binaryIndexed_writes,
      unaryIndexed_writes, nary_writes, Finset.singleton_subset_iff, List.mem_toFinset]; exact List.mem_map_of_mem (by decide))

abbrev ops3b : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S10248x128, .f32⟩) main_call2_v0) (broadcastInDim S10248x128 ![] bcast_S_S10248x128),
    TRef.binary (TRef.of (T := ⟨S10248x128, .f32⟩) main_v173) (TRef.of (T := ⟨S10248x128, .f32⟩) main_call2_v0) (TRef.of (T := ⟨S10248x128, .f32⟩) main_v174) maximumf,
    reshape main_v174 main_v175 rfl shapeCasts_S10248x128_S4x2562x128,
    nullary main_c_34 (constantI S_ 32 0#32),
    unary main_c_34 main_v176 (broadcastInDim S2562x7 ![] bcast_S_S2562x7),
    binary main_arg11 main_v176 main_v177 (cmpi .slt),
    nullary main_c_35 (constantI S_ 32 2562#32),
    unary main_c_35 main_v178 (broadcastInDim S2562x7 ![] bcast_S_S2562x7),
    binary main_arg11 main_v178 main_v179 (addi),
    ternary main_v177 main_v179 main_arg11 main_v180 (select),
    unary main_v180 main_v181 (broadcastInDim S2562x7x1 ![0, 1] bcast_S2562x7_S2562x7x1_0_1),
    binary main_v175 main_v181 main_v182 ((fun x i => Host.gather gather_S4x2562x128_S2562x7x1_S4x2562x7x128_03_1_n_n_1_2_41128 x i)),
    nullary main_cst_36 (constant S_ .f32 0xFF800000#32),
    binary main_v182 main_cst_36 main_v183 ((fun x v => Host.reduce FloatOps.maximumf x v reducesTo_S4x2562x7x128_S4x2562x128_d2 h_S_)),
    unary main_v183 main_v184 ((extractStridedSlice S4x642x128 ![0, 0, 0] · slices_S4x2562x128_S4x642x128_0_0_0)),
    reshape main_v184 main_v185 rfl shapeCasts_S4x642x128_S2568x128,
    unary main_arg4 main_v186 ((extractStridedSlice S1x15360 ![0, 0] · slices_S2x15360_S1x15360_0_0)),
    reshape main_v186 main_v187 rfl shapeCasts_S1x15360_S15360,
    unary main_arg4 main_v188 ((extractStridedSlice S1x15360 ![1, 0] · slices_S2x15360_S1x15360_1_0)),
    reshape main_v188 main_v189 rfl shapeCasts_S1x15360_S15360,
    unary main_arg8 main_v190 (broadcastInDim S15360x1x2 ![0, 2] bcast_S15360x2_S15360x1x2_0_2),
    unary main_arg30 main_v191 (broadcastInDim S1x3x2 ![1, 2] bcast_S3x2_S1x3x2_1_2),
    unary main_v190 main_v192 (broadcastInDim S15360x3x2 ![0, 1, 2] bcast_S15360x1x2_S15360x3x2_0_1_2),
    unary main_v191 main_v193 (broadcastInDim S15360x3x2 ![0, 1, 2] bcast_S1x3x2_S15360x3x2_0_1_2),
    binary main_v192 main_v193 main_v194 (subf),
    binary main_v194 main_v194 main_v195 (mulf),
    unary main_arg31 main_v196 (broadcastInDim S1x3x2 ![1, 2] bcast_S3x2_S1x3x2_1_2),
    binary main_v196 main_v196 main_v197 (mulf),
    nullary main_cst_37 (constant S_ .f32 0x26901D7D#32),
    unary main_cst_37 main_v198 (broadcastInDim S1x3x2 ![] bcast_S_S1x3x2),
    binary main_v197 main_v198 main_v199 (addf) ]

theorem ops3b_sub : (ops3b : List (HloOp τ sig (Elt F))).Forall fun op => op.bufs ⊆ tcRefs τ sig :=
  ⟨nullary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., reshape_bufs_sub .., unary_bufs_sub .., reshape_bufs_sub .., unary_bufs_sub .., reshape_bufs_sub .., unary_bufs_sub .., unary_bufs_sub .., unary_bufs_sub .., unary_bufs_sub .., binary_bufs_sub .., binary_bufs_sub .., unary_bufs_sub .., binary_bufs_sub .., nullary_bufs_sub .., unary_bufs_sub .., binary_bufs_sub ..⟩

theorem ops3b_fresh : (ops3b : List (HloOp τ sig (Elt F))).Forall fun op => op.fresh = ∅ := by
  simp only [List.Forall]; repeat' constructor

abbrev ops3b_W : List (Ref sig .tc) := [main_call2_cst, main_call2_v0, main_v174, main_v175, main_c_34, main_v176, main_v177, main_c_35, main_v178, main_v179, main_v180, main_v181, main_v182, main_cst_36, main_v183, main_v184, main_v185, main_v186, main_v187, main_v188, main_v189, main_v190, main_v191, main_v192, main_v193, main_v194, main_v195, main_v196, main_v197, main_cst_37, main_v198, main_v199]

theorem ops3b_writes : (ops3b : List (HloOp τ sig (Elt F))).Forall fun op => op.writes ⊆ (ops3b_W.map (Proc.devRef (τ := τ) .tc)).toFinset := by
  simp only [List.Forall]; and_intros <;>
    (simp only [nullary_writes, unary_writes, binary_writes, ternary_writes, quaternary_writes, reshape_writes, binaryIndexed_writes,
      unaryIndexed_writes, nary_writes, Finset.singleton_subset_iff, List.mem_toFinset]; exact List.mem_map_of_mem (by decide))

set_option maxHeartbeats 4000000 in

theorem main_part3_eq (c : Dev nD) : main_part3 (F := F) c = (seq ops3a >>= fun _ => seq ops3b) := rfl

end Cert.ReferenceIdeal.RefRun

end
-- ==== Proof.RefRun5.lean ====
import proofs.«402598_j31782757990676_2_alg».proof.ReferenceIdeal
import Idealize.ShloMosaic.Lib.StableHlo.Run

set_option maxRecDepth 8192

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

abbrev ops4a : List (HloOp τ sig (Elt F)) :=
  [ unary main_v199 main_v200 (broadcastInDim S15360x3x2 ![0, 1, 2] bcast_S1x3x2_S15360x3x2_0_1_2),
    binary main_v195 main_v200 main_v201 (Host.divf),
    nullary main_cst_38 (constant S_ .f32 0x00000000#32),
    binary main_v201 main_cst_38 main_v202 ((fun x v => Host.reduceAdd x v reducesTo_S15360x3x2_S15360x3_d2 h_S_)),
    nullary main_cst_39 (constant S_ .f32 0xBF000000#32),
    unary main_cst_39 main_v203 (broadcastInDim S15360x3 ![] bcast_S_S15360x3),
    binary main_v203 main_v202 main_v204 (mulf),
    unary main_v204 main_v205 (Host.exp),
    nullary main_c_40 (constantI S_ 32 0#32),
    unary main_c_40 main_v206 (broadcastInDim S15360 ![] bcast_S_S15360),
    binary main_v187 main_v206 main_v207 (cmpi .slt),
    nullary main_c_41 (constantI S_ 32 2568#32),
    unary main_c_41 main_v208 (broadcastInDim S15360 ![] bcast_S_S15360),
    binary main_v187 main_v208 main_v209 (addi),
    ternary main_v207 main_v209 main_v187 main_v210 (select),
    unary main_v210 main_v211 (broadcastInDim S15360x1 ![0] bcast_S15360_S15360x1_0),
    binary main_v185 main_v211 main_v212 ((fun x i => Host.gather gather_S2568x128_S15360x1_S15360x128_1_0_n_n_0_1_1128 x i)),
    binary main_v212 main_arg29 main_v213 ((fun l r => Host.dotGeneral dot_S15360x128_S128x768_S15360x768_1_0_0_1_n_n none l r)),
    reshape main_v213 main_v214 rfl shapeCasts_S15360x768_S15360x3x256,
    unary main_v205 main_v215 (broadcastInDim S15360x3x1 ![0, 1] bcast_S15360x3_S15360x3x1_0_1),
    unary main_v215 main_v216 (broadcastInDim S15360x3x256 ![0, 1, 2] bcast_S15360x3x1_S15360x3x256_0_1_2),
    binary main_v214 main_v216 main_v217 (mulf),
    nullary main_cst_42 (constant S_ .f32 0x00000000#32),
    binary main_v217 main_cst_42 main_v218 ((fun x v => Host.reduceAdd x v reducesTo_S15360x3x256_S15360x256_d1 h_S_)),
    nullary main_cst_43 (constant S_ .f32 0x00000000#32),
    unary main_cst_43 main_v219 (broadcastInDim S2568x256 ![] bcast_S_S2568x256),
    unary main_v189 main_v220 (broadcastInDim S15360x1 ![0] bcast_S15360_S15360x1_0),
    ternary main_v219 main_v220 main_v218 main_v221 ((fun x i u => Host.scatterAdd scatter_S2568x256_S15360x1_S15360x256_1_0_0_1 x i u)),
    nullary main_cst_44 (constant S_ .f32 0x3F800000#32),
    unary main_cst_44 main_v222 (broadcastInDim S15360 ![] bcast_S_S15360),
    nullary main_cst_45 (constant S_ .f32 0x00000000#32),
    unary main_cst_45 main_v223 (broadcastInDim S2568 ![] bcast_S_S2568),
    unary main_v189 main_v224 (broadcastInDim S15360x1 ![0] bcast_S15360_S15360x1_0),
    ternary main_v223 main_v224 main_v222 main_v225 ((fun x i u => Host.scatterAdd scatter_S2568_S15360x1_S15360_n_0_0_1 x i u)),
    nullary main_cst_46 (constant S_ .f32 0x3F800000#32),
    unary main_cst_46 main_v226 (broadcastInDim S2568 ![] bcast_S_S2568),
    binary main_v225 main_v226 main_v227 (maximumf),
    unary main_v227 main_v228 (broadcastInDim S2568x1 ![0] bcast_S2568_S2568x1_0),
    unary main_v228 main_v229 (broadcastInDim S2568x256 ![0, 1] bcast_S2568x1_S2568x256_0_1),
    binary main_v221 main_v229 main_v230 (Host.divf),
    binary main_v185 main_arg32 main_v231 ((fun l r => Host.dotGeneral dot_S2568x128_S128x256_S2568x256_1_0_0_1_n_n none l r)),
    binary main_v230 main_v231 main_v232 (addf),
    unary main_arg33 main_v233 (broadcastInDim S1x256 ![1] bcast_S256_S1x256_1),
    unary main_v233 main_v234 (broadcastInDim S2568x256 ![0, 1] bcast_S1x256_S2568x256_0_1),
    binary main_v232 main_v234 main_v235 (addf) ]

theorem ops4a_sub : (ops4a : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., unary_bufs_sub .., unary_bufs_sub .., binary_bufs_sub .., nullary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub ..⟩

theorem ops4a_fresh : (ops4a : List (HloOp τ sig (Elt F))).Forall fun op => op.fresh = ∅ := by
  simp only [List.Forall]; repeat' constructor

abbrev ops4a_W : List (Ref sig .tc) := [main_v200, main_v201, main_cst_38, main_v202, main_cst_39, main_v203, main_v204, main_v205, main_c_40, main_v206, main_v207, main_c_41, main_v208, main_v209, main_v210, main_v211, main_v212, main_v213, main_v214, main_v215, main_v216, main_v217, main_cst_42, main_v218, main_cst_43, main_v219, main_v220, main_v221, main_cst_44, main_v222, main_cst_45, main_v223, main_v224, main_v225, main_cst_46, main_v226, main_v227, main_v228, main_v229, main_v230, main_v231, main_v232, main_v233, main_v234, main_v235]

theorem ops4a_writes : (ops4a : List (HloOp τ sig (Elt F))).Forall fun op => op.writes ⊆ (ops4a_W.map (Proc.devRef (τ := τ) .tc)).toFinset := by
  simp only [List.Forall]; and_intros <;>
    (simp only [nullary_writes, unary_writes, binary_writes, ternary_writes, quaternary_writes, reshape_writes, binaryIndexed_writes,
      unaryIndexed_writes, nary_writes, Finset.singleton_subset_iff, List.mem_toFinset]; exact List.mem_map_of_mem (by decide))

abbrev ops4b : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S2568x256, .f32⟩) main_call3_v0) (broadcastInDim S2568x256 ![] bcast_S_S2568x256),
    TRef.binary (TRef.of (T := ⟨S2568x256, .f32⟩) main_v235) (TRef.of (T := ⟨S2568x256, .f32⟩) main_call3_v0) (TRef.of (T := ⟨S2568x256, .f32⟩) main_v236) maximumf,
    reshape main_v236 main_v237 rfl shapeCasts_S2568x256_S4x642x256,
    nullary main_c_47 (constantI S_ 32 0#32),
    unary main_c_47 main_v238 (broadcastInDim S642x7 ![] bcast_S_S642x7),
    binary main_arg12 main_v238 main_v239 (cmpi .slt),
    nullary main_c_48 (constantI S_ 32 642#32),
    unary main_c_48 main_v240 (broadcastInDim S642x7 ![] bcast_S_S642x7),
    binary main_arg12 main_v240 main_v241 (addi),
    ternary main_v239 main_v241 main_arg12 main_v242 (select),
    unary main_v242 main_v243 (broadcastInDim S642x7x1 ![0, 1] bcast_S642x7_S642x7x1_0_1),
    binary main_v237 main_v243 main_v244 ((fun x i => Host.gather gather_S4x642x256_S642x7x1_S4x642x7x256_03_1_n_n_1_2_41256 x i)),
    nullary main_cst_49 (constant S_ .f32 0xFF800000#32),
    binary main_v244 main_cst_49 main_v245 ((fun x v => Host.reduce FloatOps.maximumf x v reducesTo_S4x642x7x256_S4x642x256_d2 h_S_)),
    unary main_v245 main_v246 ((extractStridedSlice S4x162x256 ![0, 0, 0] · slices_S4x642x256_S4x162x256_0_0_0)),
    reshape main_v246 main_v247 rfl shapeCasts_S4x162x256_S648x256 ]

theorem ops4b_sub : (ops4b : List (HloOp τ sig (Elt F))).Forall fun op => op.bufs ⊆ tcRefs τ sig :=
  ⟨nullary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., unary_bufs_sub .., reshape_bufs_sub ..⟩

theorem ops4b_fresh : (ops4b : List (HloOp τ sig (Elt F))).Forall fun op => op.fresh = ∅ := by
  simp only [List.Forall]; repeat' constructor

abbrev ops4b_W : List (Ref sig .tc) := [main_call3_cst, main_call3_v0, main_v236, main_v237, main_c_47, main_v238, main_v239, main_c_48, main_v240, main_v241, main_v242, main_v243, main_v244, main_cst_49, main_v245, main_v246, main_v247]

theorem ops4b_writes : (ops4b : List (HloOp τ sig (Elt F))).Forall fun op => op.writes ⊆ (ops4b_W.map (Proc.devRef (τ := τ) .tc)).toFinset := by
  simp only [List.Forall]; and_intros <;>
    (simp only [nullary_writes, unary_writes, binary_writes, ternary_writes, quaternary_writes, reshape_writes, binaryIndexed_writes,
      unaryIndexed_writes, nary_writes, Finset.singleton_subset_iff, List.mem_toFinset]; exact List.mem_map_of_mem (by decide))

set_option maxHeartbeats 4000000 in

theorem main_part4_eq (c : Dev nD) : main_part4 (F := F) c = (seq ops4a >>= fun _ => seq ops4b) := rfl

end Cert.ReferenceIdeal.RefRun

end
-- ==== Proof.RefRun6.lean ====
import proofs.«402598_j31782757990676_2_alg».proof.ReferenceIdeal
import Idealize.ShloMosaic.Lib.StableHlo.Run

set_option maxRecDepth 8192

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

abbrev ops5a : List (HloOp τ sig (Elt F)) :=
  [ unary main_arg34 main_v248 (broadcastInDim S1x4 ![1] bcast_S4_S1x4_1),
    unary main_arg13 main_v249 (broadcastInDim S4x4 ![0, 1] bcast_S4x1_S4x4_0_1),
    unary main_v248 main_v250 (broadcastInDim S4x4 ![0, 1] bcast_S1x4_S4x4_0_1),
    binary main_v249 main_v250 main_v251 (mulf),
    unary main_arg35 main_v252 (broadcastInDim S1x4 ![1] bcast_S4_S1x4_1),
    unary main_v252 main_v253 (broadcastInDim S4x4 ![0, 1] bcast_S1x4_S4x4_0_1),
    binary main_v251 main_v253 main_v254 (addf),
    reshape main_v247 main_v255 rfl shapeCasts_S648x256_S4x41472,
    binary main_v255 main_v254 main_v256 ((fun a b => concatenate S4x41476 1 [⟨S4x41472, a⟩, ⟨S4x4, b⟩] concatenates_S4x41472_S4x4_S4x41476_d1)),
    binary main_v256 main_arg36 main_v257 ((fun l r => Host.dotGeneral dot_S4x41476_S41476x256_S4x256_1_0_0_1_n_n none l r)),
    unary main_arg37 main_v258 (broadcastInDim S1x256 ![1] bcast_S256_S1x256_1),
    unary main_v258 main_v259 (broadcastInDim S4x256 ![0, 1] bcast_S1x256_S4x256_0_1),
    binary main_v257 main_v259 main_v260 (addf) ]

theorem ops5a_sub : (ops5a : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., reshape_bufs_sub .., binary_bufs_sub .., binary_bufs_sub .., unary_bufs_sub .., unary_bufs_sub .., binary_bufs_sub ..⟩

theorem ops5a_fresh : (ops5a : List (HloOp τ sig (Elt F))).Forall fun op => op.fresh = ∅ := by
  simp only [List.Forall]; repeat' constructor

abbrev ops5a_W : List (Ref sig .tc) := [main_v248, main_v249, main_v250, main_v251, main_v252, main_v253, main_v254, main_v255, main_v256, main_v257, main_v258, main_v259, main_v260]

theorem ops5a_writes : (ops5a : List (HloOp τ sig (Elt F))).Forall fun op => op.writes ⊆ (ops5a_W.map (Proc.devRef (τ := τ) .tc)).toFinset := by
  simp only [List.Forall]; and_intros <;>
    (simp only [nullary_writes, unary_writes, binary_writes, ternary_writes, quaternary_writes, reshape_writes, binaryIndexed_writes,
      unaryIndexed_writes, nary_writes, Finset.singleton_subset_iff, List.mem_toFinset]; exact List.mem_map_of_mem (by decide))

abbrev ops5b : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S4x256, .f32⟩) main_call4_v0) (broadcastInDim S4x256 ![] bcast_S_S4x256),
    TRef.binary (TRef.of (T := ⟨S4x256, .f32⟩) main_v260) (TRef.of (T := ⟨S4x256, .f32⟩) main_call4_v0) (TRef.of (T := ⟨S4x256, .f32⟩) main_v261) maximumf,
    binary main_v261 main_arg38 main_v262 ((fun l r => Host.dotGeneral dot_S4x256_S256x1_S4x1_1_0_0_1_n_n none l r)),
    unary main_arg39 main_v263 (broadcastInDim S1x1 ![1] bcast_S1_S1x1_1),
    unary main_v263 main_v264 (broadcastInDim S4x1 ![0, 1] bcast_S1x1_S4x1_0_1),
    binary main_v262 main_v264 main_v265 (addf),
    reshape main_v265 main_v266 rfl shapeCasts_S4x1_S4 ]

theorem ops5b_sub : (ops5b : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., reshape_bufs_sub ..⟩

theorem ops5b_fresh : (ops5b : List (HloOp τ sig (Elt F))).Forall fun op => op.fresh = ∅ := by
  simp only [List.Forall]; repeat' constructor

abbrev ops5b_W : List (Ref sig .tc) := [main_call4_cst, main_call4_v0, main_v261, main_v262, main_v263, main_v264, main_v265, main_v266]

theorem ops5b_writes : (ops5b : List (HloOp τ sig (Elt F))).Forall fun op => op.writes ⊆ (ops5b_W.map (Proc.devRef (τ := τ) .tc)).toFinset := by
  simp only [List.Forall]; and_intros <;>
    (simp only [nullary_writes, unary_writes, binary_writes, ternary_writes, quaternary_writes, reshape_writes, binaryIndexed_writes,
      unaryIndexed_writes, nary_writes, Finset.singleton_subset_iff, List.mem_toFinset]; exact List.mem_map_of_mem (by decide))

set_option maxHeartbeats 4000000 in

theorem main_part5_eq (c : Dev nD) : main_part5 (F := F) c = (seq ops5a >>= fun _ => seq ops5b) := rfl

end Cert.ReferenceIdeal.RefRun

end
-- ==== Proof.RefRun.lean ====
import proofs.«402598_j31782757990676_2_alg».proof.Proof.RefRun1
import proofs.«402598_j31782757990676_2_alg».proof.Proof.RefRun2
import proofs.«402598_j31782757990676_2_alg».proof.Proof.RefRun3
import proofs.«402598_j31782757990676_2_alg».proof.Proof.RefRun4
import proofs.«402598_j31782757990676_2_alg».proof.Proof.RefRun5
import proofs.«402598_j31782757990676_2_alg».proof.Proof.RefRun6
import Idealize.ShloMosaic.Lib.StableHlo.Run
import Idealize.ShloMosaic.Lib.Pipeline.Frame

set_option maxRecDepth 8192

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]

abbrev opsAll : List (HloOp τ sig (Elt F)) :=
  ops0 ++ (ops1 ++ (ops2a ++ (ops2b ++ (ops3a ++ (ops3b ++ (ops4a ++ (ops4b ++ (ops5a ++ (ops5b)))))))))

theorem main_eq (c : Dev nD) : main (F := F) c = seq opsAll := by
  have h : main (F := F) c = (main_part0 c >>= fun _ => main_part1 c >>= fun _ => main_part2 c >>= fun _ =>
      main_part3 c >>= fun _ => main_part4 c >>= fun _ => main_part5 c) := rfl
  rw [h, main_part0_eq, main_part1_eq, main_part2_eq, main_part3_eq, main_part4_eq, main_part5_eq]
  simp only [opsAll, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem opsAll_sub : (opsAll : List (HloOp τ sig (Elt F))).Forall fun op => op.bufs ⊆ tcRefs τ sig :=
  List.forall_iff_forall_mem.mpr fun op h => by
    simp only [opsAll, List.mem_append] at h
    rcases h with h | h | h | h | h | h | h | h | h | h
    exacts [List.forall_iff_forall_mem.mp ops0_sub op h, List.forall_iff_forall_mem.mp ops1_sub op h, List.forall_iff_forall_mem.mp ops2a_sub op h, List.forall_iff_forall_mem.mp ops2b_sub op h, List.forall_iff_forall_mem.mp ops3a_sub op h, List.forall_iff_forall_mem.mp ops3b_sub op h, List.forall_iff_forall_mem.mp ops4a_sub op h, List.forall_iff_forall_mem.mp ops4b_sub op h, List.forall_iff_forall_mem.mp ops5a_sub op h, List.forall_iff_forall_mem.mp ops5b_sub op h]

theorem opsAll_fresh : ∀ op ∈ (opsAll : List (HloOp τ sig (Elt F))), op.fresh = ∅ := fun op h => by
  simp only [opsAll, List.mem_append] at h
  rcases h with h | h | h | h | h | h | h | h | h | h
  exacts [List.forall_iff_forall_mem.mp ops0_fresh op h, List.forall_iff_forall_mem.mp ops1_fresh op h, List.forall_iff_forall_mem.mp ops2a_fresh op h, List.forall_iff_forall_mem.mp ops2b_fresh op h, List.forall_iff_forall_mem.mp ops3a_fresh op h, List.forall_iff_forall_mem.mp ops3b_fresh op h, List.forall_iff_forall_mem.mp ops4a_fresh op h, List.forall_iff_forall_mem.mp ops4b_fresh op h, List.forall_iff_forall_mem.mp ops5a_fresh op h, List.forall_iff_forall_mem.mp ops5b_fresh op h]

variable (m : (ℓ : Loc nD τ sig) → Buf (Elt F) ℓ)

abbrev V0 (c : Dev nD) : Valuation τ sig (Elt F) := fun b => m (c, b)

abbrev V1 (c : Dev nD) : Valuation τ sig (Elt F) := StableHlo.after ops0 (V0 m c)

abbrev V2 (c : Dev nD) : Valuation τ sig (Elt F) := StableHlo.after ops1 (V1 m c)

abbrev V3 (c : Dev nD) : Valuation τ sig (Elt F) := StableHlo.after ops2a (V2 m c)

abbrev V4 (c : Dev nD) : Valuation τ sig (Elt F) := StableHlo.after ops2b (V3 m c)

abbrev V5 (c : Dev nD) : Valuation τ sig (Elt F) := StableHlo.after ops3a (V4 m c)

abbrev V6 (c : Dev nD) : Valuation τ sig (Elt F) := StableHlo.after ops3b (V5 m c)

abbrev V7 (c : Dev nD) : Valuation τ sig (Elt F) := StableHlo.after ops4a (V6 m c)

abbrev V8 (c : Dev nD) : Valuation τ sig (Elt F) := StableHlo.after ops4b (V7 m c)

abbrev V9 (c : Dev nD) : Valuation τ sig (Elt F) := StableHlo.after ops5a (V8 m c)

abbrev V10 (c : Dev nD) : Valuation τ sig (Elt F) := StableHlo.after ops5b (V9 m c)

abbrev Vend (c : Dev nD) : Valuation τ sig (Elt F) := V10 m c

theorem after_opsAll (c : Dev nD) : StableHlo.after opsAll (launchContents m c) = Vend m c := by
  simp only [opsAll, StableHlo.after_append]

theorem V1_of (c : Dev nD) (r : Ref sig .tc) (h : r ∉ ops0_W) : V1 m c r = V0 m c r :=
  after_of_writes_sub ops0 _ ops0_writes h
theorem V2_of (c : Dev nD) (r : Ref sig .tc) (h : r ∉ ops1_W) : V2 m c r = V1 m c r :=
  after_of_writes_sub ops1 _ ops1_writes h
theorem V3_of (c : Dev nD) (r : Ref sig .tc) (h : r ∉ ops2a_W) : V3 m c r = V2 m c r :=
  after_of_writes_sub ops2a _ ops2a_writes h
theorem V4_of (c : Dev nD) (r : Ref sig .tc) (h : r ∉ ops2b_W) : V4 m c r = V3 m c r :=
  after_of_writes_sub ops2b _ ops2b_writes h
theorem V5_of (c : Dev nD) (r : Ref sig .tc) (h : r ∉ ops3a_W) : V5 m c r = V4 m c r :=
  after_of_writes_sub ops3a _ ops3a_writes h
theorem V6_of (c : Dev nD) (r : Ref sig .tc) (h : r ∉ ops3b_W) : V6 m c r = V5 m c r :=
  after_of_writes_sub ops3b _ ops3b_writes h
theorem V7_of (c : Dev nD) (r : Ref sig .tc) (h : r ∉ ops4a_W) : V7 m c r = V6 m c r :=
  after_of_writes_sub ops4a _ ops4a_writes h
theorem V8_of (c : Dev nD) (r : Ref sig .tc) (h : r ∉ ops4b_W) : V8 m c r = V7 m c r :=
  after_of_writes_sub ops4b _ ops4b_writes h
theorem V9_of (c : Dev nD) (r : Ref sig .tc) (h : r ∉ ops5a_W) : V9 m c r = V8 m c r :=
  after_of_writes_sub ops5a _ ops5a_writes h
theorem V10_of (c : Dev nD) (r : Ref sig .tc) (h : r ∉ ops5b_W) : V10 m c r = V9 m c r :=
  after_of_writes_sub ops5b _ ops5b_writes h

theorem Vend_of (c : Dev nD) (r : Ref sig .tc) (h0 : r ∉ ops0_W) (h1 : r ∉ ops1_W) (h2 : r ∉ ops2a_W) (h3 : r ∉ ops2b_W) (h4 : r ∉ ops3a_W) (h5 : r ∉ ops3b_W) (h6 : r ∉ ops4a_W) (h7 : r ∉ ops4b_W) (h8 : r ∉ ops5a_W) (h9 : r ∉ ops5b_W) :
    Vend m c r = V0 m c r :=
  (V10_of m c r h9).trans ((V9_of m c r h8).trans ((V8_of m c r h7).trans ((V7_of m c r h6).trans ((V6_of m c r h5).trans ((V5_of m c r h4).trans ((V4_of m c r h3).trans ((V3_of m c r h2).trans ((V2_of m c r h1).trans ((V1_of m c r h0))))))))))

theorem after_opsAll_of (c : Dev nD) (r : Ref sig .tc) (h0 : r ∉ ops0_W) (h1 : r ∉ ops1_W) (h2 : r ∉ ops2a_W) (h3 : r ∉ ops2b_W) (h4 : r ∉ ops3a_W) (h5 : r ∉ ops3b_W) (h6 : r ∉ ops4a_W) (h7 : r ∉ ops4b_W) (h8 : r ∉ ops5a_W) (h9 : r ∉ ops5b_W) :
    StableHlo.after opsAll (launchContents m c) (Proc.devRef .tc r) = m ((c.tc : Thread nD τ).loc r) :=
  (congrFun (after_opsAll m c) _).trans (Vend_of m c r h0 h1 h2 h3 h4 h5 h6 h7 h8 h9)

theorem run (ρ : Dev nD → PrngReg) :
    θ_run defs (onTc (τ := τ) (main (F := F))) ⟨m, fun _ => 0, ρ⟩ (fun r => ∀ c : Dev nD,
      r.2.mem ((c.tc : Thread nD τ).loc main_v266) = Vend m c main_v266
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  (θ_run defs _ _).mono (fun _ h c => ⟨(h c main_v266).trans (congrFun (after_opsAll m c) _),
      (h c main_arg0).trans (after_opsAll_of m c main_arg0 (by decide) (by decide) (by decide) (by decide) (by decide) (by decide) (by decide) (by decide) (by decide) (by decide)),
      (h c main_arg1).trans (after_opsAll_of m c main_arg1 (by decide) (by decide) (by decide) (by decide) (by decide) (by decide) (by decide) (by decide) (by decide) (by decide)),
      (h c main_arg2).trans (after_opsAll_of m c main_arg2 (by decide) (by decide) (by decide) (by decide) (by decide) (by decide) (by decide) (by decide) (by decide) (by decide)),
      (h c main_arg3).trans (after_opsAll_of m c main_arg3 (by decide) (by decide) (by decide) (by decide) (by decide) (by decide) (by decide) (by decide) (by decide) (by decide)),
      (h c main_arg4).trans (after_opsAll_of m c main_arg4 (by decide) (by decide) (by decide) (by decide) (by decide) (by decide) (by decide) (by decide) (by decide) (by decide)),
      (h c main_arg5).trans (after_opsAll_of m c main_arg5 (by decide) (by decide) (by decide) (by decide) (by decide) (by decide) (by decide) (by decide) (by decide) (by decide)),
      (h c main_arg6).trans (after_opsAll_of m c main_arg6 (by decide) (by decide) (by decide) (by decide) (by decide) (by decide) (by decide) (by decide) (by decide) (by decide)),
      (h c main_arg7).trans (after_opsAll_of m c main_arg7 (by decide) (by decide) (by decide) (by decide) (by decide) (by decide) (by decide) (by decide) (by decide) (by decide)),
      (h c main_arg8).trans (after_opsAll_of m c main_arg8 (by decide) (by decide) (by decide) (by decide) (by decide) (by decide) (by decide) (by decide) (by decide) (by decide)),
      (h c main_arg9).trans (after_opsAll_of m c main_arg9 (by decide) (by decide) (by decide) (by decide) (by decide) (by decide) (by decide) (by decide) (by decide) (by decide)),
      (h c main_arg10).trans (after_opsAll_of m c main_arg10 (by decide) (by decide) (by decide) (by decide) (by decide) (by decide) (by decide) (by decide) (by decide) (by decide)),
      (h c main_arg11).trans (after_opsAll_of m c main_arg11 (by decide) (by decide) (by decide) (by decide) (by decide) (by decide) (by decide) (by decide) (by decide) (by decide)),
      (h c main_arg12).trans (after_opsAll_of m c main_arg12 (by decide) (by decide) (by decide) (by decide) (by decide) (by decide) (by decide) (by decide) (by decide) (by decide)),
      (h c main_arg13).trans (after_opsAll_of m c main_arg13 (by decide) (by decide) (by decide) (by decide) (by decide) (by decide) (by decide) (by decide) (by decide) (by decide)),
      (h c main_arg14).trans (after_opsAll_of m c main_arg14 (by decide) (by decide) (by decide) (by decide) (by decide) (by decide) (by decide) (by decide) (by decide) (by decide)),
      (h c main_arg15).trans (after_opsAll_of m c main_arg15 (by decide) (by decide) (by decide) (by decide) (by decide) (by decide) (by decide) (by decide) (by decide) (by decide)),
      (h c main_arg16).trans (after_opsAll_of m c main_arg16 (by decide) (by decide) (by decide) (by decide) (by decide) (by decide) (by decide) (by decide) (by decide) (by decide)),
      (h c main_arg17).trans (after_opsAll_of m c main_arg17 (by decide) (by decide) (by decide) (by decide) (by decide) (by decide) (by decide) (by decide) (by decide) (by decide)),
      (h c main_arg18).trans (after_opsAll_of m c main_arg18 (by decide) (by decide) (by decide) (by decide) (by decide) (by decide) (by decide) (by decide) (by decide) (by decide)),
      (h c main_arg19).trans (after_opsAll_of m c main_arg19 (by decide) (by decide) (by decide) (by decide) (by decide) (by decide) (by decide) (by decide) (by decide) (by decide)),
      (h c main_arg20).trans (after_opsAll_of m c main_arg20 (by decide) (by decide) (by decide) (by decide) (by decide) (by decide) (by decide) (by decide) (by decide) (by decide)),
      (h c main_arg21).trans (after_opsAll_of m c main_arg21 (by decide) (by decide) (by decide) (by decide) (by decide) (by decide) (by decide) (by decide) (by decide) (by decide)),
      (h c main_arg22).trans (after_opsAll_of m c main_arg22 (by decide) (by decide) (by decide) (by decide) (by decide) (by decide) (by decide) (by decide) (by decide) (by decide)),
      (h c main_arg23).trans (after_opsAll_of m c main_arg23 (by decide) (by decide) (by decide) (by decide) (by decide) (by decide) (by decide) (by decide) (by decide) (by decide)),
      (h c main_arg24).trans (after_opsAll_of m c main_arg24 (by decide) (by decide) (by decide) (by decide) (by decide) (by decide) (by decide) (by decide) (by decide) (by decide)),
      (h c main_arg25).trans (after_opsAll_of m c main_arg25 (by decide) (by decide) (by decide) (by decide) (by decide) (by decide) (by decide) (by decide) (by decide) (by decide)),
      (h c main_arg26).trans (after_opsAll_of m c main_arg26 (by decide) (by decide) (by decide) (by decide) (by decide) (by decide) (by decide) (by decide) (by decide) (by decide)),
      (h c main_arg27).trans (after_opsAll_of m c main_arg27 (by decide) (by decide) (by decide) (by decide) (by decide) (by decide) (by decide) (by decide) (by decide) (by decide)),
      (h c main_arg28).trans (after_opsAll_of m c main_arg28 (by decide) (by decide) (by decide) (by decide) (by decide) (by decide) (by decide) (by decide) (by decide) (by decide)),
      (h c main_arg29).trans (after_opsAll_of m c main_arg29 (by decide) (by decide) (by decide) (by decide) (by decide) (by decide) (by decide) (by decide) (by decide) (by decide)),
      (h c main_arg30).trans (after_opsAll_of m c main_arg30 (by decide) (by decide) (by decide) (by decide) (by decide) (by decide) (by decide) (by decide) (by decide) (by decide)),
      (h c main_arg31).trans (after_opsAll_of m c main_arg31 (by decide) (by decide) (by decide) (by decide) (by decide) (by decide) (by decide) (by decide) (by decide) (by decide)),
      (h c main_arg32).trans (after_opsAll_of m c main_arg32 (by decide) (by decide) (by decide) (by decide) (by decide) (by decide) (by decide) (by decide) (by decide) (by decide)),
      (h c main_arg33).trans (after_opsAll_of m c main_arg33 (by decide) (by decide) (by decide) (by decide) (by decide) (by decide) (by decide) (by decide) (by decide) (by decide)),
      (h c main_arg34).trans (after_opsAll_of m c main_arg34 (by decide) (by decide) (by decide) (by decide) (by decide) (by decide) (by decide) (by decide) (by decide) (by decide)),
      (h c main_arg35).trans (after_opsAll_of m c main_arg35 (by decide) (by decide) (by decide) (by decide) (by decide) (by decide) (by decide) (by decide) (by decide) (by decide)),
      (h c main_arg36).trans (after_opsAll_of m c main_arg36 (by decide) (by decide) (by decide) (by decide) (by decide) (by decide) (by decide) (by decide) (by decide) (by decide)),
      (h c main_arg37).trans (after_opsAll_of m c main_arg37 (by decide) (by decide) (by decide) (by decide) (by decide) (by decide) (by decide) (by decide) (by decide) (by decide)),
      (h c main_arg38).trans (after_opsAll_of m c main_arg38 (by decide) (by decide) (by decide) (by decide) (by decide) (by decide) (by decide) (by decide) (by decide) (by decide)),
      (h c main_arg39).trans (after_opsAll_of m c main_arg39 (by decide) (by decide) (by decide) (by decide) (by decide) (by decide) (by decide) (by decide) (by decide) (by decide))⟩)
    (run_seq scopedRefs_eq scopedSems_eq defs main (fun _ => opsAll) main_eq (fun _ => opsAll_sub) m ρ (fun _ => opsAll_fresh))

end Cert.ReferenceIdeal.RefRun

end
-- ==== Proof.KValueRun.lean ====
/-
  The idealized kernel program's run with its result named: the value the host stretches and the four kernel
  regions leave in the result buffer, as a function of the launch memory and of the regions' output arrays.
-/
import proofs.«402598_j31782757990676_2_alg».proof.Proof.Gen.KernelIdeal.Regions

-- decided memberships over several hundred buffer references recurse past the default depth
set_option maxRecDepth 2036

noncomputable section

namespace Cert.KernelIdeal.ValueRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- The kernel program's run WITH ITS RESULT NAMED. Under the same hypotheses as the conditional frame — per kernel region a
    segment record entered from the buffer contents before it and left at the contents after it — every weakly fair
    execution of @main from memory `m` terminates, and on every core the result buffer holds what the LAST boundary's
    contents assign to it, `V27 m outs c main_v178`: the launch memory pushed through every host stretch, with each
    region's output array at `outs`; every argument array is as launched. The result is thereby a pure function of the
    launch memory and of what the four regions leave. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V15 m outs c) ∗ E 2 c) ⊢ R2.pre c)
    (hpost2 : ∀ c : Dev nD, R2.post c ⊢ iprop(StableHlo.held (c : Thread nD τ) (Pipeline.ucRefs τ sig) (V16 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V21 m outs c) ∗ E 3 c) ⊢ R3.pre c)
    (hpost3 : ∀ c : Dev nD, R3.post c ⊢ iprop(StableHlo.held (c : Thread nD τ) (Pipeline.ucRefs τ sig) (V22 m outs c) ∗ E 4 c)) :
    θ_run defs (onTc (τ := τ) (main (F := F))) ⟨m, fun _ => 0, ρ⟩ (fun r => ∀ c : Dev nD,
      r.2.mem ((c.tc : Thread nD τ).loc main_v178) = V27 m outs c main_v178
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          StableHlo.seq hostOps4_1,
          StableHlo.seq hostOps4_2,
          StableHlo.seq hostOps4_3,
          StableHlo.seq hostOps4_4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V27 m outs c))
    (hch := fun c => ⟨.rfl, .rfl, .rfl, hpre0 c, hpost0 c, .rfl, .rfl, .rfl, .rfl, hpre1 c, hpost1 c, .rfl, .rfl, .rfl, .rfl, hpre2 c, hpost2 c, .rfl, .rfl, .rfl, .rfl, hpre3 c, hpost3 c, .rfl, .rfl, .rfl, .rfl, sep_mono .rfl (hE4 c)⟩)
    (hinit := ?_) (QY := fun c s => s.mem ((c.tc : Thread nD τ).loc main_v178) = V27 m outs c main_v178 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26) ∧ s.mem ((c.tc : Thread nD τ).loc main_arg27) = m ((c.tc : Thread nD τ).loc main_arg27) ∧ s.mem ((c.tc : Thread nD τ).loc main_arg28) = m ((c.tc : Thread nD τ).loc main_arg28) ∧ s.mem ((c.tc : Thread nD τ).loc main_arg29) = m ((c.tc : Thread nD τ).loc main_arg29) ∧ s.mem ((c.tc : Thread nD τ).loc main_arg30) = m ((c.tc : Thread nD τ).loc main_arg30) ∧ s.mem ((c.tc : Thread nD τ).loc main_arg31) = m ((c.tc : Thread nD τ).loc main_arg31) ∧ s.mem ((c.tc : Thread nD τ).loc main_arg32) = m ((c.tc : Thread nD τ).loc main_arg32) ∧ s.mem ((c.tc : Thread nD τ).loc main_arg33) = m ((c.tc : Thread nD τ).loc main_arg33) ∧ s.mem ((c.tc : Thread nD τ).loc main_arg34) = m ((c.tc : Thread nD τ).loc main_arg34) ∧ s.mem ((c.tc : Thread nD τ).loc main_arg35) = m ((c.tc : Thread nD τ).loc main_arg35) ∧ s.mem ((c.tc : Thread nD τ).loc main_arg36) = m ((c.tc : Thread nD τ).loc main_arg36) ∧ s.mem ((c.tc : Thread nD τ).loc main_arg37) = m ((c.tc : Thread nD τ).loc main_arg37) ∧ s.mem ((c.tc : Thread nD τ).loc main_arg38) = m ((c.tc : Thread nD τ).loc main_arg38) ∧ s.mem ((c.tc : Thread nD τ).loc main_arg39) = m ((c.tc : Thread nD τ).loc main_arg39))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V27 m outs c) s') $$ [Hh HSI]
    · isplitl [Hh] <;> iassumption
    icases Hr with ⟨%h, HSI⟩
    imodintro
    isplitr
    · ipureintro
      exact ⟨h (Proc.devRef .tc main_v178) (Finset.mem_filter.mpr ⟨StableHlo.devRef_mem_tcRefs main_v178, by decide⟩),
        (h (Proc.devRef .tc main_arg0) (Finset.mem_filter.mpr ⟨StableHlo.devRef_mem_tcRefs main_arg0, by decide⟩)).trans (V27_main_arg0 m outs c),
        (h (Proc.devRef .tc main_arg1) (Finset.mem_filter.mpr ⟨StableHlo.devRef_mem_tcRefs main_arg1, by decide⟩)).trans (V27_main_arg1 m outs c),
        (h (Proc.devRef .tc main_arg2) (Finset.mem_filter.mpr ⟨StableHlo.devRef_mem_tcRefs main_arg2, by decide⟩)).trans (V27_main_arg2 m outs c),
        (h (Proc.devRef .tc main_arg3) (Finset.mem_filter.mpr ⟨StableHlo.devRef_mem_tcRefs main_arg3, by decide⟩)).trans (V27_main_arg3 m outs c),
        (h (Proc.devRef .tc main_arg4) (Finset.mem_filter.mpr ⟨StableHlo.devRef_mem_tcRefs main_arg4, by decide⟩)).trans (V27_main_arg4 m outs c),
        (h (Proc.devRef .tc main_arg5) (Finset.mem_filter.mpr ⟨StableHlo.devRef_mem_tcRefs main_arg5, by decide⟩)).trans (V27_main_arg5 m outs c),
        (h (Proc.devRef .tc main_arg6) (Finset.mem_filter.mpr ⟨StableHlo.devRef_mem_tcRefs main_arg6, by decide⟩)).trans (V27_main_arg6 m outs c),
        (h (Proc.devRef .tc main_arg7) (Finset.mem_filter.mpr ⟨StableHlo.devRef_mem_tcRefs main_arg7, by decide⟩)).trans (V27_main_arg7 m outs c),
        (h (Proc.devRef .tc main_arg8) (Finset.mem_filter.mpr ⟨StableHlo.devRef_mem_tcRefs main_arg8, by decide⟩)).trans (V27_main_arg8 m outs c),
        (h (Proc.devRef .tc main_arg9) (Finset.mem_filter.mpr ⟨StableHlo.devRef_mem_tcRefs main_arg9, by decide⟩)).trans (V27_main_arg9 m outs c),
        (h (Proc.devRef .tc main_arg10) (Finset.mem_filter.mpr ⟨StableHlo.devRef_mem_tcRefs main_arg10, by decide⟩)).trans (V27_main_arg10 m outs c),
        (h (Proc.devRef .tc main_arg11) (Finset.mem_filter.mpr ⟨StableHlo.devRef_mem_tcRefs main_arg11, by decide⟩)).trans (V27_main_arg11 m outs c),
        (h (Proc.devRef .tc main_arg12) (Finset.mem_filter.mpr ⟨StableHlo.devRef_mem_tcRefs main_arg12, by decide⟩)).trans (V27_main_arg12 m outs c),
        (h (Proc.devRef .tc main_arg13) (Finset.mem_filter.mpr ⟨StableHlo.devRef_mem_tcRefs main_arg13, by decide⟩)).trans (V27_main_arg13 m outs c),
        (h (Proc.devRef .tc main_arg14) (Finset.mem_filter.mpr ⟨StableHlo.devRef_mem_tcRefs main_arg14, by decide⟩)).trans (V27_main_arg14 m outs c),
        (h (Proc.devRef .tc main_arg15) (Finset.mem_filter.mpr ⟨StableHlo.devRef_mem_tcRefs main_arg15, by decide⟩)).trans (V27_main_arg15 m outs c),
        (h (Proc.devRef .tc main_arg16) (Finset.mem_filter.mpr ⟨StableHlo.devRef_mem_tcRefs main_arg16, by decide⟩)).trans (V27_main_arg16 m outs c),
        (h (Proc.devRef .tc main_arg17) (Finset.mem_filter.mpr ⟨StableHlo.devRef_mem_tcRefs main_arg17, by decide⟩)).trans (V27_main_arg17 m outs c),
        (h (Proc.devRef .tc main_arg18) (Finset.mem_filter.mpr ⟨StableHlo.devRef_mem_tcRefs main_arg18, by decide⟩)).trans (V27_main_arg18 m outs c),
        (h (Proc.devRef .tc main_arg19) (Finset.mem_filter.mpr ⟨StableHlo.devRef_mem_tcRefs main_arg19, by decide⟩)).trans (V27_main_arg19 m outs c),
        (h (Proc.devRef .tc main_arg20) (Finset.mem_filter.mpr ⟨StableHlo.devRef_mem_tcRefs main_arg20, by decide⟩)).trans (V27_main_arg20 m outs c),
        (h (Proc.devRef .tc main_arg21) (Finset.mem_filter.mpr ⟨StableHlo.devRef_mem_tcRefs main_arg21, by decide⟩)).trans (V27_main_arg21 m outs c),
        (h (Proc.devRef .tc main_arg22) (Finset.mem_filter.mpr ⟨StableHlo.devRef_mem_tcRefs main_arg22, by decide⟩)).trans (V27_main_arg22 m outs c),
        (h (Proc.devRef .tc main_arg23) (Finset.mem_filter.mpr ⟨StableHlo.devRef_mem_tcRefs main_arg23, by decide⟩)).trans (V27_main_arg23 m outs c),
        (h (Proc.devRef .tc main_arg24) (Finset.mem_filter.mpr ⟨StableHlo.devRef_mem_tcRefs main_arg24, by decide⟩)).trans (V27_main_arg24 m outs c),
        (h (Proc.devRef .tc main_arg25) (Finset.mem_filter.mpr ⟨StableHlo.devRef_mem_tcRefs main_arg25, by decide⟩)).trans (V27_main_arg25 m outs c),
        (h (Proc.devRef .tc main_arg26) (Finset.mem_filter.mpr ⟨StableHlo.devRef_mem_tcRefs main_arg26, by decide⟩)).trans (V27_main_arg26 m outs c),
        (h (Proc.devRef .tc main_arg27) (Finset.mem_filter.mpr ⟨StableHlo.devRef_mem_tcRefs main_arg27, by decide⟩)).trans (V27_main_arg27 m outs c),
        (h (Proc.devRef .tc main_arg28) (Finset.mem_filter.mpr ⟨StableHlo.devRef_mem_tcRefs main_arg28, by decide⟩)).trans (V27_main_arg28 m outs c),
        (h (Proc.devRef .tc main_arg29) (Finset.mem_filter.mpr ⟨StableHlo.devRef_mem_tcRefs main_arg29, by decide⟩)).trans (V27_main_arg29 m outs c),
        (h (Proc.devRef .tc main_arg30) (Finset.mem_filter.mpr ⟨StableHlo.devRef_mem_tcRefs main_arg30, by decide⟩)).trans (V27_main_arg30 m outs c),
        (h (Proc.devRef .tc main_arg31) (Finset.mem_filter.mpr ⟨StableHlo.devRef_mem_tcRefs main_arg31, by decide⟩)).trans (V27_main_arg31 m outs c),
        (h (Proc.devRef .tc main_arg32) (Finset.mem_filter.mpr ⟨StableHlo.devRef_mem_tcRefs main_arg32, by decide⟩)).trans (V27_main_arg32 m outs c),
        (h (Proc.devRef .tc main_arg33) (Finset.mem_filter.mpr ⟨StableHlo.devRef_mem_tcRefs main_arg33, by decide⟩)).trans (V27_main_arg33 m outs c),
        (h (Proc.devRef .tc main_arg34) (Finset.mem_filter.mpr ⟨StableHlo.devRef_mem_tcRefs main_arg34, by decide⟩)).trans (V27_main_arg34 m outs c),
        (h (Proc.devRef .tc main_arg35) (Finset.mem_filter.mpr ⟨StableHlo.devRef_mem_tcRefs main_arg35, by decide⟩)).trans (V27_main_arg35 m outs c),
        (h (Proc.devRef .tc main_arg36) (Finset.mem_filter.mpr ⟨StableHlo.devRef_mem_tcRefs main_arg36, by decide⟩)).trans (V27_main_arg36 m outs c),
        (h (Proc.devRef .tc main_arg37) (Finset.mem_filter.mpr ⟨StableHlo.devRef_mem_tcRefs main_arg37, by decide⟩)).trans (V27_main_arg37 m outs c),
        (h (Proc.devRef .tc main_arg38) (Finset.mem_filter.mpr ⟨StableHlo.devRef_mem_tcRefs main_arg38, by decide⟩)).trans (V27_main_arg38 m outs c),
        (h (Proc.devRef .tc main_arg39) (Finset.mem_filter.mpr ⟨StableHlo.devRef_mem_tcRefs main_arg39, by decide⟩)).trans (V27_main_arg39 m outs c)⟩
    · iexact HSI

end Cert.KernelIdeal.ValueRun

end
-- ==== Proof.KFunding.lean ====
import proofs.«402598_j31782757990676_2_alg».proof.Proof.Gen.KernelIdeal.Launch
import proofs.«402598_j31782757990676_2_alg».proof.Proof.Gen.KernelIdeal.Regions
import Idealize.ShloMosaic.Lib.Pipeline.Kit
import Idealize.ShloMosaic.Lib.Pipeline.Regions

set_option maxRecDepth 2036

noncomputable section

namespace Cert.KernelIdeal.KFunding

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

abbrev EP : Emb (URounds (GSem nD τ sig) Unit) 𝕄 := emb₁

instance EP_landsIn : (EP (F := F)).LandsIn (upEmb : UEmb _ 𝕄) := emb₁_landsIn

abbrev L : GSem nD τ sig → Finset Unit := fun _ => ∅

abbrev lv : GSem nD τ sig → Unit → ℕ := fun _ _ => 0

theorem hL : ∀ g : GSem nD τ sig, g.1.2 ≠ .tc → L g = ∅ := fun _ _ => rfl

abbrev O₀ : Dev nD → CellTallies nD τ sig Unit := 0

abbrev G : Dev nD → sProp 𝕄 := fun _ => iprop(emp)

abbrev u₀ : UR sig nD τ := initOf (Pipeline.cells cfgs cellOf_inj) (Pipeline.launchToks cfgs cellOf_inj)

abbrev Rst (c : Dev nD) : sProp 𝕄 := iprop((∃ r, prngReg c r) ∗ ∃ W, owes (c : Thread nD τ) (0 : CellTallies nD τ sig Unit) W)

abbrev E : Fin 5 → Dev nD → sProp 𝕄 := fun _ c => Rst c

theorem hu₀ : (ownU u₀ : sProp 𝕄)
    ⊢ |={Set.univ}=> iprop(BI.own (EP (F := F) (initOf (Pipeline.cells cfgs cellOf_inj) (Pipeline.launchToks cfgs cellOf_inj)))
        ∗ bigSep Finset.univ (G (F := F))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) (O₀ c) ∅
        ∗ Pipeline.launchCred O₀ c ∗ prngReg c (ρ c) ∗ G (F := F) c)) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE4 : ∀ c : Dev nD, E (F := F) 4 c ⊢ (iprop(∃ W, owes (c : Thread nD τ) (0 : CellTallies nD τ sig Unit) W) : sProp 𝕄) := by
  intro c
  iintro ⟨-, HO⟩
  iexact HO

theorem E_eq (k : Fin 5) (c : Dev nD) :
    E (F := F) k c = iprop((∃ r, prngReg c r) ∗ ∃ W, owes (c : Thread nD τ) (0 : CellTallies nD τ sig Unit) W) := rfl

example (m : (ℓ : Loc nD τ sig) → Buf (Elt F) ℓ) (ρ : Dev nD → PrngReg) (outs : Outs (F := F))
    (pdats : (p : Fin 4) → (c : Dev nD) → Dat τ (Elt F) Unit ℕ (UR sig nD τ) ℕ (cfgs p) c)
    (R0 : RegionSeg (pcfgs (F := F)) adm pdats () defs₀ Variants.none L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats () defs₀ Variants.none L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats () defs₀ Variants.none L lv 2)
    (hpre2 : ∀ c : Dev nD, iprop(StableHlo.held (c : Thread nD τ) (Pipeline.ucRefs τ sig) (V15 m outs c) ∗ E 2 c) ⊢ R2.pre c)
    (hpost2 : ∀ c : Dev nD, R2.post c ⊢ iprop(StableHlo.held (c : Thread nD τ) (Pipeline.ucRefs τ sig) (V16 m outs c) ∗ E 3 c))
    (R3 : RegionSeg (pcfgs (F := F)) adm pdats () defs₀ Variants.none L lv 3)
    (hpre3 : ∀ c : Dev nD, iprop(StableHlo.held (c : Thread nD τ) (Pipeline.ucRefs τ sig) (V21 m outs c) ∗ E 3 c) ⊢ R3.pre c)
    (hpost3 : ∀ c : Dev nD, R3.post c ⊢ iprop(StableHlo.held (c : Thread nD τ) (Pipeline.ucRefs τ sig) (V22 m outs c) ∗ E 4 c)) :
    True := by
  have h := Gen.frame_cond m (EP (F := F)) () Variants.none L lv hL ρ outs pdats O₀ G u₀ hu₀ E (hE0 ρ) hE4
    R0 hpre0 hpost0 R1 hpre1 hpost1 R2 hpre2 hpost2 R3 hpre3 hpost3
  trivial

end Cert.KernelIdeal.KFunding

end
-- ==== Proof.Region0.lean ====
import proofs.«402598_j31782757990676_2_alg».proof.Proof.Gen.KernelIdeal.Launch
import proofs.«402598_j31782757990676_2_alg».proof.Proof.Gen.KernelIdeal.Skeleton
import proofs.«402598_j31782757990676_2_alg».proof.Proof.Gen.KernelIdeal.Points
import proofs.«402598_j31782757990676_2_alg».proof.Proof.Gen.KernelIdeal.Regions
import Idealize.ShloMosaic.Lib.Pipeline.FrameBody
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

abbrev rs0 : Rect S8192x6 := Rect.unit (s := S8192x6) ![0, 0] S8192x2.size inb_S8192x6_S8192x2_0_0
abbrev rs2 : Rect S8192x6 := Rect.unit (s := S8192x6) ![0, 2] S8192x2.size inb_S8192x6_S8192x2_0_2
abbrev rs4 : Rect S8192x6 := Rect.unit (s := S8192x6) ![0, 4] S8192x2.size inb_S8192x6_S8192x2_0_4
abbrev rsW : Rect S8192x6 := Rect.unit (s := S8192x6) ![0, 0] S8192x6.size inb_S8192x6_S8192x6_0_0
abbrev rx : Rect S8192x2 := Rect.unit (s := S8192x2) ![0, 0] S8192x2.size inb_S8192x2_S8192x2_0_0
abbrev rp : Rect S8192x2 := Rect.unit (s := S8192x2) ![0, 0] S8192x2.size inb_S8192x2_S8192x2_0_0
abbrev rg : Rect S6x32 := Rect.unit (s := S6x32) ![0, 0] S6x32.size inb_S6x32_S6x32_0_0
abbrev rm : Rect S3x2 := Rect.unit (s := S3x2) ![0, 0] S3x2.size inb_S3x2_S3x2_0_0
abbrev ro : Rect S8192x32 := Rect.unit (s := S8192x32) ![0, 0] S8192x32.size inb_S8192x32_S8192x32_0_0

def scr0 (xs : Vec F S8192x2 .bf16) (ps : Vec F S8192x2 .f32) (mu sg : Vec F S3x2 .f32) : Vec F S8192x6 .bf16 :=
  View.canon [⟨rs4, k0_pay6 (View.ld ps rp) (k0_pay1 (View.ld xs rx)) (View.ld mu rm) (View.ld sg rm)⟩,
    ⟨rs2, k0_pay5 (k0_pay1 (View.ld xs rx)) (k0_pay3 (View.ld ps rp) (View.ld mu rm)) (k0_pay4 (View.ld sg rm))⟩,
    ⟨rs0, k0_pay2 (View.ld ps rp) (View.ld xs rx) (View.ld mu rm) (View.ld sg rm)⟩]

def out0 (xs : Vec F S8192x2 .bf16) (ps : Vec F S8192x2 .f32) (g : Vec F S6x32 .bf16) (mu sg : Vec F S3x2 .f32) : Vec F S8192x32 .f32 :=
  View.canon [⟨ro, k0_pay7 (View.ld (scr0 xs ps mu sg) rsW) (View.ld g rg)⟩]

theorem cover_scr (p4 p2 p0 : Vec F S8192x2 .bf16) (y : S8192x6.Idx) :
    ∃ pc ∈ ([⟨rs4, p4⟩, ⟨rs2, p2⟩, ⟨rs0, p0⟩] : List (View.Piece (Elt F) S8192x6 .bf16)), y ∈ pc.1.set :=
  View.cover_of_tiledL [⟨rs4, p4⟩, ⟨rs2, p2⟩, ⟨rs0, p0⟩] S8192x2.size (by rfl) y

theorem cover_out (p : Vec F S8192x32 .f32) (y : S8192x32.Idx) :
    ∃ pc ∈ ([⟨ro, p⟩] : List (View.Piece (Elt F) S8192x32 .f32)), y ∈ pc.1.set :=
  View.cover_of_tiledL [⟨ro, p⟩] S8192x32.size (by rfl) y

theorem scratch_to_owns (c : Dev nD) (f : Buf (Elt F) ((c : Thread nD τ).loc cc0_scratch0)) :
    ((((c : Thread nD τ).loc cc0_scratch0) ↦{fullShare} f : sProp 𝕄))
      ⊢ owns (c : Thread nD τ) (Memref.whole cc0_scratch0) fullShare f :=
  Entails.of_eq (owns_whole _ _ _ _).symm
theorem owns_to_scratch (c : Dev nD) (f : Buf (Elt F) ((c : Thread nD τ).loc cc0_scratch0)) :
    (owns (c : Thread nD τ) (Memref.whole cc0_scratch0) fullShare f : sProp 𝕄)
      ⊢ (((c : Thread nD τ).loc cc0_scratch0) ↦{fullShare} f) :=
  Entails.of_eq (owns_whole _ _ _ _)

set_option maxHeartbeats 1000000 in

theorem sound_kernel0 (c : Dev nD) (E : Set ℕ) (i : grid0.Coords)
    (arg1 : Memref sig .tc .vmem S8192x2 .bf16) (harg1 : arg1.IsWhole) (arg2 : Memref sig .tc .vmem S8192x2 .f32) (harg2 : arg2.IsWhole)
    (arg3 : Memref sig .tc .vmem S6x32 .bf16) (harg3 : arg3.IsWhole) (arg4 : Memref sig .tc .vmem S3x2 .f32) (harg4 : arg4.IsWhole)
    (arg5 : Memref sig .tc .vmem S3x2 .f32) (harg5 : arg5.IsWhole) (arg6 : Memref sig .tc .vmem S8192x32 .f32) (harg6 : arg6.IsWhole)
    (arg7 : Memref sig .tc .vmem S8192x6 .bf16) (harg7 : arg7.IsWhole)
    (xs : Vec F S8192x2 .bf16) (ps : Vec F S8192x2 .f32) (g : Vec F S6x32 .bf16) (mu sg : Vec F S3x2 .f32) (K : PUnit → sProp 𝕄) :
    iprop(owns (c : Thread nD τ) arg1 fullShare xs ∗ owns (c : Thread nD τ) arg2 fullShare ps ∗ owns (c : Thread nD τ) arg3 fullShare g
        ∗ owns (c : Thread nD τ) arg4 fullShare mu ∗ owns (c : Thread nD τ) arg5 fullShare sg
        ∗ (∃ d, owns (c : Thread nD τ) arg6 fullShare d) ∗ (∃ d, owns (c : Thread nD τ) arg7 fullShare d)
        ∗ (iprop(owns (c : Thread nD τ) arg1 fullShare xs ∗ owns (c : Thread nD τ) arg2 fullShare ps ∗ owns (c : Thread nD τ) arg3 fullShare g
            ∗ owns (c : Thread nD τ) arg4 fullShare mu ∗ owns (c : Thread nD τ) arg5 fullShare sg
            ∗ owns (c : Thread nD τ) arg6 fullShare (out0 xs ps g mu sg) ∗ owns (c : Thread nD τ) arg7 fullShare (scr0 xs ps mu sg)) -∗ K ⟨⟩))
      ⊢ wp frame (wpE (defs₀ (F := F)) Variants.none c none) E
          (cc0__gmm_edge_kernel i arg1 harg1 arg2 harg2 arg3 harg3 arg4 harg4 arg5 harg5 arg6 harg6 arg7 harg7) K := by
  sl_unfold [cc0__gmm_edge_kernel, k0_part1, k0_part2]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro

    have hs : View.ld (scr0 (View.read (Elt F) arg1.view f1) (View.read (Elt F) arg2.view f2)
          (View.read (Elt F) arg4.view f4) (View.read (Elt F) arg5.view f5)) rsW
        = arg7.view.readCov _ rsW := (View.readCov_eq_canon_ld arg7.view _ rsW (cover_scr _ _ _)).symm
    unfold out0
    rw [hs]
    exact View.read_writes_eq_canon _ _ _ (cover_out _)
  iexists _; isplitr
  swap; · iexact H7
  ipureintro
  exact View.read_writes_eq_canon _ _ _ (cover_scr _ _ _)

section AtV

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def oblk0 (c : Dev nD) (t : Fin cfg0.N) : Vec F S8192x32 .f32 :=
  out0 (iblk0 V c 0 t) (iblk0 V c 1 t) (iblk0 V c 2 t) (iblk0 V c 3 t) (iblk0 V c 4 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => oblk0 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = oblk0 V c t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [show (dat0 V c).Φ t.castSucc = Pipeline.ΦA spec0 c from rfl]
  unfold Pipeline.ΦA
  rw [scopedRest0_split]
  iintro ⟨⟨⟨⟨%fs, Hs⟩, Hrest⟩, Hp⟩, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hs]; · iexists fs; iapply scratch_to_owns; iexact Hs
  iintro ⟨H0, H1, H2, H3, H4, H5, H7⟩
  isplitl [H7 Hrest Hp]
  · isplitl [H7 Hrest]
    · isplitl [H7]
      · iexists _; iapply owns_to_scratch; iexact H7
      iexact Hrest
    iexact Hp
  isplitl [Ho]; · iexact Ho
  isplitl [H0]; · iexact H0
  isplitl [H1]; · iexact H1
  isplitl [H2]; · iexact H2
  isplitl [H3]; · iexact H3
  isplitl [H4]; · iexact H4
  unfold oblk0; iexact H5

theorem body_obligation0 (c : Dev nD) : BodyObligation (dat0 (F := F) V c) (defs₀ (F := F)) Variants.none () Set.univ := fun t => by
  rw [bigSep_W0, bigSep_W0]
  exact sound_body0 V c t

def outArr0 (c : Dev nD) : Buf (Elt F) ((c : Thread nD τ).loc main_v11) := (dat0 V c).arrAt 5 cfg0.N

end AtV

abbrev Rst (c : Dev nD) : sProp 𝕄 := iprop((∃ r, prngReg c r) ∗ ∃ W, owes (c : Thread nD τ) (0 : CellTallies nD τ sig Unit) W)

set_option backward.isDefEq.respectTransparency.types false in

def R0 (L : GSem nD τ sig → Finset Unit) (lv : GSem nD τ sig → Unit → ℕ)
    (W Wp : Dev nD → Valuation τ sig (Elt F))
    (pdats : (p : Fin 4) → (c : Dev nD) → Dat τ (Elt F) Unit ℕ (UR sig nD τ) ℕ (cfgs p) c)
    (hp : ∀ c, pdats 0 c = dat0 (fun c b => W c b) c)
    (hout : ∀ c, Wp c main_v11 = outArr0 (fun c b => W c b) c)
    (hne : ∀ c (b : Ref sig .tc), b ≠ main_v11 → Wp c b = W c b) :
    RegionSeg (pcfgs (F := F)) adm pdats () defs₀ Variants.none L lv 0 where
  win := launch0.win.to₀
  block_pos := launch0.block_pos
  stage_whole := launch0.stage_whole
  K := PEmpty
  osem k := k.elim
  ho := Pipeline.OwnSemFacts.none _
  hbody c := by rw [hp c]; exact (body_obligation0 (fun c b => W c b) c).loose
  hwaits := Pipeline.hwaits_of_owed_zero _ _ _ _ L lv 0 fun c t => by rw [hp c]; rfl
  pre c := iprop(StableHlo.held (c : Thread nD τ) (Pipeline.ucRefs τ sig) (W c) ∗ Rst c)
  post c := iprop(StableHlo.held (c : Thread nD τ) (Pipeline.ucRefs τ sig) (Wp c) ∗ Rst c)
  X c := iprop(∃ r, prngReg c r)
  Y c := iprop(∃ r, prngReg c r)
  Z c := Pipeline.unscopedRest (Ix := Unit) (Name := ℕ) (U := UR sig nD τ) (Lvl := ℕ) spec0 c (fun b => W c b)
  hentry c := by
    rw [Pipeline.ownSems0_none]
    have hsplit := Pipeline.arrays_of_unscopedBufs (p := 0) (pcfgs (F := F)) adm pdats launch0.win launch0.arr_whole c
      ((pdats 0 c).share_full fun _ => by rw [hp c]; rfl) (fun b => W c b) fun _ => by rw [hp c]; rfl
    rw [Pipeline.unscopedBufs_held c (W c), hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitl [Hp]; · iexact Hp
    iexact Hrest
  hin c := by
    rw [hp c, show (dat0 (fun c b => W c b) c).Φ 0 = Pipeline.ΦA spec0 c from rfl]; unfold Pipeline.ΦA
    iintro ⟨Hp, -, Hr⟩
    isplitl [Hr]; · iexact Hr
    iexact Hp
  hout c := by
    rw [Pipeline.ownSems0_none, hp c, show (dat0 (fun c b => W c b) c).Φ (Fin.last (Pipeline.pin (pcfgs (F := F)) adm 0).N) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c pdats ((pdats 0 c).share_full fun _ => by rw [hp c]; rfl)
      (fun b => W c b) (fun b => Wp c b) ((pdats 0 c).arrAt · cfg0.N)
      (fun w => by
        rw [hp c]
        fin_cases w
        · exact (((dat0 (fun c b => W c b) c).arrAt_in 0 rfl _).trans (A_eq0 _ c 0)).trans (hne c _ (by decide)).symm
        · exact (((dat0 (fun c b => W c b) c).arrAt_in 1 rfl _).trans (A_eq0 _ c 1)).trans (hne c _ (by decide)).symm
        · exact (((dat0 (fun c b => W c b) c).arrAt_in 2 rfl _).trans (A_eq0 _ c 2)).trans (hne c _ (by decide)).symm
        · exact (((dat0 (fun c b => W c b) c).arrAt_in 3 rfl _).trans (A_eq0 _ c 3)).trans (hne c _ (by decide)).symm
        · exact (((dat0 (fun c b => W c b) c).arrAt_in 4 rfl _).trans (A_eq0 _ c 4)).trans (hne c _ (by decide)).symm
        · exact (hout c).symm)
      (fun b hb => hne c b fun h => hb (h ▸ Finset.mem_image.mpr ⟨5, Finset.mem_univ _, rfl⟩))
    rw [Pipeline.unscopedBufs_held c (Wp c), hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, -, HO⟩; iexists Wt; iexact HO

variable (m : (ℓ : Loc nD τ sig) → Buf (Elt F) ℓ) (outs : Outs (F := F))

abbrev V3' : (c : Dev nD) → (b : Ref sig .tc) → Buf (Elt F) ((c : Thread nD τ).loc b) := fun c b => V3 m c b

def R0m (L : GSem nD τ sig → Finset Unit) (lv : GSem nD τ sig → Unit → ℕ)
    (pdats : (p : Fin 4) → (c : Dev nD) → Dat τ (Elt F) Unit ℕ (UR sig nD τ) ℕ (cfgs p) c)
    (hp : ∀ c, pdats 0 c = dat0 (V3' m) c)
    (houts : ∀ c, outs 4 main_v11 c = outArr0 (V3' m) c) :
    RegionSeg (pcfgs (F := F)) adm pdats () defs₀ Variants.none L lv 0 :=
  R0 L lv (V3 m) (V4 m outs) pdats hp
    (fun c => (Function.update_self _ _ _).trans (houts c))
    (fun c b hb => Function.update_of_ne (StableHlo.devRef_ne_of_ne hb) _ _)

theorem hpre0 (L : GSem nD τ sig → Finset Unit) (lv : GSem nD τ sig → Unit → ℕ)
    (pdats : (p : Fin 4) → (c : Dev nD) → Dat τ (Elt F) Unit ℕ (UR sig nD τ) ℕ (cfgs p) c)
    (hp : ∀ c, pdats 0 c = dat0 (V3' m) c) (houts : ∀ c, outs 4 main_v11 c = outArr0 (V3' m) c)
    (E : Fin 5 → Dev nD → sProp 𝕄) (hE : ∀ c, E 0 c ⊢ Rst c) (c : Dev nD) :
    iprop(StableHlo.held (c : Thread nD τ) (Pipeline.ucRefs τ sig) (V3 m c) ∗ E 0 c) ⊢ (R0m m outs L lv pdats hp houts).pre c :=
  sep_mono .rfl (hE c)

theorem hpost0 (L : GSem nD τ sig → Finset Unit) (lv : GSem nD τ sig → Unit → ℕ)
    (pdats : (p : Fin 4) → (c : Dev nD) → Dat τ (Elt F) Unit ℕ (UR sig nD τ) ℕ (cfgs p) c)
    (hp : ∀ c, pdats 0 c = dat0 (V3' m) c) (houts : ∀ c, outs 4 main_v11 c = outArr0 (V3' m) c)
    (E : Fin 5 → Dev nD → sProp 𝕄) (hE : ∀ c, Rst c ⊢ E 1 c) (c : Dev nD) :
    (R0m m outs L lv pdats hp houts).post c ⊢ iprop(StableHlo.held (c : Thread nD τ) (Pipeline.ucRefs τ sig) (V4 m outs c) ∗ E 1 c) :=
  sep_mono .rfl (hE c)

end Cert.KernelIdeal.Region0

end
-- ==== Proof.Region1.lean ====
/-
  REGION 1 of @main: the second mixture layer's edge kernel, a pipeline of 30 grid points over six windows.
  At each point the body reads a block of 8192 edges (their gathered source features, 32 bf16 channels, and their
  pseudo-coordinates, 2 f32 channels) beside the whole tables of the layer: the restacked projection (96 x 64,
  bf16), the mixture centres and the mixture widths (3 x 2 each, f32). For each of the three mixture components it
  weights the features by the component's Gaussian weight and writes the weighted features into the component's band
  of lanes of a scratch of 8192 x 96 (lanes 0-31, 32-63, 64-95); the three column stores tile the scratch, so what the body then
  loads from it is a function of the point's input blocks alone, whatever the scratch held before. One
  contraction of the scratch against the projection table gives the point's output block, 8192 x 64, stored whole.
  Nothing is carried from one point to the next.

  This module states, at ANY contents V of the core's buffers when the region is entered:
    * the output block as a pure function of the five input blocks (out1), through the scratch's contents (scr1);
    * the body's triple on whole staging buffers (sound_kernel1);
    * the pipeline's proof data (dat1) and the body obligation at every point (body_obligation1);
    * the region as a segment of @main between two valuations of the unscoped buffers (R1), and that segment
      between the thread states the conditional frame names (R1m, hpre1, hpost1).
-/
import proofs.«402598_j31782757990676_2_alg».proof.Proof.Gen.KernelIdeal.Launch
import proofs.«402598_j31782757990676_2_alg».proof.Proof.Gen.KernelIdeal.Skeleton
import proofs.«402598_j31782757990676_2_alg».proof.Proof.Gen.KernelIdeal.Points
import proofs.«402598_j31782757990676_2_alg».proof.Proof.Gen.KernelIdeal.Regions
import Idealize.ShloMosaic.Lib.Pipeline.FrameBody
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

/-! ## The body's accesses -/

/-- The scratch's three column pairs, and the whole of each buffer the body loads or stores whole. -/
abbrev rs0 : Rect S8192x96 := Rect.unit (s := S8192x96) ![0, 0] S8192x32.size inb_S8192x96_S8192x32_0_0
abbrev rs32 : Rect S8192x96 := Rect.unit (s := S8192x96) ![0, 32] S8192x32.size inb_S8192x96_S8192x32_0_32
abbrev rs64 : Rect S8192x96 := Rect.unit (s := S8192x96) ![0, 64] S8192x32.size inb_S8192x96_S8192x32_0_64
abbrev rsW : Rect S8192x96 := Rect.unit (s := S8192x96) ![0, 0] S8192x96.size inb_S8192x96_S8192x96_0_0
abbrev rx : Rect S8192x32 := Rect.unit (s := S8192x32) ![0, 0] S8192x32.size inb_S8192x32_S8192x32_0_0
abbrev rp : Rect S8192x2 := Rect.unit (s := S8192x2) ![0, 0] S8192x2.size inb_S8192x2_S8192x2_0_0
abbrev rg : Rect S96x64 := Rect.unit (s := S96x64) ![0, 0] S96x64.size inb_S96x64_S96x64_0_0
abbrev rm : Rect S3x2 := Rect.unit (s := S3x2) ![0, 0] S3x2.size inb_S3x2_S3x2_0_0
abbrev ro : Rect S8192x64 := Rect.unit (s := S8192x64) ![0, 0] S8192x64.size inb_S8192x64_S8192x64_0_0

/-! ## What the body leaves, as functions of the input blocks -/

/-- The scratch after the three column stores (last first): component 2's weighted features in lanes 64-95,
    component 1's in lanes 32-63, component 0's in lanes 0-31. xs is the features' block, ps the pseudo-coordinates',
    mu and sg the centres and widths. -/
def scr1 (xs : Vec F S8192x32 .bf16) (ps : Vec F S8192x2 .f32) (mu sg : Vec F S3x2 .f32) : Vec F S8192x96 .bf16 :=
  View.canon [⟨rs64, k1_pay6 (View.ld ps rp) (k1_pay1 (View.ld xs rx)) (View.ld mu rm) (View.ld sg rm)⟩,
    ⟨rs32, k1_pay5 (k1_pay1 (View.ld xs rx)) (k1_pay3 (View.ld ps rp) (View.ld mu rm)) (k1_pay4 (View.ld sg rm))⟩,
    ⟨rs0, k1_pay2 (View.ld ps rp) (View.ld xs rx) (View.ld mu rm) (View.ld sg rm)⟩]

/-- THE OUTPUT BLOCK at a point, from the five input blocks: the scratch contracted against the projection table g. -/
def out1 (xs : Vec F S8192x32 .bf16) (ps : Vec F S8192x2 .f32) (g : Vec F S96x64 .bf16) (mu sg : Vec F S3x2 .f32) : Vec F S8192x64 .f32 :=
  View.canon [⟨ro, k1_pay7 (View.ld (scr1 xs ps mu sg) rsW) (View.ld g rg)⟩]

/-- The three column stores tile the scratch in blocks of 8192 x 32 (decided on the offsets), so they cover it. -/
theorem cover_scr (p64 p32 p0 : Vec F S8192x32 .bf16) (y : S8192x96.Idx) :
    ∃ pc ∈ ([⟨rs64, p64⟩, ⟨rs32, p32⟩, ⟨rs0, p0⟩] : List (View.Piece (Elt F) S8192x96 .bf16)), y ∈ pc.1.set :=
  View.cover_of_tiledL [⟨rs64, p64⟩, ⟨rs32, p32⟩, ⟨rs0, p0⟩] S8192x32.size (by rfl) y

/-- The one store of the output block is through the whole of it. -/
theorem cover_out (p : Vec F S8192x64 .f32) (y : S8192x64.Idx) :
    ∃ pc ∈ ([⟨ro, p⟩] : List (View.Piece (Elt F) S8192x64 .f32)), y ∈ pc.1.set :=
  View.cover_of_tiledL [⟨ro, p⟩] S8192x64.size (by rfl) y

/-- The scratch buffer held whole is the scratch memref owned at its contents, and back. -/
theorem scratch_to_owns (c : Dev nD) (f : Buf (Elt F) ((c : Thread nD τ).loc cc1_scratch0)) :
    ((((c : Thread nD τ).loc cc1_scratch0) ↦{fullShare} f : sProp 𝕄))
      ⊢ owns (c : Thread nD τ) (Memref.whole cc1_scratch0) fullShare f :=
  Entails.of_eq (owns_whole _ _ _ _).symm
theorem owns_to_scratch (c : Dev nD) (f : Buf (Elt F) ((c : Thread nD τ).loc cc1_scratch0)) :
    (owns (c : Thread nD τ) (Memref.whole cc1_scratch0) fullShare f : sProp 𝕄)
      ⊢ (((c : Thread nD τ).loc cc1_scratch0) ↦{fullShare} f) :=
  Entails.of_eq (owns_whole _ _ _ _)

/-! ## The body's triple -/

set_option maxHeartbeats 1000000 in
/-- The kernel body on whole staging memrefs (the five inputs' at read contents, the output's and the scratch at
    anything) runs to the continuation holding the inputs' as they were, the output's at out1 of them and the
    scratch at scr1 of them. -/
theorem sound_kernel1 (c : Dev nD) (E : Set ℕ) (i : grid1.Coords)
    (arg1 : Memref sig .tc .vmem S8192x32 .bf16) (harg1 : arg1.IsWhole) (arg2 : Memref sig .tc .vmem S8192x2 .f32) (harg2 : arg2.IsWhole)
    (arg3 : Memref sig .tc .vmem S96x64 .bf16) (harg3 : arg3.IsWhole) (arg4 : Memref sig .tc .vmem S3x2 .f32) (harg4 : arg4.IsWhole)
    (arg5 : Memref sig .tc .vmem S3x2 .f32) (harg5 : arg5.IsWhole) (arg6 : Memref sig .tc .vmem S8192x64 .f32) (harg6 : arg6.IsWhole)
    (arg7 : Memref sig .tc .vmem S8192x96 .bf16) (harg7 : arg7.IsWhole)
    (xs : Vec F S8192x32 .bf16) (ps : Vec F S8192x2 .f32) (g : Vec F S96x64 .bf16) (mu sg : Vec F S3x2 .f32) (K : PUnit → sProp 𝕄) :
    iprop(owns (c : Thread nD τ) arg1 fullShare xs ∗ owns (c : Thread nD τ) arg2 fullShare ps ∗ owns (c : Thread nD τ) arg3 fullShare g
        ∗ owns (c : Thread nD τ) arg4 fullShare mu ∗ owns (c : Thread nD τ) arg5 fullShare sg
        ∗ (∃ d, owns (c : Thread nD τ) arg6 fullShare d) ∗ (∃ d, owns (c : Thread nD τ) arg7 fullShare d)
        ∗ (iprop(owns (c : Thread nD τ) arg1 fullShare xs ∗ owns (c : Thread nD τ) arg2 fullShare ps ∗ owns (c : Thread nD τ) arg3 fullShare g
            ∗ owns (c : Thread nD τ) arg4 fullShare mu ∗ owns (c : Thread nD τ) arg5 fullShare sg
            ∗ owns (c : Thread nD τ) arg6 fullShare (out1 xs ps g mu sg) ∗ owns (c : Thread nD τ) arg7 fullShare (scr1 xs ps mu sg)) -∗ K ⟨⟩))
      ⊢ wp frame (wpE (defs₀ (F := F)) Variants.none c none) E
          (cc1__gmm_edge_kernel i arg1 harg1 arg2 harg2 arg3 harg3 arg4 harg4 arg5 harg5 arg6 harg6 arg7 harg7) K := by
  sl_unfold [cc1__gmm_edge_kernel, k1_part1, k1_part2]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    -- the scratch, loaded whole after the three stores that tile it, reads as scr1 of the blocks
    have hs : View.ld (scr1 (View.read (Elt F) arg1.view f1) (View.read (Elt F) arg2.view f2)
          (View.read (Elt F) arg4.view f4) (View.read (Elt F) arg5.view f5)) rsW
        = arg7.view.readCov _ rsW := (View.readCov_eq_canon_ld arg7.view _ rsW (cover_scr _ _ _)).symm
    unfold out1
    rw [hs]
    exact View.read_writes_eq_canon _ _ _ (cover_out _)
  iexists _; isplitr
  swap; · iexact H7
  ipureintro
  exact View.read_writes_eq_canon _ _ _ (cover_scr _ _ _)

/-! ## The proof data, at the contents the region is entered from -/

section AtV

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output block the body leaves at point t. -/
def oblk1 (c : Dev nD) (t : Fin cfg1.N) : Vec F S8192x64 .f32 :=
  out1 (iblk1 V c 0 t) (iblk1 V c 1 t) (iblk1 V c 2 t) (iblk1 V c 3 t) (iblk1 V c 4 t)

/-- The proof data of pipeline 1 on core c: the arrays as the region finds them; after the body at point t each
    input's buffer at its block and the output's at out1 of the input blocks; the invariant the scoped buffers no
    window stages (the scratch among them, at anything) and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => oblk1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window (the proof data's match reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = oblk1 V c t := by dsimp only [dat1]

/-- Each input's current staging buffer holds its block at every point, fetched there or not: a window not fetched at
    a point has not moved its block index since the point before, and the body left the block in place there. The
    windows are uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation, at a generic point -/

/-- What the body is called with at point t (the library's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, the invariant hands the body its scratch (at
    anything) out of the scoped rest and takes it back (at anything), the generator register and the core's owes pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  rw [show (dat1 V c).Φ t.castSucc = Pipeline.ΦA spec1 c from rfl]
  unfold Pipeline.ΦA
  rw [scopedRest1_split]
  iintro ⟨⟨⟨⟨%fs, Hs⟩, Hrest⟩, Hp⟩, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hs]; · iexists fs; iapply scratch_to_owns; iexact Hs
  iintro ⟨H0, H1, H2, H3, H4, H5, H7⟩
  isplitl [H7 Hrest Hp]
  · isplitl [H7 Hrest]
    · isplitl [H7]
      · iexists _; iapply owns_to_scratch; iexact H7
      iexact Hrest
    iexact Hp
  isplitl [Ho]; · iexact Ho
  isplitl [H0]; · iexact H0
  isplitl [H1]; · iexact H1
  isplitl [H2]; · iexact H2
  isplitl [H3]; · iexact H3
  isplitl [H4]; · iexact H4
  unfold oblk1; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region leaves in its output array main_v51: every point's output block written back in turn. -/
def outArr1 (c : Dev nD) : Buf (Elt F) ((c : Thread nD τ).loc main_v51) := (dat1 V c).arrAt 5 cfg1.N

end AtV

/-! ## The region as a segment of @main -/

/-- What rides beside the unscoped buffers through the region: the core's generator register at some state and its
    owes, at nothing. -/
abbrev Rst (c : Dev nD) : sProp 𝕄 := iprop((∃ r, prngReg c r) ∗ ∃ W, owes (c : Thread nD τ) (0 : CellTallies nD τ sig Unit) W)

-- pipeline 1's configuration pinned at its (empty) prefetched tables is the printed configuration, by unfolding
-- definitions: the library's facts about the one are used at the other
set_option backward.isDefEq.respectTransparency.types false in
/-- REGION 1 between two valuations of the core's unscoped buffers: entered from W, left at any Wp that holds
    the output array at outArr1 and agrees with W elsewhere; for any family of proof data whose member 1 is
    dat1 at W, and any level assignment. On entry the six arrays are split out of the unscoped buffers, the rest
    bypassing the region; the generator register goes into the invariant and comes back; nothing is owed; the kernel
    has no semaphore of its own. On exit the arrays (the five inputs as entered, the output at its write-backs) are
    put back beside the rest. -/
def R1 (L : GSem nD τ sig → Finset Unit) (lv : GSem nD τ sig → Unit → ℕ)
    (W Wp : Dev nD → Valuation τ sig (Elt F))
    (pdats : (p : Fin 4) → (c : Dev nD) → Dat τ (Elt F) Unit ℕ (UR sig nD τ) ℕ (cfgs p) c)
    (hp : ∀ c, pdats 1 c = dat1 (fun c b => W c b) c)
    (hout : ∀ c, Wp c main_v51 = outArr1 (fun c b => W c b) c)
    (hne : ∀ c (b : Ref sig .tc), b ≠ main_v51 → Wp c b = W c b) :
    RegionSeg (pcfgs (F := F)) adm pdats () defs₀ Variants.none L lv 1 where
  win := launch1.win.to₀
  block_pos := launch1.block_pos
  stage_whole := launch1.stage_whole
  K := PEmpty
  osem k := k.elim
  ho := Pipeline.OwnSemFacts.none _
  hbody c := by rw [hp c]; exact (body_obligation1 (fun c b => W c b) c).loose
  hwaits := Pipeline.hwaits_of_owed_zero _ _ _ _ L lv 1 fun c t => by rw [hp c]; rfl
  pre c := iprop(StableHlo.held (c : Thread nD τ) (Pipeline.ucRefs τ sig) (W c) ∗ Rst c)
  post c := iprop(StableHlo.held (c : Thread nD τ) (Pipeline.ucRefs τ sig) (Wp c) ∗ Rst c)
  X c := iprop(∃ r, prngReg c r)
  Y c := iprop(∃ r, prngReg c r)
  Z c := Pipeline.unscopedRest (Ix := Unit) (Name := ℕ) (U := UR sig nD τ) (Lvl := ℕ) spec1 c (fun b => W c b)
  hentry c := by
    rw [Pipeline.ownSems0_none]
    have hsplit := Pipeline.arrays_of_unscopedBufs (p := 1) (pcfgs (F := F)) adm pdats launch1.win launch1.arr_whole c
      ((pdats 1 c).share_full fun _ => by rw [hp c]; rfl) (fun b => W c b) fun _ => by rw [hp c]; rfl
    rw [Pipeline.unscopedBufs_held c (W c), hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitl [Hp]; · iexact Hp
    iexact Hrest
  hin c := by
    rw [hp c, show (dat1 (fun c b => W c b) c).Φ 0 = Pipeline.ΦA spec1 c from rfl]; unfold Pipeline.ΦA
    iintro ⟨Hp, -, Hr⟩
    isplitl [Hr]; · iexact Hr
    iexact Hp
  hout c := by
    rw [Pipeline.ownSems0_none, hp c, show (dat1 (fun c b => W c b) c).Φ (Fin.last (Pipeline.pin (pcfgs (F := F)) adm 1).N) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c pdats ((pdats 1 c).share_full fun _ => by rw [hp c]; rfl)
      (fun b => W c b) (fun b => Wp c b) ((pdats 1 c).arrAt · cfg1.N)
      (fun w => by
        rw [hp c]
        fin_cases w
        · exact (((dat1 (fun c b => W c b) c).arrAt_in 0 rfl _).trans (A_eq1 _ c 0)).trans (hne c _ (by decide)).symm
        · exact (((dat1 (fun c b => W c b) c).arrAt_in 1 rfl _).trans (A_eq1 _ c 1)).trans (hne c _ (by decide)).symm
        · exact (((dat1 (fun c b => W c b) c).arrAt_in 2 rfl _).trans (A_eq1 _ c 2)).trans (hne c _ (by decide)).symm
        · exact (((dat1 (fun c b => W c b) c).arrAt_in 3 rfl _).trans (A_eq1 _ c 3)).trans (hne c _ (by decide)).symm
        · exact (((dat1 (fun c b => W c b) c).arrAt_in 4 rfl _).trans (A_eq1 _ c 4)).trans (hne c _ (by decide)).symm
        · exact (hout c).symm)
      (fun b hb => hne c b fun h => hb (h ▸ Finset.mem_image.mpr ⟨5, Finset.mem_univ _, rfl⟩))
    rw [Pipeline.unscopedBufs_held c (Wp c), hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, -, HO⟩; iexists Wt; iexact HO

variable (m : (ℓ : Loc nD τ sig) → Buf (Elt F) ℓ) (outs : Outs (F := F))

/-- The contents region 1 is entered from, read at the TensorCore's references. -/
abbrev V9' : (c : Dev nD) → (b : Ref sig .tc) → Buf (Elt F) ((c : Thread nD τ).loc b) := fun c b => V9 m outs c b

/-- REGION 1 between the thread states the conditional frame names, for unknowns outs that put the region's
    result in main_v51: the valuation after the region is the one before it updated at main_v51. -/
def R1m (L : GSem nD τ sig → Finset Unit) (lv : GSem nD τ sig → Unit → ℕ)
    (pdats : (p : Fin 4) → (c : Dev nD) → Dat τ (Elt F) Unit ℕ (UR sig nD τ) ℕ (cfgs p) c)
    (hp : ∀ c, pdats 1 c = dat1 (V9' m outs) c)
    (houts : ∀ c, outs 10 main_v51 c = outArr1 (V9' m outs) c) :
    RegionSeg (pcfgs (F := F)) adm pdats () defs₀ Variants.none L lv 1 :=
  R1 L lv (V9 m outs) (V10 m outs) pdats hp
    (fun c => (Function.update_self _ _ _).trans (houts c))
    (fun c b hb => Function.update_of_ne (StableHlo.devRef_ne_of_ne hb) _ _)

/-- The frame's thread state before region 1 enters it, for any rests that give the register and the owes. -/
theorem hpre1 (L : GSem nD τ sig → Finset Unit) (lv : GSem nD τ sig → Unit → ℕ)
    (pdats : (p : Fin 4) → (c : Dev nD) → Dat τ (Elt F) Unit ℕ (UR sig nD τ) ℕ (cfgs p) c)
    (hp : ∀ c, pdats 1 c = dat1 (V9' m outs) c) (houts : ∀ c, outs 10 main_v51 c = outArr1 (V9' m outs) c)
    (E : Fin 5 → Dev nD → sProp 𝕄) (hE : ∀ c, E 1 c ⊢ Rst c) (c : Dev nD) :
    iprop(StableHlo.held (c : Thread nD τ) (Pipeline.ucRefs τ sig) (V9 m outs c) ∗ E 1 c) ⊢ (R1m m outs L lv pdats hp houts).pre c :=
  sep_mono .rfl (hE c)

/-- What region 1 leaves is the frame's thread state after it, for any rests the register and the owes give. -/
theorem hpost1 (L : GSem nD τ sig → Finset Unit) (lv : GSem nD τ sig → Unit → ℕ)
    (pdats : (p : Fin 4) → (c : Dev nD) → Dat τ (Elt F) Unit ℕ (UR sig nD τ) ℕ (cfgs p) c)
    (hp : ∀ c, pdats 1 c = dat1 (V9' m outs) c) (houts : ∀ c, outs 10 main_v51 c = outArr1 (V9' m outs) c)
    (E : Fin 5 → Dev nD → sProp 𝕄) (hE : ∀ c, Rst c ⊢ E 2 c) (c : Dev nD) :
    (R1m m outs L lv pdats hp houts).post c ⊢ iprop(StableHlo.held (c : Thread nD τ) (Pipeline.ucRefs τ sig) (V10 m outs c) ∗ E 2 c) :=
  sep_mono .rfl (hE c)

end Cert.KernelIdeal.Region1

end
-- ==== Proof.Region2.lean ====
/-
  REGION 2 of @main: the third mixture layer's edge kernel, a pipeline of 8 grid points over six windows.
  At each point the body reads a block of 7680 edges (their gathered source features, 64 bf16 channels, and their
  pseudo-coordinates, 2 f32 channels) beside the whole tables of the layer: the restacked projection (192 x 128,
  bf16), the mixture centres and the mixture widths (3 x 2 each, f32). For each of the three mixture components it
  weights the features by the component's Gaussian weight and writes the weighted features into the component's band
  of lanes of a scratch of 7680 x 192 (lanes 0-63, 64-127, 128-191); the three column stores tile the scratch, so what the body then
  loads from it is a function of the point's input blocks alone, whatever the scratch held before. One
  contraction of the scratch against the projection table gives the point's output block, 7680 x 128, stored whole.
  Nothing is carried from one point to the next.

  This module states, at ANY contents V of the core's buffers when the region is entered:
    * the output block as a pure function of the five input blocks (out2), through the scratch's contents (scr2);
    * the body's triple on whole staging buffers (sound_kernel2);
    * the pipeline's proof data (dat2) and the body obligation at every point (body_obligation2);
    * the region as a segment of @main between two valuations of the unscoped buffers (R2), and that segment
      between the thread states the conditional frame names (R2m, hpre2, hpost2).
-/
import proofs.«402598_j31782757990676_2_alg».proof.Proof.Gen.KernelIdeal.Launch
import proofs.«402598_j31782757990676_2_alg».proof.Proof.Gen.KernelIdeal.Skeleton
import proofs.«402598_j31782757990676_2_alg».proof.Proof.Gen.KernelIdeal.Points
import proofs.«402598_j31782757990676_2_alg».proof.Proof.Gen.KernelIdeal.Regions
import Idealize.ShloMosaic.Lib.Pipeline.FrameBody
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Region2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

/-! ## The body's accesses -/

/-- The scratch's three column pairs, and the whole of each buffer the body loads or stores whole. -/
abbrev rs0 : Rect S7680x192 := Rect.unit (s := S7680x192) ![0, 0] S7680x64.size inb_S7680x192_S7680x64_0_0
abbrev rs64 : Rect S7680x192 := Rect.unit (s := S7680x192) ![0, 64] S7680x64.size inb_S7680x192_S7680x64_0_64
abbrev rs128 : Rect S7680x192 := Rect.unit (s := S7680x192) ![0, 128] S7680x64.size inb_S7680x192_S7680x64_0_128
abbrev rsW : Rect S7680x192 := Rect.unit (s := S7680x192) ![0, 0] S7680x192.size inb_S7680x192_S7680x192_0_0
abbrev rx : Rect S7680x64 := Rect.unit (s := S7680x64) ![0, 0] S7680x64.size inb_S7680x64_S7680x64_0_0
abbrev rp : Rect S7680x2 := Rect.unit (s := S7680x2) ![0, 0] S7680x2.size inb_S7680x2_S7680x2_0_0
abbrev rg : Rect S192x128 := Rect.unit (s := S192x128) ![0, 0] S192x128.size inb_S192x128_S192x128_0_0
abbrev rm : Rect S3x2 := Rect.unit (s := S3x2) ![0, 0] S3x2.size inb_S3x2_S3x2_0_0
abbrev ro : Rect S7680x128 := Rect.unit (s := S7680x128) ![0, 0] S7680x128.size inb_S7680x128_S7680x128_0_0

/-! ## What the body leaves, as functions of the input blocks -/

/-- The scratch after the three column stores (last first): component 2's weighted features in lanes 128-191,
    component 1's in lanes 64-127, component 0's in lanes 0-63. xs is the features' block, ps the pseudo-coordinates',
    mu and sg the centres and widths. -/
def scr2 (xs : Vec F S7680x64 .bf16) (ps : Vec F S7680x2 .f32) (mu sg : Vec F S3x2 .f32) : Vec F S7680x192 .bf16 :=
  View.canon [⟨rs128, k2_pay6 (View.ld ps rp) (k2_pay1 (View.ld xs rx)) (View.ld mu rm) (View.ld sg rm)⟩,
    ⟨rs64, k2_pay5 (k2_pay1 (View.ld xs rx)) (k2_pay3 (View.ld ps rp) (View.ld mu rm)) (k2_pay4 (View.ld sg rm))⟩,
    ⟨rs0, k2_pay2 (View.ld ps rp) (View.ld xs rx) (View.ld mu rm) (View.ld sg rm)⟩]

/-- THE OUTPUT BLOCK at a point, from the five input blocks: the scratch contracted against the projection table g. -/
def out2 (xs : Vec F S7680x64 .bf16) (ps : Vec F S7680x2 .f32) (g : Vec F S192x128 .bf16) (mu sg : Vec F S3x2 .f32) : Vec F S7680x128 .f32 :=
  View.canon [⟨ro, k2_pay7 (View.ld (scr2 xs ps mu sg) rsW) (View.ld g rg)⟩]

/-- The three column stores tile the scratch in blocks of 7680 x 64 (decided on the offsets), so they cover it. -/
theorem cover_scr (p128 p64 p0 : Vec F S7680x64 .bf16) (y : S7680x192.Idx) :
    ∃ pc ∈ ([⟨rs128, p128⟩, ⟨rs64, p64⟩, ⟨rs0, p0⟩] : List (View.Piece (Elt F) S7680x192 .bf16)), y ∈ pc.1.set :=
  View.cover_of_tiledL [⟨rs128, p128⟩, ⟨rs64, p64⟩, ⟨rs0, p0⟩] S7680x64.size (by rfl) y

/-- The one store of the output block is through the whole of it. -/
theorem cover_out (p : Vec F S7680x128 .f32) (y : S7680x128.Idx) :
    ∃ pc ∈ ([⟨ro, p⟩] : List (View.Piece (Elt F) S7680x128 .f32)), y ∈ pc.1.set :=
  View.cover_of_tiledL [⟨ro, p⟩] S7680x128.size (by rfl) y

/-- The scratch buffer held whole is the scratch memref owned at its contents, and back. -/
theorem scratch_to_owns (c : Dev nD) (f : Buf (Elt F) ((c : Thread nD τ).loc cc2_scratch0)) :
    ((((c : Thread nD τ).loc cc2_scratch0) ↦{fullShare} f : sProp 𝕄))
      ⊢ owns (c : Thread nD τ) (Memref.whole cc2_scratch0) fullShare f :=
  Entails.of_eq (owns_whole _ _ _ _).symm
theorem owns_to_scratch (c : Dev nD) (f : Buf (Elt F) ((c : Thread nD τ).loc cc2_scratch0)) :
    (owns (c : Thread nD τ) (Memref.whole cc2_scratch0) fullShare f : sProp 𝕄)
      ⊢ (((c : Thread nD τ).loc cc2_scratch0) ↦{fullShare} f) :=
  Entails.of_eq (owns_whole _ _ _ _)

/-! ## The body's triple -/

set_option maxHeartbeats 1000000 in
/-- The kernel body on whole staging memrefs (the five inputs' at read contents, the output's and the scratch at
    anything) runs to the continuation holding the inputs' as they were, the output's at out2 of them and the
    scratch at scr2 of them. -/
theorem sound_kernel2 (c : Dev nD) (E : Set ℕ) (i : grid2.Coords)
    (arg1 : Memref sig .tc .vmem S7680x64 .bf16) (harg1 : arg1.IsWhole) (arg2 : Memref sig .tc .vmem S7680x2 .f32) (harg2 : arg2.IsWhole)
    (arg3 : Memref sig .tc .vmem S192x128 .bf16) (harg3 : arg3.IsWhole) (arg4 : Memref sig .tc .vmem S3x2 .f32) (harg4 : arg4.IsWhole)
    (arg5 : Memref sig .tc .vmem S3x2 .f32) (harg5 : arg5.IsWhole) (arg6 : Memref sig .tc .vmem S7680x128 .f32) (harg6 : arg6.IsWhole)
    (arg7 : Memref sig .tc .vmem S7680x192 .bf16) (harg7 : arg7.IsWhole)
    (xs : Vec F S7680x64 .bf16) (ps : Vec F S7680x2 .f32) (g : Vec F S192x128 .bf16) (mu sg : Vec F S3x2 .f32) (K : PUnit → sProp 𝕄) :
    iprop(owns (c : Thread nD τ) arg1 fullShare xs ∗ owns (c : Thread nD τ) arg2 fullShare ps ∗ owns (c : Thread nD τ) arg3 fullShare g
        ∗ owns (c : Thread nD τ) arg4 fullShare mu ∗ owns (c : Thread nD τ) arg5 fullShare sg
        ∗ (∃ d, owns (c : Thread nD τ) arg6 fullShare d) ∗ (∃ d, owns (c : Thread nD τ) arg7 fullShare d)
        ∗ (iprop(owns (c : Thread nD τ) arg1 fullShare xs ∗ owns (c : Thread nD τ) arg2 fullShare ps ∗ owns (c : Thread nD τ) arg3 fullShare g
            ∗ owns (c : Thread nD τ) arg4 fullShare mu ∗ owns (c : Thread nD τ) arg5 fullShare sg
            ∗ owns (c : Thread nD τ) arg6 fullShare (out2 xs ps g mu sg) ∗ owns (c : Thread nD τ) arg7 fullShare (scr2 xs ps mu sg)) -∗ K ⟨⟩))
      ⊢ wp frame (wpE (defs₀ (F := F)) Variants.none c none) E
          (cc2__gmm_edge_kernel i arg1 harg1 arg2 harg2 arg3 harg3 arg4 harg4 arg5 harg5 arg6 harg6 arg7 harg7) K := by
  sl_unfold [cc2__gmm_edge_kernel, k2_part1, k2_part2]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    -- the scratch, loaded whole after the three stores that tile it, reads as scr2 of the blocks
    have hs : View.ld (scr2 (View.read (Elt F) arg1.view f1) (View.read (Elt F) arg2.view f2)
          (View.read (Elt F) arg4.view f4) (View.read (Elt F) arg5.view f5)) rsW
        = arg7.view.readCov _ rsW := (View.readCov_eq_canon_ld arg7.view _ rsW (cover_scr _ _ _)).symm
    unfold out2
    rw [hs]
    exact View.read_writes_eq_canon _ _ _ (cover_out _)
  iexists _; isplitr
  swap; · iexact H7
  ipureintro
  exact View.read_writes_eq_canon _ _ _ (cover_scr _ _ _)

/-! ## The proof data, at the contents the region is entered from -/

section AtV

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block the body leaves at point t. -/
def oblk2 (c : Dev nD) (t : Fin cfg2.N) : Vec F S7680x128 .f32 :=
  out2 (iblk2 V c 0 t) (iblk2 V c 1 t) (iblk2 V c 2 t) (iblk2 V c 3 t) (iblk2 V c 4 t)

/-- The proof data of pipeline 2 on core c: the arrays as the region finds them; after the body at point t each
    input's buffer at its block and the output's at out2 of the input blocks; the invariant the scoped buffers no
    window stages (the scratch among them, at anything) and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => oblk2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window (the proof data's match reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = oblk2 V c t := by dsimp only [dat2]

/-- Each input's current staging buffer holds its block at every point, fetched there or not: a window not fetched at
    a point has not moved its block index since the point before, and the body left the block in place there. The
    windows are uncut and never idle. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The body obligation, at a generic point -/

/-- What the body is called with at point t (the library's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, the invariant hands the body its scratch (at
    anything) out of the scoped rest and takes it back (at anything), the generator register and the core's owes pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  rw [show (dat2 V c).Φ t.castSucc = Pipeline.ΦA spec2 c from rfl]
  unfold Pipeline.ΦA
  rw [scopedRest2_split]
  iintro ⟨⟨⟨⟨%fs, Hs⟩, Hrest⟩, Hp⟩, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hs]; · iexists fs; iapply scratch_to_owns; iexact Hs
  iintro ⟨H0, H1, H2, H3, H4, H5, H7⟩
  isplitl [H7 Hrest Hp]
  · isplitl [H7 Hrest]
    · isplitl [H7]
      · iexists _; iapply owns_to_scratch; iexact H7
      iexact Hrest
    iexact Hp
  isplitl [Ho]; · iexact Ho
  isplitl [H0]; · iexact H0
  isplitl [H1]; · iexact H1
  isplitl [H2]; · iexact H2
  isplitl [H3]; · iexact H3
  isplitl [H4]; · iexact H4
  unfold oblk2; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region leaves in its output array main_v91: every point's output block written back in turn. -/
def outArr2 (c : Dev nD) : Buf (Elt F) ((c : Thread nD τ).loc main_v91) := (dat2 V c).arrAt 5 cfg2.N

end AtV

/-! ## The region as a segment of @main -/

/-- What rides beside the unscoped buffers through the region: the core's generator register at some state and its
    owes, at nothing. -/
abbrev Rst (c : Dev nD) : sProp 𝕄 := iprop((∃ r, prngReg c r) ∗ ∃ W, owes (c : Thread nD τ) (0 : CellTallies nD τ sig Unit) W)

-- pipeline 2's configuration pinned at its (empty) prefetched tables is the printed configuration, by unfolding
-- definitions: the library's facts about the one are used at the other
set_option backward.isDefEq.respectTransparency.types false in
/-- REGION 2 between two valuations of the core's unscoped buffers: entered from W, left at any Wp that holds
    the output array at outArr2 and agrees with W elsewhere; for any family of proof data whose member 2 is
    dat2 at W, and any level assignment. On entry the six arrays are split out of the unscoped buffers, the rest
    bypassing the region; the generator register goes into the invariant and comes back; nothing is owed; the kernel
    has no semaphore of its own. On exit the arrays (the five inputs as entered, the output at its write-backs) are
    put back beside the rest. -/
def R2 (L : GSem nD τ sig → Finset Unit) (lv : GSem nD τ sig → Unit → ℕ)
    (W Wp : Dev nD → Valuation τ sig (Elt F))
    (pdats : (p : Fin 4) → (c : Dev nD) → Dat τ (Elt F) Unit ℕ (UR sig nD τ) ℕ (cfgs p) c)
    (hp : ∀ c, pdats 2 c = dat2 (fun c b => W c b) c)
    (hout : ∀ c, Wp c main_v91 = outArr2 (fun c b => W c b) c)
    (hne : ∀ c (b : Ref sig .tc), b ≠ main_v91 → Wp c b = W c b) :
    RegionSeg (pcfgs (F := F)) adm pdats () defs₀ Variants.none L lv 2 where
  win := launch2.win.to₀
  block_pos := launch2.block_pos
  stage_whole := launch2.stage_whole
  K := PEmpty
  osem k := k.elim
  ho := Pipeline.OwnSemFacts.none _
  hbody c := by rw [hp c]; exact (body_obligation2 (fun c b => W c b) c).loose
  hwaits := Pipeline.hwaits_of_owed_zero _ _ _ _ L lv 2 fun c t => by rw [hp c]; rfl
  pre c := iprop(StableHlo.held (c : Thread nD τ) (Pipeline.ucRefs τ sig) (W c) ∗ Rst c)
  post c := iprop(StableHlo.held (c : Thread nD τ) (Pipeline.ucRefs τ sig) (Wp c) ∗ Rst c)
  X c := iprop(∃ r, prngReg c r)
  Y c := iprop(∃ r, prngReg c r)
  Z c := Pipeline.unscopedRest (Ix := Unit) (Name := ℕ) (U := UR sig nD τ) (Lvl := ℕ) spec2 c (fun b => W c b)
  hentry c := by
    rw [Pipeline.ownSems0_none]
    have hsplit := Pipeline.arrays_of_unscopedBufs (p := 2) (pcfgs (F := F)) adm pdats launch2.win launch2.arr_whole c
      ((pdats 2 c).share_full fun _ => by rw [hp c]; rfl) (fun b => W c b) fun _ => by rw [hp c]; rfl
    rw [Pipeline.unscopedBufs_held c (W c), hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitl [Hp]; · iexact Hp
    iexact Hrest
  hin c := by
    rw [hp c, show (dat2 (fun c b => W c b) c).Φ 0 = Pipeline.ΦA spec2 c from rfl]; unfold Pipeline.ΦA
    iintro ⟨Hp, -, Hr⟩
    isplitl [Hr]; · iexact Hr
    iexact Hp
  hout c := by
    rw [Pipeline.ownSems0_none, hp c, show (dat2 (fun c b => W c b) c).Φ (Fin.last (Pipeline.pin (pcfgs (F := F)) adm 2).N) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c pdats ((pdats 2 c).share_full fun _ => by rw [hp c]; rfl)
      (fun b => W c b) (fun b => Wp c b) ((pdats 2 c).arrAt · cfg2.N)
      (fun w => by
        rw [hp c]
        fin_cases w
        · exact (((dat2 (fun c b => W c b) c).arrAt_in 0 rfl _).trans (A_eq2 _ c 0)).trans (hne c _ (by decide)).symm
        · exact (((dat2 (fun c b => W c b) c).arrAt_in 1 rfl _).trans (A_eq2 _ c 1)).trans (hne c _ (by decide)).symm
        · exact (((dat2 (fun c b => W c b) c).arrAt_in 2 rfl _).trans (A_eq2 _ c 2)).trans (hne c _ (by decide)).symm
        · exact (((dat2 (fun c b => W c b) c).arrAt_in 3 rfl _).trans (A_eq2 _ c 3)).trans (hne c _ (by decide)).symm
        · exact (((dat2 (fun c b => W c b) c).arrAt_in 4 rfl _).trans (A_eq2 _ c 4)).trans (hne c _ (by decide)).symm
        · exact (hout c).symm)
      (fun b hb => hne c b fun h => hb (h ▸ Finset.mem_image.mpr ⟨5, Finset.mem_univ _, rfl⟩))
    rw [Pipeline.unscopedBufs_held c (Wp c), hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, -, HO⟩; iexists Wt; iexact HO

variable (m : (ℓ : Loc nD τ sig) → Buf (Elt F) ℓ) (outs : Outs (F := F))

/-- The contents region 2 is entered from, read at the TensorCore's references. -/
abbrev V15' : (c : Dev nD) → (b : Ref sig .tc) → Buf (Elt F) ((c : Thread nD τ).loc b) := fun c b => V15 m outs c b

/-- REGION 2 between the thread states the conditional frame names, for unknowns outs that put the region's
    result in main_v91: the valuation after the region is the one before it updated at main_v91. -/
def R2m (L : GSem nD τ sig → Finset Unit) (lv : GSem nD τ sig → Unit → ℕ)
    (pdats : (p : Fin 4) → (c : Dev nD) → Dat τ (Elt F) Unit ℕ (UR sig nD τ) ℕ (cfgs p) c)
    (hp : ∀ c, pdats 2 c = dat2 (V15' m outs) c)
    (houts : ∀ c, outs 16 main_v91 c = outArr2 (V15' m outs) c) :
    RegionSeg (pcfgs (F := F)) adm pdats () defs₀ Variants.none L lv 2 :=
  R2 L lv (V15 m outs) (V16 m outs) pdats hp
    (fun c => (Function.update_self _ _ _).trans (houts c))
    (fun c b hb => Function.update_of_ne (StableHlo.devRef_ne_of_ne hb) _ _)

/-- The frame's thread state before region 2 enters it, for any rests that give the register and the owes. -/
theorem hpre2 (L : GSem nD τ sig → Finset Unit) (lv : GSem nD τ sig → Unit → ℕ)
    (pdats : (p : Fin 4) → (c : Dev nD) → Dat τ (Elt F) Unit ℕ (UR sig nD τ) ℕ (cfgs p) c)
    (hp : ∀ c, pdats 2 c = dat2 (V15' m outs) c) (houts : ∀ c, outs 16 main_v91 c = outArr2 (V15' m outs) c)
    (E : Fin 5 → Dev nD → sProp 𝕄) (hE : ∀ c, E 2 c ⊢ Rst c) (c : Dev nD) :
    iprop(StableHlo.held (c : Thread nD τ) (Pipeline.ucRefs τ sig) (V15 m outs c) ∗ E 2 c) ⊢ (R2m m outs L lv pdats hp houts).pre c :=
  sep_mono .rfl (hE c)

/-- What region 2 leaves is the frame's thread state after it, for any rests the register and the owes give. -/
theorem hpost2 (L : GSem nD τ sig → Finset Unit) (lv : GSem nD τ sig → Unit → ℕ)
    (pdats : (p : Fin 4) → (c : Dev nD) → Dat τ (Elt F) Unit ℕ (UR sig nD τ) ℕ (cfgs p) c)
    (hp : ∀ c, pdats 2 c = dat2 (V15' m outs) c) (houts : ∀ c, outs 16 main_v91 c = outArr2 (V15' m outs) c)
    (E : Fin 5 → Dev nD → sProp 𝕄) (hE : ∀ c, Rst c ⊢ E 3 c) (c : Dev nD) :
    (R2m m outs L lv pdats hp houts).post c ⊢ iprop(StableHlo.held (c : Thread nD τ) (Pipeline.ucRefs τ sig) (V16 m outs c) ∗ E 3 c) :=
  sep_mono .rfl (hE c)

end Cert.KernelIdeal.Region2

end
-- ==== Proof.Region3.lean ====
/-
  REGION 3 of @main: the fourth mixture layer's edge kernel, a pipeline of 4 grid points over six windows.
  At each point the body reads a block of 3840 edges (their gathered source features, 128 bf16 channels, and their
  pseudo-coordinates, 2 f32 channels) beside the whole tables of the layer: the restacked projection (384 x 256,
  bf16), the mixture centres and the mixture widths (3 x 2 each, f32). For each of the three mixture components it
  weights the features by the component's Gaussian weight and writes the weighted features into the component's band
  of lanes of a scratch of 3840 x 384 (lanes 0-127, 128-255, 256-383); the three column stores tile the scratch, so what the body then
  loads from it is a function of the point's input blocks alone, whatever the scratch held before. One
  contraction of the scratch against the projection table gives the point's output block, 3840 x 256, stored whole.
  Nothing is carried from one point to the next.

  This module states, at ANY contents V of the core's buffers when the region is entered:
    * the output block as a pure function of the five input blocks (out3), through the scratch's contents (scr3);
    * the body's triple on whole staging buffers (sound_kernel3);
    * the pipeline's proof data (dat3) and the body obligation at every point (body_obligation3);
    * the region as a segment of @main between two valuations of the unscoped buffers (R3), and that segment
      between the thread states the conditional frame names (R3m, hpre3, hpost3).
-/
import proofs.«402598_j31782757990676_2_alg».proof.Proof.Gen.KernelIdeal.Launch
import proofs.«402598_j31782757990676_2_alg».proof.Proof.Gen.KernelIdeal.Skeleton
import proofs.«402598_j31782757990676_2_alg».proof.Proof.Gen.KernelIdeal.Points
import proofs.«402598_j31782757990676_2_alg».proof.Proof.Gen.KernelIdeal.Regions
import Idealize.ShloMosaic.Lib.Pipeline.FrameBody
import Idealize.ShloMosaic.Lib.Pipeline.RegionsLoop
import Idealize.ShloMosaic.Lib.Pipeline.Value
import Idealize.ShloMosaic.Lib.Ring
import Idealize.ShloMosaic.Lib.Tactic

set_option maxRecDepth 16384

noncomputable section

namespace Cert.KernelIdeal.Region3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)

variable {F : FTy → Type} [FloatOps F]

local notation "𝕄" => MT nD τ sig Unit (Elt F) ℕ (UR sig nD τ) ℕ

/-! ## The body's accesses -/

/-- The scratch's three column pairs, and the whole of each buffer the body loads or stores whole. -/
abbrev rs0 : Rect S3840x384 := Rect.unit (s := S3840x384) ![0, 0] S3840x128.size inb_S3840x384_S3840x128_0_0
abbrev rs128 : Rect S3840x384 := Rect.unit (s := S3840x384) ![0, 128] S3840x128.size inb_S3840x384_S3840x128_0_128
abbrev rs256 : Rect S3840x384 := Rect.unit (s := S3840x384) ![0, 256] S3840x128.size inb_S3840x384_S3840x128_0_256
abbrev rsW : Rect S3840x384 := Rect.unit (s := S3840x384) ![0, 0] S3840x384.size inb_S3840x384_S3840x384_0_0
abbrev rx : Rect S3840x128 := Rect.unit (s := S3840x128) ![0, 0] S3840x128.size inb_S3840x128_S3840x128_0_0
abbrev rp : Rect S3840x2 := Rect.unit (s := S3840x2) ![0, 0] S3840x2.size inb_S3840x2_S3840x2_0_0
abbrev rg : Rect S384x256 := Rect.unit (s := S384x256) ![0, 0] S384x256.size inb_S384x256_S384x256_0_0
abbrev rm : Rect S3x2 := Rect.unit (s := S3x2) ![0, 0] S3x2.size inb_S3x2_S3x2_0_0
abbrev ro : Rect S3840x256 := Rect.unit (s := S3840x256) ![0, 0] S3840x256.size inb_S3840x256_S3840x256_0_0

/-! ## What the body leaves, as functions of the input blocks -/

/-- The scratch after the three column stores (last first): component 2's weighted features in lanes 256-383,
    component 1's in lanes 128-255, component 0's in lanes 0-127. xs is the features' block, ps the pseudo-coordinates',
    mu and sg the centres and widths. -/
def scr3 (xs : Vec F S3840x128 .bf16) (ps : Vec F S3840x2 .f32) (mu sg : Vec F S3x2 .f32) : Vec F S3840x384 .bf16 :=
  View.canon [⟨rs256, k3_pay6 (View.ld ps rp) (k3_pay1 (View.ld xs rx)) (View.ld mu rm) (View.ld sg rm)⟩,
    ⟨rs128, k3_pay5 (k3_pay1 (View.ld xs rx)) (k3_pay3 (View.ld ps rp) (View.ld mu rm)) (k3_pay4 (View.ld sg rm))⟩,
    ⟨rs0, k3_pay2 (View.ld ps rp) (View.ld xs rx) (View.ld mu rm) (View.ld sg rm)⟩]

/-- THE OUTPUT BLOCK at a point, from the five input blocks: the scratch contracted against the projection table g. -/
def out3 (xs : Vec F S3840x128 .bf16) (ps : Vec F S3840x2 .f32) (g : Vec F S384x256 .bf16) (mu sg : Vec F S3x2 .f32) : Vec F S3840x256 .f32 :=
  View.canon [⟨ro, k3_pay7 (View.ld (scr3 xs ps mu sg) rsW) (View.ld g rg)⟩]

/-- The three column stores tile the scratch in blocks of 3840 x 128 (decided on the offsets), so they cover it. -/
theorem cover_scr (p256 p128 p0 : Vec F S3840x128 .bf16) (y : S3840x384.Idx) :
    ∃ pc ∈ ([⟨rs256, p256⟩, ⟨rs128, p128⟩, ⟨rs0, p0⟩] : List (View.Piece (Elt F) S3840x384 .bf16)), y ∈ pc.1.set :=
  View.cover_of_tiledL [⟨rs256, p256⟩, ⟨rs128, p128⟩, ⟨rs0, p0⟩] S3840x128.size (by rfl) y

/-- The one store of the output block is through the whole of it. -/
theorem cover_out (p : Vec F S3840x256 .f32) (y : S3840x256.Idx) :
    ∃ pc ∈ ([⟨ro, p⟩] : List (View.Piece (Elt F) S3840x256 .f32)), y ∈ pc.1.set :=
  View.cover_of_tiledL [⟨ro, p⟩] S3840x256.size (by rfl) y

/-- The scratch buffer held whole is the scratch memref owned at its contents, and back. -/
theorem scratch_to_owns (c : Dev nD) (f : Buf (Elt F) ((c : Thread nD τ).loc cc3_scratch0)) :
    ((((c : Thread nD τ).loc cc3_scratch0) ↦{fullShare} f : sProp 𝕄))
      ⊢ owns (c : Thread nD τ) (Memref.whole cc3_scratch0) fullShare f :=
  Entails.of_eq (owns_whole _ _ _ _).symm
theorem owns_to_scratch (c : Dev nD) (f : Buf (Elt F) ((c : Thread nD τ).loc cc3_scratch0)) :
    (owns (c : Thread nD τ) (Memref.whole cc3_scratch0) fullShare f : sProp 𝕄)
      ⊢ (((c : Thread nD τ).loc cc3_scratch0) ↦{fullShare} f) :=
  Entails.of_eq (owns_whole _ _ _ _)

/-! ## The body's triple -/

set_option maxHeartbeats 1000000 in
/-- The kernel body on whole staging memrefs (the five inputs' at read contents, the output's and the scratch at
    anything) runs to the continuation holding the inputs' as they were, the output's at out3 of them and the
    scratch at scr3 of them. -/
theorem sound_kernel3 (c : Dev nD) (E : Set ℕ) (i : grid3.Coords)
    (arg1 : Memref sig .tc .vmem S3840x128 .bf16) (harg1 : arg1.IsWhole) (arg2 : Memref sig .tc .vmem S3840x2 .f32) (harg2 : arg2.IsWhole)
    (arg3 : Memref sig .tc .vmem S384x256 .bf16) (harg3 : arg3.IsWhole) (arg4 : Memref sig .tc .vmem S3x2 .f32) (harg4 : arg4.IsWhole)
    (arg5 : Memref sig .tc .vmem S3x2 .f32) (harg5 : arg5.IsWhole) (arg6 : Memref sig .tc .vmem S3840x256 .f32) (harg6 : arg6.IsWhole)
    (arg7 : Memref sig .tc .vmem S3840x384 .bf16) (harg7 : arg7.IsWhole)
    (xs : Vec F S3840x128 .bf16) (ps : Vec F S3840x2 .f32) (g : Vec F S384x256 .bf16) (mu sg : Vec F S3x2 .f32) (K : PUnit → sProp 𝕄) :
    iprop(owns (c : Thread nD τ) arg1 fullShare xs ∗ owns (c : Thread nD τ) arg2 fullShare ps ∗ owns (c : Thread nD τ) arg3 fullShare g
        ∗ owns (c : Thread nD τ) arg4 fullShare mu ∗ owns (c : Thread nD τ) arg5 fullShare sg
        ∗ (∃ d, owns (c : Thread nD τ) arg6 fullShare d) ∗ (∃ d, owns (c : Thread nD τ) arg7 fullShare d)
        ∗ (iprop(owns (c : Thread nD τ) arg1 fullShare xs ∗ owns (c : Thread nD τ) arg2 fullShare ps ∗ owns (c : Thread nD τ) arg3 fullShare g
            ∗ owns (c : Thread nD τ) arg4 fullShare mu ∗ owns (c : Thread nD τ) arg5 fullShare sg
            ∗ owns (c : Thread nD τ) arg6 fullShare (out3 xs ps g mu sg) ∗ owns (c : Thread nD τ) arg7 fullShare (scr3 xs ps mu sg)) -∗ K ⟨⟩))
      ⊢ wp frame (wpE (defs₀ (F := F)) Variants.none c none) E
          (cc3__gmm_edge_kernel i arg1 harg1 arg2 harg2 arg3 harg3 arg4 harg4 arg5 harg5 arg6 harg6 arg7 harg7) K := by
  sl_unfold [cc3__gmm_edge_kernel, k3_part1, k3_part2]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    -- the scratch, loaded whole after the three stores that tile it, reads as scr3 of the blocks
    have hs : View.ld (scr3 (View.read (Elt F) arg1.view f1) (View.read (Elt F) arg2.view f2)
          (View.read (Elt F) arg4.view f4) (View.read (Elt F) arg5.view f5)) rsW
        = arg7.view.readCov _ rsW := (View.readCov_eq_canon_ld arg7.view _ rsW (cover_scr _ _ _)).symm
    unfold out3
    rw [hs]
    exact View.read_writes_eq_canon _ _ _ (cover_out _)
  iexists _; isplitr
  swap; · iexact H7
  ipureintro
  exact View.read_writes_eq_canon _ _ _ (cover_scr _ _ _)

/-! ## The proof data, at the contents the region is entered from -/

section AtV

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The output block the body leaves at point t. -/
def oblk3 (c : Dev nD) (t : Fin cfg3.N) : Vec F S3840x256 .f32 :=
  out3 (iblk3 V c 0 t) (iblk3 V c 1 t) (iblk3 V c 2 t) (iblk3 V c 3 t) (iblk3 V c 4 t)

/-- The proof data of pipeline 3 on core c: the arrays as the region finds them; after the body at point t each
    input's buffer at its block and the output's at out3 of the input blocks; the invariant the scoped buffers no
    window stages (the scratch among them, at anything) and the generator register; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => oblk3 V c t
  Φ _ := Pipeline.ΦA spec3 c
  q _ := fullShare
  owed _ := 0

theorem A_eq3 (c : Dev nD) (w : Fin cfg3.W) : (dat3 V c).A w = V c (Pipeline.arrRef spec3 w) := by
  dsimp only [dat3]

/-- What the body leaves, window by window (the proof data's match reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = oblk3 V c t := by dsimp only [dat3]

/-- Each input's current staging buffer holds its block at every point, fetched there or not: a window not fetched at
    a point has not moved its block index since the point before, and the body left the block in place there. The
    windows are uncut and never idle. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-! ## The body obligation, at a generic point -/

/-- What the body is called with at point t (the library's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, the invariant hands the body its scratch (at
    anything) out of the scoped rest and takes it back (at anything), the generator register and the core's owes pass
    through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  rw [show (dat3 V c).Φ t.castSucc = Pipeline.ΦA spec3 c from rfl]
  unfold Pipeline.ΦA
  rw [scopedRest3_split]
  iintro ⟨⟨⟨⟨%fs, Hs⟩, Hrest⟩, Hp⟩, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  isplitl [Hs]; · iexists fs; iapply scratch_to_owns; iexact Hs
  iintro ⟨H0, H1, H2, H3, H4, H5, H7⟩
  isplitl [H7 Hrest Hp]
  · isplitl [H7 Hrest]
    · isplitl [H7]
      · iexists _; iapply owns_to_scratch; iexact H7
      iexact Hrest
    iexact Hp
  isplitl [Ho]; · iexact Ho
  isplitl [H0]; · iexact H0
  isplitl [H1]; · iexact H1
  isplitl [H2]; · iexact H2
  isplitl [H3]; · iexact H3
  isplitl [H4]; · iexact H4
  unfold oblk3; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region leaves in its output array main_v131: every point's output block written back in turn. -/
def outArr3 (c : Dev nD) : Buf (Elt F) ((c : Thread nD τ).loc main_v131) := (dat3 V c).arrAt 5 cfg3.N

end AtV

/-! ## The region as a segment of @main -/

/-- What rides beside the unscoped buffers through the region: the core's generator register at some state and its
    owes, at nothing. -/
abbrev Rst (c : Dev nD) : sProp 𝕄 := iprop((∃ r, prngReg c r) ∗ ∃ W, owes (c : Thread nD τ) (0 : CellTallies nD τ sig Unit) W)

-- pipeline 3's configuration pinned at its (empty) prefetched tables is the printed configuration, by unfolding
-- definitions: the library's facts about the one are used at the other
set_option backward.isDefEq.respectTransparency.types false in
/-- REGION 3 between two valuations of the core's unscoped buffers: entered from W, left at any Wp that holds
    the output array at outArr3 and agrees with W elsewhere; for any family of proof data whose member 3 is
    dat3 at W, and any level assignment. On entry the six arrays are split out of the unscoped buffers, the rest
    bypassing the region; the generator register goes into the invariant and comes back; nothing is owed; the kernel
    has no semaphore of its own. On exit the arrays (the five inputs as entered, the output at its write-backs) are
    put back beside the rest. -/
def R3 (L : GSem nD τ sig → Finset Unit) (lv : GSem nD τ sig → Unit → ℕ)
    (W Wp : Dev nD → Valuation τ sig (Elt F))
    (pdats : (p : Fin 4) → (c : Dev nD) → Dat τ (Elt F) Unit ℕ (UR sig nD τ) ℕ (cfgs p) c)
    (hp : ∀ c, pdats 3 c = dat3 (fun c b => W c b) c)
    (hout : ∀ c, Wp c main_v131 = outArr3 (fun c b => W c b) c)
    (hne : ∀ c (b : Ref sig .tc), b ≠ main_v131 → Wp c b = W c b) :
    RegionSeg (pcfgs (F := F)) adm pdats () defs₀ Variants.none L lv 3 where
  win := launch3.win.to₀
  block_pos := launch3.block_pos
  stage_whole := launch3.stage_whole
  K := PEmpty
  osem k := k.elim
  ho := Pipeline.OwnSemFacts.none _
  hbody c := by rw [hp c]; exact (body_obligation3 (fun c b => W c b) c).loose
  hwaits := Pipeline.hwaits_of_owed_zero _ _ _ _ L lv 3 fun c t => by rw [hp c]; rfl
  pre c := iprop(StableHlo.held (c : Thread nD τ) (Pipeline.ucRefs τ sig) (W c) ∗ Rst c)
  post c := iprop(StableHlo.held (c : Thread nD τ) (Pipeline.ucRefs τ sig) (Wp c) ∗ Rst c)
  X c := iprop(∃ r, prngReg c r)
  Y c := iprop(∃ r, prngReg c r)
  Z c := Pipeline.unscopedRest (Ix := Unit) (Name := ℕ) (U := UR sig nD τ) (Lvl := ℕ) spec3 c (fun b => W c b)
  hentry c := by
    rw [Pipeline.ownSems0_none]
    have hsplit := Pipeline.arrays_of_unscopedBufs (p := 3) (pcfgs (F := F)) adm pdats launch3.win launch3.arr_whole c
      ((pdats 3 c).share_full fun _ => by rw [hp c]; rfl) (fun b => W c b) fun _ => by rw [hp c]; rfl
    rw [Pipeline.unscopedBufs_held c (W c), hp c] at hsplit
    rw [hp c]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wt, HO⟩; iexists Wt; isplitr; · ipureintro; exact fun _ _ => Or.inl trivial
      iexact HO
    isplitl [Hp]; · iexact Hp
    iexact Hrest
  hin c := by
    rw [hp c, show (dat3 (fun c b => W c b) c).Φ 0 = Pipeline.ΦA spec3 c from rfl]; unfold Pipeline.ΦA
    iintro ⟨Hp, -, Hr⟩
    isplitl [Hr]; · iexact Hr
    iexact Hp
  hout c := by
    rw [Pipeline.ownSems0_none, hp c, show (dat3 (fun c b => W c b) c).Φ (Fin.last (Pipeline.pin (pcfgs (F := F)) adm 3).N) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c pdats ((pdats 3 c).share_full fun _ => by rw [hp c]; rfl)
      (fun b => W c b) (fun b => Wp c b) ((pdats 3 c).arrAt · cfg3.N)
      (fun w => by
        rw [hp c]
        fin_cases w
        · exact (((dat3 (fun c b => W c b) c).arrAt_in 0 rfl _).trans (A_eq3 _ c 0)).trans (hne c _ (by decide)).symm
        · exact (((dat3 (fun c b => W c b) c).arrAt_in 1 rfl _).trans (A_eq3 _ c 1)).trans (hne c _ (by decide)).symm
        · exact (((dat3 (fun c b => W c b) c).arrAt_in 2 rfl _).trans (A_eq3 _ c 2)).trans (hne c _ (by decide)).symm
        · exact (((dat3 (fun c b => W c b) c).arrAt_in 3 rfl _).trans (A_eq3 _ c 3)).trans (hne c _ (by decide)).symm
        · exact (((dat3 (fun c b => W c b) c).arrAt_in 4 rfl _).trans (A_eq3 _ c 4)).trans (hne c _ (by decide)).symm
        · exact (hout c).symm)
      (fun b hb => hne c b fun h => hb (h ▸ Finset.mem_image.mpr ⟨5, Finset.mem_univ _, rfl⟩))
    rw [Pipeline.unscopedBufs_held c (Wp c), hp c] at hjoin
    rw [hp c]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wt, -, HO⟩; iexists Wt; iexact HO

variable (m : (ℓ : Loc nD τ sig) → Buf (Elt F) ℓ) (outs : Outs (F := F))

/-- The contents region 3 is entered from, read at the TensorCore's references. -/
abbrev V21' : (c : Dev nD) → (b : Ref sig .tc) → Buf (Elt F) ((c : Thread nD τ).loc b) := fun c b => V21 m outs c b

/-- REGION 3 between the thread states the conditional frame names, for unknowns outs that put the region's
    result in main_v131: the valuation after the region is the one before it updated at main_v131. -/
def R3m (L : GSem nD τ sig → Finset Unit) (lv : GSem nD τ sig → Unit → ℕ)
    (pdats : (p : Fin 4) → (c : Dev nD) → Dat τ (Elt F) Unit ℕ (UR sig nD τ) ℕ (cfgs p) c)
    (hp : ∀ c, pdats 3 c = dat3 (V21' m outs) c)
    (houts : ∀ c, outs 22 main_v131 c = outArr3 (V21' m outs) c) :
    RegionSeg (pcfgs (F := F)) adm pdats () defs₀ Variants.none L lv 3 :=
  R3 L lv (V21 m outs) (V22 m outs) pdats hp
    (fun c => (Function.update_self _ _ _).trans (houts c))
    (fun c b hb => Function.update_of_ne (StableHlo.devRef_ne_of_ne hb) _ _)

/-- The frame's thread state before region 3 enters it, for any rests that give the register and the owes. -/
theorem hpre3 (L : GSem nD τ sig → Finset Unit) (lv : GSem nD τ sig → Unit → ℕ)
    (pdats : (p : Fin 4) → (c : Dev nD) → Dat τ (Elt F) Unit ℕ (UR sig nD τ) ℕ (cfgs p) c)
    (hp : ∀ c, pdats 3 c = dat3 (V21' m outs) c) (houts : ∀ c, outs 22 main_v131 c = outArr3 (V21' m outs) c)
    (E : Fin 5 → Dev nD → sProp 𝕄) (hE : ∀ c, E 3 c ⊢ Rst c) (c : Dev nD) :
    iprop(StableHlo.held (c : Thread nD τ) (Pipeline.ucRefs τ sig) (V21 m outs c) ∗ E 3 c) ⊢ (R3m m outs L lv pdats hp houts).pre c :=
  sep_mono .rfl (hE c)

/-- What region 3 leaves is the frame's thread state after it, for any rests the register and the owes give. -/
theorem hpost3 (L : GSem nD τ sig → Finset Unit) (lv : GSem nD τ sig → Unit → ℕ)
    (pdats : (p : Fin 4) → (c : Dev nD) → Dat τ (Elt F) Unit ℕ (UR sig nD τ) ℕ (cfgs p) c)
    (hp : ∀ c, pdats 3 c = dat3 (V21' m outs) c) (houts : ∀ c, outs 22 main_v131 c = outArr3 (V21' m outs) c)
    (E : Fin 5 → Dev nD → sProp 𝕄) (hE : ∀ c, Rst c ⊢ E 4 c) (c : Dev nD) :
    (R3m m outs L lv pdats hp houts).post c ⊢ iprop(StableHlo.held (c : Thread nD τ) (Pipeline.ucRefs τ sig) (V22 m outs c) ∗ E 4 c) :=
  sep_mono .rfl (hE c)

end Cert.KernelIdeal.Region3

end
-- ==== Proof.KFrame.lean ====
import proofs.«402598_j31782757990676_2_alg».proof.Proof.Gen.KernelIdeal.Regions
import proofs.«402598_j31782757990676_2_alg».proof.Proof.KValueRun
import proofs.«402598_j31782757990676_2_alg».proof.Proof.KFunding
import proofs.«402598_j31782757990676_2_alg».proof.Proof.Region0
import proofs.«402598_j31782757990676_2_alg».proof.Proof.Region1
import proofs.«402598_j31782757990676_2_alg».proof.Proof.Region2
import proofs.«402598_j31782757990676_2_alg».proof.Proof.Region3

set_option maxRecDepth 16384

noncomputable section

namespace Cert.KernelIdeal.KFrame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]
variable (m : (ℓ : Loc nD τ sig) → Buf (Elt F) ℓ)

def outsA : Outs (F := F) := fun n r c =>
  if n = 4 then Function.update (V3 m c) main_v11 (Region0.outArr0 (Region0.V3' m) c) r else m ((c : Thread nD τ).loc r)

def outsB : Outs (F := F) := fun n r c =>
  if n = 10 then Function.update (V9 m (outsA m) c) main_v51 (Region1.outArr1 (Region1.V9' m (outsA m)) c) r else outsA m n r c

def outsC : Outs (F := F) := fun n r c =>
  if n = 16 then Function.update (V15 m (outsB m) c) main_v91 (Region2.outArr2 (Region2.V15' m (outsB m)) c) r else outsB m n r c

def outsD : Outs (F := F) := fun n r c =>
  if n = 22 then Function.update (V21 m (outsC m) c) main_v131 (Region3.outArr3 (Region3.V21' m (outsC m)) c) r else outsC m n r c

abbrev outs : Outs (F := F) := outsD m

theorem V4_congr {o o' : Outs (F := F)} (c : Dev nD) (h4 : o 4 main_v11 c = o' 4 main_v11 c) : V4 m o c = V4 m o' c := by
  show Function.update (V3 m c) main_v11 (o 4 main_v11 c) = Function.update (V3 m c) main_v11 (o' 4 main_v11 c)
  rw [h4]

theorem V9_congr {o o' : Outs (F := F)} (c : Dev nD) (h4 : o 4 main_v11 c = o' 4 main_v11 c) : V9 m o c = V9 m o' c :=
  congrArg (fun W => StableHlo.after hostOps1_4 (StableHlo.after hostOps1_3 (StableHlo.after hostOps1_2
    (StableHlo.after hostOps1_1 (StableHlo.after hostOps1 W))))) (V4_congr m c h4)

theorem V10_congr {o o' : Outs (F := F)} (c : Dev nD) (h4 : o 4 main_v11 c = o' 4 main_v11 c)
    (h10 : o 10 main_v51 c = o' 10 main_v51 c) : V10 m o c = V10 m o' c := by
  show Function.update (V9 m o c) main_v51 (o 10 main_v51 c) = Function.update (V9 m o' c) main_v51 (o' 10 main_v51 c)
  rw [V9_congr m c h4, h10]

theorem V15_congr {o o' : Outs (F := F)} (c : Dev nD) (h4 : o 4 main_v11 c = o' 4 main_v11 c)
    (h10 : o 10 main_v51 c = o' 10 main_v51 c) : V15 m o c = V15 m o' c :=
  congrArg (fun W => StableHlo.after hostOps2_4 (StableHlo.after hostOps2_3 (StableHlo.after hostOps2_2
    (StableHlo.after hostOps2_1 (StableHlo.after hostOps2 W))))) (V10_congr m c h4 h10)

theorem V16_congr {o o' : Outs (F := F)} (c : Dev nD) (h4 : o 4 main_v11 c = o' 4 main_v11 c)
    (h10 : o 10 main_v51 c = o' 10 main_v51 c) (h16 : o 16 main_v91 c = o' 16 main_v91 c) : V16 m o c = V16 m o' c := by
  show Function.update (V15 m o c) main_v91 (o 16 main_v91 c) = Function.update (V15 m o' c) main_v91 (o' 16 main_v91 c)
  rw [V15_congr m c h4 h10, h16]

theorem V21_congr {o o' : Outs (F := F)} (c : Dev nD) (h4 : o 4 main_v11 c = o' 4 main_v11 c)
    (h10 : o 10 main_v51 c = o' 10 main_v51 c) (h16 : o 16 main_v91 c = o' 16 main_v91 c) : V21 m o c = V21 m o' c :=
  congrArg (fun W => StableHlo.after hostOps3_4 (StableHlo.after hostOps3_3 (StableHlo.after hostOps3_2
    (StableHlo.after hostOps3_1 (StableHlo.after hostOps3 W))))) (V16_congr m c h4 h10 h16)

theorem outsA_4 (c : Dev nD) : outsA m 4 main_v11 c = Region0.outArr0 (Region0.V3' m) c := by
  show (if (4 : ℕ) = 4 then Function.update (V3 m c) main_v11 (Region0.outArr0 (Region0.V3' m) c) main_v11 else _) = _
  rw [if_pos rfl, Function.update_self]

theorem outsB_of_ne {n : ℕ} (h : n ≠ 10) (r : Ref sig .tc) (c : Dev nD) : outsB m n r c = outsA m n r c := by
  show (if n = 10 then _ else outsA m n r c) = _
  rw [if_neg h]

theorem outsB_10 (c : Dev nD) : outsB m 10 main_v51 c = Region1.outArr1 (Region1.V9' m (outsA m)) c := by
  show (if (10 : ℕ) = 10 then Function.update (V9 m (outsA m) c) main_v51 (Region1.outArr1 (Region1.V9' m (outsA m)) c) main_v51 else _) = _
  rw [if_pos rfl, Function.update_self]

theorem outsC_of_ne {n : ℕ} (h : n ≠ 16) (r : Ref sig .tc) (c : Dev nD) : outsC m n r c = outsB m n r c := by
  show (if n = 16 then _ else outsB m n r c) = _
  rw [if_neg h]

theorem outsC_16 (c : Dev nD) : outsC m 16 main_v91 c = Region2.outArr2 (Region2.V15' m (outsB m)) c := by
  show (if (16 : ℕ) = 16 then Function.update (V15 m (outsB m) c) main_v91 (Region2.outArr2 (Region2.V15' m (outsB m)) c) main_v91 else _) = _
  rw [if_pos rfl, Function.update_self]

theorem outs_of_ne {n : ℕ} (h : n ≠ 22) (r : Ref sig .tc) (c : Dev nD) : outs m n r c = outsC m n r c := by
  show (if n = 22 then _ else outsC m n r c) = _
  rw [if_neg h]

theorem outsD_22 (c : Dev nD) : outs m 22 main_v131 c = Region3.outArr3 (Region3.V21' m (outsC m)) c := by
  show (if (22 : ℕ) = 22 then Function.update (V21 m (outsC m) c) main_v131 (Region3.outArr3 (Region3.V21' m (outsC m)) c) main_v131 else _) = _
  rw [if_pos rfl, Function.update_self]

theorem outs_4 (c : Dev nD) : outs m 4 main_v11 c = Region0.outArr0 (Region0.V3' m) c :=
  (outs_of_ne m (by decide) _ c).trans <| (outsC_of_ne m (by decide) _ c).trans <| (outsB_of_ne m (by decide) _ c).trans (outsA_4 m c)

theorem outs_10 (c : Dev nD) : outs m 10 main_v51 c = Region1.outArr1 (Region1.V9' m (outs m)) c := by
  have h4 : ∀ c' : Dev nD, outsA m 4 main_v11 c' = outs m 4 main_v11 c' := fun c' => (outsA_4 m c').trans (outs_4 m c').symm
  have hV : Region1.V9' m (outsA m) = Region1.V9' m (outs m) := by
    funext c' b
    exact congrFun (V9_congr m c' (h4 c')) _
  rw [← hV]
  exact (outs_of_ne m (by decide) _ c).trans <| (outsC_of_ne m (by decide) _ c).trans (outsB_10 m c)

theorem outs_16 (c : Dev nD) : outs m 16 main_v91 c = Region2.outArr2 (Region2.V15' m (outs m)) c := by
  have h4 : ∀ c' : Dev nD, outsB m 4 main_v11 c' = outs m 4 main_v11 c' := fun c' =>
    ((outsB_of_ne m (by decide) _ c').trans (outsA_4 m c')).trans (outs_4 m c').symm
  have h10 : ∀ c' : Dev nD, outsB m 10 main_v51 c' = outs m 10 main_v51 c' := fun c' =>
    ((outs_of_ne m (by decide) _ c').trans (outsC_of_ne m (by decide) _ c')).symm
  have hV : Region2.V15' m (outsB m) = Region2.V15' m (outs m) := by
    funext c' b
    exact congrFun (V15_congr m c' (h4 c') (h10 c')) _
  rw [← hV]
  exact (outs_of_ne m (by decide) _ c).trans (outsC_16 m c)

theorem outs_22 (c : Dev nD) : outs m 22 main_v131 c = Region3.outArr3 (Region3.V21' m (outs m)) c := by
  have h4 : ∀ c' : Dev nD, outsC m 4 main_v11 c' = outs m 4 main_v11 c' := fun c' => (outs_of_ne m (by decide) _ c').symm
  have h10 : ∀ c' : Dev nD, outsC m 10 main_v51 c' = outs m 10 main_v51 c' := fun c' => (outs_of_ne m (by decide) _ c').symm
  have h16 : ∀ c' : Dev nD, outsC m 16 main_v91 c' = outs m 16 main_v91 c' := fun c' => (outs_of_ne m (by decide) _ c').symm
  have hV : Region3.V21' m (outsC m) = Region3.V21' m (outs m) := by
    funext c' b
    exact congrFun (V21_congr m c' (h4 c') (h10 c') (h16 c')) _
  rw [← hV]
  exact outsD_22 m c

def pdats : (p : Fin 4) → (c : Dev nD) → Dat τ (Elt F) Unit ℕ (UR sig nD τ) ℕ (cfgs p) c
  | ⟨0, _⟩ => fun c => Region0.dat0 (Region0.V3' m) c
  | ⟨1, _⟩ => fun c => Region1.dat1 (Region1.V9' m (outs m)) c
  | ⟨2, _⟩ => fun c => Region2.dat2 (Region2.V15' m (outs m)) c
  | ⟨3, _⟩ => fun c => Region3.dat3 (Region3.V21' m (outs m)) c

theorem run (ρ : Dev nD → PrngReg) :
    θ_run defs (onTc (τ := τ) (main (F := F))) ⟨m, fun _ => 0, ρ⟩ (fun r => ∀ c : Dev nD,
      r.2.mem ((c.tc : Thread nD τ).loc main_v178) = V27 m (outs m) c main_v178
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  ValueRun.run_cond m (KFunding.EP (F := F)) () Variants.none KFunding.L KFunding.lv KFunding.hL ρ (outs m) (pdats m)
    KFunding.O₀ KFunding.G KFunding.u₀ KFunding.hu₀ KFunding.E (KFunding.hE0 ρ) KFunding.hE4
    (Region0.R0m m (outs m) KFunding.L KFunding.lv (pdats m) (fun _ => rfl) (outs_4 m))
    (fun c => Region0.hpre0 m (outs m) KFunding.L KFunding.lv (pdats m) (fun _ => rfl) (outs_4 m) KFunding.E (fun _ => .rfl) c)
    (fun c => Region0.hpost0 m (outs m) KFunding.L KFunding.lv (pdats m) (fun _ => rfl) (outs_4 m) KFunding.E (fun _ => .rfl) c)
    (Region1.R1m m (outs m) KFunding.L KFunding.lv (pdats m) (fun _ => rfl) (outs_10 m))
    (fun c => Region1.hpre1 m (outs m) KFunding.L KFunding.lv (pdats m) (fun _ => rfl) (outs_10 m) KFunding.E (fun _ => .rfl) c)
    (fun c => Region1.hpost1 m (outs m) KFunding.L KFunding.lv (pdats m) (fun _ => rfl) (outs_10 m) KFunding.E (fun _ => .rfl) c)
    (Region2.R2m m (outs m) KFunding.L KFunding.lv (pdats m) (fun _ => rfl) (outs_16 m))
    (fun c => Region2.hpre2 m (outs m) KFunding.L KFunding.lv (pdats m) (fun _ => rfl) (outs_16 m) KFunding.E (fun _ => .rfl) c)
    (fun c => Region2.hpost2 m (outs m) KFunding.L KFunding.lv (pdats m) (fun _ => rfl) (outs_16 m) KFunding.E (fun _ => .rfl) c)
    (Region3.R3m m (outs m) KFunding.L KFunding.lv (pdats m) (fun _ => rfl) (outs_22 m))
    (fun c => Region3.hpre3 m (outs m) KFunding.L KFunding.lv (pdats m) (fun _ => rfl) (outs_22 m) KFunding.E (fun _ => .rfl) c)
    (fun c => Region3.hpost3 m (outs m) KFunding.L KFunding.lv (pdats m) (fun _ => rfl) (outs_22 m) KFunding.E (fun _ => .rfl) c)

end Cert.KernelIdeal.KFrame

end
-- ==== Proof.FinalTail.lean ====
import proofs.«402598_j31782757990676_2_alg».proof.Proof.RefRun
import proofs.«402598_j31782757990676_2_alg».proof.Proof.Gen.KernelIdeal.Regions
import Idealize.ShloMosaic.Lib.StableHlo.Run

set_option maxRecDepth 8192

noncomputable section

namespace Cert.FinalTail

open Idealize.ShloMosaic Idealize.ShloMosaic.TcCoe Idealize.SL.Sem Idealize.ShloMosaic.StableHlo

variable {F : FTy → Type} [FloatOps F] [Cert.ReferenceIdeal.Facts]

section Tail
open Cert.ReferenceIdeal Cert.ReferenceIdeal.Facts₀ Cert.ReferenceIdeal.Facts

def fcTail (x4 : (⟨S648x256, .f32⟩ : BufTy).Contents (Elt F)) (metadata : (⟨S4x1, .f32⟩ : BufTy).Contents (Elt F))
    (convm_w convm_b : (⟨S4, .f32⟩ : BufTy).Contents (Elt F)) (fc_w : (⟨S41476x256, .f32⟩ : BufTy).Contents (Elt F))
    (fc_b : (⟨S256, .f32⟩ : BufTy).Contents (Elt F)) (fc2_w : (⟨S256x1, .f32⟩ : BufTy).Contents (Elt F))
    (fc2_b : (⟨S1, .f32⟩ : BufTy).Contents (Elt F)) : (⟨S4, .f32⟩ : BufTy).Contents (Elt F) :=
  let mm : (⟨S4x4, .f32⟩ : BufTy).Contents (Elt F) :=
    addf (mulf (broadcastInDim S4x4 ![0, 1] bcast_S4x1_S4x4_0_1 metadata)
        (broadcastInDim S4x4 ![0, 1] bcast_S1x4_S4x4_0_1 (broadcastInDim S1x4 ![1] bcast_S4_S1x4_1 convm_w)))
      (broadcastInDim S4x4 ![0, 1] bcast_S1x4_S4x4_0_1 (broadcastInDim S1x4 ![1] bcast_S4_S1x4_1 convm_b))
  let xc : (⟨S4x41476, .f32⟩ : BufTy).Contents (Elt F) :=
    concatenate S4x41476 1 [⟨S4x41472, shapeCast S4x41472 x4 shapeCasts_S648x256_S4x41472⟩, ⟨S4x4, mm⟩]
      concatenates_S4x41472_S4x4_S4x41476_d1
  let h1 : (⟨S4x256, .f32⟩ : BufTy).Contents (Elt F) :=
    addf (Host.dotGeneral dot_S4x41476_S41476x256_S4x256_1_0_0_1_n_n none xc fc_w)
      (broadcastInDim S4x256 ![0, 1] bcast_S1x256_S4x256_0_1 (broadcastInDim S1x256 ![1] bcast_S256_S1x256_1 fc_b))
  let h2 : (⟨S4x256, .f32⟩ : BufTy).Contents (Elt F) :=
    maximumf h1 (broadcastInDim S4x256 ![] bcast_S_S4x256 (constant S_ .f32 0x00000000#32))
  let o : (⟨S4x1, .f32⟩ : BufTy).Contents (Elt F) :=
    addf (Host.dotGeneral dot_S4x256_S256x1_S4x1_1_0_0_1_n_n none h2 fc2_w)
      (broadcastInDim S4x1 ![0, 1] bcast_S1x1_S4x1_0_1 (broadcastInDim S1x1 ![1] bcast_S1_S1x1_1 fc2_b))
  shapeCast S4 o shapeCasts_S4x1_S4

end Tail

set_option maxHeartbeats 4000000 in

theorem tail_ref (W : Valuation Cert.ReferenceIdeal.τ Cert.ReferenceIdeal.sig (Elt F)) :
    StableHlo.after Cert.ReferenceIdeal.RefRun.ops5b (StableHlo.after Cert.ReferenceIdeal.RefRun.ops5a W) (Proc.devRef .tc Cert.ReferenceIdeal.main_v266)
      = fcTail (W (Proc.devRef .tc Cert.ReferenceIdeal.main_v247)) (W (Proc.devRef .tc Cert.ReferenceIdeal.main_arg13)) (W (Proc.devRef .tc Cert.ReferenceIdeal.main_arg34)) (W (Proc.devRef .tc Cert.ReferenceIdeal.main_arg35)) (W (Proc.devRef .tc Cert.ReferenceIdeal.main_arg36)) (W (Proc.devRef .tc Cert.ReferenceIdeal.main_arg37)) (W (Proc.devRef .tc Cert.ReferenceIdeal.main_arg38)) (W (Proc.devRef .tc Cert.ReferenceIdeal.main_arg39)) := by
  chain_rfl

set_option maxHeartbeats 4000000 in

theorem tail_ker (W : Valuation Cert.KernelIdeal.τ Cert.KernelIdeal.sig (Elt F)) :
    StableHlo.after Cert.KernelIdeal.Gen.hostOps4_4 (StableHlo.after Cert.KernelIdeal.Gen.hostOps4_3 (StableHlo.after Cert.KernelIdeal.Gen.hostOps4_2 W)) (Proc.devRef .tc Cert.KernelIdeal.main_v178)
      = fcTail (StableHlo.after Cert.KernelIdeal.Gen.hostOps4_4 (StableHlo.after Cert.KernelIdeal.Gen.hostOps4_3 (StableHlo.after Cert.KernelIdeal.Gen.hostOps4_2 W)) (Proc.devRef .tc Cert.KernelIdeal.main_v159))
          (W (Proc.devRef .tc Cert.KernelIdeal.main_arg13)) (W (Proc.devRef .tc Cert.KernelIdeal.main_arg34)) (W (Proc.devRef .tc Cert.KernelIdeal.main_arg35)) (W (Proc.devRef .tc Cert.KernelIdeal.main_arg36)) (W (Proc.devRef .tc Cert.KernelIdeal.main_arg37)) (W (Proc.devRef .tc Cert.KernelIdeal.main_arg38)) (W (Proc.devRef .tc Cert.KernelIdeal.main_arg39)) := by
  chain_rfl

theorem ref_V8_of (m' : (ℓ : Loc Cert.ReferenceIdeal.nD Cert.ReferenceIdeal.τ Cert.ReferenceIdeal.sig) → Buf (Elt F) ℓ) (c : Dev Cert.ReferenceIdeal.nD) (r : Ref Cert.ReferenceIdeal.sig .tc)
    (h0 : r ∉ Cert.ReferenceIdeal.RefRun.ops0_W) (h1 : r ∉ Cert.ReferenceIdeal.RefRun.ops1_W) (h2 : r ∉ Cert.ReferenceIdeal.RefRun.ops2a_W) (h3 : r ∉ Cert.ReferenceIdeal.RefRun.ops2b_W) (h4 : r ∉ Cert.ReferenceIdeal.RefRun.ops3a_W) (h5 : r ∉ Cert.ReferenceIdeal.RefRun.ops3b_W) (h6 : r ∉ Cert.ReferenceIdeal.RefRun.ops4a_W) (h7 : r ∉ Cert.ReferenceIdeal.RefRun.ops4b_W) :
    Cert.ReferenceIdeal.RefRun.V8 m' c r = m' ((c.tc : Thread Cert.ReferenceIdeal.nD Cert.ReferenceIdeal.τ).loc r) :=
  (Cert.ReferenceIdeal.RefRun.V8_of m' c r h7).trans <| (Cert.ReferenceIdeal.RefRun.V7_of m' c r h6).trans <| (Cert.ReferenceIdeal.RefRun.V6_of m' c r h5).trans <| (Cert.ReferenceIdeal.RefRun.V5_of m' c r h4).trans <| (Cert.ReferenceIdeal.RefRun.V4_of m' c r h3).trans <| (Cert.ReferenceIdeal.RefRun.V3_of m' c r h2).trans <| (Cert.ReferenceIdeal.RefRun.V2_of m' c r h1).trans <| (Cert.ReferenceIdeal.RefRun.V1_of m' c r h0)

theorem ker_V24_of (m : (ℓ : Loc Cert.KernelIdeal.nD Cert.KernelIdeal.τ Cert.KernelIdeal.sig) → Buf (Elt F) ℓ) (outs : Cert.KernelIdeal.Gen.Outs (F := F)) (c : Dev Cert.KernelIdeal.nD)
    (r : Ref Cert.KernelIdeal.sig .tc) (h2 : r ∉ Cert.KernelIdeal.Gen.hostOps4_2_W) (h3 : r ∉ Cert.KernelIdeal.Gen.hostOps4_3_W) (h4 : r ∉ Cert.KernelIdeal.Gen.hostOps4_4_W) :
    Cert.KernelIdeal.Gen.V27 m outs c r = Cert.KernelIdeal.Gen.V24 m outs c r :=
  (Cert.KernelIdeal.Gen.V27_of m outs c r h4).trans <| (Cert.KernelIdeal.Gen.V26_of m outs c r h3).trans (Cert.KernelIdeal.Gen.V25_of m outs c r h2)

theorem ref_tail (m' : (ℓ : Loc Cert.ReferenceIdeal.nD Cert.ReferenceIdeal.τ Cert.ReferenceIdeal.sig) → Buf (Elt F) ℓ)
    (c : Dev Cert.ReferenceIdeal.nD) :
    Cert.ReferenceIdeal.RefRun.Vend m' c Cert.ReferenceIdeal.main_v266
      = fcTail (Cert.ReferenceIdeal.RefRun.Vend m' c Cert.ReferenceIdeal.main_v247)
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg34))
          (m' ((c.tc : Thread Cert.ReferenceIdeal.nD Cert.ReferenceIdeal.τ).loc Cert.ReferenceIdeal.main_arg35))
          (m' ((c.tc : Thread Cert.ReferenceIdeal.nD Cert.ReferenceIdeal.τ).loc Cert.ReferenceIdeal.main_arg36))
          (m' ((c.tc : Thread Cert.ReferenceIdeal.nD Cert.ReferenceIdeal.τ).loc Cert.ReferenceIdeal.main_arg37))
          (m' ((c.tc : Thread Cert.ReferenceIdeal.nD Cert.ReferenceIdeal.τ).loc Cert.ReferenceIdeal.main_arg38))
          (m' ((c.tc : Thread Cert.ReferenceIdeal.nD Cert.ReferenceIdeal.τ).loc Cert.ReferenceIdeal.main_arg39)) := by
  have e247 : Cert.ReferenceIdeal.RefRun.Vend m' c Cert.ReferenceIdeal.main_v247 = Cert.ReferenceIdeal.RefRun.V8 m' c Cert.ReferenceIdeal.main_v247 :=
    (Cert.ReferenceIdeal.RefRun.V10_of m' c _ (by decide)).trans (Cert.ReferenceIdeal.RefRun.V9_of m' c _ (by decide))
  rw [e247, ← ref_V8_of m' c Cert.ReferenceIdeal.main_arg13 (by decide) (by decide) (by decide) (by decide) (by decide) (by decide) (by decide) (by decide),
    ← ref_V8_of m' c Cert.ReferenceIdeal.main_arg34 (by decide) (by decide) (by decide) (by decide) (by decide) (by decide) (by decide) (by decide),
    ← ref_V8_of m' c Cert.ReferenceIdeal.main_arg35 (by decide) (by decide) (by decide) (by decide) (by decide) (by decide) (by decide) (by decide),
    ← ref_V8_of m' c Cert.ReferenceIdeal.main_arg36 (by decide) (by decide) (by decide) (by decide) (by decide) (by decide) (by decide) (by decide),
    ← ref_V8_of m' c Cert.ReferenceIdeal.main_arg37 (by decide) (by decide) (by decide) (by decide) (by decide) (by decide) (by decide) (by decide),
    ← ref_V8_of m' c Cert.ReferenceIdeal.main_arg38 (by decide) (by decide) (by decide) (by decide) (by decide) (by decide) (by decide) (by decide),
    ← ref_V8_of m' c Cert.ReferenceIdeal.main_arg39 (by decide) (by decide) (by decide) (by decide) (by decide) (by decide) (by decide) (by decide)]
  exact tail_ref (Cert.ReferenceIdeal.RefRun.V8 m' c)

theorem ker_tail (m : (ℓ : Loc Cert.KernelIdeal.nD Cert.KernelIdeal.τ Cert.KernelIdeal.sig) → Buf (Elt F) ℓ)
    (outs : Cert.KernelIdeal.Gen.Outs (F := F)) (c : Dev Cert.KernelIdeal.nD) :
    Cert.KernelIdeal.Gen.V27 m outs c Cert.KernelIdeal.main_v178
      = fcTail (Cert.KernelIdeal.Gen.V27 m outs c Cert.KernelIdeal.main_v159)
          (m ((c.tc : Thread Cert.KernelIdeal.nD Cert.KernelIdeal.τ).loc Cert.KernelIdeal.main_arg13))
          (m ((c.tc : Thread Cert.KernelIdeal.nD Cert.KernelIdeal.τ).loc Cert.KernelIdeal.main_arg34))
          (m ((c.tc : Thread Cert.KernelIdeal.nD Cert.KernelIdeal.τ).loc Cert.KernelIdeal.main_arg35))
          (m ((c.tc : Thread Cert.KernelIdeal.nD Cert.KernelIdeal.τ).loc Cert.KernelIdeal.main_arg36))
          (m ((c.tc : Thread Cert.KernelIdeal.nD Cert.KernelIdeal.τ).loc Cert.KernelIdeal.main_arg37))
          (m ((c.tc : Thread Cert.KernelIdeal.nD Cert.KernelIdeal.τ).loc Cert.KernelIdeal.main_arg38))
          (m ((c.tc : Thread Cert.KernelIdeal.nD Cert.KernelIdeal.τ).loc Cert.KernelIdeal.main_arg39)) := by
  rw [← Cert.KernelIdeal.Gen.V27_main_arg13 m outs c, ker_V24_of m outs c Cert.KernelIdeal.main_arg13 (by decide) (by decide) (by decide),
    ← Cert.KernelIdeal.Gen.V27_main_arg34 m outs c, ker_V24_of m outs c Cert.KernelIdeal.main_arg34 (by decide) (by decide) (by decide),
    ← Cert.KernelIdeal.Gen.V27_main_arg35 m outs c, ker_V24_of m outs c Cert.KernelIdeal.main_arg35 (by decide) (by decide) (by decide),
    ← Cert.KernelIdeal.Gen.V27_main_arg36 m outs c, ker_V24_of m outs c Cert.KernelIdeal.main_arg36 (by decide) (by decide) (by decide),
    ← Cert.KernelIdeal.Gen.V27_main_arg37 m outs c, ker_V24_of m outs c Cert.KernelIdeal.main_arg37 (by decide) (by decide) (by decide),
    ← Cert.KernelIdeal.Gen.V27_main_arg38 m outs c, ker_V24_of m outs c Cert.KernelIdeal.main_arg38 (by decide) (by decide) (by decide),
    ← Cert.KernelIdeal.Gen.V27_main_arg39 m outs c, ker_V24_of m outs c Cert.KernelIdeal.main_arg39 (by decide) (by decide) (by decide)]
  exact tail_ker (Cert.KernelIdeal.Gen.V24 m outs c)

theorem final_tail (m : (ℓ : Loc Cert.KernelIdeal.nD Cert.KernelIdeal.τ Cert.KernelIdeal.sig) → Buf (Elt F) ℓ)
    (outs : Cert.KernelIdeal.Gen.Outs (F := F))
    (m' : (ℓ : Loc Cert.ReferenceIdeal.nD Cert.ReferenceIdeal.τ Cert.ReferenceIdeal.sig) → Buf (Elt F) ℓ)
    (c : Dev Cert.KernelIdeal.nD)
    (h13 : m' ((c.tc : Thread Cert.ReferenceIdeal.nD Cert.ReferenceIdeal.τ).loc Cert.ReferenceIdeal.main_arg13)
      = m ((c.tc : Thread Cert.KernelIdeal.nD Cert.KernelIdeal.τ).loc Cert.KernelIdeal.main_arg13))
    (h34 : m' ((c.tc : Thread Cert.ReferenceIdeal.nD Cert.ReferenceIdeal.τ).loc Cert.ReferenceIdeal.main_arg34)
      = m ((c.tc : Thread Cert.KernelIdeal.nD Cert.KernelIdeal.τ).loc Cert.KernelIdeal.main_arg34))
    (h35 : m' ((c.tc : Thread Cert.ReferenceIdeal.nD Cert.ReferenceIdeal.τ).loc Cert.ReferenceIdeal.main_arg35)
      = m ((c.tc : Thread Cert.KernelIdeal.nD Cert.KernelIdeal.τ).loc Cert.KernelIdeal.main_arg35))
    (h36 : m' ((c.tc : Thread Cert.ReferenceIdeal.nD Cert.ReferenceIdeal.τ).loc Cert.ReferenceIdeal.main_arg36)
      = m ((c.tc : Thread Cert.KernelIdeal.nD Cert.KernelIdeal.τ).loc Cert.KernelIdeal.main_arg36))
    (h37 : m' ((c.tc : Thread Cert.ReferenceIdeal.nD Cert.ReferenceIdeal.τ).loc Cert.ReferenceIdeal.main_arg37)
      = m ((c.tc : Thread Cert.KernelIdeal.nD Cert.KernelIdeal.τ).loc Cert.KernelIdeal.main_arg37))
    (h38 : m' ((c.tc : Thread Cert.ReferenceIdeal.nD Cert.ReferenceIdeal.τ).loc Cert.ReferenceIdeal.main_arg38)
      = m ((c.tc : Thread Cert.KernelIdeal.nD Cert.KernelIdeal.τ).loc Cert.KernelIdeal.main_arg38))
    (h39 : m' ((c.tc : Thread Cert.ReferenceIdeal.nD Cert.ReferenceIdeal.τ).loc Cert.ReferenceIdeal.main_arg39)
      = m ((c.tc : Thread Cert.KernelIdeal.nD Cert.KernelIdeal.τ).loc Cert.KernelIdeal.main_arg39))
    (hx : Cert.KernelIdeal.Gen.V27 m outs c Cert.KernelIdeal.main_v159
      = Cert.ReferenceIdeal.RefRun.Vend m' c Cert.ReferenceIdeal.main_v247) :
    Cert.KernelIdeal.Gen.V27 m outs c Cert.KernelIdeal.main_v178
      = Cert.ReferenceIdeal.RefRun.Vend m' c Cert.ReferenceIdeal.main_v266 := by
  rw [ker_tail, ref_tail, hx, h13, h34, h35, h36, h37, h38, h39]

end Cert.FinalTail

end
-- ==== Proof.EdgeLaw.lean ====
import Mathlib.Data.EReal.Operations
import Mathlib.Data.EReal.Inv
import Mathlib.Algebra.BigOperators.Fin
import Mathlib.Algebra.BigOperators.Ring.Finset

open Finset

namespace Cert.EdgeLaw

-- Multiplying by a non-negative real distributes over any finite sum of extended reals.
theorem sum_mul_coe_of_nonneg {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

-- A sum over the stacked index 3·C is the double sum over (mixture, channel).
theorem sum_stacked {C : ℕ} (hC : 0 < C) (h : Fin 3 → Fin C → EReal) :
    (∑ j : Fin (3 * C), h ⟨j.val / C, Nat.div_lt_of_lt_mul (by simpa [Nat.mul_comm] using j.isLt)⟩ ⟨j.val % C, Nat.mod_lt _ hC⟩)
      = ∑ k : Fin 3, ∑ c : Fin C, h k c := by
  rw [← (finProdFinEquiv (m := 3) (n := C)).sum_comp, Fintype.sum_prod_type]
  refine Finset.sum_congr rfl fun k _ => Finset.sum_congr rfl fun c _ => ?_
  have hdiv : (c.val + C * k.val) / C = k.val := by
    rw [Nat.add_mul_div_left _ _ hC, Nat.div_eq_of_lt c.isLt, Nat.zero_add]
  have hmod : (c.val + C * k.val) % C = c.val := by
    rw [Nat.add_mul_mod_self_left, Nat.mod_eq_of_lt c.isLt]
  congr 1
  · exact Fin.ext hdiv
  · exact Fin.ext hmod

-- Project then weight = weight three copies, stack, contract once: distributivity per mixture, then re-indexing.
theorem project_weight_eq_stack {C : ℕ} (hC : 0 < C) (x : Fin C → EReal) (g : Fin C → Fin 3 → EReal)
    (w : Fin 3 → ℝ) (hw : ∀ k, 0 ≤ w k) :
    (∑ k : Fin 3, (∑ c : Fin C, x c * g c k) * (w k : EReal))
      = ∑ j : Fin (3 * C),
          (x ⟨j.val % C, Nat.mod_lt _ hC⟩ * (w ⟨j.val / C, Nat.div_lt_of_lt_mul (by simpa [Nat.mul_comm] using j.isLt)⟩ : EReal))
            * g ⟨j.val % C, Nat.mod_lt _ hC⟩ ⟨j.val / C, Nat.div_lt_of_lt_mul (by simpa [Nat.mul_comm] using j.isLt)⟩ := by
  refine Eq.trans ?_ (sum_stacked hC (fun k c => (x c * (w k : EReal)) * g c k)).symm
  refine Finset.sum_congr rfl fun k _ => ?_
  rw [sum_mul_coe_of_nonneg _ _ (hw k)]
  refine Finset.sum_congr rfl fun c _ => ?_
  exact mul_right_comm (x c) (g c k) (w k : EReal)

end Cert.EdgeLaw
-- ==== Proof.Spec.lean ====
import Idealize.ShloMosaic.PureOps.Ideal
import Idealize.ShloMosaic.Lib.ValueIdx

noncomputable section

namespace Cert.Spec

open Idealize.ShloMosaic

def gaussW (p0 p1 m0 m1 s0 s1 : EReal) : EReal :=
  Ideal.exp (Ideal.ofBits .f32 0xBF000000#32 *
    (Ideal.div ((p0 - m0) * (p0 - m0)) (s0 * s0 + Ideal.ofBits .f32 0x26901D7D#32)
      + Ideal.div ((p1 - m1) * (p1 - m1)) (s1 * s1 + Ideal.ofBits .f32 0x26901D7D#32)))

end Cert.Spec

end
-- ==== Proof.WeightReal.lean ====
import proofs.«402598_j31782757990676_2_alg».proof.Proof.Spec
import Idealize.ShloMosaic.PureOps.Ideal
import Mathlib.Data.EReal.Basic
import Mathlib.Data.EReal.Operations
import Mathlib.Analysis.Complex.Exponential

noncomputable section

namespace Cert.WeightReal

open Idealize.ShloMosaic

theorem half_real : ∃ h : ℝ, Ideal.ofBits .f32 0xBF000000#32 = (h : EReal) := by
  refine ⟨-1 * ((2 ^ 23 + 0 : ℕ) : ℝ) * (2 : ℝ) ^ ((126 : ℤ) - (2 ^ (8 - 1) - 1) - (23 : ℕ)), ?_⟩
  show Ideal.ieee 8 23 (0xBF000000#32) = _
  delta Ideal.ieee
  simp

theorem eps_pos : ∃ e : ℝ, 0 < e ∧ Ideal.ofBits .f32 0x26901D7D#32 = (e : EReal) := by
  refine ⟨1 * ((2 ^ 23 + 1056125 : ℕ) : ℝ) * (2 : ℝ) ^ ((77 : ℤ) - (2 ^ (8 - 1) - 1) - (23 : ℕ)), by positivity, ?_⟩
  show Ideal.ieee 8 23 (0x26901D7D#32) = _
  delta Ideal.ieee
  simp

theorem div_real (a d : ℝ) (hd : d ≠ 0) : Ideal.div (a : EReal) (d : EReal) = ((a / d : ℝ) : EReal) := by
  rw [Ideal.div_coe hd, ← EReal.coe_mul, mul_one_div]

-- At real arguments every intermediate is real and the weight is an exponential: a non-negative real.
theorem gaussW_real (p0 p1 m0 m1 s0 s1 : ℝ) :
    ∃ r : ℝ, 0 ≤ r ∧ Cert.Spec.gaussW (p0 : EReal) p1 m0 m1 s0 s1 = (r : EReal) := by
  obtain ⟨h, hh⟩ := half_real
  obtain ⟨e, he, hee⟩ := eps_pos
  have d0 : s0 * s0 + e ≠ 0 := (add_pos_of_nonneg_of_pos (mul_self_nonneg s0) he).ne'
  have d1 : s1 * s1 + e ≠ 0 := (add_pos_of_nonneg_of_pos (mul_self_nonneg s1) he).ne'
  refine ⟨Real.exp (h * ((p0 - m0) * (p0 - m0) / (s0 * s0 + e) + (p1 - m1) * (p1 - m1) / (s1 * s1 + e))),
    (Real.exp_pos _).le, ?_⟩
  unfold Cert.Spec.gaussW
  rw [hh, hee, ← EReal.coe_sub, ← EReal.coe_sub, ← EReal.coe_mul, ← EReal.coe_mul, ← EReal.coe_mul,
    ← EReal.coe_mul, ← EReal.coe_add, ← EReal.coe_add, div_real _ _ d0, div_real _ _ d1, ← EReal.coe_add,
    ← EReal.coe_mul, Ideal.exp_coe]

theorem gaussW_real' {p0 p1 m0 m1 s0 s1 : EReal}
    (hp0 : ∃ r : ℝ, p0 = r) (hp1 : ∃ r : ℝ, p1 = r) (hm0 : ∃ r : ℝ, m0 = r) (hm1 : ∃ r : ℝ, m1 = r)
    (hs0 : ∃ r : ℝ, s0 = r) (hs1 : ∃ r : ℝ, s1 = r) :
    ∃ r : ℝ, 0 ≤ r ∧ Cert.Spec.gaussW p0 p1 m0 m1 s0 s1 = (r : EReal) := by
  obtain ⟨a0, rfl⟩ := hp0
  obtain ⟨a1, rfl⟩ := hp1
  obtain ⟨b0, rfl⟩ := hm0
  obtain ⟨b1, rfl⟩ := hm1
  obtain ⟨c0, rfl⟩ := hs0
  obtain ⟨c1, rfl⟩ := hs1
  exact gaussW_real a0 a1 b0 b1 c0 c1

end Cert.WeightReal

end
-- ==== Proof.PreFacts.lean ====
import proofs.«402598_j31782757990676_2_alg».proof.Pre_finite_inputs
import Idealize.ShloMosaic.Lib.ReduceAll
import Idealize.ShloMosaic.Lib.ValueIdx
import Idealize.ShloMosaic.Lib.StableHlo.Predicate
import Idealize.ShloMosaic.PureOps.Ideal
import Mathlib.Data.EReal.Basic

noncomputable section

namespace Cert.PreFacts

open Idealize.ShloMosaic Cert.Pre_finite_inputs Cert.Pre_finite_inputs.Facts

variable [Cert.Pre_finite_inputs.Facts]

open Idealize.ShloMosaic.StableHlo.Predicate (ofBool_eq_one_iff toInt_ofNat_small)

theorem ofBits_inf : Ideal.ofBits .f32 0x7F800000#32 = (⊤ : EReal) := by
  simp [Ideal.ofBits, Ideal.ieee]

theorem real_of_abs_lt (x : EReal)
    (hx : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at hx
  rw [ofBits_inf] at hx
  unfold Ideal.cmp at hx
  induction x using EReal.rec with
  | bot => simp at hx
  | coe r => exact ⟨r, rfl⟩
  | top => simp at hx

theorem word_range (w : BitVec 32) (n : Nat) (hn : n < 2 ^ 31) (h0 : IntOp.cmpi .sge w 0#32 = 1#1)
    (h1 : IntOp.cmpi .slt w (BitVec.ofNat 32 n) = 1#1) : 0 ≤ w.toInt ∧ w.toInt < n := by
  unfold IntOp.cmpi at h0 h1
  simp only [BitVec.slt, BitVec.sle, ofBool_eq_one_iff, decide_eq_true_eq] at h0 h1
  rw [toInt_ofNat_small n hn] at h1
  have z : (0#32).toInt = 0 := by decide
  rw [z] at h0
  exact ⟨h0, h1⟩

theorem word_toNat_lt (w : BitVec 32) (n : Nat) (h0 : 0 ≤ w.toInt) (h1 : w.toInt < n) : w.toNat < n := by
  have := BitVec.toInt_eq_toNat_cond w
  have h32 := w.isLt
  split at this <;> omega

theorem word_slt (w : BitVec 32) (h0 : 0 ≤ w.toInt) : IntOp.cmpi .slt w 0#32 = 0#1 := by
  unfold IntOp.cmpi
  have z : (0#32).toInt = 0 := by decide
  simp only [BitVec.slt, z]
  rw [decide_eq_false (by omega)]
  rfl

theorem word_sle (w : BitVec 32) (n : Nat) (hn : n < 2 ^ 31) (h1 : w.toInt ≤ n) :
    IntOp.cmpi .sle w (BitVec.ofNat 32 n) = 1#1 := by
  unfold IntOp.cmpi
  simp only [BitVec.sle, toInt_ofNat_small n hn]
  rw [decide_eq_true h1]
  rfl

theorem word_sge (w : BitVec 32) (h0 : 0 ≤ w.toInt) : IntOp.cmpi .sge w 0#32 = 1#1 := by
  unfold IntOp.cmpi
  have z : (0#32).toInt = 0 := by decide
  simp only [BitVec.sle, z]
  rw [decide_eq_true h0]
  rfl

instance subsingleton_S_Idx : Subsingleton S_.Idx := ⟨fun a b => funext fun d => d.elim0⟩

theorem level_range {E : Shape} (src : IVec E 32) (hb : S_.BroadcastsInDim E ![]) (n : Nat) (hn : n < 2 ^ 31)
    (hR : ∀ e : E.Idx, andi (cmpi .sge src (broadcastInDim E ![] hb (constantI S_ 32 0#32)))
      (cmpi .slt src (broadcastInDim E ![] hb (constantI S_ 32 (BitVec.ofNat 32 n)))) e = 1#1) (e : E.Idx) :
    0 ≤ (src e).toInt ∧ (src e).toInt < n := by
  have he := hR e
  change IntOp.andi (IntOp.cmpi .sge (src e) 0#32) (IntOp.cmpi .slt (src e) (BitVec.ofNat 32 n)) = 1#1 at he
  obtain ⟨h0, h1⟩ := IntOp.andi_eq_one.1 he
  exact word_range _ n hn h0 h1

variable {a0 : FVec Ideal S163848x2 .f32} {a1 : IVec S2x983040 32} {a2 : IVec S2x245760 32} {a3 : IVec S2x61440 32} {a4 : IVec S2x15360 32} {a5 : FVec Ideal S983040x2 .f32} {a6 : FVec Ideal S245760x2 .f32} {a7 : FVec Ideal S61440x2 .f32} {a8 : FVec Ideal S15360x2 .f32} {a9 : IVec S40962x7 32} {a10 : IVec S10242x7 32} {a11 : IVec S2562x7 32} {a12 : IVec S642x7 32} {a13 : FVec Ideal S4x1 .f32} {a14 : FVec Ideal S2x96 .f32} {a15 : FVec Ideal S3x2 .f32} {a16 : FVec Ideal S3x2 .f32} {a17 : FVec Ideal S2x32 .f32} {a18 : FVec Ideal S32 .f32} {a19 : FVec Ideal S32x192 .f32} {a20 : FVec Ideal S3x2 .f32} {a21 : FVec Ideal S3x2 .f32} {a22 : FVec Ideal S32x64 .f32} {a23 : FVec Ideal S64 .f32} {a24 : FVec Ideal S64x384 .f32} {a25 : FVec Ideal S3x2 .f32} {a26 : FVec Ideal S3x2 .f32} {a27 : FVec Ideal S64x128 .f32} {a28 : FVec Ideal S128 .f32} {a29 : FVec Ideal S128x768 .f32} {a30 : FVec Ideal S3x2 .f32} {a31 : FVec Ideal S3x2 .f32} {a32 : FVec Ideal S128x256 .f32} {a33 : FVec Ideal S256 .f32} {a34 : FVec Ideal S4 .f32} {a35 : FVec Ideal S4 .f32} {a36 : FVec Ideal S41476x256 .f32} {a37 : FVec Ideal S256 .f32} {a38 : FVec Ideal S256x1 .f32} {a39 : FVec Ideal S1 .f32}

variable (h : Cert.Pre_finite_inputs.fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 a39 = fun _ => 1#1)
include h

-- The precondition is a conjunction of one `all` per input; each is read back as a pointwise fact.
theorem split :
    ((∀ i : S983040x2.Idx, cmpf .olt (Host.absf a5) (broadcastInDim S983040x2 ![] bcast_S_S983040x2 (constant S_ .f32 0x7F800000#32)) i = 1#1)
      ∧ (∀ i : S245760x2.Idx, cmpf .olt (Host.absf a6) (broadcastInDim S245760x2 ![] bcast_S_S245760x2 (constant S_ .f32 0x7F800000#32)) i = 1#1)
      ∧ (∀ i : S61440x2.Idx, cmpf .olt (Host.absf a7) (broadcastInDim S61440x2 ![] bcast_S_S61440x2 (constant S_ .f32 0x7F800000#32)) i = 1#1)
      ∧ (∀ i : S15360x2.Idx, cmpf .olt (Host.absf a8) (broadcastInDim S15360x2 ![] bcast_S_S15360x2 (constant S_ .f32 0x7F800000#32)) i = 1#1)
      ∧ (∀ i : S3x2.Idx, cmpf .olt (Host.absf a15) (broadcastInDim S3x2 ![] bcast_S_S3x2 (constant S_ .f32 0x7F800000#32)) i = 1#1)
      ∧ (∀ i : S3x2.Idx, cmpf .olt (Host.absf a16) (broadcastInDim S3x2 ![] bcast_S_S3x2 (constant S_ .f32 0x7F800000#32)) i = 1#1)
      ∧ (∀ i : S3x2.Idx, cmpf .olt (Host.absf a20) (broadcastInDim S3x2 ![] bcast_S_S3x2 (constant S_ .f32 0x7F800000#32)) i = 1#1)
      ∧ (∀ i : S3x2.Idx, cmpf .olt (Host.absf a21) (broadcastInDim S3x2 ![] bcast_S_S3x2 (constant S_ .f32 0x7F800000#32)) i = 1#1)
      ∧ (∀ i : S3x2.Idx, cmpf .olt (Host.absf a25) (broadcastInDim S3x2 ![] bcast_S_S3x2 (constant S_ .f32 0x7F800000#32)) i = 1#1)
      ∧ (∀ i : S3x2.Idx, cmpf .olt (Host.absf a26) (broadcastInDim S3x2 ![] bcast_S_S3x2 (constant S_ .f32 0x7F800000#32)) i = 1#1)
      ∧ (∀ i : S3x2.Idx, cmpf .olt (Host.absf a30) (broadcastInDim S3x2 ![] bcast_S_S3x2 (constant S_ .f32 0x7F800000#32)) i = 1#1)
      ∧ (∀ i : S3x2.Idx, cmpf .olt (Host.absf a31) (broadcastInDim S3x2 ![] bcast_S_S3x2 (constant S_ .f32 0x7F800000#32)) i = 1#1))
    ∧ (∀ e : S983040.Idx, andi (cmpi .sge (shapeCast S983040 (extractStridedSlice S1x983040 ![0, 0] a1 slices_S2x983040_S1x983040_0_0) shapeCasts_S1x983040_S983040) (broadcastInDim S983040 ![] bcast_S_S983040 (constantI S_ 32 0#32))) (cmpi .slt (shapeCast S983040 (extractStridedSlice S1x983040 ![0, 0] a1 slices_S2x983040_S1x983040_0_0) shapeCasts_S1x983040_S983040) (broadcastInDim S983040 ![] bcast_S_S983040 (constantI S_ 32 163848#32))) e = 1#1)
      ∧ (∀ e : S245760.Idx, andi (cmpi .sge (shapeCast S245760 (extractStridedSlice S1x245760 ![0, 0] a2 slices_S2x245760_S1x245760_0_0) shapeCasts_S1x245760_S245760) (broadcastInDim S245760 ![] bcast_S_S245760 (constantI S_ 32 0#32))) (cmpi .slt (shapeCast S245760 (extractStridedSlice S1x245760 ![0, 0] a2 slices_S2x245760_S1x245760_0_0) shapeCasts_S1x245760_S245760) (broadcastInDim S245760 ![] bcast_S_S245760 (constantI S_ 32 40968#32))) e = 1#1)
      ∧ (∀ e : S61440.Idx, andi (cmpi .sge (shapeCast S61440 (extractStridedSlice S1x61440 ![0, 0] a3 slices_S2x61440_S1x61440_0_0) shapeCasts_S1x61440_S61440) (broadcastInDim S61440 ![] bcast_S_S61440 (constantI S_ 32 0#32))) (cmpi .slt (shapeCast S61440 (extractStridedSlice S1x61440 ![0, 0] a3 slices_S2x61440_S1x61440_0_0) shapeCasts_S1x61440_S61440) (broadcastInDim S61440 ![] bcast_S_S61440 (constantI S_ 32 10248#32))) e = 1#1)
      ∧ (∀ e : S15360.Idx, andi (cmpi .sge (shapeCast S15360 (extractStridedSlice S1x15360 ![0, 0] a4 slices_S2x15360_S1x15360_0_0) shapeCasts_S1x15360_S15360) (broadcastInDim S15360 ![] bcast_S_S15360 (constantI S_ 32 0#32))) (cmpi .slt (shapeCast S15360 (extractStridedSlice S1x15360 ![0, 0] a4 slices_S2x15360_S1x15360_0_0) shapeCasts_S1x15360_S15360) (broadcastInDim S15360 ![] bcast_S_S15360 (constantI S_ 32 2568#32))) e = 1#1) := by
  have e := congrFun h ValueIdx.ix0
  dsimp only [fn, fn_part1, fn_part2, fn_part3, fn_part4, fn_part5, fn_part6, fn_part7, fn_part8, fn_part9, fn_part10,
    fn_part11, andi] at e
  simp only [IntOp.andi_eq_one] at e
  obtain ⟨⟨⟨⟨⟨⟨⟨⟨⟨⟨⟨⟨⟨⟨⟨⟨⟨⟨⟨⟨⟨⟨⟨⟨⟨⟨⟨⟨⟨⟨⟨⟨⟨⟨⟨c0, c5⟩, c6⟩, c7⟩, c8⟩, c13⟩, c14⟩, c15⟩, c16⟩, c17⟩, c18⟩, c19⟩, c20⟩, c21⟩, c22⟩, c23⟩, c24⟩, c25⟩, c26⟩, c27⟩, c28⟩, c29⟩, c30⟩, c31⟩, c32⟩, c33⟩, c34⟩, c35⟩, c36⟩, c37⟩, c38⟩, c39⟩, r6⟩, r5⟩, r4⟩, r3⟩ := e
  exact ⟨⟨fun i => Host.reduce_andi_all _ _ _ _ _ c5 i,
    fun i => Host.reduce_andi_all _ _ _ _ _ c6 i,
    fun i => Host.reduce_andi_all _ _ _ _ _ c7 i,
    fun i => Host.reduce_andi_all _ _ _ _ _ c8 i,
    fun i => Host.reduce_andi_all _ _ _ _ _ c15 i,
    fun i => Host.reduce_andi_all _ _ _ _ _ c16 i,
    fun i => Host.reduce_andi_all _ _ _ _ _ c20 i,
    fun i => Host.reduce_andi_all _ _ _ _ _ c21 i,
    fun i => Host.reduce_andi_all _ _ _ _ _ c25 i,
    fun i => Host.reduce_andi_all _ _ _ _ _ c26 i,
    fun i => Host.reduce_andi_all _ _ _ _ _ c30 i,
    fun i => Host.reduce_andi_all _ _ _ _ _ c31 i⟩,
    fun i => Host.reduce_andi_all _ _ _ _ _ r6 i,
    fun i => Host.reduce_andi_all _ _ _ _ _ r5 i,
    fun i => Host.reduce_andi_all _ _ _ _ _ r4 i,
    fun i => Host.reduce_andi_all _ _ _ _ _ r3 i⟩

theorem real_arg5 :
    ∀ i : S983040x2.Idx, ∃ r : ℝ, a5 i = (r : EReal) := by
  obtain ⟨⟨f5, f6, f7, f8, f15, f16, f20, f21, f25, f26, f30, f31⟩, r6, r5, r4, r3⟩ := split h
  exact fun i => real_of_abs_lt _ (f5 i)

theorem real_arg6 :
    ∀ i : S245760x2.Idx, ∃ r : ℝ, a6 i = (r : EReal) := by
  obtain ⟨⟨f5, f6, f7, f8, f15, f16, f20, f21, f25, f26, f30, f31⟩, r6, r5, r4, r3⟩ := split h
  exact fun i => real_of_abs_lt _ (f6 i)

theorem real_arg7 :
    ∀ i : S61440x2.Idx, ∃ r : ℝ, a7 i = (r : EReal) := by
  obtain ⟨⟨f5, f6, f7, f8, f15, f16, f20, f21, f25, f26, f30, f31⟩, r6, r5, r4, r3⟩ := split h
  exact fun i => real_of_abs_lt _ (f7 i)

theorem real_arg8 :
    ∀ i : S15360x2.Idx, ∃ r : ℝ, a8 i = (r : EReal) := by
  obtain ⟨⟨f5, f6, f7, f8, f15, f16, f20, f21, f25, f26, f30, f31⟩, r6, r5, r4, r3⟩ := split h
  exact fun i => real_of_abs_lt _ (f8 i)

theorem real_arg15 :
    ∀ i : S3x2.Idx, ∃ r : ℝ, a15 i = (r : EReal) := by
  obtain ⟨⟨f5, f6, f7, f8, f15, f16, f20, f21, f25, f26, f30, f31⟩, r6, r5, r4, r3⟩ := split h
  exact fun i => real_of_abs_lt _ (f15 i)

theorem real_arg20 :
    ∀ i : S3x2.Idx, ∃ r : ℝ, a20 i = (r : EReal) := by
  obtain ⟨⟨f5, f6, f7, f8, f15, f16, f20, f21, f25, f26, f30, f31⟩, r6, r5, r4, r3⟩ := split h
  exact fun i => real_of_abs_lt _ (f20 i)

theorem real_arg25 :
    ∀ i : S3x2.Idx, ∃ r : ℝ, a25 i = (r : EReal) := by
  obtain ⟨⟨f5, f6, f7, f8, f15, f16, f20, f21, f25, f26, f30, f31⟩, r6, r5, r4, r3⟩ := split h
  exact fun i => real_of_abs_lt _ (f25 i)

theorem real_arg30 :
    ∀ i : S3x2.Idx, ∃ r : ℝ, a30 i = (r : EReal) := by
  obtain ⟨⟨f5, f6, f7, f8, f15, f16, f20, f21, f25, f26, f30, f31⟩, r6, r5, r4, r3⟩ := split h
  exact fun i => real_of_abs_lt _ (f30 i)

theorem real_arg16 :
    ∀ i : S3x2.Idx, ∃ r : ℝ, a16 i = (r : EReal) := by
  obtain ⟨⟨f5, f6, f7, f8, f15, f16, f20, f21, f25, f26, f30, f31⟩, r6, r5, r4, r3⟩ := split h
  exact fun i => real_of_abs_lt _ (f16 i)

theorem real_arg21 :
    ∀ i : S3x2.Idx, ∃ r : ℝ, a21 i = (r : EReal) := by
  obtain ⟨⟨f5, f6, f7, f8, f15, f16, f20, f21, f25, f26, f30, f31⟩, r6, r5, r4, r3⟩ := split h
  exact fun i => real_of_abs_lt _ (f21 i)

theorem real_arg26 :
    ∀ i : S3x2.Idx, ∃ r : ℝ, a26 i = (r : EReal) := by
  obtain ⟨⟨f5, f6, f7, f8, f15, f16, f20, f21, f25, f26, f30, f31⟩, r6, r5, r4, r3⟩ := split h
  exact fun i => real_of_abs_lt _ (f26 i)

theorem real_arg31 :
    ∀ i : S3x2.Idx, ∃ r : ℝ, a31 i = (r : EReal) := by
  obtain ⟨⟨f5, f6, f7, f8, f15, f16, f20, f21, f25, f26, f30, f31⟩, r6, r5, r4, r3⟩ := split h
  exact fun i => real_of_abs_lt _ (f31 i)

theorem src6_range (e : S983040.Idx) :
    0 ≤ ((shapeCast S983040 (extractStridedSlice S1x983040 ![0, 0] a1 slices_S2x983040_S1x983040_0_0) shapeCasts_S1x983040_S983040) e).toInt ∧ ((shapeCast S983040 (extractStridedSlice S1x983040 ![0, 0] a1 slices_S2x983040_S1x983040_0_0) shapeCasts_S1x983040_S983040) e).toInt < 163848 := by
  obtain ⟨⟨f5, f6, f7, f8, f15, f16, f20, f21, f25, f26, f30, f31⟩, r6, r5, r4, r3⟩ := split h
  exact level_range _ _ 163848 (by decide) r6 e

theorem src6_toNat_lt (e : S983040.Idx) :
    ((shapeCast S983040 (extractStridedSlice S1x983040 ![0, 0] a1 slices_S2x983040_S1x983040_0_0) shapeCasts_S1x983040_S983040) e).toNat < 163848 :=
  word_toNat_lt _ 163848 (src6_range h e).1 (src6_range h e).2

theorem src6_slt (e : S983040.Idx) :
    IntOp.cmpi .slt ((shapeCast S983040 (extractStridedSlice S1x983040 ![0, 0] a1 slices_S2x983040_S1x983040_0_0) shapeCasts_S1x983040_S983040) e) 0#32 = 0#1 :=
  word_slt _ (src6_range h e).1

theorem src6_sle (e : S983040.Idx) :
    IntOp.cmpi .sle ((shapeCast S983040 (extractStridedSlice S1x983040 ![0, 0] a1 slices_S2x983040_S1x983040_0_0) shapeCasts_S1x983040_S983040) e) 163847#32 = 1#1 :=
  word_sle _ 163847 (by decide) (by have := (src6_range h e).2; omega)

theorem src6_sge (e : S983040.Idx) :
    IntOp.cmpi .sge ((shapeCast S983040 (extractStridedSlice S1x983040 ![0, 0] a1 slices_S2x983040_S1x983040_0_0) shapeCasts_S1x983040_S983040) e) 0#32 = 1#1 :=
  word_sge _ (src6_range h e).1

theorem src6_slt_vec :
    cmpi .slt (shapeCast S983040 (extractStridedSlice S1x983040 ![0, 0] a1 slices_S2x983040_S1x983040_0_0) shapeCasts_S1x983040_S983040) (broadcastInDim S983040 ![] bcast_S_S983040 (constantI S_ 32 0#32)) = fun _ => 0#1 :=
  funext fun e => src6_slt h e

theorem src6_sle_vec :
    cmpi .sle (shapeCast S983040 (extractStridedSlice S1x983040 ![0, 0] a1 slices_S2x983040_S1x983040_0_0) shapeCasts_S1x983040_S983040) (broadcastInDim S983040 ![] bcast_S_S983040 (constantI S_ 32 163847#32)) = fun _ => 1#1 :=
  funext fun e => src6_sle h e

theorem src6_sge_vec :
    cmpi .sge (shapeCast S983040 (extractStridedSlice S1x983040 ![0, 0] a1 slices_S2x983040_S1x983040_0_0) shapeCasts_S1x983040_S983040) (broadcastInDim S983040 ![] bcast_S_S983040 (constantI S_ 32 0#32)) = fun _ => 1#1 :=
  funext fun e => src6_sge h e

theorem src5_range (e : S245760.Idx) :
    0 ≤ ((shapeCast S245760 (extractStridedSlice S1x245760 ![0, 0] a2 slices_S2x245760_S1x245760_0_0) shapeCasts_S1x245760_S245760) e).toInt ∧ ((shapeCast S245760 (extractStridedSlice S1x245760 ![0, 0] a2 slices_S2x245760_S1x245760_0_0) shapeCasts_S1x245760_S245760) e).toInt < 40968 := by
  obtain ⟨⟨f5, f6, f7, f8, f15, f16, f20, f21, f25, f26, f30, f31⟩, r6, r5, r4, r3⟩ := split h
  exact level_range _ _ 40968 (by decide) r5 e

theorem src5_toNat_lt (e : S245760.Idx) :
    ((shapeCast S245760 (extractStridedSlice S1x245760 ![0, 0] a2 slices_S2x245760_S1x245760_0_0) shapeCasts_S1x245760_S245760) e).toNat < 40968 :=
  word_toNat_lt _ 40968 (src5_range h e).1 (src5_range h e).2

theorem src5_slt (e : S245760.Idx) :
    IntOp.cmpi .slt ((shapeCast S245760 (extractStridedSlice S1x245760 ![0, 0] a2 slices_S2x245760_S1x245760_0_0) shapeCasts_S1x245760_S245760) e) 0#32 = 0#1 :=
  word_slt _ (src5_range h e).1

theorem src5_sle (e : S245760.Idx) :
    IntOp.cmpi .sle ((shapeCast S245760 (extractStridedSlice S1x245760 ![0, 0] a2 slices_S2x245760_S1x245760_0_0) shapeCasts_S1x245760_S245760) e) 40967#32 = 1#1 :=
  word_sle _ 40967 (by decide) (by have := (src5_range h e).2; omega)

theorem src5_sge (e : S245760.Idx) :
    IntOp.cmpi .sge ((shapeCast S245760 (extractStridedSlice S1x245760 ![0, 0] a2 slices_S2x245760_S1x245760_0_0) shapeCasts_S1x245760_S245760) e) 0#32 = 1#1 :=
  word_sge _ (src5_range h e).1

theorem src5_slt_vec :
    cmpi .slt (shapeCast S245760 (extractStridedSlice S1x245760 ![0, 0] a2 slices_S2x245760_S1x245760_0_0) shapeCasts_S1x245760_S245760) (broadcastInDim S245760 ![] bcast_S_S245760 (constantI S_ 32 0#32)) = fun _ => 0#1 :=
  funext fun e => src5_slt h e

theorem src5_sle_vec :
    cmpi .sle (shapeCast S245760 (extractStridedSlice S1x245760 ![0, 0] a2 slices_S2x245760_S1x245760_0_0) shapeCasts_S1x245760_S245760) (broadcastInDim S245760 ![] bcast_S_S245760 (constantI S_ 32 40967#32)) = fun _ => 1#1 :=
  funext fun e => src5_sle h e

theorem src5_sge_vec :
    cmpi .sge (shapeCast S245760 (extractStridedSlice S1x245760 ![0, 0] a2 slices_S2x245760_S1x245760_0_0) shapeCasts_S1x245760_S245760) (broadcastInDim S245760 ![] bcast_S_S245760 (constantI S_ 32 0#32)) = fun _ => 1#1 :=
  funext fun e => src5_sge h e

theorem src4_range (e : S61440.Idx) :
    0 ≤ ((shapeCast S61440 (extractStridedSlice S1x61440 ![0, 0] a3 slices_S2x61440_S1x61440_0_0) shapeCasts_S1x61440_S61440) e).toInt ∧ ((shapeCast S61440 (extractStridedSlice S1x61440 ![0, 0] a3 slices_S2x61440_S1x61440_0_0) shapeCasts_S1x61440_S61440) e).toInt < 10248 := by
  obtain ⟨⟨f5, f6, f7, f8, f15, f16, f20, f21, f25, f26, f30, f31⟩, r6, r5, r4, r3⟩ := split h
  exact level_range _ _ 10248 (by decide) r4 e

theorem src4_toNat_lt (e : S61440.Idx) :
    ((shapeCast S61440 (extractStridedSlice S1x61440 ![0, 0] a3 slices_S2x61440_S1x61440_0_0) shapeCasts_S1x61440_S61440) e).toNat < 10248 :=
  word_toNat_lt _ 10248 (src4_range h e).1 (src4_range h e).2

theorem src4_slt (e : S61440.Idx) :
    IntOp.cmpi .slt ((shapeCast S61440 (extractStridedSlice S1x61440 ![0, 0] a3 slices_S2x61440_S1x61440_0_0) shapeCasts_S1x61440_S61440) e) 0#32 = 0#1 :=
  word_slt _ (src4_range h e).1

theorem src4_sle (e : S61440.Idx) :
    IntOp.cmpi .sle ((shapeCast S61440 (extractStridedSlice S1x61440 ![0, 0] a3 slices_S2x61440_S1x61440_0_0) shapeCasts_S1x61440_S61440) e) 10247#32 = 1#1 :=
  word_sle _ 10247 (by decide) (by have := (src4_range h e).2; omega)

theorem src4_sge (e : S61440.Idx) :
    IntOp.cmpi .sge ((shapeCast S61440 (extractStridedSlice S1x61440 ![0, 0] a3 slices_S2x61440_S1x61440_0_0) shapeCasts_S1x61440_S61440) e) 0#32 = 1#1 :=
  word_sge _ (src4_range h e).1

theorem src4_slt_vec :
    cmpi .slt (shapeCast S61440 (extractStridedSlice S1x61440 ![0, 0] a3 slices_S2x61440_S1x61440_0_0) shapeCasts_S1x61440_S61440) (broadcastInDim S61440 ![] bcast_S_S61440 (constantI S_ 32 0#32)) = fun _ => 0#1 :=
  funext fun e => src4_slt h e

theorem src4_sle_vec :
    cmpi .sle (shapeCast S61440 (extractStridedSlice S1x61440 ![0, 0] a3 slices_S2x61440_S1x61440_0_0) shapeCasts_S1x61440_S61440) (broadcastInDim S61440 ![] bcast_S_S61440 (constantI S_ 32 10247#32)) = fun _ => 1#1 :=
  funext fun e => src4_sle h e

theorem src4_sge_vec :
    cmpi .sge (shapeCast S61440 (extractStridedSlice S1x61440 ![0, 0] a3 slices_S2x61440_S1x61440_0_0) shapeCasts_S1x61440_S61440) (broadcastInDim S61440 ![] bcast_S_S61440 (constantI S_ 32 0#32)) = fun _ => 1#1 :=
  funext fun e => src4_sge h e

theorem src3_range (e : S15360.Idx) :
    0 ≤ ((shapeCast S15360 (extractStridedSlice S1x15360 ![0, 0] a4 slices_S2x15360_S1x15360_0_0) shapeCasts_S1x15360_S15360) e).toInt ∧ ((shapeCast S15360 (extractStridedSlice S1x15360 ![0, 0] a4 slices_S2x15360_S1x15360_0_0) shapeCasts_S1x15360_S15360) e).toInt < 2568 := by
  obtain ⟨⟨f5, f6, f7, f8, f15, f16, f20, f21, f25, f26, f30, f31⟩, r6, r5, r4, r3⟩ := split h
  exact level_range _ _ 2568 (by decide) r3 e

theorem src3_toNat_lt (e : S15360.Idx) :
    ((shapeCast S15360 (extractStridedSlice S1x15360 ![0, 0] a4 slices_S2x15360_S1x15360_0_0) shapeCasts_S1x15360_S15360) e).toNat < 2568 :=
  word_toNat_lt _ 2568 (src3_range h e).1 (src3_range h e).2

theorem src3_slt (e : S15360.Idx) :
    IntOp.cmpi .slt ((shapeCast S15360 (extractStridedSlice S1x15360 ![0, 0] a4 slices_S2x15360_S1x15360_0_0) shapeCasts_S1x15360_S15360) e) 0#32 = 0#1 :=
  word_slt _ (src3_range h e).1

theorem src3_sle (e : S15360.Idx) :
    IntOp.cmpi .sle ((shapeCast S15360 (extractStridedSlice S1x15360 ![0, 0] a4 slices_S2x15360_S1x15360_0_0) shapeCasts_S1x15360_S15360) e) 2567#32 = 1#1 :=
  word_sle _ 2567 (by decide) (by have := (src3_range h e).2; omega)

theorem src3_sge (e : S15360.Idx) :
    IntOp.cmpi .sge ((shapeCast S15360 (extractStridedSlice S1x15360 ![0, 0] a4 slices_S2x15360_S1x15360_0_0) shapeCasts_S1x15360_S15360) e) 0#32 = 1#1 :=
  word_sge _ (src3_range h e).1

theorem src3_slt_vec :
    cmpi .slt (shapeCast S15360 (extractStridedSlice S1x15360 ![0, 0] a4 slices_S2x15360_S1x15360_0_0) shapeCasts_S1x15360_S15360) (broadcastInDim S15360 ![] bcast_S_S15360 (constantI S_ 32 0#32)) = fun _ => 0#1 :=
  funext fun e => src3_slt h e

theorem src3_sle_vec :
    cmpi .sle (shapeCast S15360 (extractStridedSlice S1x15360 ![0, 0] a4 slices_S2x15360_S1x15360_0_0) shapeCasts_S1x15360_S15360) (broadcastInDim S15360 ![] bcast_S_S15360 (constantI S_ 32 2567#32)) = fun _ => 1#1 :=
  funext fun e => src3_sle h e

theorem src3_sge_vec :
    cmpi .sge (shapeCast S15360 (extractStridedSlice S1x15360 ![0, 0] a4 slices_S2x15360_S1x15360_0_0) shapeCasts_S1x15360_S15360) (broadcastInDim S15360 ![] bcast_S_S15360 (constantI S_ 32 0#32)) = fun _ => 1#1 :=
  funext fun e => src3_sge h e

end Cert.PreFacts

end
-- ==== Proof.KHost1.lean ====
import proofs.«402598_j31782757990676_2_alg».proof.Proof.Gen.KernelIdeal.Regions
import Idealize.ShloMosaic.Lib.ValueIdx
import Idealize.ShloMosaic.Lib.ValueLayout
import Idealize.ShloMosaic.Lib.ReduceAll
import Idealize.ShloMosaic.Lib.Pipeline.Value

set_option maxRecDepth 2036

noncomputable section

namespace Cert.KernelIdeal.KHost1

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

abbrev xArg : FVec Ideal S163848x2 .f32 := V0 m c main_arg0

abbrev eiArg : IVec S2x983040 32 := V0 m c main_arg1

abbrev gArg : FVec Ideal S2x96 .f32 := V0 m c main_arg14

abbrev src : IVec S983040 32 :=
  shapeCast S983040 (extractStridedSlice S1x983040 ![0, 0] (eiArg m c) slices_S2x983040_S1x983040_0_0) shapeCasts_S1x983040_S983040

abbrev xsBuf : FVec Ideal S983040x2 .bf16 := V3 m c main_v5

abbrev gstackBuf : FVec Ideal S6x32 .bf16 := V3 m c main_v10

theorem ofBuf_toBuf {Val : EltTy → Type} {T : BufTy} (x : StableHlo.TRef sig T) (v : T.Contents Val) :
    x.ofBuf (x.toBuf v) = v := by
  obtain ⟨r, h, h2, h3⟩ := x
  subst h
  rfl

theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

theorem after2_v10 (W : Valuation τ sig (Elt Ideal)) :
    @Eq (FVec Ideal S6x32 .bf16) (StableHlo.after hostOps0_2 W main_v10)
      (truncf .bf16 (concatenate S6x32 0
          [⟨S2x32, extractStridedSlice S2x32 ![0, 0] (W main_arg14 : FVec Ideal S2x96 .f32) slices_S2x96_S2x32_0_0⟩,
           ⟨S2x32, extractStridedSlice S2x32 ![0, 32] (W main_arg14 : FVec Ideal S2x96 .f32) slices_S2x96_S2x32_0_32⟩,
           ⟨S2x32, extractStridedSlice S2x32 ![0, 64] (W main_arg14 : FVec Ideal S2x96 .f32) slices_S2x96_S2x32_0_64⟩]
          concatenates_S2x32_S2x32_S2x32_S6x32_d0) bitsLt_bf16_f32) := by
  dsimp only [hostOps0_2]
  simp only [StableHlo.after_cons, StableHlo.after_nil]
  rw [StableHlo.unary_result, nary3_result]
  repeat (first
    | rw [StableHlo.unary_result]
    | (rw [StableHlo.unary_result_ne]; rotate_left; decide))
  rfl

theorem concat3_apply {α : Type} (x0 x1 x2 : S2x32.Idx → α)
    (h : Shape.Concatenates (List.map (·.1) ([⟨S2x32, x0⟩, ⟨S2x32, x1⟩, ⟨S2x32, x2⟩] : List ((s : Shape) × (s.Idx → α)))) S6x32 0)
    (k : Fin 3) (r : Fin 2) (o : Fin 32) :
    concatenate S6x32 0 [⟨S2x32, x0⟩, ⟨S2x32, x1⟩, ⟨S2x32, x2⟩] h (ix2 (⟨2 * k.val + r.val, by omega⟩ : Fin 6) o)
      = (![x0, x1, x2] k) (ix2 r o) := by
  fin_cases k
  · exact concatenate_apply_piece 0 _ h _ 0 (by simp) S2x32 x0 rfl rfl 0 rfl (ix2 r o)
      (fun b hb => by match b with | ⟨0, _⟩ => exact absurd rfl hb | ⟨1, _⟩ => rfl) (by simp)
  · exact concatenate_apply_piece 0 _ h _ 1 (by simp) S2x32 x1 rfl rfl 2 rfl (ix2 r o)
      (fun b hb => by match b with | ⟨0, _⟩ => exact absurd rfl hb | ⟨1, _⟩ => rfl) (by simp)
  · exact concatenate_apply_piece 0 _ h _ 2 (by simp) S2x32 x2 rfl rfl 4 rfl (ix2 r o)
      (fun b hb => by match b with | ⟨0, _⟩ => exact absurd rfl hb | ⟨1, _⟩ => rfl) (by simp)

def takeWrap (s : IVec S983040 32) : IVec S983040 32 :=
  select (cmpi .slt s (broadcastInDim S983040 ![] bcast_S_S983040 (constantI S_ 32 0#32)))
    (addi s (broadcastInDim S983040 ![] bcast_S_S983040 (constantI S_ 32 163848#32))) s

def takeIdxv (s : IVec S983040 32) : IVec S983040x1 32 :=
  broadcastInDim S983040x1 ![0] bcast_S983040_S983040x1_0 (takeWrap s)

def takeMask (s : IVec S983040 32) : IVec S983040 1 :=
  Host.reduce IntOp.andi
    (andi (cmpi .sge (takeIdxv s) (broadcastInDim S983040x1 ![] bcast_S_S983040x1 (constantI S_ 32 0#32)))
      (cmpi .sle (takeIdxv s) (broadcastInDim S983040x1 ![0, 1] bcast_S1x1_S983040x1_0_1
        (broadcastInDim S1x1 ![1] bcast_S1_S1x1_1 (constantI S1 32 163847#32)))))
    (constantI S_ 1 1#1) reducesTo_S983040x1_S983040_d1 h_S_

def takeVal (x : FVec Ideal S163848x2 .f32) (s : IVec S983040 32) : FVec Ideal S983040x2 .f32 :=
  select (broadcastInDim S983040x2 ![0] bcast_S983040_S983040x2_0 (takeMask s))
    (Host.gather gather_S163848x2_S983040x1_S983040x2_1_0_n_n_0_1_12 x (takeIdxv s))
    (broadcastInDim S983040x2 ![] bcast_S_S983040x2 (constant (F := Ideal) S_ .f32 0x7FC00000#32))

theorem after0_v1 (W : Valuation τ sig (Elt Ideal)) :
    @Eq (IVec S983040 32) (StableHlo.after hostOps0 W main_v1)
      (shapeCast S983040 (extractStridedSlice S1x983040 ![0, 0] (W main_arg1 : IVec S2x983040 32) slices_S2x983040_S1x983040_0_0)
        shapeCasts_S1x983040_S983040) := by
  dsimp only [hostOps0]
  after_results
  rfl

theorem ofBuf_v1 {Val : EltTy → Type} (u : main_v1.ty.Contents Val) :
    (StableHlo.TRef.of main_v1 : StableHlo.TRef sig ⟨S983040, .i32⟩).ofBuf u = u := rfl

theorem ofBuf_arg0 {Val : EltTy → Type} (u : main_arg0.ty.Contents Val) :
    (StableHlo.TRef.of main_arg0 : StableHlo.TRef sig ⟨S163848x2, .f32⟩).ofBuf u = u := rfl

theorem toBuf_v4 {Val : EltTy → Type} (v : (⟨S983040x2, .f32⟩ : BufTy).Contents Val) :
    (StableHlo.TRef.of main_v4 : StableHlo.TRef sig ⟨S983040x2, .f32⟩).toBuf v = v := rfl

theorem after1_v4 (W : Valuation τ sig (Elt Ideal)) :
    @Eq (FVec Ideal S983040x2 .f32) (StableHlo.after hostOps0_1 W main_v4)
      (takeVal (W main_arg0 : FVec Ideal S163848x2 .f32) (W main_v1 : IVec S983040 32)) := by
  have e : StableHlo.after hostOps0_1 W main_v4
      = (StableHlo.TRef.of main_v4 : StableHlo.TRef sig ⟨S983040x2, .f32⟩).toBuf
          (takeVal ((StableHlo.TRef.of main_arg0 : StableHlo.TRef sig ⟨S163848x2, .f32⟩).ofBuf (W main_arg0))
            ((StableHlo.TRef.of main_v1 : StableHlo.TRef sig ⟨S983040, .i32⟩).ofBuf (W main_v1))) := by
    dsimp only [hostOps0_1]
    after_results_simp
    simp only [ofBuf_toBuf]
    unfold takeVal takeMask takeIdxv takeWrap
    with_reducible rfl
  rw [e, toBuf_v4, ofBuf_v1, ofBuf_arg0]

theorem after2_v5 (W : Valuation τ sig (Elt Ideal)) :
    @Eq (FVec Ideal S983040x2 .bf16) (StableHlo.after hostOps0_2 W main_v5)
      (truncf .bf16 (W main_v4 : FVec Ideal S983040x2 .f32) bitsLt_bf16_f32) := by
  dsimp only [hostOps0_2]
  after_results

theorem takeWrap_eq (s : IVec S983040 32) (hslt : ∀ e, IntOp.cmpi .slt (s e) 0#32 = 0#1) : takeWrap s = s := by
  funext i
  show Scalar.select (IntOp.cmpi .slt (s i) 0#32) _ (s i) = s i
  rw [hslt i, select_zero]

theorem takeIdxv_apply (s : IVec S983040 32) (e : Fin 983040) (z : Fin 1) : takeIdxv s (ix2 e z) = takeWrap s (ix1 e) := by
  unfold takeIdxv broadcastInDim
  refine congrArg (takeWrap s) (funext fun a => ?_)
  match a with
  | ⟨0, h⟩ => exact (dif_neg (show ¬ ((983040 : Nat) = 1) by decide)).trans rfl

theorem foldl_andi_ones {ι : Type} (f : ι → BitVec 1) :
    ∀ (l : List ι) (init : BitVec 1), (∀ n ∈ l, f n = 1#1) → l.foldl (fun r n => IntOp.andi r (f n)) init = init
  | [], _, _ => rfl
  | a :: l, init, h => by
    have h1 : ∀ b : BitVec 1, IntOp.andi b 1#1 = b := by decide
    rw [List.foldl_cons, h a List.mem_cons_self, h1]
    exact foldl_andi_ones f l init fun n hn => h n (List.mem_cons_of_mem _ hn)

theorem takeMask_eq (s : IVec S983040 32) (hslt : ∀ e, IntOp.cmpi .slt (s e) 0#32 = 0#1)
    (hsle : ∀ e, IntOp.cmpi .sle (s e) 163847#32 = 1#1) (hsge : ∀ e, IntOp.cmpi .sge (s e) 0#32 = 1#1) :
    takeMask s = fun _ => 1#1 := by
  funext j
  unfold takeMask
  rw [Host.reduce_eq_foldl, foldl_andi_ones]
  · rfl
  · intro i _
    obtain ⟨e, z, rfl⟩ : ∃ (e : Fin 983040) (z : Fin 1), i = ix2 e z := ⟨_, _, eq_ix2 i⟩
    show IntOp.andi (IntOp.cmpi .sge (takeIdxv s (ix2 e z)) 0#32) (IntOp.cmpi .sle (takeIdxv s (ix2 e z)) 163847#32) = 1#1
    rw [takeIdxv_apply, takeWrap_eq s hslt, hsge, hsle]
    rfl

theorem gather_rows_apply {α : Type} (x : S163848x2.Idx → α) (idx : IVec S983040x1 32) (e : Fin 983040) (ch : Fin 2) :
    Host.gather gather_S163848x2_S983040x1_S983040x2_1_0_n_n_0_1_12 x idx (ix2 e ch)
      = x (ix2 (⟨min (idx (ix2 e (0 : Fin 1))).toInt.toNat 163847, by omega⟩ : Fin 163848) ch) := by
  unfold Host.gather
  congr 1
  funext a
  refine Fin.ext ?_
  match a with
  | ⟨0, _⟩ =>
    show gather_S163848x2_S983040x1_S983040x2_1_0_n_n_0_1_12.start (ix2 e ch) idx 0
      + gather_S163848x2_S983040x1_S983040x2_1_0_n_n_0_1_12.batchCoord (ix2 e ch) 0
      + gather_S163848x2_S983040x1_S983040x2_1_0_n_n_0_1_12.offCoord (ix2 e ch) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S163848x2_S983040x1_S983040x2_1_0_n_n_0_1_12.startIndexMap from List.mem_singleton.mpr rfl)]
    have hsi : gather_S163848x2_S983040x1_S983040x2_1_0_n_n_0_1_12.siIdx (ix2 e ch)
        ⟨List.idxOf (0 : Fin 2) gather_S163848x2_S983040x1_S983040x2_1_0_n_n_0_1_12.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S163848x2_S983040x1_S983040x2_1_0_n_n_0_1_12.start (ix2 e ch) idx 1
      + gather_S163848x2_S983040x1_S983040x2_1_0_n_n_0_1_12.batchCoord (ix2 e ch) 1
      + gather_S163848x2_S983040x1_S983040x2_1_0_n_n_0_1_12.offCoord (ix2 e ch) 1 = ch.val
    rw [GatherDims.batchCoord_eq_zero _ _ _ List.not_mem_nil]
    unfold GatherDims.start GatherDims.offCoord
    rw [dif_neg (show (1 : Fin 2) ∉ gather_S163848x2_S983040x1_S983040x2_1_0_n_n_0_1_12.startIndexMap by decide),
      dif_pos ((GatherDims.mem_sKept _ _).mpr ⟨by decide, List.not_mem_nil⟩)]
    simp only [Nat.add_zero, Nat.zero_add]
    rfl

theorem takeVal_apply (x : FVec Ideal S163848x2 .f32) (s : IVec S983040 32)
    (hslt : ∀ e, IntOp.cmpi .slt (s e) 0#32 = 0#1) (hsle : ∀ e, IntOp.cmpi .sle (s e) 163847#32 = 1#1)
    (hsge : ∀ e, IntOp.cmpi .sge (s e) 0#32 = 1#1) (hrange : ∀ e, 0 ≤ (s e).toInt ∧ (s e).toInt < 163848)
    (e : Fin 983040) (ch : Fin 2) :
    takeVal x s (ix2 e ch)
      = x (ix2 (⟨(s (ix1 e)).toInt.toNat, by have := hrange (ix1 e); omega⟩ : Fin 163848) ch) := by
  unfold takeVal
  rw [select_apply, takeMask_eq s hslt hsle hsge]
  show Scalar.select 1#1 _ _ = _
  rw [select_one, gather_rows_apply]
  have hi : takeIdxv s (ix2 e (0 : Fin 1)) = s (ix1 e) := by rw [takeIdxv_apply, takeWrap_eq s hslt]
  have := hrange (ix1 e)
  exact congrArg (fun r => x (ix2 r ch))
    (Fin.ext (by show min (takeIdxv s (ix2 e (0 : Fin 1))).toInt.toNat 163847 = (s (ix1 e)).toInt.toNat; rw [hi]; omega))

theorem xs_eq
    (hslt : ∀ e, IntOp.cmpi .slt (src m c e) 0#32 = 0#1)
    (hsle : ∀ e, IntOp.cmpi .sle (src m c e) 163847#32 = 1#1)
    (hsge : ∀ e, IntOp.cmpi .sge (src m c e) 0#32 = 1#1)
    (hrange : ∀ e, 0 ≤ (src m c e).toInt ∧ (src m c e).toInt < 163848)
    (e : Fin 983040) (ch : Fin 2) :
    xsBuf m c (ix2 e ch)
      = xArg m c (ix2 (⟨(src m c (ix1 e)).toInt.toNat, by have := hrange (ix1 e); omega⟩ : Fin 163848) ch) := by
  have h1 : @Eq (IVec S983040 32) (V1 m c main_v1) (src m c) := after0_v1 (V0 m c)
  have h0 : V1 m c main_arg0 = V0 m c main_arg0 := V1_of m c main_arg0 (by decide)
  have h4 : @Eq (FVec Ideal S983040x2 .f32) (V2 m c main_v4) (takeVal (xArg m c) (src m c)) := by
    have e4 := after1_v4 (V1 m c)
    rw [h1, h0] at e4
    exact e4
  show (StableHlo.after hostOps0_2 (V2 m c) main_v5 : FVec Ideal S983040x2 .bf16) (ix2 e ch) = _
  rw [after2_v5, h4, truncf_apply]
  exact takeVal_apply (xArg m c) (src m c) hslt hsle hsge hrange e ch

theorem slices3_apply {α : Type} (X : S2x96.Idx → α) (k : Fin 3) (r : Fin 2) (o : Fin 32) (a : Fin 2) (b : Fin 96)
    (ha : a.val = r.val) (hb : b.val = 32 * k.val + o.val) :
    (![extractStridedSlice S2x32 ![0, 0] X slices_S2x96_S2x32_0_0,
       extractStridedSlice S2x32 ![0, 32] X slices_S2x96_S2x32_0_32,
       extractStridedSlice S2x32 ![0, 64] X slices_S2x96_S2x32_0_64] k) (ix2 r o) = X (ix2 a b) := by
  obtain rfl : a = r := Fin.ext ha
  match k, hb with
  | ⟨0, _⟩, hb => exact slice2_axis1_apply 0 X slices_S2x96_S2x32_0_0 a o b (by omega)
  | ⟨1, _⟩, hb => exact slice2_axis1_apply 32 X slices_S2x96_S2x32_0_32 a o b (by omega)
  | ⟨2, _⟩, hb => exact slice2_axis1_apply 64 X slices_S2x96_S2x32_0_64 a o b (by omega)

theorem gstack_eq (j : Fin 6) (o : Fin 32) :
    gstackBuf m c (ix2 j o)
      = gArg m c (ix2 (⟨j.val % 2, Nat.mod_lt _ (by decide)⟩ : Fin 2) (⟨32 * (j.val / 2) + o.val, by omega⟩ : Fin 96)) := by
  have h14 : V2 m c main_arg14 = V0 m c main_arg14 :=
    (V2_of m c main_arg14 (by decide)).trans (V1_of m c main_arg14 (by decide))
  have e := after2_v10 (V2 m c)
  rw [h14] at e
  show (StableHlo.after hostOps0_2 (V2 m c) main_v10 : FVec Ideal S6x32 .bf16) (ix2 j o) = _
  rw [e, truncf_apply]
  obtain ⟨k, r, hj⟩ : ∃ (k : Fin 3) (r : Fin 2), j = ⟨2 * k.val + r.val, by omega⟩ :=
    ⟨⟨j.val / 2, by omega⟩, ⟨j.val % 2, by omega⟩, Fin.ext (by show j.val = 2 * (j.val / 2) + j.val % 2; omega)⟩
  subst hj
  rw [concat3_apply]
  exact slices3_apply (gArg m c) k r o _ _ (by show (2 * k.val + r.val) % 2 = r.val; omega)
    (by show 32 * ((2 * k.val + r.val) / 2) + o.val = 32 * k.val + o.val; omega)

theorem args_eq :
    V3 m c main_arg5 = V0 m c main_arg5 ∧ V3 m c main_arg15 = V0 m c main_arg15 ∧ V3 m c main_arg16 = V0 m c main_arg16 :=
  ⟨(V3_of m c main_arg5 (by decide)).trans <| (V2_of m c main_arg5 (by decide)).trans (V1_of m c main_arg5 (by decide)),
   (V3_of m c main_arg15 (by decide)).trans <| (V2_of m c main_arg15 (by decide)).trans (V1_of m c main_arg15 (by decide)),
   (V3_of m c main_arg16 (by decide)).trans <| (V2_of m c main_arg16 (by decide)).trans (V1_of m c main_arg16 (by decide))⟩

end Cert.KernelIdeal.KHost1
-- ==== Proof.Region0Value.lean ====
import proofs.«402598_j31782757990676_2_alg».proof.Proof.Region0
import proofs.«402598_j31782757990676_2_alg».proof.Proof.Spec
import Idealize.ShloMosaic.Lib.Pipeline.Value
import Idealize.ShloMosaic.Lib.ValueIdx
import Idealize.ShloMosaic.PureOps.Ideal.Laws
import Mathlib.Algebra.BigOperators.Fin
import Idealize.ShloMosaic.Lib.Ring
import Idealize.ShloMosaic.Lib.Tactic

set_option maxRecDepth 16384

noncomputable section

namespace Cert.KernelIdeal.Region0Value

open Cert.KernelIdeal Cert.KernelIdeal.Gen Cert.KernelIdeal.Region0
open Idealize.ShloMosaic Idealize.ShloMosaic.TcCoe Idealize.ShloMosaic.ValueIdx
open Idealize.SL.Sem
open Idealize.ShloMosaic.Tactic
open Idealize.ShloMosaic.Pipeline (Dat)
open Cert.Spec (gaussW)

def wgt (p : Fin 2 → EReal) (mu sg : Fin 3 → Fin 2 → EReal) (k : Fin 3) : EReal :=
  gaussW (p 0) (p 1) (mu k 0) (mu k 1) (sg k 0) (sg k 1)

def rowOut (x : Fin 2 → EReal) (p : Fin 2 → EReal) (mu sg : Fin 3 → Fin 2 → EReal) (gcol : Fin 6 → EReal) : EReal :=
  ∑ j : Fin (3 * 2), (x ⟨j.val % 2, Nat.mod_lt _ (by decide)⟩ * wgt p mu sg ⟨j.val / 2, by have := j.isLt; omega⟩) * gcol j

theorem rowBcast_apply (v : FVec Ideal S1x2 .f32) (r : Fin 8192) (d : Fin 2) :
    broadcastTo S8192x2 v broadcasts_S1x2_S8192x2 (ix2 r d) = v (ix2 0 d) := by
  refine broadcastTo_apply v _ (ix2 r d) (ix2 0 d) fun a => ?_
  match a with
  | ⟨0, _⟩ => rfl
  | ⟨1, _⟩ => rfl

theorem colBcast_apply (v : FVec Ideal S8192x1 .f32) (r : Fin 8192) (d : Fin 2) :
    broadcastTo S8192x2 v broadcasts_S8192x1_S8192x2 (ix2 r d) = v (ix2 r 0) := by
  refine broadcastTo_apply v _ (ix2 r d) (ix2 r 0) fun a => ?_
  match a with
  | ⟨0, _⟩ => rfl
  | ⟨1, _⟩ => rfl

theorem sliceRow_apply (m : Vec Ideal S3x2 .f32) (k : Nat) (hk : k < 3) (h : S3x2.Slices ![k, 0] S1x2) (d : Fin 2) :
    shapeCast S1x2 (shapeCast S2 (extractStridedSlice S1x2 ![k, 0] m h) shapeCasts_S1x2_S2) shapeCasts_S2_S1x2 (ix2 0 d)
      = m (ix2 ⟨k, hk⟩ d) := by
  rw [shapeCast_shapeCast]
  refine extractStridedSlice_apply _ m h (ix2 0 d) (ix2 ⟨k, hk⟩ d) fun a => ?_
  match a with
  | ⟨0, _⟩ => rfl
  | ⟨1, _⟩ => show d.val = 0 + d.val; omega

theorem laneSum_apply (v : FVec Ideal S8192x2 .f32) (hφ : FKind.Formats .f32) (hacc : (0x00000000#32 : BitVec 32) = FKind.add.neutral .f32 hφ)
    (r : Fin 8192) :
    shapeCast S8192x1 (multiReduction .add [1] S8192 v 0x00000000#32 reduces_S8192x2_S8192 hφ hacc) shapeCasts_S8192_S8192x1 (ix2 r 0)
      = v (ix2 r 0) + v (ix2 r 1) := by
  refine (shapeCast_apply _ shapeCasts_S8192_S8192x1 (ix2 r 0) (ix1 r) ?_).trans ?_
  · rw [Shape.rowMajor_val_one, Shape.rowMajor_val_two]
    show r.val = r.val * 1 + 0
    omega
  · refine (Ideal.multiReduction_add_single v _ reduces_S8192x2_S8192 hφ hacc (ix1 r)).trans ?_
    refine (Fin.sum_univ_two (fun k : Fin 2 => v (reduces_S8192x2_S8192.lift (ix1 r) k))).trans ?_
    have e0 : reduces_S8192x2_S8192.lift (ix1 r) (0 : Fin 2) = ix2 r 0 :=
      funext fun a => Fin.ext (by match a with | ⟨0, _⟩ => rfl | ⟨1, _⟩ => rfl)
    have e1 : reduces_S8192x2_S8192.lift (ix1 r) (1 : Fin 2) = ix2 r 1 :=
      funext fun a => Fin.ext (by match a with | ⟨0, _⟩ => rfl | ⟨1, _⟩ => rfl)
    rw [e0, e1]

theorem pay5_gen (x3 : FVec Ideal S8192x2 .f32) (num den : FVec Ideal S8192x2 .f32) (r : Fin 8192) (ch : Fin 2) :
    k0_pay5 x3 num den (ix2 r ch)
      = x3 (ix2 r ch) * Ideal.exp (Ideal.ofBits .f32 0xBF000000#32 *
          (Ideal.div (num (ix2 r 0)) (den (ix2 r 0)) + Ideal.div (num (ix2 r 1)) (den (ix2 r 1)))) := by
  unfold k0_pay5
  dsimp only
  rw [shapeCast_self]
  show x3 (ix2 r ch) * broadcastTo S8192x2 (exp (mulf (broadcast S8192x1 (Scalar.ofBits .f32 0xBF000000#32)) _)) broadcasts_S8192x1_S8192x2 (ix2 r ch) = _
  rw [colBcast_apply]
  show x3 (ix2 r ch) * Ideal.exp (Ideal.ofBits .f32 0xBF000000#32 * shapeCast S8192x1 _ shapeCasts_S8192_S8192x1 (ix2 r 0)) = _
  exact congrArg (fun z => x3 (ix2 r ch) * Ideal.exp (Ideal.ofBits .f32 0xBF000000#32 * z)) (laneSum_apply (divf num den) _ _ r)

theorem num_apply (ps : FVec Ideal S8192x2 .f32) (mu : FVec Ideal S3x2 .f32) (k : Nat) (hk : k < 3) (h : S3x2.Slices ![k, 0] S1x2) (r : Fin 8192) (d : Fin 2) :
    @Eq EReal
      (mulf (F := Ideal) (subf ps (broadcastTo S8192x2 (shapeCast S1x2 (shapeCast S2 (extractStridedSlice S1x2 ![k, 0] mu h) shapeCasts_S1x2_S2) shapeCasts_S2_S1x2) broadcasts_S1x2_S8192x2))
         (subf ps (broadcastTo S8192x2 (shapeCast S1x2 (shapeCast S2 (extractStridedSlice S1x2 ![k, 0] mu h) shapeCasts_S1x2_S2) shapeCasts_S2_S1x2) broadcasts_S1x2_S8192x2)) (ix2 r d))
      ((ps (ix2 r d) - mu (ix2 ⟨k, hk⟩ d)) * (ps (ix2 r d) - mu (ix2 ⟨k, hk⟩ d))) := by
  have e : broadcastTo S8192x2 (shapeCast S1x2 (shapeCast S2 (extractStridedSlice S1x2 ![k, 0] mu h) shapeCasts_S1x2_S2) shapeCasts_S2_S1x2) broadcasts_S1x2_S8192x2 (ix2 r d)
      = mu (ix2 ⟨k, hk⟩ d) := (rowBcast_apply _ r d).trans (sliceRow_apply mu k hk h d)
  show (ps (ix2 r d) - _) * (ps (ix2 r d) - _) = _
  rw [e]

theorem den_apply (sg : FVec Ideal S3x2 .f32) (k : Nat) (hk : k < 3) (h : S3x2.Slices ![k, 0] S1x2) (r : Fin 8192) (d : Fin 2) :
    @Eq EReal
      (broadcastTo S8192x2 (addf (F := Ideal) (mulf (shapeCast S1x2 (shapeCast S2 (extractStridedSlice S1x2 ![k, 0] sg h) shapeCasts_S1x2_S2) shapeCasts_S2_S1x2)
          (shapeCast S1x2 (shapeCast S2 (extractStridedSlice S1x2 ![k, 0] sg h) shapeCasts_S1x2_S2) shapeCasts_S2_S1x2))
        (broadcast S1x2 (Scalar.ofBits (F := Ideal) .f32 0x26901D7D#32))) broadcasts_S1x2_S8192x2 (ix2 r d))
      (sg (ix2 ⟨k, hk⟩ d) * sg (ix2 ⟨k, hk⟩ d) + Ideal.ofBits .f32 0x26901D7D#32) := by
  refine (rowBcast_apply _ r d).trans ?_
  have e := sliceRow_apply sg k hk h d
  show shapeCast S1x2 _ shapeCasts_S2_S1x2 (ix2 0 d) * shapeCast S1x2 _ shapeCasts_S2_S1x2 (ix2 0 d) + _ = _
  rw [e]
  rfl

theorem hz : (![0, 0] : Fin 2 → Nat) = fun _ => 0 := funext fun a => by fin_cases a <;> rfl

theorem lhs_pay7_0 (i : S8192x32.Idx) (q : dot_S8192x6_S6x32_S8192x32_1_0_0_1_n_n.contr.Idx) :
    (dot_S8192x6_S6x32_S8192x32_1_0_0_1_n_n.lhsIdx i q 0).val = (i 0).val := by
  unfold DotDims.lhsIdx
  rw [dif_neg (show ¬(0 : Fin S8192x6.rank) ∈ dot_S8192x6_S6x32_S8192x32_1_0_0_1_n_n.lhsBatch by decide), dif_pos (show (0 : Fin S8192x6.rank) ∈ dot_S8192x6_S6x32_S8192x32_1_0_0_1_n_n.lhsNonContracting by decide)]
  rfl
theorem lhs_pay7_1 (i : S8192x32.Idx) (q : dot_S8192x6_S6x32_S8192x32_1_0_0_1_n_n.contr.Idx) :
    (dot_S8192x6_S6x32_S8192x32_1_0_0_1_n_n.lhsIdx i q 1).val = (q ⟨0, by decide⟩).val :=
  dot_S8192x6_S6x32_S8192x32_1_0_0_1_n_n.lhsIdx_val_of_single rfl i q
theorem rhs_pay7_0 (i : S8192x32.Idx) (q : dot_S8192x6_S6x32_S8192x32_1_0_0_1_n_n.contr.Idx) :
    (dot_S8192x6_S6x32_S8192x32_1_0_0_1_n_n.rhsIdx i q 0).val = (q ⟨0, by decide⟩).val :=
  dot_S8192x6_S6x32_S8192x32_1_0_0_1_n_n.rhsIdx_val_of_single rfl i q
theorem rhs_pay7_1 (i : S8192x32.Idx) (q : dot_S8192x6_S6x32_S8192x32_1_0_0_1_n_n.contr.Idx) :
    (dot_S8192x6_S6x32_S8192x32_1_0_0_1_n_n.rhsIdx i q 1).val = (i 1).val := by
  unfold DotDims.rhsIdx
  rw [dif_neg (show ¬(1 : Fin S6x32.rank) ∈ dot_S8192x6_S6x32_S8192x32_1_0_0_1_n_n.rhsBatch by decide), dif_pos (show (1 : Fin S6x32.rank) ∈ dot_S8192x6_S6x32_S8192x32_1_0_0_1_n_n.rhsNonContracting by decide)]
  rfl

theorem pay7_apply (s : FVec Ideal S8192x6 .bf16) (g : FVec Ideal S6x32 .bf16) (r : Fin 8192) (o : Fin 32) :
    @Eq EReal (k0_pay7 (F := Ideal) s g (ix2 r o)) (∑ j : Fin 6, s (ix2 r j) * g (ix2 j o)) := by
  unfold k0_pay7
  rw [shapeCast_self]
  simp only [matmul]
  rw [Ideal.matmul_constant_zero_apply, ← Equiv.sum_comp (contrEquiv1 dot_S8192x6_S6x32_S8192x32_1_0_0_1_n_n 6 rfl rfl).symm]
  refine Finset.sum_congr rfl fun k _ => ?_
  have hk := contrEquiv1_symm_val dot_S8192x6_S6x32_S8192x32_1_0_0_1_n_n 6 rfl rfl k
  have el : dot_S8192x6_S6x32_S8192x32_1_0_0_1_n_n.lhsIdx (ix2 r o) ((contrEquiv1 dot_S8192x6_S6x32_S8192x32_1_0_0_1_n_n 6 rfl rfl).symm k) = ix2 r k := funext fun a => Fin.ext (by
    match a with
    | ⟨0, _⟩ => exact lhs_pay7_0 _ _
    | ⟨1, _⟩ => exact (lhs_pay7_1 _ _).trans hk)
  have er : dot_S8192x6_S6x32_S8192x32_1_0_0_1_n_n.rhsIdx (ix2 r o) ((contrEquiv1 dot_S8192x6_S6x32_S8192x32_1_0_0_1_n_n 6 rfl rfl).symm k) = ix2 k o := funext fun a => Fin.ext (by
    match a with
    | ⟨0, _⟩ => exact (rhs_pay7_0 _ _).trans hk
    | ⟨1, _⟩ => exact rhs_pay7_1 _ _)
  rw [el, er]

section Block

variable (xs : Vec Ideal S8192x2 .bf16) (ps : Vec Ideal S8192x2 .f32) (g : Vec Ideal S6x32 .bf16) (mu sg : Vec Ideal S3x2 .f32)

abbrev bw (r : Fin 8192) (k : Fin 3) : EReal :=
  wgt (fun d => ps (ix2 r d)) (fun k d => mu (ix2 k d)) (fun k d => sg (ix2 k d)) k

theorem pay1_apply (i : S8192x2.Idx) : k0_pay1 xs i = xs i := by
  unfold k0_pay1
  rw [shapeCast_self]
  rfl

theorem pay2_apply (r : Fin 8192) (ch : Fin 2) :
    k0_pay2 ps xs mu sg (ix2 r ch) = xs (ix2 r ch) * bw ps mu sg r 0 := by
  refine (pay5_gen (k0_pay1 xs) _ _ r ch).trans ?_
  rw [num_apply ps mu 0 (by decide) _ r 0, num_apply ps mu 0 (by decide) _ r 1, den_apply sg 0 (by decide) _ r 0, den_apply sg 0 (by decide) _ r 1,
    pay1_apply]
  rfl

theorem pay5_apply (r : Fin 8192) (ch : Fin 2) :
    k0_pay5 (k0_pay1 xs) (k0_pay3 ps mu) (k0_pay4 sg) (ix2 r ch) = xs (ix2 r ch) * bw ps mu sg r 1 := by
  refine (pay5_gen (k0_pay1 xs) _ _ r ch).trans ?_
  unfold k0_pay3 k0_pay4
  rw [num_apply ps mu 1 (by decide) _ r 0, num_apply ps mu 1 (by decide) _ r 1, den_apply sg 1 (by decide) _ r 0, den_apply sg 1 (by decide) _ r 1,
    pay1_apply]
  rfl

theorem pay6_apply (r : Fin 8192) (ch : Fin 2) :
    k0_pay6 ps (k0_pay1 xs) mu sg (ix2 r ch) = xs (ix2 r ch) * bw ps mu sg r 2 := by
  refine (pay5_gen (k0_pay1 xs) _ _ r ch).trans ?_
  rw [num_apply ps mu 2 (by decide) _ r 0, num_apply ps mu 2 (by decide) _ r 1, den_apply sg 2 (by decide) _ r 0, den_apply sg 2 (by decide) _ r 1,
    pay1_apply]
  rfl

def scrAt (r : Fin 8192) (l : Fin 6) : EReal :=
  xs (ix2 r ⟨l.val % 2, Nat.mod_lt _ (by decide)⟩) * bw ps mu sg r ⟨l.val / 2, by have := l.isLt; omega⟩

theorem scr0_apply (r : Fin 8192) (l : Fin 6) :
    scr0 xs ps mu sg (ix2 r l)
      = xs (ix2 r ⟨l.val % 2, Nat.mod_lt _ (by decide)⟩) * bw ps mu sg r ⟨l.val / 2, by have := l.isLt; omega⟩ := by
  unfold scr0
  simp only [View.ld_unit_zero (S := S8192x2) hz, View.ld_unit_zero (S := S8192x2) hz, View.ld_unit_zero (S := S3x2) hz]
  refine View.canon_apply_of_pieces (Val := Elt Ideal) (S := S8192x6) (e := .bf16) (fun y : S8192x6.Idx => scrAt xs ps mu sg ⟨(y 0).val, (y 0).isLt⟩ ⟨(y 1).val, (y 1).isLt⟩) _ ?_ (ix2 r l)
    (cover_scr _ _ _ (ix2 r l))
  refine List.forall_mem_cons.mpr ⟨?_, List.forall_mem_cons.mpr ⟨?_, List.forall_mem_cons.mpr ⟨?_, fun _ h => absurd h List.not_mem_nil⟩⟩⟩
  · intro x
    obtain ⟨r', ch, rfl⟩ : ∃ (r' : Fin 8192) (ch : Fin 2), x = ix2 r' ch :=
      ⟨⟨(x 0).val, (x 0).isLt⟩, ⟨(x 1).val, (x 1).isLt⟩, funext fun a => by match a with | ⟨0, _⟩ => rfl | ⟨1, _⟩ => rfl⟩
    refine (pay6_apply xs ps mu sg r' ch).trans ?_
    have e0 : (⟨((rs4.emb (ix2 r' ch)) 0).val, ((rs4.emb (ix2 r' ch)) 0).isLt⟩ : Fin 8192) = r' := Fin.ext (by show 0 + 1 * r'.val = r'.val; omega)
    have e1 : (⟨((rs4.emb (ix2 r' ch)) 1).val, ((rs4.emb (ix2 r' ch)) 1).isLt⟩ : Fin 6) = ⟨4 + ch.val, by have := ch.isLt; omega⟩ := Fin.ext (by show 4 + 1 * ch.val = 4 + ch.val; omega)
    show _ = scrAt xs ps mu sg _ _
    rw [e0, e1]
    unfold scrAt
    have hc := ch.isLt
    have h1 : (⟨(4 + ch.val) % 2, Nat.mod_lt _ (by decide)⟩ : Fin 2) = ch := Fin.ext (by show (4 + ch.val) % 2 = ch.val; omega)
    have h2 : (⟨(4 + ch.val) / 2, by omega⟩ : Fin 3) = 2 := Fin.ext (by show (4 + ch.val) / 2 = 2; omega)
    rw [h1, h2]
  · intro x
    obtain ⟨r', ch, rfl⟩ : ∃ (r' : Fin 8192) (ch : Fin 2), x = ix2 r' ch :=
      ⟨⟨(x 0).val, (x 0).isLt⟩, ⟨(x 1).val, (x 1).isLt⟩, funext fun a => by match a with | ⟨0, _⟩ => rfl | ⟨1, _⟩ => rfl⟩
    refine (pay5_apply xs ps mu sg r' ch).trans ?_
    have e0 : (⟨((rs2.emb (ix2 r' ch)) 0).val, ((rs2.emb (ix2 r' ch)) 0).isLt⟩ : Fin 8192) = r' := Fin.ext (by show 0 + 1 * r'.val = r'.val; omega)
    have e1 : (⟨((rs2.emb (ix2 r' ch)) 1).val, ((rs2.emb (ix2 r' ch)) 1).isLt⟩ : Fin 6) = ⟨2 + ch.val, by have := ch.isLt; omega⟩ := Fin.ext (by show 2 + 1 * ch.val = 2 + ch.val; omega)
    show _ = scrAt xs ps mu sg _ _
    rw [e0, e1]
    unfold scrAt
    have hc := ch.isLt
    have h1 : (⟨(2 + ch.val) % 2, Nat.mod_lt _ (by decide)⟩ : Fin 2) = ch := Fin.ext (by show (2 + ch.val) % 2 = ch.val; omega)
    have h2 : (⟨(2 + ch.val) / 2, by omega⟩ : Fin 3) = 1 := Fin.ext (by show (2 + ch.val) / 2 = 1; omega)
    rw [h1, h2]
  · intro x
    obtain ⟨r', ch, rfl⟩ : ∃ (r' : Fin 8192) (ch : Fin 2), x = ix2 r' ch :=
      ⟨⟨(x 0).val, (x 0).isLt⟩, ⟨(x 1).val, (x 1).isLt⟩, funext fun a => by match a with | ⟨0, _⟩ => rfl | ⟨1, _⟩ => rfl⟩
    refine (pay2_apply xs ps mu sg r' ch).trans ?_
    have e0 : (⟨((rs0.emb (ix2 r' ch)) 0).val, ((rs0.emb (ix2 r' ch)) 0).isLt⟩ : Fin 8192) = r' := Fin.ext (by show 0 + 1 * r'.val = r'.val; omega)
    have e1 : (⟨((rs0.emb (ix2 r' ch)) 1).val, ((rs0.emb (ix2 r' ch)) 1).isLt⟩ : Fin 6) = ⟨0 + ch.val, by have := ch.isLt; omega⟩ := Fin.ext (by show 0 + 1 * ch.val = 0 + ch.val; omega)
    show _ = scrAt xs ps mu sg _ _
    rw [e0, e1]
    unfold scrAt
    have hc := ch.isLt
    have h1 : (⟨(0 + ch.val) % 2, Nat.mod_lt _ (by decide)⟩ : Fin 2) = ch := Fin.ext (by show (0 + ch.val) % 2 = ch.val; omega)
    have h2 : (⟨(0 + ch.val) / 2, by omega⟩ : Fin 3) = 0 := Fin.ext (by show (0 + ch.val) / 2 = 0; omega)
    rw [h1, h2]

theorem out0_apply (r : Fin 8192) (o : Fin 32) :
    out0 xs ps g mu sg (ix2 r o)
      = rowOut (fun ch => xs (ix2 r ch)) (fun d => ps (ix2 r d)) (fun k d => mu (ix2 k d)) (fun k d => sg (ix2 k d))
          (fun j => g (ix2 j o)) := by
  unfold out0
  rw [View.canon_unit_zero hz, View.ld_unit_zero (S := S8192x6) hz, View.ld_unit_zero (S := S6x32) hz]
  refine (pay7_apply (scr0 xs ps mu sg) g r o).trans ?_
  unfold rowOut
  refine Finset.sum_congr rfl fun j _ => ?_
  rw [scr0_apply]

end Block

theorem rowOut_congr {x x' : Fin 2 → EReal} {p p' : Fin 2 → EReal} {mu mu' sg sg' : Fin 3 → Fin 2 → EReal} {gc gc' : Fin 6 → EReal}
    (hx : ∀ ch, x ch = x' ch) (hp : ∀ d, p d = p' d) (hmu : ∀ k d, mu k d = mu' k d) (hsg : ∀ k d, sg k d = sg' k d)
    (hg : ∀ j, gc j = gc' j) : rowOut x p mu sg gc = rowOut x' p' mu' sg' gc' := by
  obtain rfl : x = x' := funext hx
  obtain rfl : p = p' := funext hp
  obtain rfl : mu = mu' := funext fun k => funext (hmu k)
  obtain rfl : sg = sg' := funext fun k => funext (hsg k)
  obtain rfl : gc = gc' := funext hg
  rfl

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem N_eq : cfg0.N = 120 := N_0

section AtV

variable (V : (c : Dev nD) → (b : Ref sig .tc) → Buf (Elt Ideal) ((c : Thread nD τ).loc b))

abbrev xsA (c : Dev nD) : Vec Ideal S983040x2 .bf16 := V c (Pipeline.arrRef spec0 0)
abbrev psA (c : Dev nD) : Vec Ideal S983040x2 .f32 := V c (Pipeline.arrRef spec0 1)
abbrev gA (c : Dev nD) : Vec Ideal S6x32 .bf16 := V c (Pipeline.arrRef spec0 2)
abbrev muA (c : Dev nD) : Vec Ideal S3x2 .f32 := V c (Pipeline.arrRef spec0 3)
abbrev sgA (c : Dev nD) : Vec Ideal S3x2 .f32 := V c (Pipeline.arrRef spec0 4)

theorem iblk0_0_apply (c : Dev nD) (t : Fin cfg0.N) (r : Fin 8192) (ch : Fin 2) (e : Fin 983040) (he : e.val = 8192 * t.val + r.val) :
    (iblk0 V c 0 t : Vec Ideal S8192x2 .bf16) (ix2 r ch) = xsA V c (ix2 e ch) := by
  obtain ⟨h0, h1, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t 0 * 8192 + 1 * r.val = e.val; rw [h0, he]; omega
  | ⟨1, _⟩ => show win0_0.index t 1 * 2 + 1 * ch.val = ch.val; rw [h1]; omega

theorem iblk0_1_apply (c : Dev nD) (t : Fin cfg0.N) (r : Fin 8192) (d : Fin 2) (e : Fin 983040) (he : e.val = 8192 * t.val + r.val) :
    (iblk0 V c 1 t : Vec Ideal S8192x2 .f32) (ix2 r d) = psA V c (ix2 e d) := by
  obtain ⟨-, -, h0, h1, -⟩ := idx_facts t
  unfold iblk0
  rw [View.read_apply]
  show V c (Pipeline.arrRef spec0 1) _ = V c (Pipeline.arrRef spec0 1) _
  congr 1
  funext a
  apply Fin.ext
  match a with
  | ⟨0, _⟩ => show win0_1.index t 0 * 8192 + 1 * r.val = e.val; rw [h0, he]; omega
  | ⟨1, _⟩ => show win0_1.index t 1 * 2 + 1 * d.val = d.val; rw [h1]; omega

theorem iblk0_2_apply (c : Dev nD) (t : Fin cfg0.N) (j : Fin 6) (o : Fin 32) :
    (iblk0 V c 2 t : Vec Ideal S6x32 .bf16) (ix2 j o) = gA V c (ix2 j o) := by
  obtain ⟨-, -, -, -, h0, h1, -⟩ := idx_facts t
  unfold iblk0
  rw [View.read_apply]
  show V c (Pipeline.arrRef spec0 2) _ = V c (Pipeline.arrRef spec0 2) _
  congr 1
  funext a
  apply Fin.ext
  match a with
  | ⟨0, _⟩ => show win0_2.index t 0 * 6 + 1 * j.val = j.val; rw [h0]; omega
  | ⟨1, _⟩ => show win0_2.index t 1 * 32 + 1 * o.val = o.val; rw [h1]; omega

theorem iblk0_3_apply (c : Dev nD) (t : Fin cfg0.N) (k : Fin 3) (d : Fin 2) :
    (iblk0 V c 3 t : Vec Ideal S3x2 .f32) (ix2 k d) = muA V c (ix2 k d) := by
  obtain ⟨-, -, -, -, -, -, h0, h1, -⟩ := idx_facts t
  unfold iblk0
  rw [View.read_apply]
  show V c (Pipeline.arrRef spec0 3) _ = V c (Pipeline.arrRef spec0 3) _
  congr 1
  funext a
  apply Fin.ext
  match a with
  | ⟨0, _⟩ => show win0_3.index t 0 * 3 + 1 * k.val = k.val; rw [h0]; omega
  | ⟨1, _⟩ => show win0_3.index t 1 * 2 + 1 * d.val = d.val; rw [h1]; omega

theorem iblk0_4_apply (c : Dev nD) (t : Fin cfg0.N) (k : Fin 3) (d : Fin 2) :
    (iblk0 V c 4 t : Vec Ideal S3x2 .f32) (ix2 k d) = sgA V c (ix2 k d) := by
  obtain ⟨-, -, -, -, -, -, -, -, h0, h1, -⟩ := idx_facts t
  unfold iblk0
  rw [View.read_apply]
  show V c (Pipeline.arrRef spec0 4) _ = V c (Pipeline.arrRef spec0 4) _
  congr 1
  funext a
  apply Fin.ext
  match a with
  | ⟨0, _⟩ => show win0_4.index t 0 * 3 + 1 * k.val = k.val; rw [h0]; omega
  | ⟨1, _⟩ => show win0_4.index t 1 * 2 + 1 * d.val = d.val; rw [h1]; omega

def G0 (c : Dev nD) : Buf (Elt Ideal) ((c : Thread nD τ).loc main_v11) := fun i =>
  rowOut (fun ch => xsA V c (ix2 ⟨(i 0).val, (i 0).isLt⟩ ch)) (fun d => psA V c (ix2 ⟨(i 0).val, (i 0).isLt⟩ d))
    (fun k d => muA V c (ix2 k d)) (fun k d => sgA V c (ix2 k d)) (fun j => gA V c (ix2 j ⟨(i 1).val, (i 1).isLt⟩))

theorem flushed_eq (c : Dev nD) (t : Fin cfg0.N) :
    (dat0 V c).flushed 5 t = ((cfg0.win 5).blk t).view.read (Elt Ideal) (G0 V c) := by
  obtain ⟨-, -, -, -, -, -, -, -, -, -, h50, h51⟩ := idx_facts t
  funext y
  have hy : (cfg0.win 5).xinj (cfg0.grid.coords t) y = ix2 ⟨(y 0).val, (y 0).isLt⟩ ⟨(y 1).val, (y 1).isLt⟩ :=
    funext fun a => by match a with | ⟨0, _⟩ => rfl | ⟨1, _⟩ => rfl
  show (dat0 V c).after 5 t ((cfg0.win 5).xinj (cfg0.grid.coords t) y) = G0 V c (((cfg0.win 5).blk t).view.emb y)
  rw [after0_5, hy]
  unfold oblk0
  refine (out0_apply (iblk0 V c 0 t) (iblk0 V c 1 t) (iblk0 V c 2 t) (iblk0 V c 3 t) (iblk0 V c 4 t) ⟨(y 0).val, (y 0).isLt⟩ ⟨(y 1).val, (y 1).isLt⟩).trans ?_
  unfold G0
  have he : ((((cfg0.win 5).blk t).view.emb y) 0).val = 8192 * t.val + (y 0).val := by
    show win0_5.index t 0 * 8192 + 1 * (y 0).val = _
    rw [h50]; omega
  have ho : ((((cfg0.win 5).blk t).view.emb y) 1).val = (y 1).val := by
    show win0_5.index t 1 * 32 + 1 * (y 1).val = _
    rw [h51]; omega
  refine rowOut_congr (fun ch => ?_) (fun d => ?_) (fun k d => ?_) (fun k d => ?_) (fun j => ?_)
  · exact iblk0_0_apply V c t _ ch _ he
  · exact iblk0_1_apply V c t _ d _ he
  · exact iblk0_3_apply V c t k d
  · exact iblk0_4_apply V c t k d
  · refine (iblk0_2_apply V c t j _).trans (congrArg (fun o => gA V c (ix2 j o)) (Fin.ext ho.symm))

theorem cover (c : Dev nD) (i : S983040x32.Idx) :
    ∃ t : Fin cfg0.N, (cfg0.win 5).flush t = true ∧ i ∈ ((cfg0.win 5).blk t).view.set := by
  have hi0 : (i 0).val < 983040 := (i 0).isLt
  have hi1 : (i 1).val < 32 := (i 1).isLt
  have hN : cfg0.N = 120 := N_eq
  have ht : (i 0).val / 8192 < cfg0.N := by rw [hN]; omega
  obtain ⟨-, -, -, -, -, -, -, -, -, -, h50, h51⟩ := idx_facts ⟨(i 0).val / 8192, ht⟩
  refine ⟨⟨(i 0).val / 8192, ht⟩, flush0_5 _, ?_⟩
  show i ∈ ((View.whole main_v11).slice (win0_5.rect ⟨(i 0).val / 8192, ht⟩)).set
  rw [View.set_slice_whole, Rect.mem_set_unit]
  intro a
  match a with
  | ⟨0, _⟩ =>
    show win0_5.index ⟨(i 0).val / 8192, ht⟩ 0 * 8192 ≤ (i 0).val ∧ (i 0).val < win0_5.index ⟨(i 0).val / 8192, ht⟩ 0 * 8192 + 8192
    rw [h50]; show (i 0).val / 8192 * 8192 ≤ (i 0).val ∧ (i 0).val < (i 0).val / 8192 * 8192 + 8192; omega
  | ⟨1, _⟩ =>
    show win0_5.index ⟨(i 0).val / 8192, ht⟩ 1 * 32 ≤ (i 1).val ∧ (i 1).val < win0_5.index ⟨(i 0).val / 8192, ht⟩ 1 * 32 + 32
    rw [h51]; omega

theorem outArr0_eq (c : Dev nD) : outArr0 (F := Ideal) V c = G0 V c :=
  (dat0 V c).arrAt_eq_of_cover 5 (G0 V c) (fun t _ => flushed_eq V c t) (fun i => cover c i)

theorem outArr0_apply (c : Dev nD) (e : Fin 983040) (o : Fin 32) :
    @Eq EReal (outArr0 (F := Ideal) V c (ix2 e o))
      (∑ j : Fin (3 * 2),
          (xsA V c (ix2 e ⟨j.val % 2, Nat.mod_lt _ (by decide)⟩)
            * gaussW (psA V c (ix2 e 0)) (psA V c (ix2 e 1))
                (muA V c (ix2 ⟨j.val / 2, by have := j.isLt; omega⟩ 0)) (muA V c (ix2 ⟨j.val / 2, by have := j.isLt; omega⟩ 1))
                (sgA V c (ix2 ⟨j.val / 2, by have := j.isLt; omega⟩ 0)) (sgA V c (ix2 ⟨j.val / 2, by have := j.isLt; omega⟩ 1)))
          * gA V c (ix2 ⟨2 * (j.val / 2) + j.val % 2, by have := j.isLt; omega⟩ o)) := by
  refine (congrFun (outArr0_eq V c) (ix2 e o)).trans ?_
  show rowOut _ _ _ _ _ = _
  unfold rowOut wgt
  refine Finset.sum_congr rfl fun j _ => ?_
  have hj : (⟨2 * (j.val / 2) + j.val % 2, by have := j.isLt; omega⟩ : Fin 6) = j := Fin.ext (by show 2 * (j.val / 2) + j.val % 2 = j.val; omega)
  rw [hj]
  rfl

end AtV

end Cert.KernelIdeal.Region0Value

end
-- ==== Proof.RefHead1.lean ====
import proofs.«402598_j31782757990676_2_alg».proof.Proof.RefRun
import proofs.«402598_j31782757990676_2_alg».proof.Proof.Spec
import Idealize.ShloMosaic.Lib.ValueIdx
import Idealize.ShloMosaic.Lib.IdealHost
import Idealize.ShloMosaic.Lib.Pipeline.Value
import Idealize.ShloMosaic.PureOps.Ideal.Laws

set_option maxRecDepth 8192

noncomputable section

open scoped BigOperators

namespace Cert.RefHead1

open Cert.ReferenceIdeal Idealize.ShloMosaic Idealize.ShloMosaic.ValueIdx Idealize.ShloMosaic.TcCoe Idealize.SL.Sem
open Idealize.ShloMosaic.StableHlo

variable [Facts]
open Facts₀ Facts

section Terms
variable {F : FTy → Type} [FloatOps F]

abbrev srcOf (ei : IVec S2x983040 32) : IVec S983040 32 :=
  shapeCast S983040 (extractStridedSlice S1x983040 ![0, 0] ei slices_S2x983040_S1x983040_0_0) shapeCasts_S1x983040_S983040

def diffOf (ps : FVec F S983040x2 .f32) (mu : FVec F S3x2 .f32) : FVec F S983040x3x2 .f32 :=
  subf (broadcastInDim S983040x3x2 ![0, 1, 2] bcast_S983040x1x2_S983040x3x2_0_1_2
      (broadcastInDim S983040x1x2 ![0, 2] bcast_S983040x2_S983040x1x2_0_2 ps))
    (broadcastInDim S983040x3x2 ![0, 1, 2] bcast_S1x3x2_S983040x3x2_0_1_2
      (broadcastInDim S1x3x2 ![1, 2] bcast_S3x2_S1x3x2_1_2 mu))

def denOf (sg : FVec F S3x2 .f32) : FVec F S1x3x2 .f32 :=
  addf (mulf (broadcastInDim S1x3x2 ![1, 2] bcast_S3x2_S1x3x2_1_2 sg) (broadcastInDim S1x3x2 ![1, 2] bcast_S3x2_S1x3x2_1_2 sg))
    (broadcastInDim S1x3x2 ![] bcast_S_S1x3x2 (constant S_ .f32 0x26901D7D#32))

def wOf (ps : FVec F S983040x2 .f32) (mu sg : FVec F S3x2 .f32) : FVec F S983040x3 .f32 :=
  Host.exp (mulf (broadcastInDim S983040x3 ![] bcast_S_S983040x3 (constant S_ .f32 0xBF000000#32))
    (Host.reduceAdd
      (Host.divf (mulf (diffOf ps mu) (diffOf ps mu))
        (broadcastInDim S983040x3x2 ![0, 1, 2] bcast_S1x3x2_S983040x3x2_0_1_2 (denOf sg)))
      (constant S_ .f32 0x00000000#32) reducesTo_S983040x3x2_S983040x3_d2 h_S_))

def xsOf (x : FVec F S163848x2 .f32) (ei : IVec S2x983040 32) : FVec F S983040x2 .f32 :=
  Host.gather gather_S163848x2_S983040x1_S983040x2_1_0_n_n_0_1_12 x
    (broadcastInDim S983040x1 ![0] bcast_S983040_S983040x1_0
      (select (cmpi .slt (srcOf ei) (broadcastInDim S983040 ![] bcast_S_S983040 (constantI S_ 32 0#32)))
        (addi (srcOf ei) (broadcastInDim S983040 ![] bcast_S_S983040 (constantI S_ 32 163848#32)))
        (srcOf ei)))

def msgOf (x : FVec F S163848x2 .f32) (ei : IVec S2x983040 32) (ps : FVec F S983040x2 .f32)
    (g : FVec F S2x96 .f32) (mu sg : FVec F S3x2 .f32) : FVec F S983040x32 .f32 :=
  Host.reduceAdd
    (mulf
      (shapeCast S983040x3x32 (Host.dotGeneral dot_S983040x2_S2x96_S983040x96_1_0_0_1_n_n none (xsOf x ei) g)
        shapeCasts_S983040x96_S983040x3x32)
      (broadcastInDim S983040x3x32 ![0, 1, 2] bcast_S983040x3x1_S983040x3x32_0_1_2
        (broadcastInDim S983040x3x1 ![0, 1] bcast_S983040x3_S983040x3x1_0_1 (wOf ps mu sg))))
    (constant S_ .f32 0x00000000#32) reducesTo_S983040x3x32_S983040x32_d1 h_S_

set_option maxHeartbeats 4000000 in

theorem after_main_v32 (W : Valuation τ sig (Elt F)) :
    StableHlo.after RefRun.ops0 W (Proc.devRef .tc main_v32)
      = msgOf (W (Proc.devRef .tc main_arg0)) (W (Proc.devRef .tc main_arg1)) (W (Proc.devRef .tc main_arg5))
          (W (Proc.devRef .tc main_arg14)) (W (Proc.devRef .tc main_arg15)) (W (Proc.devRef .tc main_arg16)) := by
  chain_rfl

end Terms

section Run
variable {F : FTy → Type} [FloatOps F] (m : (ℓ : Loc nD τ sig) → Buf (Elt F) ℓ)

abbrev aX (c : Dev nD) : FVec F S163848x2 .f32 := m (c, main_arg0)
abbrev aEi (c : Dev nD) : IVec S2x983040 32 := m (c, main_arg1)
abbrev aPs (c : Dev nD) : FVec F S983040x2 .f32 := m (c, main_arg5)
abbrev aG (c : Dev nD) : FVec F S2x96 .f32 := m (c, main_arg14)
abbrev aMu (c : Dev nD) : FVec F S3x2 .f32 := m (c, main_arg15)
abbrev aSg (c : Dev nD) : FVec F S3x2 .f32 := m (c, main_arg16)

theorem V1_main_v32 (c : Dev nD) :
    (RefRun.V1 m c main_v32 : FVec F S983040x32 .f32)
      = msgOf (aX m c) (aEi m c) (aPs m c) (aG m c) (aMu m c) (aSg m c) :=
  after_main_v32 (RefRun.V0 m c)

end Run

theorem hostExp_apply {s : Shape} {φ : FTy} (x : FVec Ideal s φ) (i : s.Idx) : Host.exp x i = Ideal.exp (x i) := rfl

theorem wOf_apply (ps : FVec Ideal S983040x2 .f32) (mu sg : FVec Ideal S3x2 .f32) (e : Fin 983040) (k : Fin 3) :
    wOf ps mu sg (ix2 e k)
      = Cert.Spec.gaussW (ps (ix2 e 0)) (ps (ix2 e 1)) (mu (ix2 k 0)) (mu (ix2 k 1)) (sg (ix2 k 0)) (sg (ix2 k 1)) := by
  have hd : ∀ j : Fin 2, diffOf ps mu (ix3 e k j) = ps (ix2 e j) - mu (ix2 k j) := by
    intro j
    unfold diffOf
    rw [subf_apply,
      broadcastInDim_apply ![0, 1, 2] bcast_S983040x1x2_S983040x3x2_0_1_2 _ (ix3 e k j) (ix3 e 0 j) (by
        intro a; match a with | ⟨0, _⟩ => rfl | ⟨1, _⟩ => rfl | ⟨2, _⟩ => rfl),
      broadcastInDim_apply ![0, 2] bcast_S983040x2_S983040x1x2_0_2 ps (ix3 e 0 j) (ix2 e j) (by
        intro a; match a with | ⟨0, _⟩ => rfl | ⟨1, _⟩ => rfl),
      broadcastInDim_apply ![0, 1, 2] bcast_S1x3x2_S983040x3x2_0_1_2 _ (ix3 e k j) (ix3 0 k j) (by
        intro a; match a with | ⟨0, _⟩ => rfl | ⟨1, _⟩ => rfl | ⟨2, _⟩ => rfl),
      broadcastInDim_apply ![1, 2] bcast_S3x2_S1x3x2_1_2 mu (ix3 0 k j) (ix2 k j) (by
        intro a; match a with | ⟨0, _⟩ => rfl | ⟨1, _⟩ => rfl)]
  have hn : ∀ j : Fin 2, broadcastInDim S983040x3x2 ![0, 1, 2] bcast_S1x3x2_S983040x3x2_0_1_2 (denOf sg) (ix3 e k j)
      = sg (ix2 k j) * sg (ix2 k j) + Ideal.ofBits .f32 0x26901D7D#32 := by
    intro j
    unfold denOf
    rw [broadcastInDim_apply ![0, 1, 2] bcast_S1x3x2_S983040x3x2_0_1_2 _ (ix3 e k j) (ix3 0 k j) (by
        intro a; match a with | ⟨0, _⟩ => rfl | ⟨1, _⟩ => rfl | ⟨2, _⟩ => rfl),
      addf_apply, mulf_apply,
      broadcastInDim_apply ![1, 2] bcast_S3x2_S1x3x2_1_2 sg (ix3 0 k j) (ix2 k j) (by
        intro a; match a with | ⟨0, _⟩ => rfl | ⟨1, _⟩ => rfl),
      broadcastInDim_scalar_apply, constant_apply]
  unfold wOf
  rw [hostExp_apply, mulf_apply, broadcastInDim_scalar_apply, constant_apply, hostReduceAdd_apply,
    Ideal.hostReduceAdd_single reducesTo_S983040x3x2_S983040x3_d2 (by decide), constant_apply, Ideal.ofBits_zero_f32, zero_add]
  erw [Fin.sum_univ_two]
  have hl : ∀ j : Fin 2, (Shape.Reduces.lift (s := S983040x3x2) (t := S983040x3) (a := 2) (by decide) (ix2 e k) j) = ix3 e k j := by
    intro j; funext a; apply Fin.ext
    match a with | ⟨0, _⟩ => rfl | ⟨1, _⟩ => rfl | ⟨2, _⟩ => rfl
  rw [hl 0, hl 1, hostDivf_apply, hostDivf_apply, mulf_apply, mulf_apply, hd 0, hd 1, hn 0, hn 1]
  rfl

abbrev rowGather (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (ch : Fin C) :
    Host.gather (rowGather N E C wf) x idx (ix2 e ch)
      = x (ix2 ⟨min (idx (ix2 e 0)).toInt.toNat (N - 1), by omega⟩ ch) := by
  unfold Host.gather
  congr 1
  funext a
  refine Fin.ext ?_
  match a with
  | ⟨0, _⟩ =>
    show (rowGather N E C wf).start (ix2 e ch) idx 0 + (rowGather N E C wf).batchCoord (ix2 e ch) 0
        + (rowGather N E C wf).offCoord (ix2 e ch) 0 = _
    rw [GatherDims.batchCoord_eq_zero _ _ _ List.not_mem_nil,
      GatherDims.offCoord_eq_zero _ _ _ (show (0 : Fin 2) ∉ (rowGather N E C wf).sKept from
        (show (0 : Fin 2) ∉ ((List.finRange 2).filter (· ∉ ([0] : List (Fin 2)))) by decide))]
    simp only [Nat.add_zero]
    unfold GatherDims.start
    rw [dif_pos (show (0 : Fin 2) ∈ (rowGather N E C wf).startIndexMap from List.mem_singleton.mpr rfl)]
    have hsi : (rowGather N E C wf).siIdx (ix2 e ch) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e ch) idx 1 + (rowGather N E C wf).batchCoord (ix2 e ch) 1
        + (rowGather N E C wf).offCoord (ix2 e ch) 1 = ch.val
    rw [GatherDims.batchCoord_eq_zero _ _ _ List.not_mem_nil]
    unfold GatherDims.start GatherDims.offCoord
    rw [dif_neg (show (1 : Fin 2) ∉ ([0] : List (Fin 2)) by decide),
      dif_pos (show (1 : Fin 2) ∈ (rowGather N E C wf).sKept from
        (show (1 : Fin 2) ∈ ((List.finRange 2).filter (· ∉ ([0] : List (Fin 2)))) by decide))]
    simp only [Nat.add_zero, Nat.zero_add]
    rfl

theorem plainDot_apply {M K N : ℕ} {φ₁ φ₂ : FTy} (l : FVec Ideal ⟨2, ![M, K]⟩ φ₁) (r : FVec Ideal ⟨2, ![K, N]⟩ φ₂)
    (i : Fin M) (j : Fin N) :
    Host.dotGeneral (DotDims.plain M K N) none l r (ix2 i j) = ∑ k : Fin K, l (ix2 i k) * r (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

theorem gather_eq : gather_S163848x2_S983040x1_S983040x2_1_0_n_n_0_1_12
    = rowGather 163848 983040 2 gather_S163848x2_S983040x1_S983040x2_1_0_n_n_0_1_12_wf := rfl
theorem dot_eq : dot_S983040x2_S2x96_S983040x96_1_0_0_1_n_n = DotDims.plain 983040 2 96 := rfl

theorem xsOf_apply (x : FVec Ideal S163848x2 .f32) (ei : IVec S2x983040 32) (e : Fin 983040) (ch : Fin 2)
    (hslt : IntOp.cmpi .slt (srcOf ei (ix1 e)) 0#32 = 0#1)
    (hrange : 0 ≤ (srcOf ei (ix1 e)).toInt ∧ (srcOf ei (ix1 e)).toInt < 163848) :
    xsOf x ei (ix2 e ch) = x (ix2 ⟨(srcOf ei (ix1 e)).toInt.toNat, by omega⟩ ch) := by
  unfold xsOf
  rw [gather_eq, rowGather_apply (by decide)]
  have hidx : broadcastInDim S983040x1 ![0] bcast_S983040_S983040x1_0
      (select (cmpi .slt (srcOf ei) (broadcastInDim S983040 ![] bcast_S_S983040 (constantI S_ 32 0#32)))
        (addi (srcOf ei) (broadcastInDim S983040 ![] bcast_S_S983040 (constantI S_ 32 163848#32)))
        (srcOf ei)) (ix2 e 0) = srcOf ei (ix1 e) := by
    rw [broadcastInDim_apply ![0] bcast_S983040_S983040x1_0 _ (ix2 e 0) (ix1 e) (by
        intro a; match a with | ⟨0, _⟩ => rfl), select_apply]
    show Scalar.select (IntOp.cmpi .slt (srcOf ei (ix1 e))
      (broadcastInDim S983040 ![] bcast_S_S983040 (constantI S_ 32 0#32) (ix1 e))) _ _ = _
    rw [broadcastInDim_scalar_apply]
    show Scalar.select (IntOp.cmpi .slt (srcOf ei (ix1 e)) 0#32) _ _ = _
    rw [hslt, select_zero]
  congr 1
  funext a
  refine Fin.ext ?_
  match a with
  | ⟨0, _⟩ =>
    show min _ (163848 - 1) = _
    rw [hidx]
    show min (srcOf ei (ix1 e)).toInt.toNat (163848 - 1) = (srcOf ei (ix1 e)).toInt.toNat
    omega
  | ⟨1, _⟩ => rfl

theorem msgOf_apply (x : FVec Ideal S163848x2 .f32) (ei : IVec S2x983040 32) (ps : FVec Ideal S983040x2 .f32)
    (g : FVec Ideal S2x96 .f32) (mu sg : FVec Ideal S3x2 .f32) (e : Fin 983040) (o : Fin 32)
    (hslt : IntOp.cmpi .slt (srcOf ei (ix1 e)) 0#32 = 0#1)
    (hrange : 0 ≤ (srcOf ei (ix1 e)).toInt ∧ (srcOf ei (ix1 e)).toInt < 163848) :
    msgOf x ei ps g mu sg (ix2 e o)
      = Ideal.ofBits .f32 0x00000000#32 + ∑ k : Fin 3,
          (∑ ch : Fin 2, x (ix2 ⟨(srcOf ei (ix1 e)).toInt.toNat, by omega⟩ ch) * g (ix2 ch ⟨32 * k.val + o.val, by omega⟩))
            * Cert.Spec.gaussW (ps (ix2 e 0)) (ps (ix2 e 1)) (mu (ix2 k 0)) (mu (ix2 k 1)) (sg (ix2 k 0)) (sg (ix2 k 1)) := by
  unfold msgOf
  rw [hostReduceAdd_apply, Ideal.hostReduceAdd_single reducesTo_S983040x3x32_S983040x32_d1 (by decide), constant_apply]
  refine congrArg (_ + ·) (Finset.sum_congr rfl fun (k : Fin 3) _ => ?_)
  have hl : (Shape.Reduces.lift (s := S983040x3x32) (t := S983040x32) (a := 1) (by decide) (ix2 e o) k) = ix3 e k o := by
    funext a; apply Fin.ext
    match a with | ⟨0, _⟩ => rfl | ⟨1, _⟩ => rfl | ⟨2, _⟩ => rfl
  rw [hl, mulf_apply,
    broadcastInDim_apply ![0, 1, 2] bcast_S983040x3x1_S983040x3x32_0_1_2 _ (ix3 e k o) (ix3 e k 0) (by
      intro a; match a with | ⟨0, _⟩ => rfl | ⟨1, _⟩ => rfl | ⟨2, _⟩ => rfl),
    broadcastInDim_apply ![0, 1] bcast_S983040x3_S983040x3x1_0_1 _ (ix3 e k 0) (ix2 e k) (by
      intro a; match a with | ⟨0, _⟩ => rfl | ⟨1, _⟩ => rfl),
    wOf_apply,
    shapeCast_apply _ shapeCasts_S983040x96_S983040x3x32 (ix3 e k o) (ix2 e ⟨32 * k.val + o.val, by omega⟩) (by
      rw [Shape.rowMajor_val_two, Shape.rowMajor_val_three]
      show e.val * 96 + (32 * k.val + o.val) = (e.val * 3 + k.val) * 32 + o.val
      omega),
    dot_eq, plainDot_apply]
  refine congrArg (· * _) (Finset.sum_congr rfl fun ch _ => ?_)
  rw [xsOf_apply x ei e ch hslt hrange]

section Theorem
variable (m : (ℓ : Loc nD τ sig) → Buf (Elt Ideal) ℓ)

theorem msg_apply (c : Dev nD) (e : Fin 983040) (o : Fin 32)
    (hslt : IntOp.cmpi .slt (srcOf (aEi m c) (ix1 e)) 0#32 = 0#1)
    (hrange : 0 ≤ (srcOf (aEi m c) (ix1 e)).toInt ∧ (srcOf (aEi m c) (ix1 e)).toInt < 163848) :
    (RefRun.V1 m c main_v32 : FVec Ideal S983040x32 .f32) (ix2 e o)
      = Ideal.ofBits .f32 0x00000000#32 + ∑ k : Fin 3,
          (∑ ch : Fin 2, aX m c (ix2 ⟨(srcOf (aEi m c) (ix1 e)).toInt.toNat, by omega⟩ ch)
              * aG m c (ix2 ch ⟨32 * k.val + o.val, by omega⟩))
            * Cert.Spec.gaussW (aPs m c (ix2 e 0)) (aPs m c (ix2 e 1))
                (aMu m c (ix2 k 0)) (aMu m c (ix2 k 1))
                (aSg m c (ix2 k 0)) (aSg m c (ix2 k 1)) := by
  rw [V1_main_v32]
  exact msgOf_apply _ _ _ _ _ _ e o hslt hrange

theorem msg_apply' (c : Dev nD) (e : Fin 983040) (o : Fin 32)
    (hslt : IntOp.cmpi .slt (srcOf (aEi m c) (ix1 e)) 0#32 = 0#1)
    (hrange : 0 ≤ (srcOf (aEi m c) (ix1 e)).toInt ∧ (srcOf (aEi m c) (ix1 e)).toInt < 163848) :
    (RefRun.V1 m c main_v32 : FVec Ideal S983040x32 .f32) (ix2 e o)
      = ∑ k : Fin 3,
          (∑ ch : Fin 2, aX m c (ix2 ⟨(srcOf (aEi m c) (ix1 e)).toInt.toNat, by omega⟩ ch)
              * aG m c (ix2 ch ⟨32 * k.val + o.val, by omega⟩))
            * Cert.Spec.gaussW (aPs m c (ix2 e 0)) (aPs m c (ix2 e 1))
                (aMu m c (ix2 k 0)) (aMu m c (ix2 k 1))
                (aSg m c (ix2 k 0)) (aSg m c (ix2 k 1)) := by
  rw [msg_apply m c e o hslt hrange, Ideal.ofBits_zero_f32, zero_add]

end Theorem

end Cert.RefHead1

end
-- ==== Proof.Bridge1.lean ====
import proofs.«402598_j31782757990676_2_alg».proof.Defs
import proofs.«402598_j31782757990676_2_alg».proof.Proof.EdgeLaw
import proofs.«402598_j31782757990676_2_alg».proof.Proof.Spec
import proofs.«402598_j31782757990676_2_alg».proof.Proof.WeightReal
import proofs.«402598_j31782757990676_2_alg».proof.Proof.PreFacts
import proofs.«402598_j31782757990676_2_alg».proof.Proof.KHost1
import proofs.«402598_j31782757990676_2_alg».proof.Proof.Region0Value
import proofs.«402598_j31782757990676_2_alg».proof.Proof.RefHead1
import Idealize.ShloMosaic.Lib.ValueIdx
import Mathlib.Algebra.BigOperators.Fin

set_option maxRecDepth 8192

noncomputable section

open scoped BigOperators

namespace Cert.Bridge1

open Idealize.ShloMosaic Idealize.ShloMosaic.TcCoe Idealize.ShloMosaic.ValueIdx Idealize.SL.Sem

variable [Cert.KernelIdeal.Facts] [Cert.ReferenceIdeal.Facts] [Cert.Pre_finite_inputs.Facts]

open Cert.KernelIdeal (main_arg0 main_arg1 main_arg5 main_arg14 main_arg15 main_arg16)
open Cert.KernelIdeal.Gen (V0 V3)
open Cert.KernelIdeal.KHost1 (xArg eiArg gArg src xsBuf gstackBuf)
open Cert.KernelIdeal.Region0 (outArr0 V3')
open Cert.KernelIdeal.Region0Value (xsA psA gA muA sgA)
open Cert.Spec (gaussW)

theorem arr0 : Pipeline.arrRef Cert.KernelIdeal.spec0 0 = Cert.KernelIdeal.main_v5 := rfl
theorem arr1 : Pipeline.arrRef Cert.KernelIdeal.spec0 1 = Cert.KernelIdeal.main_arg5 := rfl
theorem arr2 : Pipeline.arrRef Cert.KernelIdeal.spec0 2 = Cert.KernelIdeal.main_v10 := rfl
theorem arr3 : Pipeline.arrRef Cert.KernelIdeal.spec0 3 = Cert.KernelIdeal.main_arg15 := rfl
theorem arr4 : Pipeline.arrRef Cert.KernelIdeal.spec0 4 = Cert.KernelIdeal.main_arg16 := rfl

section Args

variable (m : (ℓ : Loc Cert.KernelIdeal.nD Cert.KernelIdeal.τ Cert.KernelIdeal.sig) → Buf (Elt Ideal) ℓ)
  (c : Dev Cert.KernelIdeal.nD)

abbrev psArg : FVec Ideal Cert.KernelIdeal.S983040x2 .f32 := V0 m c main_arg5

abbrev muArg : FVec Ideal Cert.KernelIdeal.S3x2 .f32 := V0 m c main_arg15

abbrev sgArg : FVec Ideal Cert.KernelIdeal.S3x2 .f32 := V0 m c main_arg16

end Args

theorem ref_msg
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1))
    (h5 : m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5))
    (h14 : m' ((c.tc : Thread Cert.ReferenceIdeal.nD Cert.ReferenceIdeal.τ).loc Cert.ReferenceIdeal.main_arg14)
        = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15)
        = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16)
        = m ((c.tc : Thread Cert.KernelIdeal.nD Cert.KernelIdeal.τ).loc Cert.KernelIdeal.main_arg16))
    (e : Fin 983040) (o : Fin 32)
    (hslt : IntOp.cmpi .slt (src m c (ix1 e)) 0#32 = 0#1)
    (hrange : 0 ≤ (src m c (ix1 e)).toInt ∧ (src m c (ix1 e)).toInt < 163848) :
    (Cert.ReferenceIdeal.RefRun.V1 (F := Ideal) m' c Cert.ReferenceIdeal.main_v32
        : Cert.ReferenceIdeal.S983040x32.Idx → EReal) (ix2 e o)
      = ∑ k : Fin 3,
          (∑ ch : Fin 2, xArg m c (ix2 (⟨(src m c (ix1 e)).toInt.toNat, by omega⟩ : Fin 163848) ch)
              * gArg m c (ix2 ch (⟨32 * k.val + o.val, by omega⟩ : Fin 96)))
            * gaussW (psArg m c (ix2 e 0)) (psArg m c (ix2 e 1))
                (muArg m c (ix2 k 0)) (muArg m c (ix2 k 1))
                (sgArg m c (ix2 k 0)) (sgArg m c (ix2 k 1)) := by
  have hX : Cert.RefHead1.aX m' c = xArg m c := h0
  have hEi : Cert.RefHead1.aEi m' c = eiArg m c := h1
  have hPs : Cert.RefHead1.aPs m' c = psArg m c := h5
  have hG : Cert.RefHead1.aG m' c = gArg m c := h14
  have hMu : Cert.RefHead1.aMu m' c = muArg m c := h15
  have hSg : Cert.RefHead1.aSg m' c = sgArg m c := h16

  have hslt' : IntOp.cmpi .slt (Cert.RefHead1.srcOf (Cert.RefHead1.aEi m' c) (ix1 e)) 0#32 = 0#1 := by
    rw [hEi]; exact hslt
  have hrange' : 0 ≤ (Cert.RefHead1.srcOf (Cert.RefHead1.aEi m' c) (ix1 e)).toInt
      ∧ (Cert.RefHead1.srcOf (Cert.RefHead1.aEi m' c) (ix1 e)).toInt < 163848 := by
    rw [hEi]; exact hrange
  have hidx : (⟨(Cert.RefHead1.srcOf (Cert.RefHead1.aEi m' c) (ix1 e)).toInt.toNat, by omega⟩ : Fin 163848)
      = ⟨(src m c (ix1 e)).toInt.toNat, by omega⟩ :=
    Fin.ext (congrArg (fun ei => (Cert.RefHead1.srcOf ei (ix1 e)).toInt.toNat) hEi)
  rw [Cert.RefHead1.msg_apply' m' c e o hslt' hrange', hidx, hX, hPs, hG, hMu, hSg]

theorem msg1
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_KernelIdeal m)
    (h0 : m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
        = m ((c.tc : Thread Cert.KernelIdeal.nD Cert.KernelIdeal.τ).loc Cert.KernelIdeal.main_arg1))
    (h5 : m' ((c.tc : Thread Cert.ReferenceIdeal.nD Cert.ReferenceIdeal.τ).loc Cert.ReferenceIdeal.main_arg5)
        = m ((c.tc : Thread Cert.KernelIdeal.nD Cert.KernelIdeal.τ).loc Cert.KernelIdeal.main_arg5))
    (h14 : m' ((c.tc : Thread Cert.ReferenceIdeal.nD Cert.ReferenceIdeal.τ).loc Cert.ReferenceIdeal.main_arg14)
        = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15)
        = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16)
        = m ((c.tc : Thread Cert.KernelIdeal.nD Cert.KernelIdeal.τ).loc Cert.KernelIdeal.main_arg16)) :
    (Cert.KernelIdeal.Region0.outArr0 (F := Ideal) (Cert.KernelIdeal.Region0.V3' m) c
        : Cert.KernelIdeal.S983040x32.Idx → EReal)
      = Cert.ReferenceIdeal.RefRun.V1 (F := Ideal) m' c Cert.ReferenceIdeal.main_v32 := by
  funext i
  obtain ⟨e, o, rfl⟩ : ∃ (e : Fin 983040) (o : Fin 32), i = ix2 e o := ⟨i 0, i 1, eq_ix2 i⟩
  show @Eq EReal _ _
  have hp := hpre c

  have hslt : ∀ e, IntOp.cmpi .slt (src m c e) 0#32 = 0#1 := fun e => Cert.PreFacts.src6_slt hp e
  have hsle : ∀ e, IntOp.cmpi .sle (src m c e) 163847#32 = 1#1 := fun e => Cert.PreFacts.src6_sle hp e
  have hsge : ∀ e, IntOp.cmpi .sge (src m c e) 0#32 = 1#1 := fun e => Cert.PreFacts.src6_sge hp e
  have hrange : ∀ e, 0 ≤ (src m c e).toInt ∧ (src m c e).toInt < 163848 :=
    fun e => Cert.PreFacts.src6_range hp e

  obtain ⟨hA5, hA15, hA16⟩ := Cert.KernelIdeal.KHost1.args_eq m c
  have hps : psA (V3' m) c = psArg m c := hA5
  have hmu : muA (V3' m) c = muArg m c := hA15
  have hsg : sgA (V3' m) c = sgArg m c := hA16
  have hxs : ∀ ch : Fin 2, xsA (V3' m) c (ix2 e ch)
      = xArg m c (ix2 (⟨(src m c (ix1 e)).toInt.toNat, by have := hrange (ix1 e); omega⟩ : Fin 163848) ch) :=
    fun ch => Cert.KernelIdeal.KHost1.xs_eq m c hslt hsle hsge hrange e ch
  have hgs : ∀ j : Fin 6, gA (V3' m) c (ix2 j o)
      = gArg m c (ix2 (⟨j.val % 2, Nat.mod_lt _ (by decide)⟩ : Fin 2) (⟨32 * (j.val / 2) + o.val, by omega⟩ : Fin 96)) :=
    fun j => Cert.KernelIdeal.KHost1.gstack_eq m c j o

  have r5 : ∀ i, ∃ r : ℝ, psArg m c i = (r : EReal) := Cert.PreFacts.real_arg5 hp
  have r15 : ∀ i, ∃ r : ℝ, muArg m c i = (r : EReal) := Cert.PreFacts.real_arg15 hp
  have r16 : ∀ i, ∃ r : ℝ, sgArg m c i = (r : EReal) := Cert.PreFacts.real_arg16 hp
  choose w hw0 hw using fun k : Fin 3 =>
    Cert.WeightReal.gaussW_real' (r5 (ix2 e 0)) (r5 (ix2 e 1)) (r15 (ix2 k 0)) (r15 (ix2 k 1))
      (r16 (ix2 k 0)) (r16 (ix2 k 1))

  refine Eq.trans (Cert.KernelIdeal.Region0Value.outArr0_apply (V3' m) c e o) ?_
  refine Eq.trans ?_ (ref_msg m m' c h0 h1 h5 h14 h15 h16 e o (hslt _) (hrange _)).symm
  rw [hps, hmu, hsg]

  have hlaw := Cert.EdgeLaw.project_weight_eq_stack (C := 2) (by decide)
    (fun ch => xArg m c (ix2 (⟨(src m c (ix1 e)).toInt.toNat, by have := hrange (ix1 e); omega⟩ : Fin 163848) ch))
    (fun ch k => gArg m c (ix2 ch (⟨32 * k.val + o.val, by omega⟩ : Fin 96))) w hw0
  refine Eq.trans ?_ (Eq.trans hlaw.symm ?_)
  · refine Finset.sum_congr rfl fun j _ => ?_
    have hj : (⟨2 * (j.val / 2) + j.val % 2, by have := j.isLt; omega⟩ : Fin 6) = ⟨j.val, j.isLt⟩ :=
      Fin.ext (by show 2 * (j.val / 2) + j.val % 2 = j.val; omega)
    rw [hxs, hw, hj, hgs]
  · refine Finset.sum_congr rfl fun k _ => ?_
    rw [hw k]

end Cert.Bridge1

end
-- ==== Proof.KHost2.lean ====
import proofs.«402598_j31782757990676_2_alg».proof.Proof.Gen.KernelIdeal.Regions
import Idealize.ShloMosaic.Lib.ValueIdx
import Idealize.ShloMosaic.Lib.ValueLayout
import Idealize.ShloMosaic.Lib.ReduceAll
import Idealize.ShloMosaic.Lib.Pipeline.Value

set_option maxRecDepth 2036

noncomputable section

namespace Cert.KernelIdeal.KHost2

open Cert.KernelIdeal Cert.KernelIdeal.Gen
open Idealize.ShloMosaic Idealize.ShloMosaic.TcCoe Idealize.ShloMosaic.ValueIdx

def wrapIdx (s : IVec S245760 32) : IVec S245760 32 :=
  select (cmpi .slt s (broadcastInDim S245760 ![] bcast_S_S245760 (constantI S_ 32 0#32)))
    (addi s (broadcastInDim S245760 ![] bcast_S_S245760 (constantI S_ 32 40968#32))) s

def idxCol (s : IVec S245760 32) : IVec S245760x1 32 :=
  broadcastInDim S245760x1 ![0] bcast_S245760_S245760x1_0 (wrapIdx s)

def rowMask (s : IVec S245760 32) : IVec S245760 1 :=
  Host.reduce IntOp.andi
    (andi (cmpi .sge (idxCol s) (broadcastInDim S245760x1 ![] bcast_S_S245760x1 (constantI S_ 32 0#32)))
      (cmpi .sle (idxCol s) (broadcastInDim S245760x1 ![0, 1] bcast_S1x1_S245760x1_0_1
        (broadcastInDim S1x1 ![1] bcast_S1_S1x1_1 (constantI S1 32 40967#32)))))
    (constantI S_ 1 1#1) reducesTo_S245760x1_S245760_d1 h_S_

section Fold
variable {F : FTy → Type} [FloatOps F]

def takeFn (x : FVec F S40968x32 .f32) (s : IVec S245760 32) : FVec F S245760x32 .bf16 :=
  truncf .bf16
    (select (broadcastInDim S245760x32 ![0] bcast_S245760_S245760x32_0 (rowMask s))
      (Host.gather gather_S40968x32_S245760x1_S245760x32_1_0_n_n_0_1_132 x (idxCol s))
      (broadcastInDim S245760x32 ![] bcast_S_S245760x32 (constant S_ .f32 0x7FC00000#32)))
    bitsLt_bf16_f32
end Fold

section FoldStack
variable {F : FTy → Type} [FloatOps F]

def stackFn (g : FVec F S32x192 .f32) : FVec F S96x64 .bf16 :=
  truncf .bf16
    (concatenate S96x64 0
      [⟨S32x64, extractStridedSlice S32x64 ![0, 0] g slices_S32x192_S32x64_0_0⟩,
        ⟨S32x64, extractStridedSlice S32x64 ![0, 64] g slices_S32x192_S32x64_0_64⟩,
        ⟨S32x64, extractStridedSlice S32x64 ![0, 128] g slices_S32x192_S32x64_0_128⟩]
      concatenates_S32x64_S32x64_S32x64_S96x64_d0)
    bitsLt_bf16_f32
end FoldStack

section Folds
variable {F : FTy → Type} [FloatOps F]

set_option maxHeartbeats 4000000 in

theorem take_fold (W : Valuation τ sig (Elt F)) :
    StableHlo.after hostOps1_4 (StableHlo.after hostOps1_3 W) (Proc.devRef .tc main_v45)
      = takeFn (W (Proc.devRef .tc main_v39)) (W (Proc.devRef .tc main_v41)) := by
  chain_rfl

set_option maxHeartbeats 4000000 in

theorem stack_fold (W : Valuation τ sig (Elt F)) :
    StableHlo.after hostOps1_4 W (Proc.devRef .tc main_v50) = stackFn (W (Proc.devRef .tc main_arg19)) := by
  chain_rfl

set_option maxHeartbeats 4000000 in

theorem src_fold (W : Valuation τ sig (Elt F)) :
    StableHlo.after hostOps1_2 W (Proc.devRef .tc main_v41)
      = shapeCast S245760 (extractStridedSlice S1x245760 ![0, 0] (W (Proc.devRef .tc main_arg2)) slices_S2x245760_S1x245760_0_0)
          shapeCasts_S1x245760_S245760 := by
  chain_rfl

end Folds

theorem foldl_andi_one {ι : Type} (f : ι → BitVec 1) :
    ∀ l : List ι, (∀ n ∈ l, f n = 1#1) → l.foldl (fun r n => IntOp.andi r (f n)) 1#1 = 1#1
  | [], _ => rfl
  | a :: l, h => by
    have h11 : IntOp.andi (1#1 : BitVec 1) 1#1 = 1#1 := by decide
    rw [List.foldl_cons, h a List.mem_cons_self, h11]
    exact foldl_andi_one f l fun n hn => h n (List.mem_cons_of_mem _ hn)

section Take
variable (s : IVec S245760 32)
  (hslt : ∀ k, IntOp.cmpi .slt (s k) 0#32 = 0#1) (hsle : ∀ k, IntOp.cmpi .sle (s k) 40967#32 = 1#1)
  (hsge : ∀ k, IntOp.cmpi .sge (s k) 0#32 = 1#1)
include hslt

theorem wrapIdx_apply (k : S245760.Idx) : wrapIdx s k = s k := by
  show Scalar.select (IntOp.cmpi .slt (s k) 0#32) (IntOp.addi (s k) 40968#32) (s k) = s k
  rw [hslt k, select_zero]

theorem idxCol_apply (i : S245760x1.Idx) : idxCol s i = s (ix1 (i 0)) := by
  have h := broadcastInDim_apply (![0] : Fin S245760.rank → Fin S245760x1.rank) bcast_S245760_S245760x1_0 (wrapIdx s) i (ix1 (i 0))
    (fun a => by match a with | ⟨0, _⟩ => exact (if_neg (by decide : ¬ ((245760 : Nat) = 1))).symm)
  exact h.trans (wrapIdx_apply s hslt _)

include hsle hsge

theorem rowMask_apply (j : S245760.Idx) : rowMask s j = 1#1 := by
  unfold rowMask
  rw [Host.reduce_eq_foldl]
  refine foldl_andi_one _ _ fun i _ => ?_
  show IntOp.andi (IntOp.cmpi .sge (idxCol s i) 0#32) (IntOp.cmpi .sle (idxCol s i) 40967#32) = 1#1
  rw [idxCol_apply s hslt, hsge, hsle]
  decide

theorem takeFn_apply (x : FVec Ideal S40968x32 .f32) (hrange : ∀ k, 0 ≤ (s k).toInt ∧ (s k).toInt < 40968)
    (e : Fin 245760) (ch : Fin 32) :
    takeFn (F := Ideal) x s (ix2 e ch)
      = x (ix2 (⟨(s (ix1 e)).toInt.toNat, by have := hrange (ix1 e); omega⟩ : Fin 40968) ch) := by
  have hm : (broadcastInDim S245760x32 ![0] bcast_S245760_S245760x32_0 (rowMask s)) (ix2 e ch) = 1#1 :=
    rowMask_apply s hslt hsle hsge _
  unfold takeFn
  rw [truncf_apply, select_apply, hm, select_one]
  unfold Host.gather
  refine congrArg x ?_
  funext a
  refine Fin.ext ?_
  show gather_S40968x32_S245760x1_S245760x32_1_0_n_n_0_1_132.start (ix2 e ch) (idxCol s) a
      + gather_S40968x32_S245760x1_S245760x32_1_0_n_n_0_1_132.batchCoord (ix2 e ch) a
      + gather_S40968x32_S245760x1_S245760x32_1_0_n_n_0_1_132.offCoord (ix2 e ch) a = _
  rw [GatherDims.batchCoord_eq_zero _ _ _ List.not_mem_nil, Nat.add_zero]
  have k0 : (⟨0, by decide⟩ : Fin S40968x32.rank) ∉ gather_S40968x32_S245760x1_S245760x32_1_0_n_n_0_1_132.sKept := by decide
  have m0 : (⟨0, by decide⟩ : Fin S40968x32.rank) ∈ gather_S40968x32_S245760x1_S245760x32_1_0_n_n_0_1_132.startIndexMap := by decide
  have m1 : (⟨1, by decide⟩ : Fin S40968x32.rank) ∉ gather_S40968x32_S245760x1_S245760x32_1_0_n_n_0_1_132.startIndexMap := by decide
  have k1 : (⟨1, by decide⟩ : Fin S40968x32.rank) ∈ gather_S40968x32_S245760x1_S245760x32_1_0_n_n_0_1_132.sKept := by decide
  match a with
  | ⟨0, _⟩ =>
    rw [GatherDims.offCoord_eq_zero _ _ _ k0, Nat.add_zero]
    unfold GatherDims.start
    rw [dif_pos m0, idxCol_apply s hslt]
    have hr := hrange (ix1 e)
    exact Nat.min_eq_left (by show (s (ix1 e)).toInt.toNat ≤ 40968 - 1; omega)
  | ⟨1, _⟩ =>
    unfold GatherDims.start
    rw [dif_neg m1, Nat.zero_add]
    unfold GatherDims.offCoord
    rw [dif_pos k1]
    rfl

end Take

theorem ix2_ext {n0 n1 : Nat} {a a' : Fin n0} {b b' : Fin n1} (ha : a.val = a'.val) (hb : b.val = b'.val) :
    ix2 a b = ix2 a' b' := by
  rw [Fin.ext ha, Fin.ext hb]

theorem stackFn_apply (g : FVec Ideal S32x192 .f32) (j : Fin 96) (o : Fin 64) :
    stackFn (F := Ideal) g (ix2 j o)
      = g (ix2 (⟨j.val % 32, Nat.mod_lt _ (by decide)⟩ : Fin 32) (⟨64 * (j.val / 32) + o.val, by omega⟩ : Fin 192)) := by
  unfold stackFn
  rw [truncf_apply]
  have hj := j.isLt
  have ho := o.isLt
  rcases (by omega : j.val < 32 ∨ (32 ≤ j.val ∧ j.val < 64) ∨ 64 ≤ j.val) with h | h | h
  · refine Eq.trans (concatenate_apply_piece (0 : Fin S96x64.rank) _ _ (ix2 j o) 0 ?_ S32x64
      (extractStridedSlice S32x64 ![0, 0] g slices_S32x192_S32x64_0_0) ?_ rfl 0 ?_
      (ix2 (⟨j.val, h⟩ : Fin 32) o) ?_ ?_) ?_
    · show (0 : Nat) < 3; decide
    · rfl
    · rfl
    · intro b hb; match b with | ⟨0, _⟩ => exact absurd rfl hb | ⟨1, _⟩ => rfl
    · show 0 + (j.val) = j.val; omega
    · refine Eq.trans (slice2_axis1_apply 0 g slices_S32x192_S32x64_0_0 (⟨j.val, h⟩ : Fin 32) o
        (⟨0 + o.val, by omega⟩ : Fin 192) rfl) ?_
      exact congrArg g (ix2_ext (by show j.val = j.val % 32; omega) (by show 0 + o.val = 64 * (j.val / 32) + o.val; omega))
  · refine Eq.trans (concatenate_apply_piece (0 : Fin S96x64.rank) _ _ (ix2 j o) 1 ?_ S32x64
      (extractStridedSlice S32x64 ![0, 64] g slices_S32x192_S32x64_0_64) ?_ rfl 32 ?_
      (ix2 (⟨j.val - 32, by omega⟩ : Fin 32) o) ?_ ?_) ?_
    · show (1 : Nat) < 3; decide
    · rfl
    · rfl
    · intro b hb; match b with | ⟨0, _⟩ => exact absurd rfl hb | ⟨1, _⟩ => rfl
    · show 32 + (j.val - 32) = j.val; omega
    · refine Eq.trans (slice2_axis1_apply 64 g slices_S32x192_S32x64_0_64 (⟨j.val - 32, by omega⟩ : Fin 32) o
        (⟨64 + o.val, by omega⟩ : Fin 192) rfl) ?_
      exact congrArg g (ix2_ext (by show j.val - 32 = j.val % 32; omega) (by show 64 + o.val = 64 * (j.val / 32) + o.val; omega))
  · refine Eq.trans (concatenate_apply_piece (0 : Fin S96x64.rank) _ _ (ix2 j o) 2 ?_ S32x64
      (extractStridedSlice S32x64 ![0, 128] g slices_S32x192_S32x64_0_128) ?_ rfl 64 ?_
      (ix2 (⟨j.val - 64, by omega⟩ : Fin 32) o) ?_ ?_) ?_
    · show (2 : Nat) < 3; decide
    · rfl
    · rfl
    · intro b hb; match b with | ⟨0, _⟩ => exact absurd rfl hb | ⟨1, _⟩ => rfl
    · show 64 + (j.val - 64) = j.val; omega
    · refine Eq.trans (slice2_axis1_apply 128 g slices_S32x192_S32x64_0_128 (⟨j.val - 64, by omega⟩ : Fin 32) o
        (⟨128 + o.val, by omega⟩ : Fin 192) rfl) ?_
      exact congrArg g (ix2_ext (by show j.val - 64 = j.val % 32; omega) (by show 128 + o.val = 64 * (j.val / 32) + o.val; omega))

variable (m : (ℓ : Loc nD τ sig) → Buf (Elt Ideal) ℓ) (outs : Outs (F := Ideal)) (c : Dev nD)

theorem V6_of_launch (r : Ref sig .tc) (h1 : r ∉ hostOps0_W) (h2 : r ∉ hostOps0_1_W) (h3 : r ∉ hostOps0_2_W) (h4 : r ∉ ([main_v11] : List (Ref sig .tc))) (h5 : r ∉ hostOps1_W) (h6 : r ∉ hostOps1_1_W) :
    V6 m outs c r = V0 m c r :=
  (V6_of m outs c r h6).trans <| (V5_of m outs c r h5).trans <| (V4_of m outs c r h4).trans <| (V3_of m c r h3).trans <| (V2_of m c r h2).trans (V1_of m c r h1)

theorem V9_of_launch (r : Ref sig .tc) (h1 : r ∉ hostOps0_W) (h2 : r ∉ hostOps0_1_W) (h3 : r ∉ hostOps0_2_W) (h4 : r ∉ ([main_v11] : List (Ref sig .tc))) (h5 : r ∉ hostOps1_W) (h6 : r ∉ hostOps1_1_W) (h7 : r ∉ hostOps1_2_W) (h8 : r ∉ hostOps1_3_W) (h9 : r ∉ hostOps1_4_W) :
    V9 m outs c r = V0 m c r :=
  (V9_of m outs c r h9).trans <| (V8_of m outs c r h8).trans <| (V7_of m outs c r h7).trans
    (V6_of_launch m outs c r h1 h2 h3 h4 h5 h6)

abbrev xIn : FVec Ideal S40968x32 .f32 := V9 m outs c main_v39

abbrev eiArg : IVec S2x245760 32 := V0 m c main_arg2

abbrev gArg : FVec Ideal S32x192 .f32 := V0 m c main_arg19

abbrev src : IVec S245760 32 :=
  shapeCast S245760 (extractStridedSlice S1x245760 ![0, 0] (eiArg m c) slices_S2x245760_S1x245760_0_0) shapeCasts_S1x245760_S245760

abbrev xsBuf : FVec Ideal S245760x32 .bf16 := V9 m outs c main_v45

abbrev gstackBuf : FVec Ideal S96x64 .bf16 := V9 m outs c main_v50

theorem xsBuf_eq : xsBuf m outs c = takeFn (xIn m outs c) (src m c) := by
  have e39 : V7 m outs c main_v39 = V9 m outs c main_v39 :=
    ((V9_of m outs c main_v39 (by decide)).trans (V8_of m outs c main_v39 (by decide))).symm
  have e41 : V7 m outs c main_v41 = src m c :=
    (src_fold (F := Ideal) (V6 m outs c)).trans (by
      rw [V6_of_launch m outs c main_arg2 (by decide) (by decide) (by decide) (by decide) (by decide) (by decide)])
  exact (take_fold (F := Ideal) (V7 m outs c)).trans (by rw [e39, e41])

theorem gstackBuf_eq : gstackBuf m outs c = stackFn (gArg m c) :=
  (stack_fold (F := Ideal) (V8 m outs c)).trans (by
    rw [(V8_of m outs c main_arg19 (by decide)).trans <| (V7_of m outs c main_arg19 (by decide)).trans
      (V6_of_launch m outs c main_arg19 (by decide) (by decide) (by decide) (by decide) (by decide) (by decide))])

theorem xs_eq
    (hslt : ∀ e, IntOp.cmpi .slt (src m c e) 0#32 = 0#1)
    (hsle : ∀ e, IntOp.cmpi .sle (src m c e) 40967#32 = 1#1)
    (hsge : ∀ e, IntOp.cmpi .sge (src m c e) 0#32 = 1#1)
    (hrange : ∀ e, 0 ≤ (src m c e).toInt ∧ (src m c e).toInt < 40968)
    (e : Fin 245760) (ch : Fin 32) :
    xsBuf m outs c (ix2 e ch)
      = xIn m outs c (ix2 (⟨(src m c (ix1 e)).toInt.toNat, by have := hrange (ix1 e); omega⟩ : Fin 40968) ch) := by
  rw [xsBuf_eq]
  exact takeFn_apply (src m c) hslt hsle hsge (xIn m outs c) hrange e ch

theorem gstack_eq (j : Fin 96) (o : Fin 64) :
    gstackBuf m outs c (ix2 j o)
      = gArg m c (ix2 (⟨j.val % 32, Nat.mod_lt _ (by decide)⟩ : Fin 32) (⟨64 * (j.val / 32) + o.val, by omega⟩ : Fin 192)) := by
  rw [gstackBuf_eq]
  exact stackFn_apply (gArg m c) j o

theorem args_eq :
    V9 m outs c main_arg6 = V0 m c main_arg6 ∧ V9 m outs c main_arg20 = V0 m c main_arg20
      ∧ V9 m outs c main_arg21 = V0 m c main_arg21 :=
  ⟨V9_of_launch m outs c main_arg6 (by decide) (by decide) (by decide) (by decide) (by decide) (by decide) (by decide) (by decide) (by decide),
    V9_of_launch m outs c main_arg20 (by decide) (by decide) (by decide) (by decide) (by decide) (by decide) (by decide) (by decide) (by decide),
    V9_of_launch m outs c main_arg21 (by decide) (by decide) (by decide) (by decide) (by decide) (by decide) (by decide) (by decide) (by decide)⟩

end Cert.KernelIdeal.KHost2
-- ==== Proof.Region1Value.lean ====
/-
  REGION 1's output array, index by index.

  The region runs the edge kernel of one mixture layer at 30 grid points; point t reads rows
  8192 t onwards (8192 of them) of the gathered features (32 channels) and of the pseudo-coordinates (two
  channels), and the whole of the restacked projection (96 x 64), of the mixture centres and of the mixture
  widths (3 x 2 each), and writes the same rows of the output (64 channels).

  For one row the body forms, for each mixture component k = 0, 1, 2, the Gaussian weight of the row
  (Spec.gaussW of the row's two pseudo-coordinates and of row k of the centres and widths), stores the
  row's 32 features times that weight at lanes 32 k onwards of a scratch row of 96 lanes, and contracts the
  scratch row against the projection. So lane j of the scratch row is feature j % 32 times the weight of
  component j / 32, and output channel o of the row is the sum over the 96 lanes j of that lane times
  entry (j, o) of the projection.

  The module proves this in four steps: each weighted copy at an index (the lane sum of two terms, the
  exponential, the broadcast back over the channels); the scratch as ONE function of (row, lane),
  from its three column stores; the contraction at an index; and the passage from the 30 blocks to the
  whole array (block t of a window is rows 8192 t onwards of its array; row e lies in block e / 8192).
-/
import proofs.«402598_j31782757990676_2_alg».proof.Proof.Region1
import proofs.«402598_j31782757990676_2_alg».proof.Proof.Spec
import Idealize.ShloMosaic.Lib.Pipeline.Value
import Idealize.ShloMosaic.Lib.ValueIdx
import Idealize.ShloMosaic.PureOps.Ideal.Laws
import Mathlib.Algebra.BigOperators.Fin
import Idealize.ShloMosaic.Lib.Ring
import Idealize.ShloMosaic.Lib.Tactic

set_option maxRecDepth 16384

noncomputable section

namespace Cert.KernelIdeal.Region1Value

open Cert.KernelIdeal Cert.KernelIdeal.Gen Cert.KernelIdeal.Region1
open Idealize.ShloMosaic Idealize.ShloMosaic.TcCoe Idealize.ShloMosaic.ValueIdx
open Idealize.SL.Sem
open Idealize.ShloMosaic.Tactic
open Idealize.ShloMosaic.Pipeline (Dat)
open Cert.Spec (gaussW)

/-! ## One row, abstractly -/

/-- The weight of mixture component k at a row whose pseudo-coordinates are p, for centres mu and widths sg. -/
def wgt (p : Fin 2 → EReal) (mu sg : Fin 3 → Fin 2 → EReal) (k : Fin 3) : EReal :=
  gaussW (p 0) (p 1) (mu k 0) (mu k 1) (sg k 0) (sg k 1)

/-- One output entry of a row: the 96 stacked lanes (feature j % 32 times the weight of component j / 32)
    contracted against the 96 entries gcol of the projection's column. -/
def rowOut (x : Fin 32 → EReal) (p : Fin 2 → EReal) (mu sg : Fin 3 → Fin 2 → EReal) (gcol : Fin 96 → EReal) : EReal :=
  ∑ j : Fin (3 * 32), (x ⟨j.val % 32, Nat.mod_lt _ (by decide)⟩ * wgt p mu sg ⟨j.val / 32, by have := j.isLt; omega⟩) * gcol j

/-! ## Layout operations of the body at an index -/

/-- A row vector [1,2] broadcast down 8192 rows reads its lane. -/
theorem rowBcast_apply (v : FVec Ideal S1x2 .f32) (r : Fin 8192) (d : Fin 2) :
    broadcastTo S8192x2 v broadcasts_S1x2_S8192x2 (ix2 r d) = v (ix2 0 d) := by
  refine broadcastTo_apply v _ (ix2 r d) (ix2 0 d) fun a => ?_
  match a with
  | ⟨0, _⟩ => rfl
  | ⟨1, _⟩ => rfl

/-- A column [8192,1] broadcast over the 32 feature lanes reads its row. -/
theorem colBcast_apply (v : FVec Ideal S8192x1 .f32) (r : Fin 8192) (d : Fin 32) :
    broadcastTo S8192x32 v broadcasts_S8192x1_S8192x32 (ix2 r d) = v (ix2 r 0) := by
  refine broadcastTo_apply v _ (ix2 r d) (ix2 r 0) fun a => ?_
  match a with
  | ⟨0, _⟩ => rfl
  | ⟨1, _⟩ => rfl

/-- Row k of a [3,2] table, sliced out, flattened and restored to [1,2], reads the table at (k, lane). -/
theorem sliceRow_apply (m : Vec Ideal S3x2 .f32) (k : Nat) (hk : k < 3) (h : S3x2.Slices ![k, 0] S1x2) (d : Fin 2) :
    shapeCast S1x2 (shapeCast S2 (extractStridedSlice S1x2 ![k, 0] m h) shapeCasts_S1x2_S2) shapeCasts_S2_S1x2 (ix2 0 d)
      = m (ix2 ⟨k, hk⟩ d) := by
  rw [shapeCast_shapeCast]
  refine extractStridedSlice_apply _ m h (ix2 0 d) (ix2 ⟨k, hk⟩ d) fun a => ?_
  match a with
  | ⟨0, _⟩ => rfl
  | ⟨1, _⟩ => show d.val = 0 + d.val; omega

/-- The sum over the two lanes of a [8192,2] vector, kept as a column, reads the two lanes of the row added. -/
theorem laneSum_apply (v : FVec Ideal S8192x2 .f32) (hφ : FKind.Formats .f32) (hacc : (0x00000000#32 : BitVec 32) = FKind.add.neutral .f32 hφ)
    (r : Fin 8192) :
    shapeCast S8192x1 (multiReduction .add [1] S8192 v 0x00000000#32 reduces_S8192x2_S8192 hφ hacc) shapeCasts_S8192_S8192x1 (ix2 r 0)
      = v (ix2 r 0) + v (ix2 r 1) := by
  refine (shapeCast_apply _ shapeCasts_S8192_S8192x1 (ix2 r 0) (ix1 r) ?_).trans ?_
  · rw [Shape.rowMajor_val_one, Shape.rowMajor_val_two]
    show r.val = r.val * 1 + 0
    omega
  · refine (Ideal.multiReduction_add_single v _ reduces_S8192x2_S8192 hφ hacc (ix1 r)).trans ?_
    refine (Fin.sum_univ_two (fun k : Fin 2 => v (reduces_S8192x2_S8192.lift (ix1 r) k))).trans ?_
    have e0 : reduces_S8192x2_S8192.lift (ix1 r) (0 : Fin 2) = ix2 r 0 :=
      funext fun a => Fin.ext (by match a with | ⟨0, _⟩ => rfl | ⟨1, _⟩ => rfl)
    have e1 : reduces_S8192x2_S8192.lift (ix1 r) (1 : Fin 2) = ix2 r 1 :=
      funext fun a => Fin.ext (by match a with | ⟨0, _⟩ => rfl | ⟨1, _⟩ => rfl)
    rw [e0, e1]

/-! ## The body's payloads at an index (blocks as variables of their literal types) -/

/-- A weighted copy, whatever its numerators and denominators: the features times the exponential of minus one
    half of the row's two quotients added. -/
theorem pay5_gen (x3 : FVec Ideal S8192x32 .f32) (num den : FVec Ideal S8192x2 .f32) (r : Fin 8192) (ch : Fin 32) :
    k1_pay5 x3 num den (ix2 r ch)
      = x3 (ix2 r ch) * Ideal.exp (Ideal.ofBits .f32 0xBF000000#32 *
          (Ideal.div (num (ix2 r 0)) (den (ix2 r 0)) + Ideal.div (num (ix2 r 1)) (den (ix2 r 1)))) := by
  unfold k1_pay5
  dsimp only
  rw [shapeCast_self]
  show x3 (ix2 r ch) * broadcastTo S8192x32 (exp (mulf (broadcast S8192x1 (Scalar.ofBits .f32 0xBF000000#32)) _)) broadcasts_S8192x1_S8192x32 (ix2 r ch) = _
  rw [colBcast_apply]
  show x3 (ix2 r ch) * Ideal.exp (Ideal.ofBits .f32 0xBF000000#32 * shapeCast S8192x1 _ shapeCasts_S8192_S8192x1 (ix2 r 0)) = _
  exact congrArg (fun z => x3 (ix2 r ch) * Ideal.exp (Ideal.ofBits .f32 0xBF000000#32 * z)) (laneSum_apply (divf num den) _ _ r)

/-- The squared distance to centre k, lane by lane. -/
theorem num_apply (ps : FVec Ideal S8192x2 .f32) (mu : FVec Ideal S3x2 .f32) (k : Nat) (hk : k < 3) (h : S3x2.Slices ![k, 0] S1x2) (r : Fin 8192) (d : Fin 2) :
    @Eq EReal
      (mulf (F := Ideal) (subf ps (broadcastTo S8192x2 (shapeCast S1x2 (shapeCast S2 (extractStridedSlice S1x2 ![k, 0] mu h) shapeCasts_S1x2_S2) shapeCasts_S2_S1x2) broadcasts_S1x2_S8192x2))
         (subf ps (broadcastTo S8192x2 (shapeCast S1x2 (shapeCast S2 (extractStridedSlice S1x2 ![k, 0] mu h) shapeCasts_S1x2_S2) shapeCasts_S2_S1x2) broadcasts_S1x2_S8192x2)) (ix2 r d))
      ((ps (ix2 r d) - mu (ix2 ⟨k, hk⟩ d)) * (ps (ix2 r d) - mu (ix2 ⟨k, hk⟩ d))) := by
  have e : broadcastTo S8192x2 (shapeCast S1x2 (shapeCast S2 (extractStridedSlice S1x2 ![k, 0] mu h) shapeCasts_S1x2_S2) shapeCasts_S2_S1x2) broadcasts_S1x2_S8192x2 (ix2 r d)
      = mu (ix2 ⟨k, hk⟩ d) := (rowBcast_apply _ r d).trans (sliceRow_apply mu k hk h d)
  show (ps (ix2 r d) - _) * (ps (ix2 r d) - _) = _
  rw [e]

/-- The squared width of component k plus the regulariser, lane by lane. -/
theorem den_apply (sg : FVec Ideal S3x2 .f32) (k : Nat) (hk : k < 3) (h : S3x2.Slices ![k, 0] S1x2) (r : Fin 8192) (d : Fin 2) :
    @Eq EReal
      (broadcastTo S8192x2 (addf (F := Ideal) (mulf (shapeCast S1x2 (shapeCast S2 (extractStridedSlice S1x2 ![k, 0] sg h) shapeCasts_S1x2_S2) shapeCasts_S2_S1x2)
          (shapeCast S1x2 (shapeCast S2 (extractStridedSlice S1x2 ![k, 0] sg h) shapeCasts_S1x2_S2) shapeCasts_S2_S1x2))
        (broadcast S1x2 (Scalar.ofBits (F := Ideal) .f32 0x26901D7D#32))) broadcasts_S1x2_S8192x2 (ix2 r d))
      (sg (ix2 ⟨k, hk⟩ d) * sg (ix2 ⟨k, hk⟩ d) + Ideal.ofBits .f32 0x26901D7D#32) := by
  refine (rowBcast_apply _ r d).trans ?_
  have e := sliceRow_apply sg k hk h d
  show shapeCast S1x2 _ shapeCasts_S2_S1x2 (ix2 0 d) * shapeCast S1x2 _ shapeCasts_S2_S1x2 (ix2 0 d) + _ = _
  rw [e]
  rfl

/-! ## The contraction at an index -/

theorem hz : (![0, 0] : Fin 2 → Nat) = fun _ => 0 := funext fun a => by fin_cases a <;> rfl

theorem lhs_pay7_0 (i : S8192x64.Idx) (q : dot_S8192x96_S96x64_S8192x64_1_0_0_1_n_n.contr.Idx) :
    (dot_S8192x96_S96x64_S8192x64_1_0_0_1_n_n.lhsIdx i q 0).val = (i 0).val := by
  unfold DotDims.lhsIdx
  rw [dif_neg (show ¬(0 : Fin S8192x96.rank) ∈ dot_S8192x96_S96x64_S8192x64_1_0_0_1_n_n.lhsBatch by decide), dif_pos (show (0 : Fin S8192x96.rank) ∈ dot_S8192x96_S96x64_S8192x64_1_0_0_1_n_n.lhsNonContracting by decide)]
  rfl
theorem lhs_pay7_1 (i : S8192x64.Idx) (q : dot_S8192x96_S96x64_S8192x64_1_0_0_1_n_n.contr.Idx) :
    (dot_S8192x96_S96x64_S8192x64_1_0_0_1_n_n.lhsIdx i q 1).val = (q ⟨0, by decide⟩).val :=
  dot_S8192x96_S96x64_S8192x64_1_0_0_1_n_n.lhsIdx_val_of_single rfl i q
theorem rhs_pay7_0 (i : S8192x64.Idx) (q : dot_S8192x96_S96x64_S8192x64_1_0_0_1_n_n.contr.Idx) :
    (dot_S8192x96_S96x64_S8192x64_1_0_0_1_n_n.rhsIdx i q 0).val = (q ⟨0, by decide⟩).val :=
  dot_S8192x96_S96x64_S8192x64_1_0_0_1_n_n.rhsIdx_val_of_single rfl i q
theorem rhs_pay7_1 (i : S8192x64.Idx) (q : dot_S8192x96_S96x64_S8192x64_1_0_0_1_n_n.contr.Idx) :
    (dot_S8192x96_S96x64_S8192x64_1_0_0_1_n_n.rhsIdx i q 1).val = (i 1).val := by
  unfold DotDims.rhsIdx
  rw [dif_neg (show ¬(1 : Fin S96x64.rank) ∈ dot_S8192x96_S96x64_S8192x64_1_0_0_1_n_n.rhsBatch by decide), dif_pos (show (1 : Fin S96x64.rank) ∈ dot_S8192x96_S96x64_S8192x64_1_0_0_1_n_n.rhsNonContracting by decide)]
  rfl

/-- The contraction of a scratch block against the projection, at (row, channel): the sum over the 96 lanes. -/
theorem pay7_apply (s : FVec Ideal S8192x96 .bf16) (g : FVec Ideal S96x64 .bf16) (r : Fin 8192) (o : Fin 64) :
    @Eq EReal (k1_pay7 (F := Ideal) s g (ix2 r o)) (∑ j : Fin 96, s (ix2 r j) * g (ix2 j o)) := by
  unfold k1_pay7
  rw [shapeCast_self]
  simp only [matmul]
  rw [Ideal.matmul_constant_zero_apply, ← Equiv.sum_comp (contrEquiv1 dot_S8192x96_S96x64_S8192x64_1_0_0_1_n_n 96 rfl rfl).symm]
  refine Finset.sum_congr rfl fun k _ => ?_
  have hk := contrEquiv1_symm_val dot_S8192x96_S96x64_S8192x64_1_0_0_1_n_n 96 rfl rfl k
  have el : dot_S8192x96_S96x64_S8192x64_1_0_0_1_n_n.lhsIdx (ix2 r o) ((contrEquiv1 dot_S8192x96_S96x64_S8192x64_1_0_0_1_n_n 96 rfl rfl).symm k) = ix2 r k := funext fun a => Fin.ext (by
    match a with
    | ⟨0, _⟩ => exact lhs_pay7_0 _ _
    | ⟨1, _⟩ => exact (lhs_pay7_1 _ _).trans hk)
  have er : dot_S8192x96_S96x64_S8192x64_1_0_0_1_n_n.rhsIdx (ix2 r o) ((contrEquiv1 dot_S8192x96_S96x64_S8192x64_1_0_0_1_n_n 96 rfl rfl).symm k) = ix2 k o := funext fun a => Fin.ext (by
    match a with
    | ⟨0, _⟩ => exact (rhs_pay7_0 _ _).trans hk
    | ⟨1, _⟩ => exact rhs_pay7_1 _ _)
  rw [el, er]

section Block

variable (xs : Vec Ideal S8192x32 .bf16) (ps : Vec Ideal S8192x2 .f32) (g : Vec Ideal S96x64 .bf16) (mu sg : Vec Ideal S3x2 .f32)

/-- The weight of component k at row r of a block. -/
abbrev bw (r : Fin 8192) (k : Fin 3) : EReal :=
  wgt (fun d => ps (ix2 r d)) (fun k d => mu (ix2 k d)) (fun k d => sg (ix2 k d)) k

theorem pay1_apply (i : S8192x32.Idx) : k1_pay1 xs i = xs i := by
  unfold k1_pay1
  rw [shapeCast_self]
  rfl

theorem pay2_apply (r : Fin 8192) (ch : Fin 32) :
    k1_pay2 ps xs mu sg (ix2 r ch) = xs (ix2 r ch) * bw ps mu sg r 0 := by
  refine (pay5_gen (k1_pay1 xs) _ _ r ch).trans ?_
  rw [num_apply ps mu 0 (by decide) _ r 0, num_apply ps mu 0 (by decide) _ r 1, den_apply sg 0 (by decide) _ r 0, den_apply sg 0 (by decide) _ r 1,
    pay1_apply]
  rfl

theorem pay5_apply (r : Fin 8192) (ch : Fin 32) :
    k1_pay5 (k1_pay1 xs) (k1_pay3 ps mu) (k1_pay4 sg) (ix2 r ch) = xs (ix2 r ch) * bw ps mu sg r 1 := by
  refine (pay5_gen (k1_pay1 xs) _ _ r ch).trans ?_
  unfold k1_pay3 k1_pay4
  rw [num_apply ps mu 1 (by decide) _ r 0, num_apply ps mu 1 (by decide) _ r 1, den_apply sg 1 (by decide) _ r 0, den_apply sg 1 (by decide) _ r 1,
    pay1_apply]
  rfl

theorem pay6_apply (r : Fin 8192) (ch : Fin 32) :
    k1_pay6 ps (k1_pay1 xs) mu sg (ix2 r ch) = xs (ix2 r ch) * bw ps mu sg r 2 := by
  refine (pay5_gen (k1_pay1 xs) _ _ r ch).trans ?_
  rw [num_apply ps mu 2 (by decide) _ r 0, num_apply ps mu 2 (by decide) _ r 1, den_apply sg 2 (by decide) _ r 0, den_apply sg 2 (by decide) _ r 1,
    pay1_apply]
  rfl

/-- Lane l of row r of the scratch, as the row's feature l % 32 times the weight of component l / 32. -/
def scrAt (r : Fin 8192) (l : Fin 96) : EReal :=
  xs (ix2 r ⟨l.val % 32, Nat.mod_lt _ (by decide)⟩) * bw ps mu sg r ⟨l.val / 32, by have := l.isLt; omega⟩

/-- THE SCRATCH as one function of (row, lane): lane l holds feature l % 32 times the weight of component l / 32. -/
theorem scr1_apply (r : Fin 8192) (l : Fin 96) :
    scr1 xs ps mu sg (ix2 r l)
      = xs (ix2 r ⟨l.val % 32, Nat.mod_lt _ (by decide)⟩) * bw ps mu sg r ⟨l.val / 32, by have := l.isLt; omega⟩ := by
  unfold scr1
  simp only [View.ld_unit_zero (S := S8192x32) hz, View.ld_unit_zero (S := S8192x2) hz, View.ld_unit_zero (S := S3x2) hz]
  refine View.canon_apply_of_pieces (Val := Elt Ideal) (S := S8192x96) (e := .bf16) (fun y : S8192x96.Idx => scrAt xs ps mu sg ⟨(y 0).val, (y 0).isLt⟩ ⟨(y 1).val, (y 1).isLt⟩) _ ?_ (ix2 r l)
    (cover_scr _ _ _ (ix2 r l))
  refine List.forall_mem_cons.mpr ⟨?_, List.forall_mem_cons.mpr ⟨?_, List.forall_mem_cons.mpr ⟨?_, fun _ h => absurd h List.not_mem_nil⟩⟩⟩
  · intro x
    obtain ⟨r', ch, rfl⟩ : ∃ (r' : Fin 8192) (ch : Fin 32), x = ix2 r' ch :=
      ⟨⟨(x 0).val, (x 0).isLt⟩, ⟨(x 1).val, (x 1).isLt⟩, funext fun a => by match a with | ⟨0, _⟩ => rfl | ⟨1, _⟩ => rfl⟩
    refine (pay6_apply xs ps mu sg r' ch).trans ?_
    have e0 : (⟨((rs64.emb (ix2 r' ch)) 0).val, ((rs64.emb (ix2 r' ch)) 0).isLt⟩ : Fin 8192) = r' := Fin.ext (by show 0 + 1 * r'.val = r'.val; omega)
    have e1 : (⟨((rs64.emb (ix2 r' ch)) 1).val, ((rs64.emb (ix2 r' ch)) 1).isLt⟩ : Fin 96) = ⟨64 + ch.val, by have := ch.isLt; omega⟩ := Fin.ext (by show 64 + 1 * ch.val = 64 + ch.val; omega)
    show _ = scrAt xs ps mu sg _ _
    rw [e0, e1]
    unfold scrAt
    have hc := ch.isLt
    have h1 : (⟨(64 + ch.val) % 32, Nat.mod_lt _ (by decide)⟩ : Fin 32) = ch := Fin.ext (by show (64 + ch.val) % 32 = ch.val; omega)
    have h2 : (⟨(64 + ch.val) / 32, by omega⟩ : Fin 3) = 2 := Fin.ext (by show (64 + ch.val) / 32 = 2; omega)
    rw [h1, h2]
  · intro x
    obtain ⟨r', ch, rfl⟩ : ∃ (r' : Fin 8192) (ch : Fin 32), x = ix2 r' ch :=
      ⟨⟨(x 0).val, (x 0).isLt⟩, ⟨(x 1).val, (x 1).isLt⟩, funext fun a => by match a with | ⟨0, _⟩ => rfl | ⟨1, _⟩ => rfl⟩
    refine (pay5_apply xs ps mu sg r' ch).trans ?_
    have e0 : (⟨((rs32.emb (ix2 r' ch)) 0).val, ((rs32.emb (ix2 r' ch)) 0).isLt⟩ : Fin 8192) = r' := Fin.ext (by show 0 + 1 * r'.val = r'.val; omega)
    have e1 : (⟨((rs32.emb (ix2 r' ch)) 1).val, ((rs32.emb (ix2 r' ch)) 1).isLt⟩ : Fin 96) = ⟨32 + ch.val, by have := ch.isLt; omega⟩ := Fin.ext (by show 32 + 1 * ch.val = 32 + ch.val; omega)
    show _ = scrAt xs ps mu sg _ _
    rw [e0, e1]
    unfold scrAt
    have hc := ch.isLt
    have h1 : (⟨(32 + ch.val) % 32, Nat.mod_lt _ (by decide)⟩ : Fin 32) = ch := Fin.ext (by show (32 + ch.val) % 32 = ch.val; omega)
    have h2 : (⟨(32 + ch.val) / 32, by omega⟩ : Fin 3) = 1 := Fin.ext (by show (32 + ch.val) / 32 = 1; omega)
    rw [h1, h2]
  · intro x
    obtain ⟨r', ch, rfl⟩ : ∃ (r' : Fin 8192) (ch : Fin 32), x = ix2 r' ch :=
      ⟨⟨(x 0).val, (x 0).isLt⟩, ⟨(x 1).val, (x 1).isLt⟩, funext fun a => by match a with | ⟨0, _⟩ => rfl | ⟨1, _⟩ => rfl⟩
    refine (pay2_apply xs ps mu sg r' ch).trans ?_
    have e0 : (⟨((rs0.emb (ix2 r' ch)) 0).val, ((rs0.emb (ix2 r' ch)) 0).isLt⟩ : Fin 8192) = r' := Fin.ext (by show 0 + 1 * r'.val = r'.val; omega)
    have e1 : (⟨((rs0.emb (ix2 r' ch)) 1).val, ((rs0.emb (ix2 r' ch)) 1).isLt⟩ : Fin 96) = ⟨0 + ch.val, by have := ch.isLt; omega⟩ := Fin.ext (by show 0 + 1 * ch.val = 0 + ch.val; omega)
    show _ = scrAt xs ps mu sg _ _
    rw [e0, e1]
    unfold scrAt
    have hc := ch.isLt
    have h1 : (⟨(0 + ch.val) % 32, Nat.mod_lt _ (by decide)⟩ : Fin 32) = ch := Fin.ext (by show (0 + ch.val) % 32 = ch.val; omega)
    have h2 : (⟨(0 + ch.val) / 32, by omega⟩ : Fin 3) = 0 := Fin.ext (by show (0 + ch.val) / 32 = 0; omega)
    rw [h1, h2]

/-- THE OUTPUT BLOCK at (row, channel). -/
theorem out1_apply (r : Fin 8192) (o : Fin 64) :
    out1 xs ps g mu sg (ix2 r o)
      = rowOut (fun ch => xs (ix2 r ch)) (fun d => ps (ix2 r d)) (fun k d => mu (ix2 k d)) (fun k d => sg (ix2 k d))
          (fun j => g (ix2 j o)) := by
  unfold out1
  rw [View.canon_unit_zero hz, View.ld_unit_zero (S := S8192x96) hz, View.ld_unit_zero (S := S96x64) hz]
  refine (pay7_apply (scr1 xs ps mu sg) g r o).trans ?_
  unfold rowOut
  refine Finset.sum_congr rfl fun j _ => ?_
  rw [scr1_apply]

end Block

/-! ## From the blocks to the array -/

/-- rowOut depends on its five arguments through their values only. -/
theorem rowOut_congr {x x' : Fin 32 → EReal} {p p' : Fin 2 → EReal} {mu mu' sg sg' : Fin 3 → Fin 2 → EReal} {gc gc' : Fin 96 → EReal}
    (hx : ∀ ch, x ch = x' ch) (hp : ∀ d, p d = p' d) (hmu : ∀ k d, mu k d = mu' k d) (hsg : ∀ k d, sg k d = sg' k d)
    (hg : ∀ j, gc j = gc' j) : rowOut x p mu sg gc = rowOut x' p' mu' sg' gc' := by
  obtain rfl : x = x' := funext hx
  obtain rfl : p = p' := funext hp
  obtain rfl : mu = mu' := funext fun k => funext (hmu k)
  obtain rfl : sg = sg' := funext fun k => funext (hsg k)
  obtain rfl : gc = gc' := funext hg
  rfl

/-- The printed index maps, decided over the grid: the two edge windows and the output move one block of rows
    per point; the three tables stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem N_eq : cfg1.N = 30 := N_1

section AtV

variable (V : (c : Dev nD) → (b : Ref sig .tc) → Buf (Elt Ideal) ((c : Thread nD τ).loc b))

/-- The five arrays the region reads, as it finds them, at their literal types. -/
abbrev xsA (c : Dev nD) : Vec Ideal S245760x32 .bf16 := V c (Pipeline.arrRef spec1 0)
abbrev psA (c : Dev nD) : Vec Ideal S245760x2 .f32 := V c (Pipeline.arrRef spec1 1)
abbrev gA (c : Dev nD) : Vec Ideal S96x64 .bf16 := V c (Pipeline.arrRef spec1 2)
abbrev muA (c : Dev nD) : Vec Ideal S3x2 .f32 := V c (Pipeline.arrRef spec1 3)
abbrev sgA (c : Dev nD) : Vec Ideal S3x2 .f32 := V c (Pipeline.arrRef spec1 4)

/-- The edge-feature block at point t is rows 8192 t onwards of its array. -/
theorem iblk1_0_apply (c : Dev nD) (t : Fin cfg1.N) (r : Fin 8192) (ch : Fin 32) (e : Fin 245760) (he : e.val = 8192 * t.val + r.val) :
    (iblk1 V c 0 t : Vec Ideal S8192x32 .bf16) (ix2 r ch) = xsA V c (ix2 e ch) := by
  obtain ⟨h0, h1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t 0 * 8192 + 1 * r.val = e.val; rw [h0, he]; omega
  | ⟨1, _⟩ => show win1_0.index t 1 * 32 + 1 * ch.val = ch.val; rw [h1]; omega

/-- The pseudo-coordinate block at point t is rows 8192 t onwards of its array. -/
theorem iblk1_1_apply (c : Dev nD) (t : Fin cfg1.N) (r : Fin 8192) (d : Fin 2) (e : Fin 245760) (he : e.val = 8192 * t.val + r.val) :
    (iblk1 V c 1 t : Vec Ideal S8192x2 .f32) (ix2 r d) = psA V c (ix2 e d) := by
  obtain ⟨-, -, h0, h1, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t 0 * 8192 + 1 * r.val = e.val; rw [h0, he]; omega
  | ⟨1, _⟩ => show win1_1.index t 1 * 2 + 1 * d.val = d.val; rw [h1]; omega

/-- The projection's block at every point is the whole table. -/
theorem iblk1_2_apply (c : Dev nD) (t : Fin cfg1.N) (j : Fin 96) (o : Fin 64) :
    (iblk1 V c 2 t : Vec Ideal S96x64 .bf16) (ix2 j o) = gA V c (ix2 j o) := by
  obtain ⟨-, -, -, -, h0, h1, -⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t 0 * 96 + 1 * j.val = j.val; rw [h0]; omega
  | ⟨1, _⟩ => show win1_2.index t 1 * 64 + 1 * o.val = o.val; rw [h1]; omega

/-- The centres' block at every point is the whole table. -/
theorem iblk1_3_apply (c : Dev nD) (t : Fin cfg1.N) (k : Fin 3) (d : Fin 2) :
    (iblk1 V c 3 t : Vec Ideal S3x2 .f32) (ix2 k d) = muA V c (ix2 k d) := by
  obtain ⟨-, -, -, -, -, -, h0, h1, -⟩ := idx_facts t
  unfold iblk1
  rw [View.read_apply]
  show V c (Pipeline.arrRef spec1 3) _ = V c (Pipeline.arrRef spec1 3) _
  congr 1
  funext a
  apply Fin.ext
  match a with
  | ⟨0, _⟩ => show win1_3.index t 0 * 3 + 1 * k.val = k.val; rw [h0]; omega
  | ⟨1, _⟩ => show win1_3.index t 1 * 2 + 1 * d.val = d.val; rw [h1]; omega

/-- The widths' block at every point is the whole table. -/
theorem iblk1_4_apply (c : Dev nD) (t : Fin cfg1.N) (k : Fin 3) (d : Fin 2) :
    (iblk1 V c 4 t : Vec Ideal S3x2 .f32) (ix2 k d) = sgA V c (ix2 k d) := by
  obtain ⟨-, -, -, -, -, -, -, -, h0, h1, -⟩ := idx_facts t
  unfold iblk1
  rw [View.read_apply]
  show V c (Pipeline.arrRef spec1 4) _ = V c (Pipeline.arrRef spec1 4) _
  congr 1
  funext a
  apply Fin.ext
  match a with
  | ⟨0, _⟩ => show win1_4.index t 0 * 3 + 1 * k.val = k.val; rw [h0]; omega
  | ⟨1, _⟩ => show win1_4.index t 1 * 2 + 1 * d.val = d.val; rw [h1]; omega

/-- What the output array ends holding, as one function of the five arrays. -/
def G1 (c : Dev nD) : Buf (Elt Ideal) ((c : Thread nD τ).loc main_v51) := fun i =>
  rowOut (fun ch => xsA V c (ix2 ⟨(i 0).val, (i 0).isLt⟩ ch)) (fun d => psA V c (ix2 ⟨(i 0).val, (i 0).isLt⟩ d))
    (fun k d => muA V c (ix2 k d)) (fun k d => sgA V c (ix2 k d)) (fun j => gA V c (ix2 j ⟨(i 1).val, (i 1).isLt⟩))

/-- WHAT POINT t WRITES BACK is block t of G1. -/
theorem flushed_eq (c : Dev nD) (t : Fin cfg1.N) :
    (dat1 V c).flushed 5 t = ((cfg1.win 5).blk t).view.read (Elt Ideal) (G1 V c) := by
  obtain ⟨-, -, -, -, -, -, -, -, -, -, h50, h51⟩ := idx_facts t
  funext y
  have hy : (cfg1.win 5).xinj (cfg1.grid.coords t) y = ix2 ⟨(y 0).val, (y 0).isLt⟩ ⟨(y 1).val, (y 1).isLt⟩ :=
    funext fun a => by match a with | ⟨0, _⟩ => rfl | ⟨1, _⟩ => rfl
  show (dat1 V c).after 5 t ((cfg1.win 5).xinj (cfg1.grid.coords t) y) = G1 V c (((cfg1.win 5).blk t).view.emb y)
  rw [after1_5, hy]
  unfold oblk1
  refine (out1_apply (iblk1 V c 0 t) (iblk1 V c 1 t) (iblk1 V c 2 t) (iblk1 V c 3 t) (iblk1 V c 4 t) ⟨(y 0).val, (y 0).isLt⟩ ⟨(y 1).val, (y 1).isLt⟩).trans ?_
  unfold G1
  have he : ((((cfg1.win 5).blk t).view.emb y) 0).val = 8192 * t.val + (y 0).val := by
    show win1_5.index t 0 * 8192 + 1 * (y 0).val = _
    rw [h50]; omega
  have ho : ((((cfg1.win 5).blk t).view.emb y) 1).val = (y 1).val := by
    show win1_5.index t 1 * 64 + 1 * (y 1).val = _
    rw [h51]; omega
  refine rowOut_congr (fun ch => ?_) (fun d => ?_) (fun k d => ?_) (fun k d => ?_) (fun j => ?_)
  · exact iblk1_0_apply V c t _ ch _ he
  · exact iblk1_1_apply V c t _ d _ he
  · exact iblk1_3_apply V c t k d
  · exact iblk1_4_apply V c t k d
  · refine (iblk1_2_apply V c t j _).trans (congrArg (fun o => gA V c (ix2 j o)) (Fin.ext ho.symm))

/-- Every row of the output array lies in some point's block: row e in block e / 8192. -/
theorem cover (c : Dev nD) (i : S245760x64.Idx) :
    ∃ t : Fin cfg1.N, (cfg1.win 5).flush t = true ∧ i ∈ ((cfg1.win 5).blk t).view.set := by
  have hi0 : (i 0).val < 245760 := (i 0).isLt
  have hi1 : (i 1).val < 64 := (i 1).isLt
  have hN : cfg1.N = 30 := N_eq
  have ht : (i 0).val / 8192 < cfg1.N := by rw [hN]; omega
  obtain ⟨-, -, -, -, -, -, -, -, -, -, h50, h51⟩ := idx_facts ⟨(i 0).val / 8192, ht⟩
  refine ⟨⟨(i 0).val / 8192, ht⟩, flush1_5 _, ?_⟩
  show i ∈ ((View.whole main_v51).slice (win1_5.rect ⟨(i 0).val / 8192, ht⟩)).set
  rw [View.set_slice_whole, Rect.mem_set_unit]
  intro a
  match a with
  | ⟨0, _⟩ =>
    show win1_5.index ⟨(i 0).val / 8192, ht⟩ 0 * 8192 ≤ (i 0).val ∧ (i 0).val < win1_5.index ⟨(i 0).val / 8192, ht⟩ 0 * 8192 + 8192
    rw [h50]; show (i 0).val / 8192 * 8192 ≤ (i 0).val ∧ (i 0).val < (i 0).val / 8192 * 8192 + 8192; omega
  | ⟨1, _⟩ =>
    show win1_5.index ⟨(i 0).val / 8192, ht⟩ 1 * 64 ≤ (i 1).val ∧ (i 1).val < win1_5.index ⟨(i 0).val / 8192, ht⟩ 1 * 64 + 64
    rw [h51]; omega

/-- THE OUTPUT ARRAY after the region. -/
theorem outArr1_eq (c : Dev nD) : outArr1 (F := Ideal) V c = G1 V c :=
  (dat1 V c).arrAt_eq_of_cover 5 (G1 V c) (fun t _ => flushed_eq V c t) (fun i => cover c i)

/-- THE OUTPUT ARRAY at (edge, channel): the stacked contraction of the edge's weighted features. -/
theorem outArr1_apply (c : Dev nD) (e : Fin 245760) (o : Fin 64) :
    @Eq EReal (outArr1 (F := Ideal) V c (ix2 e o))
      (∑ j : Fin (3 * 32),
          (xsA V c (ix2 e ⟨j.val % 32, Nat.mod_lt _ (by decide)⟩)
            * gaussW (psA V c (ix2 e 0)) (psA V c (ix2 e 1))
                (muA V c (ix2 ⟨j.val / 32, by have := j.isLt; omega⟩ 0)) (muA V c (ix2 ⟨j.val / 32, by have := j.isLt; omega⟩ 1))
                (sgA V c (ix2 ⟨j.val / 32, by have := j.isLt; omega⟩ 0)) (sgA V c (ix2 ⟨j.val / 32, by have := j.isLt; omega⟩ 1)))
          * gA V c (ix2 ⟨32 * (j.val / 32) + j.val % 32, by have := j.isLt; omega⟩ o)) := by
  refine (congrFun (outArr1_eq V c) (ix2 e o)).trans ?_
  show rowOut _ _ _ _ _ = _
  unfold rowOut wgt
  refine Finset.sum_congr rfl fun j _ => ?_
  have hj : (⟨32 * (j.val / 32) + j.val % 32, by have := j.isLt; omega⟩ : Fin 96) = j := Fin.ext (by show 32 * (j.val / 32) + j.val % 32 = j.val; omega)
  rw [hj]
  rfl

end AtV

end Cert.KernelIdeal.Region1Value

end
-- ==== Proof.RefHead2.lean ====
import proofs.«402598_j31782757990676_2_alg».proof.Proof.RefRun
import proofs.«402598_j31782757990676_2_alg».proof.Proof.Spec
import proofs.«402598_j31782757990676_2_alg».proof.Proof.RefHead1
import Idealize.ShloMosaic.Lib.ValueIdx
import Idealize.ShloMosaic.Lib.IdealHost
import Idealize.ShloMosaic.Lib.Pipeline.Value
import Idealize.ShloMosaic.PureOps.Ideal.Laws

set_option maxRecDepth 8192

noncomputable section

open scoped BigOperators

namespace Cert.RefHead2

open Cert.ReferenceIdeal Idealize.ShloMosaic Idealize.ShloMosaic.ValueIdx Idealize.ShloMosaic.TcCoe Idealize.SL.Sem
open Idealize.ShloMosaic.StableHlo
open Cert.RefHead1 (hostExp_apply rowGather rowGather_apply plainDot_apply)

variable [Facts]
open Facts₀ Facts

section Terms
variable {F : FTy → Type} [FloatOps F]

abbrev srcOf (ei : IVec S2x245760 32) : IVec S245760 32 :=
  shapeCast S245760 (extractStridedSlice S1x245760 ![0, 0] ei slices_S2x245760_S1x245760_0_0) shapeCasts_S1x245760_S245760

def diffOf (ps : FVec F S245760x2 .f32) (mu : FVec F S3x2 .f32) : FVec F S245760x3x2 .f32 :=
  subf (broadcastInDim S245760x3x2 ![0, 1, 2] bcast_S245760x1x2_S245760x3x2_0_1_2
      (broadcastInDim S245760x1x2 ![0, 2] bcast_S245760x2_S245760x1x2_0_2 ps))
    (broadcastInDim S245760x3x2 ![0, 1, 2] bcast_S1x3x2_S245760x3x2_0_1_2
      (broadcastInDim S1x3x2 ![1, 2] bcast_S3x2_S1x3x2_1_2 mu))

def denOf (sg : FVec F S3x2 .f32) : FVec F S1x3x2 .f32 :=
  addf (mulf (broadcastInDim S1x3x2 ![1, 2] bcast_S3x2_S1x3x2_1_2 sg) (broadcastInDim S1x3x2 ![1, 2] bcast_S3x2_S1x3x2_1_2 sg))
    (broadcastInDim S1x3x2 ![] bcast_S_S1x3x2 (constant S_ .f32 0x26901D7D#32))

def wOf (ps : FVec F S245760x2 .f32) (mu sg : FVec F S3x2 .f32) : FVec F S245760x3 .f32 :=
  Host.exp (mulf (broadcastInDim S245760x3 ![] bcast_S_S245760x3 (constant S_ .f32 0xBF000000#32))
    (Host.reduceAdd
      (Host.divf (mulf (diffOf ps mu) (diffOf ps mu))
        (broadcastInDim S245760x3x2 ![0, 1, 2] bcast_S1x3x2_S245760x3x2_0_1_2 (denOf sg)))
      (constant S_ .f32 0x00000000#32) reducesTo_S245760x3x2_S245760x3_d2 h_S_))

def xsOf (x : FVec F S40968x32 .f32) (ei : IVec S2x245760 32) : FVec F S245760x32 .f32 :=
  Host.gather gather_S40968x32_S245760x1_S245760x32_1_0_n_n_0_1_132 x
    (broadcastInDim S245760x1 ![0] bcast_S245760_S245760x1_0
      (select (cmpi .slt (srcOf ei) (broadcastInDim S245760 ![] bcast_S_S245760 (constantI S_ 32 0#32)))
        (addi (srcOf ei) (broadcastInDim S245760 ![] bcast_S_S245760 (constantI S_ 32 40968#32)))
        (srcOf ei)))

def msgOf (x : FVec F S40968x32 .f32) (ei : IVec S2x245760 32) (ps : FVec F S245760x2 .f32)
    (g : FVec F S32x192 .f32) (mu sg : FVec F S3x2 .f32) : FVec F S245760x64 .f32 :=
  Host.reduceAdd
    (mulf
      (shapeCast S245760x3x64 (Host.dotGeneral dot_S245760x32_S32x192_S245760x192_1_0_0_1_n_n none (xsOf x ei) g)
        shapeCasts_S245760x192_S245760x3x64)
      (broadcastInDim S245760x3x64 ![0, 1, 2] bcast_S245760x3x1_S245760x3x64_0_1_2
        (broadcastInDim S245760x3x1 ![0, 1] bcast_S245760x3_S245760x3x1_0_1 (wOf ps mu sg))))
    (constant S_ .f32 0x00000000#32) reducesTo_S245760x3x64_S245760x64_d1 h_S_

set_option maxHeartbeats 4000000 in

abbrev foldX (W : Valuation τ sig (Elt F)) : Valuation τ sig (Elt F) := StableHlo.after RefRun.ops1 W

abbrev foldOf (W : Valuation τ sig (Elt F)) : Valuation τ sig (Elt F) := foldX W

theorem after_main_v94 (W : Valuation τ sig (Elt F)) :
    foldOf W (Proc.devRef .tc main_v94)
      = msgOf (foldX W (Proc.devRef .tc main_v61)) (W (Proc.devRef .tc main_arg2)) (W (Proc.devRef .tc main_arg6))
          (W (Proc.devRef .tc main_arg19)) (W (Proc.devRef .tc main_arg20)) (W (Proc.devRef .tc main_arg21)) := by
  chain_rfl

end Terms

section Run
variable {F : FTy → Type} [FloatOps F] (m : (ℓ : Loc nD τ sig) → Buf (Elt F) ℓ)

abbrev Vin (c : Dev nD) : Valuation τ sig (Elt F) := RefRun.V1 m c
abbrev Vx (c : Dev nD) : Valuation τ sig (Elt F) := RefRun.V2 m c
abbrev Vout (c : Dev nD) : Valuation τ sig (Elt F) := RefRun.V2 m c

abbrev xIn (c : Dev nD) : FVec F S40968x32 .f32 := Vx m c main_v61

theorem xIn_eq (c : Dev nD) : Vout m c main_v61 = Vx m c main_v61 := rfl
theorem xIn_eq' (c : Dev nD) : Vx m c main_v61 = Vout m c main_v61 := (xIn_eq m c).symm

abbrev aEi (c : Dev nD) : IVec S2x245760 32 := m (c, main_arg2)
abbrev aPs (c : Dev nD) : FVec F S245760x2 .f32 := m (c, main_arg6)
abbrev aG (c : Dev nD) : FVec F S32x192 .f32 := m (c, main_arg19)
abbrev aMu (c : Dev nD) : FVec F S3x2 .f32 := m (c, main_arg20)
abbrev aSg (c : Dev nD) : FVec F S3x2 .f32 := m (c, main_arg21)

theorem Vin_arg (c : Dev nD) (r : Ref sig .tc) (h0 : r ∉ RefRun.ops0_W) : Vin m c r = m (c, r) :=
  RefRun.V1_of m c r h0

theorem Vout_main_v94 (c : Dev nD) :
    (Vout m c main_v94 : FVec F S245760x64 .f32)
      = msgOf (xIn m c) (aEi m c) (aPs m c) (aG m c) (aMu m c) (aSg m c) := by
  have h := after_main_v94 (Vin m c)
  rw [Vin_arg m c main_arg2 (by decide), Vin_arg m c main_arg6 (by decide), Vin_arg m c main_arg19 (by decide),
    Vin_arg m c main_arg20 (by decide), Vin_arg m c main_arg21 (by decide)] at h
  exact h

end Run

theorem wOf_apply (ps : FVec Ideal S245760x2 .f32) (mu sg : FVec Ideal S3x2 .f32) (e : Fin 245760) (k : Fin 3) :
    wOf ps mu sg (ix2 e k)
      = Cert.Spec.gaussW (ps (ix2 e 0)) (ps (ix2 e 1)) (mu (ix2 k 0)) (mu (ix2 k 1)) (sg (ix2 k 0)) (sg (ix2 k 1)) := by
  have hd : ∀ j : Fin 2, diffOf ps mu (ix3 e k j) = ps (ix2 e j) - mu (ix2 k j) := by
    intro j
    unfold diffOf
    rw [subf_apply,
      broadcastInDim_apply ![0, 1, 2] bcast_S245760x1x2_S245760x3x2_0_1_2 _ (ix3 e k j) (ix3 e 0 j) (by
        intro a; match a with | ⟨0, _⟩ => rfl | ⟨1, _⟩ => rfl | ⟨2, _⟩ => rfl),
      broadcastInDim_apply ![0, 2] bcast_S245760x2_S245760x1x2_0_2 ps (ix3 e 0 j) (ix2 e j) (by
        intro a; match a with | ⟨0, _⟩ => rfl | ⟨1, _⟩ => rfl),
      broadcastInDim_apply ![0, 1, 2] bcast_S1x3x2_S245760x3x2_0_1_2 _ (ix3 e k j) (ix3 0 k j) (by
        intro a; match a with | ⟨0, _⟩ => rfl | ⟨1, _⟩ => rfl | ⟨2, _⟩ => rfl),
      broadcastInDim_apply ![1, 2] bcast_S3x2_S1x3x2_1_2 mu (ix3 0 k j) (ix2 k j) (by
        intro a; match a with | ⟨0, _⟩ => rfl | ⟨1, _⟩ => rfl)]
  have hn : ∀ j : Fin 2, broadcastInDim S245760x3x2 ![0, 1, 2] bcast_S1x3x2_S245760x3x2_0_1_2 (denOf sg) (ix3 e k j)
      = sg (ix2 k j) * sg (ix2 k j) + Ideal.ofBits .f32 0x26901D7D#32 := by
    intro j
    unfold denOf
    rw [broadcastInDim_apply ![0, 1, 2] bcast_S1x3x2_S245760x3x2_0_1_2 _ (ix3 e k j) (ix3 0 k j) (by
        intro a; match a with | ⟨0, _⟩ => rfl | ⟨1, _⟩ => rfl | ⟨2, _⟩ => rfl),
      addf_apply, mulf_apply,
      broadcastInDim_apply ![1, 2] bcast_S3x2_S1x3x2_1_2 sg (ix3 0 k j) (ix2 k j) (by
        intro a; match a with | ⟨0, _⟩ => rfl | ⟨1, _⟩ => rfl),
      broadcastInDim_scalar_apply, constant_apply]
  unfold wOf
  rw [hostExp_apply, mulf_apply, broadcastInDim_scalar_apply, constant_apply, hostReduceAdd_apply,
    Ideal.hostReduceAdd_single reducesTo_S245760x3x2_S245760x3_d2 (by decide), constant_apply, Ideal.ofBits_zero_f32, zero_add]
  erw [Fin.sum_univ_two]
  have hl : ∀ j : Fin 2, (Shape.Reduces.lift (s := S245760x3x2) (t := S245760x3) (a := 2) (by decide) (ix2 e k) j) = ix3 e k j := by
    intro j; funext a; apply Fin.ext
    match a with | ⟨0, _⟩ => rfl | ⟨1, _⟩ => rfl | ⟨2, _⟩ => rfl
  rw [hl 0, hl 1, hostDivf_apply, hostDivf_apply, mulf_apply, mulf_apply, hd 0, hd 1, hn 0, hn 1]
  rfl

theorem gather_eq : gather_S40968x32_S245760x1_S245760x32_1_0_n_n_0_1_132
    = rowGather 40968 245760 32 gather_S40968x32_S245760x1_S245760x32_1_0_n_n_0_1_132_wf := rfl
theorem dot_eq : dot_S245760x32_S32x192_S245760x192_1_0_0_1_n_n = DotDims.plain 245760 32 192 := rfl

theorem xsOf_apply (x : FVec Ideal S40968x32 .f32) (ei : IVec S2x245760 32) (e : Fin 245760) (ch : Fin 32)
    (hslt : IntOp.cmpi .slt (srcOf ei (ix1 e)) 0#32 = 0#1)
    (hrange : 0 ≤ (srcOf ei (ix1 e)).toInt ∧ (srcOf ei (ix1 e)).toInt < 40968) :
    xsOf x ei (ix2 e ch) = x (ix2 ⟨(srcOf ei (ix1 e)).toInt.toNat, by omega⟩ ch) := by
  unfold xsOf
  rw [gather_eq, rowGather_apply (by decide)]
  have hidx : broadcastInDim S245760x1 ![0] bcast_S245760_S245760x1_0
      (select (cmpi .slt (srcOf ei) (broadcastInDim S245760 ![] bcast_S_S245760 (constantI S_ 32 0#32)))
        (addi (srcOf ei) (broadcastInDim S245760 ![] bcast_S_S245760 (constantI S_ 32 40968#32)))
        (srcOf ei)) (ix2 e 0) = srcOf ei (ix1 e) := by
    rw [broadcastInDim_apply ![0] bcast_S245760_S245760x1_0 _ (ix2 e 0) (ix1 e) (by
        intro a; match a with | ⟨0, _⟩ => rfl), select_apply]
    show Scalar.select (IntOp.cmpi .slt (srcOf ei (ix1 e))
      (broadcastInDim S245760 ![] bcast_S_S245760 (constantI S_ 32 0#32) (ix1 e))) _ _ = _
    rw [broadcastInDim_scalar_apply]
    show Scalar.select (IntOp.cmpi .slt (srcOf ei (ix1 e)) 0#32) _ _ = _
    rw [hslt, select_zero]
  congr 1
  funext a
  refine Fin.ext ?_
  match a with
  | ⟨0, _⟩ =>
    show min _ (40968 - 1) = _
    rw [hidx]
    show min (srcOf ei (ix1 e)).toInt.toNat (40968 - 1) = (srcOf ei (ix1 e)).toInt.toNat
    omega
  | ⟨1, _⟩ => rfl

theorem msgOf_apply (x : FVec Ideal S40968x32 .f32) (ei : IVec S2x245760 32) (ps : FVec Ideal S245760x2 .f32)
    (g : FVec Ideal S32x192 .f32) (mu sg : FVec Ideal S3x2 .f32) (e : Fin 245760) (o : Fin 64)
    (hslt : IntOp.cmpi .slt (srcOf ei (ix1 e)) 0#32 = 0#1)
    (hrange : 0 ≤ (srcOf ei (ix1 e)).toInt ∧ (srcOf ei (ix1 e)).toInt < 40968) :
    msgOf x ei ps g mu sg (ix2 e o)
      = Ideal.ofBits .f32 0x00000000#32 + ∑ k : Fin 3,
          (∑ ch : Fin 32, x (ix2 ⟨(srcOf ei (ix1 e)).toInt.toNat, by omega⟩ ch) * g (ix2 ch ⟨64 * k.val + o.val, by omega⟩))
            * Cert.Spec.gaussW (ps (ix2 e 0)) (ps (ix2 e 1)) (mu (ix2 k 0)) (mu (ix2 k 1)) (sg (ix2 k 0)) (sg (ix2 k 1)) := by
  unfold msgOf
  rw [hostReduceAdd_apply, Ideal.hostReduceAdd_single reducesTo_S245760x3x64_S245760x64_d1 (by decide), constant_apply]
  refine congrArg (_ + ·) (Finset.sum_congr rfl fun (k : Fin 3) _ => ?_)
  have hl : (Shape.Reduces.lift (s := S245760x3x64) (t := S245760x64) (a := 1) (by decide) (ix2 e o) k) = ix3 e k o := by
    funext a; apply Fin.ext
    match a with | ⟨0, _⟩ => rfl | ⟨1, _⟩ => rfl | ⟨2, _⟩ => rfl
  rw [hl, mulf_apply,
    broadcastInDim_apply ![0, 1, 2] bcast_S245760x3x1_S245760x3x64_0_1_2 _ (ix3 e k o) (ix3 e k 0) (by
      intro a; match a with | ⟨0, _⟩ => rfl | ⟨1, _⟩ => rfl | ⟨2, _⟩ => rfl),
    broadcastInDim_apply ![0, 1] bcast_S245760x3_S245760x3x1_0_1 _ (ix3 e k 0) (ix2 e k) (by
      intro a; match a with | ⟨0, _⟩ => rfl | ⟨1, _⟩ => rfl),
    wOf_apply,
    shapeCast_apply _ shapeCasts_S245760x192_S245760x3x64 (ix3 e k o) (ix2 e ⟨64 * k.val + o.val, by omega⟩) (by
      rw [Shape.rowMajor_val_two, Shape.rowMajor_val_three]
      show e.val * 192 + (64 * k.val + o.val) = (e.val * 3 + k.val) * 64 + o.val
      omega),
    dot_eq, plainDot_apply]
  refine congrArg (· * _) (Finset.sum_congr rfl fun ch _ => ?_)
  rw [xsOf_apply x ei e ch hslt hrange]

section Theorem
variable (m : (ℓ : Loc nD τ sig) → Buf (Elt Ideal) ℓ)

theorem msg_apply (c : Dev nD) (e : Fin 245760) (o : Fin 64)
    (hslt : IntOp.cmpi .slt (srcOf (aEi m c) (ix1 e)) 0#32 = 0#1)
    (hrange : 0 ≤ (srcOf (aEi m c) (ix1 e)).toInt ∧ (srcOf (aEi m c) (ix1 e)).toInt < 40968) :
    (Vout m c main_v94 : FVec Ideal S245760x64 .f32) (ix2 e o)
      = Ideal.ofBits .f32 0x00000000#32 + ∑ k : Fin 3,
          (∑ ch : Fin 32, xIn m c (ix2 ⟨(srcOf (aEi m c) (ix1 e)).toInt.toNat, by omega⟩ ch)
              * aG m c (ix2 ch ⟨64 * k.val + o.val, by omega⟩))
            * Cert.Spec.gaussW (aPs m c (ix2 e 0)) (aPs m c (ix2 e 1))
                (aMu m c (ix2 k 0)) (aMu m c (ix2 k 1))
                (aSg m c (ix2 k 0)) (aSg m c (ix2 k 1)) := by
  rw [Vout_main_v94]
  exact msgOf_apply _ _ _ _ _ _ e o hslt hrange

theorem msg_apply' (c : Dev nD) (e : Fin 245760) (o : Fin 64)
    (hslt : IntOp.cmpi .slt (srcOf (aEi m c) (ix1 e)) 0#32 = 0#1)
    (hrange : 0 ≤ (srcOf (aEi m c) (ix1 e)).toInt ∧ (srcOf (aEi m c) (ix1 e)).toInt < 40968) :
    (Vout m c main_v94 : FVec Ideal S245760x64 .f32) (ix2 e o)
      = ∑ k : Fin 3,
          (∑ ch : Fin 32, xIn m c (ix2 ⟨(srcOf (aEi m c) (ix1 e)).toInt.toNat, by omega⟩ ch)
              * aG m c (ix2 ch ⟨64 * k.val + o.val, by omega⟩))
            * Cert.Spec.gaussW (aPs m c (ix2 e 0)) (aPs m c (ix2 e 1))
                (aMu m c (ix2 k 0)) (aMu m c (ix2 k 1))
                (aSg m c (ix2 k 0)) (aSg m c (ix2 k 1)) := by
  rw [msg_apply m c e o hslt hrange, Ideal.ofBits_zero_f32, zero_add]

end Theorem

end Cert.RefHead2

end
-- ==== Proof.Bridge2.lean ====
import proofs.«402598_j31782757990676_2_alg».proof.Defs
import proofs.«402598_j31782757990676_2_alg».proof.Proof.EdgeLaw
import proofs.«402598_j31782757990676_2_alg».proof.Proof.Spec
import proofs.«402598_j31782757990676_2_alg».proof.Proof.WeightReal
import proofs.«402598_j31782757990676_2_alg».proof.Proof.PreFacts
import proofs.«402598_j31782757990676_2_alg».proof.Proof.KHost2
import proofs.«402598_j31782757990676_2_alg».proof.Proof.Region1Value
import proofs.«402598_j31782757990676_2_alg».proof.Proof.RefHead2
import Idealize.ShloMosaic.Lib.ValueIdx
import Mathlib.Algebra.BigOperators.Fin

set_option maxRecDepth 8192

noncomputable section

open scoped BigOperators

namespace Cert.Bridge2

open Idealize.ShloMosaic Idealize.ShloMosaic.TcCoe Idealize.ShloMosaic.ValueIdx Idealize.SL.Sem

variable [Cert.KernelIdeal.Facts] [Cert.ReferenceIdeal.Facts] [Cert.Pre_finite_inputs.Facts]

open Cert.KernelIdeal (main_arg2 main_arg6 main_arg19 main_arg20 main_arg21)
open Cert.KernelIdeal.Gen (V0 V9)
open Cert.KernelIdeal.KHost2 (xIn eiArg gArg src)
open Cert.KernelIdeal.Region1 (outArr1 V9')
open Cert.KernelIdeal.Region1Value (xsA psA gA muA sgA)
open Cert.Spec (gaussW)

theorem arr0 : Pipeline.arrRef Cert.KernelIdeal.spec1 0 = Cert.KernelIdeal.main_v45 := rfl
theorem arr1 : Pipeline.arrRef Cert.KernelIdeal.spec1 1 = Cert.KernelIdeal.main_arg6 := rfl
theorem arr2 : Pipeline.arrRef Cert.KernelIdeal.spec1 2 = Cert.KernelIdeal.main_v50 := rfl
theorem arr3 : Pipeline.arrRef Cert.KernelIdeal.spec1 3 = Cert.KernelIdeal.main_arg20 := rfl
theorem arr4 : Pipeline.arrRef Cert.KernelIdeal.spec1 4 = Cert.KernelIdeal.main_arg21 := rfl

section Args

variable (m : (ℓ : Loc Cert.KernelIdeal.nD Cert.KernelIdeal.τ Cert.KernelIdeal.sig) → Buf (Elt Ideal) ℓ)
  (c : Dev Cert.KernelIdeal.nD)

abbrev psArg : FVec Ideal Cert.KernelIdeal.S245760x2 .f32 := V0 m c main_arg6

abbrev muArg : FVec Ideal Cert.KernelIdeal.S3x2 .f32 := V0 m c main_arg20

abbrev sgArg : FVec Ideal Cert.KernelIdeal.S3x2 .f32 := V0 m c main_arg21

end Args

theorem ref_msg
    (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD)
    (h2 : m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2))
    (h6 : m' ((c.tc : Thread Cert.ReferenceIdeal.nD Cert.ReferenceIdeal.τ).loc Cert.ReferenceIdeal.main_arg6)
        = m ((c.tc : Thread Cert.KernelIdeal.nD Cert.KernelIdeal.τ).loc Cert.KernelIdeal.main_arg6))
    (h19 : m' ((c.tc : Thread Cert.ReferenceIdeal.nD Cert.ReferenceIdeal.τ).loc Cert.ReferenceIdeal.main_arg19)
        = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20)
        = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21)
        = m ((c.tc : Thread Cert.KernelIdeal.nD Cert.KernelIdeal.τ).loc Cert.KernelIdeal.main_arg21))
    (hx : Cert.KernelIdeal.Gen.V9 m outs c Cert.KernelIdeal.main_v39
        = Cert.ReferenceIdeal.RefRun.V2 m' c Cert.ReferenceIdeal.main_v61)
    (e : Fin 245760) (o : Fin 64)
    (hslt : IntOp.cmpi .slt (src m c (ix1 e)) 0#32 = 0#1)
    (hrange : 0 ≤ (src m c (ix1 e)).toInt ∧ (src m c (ix1 e)).toInt < 40968) :
    (Cert.ReferenceIdeal.RefRun.V2 (F := Ideal) m' c Cert.ReferenceIdeal.main_v94
        : Cert.ReferenceIdeal.S245760x64.Idx → EReal) (ix2 e o)
      = ∑ k : Fin 3,
          (∑ ch : Fin 32, xIn m outs c (ix2 (⟨(src m c (ix1 e)).toInt.toNat, by omega⟩ : Fin 40968) ch)
              * gArg m c (ix2 ch (⟨64 * k.val + o.val, by omega⟩ : Fin 192)))
            * gaussW (psArg m c (ix2 e 0)) (psArg m c (ix2 e 1))
                (muArg m c (ix2 k 0)) (muArg m c (ix2 k 1))
                (sgArg m c (ix2 k 0)) (sgArg m c (ix2 k 1)) := by
  have hX : Cert.RefHead2.xIn (F := Ideal) m' c = xIn m outs c := hx.symm
  have hEi : Cert.RefHead2.aEi m' c = eiArg m c := h2
  have hPs : Cert.RefHead2.aPs m' c = psArg m c := h6
  have hG : Cert.RefHead2.aG m' c = gArg m c := h19
  have hMu : Cert.RefHead2.aMu m' c = muArg m c := h20
  have hSg : Cert.RefHead2.aSg m' c = sgArg m c := h21

  have hslt' : IntOp.cmpi .slt (Cert.RefHead2.srcOf (Cert.RefHead2.aEi m' c) (ix1 e)) 0#32 = 0#1 := by
    rw [hEi]; exact hslt
  have hrange' : 0 ≤ (Cert.RefHead2.srcOf (Cert.RefHead2.aEi m' c) (ix1 e)).toInt
      ∧ (Cert.RefHead2.srcOf (Cert.RefHead2.aEi m' c) (ix1 e)).toInt < 40968 := by
    rw [hEi]; exact hrange
  have hidx : (⟨(Cert.RefHead2.srcOf (Cert.RefHead2.aEi m' c) (ix1 e)).toInt.toNat, by omega⟩ : Fin 40968)
      = ⟨(src m c (ix1 e)).toInt.toNat, by omega⟩ :=
    Fin.ext (congrArg (fun ei => (Cert.RefHead2.srcOf ei (ix1 e)).toInt.toNat) hEi)
  refine Eq.trans (Cert.RefHead2.msg_apply' m' c e o hslt' hrange') ?_
  rw [hidx, hX, hPs, hG, hMu, hSg]

theorem msg2
    (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD)
    (hpre : Cert.Pre_KernelIdeal m)
    (h2 : m' ((c.tc : Thread Cert.ReferenceIdeal.nD Cert.ReferenceIdeal.τ).loc Cert.ReferenceIdeal.main_arg2)
        = m ((c.tc : Thread Cert.KernelIdeal.nD Cert.KernelIdeal.τ).loc Cert.KernelIdeal.main_arg2))
    (h6 : m' ((c.tc : Thread Cert.ReferenceIdeal.nD Cert.ReferenceIdeal.τ).loc Cert.ReferenceIdeal.main_arg6)
        = m ((c.tc : Thread Cert.KernelIdeal.nD Cert.KernelIdeal.τ).loc Cert.KernelIdeal.main_arg6))
    (h19 : m' ((c.tc : Thread Cert.ReferenceIdeal.nD Cert.ReferenceIdeal.τ).loc Cert.ReferenceIdeal.main_arg19)
        = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20)
        = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21)
        = m ((c.tc : Thread Cert.KernelIdeal.nD Cert.KernelIdeal.τ).loc Cert.KernelIdeal.main_arg21))
    (hx : Cert.KernelIdeal.Gen.V9 m outs c Cert.KernelIdeal.main_v39
        = Cert.ReferenceIdeal.RefRun.V2 m' c Cert.ReferenceIdeal.main_v61) :
    (Cert.KernelIdeal.Region1.outArr1 (F := Ideal) (Cert.KernelIdeal.Region1.V9' m outs) c
        : Cert.KernelIdeal.S245760x64.Idx → EReal)
      = Cert.ReferenceIdeal.RefRun.V2 (F := Ideal) m' c Cert.ReferenceIdeal.main_v94 := by
  funext i
  obtain ⟨e, o, rfl⟩ : ∃ (e : Fin 245760) (o : Fin 64), i = ix2 e o := ⟨i 0, i 1, eq_ix2 i⟩
  show @Eq EReal _ _
  have hp := hpre c

  have hslt : ∀ e, IntOp.cmpi .slt (src m c e) 0#32 = 0#1 := fun e => Cert.PreFacts.src5_slt hp e
  have hsle : ∀ e, IntOp.cmpi .sle (src m c e) 40967#32 = 1#1 := fun e => Cert.PreFacts.src5_sle hp e
  have hsge : ∀ e, IntOp.cmpi .sge (src m c e) 0#32 = 1#1 := fun e => Cert.PreFacts.src5_sge hp e
  have hrange : ∀ e, 0 ≤ (src m c e).toInt ∧ (src m c e).toInt < 40968 :=
    fun e => Cert.PreFacts.src5_range hp e

  obtain ⟨hAps, hAmu, hAsg⟩ := Cert.KernelIdeal.KHost2.args_eq m outs c
  have hps : psA (V9' m outs) c = psArg m c := hAps
  have hmu : muA (V9' m outs) c = muArg m c := hAmu
  have hsg : sgA (V9' m outs) c = sgArg m c := hAsg
  have hxs : ∀ ch : Fin 32, xsA (V9' m outs) c (ix2 e ch)
      = xIn m outs c (ix2 (⟨(src m c (ix1 e)).toInt.toNat, by have := hrange (ix1 e); omega⟩ : Fin 40968) ch) :=
    fun ch => Cert.KernelIdeal.KHost2.xs_eq m outs c hslt hsle hsge hrange e ch
  have hgs : ∀ j : Fin 96, gA (V9' m outs) c (ix2 j o)
      = gArg m c (ix2 (⟨j.val % 32, Nat.mod_lt _ (by decide)⟩ : Fin 32) (⟨64 * (j.val / 32) + o.val, by omega⟩ : Fin 192)) :=
    fun j => Cert.KernelIdeal.KHost2.gstack_eq m outs c j o

  have r5 : ∀ i, ∃ r : ℝ, psArg m c i = (r : EReal) := Cert.PreFacts.real_arg6 hp
  have r15 : ∀ i, ∃ r : ℝ, muArg m c i = (r : EReal) := Cert.PreFacts.real_arg20 hp
  have r16 : ∀ i, ∃ r : ℝ, sgArg m c i = (r : EReal) := Cert.PreFacts.real_arg21 hp
  choose w hw0 hw using fun k : Fin 3 =>
    Cert.WeightReal.gaussW_real' (r5 (ix2 e 0)) (r5 (ix2 e 1)) (r15 (ix2 k 0)) (r15 (ix2 k 1))
      (r16 (ix2 k 0)) (r16 (ix2 k 1))

  refine Eq.trans (Cert.KernelIdeal.Region1Value.outArr1_apply (V9' m outs) c e o) ?_
  refine Eq.trans ?_ (ref_msg m outs m' c h2 h6 h19 h20 h21 hx e o (hslt _) (hrange _)).symm
  rw [hps, hmu, hsg]

  have hlaw := Cert.EdgeLaw.project_weight_eq_stack (C := 32) (by decide)
    (fun ch => xIn m outs c (ix2 (⟨(src m c (ix1 e)).toInt.toNat, by have := hrange (ix1 e); omega⟩ : Fin 40968) ch))
    (fun ch k => gArg m c (ix2 ch (⟨64 * k.val + o.val, by omega⟩ : Fin 192))) w hw0
  refine Eq.trans ?_ (Eq.trans hlaw.symm ?_)
  · refine Finset.sum_congr rfl fun j _ => ?_
    have hj : (⟨32 * (j.val / 32) + j.val % 32, by have := j.isLt; omega⟩ : Fin 96) = ⟨j.val, j.isLt⟩ :=
      Fin.ext (by show 32 * (j.val / 32) + j.val % 32 = j.val; omega)
    rw [hxs, hw, hj, hgs]
  · refine Finset.sum_congr rfl fun k _ => ?_
    rw [hw k]

end Cert.Bridge2

end
-- ==== Proof.KHost3.lean ====
/-
  What region 2 of the idealized kernel program is entered from: the contents of its operand arrays after the host
  stretches that precede it, read at an index.

  * The feature operand is the row gather `x[src]` of the previous layer's pooled output. The program spells it as an
    index-checked take: the source index wrapped when negative, a mask "0 ≤ index ≤ N − 1" reduced over the index
    vector, a clamping gather, a select between the gathered row and a not-a-number literal under the mask, then a
    change of float format. When every source index is in range the wrap is the identity, the mask is all ones, the
    clamp is the identity and the select takes the gathered row; a change of float format is the identity on extended
    reals.
  * The stacked projection matrix is the three column blocks of the layer's `64 × 384` matrix laid one under another:
    row `j` of the `192 × 128` stack is row `j % 64` of block `j / 64`.
  * The other three operands are argument arrays no host operation writes.
-/
import proofs.«402598_j31782757990676_2_alg».proof.Proof.Gen.KernelIdeal.Regions
import Idealize.ShloMosaic.Lib.ValueIdx
import Idealize.ShloMosaic.Lib.ValueLayout
import Idealize.ShloMosaic.Lib.ReduceAll
import Idealize.ShloMosaic.Lib.Pipeline.Value

set_option maxRecDepth 2036

noncomputable section

namespace Cert.KernelIdeal.KHost3

open Cert.KernelIdeal Cert.KernelIdeal.Gen
open Idealize.ShloMosaic Idealize.ShloMosaic.TcCoe Idealize.ShloMosaic.ValueIdx

/-! ## The take, in pieces -/

/-- The source index wrapped when negative: `where(s < 0, s + 10248, s)`. -/
def wrapIdx (s : IVec S61440 32) : IVec S61440 32 :=
  select (cmpi .slt s (broadcastInDim S61440 ![] bcast_S_S61440 (constantI S_ 32 0#32)))
    (addi s (broadcastInDim S61440 ![] bcast_S_S61440 (constantI S_ 32 10248#32))) s

/-- The wrapped index as a column of one-word index vectors. -/
def idxCol (s : IVec S61440 32) : IVec S61440x1 32 :=
  broadcastInDim S61440x1 ![0] bcast_S61440_S61440x1_0 (wrapIdx s)

/-- The range mask "0 ≤ index ≤ 10247", reduced by `and` over the index vector. -/
def rowMask (s : IVec S61440 32) : IVec S61440 1 :=
  Host.reduce IntOp.andi
    (andi (cmpi .sge (idxCol s) (broadcastInDim S61440x1 ![] bcast_S_S61440x1 (constantI S_ 32 0#32)))
      (cmpi .sle (idxCol s) (broadcastInDim S61440x1 ![0, 1] bcast_S1x1_S61440x1_0_1
        (broadcastInDim S1x1 ![1] bcast_S1_S1x1_1 (constantI S1 32 10247#32)))))
    (constantI S_ 1 1#1) reducesTo_S61440x1_S61440_d1 h_S_

section Fold
variable {F : FTy → Type} [FloatOps F]

/-- The index-checked take as one function of the node features `x` and the source row `s`: the clamping gather at the
    wrapped index, selected against the not-a-number literal under the range mask, then the change of float format. -/
def takeFn (x : FVec F S10248x64 .f32) (s : IVec S61440 32) : FVec F S61440x64 .bf16 :=
  truncf .bf16
    (select (broadcastInDim S61440x64 ![0] bcast_S61440_S61440x64_0 (rowMask s))
      (Host.gather gather_S10248x64_S61440x1_S61440x64_1_0_n_n_0_1_164 x (idxCol s))
      (broadcastInDim S61440x64 ![] bcast_S_S61440x64 (constant S_ .f32 0x7FC00000#32)))
    bitsLt_bf16_f32
end Fold

section FoldStack
variable {F : FTy → Type} [FloatOps F]
/-- The stacked projection as one function of the layer's matrix: its three column blocks one under another, then the
    change of float format. -/
def stackFn (g : FVec F S64x384 .f32) : FVec F S192x128 .bf16 :=
  truncf .bf16
    (concatenate S192x128 0
      [⟨S64x128, extractStridedSlice S64x128 ![0, 0] g slices_S64x384_S64x128_0_0⟩,
        ⟨S64x128, extractStridedSlice S64x128 ![0, 128] g slices_S64x384_S64x128_0_128⟩,
        ⟨S64x128, extractStridedSlice S64x128 ![0, 256] g slices_S64x384_S64x128_0_256⟩]
      concatenates_S64x128_S64x128_S64x128_S192x128_d0)
    bitsLt_bf16_f32
end FoldStack

/-! ## The host lines compute these functions

Over ANY contents `W` before them, the fold of the host lines read at an operand is the function above of `W`'s
buffers: both sides are closed terms over `W`, compared by computation (the folds unfold, each read finds its
writer). Stated for any float type. -/

section Folds
variable {F : FTy → Type} [FloatOps F]

set_option maxHeartbeats 4000000 in
/-- The take's line and the line after it: the feature operand is `takeFn` of `W`'s pooled output and source row. -/
theorem take_fold (W : Valuation τ sig (Elt F)) :
    StableHlo.after hostOps2_4 (StableHlo.after hostOps2_3 W) (Proc.devRef .tc main_v85)
      = takeFn (W (Proc.devRef .tc main_v79)) (W (Proc.devRef .tc main_v81)) := by
  chain_rfl

set_option maxHeartbeats 4000000 in
/-- The last line before the region: the stacked operand is `stackFn` of `W`'s matrix. -/
theorem stack_fold (W : Valuation τ sig (Elt F)) :
    StableHlo.after hostOps2_4 W (Proc.devRef .tc main_v90) = stackFn (W (Proc.devRef .tc main_arg24)) := by
  chain_rfl

set_option maxHeartbeats 4000000 in
/-- The pooling line: the source row is row 0 of `W`'s edge index, flattened. -/
theorem src_fold (W : Valuation τ sig (Elt F)) :
    StableHlo.after hostOps2_2 W (Proc.devRef .tc main_v81)
      = shapeCast S61440 (extractStridedSlice S1x61440 ![0, 0] (W (Proc.devRef .tc main_arg3)) slices_S2x61440_S1x61440_0_0)
          shapeCasts_S1x61440_S61440 := by
  chain_rfl

end Folds

/-! ## The take read at an index -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h11 : IntOp.andi (1#1 : BitVec 1) 1#1 = 1#1 := by decide
    rw [List.foldl_cons, h a List.mem_cons_self, h11]
    exact foldl_andi_one f l fun n hn => h n (List.mem_cons_of_mem _ hn)

section Take
variable (s : IVec S61440 32)
  (hslt : ∀ k, IntOp.cmpi .slt (s k) 0#32 = 0#1) (hsle : ∀ k, IntOp.cmpi .sle (s k) 10247#32 = 1#1)
  (hsge : ∀ k, IntOp.cmpi .sge (s k) 0#32 = 1#1)
include hslt

/-- No source index is negative: the wrap is the identity. -/
theorem wrapIdx_apply (k : S61440.Idx) : wrapIdx s k = s k := by
  show Scalar.select (IntOp.cmpi .slt (s k) 0#32) (IntOp.addi (s k) 10248#32) (s k) = s k
  rw [hslt k, select_zero]

/-- The index column at row `i 0` is the source index of that edge. -/
theorem idxCol_apply (i : S61440x1.Idx) : idxCol s i = s (ix1 (i 0)) := by
  have h := broadcastInDim_apply (![0] : Fin S61440.rank → Fin S61440x1.rank) bcast_S61440_S61440x1_0 (wrapIdx s) i (ix1 (i 0))
    (fun a => by match a with | ⟨0, _⟩ => exact (if_neg (by decide : ¬ ((61440 : Nat) = 1))).symm)
  exact h.trans (wrapIdx_apply s hslt _)

include hsle hsge

/-- Every source index is in range: the mask is all ones. -/
theorem rowMask_apply (j : S61440.Idx) : rowMask s j = 1#1 := by
  unfold rowMask
  rw [Host.reduce_eq_foldl]
  refine foldl_andi_one _ _ fun i _ => ?_
  show IntOp.andi (IntOp.cmpi .sge (idxCol s i) 0#32) (IntOp.cmpi .sle (idxCol s i) 10247#32) = 1#1
  rw [idxCol_apply s hslt, hsge, hsle]
  decide

/-- THE TAKE READ AT `(e, ch)`: with every source index in range, the features of node `s e`. -/
theorem takeFn_apply (x : FVec Ideal S10248x64 .f32) (hrange : ∀ k, 0 ≤ (s k).toInt ∧ (s k).toInt < 10248)
    (e : Fin 61440) (ch : Fin 64) :
    takeFn (F := Ideal) x s (ix2 e ch)
      = x (ix2 (⟨(s (ix1 e)).toInt.toNat, by have := hrange (ix1 e); omega⟩ : Fin 10248) ch) := by
  have hm : (broadcastInDim S61440x64 ![0] bcast_S61440_S61440x64_0 (rowMask s)) (ix2 e ch) = 1#1 :=
    rowMask_apply s hslt hsle hsge _
  unfold takeFn
  rw [truncf_apply, select_apply, hm, select_one]
  unfold Host.gather
  refine congrArg x ?_
  funext a
  refine Fin.ext ?_
  show gather_S10248x64_S61440x1_S61440x64_1_0_n_n_0_1_164.start (ix2 e ch) (idxCol s) a
      + gather_S10248x64_S61440x1_S61440x64_1_0_n_n_0_1_164.batchCoord (ix2 e ch) a
      + gather_S10248x64_S61440x1_S61440x64_1_0_n_n_0_1_164.offCoord (ix2 e ch) a = _
  rw [GatherDims.batchCoord_eq_zero _ _ _ List.not_mem_nil, Nat.add_zero]
  have k0 : (⟨0, by decide⟩ : Fin S10248x64.rank) ∉ gather_S10248x64_S61440x1_S61440x64_1_0_n_n_0_1_164.sKept := by decide
  have m0 : (⟨0, by decide⟩ : Fin S10248x64.rank) ∈ gather_S10248x64_S61440x1_S61440x64_1_0_n_n_0_1_164.startIndexMap := by decide
  have m1 : (⟨1, by decide⟩ : Fin S10248x64.rank) ∉ gather_S10248x64_S61440x1_S61440x64_1_0_n_n_0_1_164.startIndexMap := by decide
  have k1 : (⟨1, by decide⟩ : Fin S10248x64.rank) ∈ gather_S10248x64_S61440x1_S61440x64_1_0_n_n_0_1_164.sKept := by decide
  match a with
  | ⟨0, _⟩ =>
    rw [GatherDims.offCoord_eq_zero _ _ _ k0, Nat.add_zero]
    unfold GatherDims.start
    rw [dif_pos m0, idxCol_apply s hslt]
    have hr := hrange (ix1 e)
    exact Nat.min_eq_left (by show (s (ix1 e)).toInt.toNat ≤ 10248 - 1; omega)
  | ⟨1, _⟩ =>
    unfold GatherDims.start
    rw [dif_neg m1, Nat.zero_add]
    unfold GatherDims.offCoord
    rw [dif_pos k1]
    rfl

end Take

/-! ## The stack read at an index -/

/-- Two matrix indices with equal coordinates are equal. -/
theorem ix2_ext {n0 n1 : Nat} {a a' : Fin n0} {b b' : Fin n1} (ha : a.val = a'.val) (hb : b.val = b'.val) :
    ix2 a b = ix2 a' b' := by
  rw [Fin.ext ha, Fin.ext hb]

/-- THE STACK READ AT `(j, o)`: row `j % 64` of column block `j / 64` of the matrix. -/
theorem stackFn_apply (g : FVec Ideal S64x384 .f32) (j : Fin 192) (o : Fin 128) :
    stackFn (F := Ideal) g (ix2 j o)
      = g (ix2 (⟨j.val % 64, Nat.mod_lt _ (by decide)⟩ : Fin 64) (⟨128 * (j.val / 64) + o.val, by omega⟩ : Fin 384)) := by
  unfold stackFn
  rw [truncf_apply]
  have hj := j.isLt
  have ho := o.isLt
  rcases (by omega : j.val < 64 ∨ (64 ≤ j.val ∧ j.val < 128) ∨ 128 ≤ j.val) with h | h | h
  · refine Eq.trans (concatenate_apply_piece (0 : Fin S192x128.rank) _ _ (ix2 j o) 0 ?_ S64x128
      (extractStridedSlice S64x128 ![0, 0] g slices_S64x384_S64x128_0_0) ?_ rfl 0 ?_
      (ix2 (⟨j.val, h⟩ : Fin 64) o) ?_ ?_) ?_
    · show (0 : Nat) < 3; decide
    · rfl
    · rfl
    · intro b hb; match b with | ⟨0, _⟩ => exact absurd rfl hb | ⟨1, _⟩ => rfl
    · show 0 + (j.val) = j.val; omega
    · refine Eq.trans (slice2_axis1_apply 0 g slices_S64x384_S64x128_0_0 (⟨j.val, h⟩ : Fin 64) o
        (⟨0 + o.val, by omega⟩ : Fin 384) rfl) ?_
      exact congrArg g (ix2_ext (by show j.val = j.val % 64; omega) (by show 0 + o.val = 128 * (j.val / 64) + o.val; omega))
  · refine Eq.trans (concatenate_apply_piece (0 : Fin S192x128.rank) _ _ (ix2 j o) 1 ?_ S64x128
      (extractStridedSlice S64x128 ![0, 128] g slices_S64x384_S64x128_0_128) ?_ rfl 64 ?_
      (ix2 (⟨j.val - 64, by omega⟩ : Fin 64) o) ?_ ?_) ?_
    · show (1 : Nat) < 3; decide
    · rfl
    · rfl
    · intro b hb; match b with | ⟨0, _⟩ => exact absurd rfl hb | ⟨1, _⟩ => rfl
    · show 64 + (j.val - 64) = j.val; omega
    · refine Eq.trans (slice2_axis1_apply 128 g slices_S64x384_S64x128_0_128 (⟨j.val - 64, by omega⟩ : Fin 64) o
        (⟨128 + o.val, by omega⟩ : Fin 384) rfl) ?_
      exact congrArg g (ix2_ext (by show j.val - 64 = j.val % 64; omega) (by show 128 + o.val = 128 * (j.val / 64) + o.val; omega))
  · refine Eq.trans (concatenate_apply_piece (0 : Fin S192x128.rank) _ _ (ix2 j o) 2 ?_ S64x128
      (extractStridedSlice S64x128 ![0, 256] g slices_S64x384_S64x128_0_256) ?_ rfl 128 ?_
      (ix2 (⟨j.val - 128, by omega⟩ : Fin 64) o) ?_ ?_) ?_
    · show (2 : Nat) < 3; decide
    · rfl
    · rfl
    · intro b hb; match b with | ⟨0, _⟩ => exact absurd rfl hb | ⟨1, _⟩ => rfl
    · show 128 + (j.val - 128) = j.val; omega
    · refine Eq.trans (slice2_axis1_apply 256 g slices_S64x384_S64x128_0_256 (⟨j.val - 128, by omega⟩ : Fin 64) o
        (⟨256 + o.val, by omega⟩ : Fin 384) rfl) ?_
      exact congrArg g (ix2_ext (by show j.val - 128 = j.val % 64; omega) (by show 256 + o.val = 128 * (j.val / 64) + o.val; omega))

/-! ## Region 2's operands -/

variable (m : (ℓ : Loc nD τ sig) → Buf (Elt Ideal) ℓ) (outs : Outs (F := Ideal)) (c : Dev nD)

/-- A reference none of the first 12 items writes holds its launch contents after them. -/
theorem V12_of_launch (r : Ref sig .tc) (h1 : r ∉ hostOps0_W) (h2 : r ∉ hostOps0_1_W) (h3 : r ∉ hostOps0_2_W) (h4 : r ∉ ([main_v11] : List (Ref sig .tc))) (h5 : r ∉ hostOps1_W) (h6 : r ∉ hostOps1_1_W) (h7 : r ∉ hostOps1_2_W) (h8 : r ∉ hostOps1_3_W) (h9 : r ∉ hostOps1_4_W) (h10 : r ∉ ([main_v51] : List (Ref sig .tc))) (h11 : r ∉ hostOps2_W) (h12 : r ∉ hostOps2_1_W) :
    V12 m outs c r = V0 m c r :=
  (V12_of m outs c r h12).trans <| (V11_of m outs c r h11).trans <| (V10_of m outs c r h10).trans <| (V9_of m outs c r h9).trans <| (V8_of m outs c r h8).trans <| (V7_of m outs c r h7).trans <| (V6_of m outs c r h6).trans <| (V5_of m outs c r h5).trans <| (V4_of m outs c r h4).trans <| (V3_of m c r h3).trans <| (V2_of m c r h2).trans (V1_of m c r h1)

/-- A reference none of the first 15 items writes holds its launch contents as region 2 is entered. -/
theorem V15_of_launch (r : Ref sig .tc) (h1 : r ∉ hostOps0_W) (h2 : r ∉ hostOps0_1_W) (h3 : r ∉ hostOps0_2_W) (h4 : r ∉ ([main_v11] : List (Ref sig .tc))) (h5 : r ∉ hostOps1_W) (h6 : r ∉ hostOps1_1_W) (h7 : r ∉ hostOps1_2_W) (h8 : r ∉ hostOps1_3_W) (h9 : r ∉ hostOps1_4_W) (h10 : r ∉ ([main_v51] : List (Ref sig .tc))) (h11 : r ∉ hostOps2_W) (h12 : r ∉ hostOps2_1_W) (h13 : r ∉ hostOps2_2_W) (h14 : r ∉ hostOps2_3_W) (h15 : r ∉ hostOps2_4_W) :
    V15 m outs c r = V0 m c r :=
  (V15_of m outs c r h15).trans <| (V14_of m outs c r h14).trans <| (V13_of m outs c r h13).trans
    (V12_of_launch m outs c r h1 h2 h3 h4 h5 h6 h7 h8 h9 h10 h11 h12)

/-! ### The arrays, at their literal types -/

/-- The previous layer's pooled output as region 2 is entered, `10248 × 64`: this layer's node features. -/
abbrev xIn : FVec Ideal S10248x64 .f32 := V15 m outs c main_v79
/-- The edge index at launch, `2 × 61440`: row 0 the sources. -/
abbrev eiArg : IVec S2x61440 32 := V0 m c main_arg3
/-- The layer's projection matrix at launch, `64 × 384`: three column blocks of 128. -/
abbrev gArg : FVec Ideal S64x384 .f32 := V0 m c main_arg24
/-- The source row: row 0 of the edge index, as a flat array of 61440 words. -/
abbrev src : IVec S61440 32 :=
  shapeCast S61440 (extractStridedSlice S1x61440 ![0, 0] (eiArg m c) slices_S2x61440_S1x61440_0_0) shapeCasts_S1x61440_S61440
/-- Region 2's feature operand as entered: `61440 × 64`. -/
abbrev xsBuf : FVec Ideal S61440x64 .bf16 := V15 m outs c main_v85
/-- Region 2's stacked projection operand as entered: `192 × 128`. -/
abbrev gstackBuf : FVec Ideal S192x128 .bf16 := V15 m outs c main_v90

/-! ### The three facts -/

/-- The feature operand is the take of the pooled output at the source row. -/
theorem xsBuf_eq : xsBuf m outs c = takeFn (xIn m outs c) (src m c) := by
  have e39 : V13 m outs c main_v79 = V15 m outs c main_v79 :=
    ((V15_of m outs c main_v79 (by decide)).trans (V14_of m outs c main_v79 (by decide))).symm
  have e41 : V13 m outs c main_v81 = src m c :=
    (src_fold (F := Ideal) (V12 m outs c)).trans (by
      rw [V12_of_launch m outs c main_arg3 (by decide) (by decide) (by decide) (by decide) (by decide) (by decide) (by decide) (by decide) (by decide) (by decide) (by decide) (by decide)])
  exact (take_fold (F := Ideal) (V13 m outs c)).trans (by rw [e39, e41])

/-- The stacked operand is the stack of the layer's matrix. -/
theorem gstackBuf_eq : gstackBuf m outs c = stackFn (gArg m c) :=
  (stack_fold (F := Ideal) (V14 m outs c)).trans (by
    rw [(V14_of m outs c main_arg24 (by decide)).trans <| (V13_of m outs c main_arg24 (by decide)).trans
      (V12_of_launch m outs c main_arg24 (by decide) (by decide) (by decide) (by decide) (by decide) (by decide) (by decide) (by decide) (by decide) (by decide) (by decide) (by decide))])

/-- THE FEATURE OPERAND IS THE ROW GATHER: with every source index in range (as a signed value, and as the three
    compares the take computes, decided), edge `e`, channel `ch` holds the features of node `src e`. -/
theorem xs_eq
    (hslt : ∀ e, IntOp.cmpi .slt (src m c e) 0#32 = 0#1)
    (hsle : ∀ e, IntOp.cmpi .sle (src m c e) 10247#32 = 1#1)
    (hsge : ∀ e, IntOp.cmpi .sge (src m c e) 0#32 = 1#1)
    (hrange : ∀ e, 0 ≤ (src m c e).toInt ∧ (src m c e).toInt < 10248)
    (e : Fin 61440) (ch : Fin 64) :
    xsBuf m outs c (ix2 e ch)
      = xIn m outs c (ix2 (⟨(src m c (ix1 e)).toInt.toNat, by have := hrange (ix1 e); omega⟩ : Fin 10248) ch) := by
  rw [xsBuf_eq]
  exact takeFn_apply (src m c) hslt hsle hsge (xIn m outs c) hrange e ch

/-- THE STACKED PROJECTION: row `j` of the `192 × 128` stack is row `j % 64` of column block `j / 64`. -/
theorem gstack_eq (j : Fin 192) (o : Fin 128) :
    gstackBuf m outs c (ix2 j o)
      = gArg m c (ix2 (⟨j.val % 64, Nat.mod_lt _ (by decide)⟩ : Fin 64) (⟨128 * (j.val / 64) + o.val, by omega⟩ : Fin 384)) := by
  rw [gstackBuf_eq]
  exact stackFn_apply (gArg m c) j o

/-- The other three operands are argument arrays as launched. -/
theorem args_eq :
    V15 m outs c main_arg7 = V0 m c main_arg7 ∧ V15 m outs c main_arg25 = V0 m c main_arg25
      ∧ V15 m outs c main_arg26 = V0 m c main_arg26 :=
  ⟨V15_of_launch m outs c main_arg7 (by decide) (by decide) (by decide) (by decide) (by decide) (by decide) (by decide) (by decide) (by decide) (by decide) (by decide) (by decide) (by decide) (by decide) (by decide),
    V15_of_launch m outs c main_arg25 (by decide) (by decide) (by decide) (by decide) (by decide) (by decide) (by decide) (by decide) (by decide) (by decide) (by decide) (by decide) (by decide) (by decide) (by decide),
    V15_of_launch m outs c main_arg26 (by decide) (by decide) (by decide) (by decide) (by decide) (by decide) (by decide) (by decide) (by decide) (by decide) (by decide) (by decide) (by decide) (by decide) (by decide)⟩

end Cert.KernelIdeal.KHost3
-- ==== Proof.Region2Value.lean ====
/-
  REGION 2's output array, index by index.

  The region runs the edge kernel of one mixture layer at 8 grid points; point t reads rows
  7680 t onwards (7680 of them) of the gathered features (64 channels) and of the pseudo-coordinates (two
  channels), and the whole of the restacked projection (192 x 128), of the mixture centres and of the mixture
  widths (3 x 2 each), and writes the same rows of the output (128 channels).

  For one row the body forms, for each mixture component k = 0, 1, 2, the Gaussian weight of the row
  (Spec.gaussW of the row's two pseudo-coordinates and of row k of the centres and widths), stores the
  row's 64 features times that weight at lanes 64 k onwards of a scratch row of 192 lanes, and contracts the
  scratch row against the projection. So lane j of the scratch row is feature j % 64 times the weight of
  component j / 64, and output channel o of the row is the sum over the 192 lanes j of that lane times
  entry (j, o) of the projection.

  The module proves this in four steps: each weighted copy at an index (the lane sum of two terms, the
  exponential, the broadcast back over the channels); the scratch as ONE function of (row, lane),
  from its three column stores; the contraction at an index; and the passage from the 8 blocks to the
  whole array (block t of a window is rows 7680 t onwards of its array; row e lies in block e / 7680).
-/
import proofs.«402598_j31782757990676_2_alg».proof.Proof.Region2
import proofs.«402598_j31782757990676_2_alg».proof.Proof.Spec
import Idealize.ShloMosaic.Lib.Pipeline.Value
import Idealize.ShloMosaic.Lib.ValueIdx
import Idealize.ShloMosaic.PureOps.Ideal.Laws
import Mathlib.Algebra.BigOperators.Fin
import Idealize.ShloMosaic.Lib.Ring
import Idealize.ShloMosaic.Lib.Tactic

set_option maxRecDepth 16384

noncomputable section

namespace Cert.KernelIdeal.Region2Value

open Cert.KernelIdeal Cert.KernelIdeal.Gen Cert.KernelIdeal.Region2
open Idealize.ShloMosaic Idealize.ShloMosaic.TcCoe Idealize.ShloMosaic.ValueIdx
open Idealize.SL.Sem
open Idealize.ShloMosaic.Tactic
open Idealize.ShloMosaic.Pipeline (Dat)
open Cert.Spec (gaussW)

/-! ## One row, abstractly -/

/-- The weight of mixture component k at a row whose pseudo-coordinates are p, for centres mu and widths sg. -/
def wgt (p : Fin 2 → EReal) (mu sg : Fin 3 → Fin 2 → EReal) (k : Fin 3) : EReal :=
  gaussW (p 0) (p 1) (mu k 0) (mu k 1) (sg k 0) (sg k 1)

/-- One output entry of a row: the 192 stacked lanes (feature j % 64 times the weight of component j / 64)
    contracted against the 192 entries gcol of the projection's column. -/
def rowOut (x : Fin 64 → EReal) (p : Fin 2 → EReal) (mu sg : Fin 3 → Fin 2 → EReal) (gcol : Fin 192 → EReal) : EReal :=
  ∑ j : Fin (3 * 64), (x ⟨j.val % 64, Nat.mod_lt _ (by decide)⟩ * wgt p mu sg ⟨j.val / 64, by have := j.isLt; omega⟩) * gcol j

/-! ## Layout operations of the body at an index -/

/-- A row vector [1,2] broadcast down 7680 rows reads its lane. -/
theorem rowBcast_apply (v : FVec Ideal S1x2 .f32) (r : Fin 7680) (d : Fin 2) :
    broadcastTo S7680x2 v broadcasts_S1x2_S7680x2 (ix2 r d) = v (ix2 0 d) := by
  refine broadcastTo_apply v _ (ix2 r d) (ix2 0 d) fun a => ?_
  match a with
  | ⟨0, _⟩ => rfl
  | ⟨1, _⟩ => rfl

/-- A column [7680,1] broadcast over the 64 feature lanes reads its row. -/
theorem colBcast_apply (v : FVec Ideal S7680x1 .f32) (r : Fin 7680) (d : Fin 64) :
    broadcastTo S7680x64 v broadcasts_S7680x1_S7680x64 (ix2 r d) = v (ix2 r 0) := by
  refine broadcastTo_apply v _ (ix2 r d) (ix2 r 0) fun a => ?_
  match a with
  | ⟨0, _⟩ => rfl
  | ⟨1, _⟩ => rfl

/-- Row k of a [3,2] table, sliced out, flattened and restored to [1,2], reads the table at (k, lane). -/
theorem sliceRow_apply (m : Vec Ideal S3x2 .f32) (k : Nat) (hk : k < 3) (h : S3x2.Slices ![k, 0] S1x2) (d : Fin 2) :
    shapeCast S1x2 (shapeCast S2 (extractStridedSlice S1x2 ![k, 0] m h) shapeCasts_S1x2_S2) shapeCasts_S2_S1x2 (ix2 0 d)
      = m (ix2 ⟨k, hk⟩ d) := by
  rw [shapeCast_shapeCast]
  refine extractStridedSlice_apply _ m h (ix2 0 d) (ix2 ⟨k, hk⟩ d) fun a => ?_
  match a with
  | ⟨0, _⟩ => rfl
  | ⟨1, _⟩ => show d.val = 0 + d.val; omega

/-- The sum over the two lanes of a [7680,2] vector, kept as a column, reads the two lanes of the row added. -/
theorem laneSum_apply (v : FVec Ideal S7680x2 .f32) (hφ : FKind.Formats .f32) (hacc : (0x00000000#32 : BitVec 32) = FKind.add.neutral .f32 hφ)
    (r : Fin 7680) :
    shapeCast S7680x1 (multiReduction .add [1] S7680 v 0x00000000#32 reduces_S7680x2_S7680 hφ hacc) shapeCasts_S7680_S7680x1 (ix2 r 0)
      = v (ix2 r 0) + v (ix2 r 1) := by
  refine (shapeCast_apply _ shapeCasts_S7680_S7680x1 (ix2 r 0) (ix1 r) ?_).trans ?_
  · rw [Shape.rowMajor_val_one, Shape.rowMajor_val_two]
    show r.val = r.val * 1 + 0
    omega
  · refine (Ideal.multiReduction_add_single v _ reduces_S7680x2_S7680 hφ hacc (ix1 r)).trans ?_
    refine (Fin.sum_univ_two (fun k : Fin 2 => v (reduces_S7680x2_S7680.lift (ix1 r) k))).trans ?_
    have e0 : reduces_S7680x2_S7680.lift (ix1 r) (0 : Fin 2) = ix2 r 0 :=
      funext fun a => Fin.ext (by match a with | ⟨0, _⟩ => rfl | ⟨1, _⟩ => rfl)
    have e1 : reduces_S7680x2_S7680.lift (ix1 r) (1 : Fin 2) = ix2 r 1 :=
      funext fun a => Fin.ext (by match a with | ⟨0, _⟩ => rfl | ⟨1, _⟩ => rfl)
    rw [e0, e1]

/-! ## The body's payloads at an index (blocks as variables of their literal types) -/

/-- A weighted copy, whatever its numerators and denominators: the features times the exponential of minus one
    half of the row's two quotients added. -/
theorem pay5_gen (x3 : FVec Ideal S7680x64 .f32) (num den : FVec Ideal S7680x2 .f32) (r : Fin 7680) (ch : Fin 64) :
    k2_pay5 x3 num den (ix2 r ch)
      = x3 (ix2 r ch) * Ideal.exp (Ideal.ofBits .f32 0xBF000000#32 *
          (Ideal.div (num (ix2 r 0)) (den (ix2 r 0)) + Ideal.div (num (ix2 r 1)) (den (ix2 r 1)))) := by
  unfold k2_pay5
  dsimp only
  rw [shapeCast_self]
  show x3 (ix2 r ch) * broadcastTo S7680x64 (exp (mulf (broadcast S7680x1 (Scalar.ofBits .f32 0xBF000000#32)) _)) broadcasts_S7680x1_S7680x64 (ix2 r ch) = _
  rw [colBcast_apply]
  show x3 (ix2 r ch) * Ideal.exp (Ideal.ofBits .f32 0xBF000000#32 * shapeCast S7680x1 _ shapeCasts_S7680_S7680x1 (ix2 r 0)) = _
  exact congrArg (fun z => x3 (ix2 r ch) * Ideal.exp (Ideal.ofBits .f32 0xBF000000#32 * z)) (laneSum_apply (divf num den) _ _ r)

/-- The squared distance to centre k, lane by lane. -/
theorem num_apply (ps : FVec Ideal S7680x2 .f32) (mu : FVec Ideal S3x2 .f32) (k : Nat) (hk : k < 3) (h : S3x2.Slices ![k, 0] S1x2) (r : Fin 7680) (d : Fin 2) :
    @Eq EReal
      (mulf (F := Ideal) (subf ps (broadcastTo S7680x2 (shapeCast S1x2 (shapeCast S2 (extractStridedSlice S1x2 ![k, 0] mu h) shapeCasts_S1x2_S2) shapeCasts_S2_S1x2) broadcasts_S1x2_S7680x2))
         (subf ps (broadcastTo S7680x2 (shapeCast S1x2 (shapeCast S2 (extractStridedSlice S1x2 ![k, 0] mu h) shapeCasts_S1x2_S2) shapeCasts_S2_S1x2) broadcasts_S1x2_S7680x2)) (ix2 r d))
      ((ps (ix2 r d) - mu (ix2 ⟨k, hk⟩ d)) * (ps (ix2 r d) - mu (ix2 ⟨k, hk⟩ d))) := by
  have e : broadcastTo S7680x2 (shapeCast S1x2 (shapeCast S2 (extractStridedSlice S1x2 ![k, 0] mu h) shapeCasts_S1x2_S2) shapeCasts_S2_S1x2) broadcasts_S1x2_S7680x2 (ix2 r d)
      = mu (ix2 ⟨k, hk⟩ d) := (rowBcast_apply _ r d).trans (sliceRow_apply mu k hk h d)
  show (ps (ix2 r d) - _) * (ps (ix2 r d) - _) = _
  rw [e]

/-- The squared width of component k plus the regulariser, lane by lane. -/
theorem den_apply (sg : FVec Ideal S3x2 .f32) (k : Nat) (hk : k < 3) (h : S3x2.Slices ![k, 0] S1x2) (r : Fin 7680) (d : Fin 2) :
    @Eq EReal
      (broadcastTo S7680x2 (addf (F := Ideal) (mulf (shapeCast S1x2 (shapeCast S2 (extractStridedSlice S1x2 ![k, 0] sg h) shapeCasts_S1x2_S2) shapeCasts_S2_S1x2)
          (shapeCast S1x2 (shapeCast S2 (extractStridedSlice S1x2 ![k, 0] sg h) shapeCasts_S1x2_S2) shapeCasts_S2_S1x2))
        (broadcast S1x2 (Scalar.ofBits (F := Ideal) .f32 0x26901D7D#32))) broadcasts_S1x2_S7680x2 (ix2 r d))
      (sg (ix2 ⟨k, hk⟩ d) * sg (ix2 ⟨k, hk⟩ d) + Ideal.ofBits .f32 0x26901D7D#32) := by
  refine (rowBcast_apply _ r d).trans ?_
  have e := sliceRow_apply sg k hk h d
  show shapeCast S1x2 _ shapeCasts_S2_S1x2 (ix2 0 d) * shapeCast S1x2 _ shapeCasts_S2_S1x2 (ix2 0 d) + _ = _
  rw [e]
  rfl

/-! ## The contraction at an index -/

theorem hz : (![0, 0] : Fin 2 → Nat) = fun _ => 0 := funext fun a => by fin_cases a <;> rfl

theorem lhs_pay7_0 (i : S7680x128.Idx) (q : dot_S7680x192_S192x128_S7680x128_1_0_0_1_n_n.contr.Idx) :
    (dot_S7680x192_S192x128_S7680x128_1_0_0_1_n_n.lhsIdx i q 0).val = (i 0).val := by
  unfold DotDims.lhsIdx
  rw [dif_neg (show ¬(0 : Fin S7680x192.rank) ∈ dot_S7680x192_S192x128_S7680x128_1_0_0_1_n_n.lhsBatch by decide), dif_pos (show (0 : Fin S7680x192.rank) ∈ dot_S7680x192_S192x128_S7680x128_1_0_0_1_n_n.lhsNonContracting by decide)]
  rfl
theorem lhs_pay7_1 (i : S7680x128.Idx) (q : dot_S7680x192_S192x128_S7680x128_1_0_0_1_n_n.contr.Idx) :
    (dot_S7680x192_S192x128_S7680x128_1_0_0_1_n_n.lhsIdx i q 1).val = (q ⟨0, by decide⟩).val :=
  dot_S7680x192_S192x128_S7680x128_1_0_0_1_n_n.lhsIdx_val_of_single rfl i q
theorem rhs_pay7_0 (i : S7680x128.Idx) (q : dot_S7680x192_S192x128_S7680x128_1_0_0_1_n_n.contr.Idx) :
    (dot_S7680x192_S192x128_S7680x128_1_0_0_1_n_n.rhsIdx i q 0).val = (q ⟨0, by decide⟩).val :=
  dot_S7680x192_S192x128_S7680x128_1_0_0_1_n_n.rhsIdx_val_of_single rfl i q
theorem rhs_pay7_1 (i : S7680x128.Idx) (q : dot_S7680x192_S192x128_S7680x128_1_0_0_1_n_n.contr.Idx) :
    (dot_S7680x192_S192x128_S7680x128_1_0_0_1_n_n.rhsIdx i q 1).val = (i 1).val := by
  unfold DotDims.rhsIdx
  rw [dif_neg (show ¬(1 : Fin S192x128.rank) ∈ dot_S7680x192_S192x128_S7680x128_1_0_0_1_n_n.rhsBatch by decide), dif_pos (show (1 : Fin S192x128.rank) ∈ dot_S7680x192_S192x128_S7680x128_1_0_0_1_n_n.rhsNonContracting by decide)]
  rfl

/-- The contraction of a scratch block against the projection, at (row, channel): the sum over the 192 lanes. -/
theorem pay7_apply (s : FVec Ideal S7680x192 .bf16) (g : FVec Ideal S192x128 .bf16) (r : Fin 7680) (o : Fin 128) :
    @Eq EReal (k2_pay7 (F := Ideal) s g (ix2 r o)) (∑ j : Fin 192, s (ix2 r j) * g (ix2 j o)) := by
  unfold k2_pay7
  rw [shapeCast_self]
  simp only [matmul]
  rw [Ideal.matmul_constant_zero_apply, ← Equiv.sum_comp (contrEquiv1 dot_S7680x192_S192x128_S7680x128_1_0_0_1_n_n 192 rfl rfl).symm]
  refine Finset.sum_congr rfl fun k _ => ?_
  have hk := contrEquiv1_symm_val dot_S7680x192_S192x128_S7680x128_1_0_0_1_n_n 192 rfl rfl k
  have el : dot_S7680x192_S192x128_S7680x128_1_0_0_1_n_n.lhsIdx (ix2 r o) ((contrEquiv1 dot_S7680x192_S192x128_S7680x128_1_0_0_1_n_n 192 rfl rfl).symm k) = ix2 r k := funext fun a => Fin.ext (by
    match a with
    | ⟨0, _⟩ => exact lhs_pay7_0 _ _
    | ⟨1, _⟩ => exact (lhs_pay7_1 _ _).trans hk)
  have er : dot_S7680x192_S192x128_S7680x128_1_0_0_1_n_n.rhsIdx (ix2 r o) ((contrEquiv1 dot_S7680x192_S192x128_S7680x128_1_0_0_1_n_n 192 rfl rfl).symm k) = ix2 k o := funext fun a => Fin.ext (by
    match a with
    | ⟨0, _⟩ => exact (rhs_pay7_0 _ _).trans hk
    | ⟨1, _⟩ => exact rhs_pay7_1 _ _)
  rw [el, er]

section Block

variable (xs : Vec Ideal S7680x64 .bf16) (ps : Vec Ideal S7680x2 .f32) (g : Vec Ideal S192x128 .bf16) (mu sg : Vec Ideal S3x2 .f32)

/-- The weight of component k at row r of a block. -/
abbrev bw (r : Fin 7680) (k : Fin 3) : EReal :=
  wgt (fun d => ps (ix2 r d)) (fun k d => mu (ix2 k d)) (fun k d => sg (ix2 k d)) k

theorem pay1_apply (i : S7680x64.Idx) : k2_pay1 xs i = xs i := by
  unfold k2_pay1
  rw [shapeCast_self]
  rfl

theorem pay2_apply (r : Fin 7680) (ch : Fin 64) :
    k2_pay2 ps xs mu sg (ix2 r ch) = xs (ix2 r ch) * bw ps mu sg r 0 := by
  refine (pay5_gen (k2_pay1 xs) _ _ r ch).trans ?_
  rw [num_apply ps mu 0 (by decide) _ r 0, num_apply ps mu 0 (by decide) _ r 1, den_apply sg 0 (by decide) _ r 0, den_apply sg 0 (by decide) _ r 1,
    pay1_apply]
  rfl

theorem pay5_apply (r : Fin 7680) (ch : Fin 64) :
    k2_pay5 (k2_pay1 xs) (k2_pay3 ps mu) (k2_pay4 sg) (ix2 r ch) = xs (ix2 r ch) * bw ps mu sg r 1 := by
  refine (pay5_gen (k2_pay1 xs) _ _ r ch).trans ?_
  unfold k2_pay3 k2_pay4
  rw [num_apply ps mu 1 (by decide) _ r 0, num_apply ps mu 1 (by decide) _ r 1, den_apply sg 1 (by decide) _ r 0, den_apply sg 1 (by decide) _ r 1,
    pay1_apply]
  rfl

theorem pay6_apply (r : Fin 7680) (ch : Fin 64) :
    k2_pay6 ps (k2_pay1 xs) mu sg (ix2 r ch) = xs (ix2 r ch) * bw ps mu sg r 2 := by
  refine (pay5_gen (k2_pay1 xs) _ _ r ch).trans ?_
  rw [num_apply ps mu 2 (by decide) _ r 0, num_apply ps mu 2 (by decide) _ r 1, den_apply sg 2 (by decide) _ r 0, den_apply sg 2 (by decide) _ r 1,
    pay1_apply]
  rfl

/-- Lane l of row r of the scratch, as the row's feature l % 64 times the weight of component l / 64. -/
def scrAt (r : Fin 7680) (l : Fin 192) : EReal :=
  xs (ix2 r ⟨l.val % 64, Nat.mod_lt _ (by decide)⟩) * bw ps mu sg r ⟨l.val / 64, by have := l.isLt; omega⟩

/-- THE SCRATCH as one function of (row, lane): lane l holds feature l % 64 times the weight of component l / 64. -/
theorem scr2_apply (r : Fin 7680) (l : Fin 192) :
    scr2 xs ps mu sg (ix2 r l)
      = xs (ix2 r ⟨l.val % 64, Nat.mod_lt _ (by decide)⟩) * bw ps mu sg r ⟨l.val / 64, by have := l.isLt; omega⟩ := by
  unfold scr2
  simp only [View.ld_unit_zero (S := S7680x64) hz, View.ld_unit_zero (S := S7680x2) hz, View.ld_unit_zero (S := S3x2) hz]
  refine View.canon_apply_of_pieces (Val := Elt Ideal) (S := S7680x192) (e := .bf16) (fun y : S7680x192.Idx => scrAt xs ps mu sg ⟨(y 0).val, (y 0).isLt⟩ ⟨(y 1).val, (y 1).isLt⟩) _ ?_ (ix2 r l)
    (cover_scr _ _ _ (ix2 r l))
  refine List.forall_mem_cons.mpr ⟨?_, List.forall_mem_cons.mpr ⟨?_, List.forall_mem_cons.mpr ⟨?_, fun _ h => absurd h List.not_mem_nil⟩⟩⟩
  · intro x
    obtain ⟨r', ch, rfl⟩ : ∃ (r' : Fin 7680) (ch : Fin 64), x = ix2 r' ch :=
      ⟨⟨(x 0).val, (x 0).isLt⟩, ⟨(x 1).val, (x 1).isLt⟩, funext fun a => by match a with | ⟨0, _⟩ => rfl | ⟨1, _⟩ => rfl⟩
    refine (pay6_apply xs ps mu sg r' ch).trans ?_
    have e0 : (⟨((rs128.emb (ix2 r' ch)) 0).val, ((rs128.emb (ix2 r' ch)) 0).isLt⟩ : Fin 7680) = r' := Fin.ext (by show 0 + 1 * r'.val = r'.val; omega)
    have e1 : (⟨((rs128.emb (ix2 r' ch)) 1).val, ((rs128.emb (ix2 r' ch)) 1).isLt⟩ : Fin 192) = ⟨128 + ch.val, by have := ch.isLt; omega⟩ := Fin.ext (by show 128 + 1 * ch.val = 128 + ch.val; omega)
    show _ = scrAt xs ps mu sg _ _
    rw [e0, e1]
    unfold scrAt
    have hc := ch.isLt
    have h1 : (⟨(128 + ch.val) % 64, Nat.mod_lt _ (by decide)⟩ : Fin 64) = ch := Fin.ext (by show (128 + ch.val) % 64 = ch.val; omega)
    have h2 : (⟨(128 + ch.val) / 64, by omega⟩ : Fin 3) = 2 := Fin.ext (by show (128 + ch.val) / 64 = 2; omega)
    rw [h1, h2]
  · intro x
    obtain ⟨r', ch, rfl⟩ : ∃ (r' : Fin 7680) (ch : Fin 64), x = ix2 r' ch :=
      ⟨⟨(x 0).val, (x 0).isLt⟩, ⟨(x 1).val, (x 1).isLt⟩, funext fun a => by match a with | ⟨0, _⟩ => rfl | ⟨1, _⟩ => rfl⟩
    refine (pay5_apply xs ps mu sg r' ch).trans ?_
    have e0 : (⟨((rs64.emb (ix2 r' ch)) 0).val, ((rs64.emb (ix2 r' ch)) 0).isLt⟩ : Fin 7680) = r' := Fin.ext (by show 0 + 1 * r'.val = r'.val; omega)
    have e1 : (⟨((rs64.emb (ix2 r' ch)) 1).val, ((rs64.emb (ix2 r' ch)) 1).isLt⟩ : Fin 192) = ⟨64 + ch.val, by have := ch.isLt; omega⟩ := Fin.ext (by show 64 + 1 * ch.val = 64 + ch.val; omega)
    show _ = scrAt xs ps mu sg _ _
    rw [e0, e1]
    unfold scrAt
    have hc := ch.isLt
    have h1 : (⟨(64 + ch.val) % 64, Nat.mod_lt _ (by decide)⟩ : Fin 64) = ch := Fin.ext (by show (64 + ch.val) % 64 = ch.val; omega)
    have h2 : (⟨(64 + ch.val) / 64, by omega⟩ : Fin 3) = 1 := Fin.ext (by show (64 + ch.val) / 64 = 1; omega)
    rw [h1, h2]
  · intro x
    obtain ⟨r', ch, rfl⟩ : ∃ (r' : Fin 7680) (ch : Fin 64), x = ix2 r' ch :=
      ⟨⟨(x 0).val, (x 0).isLt⟩, ⟨(x 1).val, (x 1).isLt⟩, funext fun a => by match a with | ⟨0, _⟩ => rfl | ⟨1, _⟩ => rfl⟩
    refine (pay2_apply xs ps mu sg r' ch).trans ?_
    have e0 : (⟨((rs0.emb (ix2 r' ch)) 0).val, ((rs0.emb (ix2 r' ch)) 0).isLt⟩ : Fin 7680) = r' := Fin.ext (by show 0 + 1 * r'.val = r'.val; omega)
    have e1 : (⟨((rs0.emb (ix2 r' ch)) 1).val, ((rs0.emb (ix2 r' ch)) 1).isLt⟩ : Fin 192) = ⟨0 + ch.val, by have := ch.isLt; omega⟩ := Fin.ext (by show 0 + 1 * ch.val = 0 + ch.val; omega)
    show _ = scrAt xs ps mu sg _ _
    rw [e0, e1]
    unfold scrAt
    have hc := ch.isLt
    have h1 : (⟨(0 + ch.val) % 64, Nat.mod_lt _ (by decide)⟩ : Fin 64) = ch := Fin.ext (by show (0 + ch.val) % 64 = ch.val; omega)
    have h2 : (⟨(0 + ch.val) / 64, by omega⟩ : Fin 3) = 0 := Fin.ext (by show (0 + ch.val) / 64 = 0; omega)
    rw [h1, h2]

/-- THE OUTPUT BLOCK at (row, channel). -/
theorem out2_apply (r : Fin 7680) (o : Fin 128) :
    out2 xs ps g mu sg (ix2 r o)
      = rowOut (fun ch => xs (ix2 r ch)) (fun d => ps (ix2 r d)) (fun k d => mu (ix2 k d)) (fun k d => sg (ix2 k d))
          (fun j => g (ix2 j o)) := by
  unfold out2
  rw [View.canon_unit_zero hz, View.ld_unit_zero (S := S7680x192) hz, View.ld_unit_zero (S := S192x128) hz]
  refine (pay7_apply (scr2 xs ps mu sg) g r o).trans ?_
  unfold rowOut
  refine Finset.sum_congr rfl fun j _ => ?_
  rw [scr2_apply]

end Block

/-! ## From the blocks to the array -/

/-- rowOut depends on its five arguments through their values only. -/
theorem rowOut_congr {x x' : Fin 64 → EReal} {p p' : Fin 2 → EReal} {mu mu' sg sg' : Fin 3 → Fin 2 → EReal} {gc gc' : Fin 192 → EReal}
    (hx : ∀ ch, x ch = x' ch) (hp : ∀ d, p d = p' d) (hmu : ∀ k d, mu k d = mu' k d) (hsg : ∀ k d, sg k d = sg' k d)
    (hg : ∀ j, gc j = gc' j) : rowOut x p mu sg gc = rowOut x' p' mu' sg' gc' := by
  obtain rfl : x = x' := funext hx
  obtain rfl : p = p' := funext hp
  obtain rfl : mu = mu' := funext fun k => funext (hmu k)
  obtain rfl : sg = sg' := funext fun k => funext (hsg k)
  obtain rfl : gc = gc' := funext hg
  rfl

/-- The printed index maps, decided over the grid: the two edge windows and the output move one block of rows
    per point; the three tables stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem N_eq : cfg2.N = 8 := N_2

section AtV

variable (V : (c : Dev nD) → (b : Ref sig .tc) → Buf (Elt Ideal) ((c : Thread nD τ).loc b))

/-- The five arrays the region reads, as it finds them, at their literal types. -/
abbrev xsA (c : Dev nD) : Vec Ideal S61440x64 .bf16 := V c (Pipeline.arrRef spec2 0)
abbrev psA (c : Dev nD) : Vec Ideal S61440x2 .f32 := V c (Pipeline.arrRef spec2 1)
abbrev gA (c : Dev nD) : Vec Ideal S192x128 .bf16 := V c (Pipeline.arrRef spec2 2)
abbrev muA (c : Dev nD) : Vec Ideal S3x2 .f32 := V c (Pipeline.arrRef spec2 3)
abbrev sgA (c : Dev nD) : Vec Ideal S3x2 .f32 := V c (Pipeline.arrRef spec2 4)

/-- The edge-feature block at point t is rows 7680 t onwards of its array. -/
theorem iblk2_0_apply (c : Dev nD) (t : Fin cfg2.N) (r : Fin 7680) (ch : Fin 64) (e : Fin 61440) (he : e.val = 7680 * t.val + r.val) :
    (iblk2 V c 0 t : Vec Ideal S7680x64 .bf16) (ix2 r ch) = xsA V c (ix2 e ch) := by
  obtain ⟨h0, h1, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t 0 * 7680 + 1 * r.val = e.val; rw [h0, he]; omega
  | ⟨1, _⟩ => show win2_0.index t 1 * 64 + 1 * ch.val = ch.val; rw [h1]; omega

/-- The pseudo-coordinate block at point t is rows 7680 t onwards of its array. -/
theorem iblk2_1_apply (c : Dev nD) (t : Fin cfg2.N) (r : Fin 7680) (d : Fin 2) (e : Fin 61440) (he : e.val = 7680 * t.val + r.val) :
    (iblk2 V c 1 t : Vec Ideal S7680x2 .f32) (ix2 r d) = psA V c (ix2 e d) := by
  obtain ⟨-, -, h0, h1, -⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t 0 * 7680 + 1 * r.val = e.val; rw [h0, he]; omega
  | ⟨1, _⟩ => show win2_1.index t 1 * 2 + 1 * d.val = d.val; rw [h1]; omega

/-- The projection's block at every point is the whole table. -/
theorem iblk2_2_apply (c : Dev nD) (t : Fin cfg2.N) (j : Fin 192) (o : Fin 128) :
    (iblk2 V c 2 t : Vec Ideal S192x128 .bf16) (ix2 j o) = gA V c (ix2 j o) := by
  obtain ⟨-, -, -, -, h0, h1, -⟩ := idx_facts t
  unfold iblk2
  rw [View.read_apply]
  show V c (Pipeline.arrRef spec2 2) _ = V c (Pipeline.arrRef spec2 2) _
  congr 1
  funext a
  apply Fin.ext
  match a with
  | ⟨0, _⟩ => show win2_2.index t 0 * 192 + 1 * j.val = j.val; rw [h0]; omega
  | ⟨1, _⟩ => show win2_2.index t 1 * 128 + 1 * o.val = o.val; rw [h1]; omega

/-- The centres' block at every point is the whole table. -/
theorem iblk2_3_apply (c : Dev nD) (t : Fin cfg2.N) (k : Fin 3) (d : Fin 2) :
    (iblk2 V c 3 t : Vec Ideal S3x2 .f32) (ix2 k d) = muA V c (ix2 k d) := by
  obtain ⟨-, -, -, -, -, -, h0, h1, -⟩ := idx_facts t
  unfold iblk2
  rw [View.read_apply]
  show V c (Pipeline.arrRef spec2 3) _ = V c (Pipeline.arrRef spec2 3) _
  congr 1
  funext a
  apply Fin.ext
  match a with
  | ⟨0, _⟩ => show win2_3.index t 0 * 3 + 1 * k.val = k.val; rw [h0]; omega
  | ⟨1, _⟩ => show win2_3.index t 1 * 2 + 1 * d.val = d.val; rw [h1]; omega

/-- The widths' block at every point is the whole table. -/
theorem iblk2_4_apply (c : Dev nD) (t : Fin cfg2.N) (k : Fin 3) (d : Fin 2) :
    (iblk2 V c 4 t : Vec Ideal S3x2 .f32) (ix2 k d) = sgA V c (ix2 k d) := by
  obtain ⟨-, -, -, -, -, -, -, -, h0, h1, -⟩ := idx_facts t
  unfold iblk2
  rw [View.read_apply]
  show V c (Pipeline.arrRef spec2 4) _ = V c (Pipeline.arrRef spec2 4) _
  congr 1
  funext a
  apply Fin.ext
  match a with
  | ⟨0, _⟩ => show win2_4.index t 0 * 3 + 1 * k.val = k.val; rw [h0]; omega
  | ⟨1, _⟩ => show win2_4.index t 1 * 2 + 1 * d.val = d.val; rw [h1]; omega

/-- What the output array ends holding, as one function of the five arrays. -/
def G2 (c : Dev nD) : Buf (Elt Ideal) ((c : Thread nD τ).loc main_v91) := fun i =>
  rowOut (fun ch => xsA V c (ix2 ⟨(i 0).val, (i 0).isLt⟩ ch)) (fun d => psA V c (ix2 ⟨(i 0).val, (i 0).isLt⟩ d))
    (fun k d => muA V c (ix2 k d)) (fun k d => sgA V c (ix2 k d)) (fun j => gA V c (ix2 j ⟨(i 1).val, (i 1).isLt⟩))

/-- WHAT POINT t WRITES BACK is block t of G2. -/
theorem flushed_eq (c : Dev nD) (t : Fin cfg2.N) :
    (dat2 V c).flushed 5 t = ((cfg2.win 5).blk t).view.read (Elt Ideal) (G2 V c) := by
  obtain ⟨-, -, -, -, -, -, -, -, -, -, h50, h51⟩ := idx_facts t
  funext y
  have hy : (cfg2.win 5).xinj (cfg2.grid.coords t) y = ix2 ⟨(y 0).val, (y 0).isLt⟩ ⟨(y 1).val, (y 1).isLt⟩ :=
    funext fun a => by match a with | ⟨0, _⟩ => rfl | ⟨1, _⟩ => rfl
  show (dat2 V c).after 5 t ((cfg2.win 5).xinj (cfg2.grid.coords t) y) = G2 V c (((cfg2.win 5).blk t).view.emb y)
  rw [after2_5, hy]
  unfold oblk2
  refine (out2_apply (iblk2 V c 0 t) (iblk2 V c 1 t) (iblk2 V c 2 t) (iblk2 V c 3 t) (iblk2 V c 4 t) ⟨(y 0).val, (y 0).isLt⟩ ⟨(y 1).val, (y 1).isLt⟩).trans ?_
  unfold G2
  have he : ((((cfg2.win 5).blk t).view.emb y) 0).val = 7680 * t.val + (y 0).val := by
    show win2_5.index t 0 * 7680 + 1 * (y 0).val = _
    rw [h50]; omega
  have ho : ((((cfg2.win 5).blk t).view.emb y) 1).val = (y 1).val := by
    show win2_5.index t 1 * 128 + 1 * (y 1).val = _
    rw [h51]; omega
  refine rowOut_congr (fun ch => ?_) (fun d => ?_) (fun k d => ?_) (fun k d => ?_) (fun j => ?_)
  · exact iblk2_0_apply V c t _ ch _ he
  · exact iblk2_1_apply V c t _ d _ he
  · exact iblk2_3_apply V c t k d
  · exact iblk2_4_apply V c t k d
  · refine (iblk2_2_apply V c t j _).trans (congrArg (fun o => gA V c (ix2 j o)) (Fin.ext ho.symm))

/-- Every row of the output array lies in some point's block: row e in block e / 7680. -/
theorem cover (c : Dev nD) (i : S61440x128.Idx) :
    ∃ t : Fin cfg2.N, (cfg2.win 5).flush t = true ∧ i ∈ ((cfg2.win 5).blk t).view.set := by
  have hi0 : (i 0).val < 61440 := (i 0).isLt
  have hi1 : (i 1).val < 128 := (i 1).isLt
  have hN : cfg2.N = 8 := N_eq
  have ht : (i 0).val / 7680 < cfg2.N := by rw [hN]; omega
  obtain ⟨-, -, -, -, -, -, -, -, -, -, h50, h51⟩ := idx_facts ⟨(i 0).val / 7680, ht⟩
  refine ⟨⟨(i 0).val / 7680, ht⟩, flush2_5 _, ?_⟩
  show i ∈ ((View.whole main_v91).slice (win2_5.rect ⟨(i 0).val / 7680, ht⟩)).set
  rw [View.set_slice_whole, Rect.mem_set_unit]
  intro a
  match a with
  | ⟨0, _⟩ =>
    show win2_5.index ⟨(i 0).val / 7680, ht⟩ 0 * 7680 ≤ (i 0).val ∧ (i 0).val < win2_5.index ⟨(i 0).val / 7680, ht⟩ 0 * 7680 + 7680
    rw [h50]; show (i 0).val / 7680 * 7680 ≤ (i 0).val ∧ (i 0).val < (i 0).val / 7680 * 7680 + 7680; omega
  | ⟨1, _⟩ =>
    show win2_5.index ⟨(i 0).val / 7680, ht⟩ 1 * 128 ≤ (i 1).val ∧ (i 1).val < win2_5.index ⟨(i 0).val / 7680, ht⟩ 1 * 128 + 128
    rw [h51]; omega

/-- THE OUTPUT ARRAY after the region. -/
theorem outArr2_eq (c : Dev nD) : outArr2 (F := Ideal) V c = G2 V c :=
  (dat2 V c).arrAt_eq_of_cover 5 (G2 V c) (fun t _ => flushed_eq V c t) (fun i => cover c i)

/-- THE OUTPUT ARRAY at (edge, channel): the stacked contraction of the edge's weighted features. -/
theorem outArr2_apply (c : Dev nD) (e : Fin 61440) (o : Fin 128) :
    @Eq EReal (outArr2 (F := Ideal) V c (ix2 e o))
      (∑ j : Fin (3 * 64),
          (xsA V c (ix2 e ⟨j.val % 64, Nat.mod_lt _ (by decide)⟩)
            * gaussW (psA V c (ix2 e 0)) (psA V c (ix2 e 1))
                (muA V c (ix2 ⟨j.val / 64, by have := j.isLt; omega⟩ 0)) (muA V c (ix2 ⟨j.val / 64, by have := j.isLt; omega⟩ 1))
                (sgA V c (ix2 ⟨j.val / 64, by have := j.isLt; omega⟩ 0)) (sgA V c (ix2 ⟨j.val / 64, by have := j.isLt; omega⟩ 1)))
          * gA V c (ix2 ⟨64 * (j.val / 64) + j.val % 64, by have := j.isLt; omega⟩ o)) := by
  refine (congrFun (outArr2_eq V c) (ix2 e o)).trans ?_
  show rowOut _ _ _ _ _ = _
  unfold rowOut wgt
  refine Finset.sum_congr rfl fun j _ => ?_
  have hj : (⟨64 * (j.val / 64) + j.val % 64, by have := j.isLt; omega⟩ : Fin 192) = j := Fin.ext (by show 64 * (j.val / 64) + j.val % 64 = j.val; omega)
  rw [hj]
  rfl

end AtV

end Cert.KernelIdeal.Region2Value

end
-- ==== Proof.RefHead3.lean ====
/-
  The reference's per-edge messages of the third mixture layer, read at one edge and one output channel.

  For edge `e` the reference gathers the feature row of the edge's source node, `x[src e]` (64 channels; `x` is the pooled output of the
  layer before), projects it through the layer's matrix `g : [64, 384]`, reads the 384 columns as three blocks of 128
  (mixture component `k`, output channel `o`: column `128 k + o`), multiplies block `k` by the component's Gaussian weight of the edge and
  sums over the three components:

      msg e o = 0 + ∑ k, (∑ ch, x[src e] ch * g ch (128 k + o)) * w k e .

  The weight is the exponential of minus one half of the sum, over the two pseudo-coordinates of the edge, of the
  squared distance to the component's centre divided by the squared width plus a small constant. The source index
  is wrapped (a negative index has the row count added) and the gather clamps it into range; where the index word
  is a non-negative integer below the row count, both leave it as it is.
-/
import proofs.«402598_j31782757990676_2_alg».proof.Proof.RefRun
import proofs.«402598_j31782757990676_2_alg».proof.Proof.Spec
import proofs.«402598_j31782757990676_2_alg».proof.Proof.RefHead1
import Idealize.ShloMosaic.Lib.ValueIdx
import Idealize.ShloMosaic.Lib.IdealHost
import Idealize.ShloMosaic.Lib.Pipeline.Value
import Idealize.ShloMosaic.PureOps.Ideal.Laws

set_option maxRecDepth 8192

noncomputable section

open scoped BigOperators

namespace Cert.RefHead3

open Cert.ReferenceIdeal Idealize.ShloMosaic Idealize.ShloMosaic.ValueIdx Idealize.ShloMosaic.TcCoe Idealize.SL.Sem
open Idealize.ShloMosaic.StableHlo
open Cert.RefHead1 (hostExp_apply rowGather rowGather_apply plainDot_apply)

variable [Facts]
open Facts₀ Facts

section Terms
variable {F : FTy → Type} [FloatOps F]

/-! ## The operations' terms, as functions of the arguments they read -/

/-- The source index of every edge: row 0 of the edge array (`%124`, `%125`). -/
abbrev srcOf (ei : IVec S2x61440 32) : IVec S61440 32 :=
  shapeCast S61440 (extractStridedSlice S1x61440 ![0, 0] ei slices_S2x61440_S1x61440_0_0) shapeCasts_S1x61440_S61440

/-- The pseudo-coordinates less the mixture centres, over edge, component and coordinate (`%128` … `%132`). -/
def diffOf (ps : FVec F S61440x2 .f32) (mu : FVec F S3x2 .f32) : FVec F S61440x3x2 .f32 :=
  subf (broadcastInDim S61440x3x2 ![0, 1, 2] bcast_S61440x1x2_S61440x3x2_0_1_2
      (broadcastInDim S61440x1x2 ![0, 2] bcast_S61440x2_S61440x1x2_0_2 ps))
    (broadcastInDim S61440x3x2 ![0, 1, 2] bcast_S1x3x2_S61440x3x2_0_1_2
      (broadcastInDim S1x3x2 ![1, 2] bcast_S3x2_S1x3x2_1_2 mu))

/-- The squared widths plus the small constant, over component and coordinate (`%134` … `%137`). -/
def denOf (sg : FVec F S3x2 .f32) : FVec F S1x3x2 .f32 :=
  addf (mulf (broadcastInDim S1x3x2 ![1, 2] bcast_S3x2_S1x3x2_1_2 sg) (broadcastInDim S1x3x2 ![1, 2] bcast_S3x2_S1x3x2_1_2 sg))
    (broadcastInDim S1x3x2 ![] bcast_S_S1x3x2 (constant S_ .f32 0x26901D7D#32))

/-- The mixture weights of every edge (`%133`, `%138` … `%143`). -/
def wOf (ps : FVec F S61440x2 .f32) (mu sg : FVec F S3x2 .f32) : FVec F S61440x3 .f32 :=
  Host.exp (mulf (broadcastInDim S61440x3 ![] bcast_S_S61440x3 (constant S_ .f32 0xBF000000#32))
    (Host.reduceAdd
      (Host.divf (mulf (diffOf ps mu) (diffOf ps mu))
        (broadcastInDim S61440x3x2 ![0, 1, 2] bcast_S1x3x2_S61440x3x2_0_1_2 (denOf sg)))
      (constant S_ .f32 0x00000000#32) reducesTo_S61440x3x2_S61440x3_d2 h_S_))

/-- The gathered source rows (`%144` … `%150`): the index wrapped, then the clamping gather. -/
def xsOf (x : FVec F S10248x64 .f32) (ei : IVec S2x61440 32) : FVec F S61440x64 .f32 :=
  Host.gather gather_S10248x64_S61440x1_S61440x64_1_0_n_n_0_1_164 x
    (broadcastInDim S61440x1 ![0] bcast_S61440_S61440x1_0
      (select (cmpi .slt (srcOf ei) (broadcastInDim S61440 ![] bcast_S_S61440 (constantI S_ 32 0#32)))
        (addi (srcOf ei) (broadcastInDim S61440 ![] bcast_S_S61440 (constantI S_ 32 10248#32)))
        (srcOf ei)))

/-- The messages (`%151` … `%156`): project, read as three blocks, weight each block, sum the blocks. -/
def msgOf (x : FVec F S10248x64 .f32) (ei : IVec S2x61440 32) (ps : FVec F S61440x2 .f32)
    (g : FVec F S64x384 .f32) (mu sg : FVec F S3x2 .f32) : FVec F S61440x128 .f32 :=
  Host.reduceAdd
    (mulf
      (shapeCast S61440x3x128 (Host.dotGeneral dot_S61440x64_S64x384_S61440x384_1_0_0_1_n_n none (xsOf x ei) g)
        shapeCasts_S61440x384_S61440x3x128)
      (broadcastInDim S61440x3x128 ![0, 1, 2] bcast_S61440x3x1_S61440x3x128_0_1_2
        (broadcastInDim S61440x3x1 ![0, 1] bcast_S61440x3_S61440x3x1_0_1 (wOf ps mu sg))))
    (constant S_ .f32 0x00000000#32) reducesTo_S61440x3x128_S61440x128_d1 h_S_

set_option maxHeartbeats 4000000 in
/-- The reference's lines up to the one that makes the layer's input (the pooled output of the layer before), run
    from contents `W`. -/
abbrev foldX (W : Valuation τ sig (Elt F)) : Valuation τ sig (Elt F) := StableHlo.after RefRun.ops2b W
/-- The lines that hold this layer, run from contents `W`. -/
abbrev foldOf (W : Valuation τ sig (Elt F)) : Valuation τ sig (Elt F) := StableHlo.after RefRun.ops3a (foldX W)

/-- THE FOLD AT `%156`, from ANY contents `W`: the messages of the layer's input as the lines leave it (the pooled
    output of the layer before, made earlier in these lines and final from there on) and of `W`'s five argument
    arrays (each operation's result at its own buffer, every later operation leaving that buffer alone: by
    computation). -/
theorem after_main_v156 (W : Valuation τ sig (Elt F)) :
    foldOf W (Proc.devRef .tc main_v156)
      = msgOf (foldX W (Proc.devRef .tc main_v123)) (W (Proc.devRef .tc main_arg3)) (W (Proc.devRef .tc main_arg7))
          (W (Proc.devRef .tc main_arg24)) (W (Proc.devRef .tc main_arg25)) (W (Proc.devRef .tc main_arg26)) := by
  chain_rfl

end Terms

/-! ## The run's contents at `%156` -/

section Run
variable {F : FTy → Type} [FloatOps F] (m : (ℓ : Loc nD τ sig) → Buf (Elt F) ℓ)

/-- The contents the layer's lines are run from, the contents where the layer's input is made, and the contents the
    lines leave. -/
abbrev Vin (c : Dev nD) : Valuation τ sig (Elt F) := RefRun.V3 m c
abbrev Vx (c : Dev nD) : Valuation τ sig (Elt F) := RefRun.V4 m c
abbrev Vout (c : Dev nD) : Valuation τ sig (Elt F) := RefRun.V5 m c

/-- The layer's input on core `c`: the pooled output of the layer before, where it is made. -/
abbrev xIn (c : Dev nD) : FVec F S10248x64 .f32 := Vx m c main_v123

/-- The layer's input is the same buffer contents when the layer's lines end as where it is made. -/
theorem xIn_eq (c : Dev nD) : Vout m c main_v123 = Vx m c main_v123 := RefRun.V5_of m c main_v123 (by decide)
theorem xIn_eq' (c : Dev nD) : Vx m c main_v123 = Vout m c main_v123 := (xIn_eq m c).symm
/-- The launch arguments the layer reads on core `c`, at their vector types: the edge array, the pseudo-coordinates,
    the layer's matrix, the mixture centres and widths. -/
abbrev aEi (c : Dev nD) : IVec S2x61440 32 := m (c, main_arg3)
abbrev aPs (c : Dev nD) : FVec F S61440x2 .f32 := m (c, main_arg7)
abbrev aG (c : Dev nD) : FVec F S64x384 .f32 := m (c, main_arg24)
abbrev aMu (c : Dev nD) : FVec F S3x2 .f32 := m (c, main_arg25)
abbrev aSg (c : Dev nD) : FVec F S3x2 .f32 := m (c, main_arg26)

/-- No earlier line writes an argument array: the layer's lines find each at its launch contents. -/
theorem Vin_arg (c : Dev nD) (r : Ref sig .tc) (h0 : r ∉ RefRun.ops0_W) (h1 : r ∉ RefRun.ops1_W) (h2 : r ∉ RefRun.ops2a_W) : Vin m c r = m (c, r) :=
  (RefRun.V3_of m c r h2).trans ((RefRun.V2_of m c r h1).trans ((RefRun.V1_of m c r h0)))

/-- After its lines the buffer of `%156` holds the messages of the layer's input and the launch arguments. -/
theorem Vout_main_v156 (c : Dev nD) :
    (Vout m c main_v156 : FVec F S61440x128 .f32)
      = msgOf (xIn m c) (aEi m c) (aPs m c) (aG m c) (aMu m c) (aSg m c) := by
  have h := after_main_v156 (Vin m c)
  rw [Vin_arg m c main_arg3 (by decide) (by decide) (by decide), Vin_arg m c main_arg7 (by decide) (by decide) (by decide), Vin_arg m c main_arg24 (by decide) (by decide) (by decide),
    Vin_arg m c main_arg25 (by decide) (by decide) (by decide), Vin_arg m c main_arg26 (by decide) (by decide) (by decide)] at h
  exact h

end Run

/-! ## The weight at an index (from here on at the ideal values) -/

theorem wOf_apply (ps : FVec Ideal S61440x2 .f32) (mu sg : FVec Ideal S3x2 .f32) (e : Fin 61440) (k : Fin 3) :
    wOf ps mu sg (ix2 e k)
      = Cert.Spec.gaussW (ps (ix2 e 0)) (ps (ix2 e 1)) (mu (ix2 k 0)) (mu (ix2 k 1)) (sg (ix2 k 0)) (sg (ix2 k 1)) := by
  have hd : ∀ j : Fin 2, diffOf ps mu (ix3 e k j) = ps (ix2 e j) - mu (ix2 k j) := by
    intro j
    unfold diffOf
    rw [subf_apply,
      broadcastInDim_apply ![0, 1, 2] bcast_S61440x1x2_S61440x3x2_0_1_2 _ (ix3 e k j) (ix3 e 0 j) (by
        intro a; match a with | ⟨0, _⟩ => rfl | ⟨1, _⟩ => rfl | ⟨2, _⟩ => rfl),
      broadcastInDim_apply ![0, 2] bcast_S61440x2_S61440x1x2_0_2 ps (ix3 e 0 j) (ix2 e j) (by
        intro a; match a with | ⟨0, _⟩ => rfl | ⟨1, _⟩ => rfl),
      broadcastInDim_apply ![0, 1, 2] bcast_S1x3x2_S61440x3x2_0_1_2 _ (ix3 e k j) (ix3 0 k j) (by
        intro a; match a with | ⟨0, _⟩ => rfl | ⟨1, _⟩ => rfl | ⟨2, _⟩ => rfl),
      broadcastInDim_apply ![1, 2] bcast_S3x2_S1x3x2_1_2 mu (ix3 0 k j) (ix2 k j) (by
        intro a; match a with | ⟨0, _⟩ => rfl | ⟨1, _⟩ => rfl)]
  have hn : ∀ j : Fin 2, broadcastInDim S61440x3x2 ![0, 1, 2] bcast_S1x3x2_S61440x3x2_0_1_2 (denOf sg) (ix3 e k j)
      = sg (ix2 k j) * sg (ix2 k j) + Ideal.ofBits .f32 0x26901D7D#32 := by
    intro j
    unfold denOf
    rw [broadcastInDim_apply ![0, 1, 2] bcast_S1x3x2_S61440x3x2_0_1_2 _ (ix3 e k j) (ix3 0 k j) (by
        intro a; match a with | ⟨0, _⟩ => rfl | ⟨1, _⟩ => rfl | ⟨2, _⟩ => rfl),
      addf_apply, mulf_apply,
      broadcastInDim_apply ![1, 2] bcast_S3x2_S1x3x2_1_2 sg (ix3 0 k j) (ix2 k j) (by
        intro a; match a with | ⟨0, _⟩ => rfl | ⟨1, _⟩ => rfl),
      broadcastInDim_scalar_apply, constant_apply]
  unfold wOf
  rw [hostExp_apply, mulf_apply, broadcastInDim_scalar_apply, constant_apply, hostReduceAdd_apply,
    Ideal.hostReduceAdd_single reducesTo_S61440x3x2_S61440x3_d2 (by decide), constant_apply, Ideal.ofBits_zero_f32, zero_add]
  erw [Fin.sum_univ_two]
  have hl : ∀ j : Fin 2, (Shape.Reduces.lift (s := S61440x3x2) (t := S61440x3) (a := 2) (by decide) (ix2 e k) j) = ix3 e k j := by
    intro j; funext a; apply Fin.ext
    match a with | ⟨0, _⟩ => rfl | ⟨1, _⟩ => rfl | ⟨2, _⟩ => rfl
  rw [hl 0, hl 1, hostDivf_apply, hostDivf_apply, mulf_apply, mulf_apply, hd 0, hd 1, hn 0, hn 1]
  rfl

/-! ## The gathered row and the message -/

/-- The programs' gather record and contraction record are the two kinds above at the layer's sizes. -/
theorem gather_eq : gather_S10248x64_S61440x1_S61440x64_1_0_n_n_0_1_164
    = rowGather 10248 61440 64 gather_S10248x64_S61440x1_S61440x64_1_0_n_n_0_1_164_wf := rfl
theorem dot_eq : dot_S61440x64_S64x384_S61440x384_1_0_0_1_n_n = DotDims.plain 61440 64 384 := rfl

/-- THE GATHERED ROW of edge `e`, where the edge's source index is a non-negative integer below the row count:
    the feature row at that index (the wrap selects the index itself, the clamp leaves it). -/
theorem xsOf_apply (x : FVec Ideal S10248x64 .f32) (ei : IVec S2x61440 32) (e : Fin 61440) (ch : Fin 64)
    (hslt : IntOp.cmpi .slt (srcOf ei (ix1 e)) 0#32 = 0#1)
    (hrange : 0 ≤ (srcOf ei (ix1 e)).toInt ∧ (srcOf ei (ix1 e)).toInt < 10248) :
    xsOf x ei (ix2 e ch) = x (ix2 ⟨(srcOf ei (ix1 e)).toInt.toNat, by omega⟩ ch) := by
  unfold xsOf
  rw [gather_eq, rowGather_apply (by decide)]
  have hidx : broadcastInDim S61440x1 ![0] bcast_S61440_S61440x1_0
      (select (cmpi .slt (srcOf ei) (broadcastInDim S61440 ![] bcast_S_S61440 (constantI S_ 32 0#32)))
        (addi (srcOf ei) (broadcastInDim S61440 ![] bcast_S_S61440 (constantI S_ 32 10248#32)))
        (srcOf ei)) (ix2 e 0) = srcOf ei (ix1 e) := by
    rw [broadcastInDim_apply ![0] bcast_S61440_S61440x1_0 _ (ix2 e 0) (ix1 e) (by
        intro a; match a with | ⟨0, _⟩ => rfl), select_apply]
    show Scalar.select (IntOp.cmpi .slt (srcOf ei (ix1 e))
      (broadcastInDim S61440 ![] bcast_S_S61440 (constantI S_ 32 0#32) (ix1 e))) _ _ = _
    rw [broadcastInDim_scalar_apply]
    show Scalar.select (IntOp.cmpi .slt (srcOf ei (ix1 e)) 0#32) _ _ = _
    rw [hslt, select_zero]
  congr 1
  funext a
  refine Fin.ext ?_
  match a with
  | ⟨0, _⟩ =>
    show min _ (10248 - 1) = _
    rw [hidx]
    show min (srcOf ei (ix1 e)).toInt.toNat (10248 - 1) = (srcOf ei (ix1 e)).toInt.toNat
    omega
  | ⟨1, _⟩ => rfl

/-- THE MESSAGE at edge `e`, output channel `o`, as the operations leave it: the reduction's initial value plus the
    sum over the components of the projected row's block entry times the weight. -/
theorem msgOf_apply (x : FVec Ideal S10248x64 .f32) (ei : IVec S2x61440 32) (ps : FVec Ideal S61440x2 .f32)
    (g : FVec Ideal S64x384 .f32) (mu sg : FVec Ideal S3x2 .f32) (e : Fin 61440) (o : Fin 128)
    (hslt : IntOp.cmpi .slt (srcOf ei (ix1 e)) 0#32 = 0#1)
    (hrange : 0 ≤ (srcOf ei (ix1 e)).toInt ∧ (srcOf ei (ix1 e)).toInt < 10248) :
    msgOf x ei ps g mu sg (ix2 e o)
      = Ideal.ofBits .f32 0x00000000#32 + ∑ k : Fin 3,
          (∑ ch : Fin 64, x (ix2 ⟨(srcOf ei (ix1 e)).toInt.toNat, by omega⟩ ch) * g (ix2 ch ⟨128 * k.val + o.val, by omega⟩))
            * Cert.Spec.gaussW (ps (ix2 e 0)) (ps (ix2 e 1)) (mu (ix2 k 0)) (mu (ix2 k 1)) (sg (ix2 k 0)) (sg (ix2 k 1)) := by
  unfold msgOf
  rw [hostReduceAdd_apply, Ideal.hostReduceAdd_single reducesTo_S61440x3x128_S61440x128_d1 (by decide), constant_apply]
  refine congrArg (_ + ·) (Finset.sum_congr rfl fun (k : Fin 3) _ => ?_)
  have hl : (Shape.Reduces.lift (s := S61440x3x128) (t := S61440x128) (a := 1) (by decide) (ix2 e o) k) = ix3 e k o := by
    funext a; apply Fin.ext
    match a with | ⟨0, _⟩ => rfl | ⟨1, _⟩ => rfl | ⟨2, _⟩ => rfl
  rw [hl, mulf_apply,
    broadcastInDim_apply ![0, 1, 2] bcast_S61440x3x1_S61440x3x128_0_1_2 _ (ix3 e k o) (ix3 e k 0) (by
      intro a; match a with | ⟨0, _⟩ => rfl | ⟨1, _⟩ => rfl | ⟨2, _⟩ => rfl),
    broadcastInDim_apply ![0, 1] bcast_S61440x3_S61440x3x1_0_1 _ (ix3 e k 0) (ix2 e k) (by
      intro a; match a with | ⟨0, _⟩ => rfl | ⟨1, _⟩ => rfl),
    wOf_apply,
    shapeCast_apply _ shapeCasts_S61440x384_S61440x3x128 (ix3 e k o) (ix2 e ⟨128 * k.val + o.val, by omega⟩) (by
      rw [Shape.rowMajor_val_two, Shape.rowMajor_val_three]
      show e.val * 384 + (128 * k.val + o.val) = (e.val * 3 + k.val) * 128 + o.val
      omega),
    dot_eq, plainDot_apply]
  refine congrArg (· * _) (Finset.sum_congr rfl fun ch _ => ?_)
  rw [xsOf_apply x ei e ch hslt hrange]

/-! ## The theorem -/

section Theorem
variable (m : (ℓ : Loc nD τ sig) → Buf (Elt Ideal) ℓ)

/-- The reference's message at `(e, o)` after the layer's lines, over the layer's input and the launch arguments: project, then weight. -/
theorem msg_apply (c : Dev nD) (e : Fin 61440) (o : Fin 128)
    (hslt : IntOp.cmpi .slt (srcOf (aEi m c) (ix1 e)) 0#32 = 0#1)
    (hrange : 0 ≤ (srcOf (aEi m c) (ix1 e)).toInt ∧ (srcOf (aEi m c) (ix1 e)).toInt < 10248) :
    (Vout m c main_v156 : FVec Ideal S61440x128 .f32) (ix2 e o)
      = Ideal.ofBits .f32 0x00000000#32 + ∑ k : Fin 3,
          (∑ ch : Fin 64, xIn m c (ix2 ⟨(srcOf (aEi m c) (ix1 e)).toInt.toNat, by omega⟩ ch)
              * aG m c (ix2 ch ⟨128 * k.val + o.val, by omega⟩))
            * Cert.Spec.gaussW (aPs m c (ix2 e 0)) (aPs m c (ix2 e 1))
                (aMu m c (ix2 k 0)) (aMu m c (ix2 k 1))
                (aSg m c (ix2 k 0)) (aSg m c (ix2 k 1)) := by
  rw [Vout_main_v156]
  exact msgOf_apply _ _ _ _ _ _ e o hslt hrange

/-- The same without the reduction's zero. -/
theorem msg_apply' (c : Dev nD) (e : Fin 61440) (o : Fin 128)
    (hslt : IntOp.cmpi .slt (srcOf (aEi m c) (ix1 e)) 0#32 = 0#1)
    (hrange : 0 ≤ (srcOf (aEi m c) (ix1 e)).toInt ∧ (srcOf (aEi m c) (ix1 e)).toInt < 10248) :
    (Vout m c main_v156 : FVec Ideal S61440x128 .f32) (ix2 e o)
      = ∑ k : Fin 3,
          (∑ ch : Fin 64, xIn m c (ix2 ⟨(srcOf (aEi m c) (ix1 e)).toInt.toNat, by omega⟩ ch)
              * aG m c (ix2 ch ⟨128 * k.val + o.val, by omega⟩))
            * Cert.Spec.gaussW (aPs m c (ix2 e 0)) (aPs m c (ix2 e 1))
                (aMu m c (ix2 k 0)) (aMu m c (ix2 k 1))
                (aSg m c (ix2 k 0)) (aSg m c (ix2 k 1)) := by
  rw [msg_apply m c e o hslt hrange, Ideal.ofBits_zero_f32, zero_add]

end Theorem

end Cert.RefHead3

end
-- ==== Proof.Bridge3.lean ====
/-
  THE JOINING STEP OF THE THIRD MIXTURE LAYER: the per-edge messages the kernel's third region leaves are the
  reference's messages, where the two programs' pooled outputs of the layer before agree.

  At edge `e` and output channel `o` the kernel contracts, over the 192 stacked positions `j = 64 k + ch`, the
  weighted feature `x(src e, ch) * w_k(e)` against row `j` of the restacked projection, which is entry
  `(ch, 128 k + o)` of the layer's matrix; the reference projects first and weights afterwards,
  `∑ k, (∑ ch, x(src e, ch) * g(ch, 128 k + o)) * w_k(e)`. Here `x` is the pooled output of the layer before, the
  same array on both sides by hypothesis, and the weight `w_k(e)` is the same Gaussian weight of the edge's
  pseudo-coordinates against the centre and widths of component `k`. Under the precondition the
  pseudo-coordinates, centres and widths are real numbers, so each weight is a NON-NEGATIVE REAL, and
  multiplication by a non-negative real distributes over any sum of extended reals: the two sums agree.
-/
import proofs.«402598_j31782757990676_2_alg».proof.Defs
import proofs.«402598_j31782757990676_2_alg».proof.Proof.EdgeLaw
import proofs.«402598_j31782757990676_2_alg».proof.Proof.Spec
import proofs.«402598_j31782757990676_2_alg».proof.Proof.WeightReal
import proofs.«402598_j31782757990676_2_alg».proof.Proof.PreFacts
import proofs.«402598_j31782757990676_2_alg».proof.Proof.KHost3
import proofs.«402598_j31782757990676_2_alg».proof.Proof.Region2Value
import proofs.«402598_j31782757990676_2_alg».proof.Proof.RefHead3
import Idealize.ShloMosaic.Lib.ValueIdx
import Mathlib.Algebra.BigOperators.Fin

set_option maxRecDepth 8192

noncomputable section

open scoped BigOperators

namespace Cert.Bridge3

open Idealize.ShloMosaic Idealize.ShloMosaic.TcCoe Idealize.ShloMosaic.ValueIdx Idealize.SL.Sem

variable [Cert.KernelIdeal.Facts] [Cert.ReferenceIdeal.Facts] [Cert.Pre_finite_inputs.Facts]

open Cert.KernelIdeal (main_arg3 main_arg7 main_arg24 main_arg25 main_arg26)
open Cert.KernelIdeal.Gen (V0 V15)
open Cert.KernelIdeal.KHost3 (xIn eiArg gArg src)
open Cert.KernelIdeal.Region2 (outArr2 V15')
open Cert.KernelIdeal.Region2Value (xsA psA gA muA sgA)
open Cert.Spec (gaussW)

/-! ## The arrays the region reads -/

/-- The five arrays the region reads are these five buffers of the kernel program. -/
theorem arr0 : Pipeline.arrRef Cert.KernelIdeal.spec2 0 = Cert.KernelIdeal.main_v85 := rfl
theorem arr1 : Pipeline.arrRef Cert.KernelIdeal.spec2 1 = Cert.KernelIdeal.main_arg7 := rfl
theorem arr2 : Pipeline.arrRef Cert.KernelIdeal.spec2 2 = Cert.KernelIdeal.main_v90 := rfl
theorem arr3 : Pipeline.arrRef Cert.KernelIdeal.spec2 3 = Cert.KernelIdeal.main_arg25 := rfl
theorem arr4 : Pipeline.arrRef Cert.KernelIdeal.spec2 4 = Cert.KernelIdeal.main_arg26 := rfl

section Args

variable (m : (ℓ : Loc Cert.KernelIdeal.nD Cert.KernelIdeal.τ Cert.KernelIdeal.sig) → Buf (Elt Ideal) ℓ)
  (c : Dev Cert.KernelIdeal.nD)

/-- The pseudo-coordinates at launch, `61440 × 2`. -/
abbrev psArg : FVec Ideal Cert.KernelIdeal.S61440x2 .f32 := V0 m c main_arg7
/-- The mixture centres at launch, `3 × 2`. -/
abbrev muArg : FVec Ideal Cert.KernelIdeal.S3x2 .f32 := V0 m c main_arg25
/-- The mixture widths at launch, `3 × 2`. -/
abbrev sgArg : FVec Ideal Cert.KernelIdeal.S3x2 .f32 := V0 m c main_arg26

end Args

/-! ## The reference's side -/

/-- THE REFERENCE'S MESSAGE OVER THE KERNEL'S ARRAYS: where the five argument arrays the layer reads and the pooled
    outputs of the layer before agree, the reference's message at `(e, o)` is project-then-weight of the kernel's
    own pooled output and arguments. -/
theorem ref_msg
    (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD)
    (h3 : m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3))
    (h7 : m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7))
    (h24 : m' ((c.tc : Thread Cert.ReferenceIdeal.nD Cert.ReferenceIdeal.τ).loc Cert.ReferenceIdeal.main_arg24)
        = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25)
        = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26)
        = m ((c.tc : Thread Cert.KernelIdeal.nD Cert.KernelIdeal.τ).loc Cert.KernelIdeal.main_arg26))
    (hx : Cert.KernelIdeal.Gen.V15 m outs c Cert.KernelIdeal.main_v79
        = Cert.ReferenceIdeal.RefRun.V4 m' c Cert.ReferenceIdeal.main_v123)
    (e : Fin 61440) (o : Fin 128)
    (hslt : IntOp.cmpi .slt (src m c (ix1 e)) 0#32 = 0#1)
    (hrange : 0 ≤ (src m c (ix1 e)).toInt ∧ (src m c (ix1 e)).toInt < 10248) :
    (Cert.ReferenceIdeal.RefRun.V5 (F := Ideal) m' c Cert.ReferenceIdeal.main_v156
        : Cert.ReferenceIdeal.S61440x128.Idx → EReal) (ix2 e o)
      = ∑ k : Fin 3,
          (∑ ch : Fin 64, xIn m outs c (ix2 (⟨(src m c (ix1 e)).toInt.toNat, by omega⟩ : Fin 10248) ch)
              * gArg m c (ix2 ch (⟨128 * k.val + o.val, by omega⟩ : Fin 384)))
            * gaussW (psArg m c (ix2 e 0)) (psArg m c (ix2 e 1))
                (muArg m c (ix2 k 0)) (muArg m c (ix2 k 1))
                (sgArg m c (ix2 k 0)) (sgArg m c (ix2 k 1)) := by
  have hX : Cert.RefHead3.xIn (F := Ideal) m' c = xIn m outs c := hx.symm
  have hEi : Cert.RefHead3.aEi m' c = eiArg m c := h3
  have hPs : Cert.RefHead3.aPs m' c = psArg m c := h7
  have hG : Cert.RefHead3.aG m' c = gArg m c := h24
  have hMu : Cert.RefHead3.aMu m' c = muArg m c := h25
  have hSg : Cert.RefHead3.aSg m' c = sgArg m c := h26
  -- the source row is the same array on both sides
  have hslt' : IntOp.cmpi .slt (Cert.RefHead3.srcOf (Cert.RefHead3.aEi m' c) (ix1 e)) 0#32 = 0#1 := by
    rw [hEi]; exact hslt
  have hrange' : 0 ≤ (Cert.RefHead3.srcOf (Cert.RefHead3.aEi m' c) (ix1 e)).toInt
      ∧ (Cert.RefHead3.srcOf (Cert.RefHead3.aEi m' c) (ix1 e)).toInt < 10248 := by
    rw [hEi]; exact hrange
  have hidx : (⟨(Cert.RefHead3.srcOf (Cert.RefHead3.aEi m' c) (ix1 e)).toInt.toNat, by omega⟩ : Fin 10248)
      = ⟨(src m c (ix1 e)).toInt.toNat, by omega⟩ :=
    Fin.ext (congrArg (fun ei => (Cert.RefHead3.srcOf ei (ix1 e)).toInt.toNat) hEi)
  refine Eq.trans (Cert.RefHead3.msg_apply' m' c e o hslt' hrange') ?_
  rw [hidx, hX, hPs, hG, hMu, hSg]

/-! ## The joining step -/

theorem msg3
    (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD)
    (hpre : Cert.Pre_KernelIdeal m)
    (h3 : m' ((c.tc : Thread Cert.ReferenceIdeal.nD Cert.ReferenceIdeal.τ).loc Cert.ReferenceIdeal.main_arg3)
        = m ((c.tc : Thread Cert.KernelIdeal.nD Cert.KernelIdeal.τ).loc Cert.KernelIdeal.main_arg3))
    (h7 : m' ((c.tc : Thread Cert.ReferenceIdeal.nD Cert.ReferenceIdeal.τ).loc Cert.ReferenceIdeal.main_arg7)
        = m ((c.tc : Thread Cert.KernelIdeal.nD Cert.KernelIdeal.τ).loc Cert.KernelIdeal.main_arg7))
    (h24 : m' ((c.tc : Thread Cert.ReferenceIdeal.nD Cert.ReferenceIdeal.τ).loc Cert.ReferenceIdeal.main_arg24)
        = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25)
        = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26)
        = m ((c.tc : Thread Cert.KernelIdeal.nD Cert.KernelIdeal.τ).loc Cert.KernelIdeal.main_arg26))
    (hx : Cert.KernelIdeal.Gen.V15 m outs c Cert.KernelIdeal.main_v79
        = Cert.ReferenceIdeal.RefRun.V4 m' c Cert.ReferenceIdeal.main_v123) :
    (Cert.KernelIdeal.Region2.outArr2 (F := Ideal) (Cert.KernelIdeal.Region2.V15' m outs) c
        : Cert.KernelIdeal.S61440x128.Idx → EReal)
      = Cert.ReferenceIdeal.RefRun.V5 (F := Ideal) m' c Cert.ReferenceIdeal.main_v156 := by
  funext i
  obtain ⟨e, o, rfl⟩ : ∃ (e : Fin 61440) (o : Fin 128), i = ix2 e o := ⟨i 0, i 1, eq_ix2 i⟩
  show @Eq EReal _ _
  have hp := hpre c
  -- every source index is in range, in the four forms the index-checked row gather is decided by
  have hslt : ∀ e, IntOp.cmpi .slt (src m c e) 0#32 = 0#1 := fun e => Cert.PreFacts.src4_slt hp e
  have hsle : ∀ e, IntOp.cmpi .sle (src m c e) 10247#32 = 1#1 := fun e => Cert.PreFacts.src4_sle hp e
  have hsge : ∀ e, IntOp.cmpi .sge (src m c e) 0#32 = 1#1 := fun e => Cert.PreFacts.src4_sge hp e
  have hrange : ∀ e, 0 ≤ (src m c e).toInt ∧ (src m c e).toInt < 10248 :=
    fun e => Cert.PreFacts.src4_range hp e
  -- the five operands of the region, as functions of the pooled output and the launch arguments
  obtain ⟨hAps, hAmu, hAsg⟩ := Cert.KernelIdeal.KHost3.args_eq m outs c
  have hps : psA (V15' m outs) c = psArg m c := hAps
  have hmu : muA (V15' m outs) c = muArg m c := hAmu
  have hsg : sgA (V15' m outs) c = sgArg m c := hAsg
  have hxs : ∀ ch : Fin 64, xsA (V15' m outs) c (ix2 e ch)
      = xIn m outs c (ix2 (⟨(src m c (ix1 e)).toInt.toNat, by have := hrange (ix1 e); omega⟩ : Fin 10248) ch) :=
    fun ch => Cert.KernelIdeal.KHost3.xs_eq m outs c hslt hsle hsge hrange e ch
  have hgs : ∀ j : Fin 192, gA (V15' m outs) c (ix2 j o)
      = gArg m c (ix2 (⟨j.val % 64, Nat.mod_lt _ (by decide)⟩ : Fin 64) (⟨128 * (j.val / 64) + o.val, by omega⟩ : Fin 384)) :=
    fun j => Cert.KernelIdeal.KHost3.gstack_eq m outs c j o
  -- the pseudo-coordinates, centres and widths are real numbers, so each weight is a non-negative real
  have r5 : ∀ i, ∃ r : ℝ, psArg m c i = (r : EReal) := Cert.PreFacts.real_arg7 hp
  have r15 : ∀ i, ∃ r : ℝ, muArg m c i = (r : EReal) := Cert.PreFacts.real_arg25 hp
  have r16 : ∀ i, ∃ r : ℝ, sgArg m c i = (r : EReal) := Cert.PreFacts.real_arg26 hp
  choose w hw0 hw using fun k : Fin 3 =>
    Cert.WeightReal.gaussW_real' (r5 (ix2 e 0)) (r5 (ix2 e 1)) (r15 (ix2 k 0)) (r15 (ix2 k 1))
      (r16 (ix2 k 0)) (r16 (ix2 k 1))
  -- both sides at the index
  refine Eq.trans (Cert.KernelIdeal.Region2Value.outArr2_apply (V15' m outs) c e o) ?_
  refine Eq.trans ?_ (ref_msg m outs m' c h3 h7 h24 h25 h26 hx e o (hslt _) (hrange _)).symm
  rw [hps, hmu, hsg]
  -- the edge law between them
  have hlaw := Cert.EdgeLaw.project_weight_eq_stack (C := 64) (by decide)
    (fun ch => xIn m outs c (ix2 (⟨(src m c (ix1 e)).toInt.toNat, by have := hrange (ix1 e); omega⟩ : Fin 10248) ch))
    (fun ch k => gArg m c (ix2 ch (⟨128 * k.val + o.val, by omega⟩ : Fin 384))) w hw0
  refine Eq.trans ?_ (Eq.trans hlaw.symm ?_)
  · refine Finset.sum_congr rfl fun j _ => ?_
    have hj : (⟨64 * (j.val / 64) + j.val % 64, by have := j.isLt; omega⟩ : Fin 192) = ⟨j.val, j.isLt⟩ :=
      Fin.ext (by show 64 * (j.val / 64) + j.val % 64 = j.val; omega)
    rw [hxs, hw, hj, hgs]
  · refine Finset.sum_congr rfl fun k _ => ?_
    rw [hw k]

end Cert.Bridge3

end
-- ==== Proof.KHost4.lean ====
/-
  What region 3 of the idealized kernel program is entered from: the contents of its operand arrays after the host
  stretches that precede it, read at an index.

  * The feature operand is the row gather `x[src]` of the previous layer's pooled output. The program spells it as an
    index-checked take: the source index wrapped when negative, a mask "0 ≤ index ≤ N − 1" reduced over the index
    vector, a clamping gather, a select between the gathered row and a not-a-number literal under the mask, then a
    change of float format. When every source index is in range the wrap is the identity, the mask is all ones, the
    clamp is the identity and the select takes the gathered row; a change of float format is the identity on extended
    reals.
  * The stacked projection matrix is the three column blocks of the layer's `128 × 768` matrix laid one under another:
    row `j` of the `384 × 256` stack is row `j % 128` of block `j / 128`.
  * The other three operands are argument arrays no host operation writes.
-/
import proofs.«402598_j31782757990676_2_alg».proof.Proof.Gen.KernelIdeal.Regions
import Idealize.ShloMosaic.Lib.ValueIdx
import Idealize.ShloMosaic.Lib.ValueLayout
import Idealize.ShloMosaic.Lib.ReduceAll
import Idealize.ShloMosaic.Lib.Pipeline.Value

set_option maxRecDepth 2036

noncomputable section

namespace Cert.KernelIdeal.KHost4

open Cert.KernelIdeal Cert.KernelIdeal.Gen
open Idealize.ShloMosaic Idealize.ShloMosaic.TcCoe Idealize.ShloMosaic.ValueIdx

/-! ## The take, in pieces -/

/-- The source index wrapped when negative: `where(s < 0, s + 2568, s)`. -/
def wrapIdx (s : IVec S15360 32) : IVec S15360 32 :=
  select (cmpi .slt s (broadcastInDim S15360 ![] bcast_S_S15360 (constantI S_ 32 0#32)))
    (addi s (broadcastInDim S15360 ![] bcast_S_S15360 (constantI S_ 32 2568#32))) s

/-- The wrapped index as a column of one-word index vectors. -/
def idxCol (s : IVec S15360 32) : IVec S15360x1 32 :=
  broadcastInDim S15360x1 ![0] bcast_S15360_S15360x1_0 (wrapIdx s)

/-- The range mask "0 ≤ index ≤ 2567", reduced by `and` over the index vector. -/
def rowMask (s : IVec S15360 32) : IVec S15360 1 :=
  Host.reduce IntOp.andi
    (andi (cmpi .sge (idxCol s) (broadcastInDim S15360x1 ![] bcast_S_S15360x1 (constantI S_ 32 0#32)))
      (cmpi .sle (idxCol s) (broadcastInDim S15360x1 ![0, 1] bcast_S1x1_S15360x1_0_1
        (broadcastInDim S1x1 ![1] bcast_S1_S1x1_1 (constantI S1 32 2567#32)))))
    (constantI S_ 1 1#1) reducesTo_S15360x1_S15360_d1 h_S_

section Fold
variable {F : FTy → Type} [FloatOps F]

/-- The index-checked take as one function of the node features `x` and the source row `s`: the clamping gather at the
    wrapped index, selected against the not-a-number literal under the range mask, then the change of float format. -/
def takeFn (x : FVec F S2568x128 .f32) (s : IVec S15360 32) : FVec F S15360x128 .bf16 :=
  truncf .bf16
    (select (broadcastInDim S15360x128 ![0] bcast_S15360_S15360x128_0 (rowMask s))
      (Host.gather gather_S2568x128_S15360x1_S15360x128_1_0_n_n_0_1_1128 x (idxCol s))
      (broadcastInDim S15360x128 ![] bcast_S_S15360x128 (constant S_ .f32 0x7FC00000#32)))
    bitsLt_bf16_f32
end Fold

section FoldStack
variable {F : FTy → Type} [FloatOps F]
/-- The stacked projection as one function of the layer's matrix: its three column blocks one under another, then the
    change of float format. -/
def stackFn (g : FVec F S128x768 .f32) : FVec F S384x256 .bf16 :=
  truncf .bf16
    (concatenate S384x256 0
      [⟨S128x256, extractStridedSlice S128x256 ![0, 0] g slices_S128x768_S128x256_0_0⟩,
        ⟨S128x256, extractStridedSlice S128x256 ![0, 256] g slices_S128x768_S128x256_0_256⟩,
        ⟨S128x256, extractStridedSlice S128x256 ![0, 512] g slices_S128x768_S128x256_0_512⟩]
      concatenates_S128x256_S128x256_S128x256_S384x256_d0)
    bitsLt_bf16_f32
end FoldStack

/-! ## The host lines compute these functions

Over ANY contents `W` before them, the fold of the host lines read at an operand is the function above of `W`'s
buffers: both sides are closed terms over `W`, compared by computation (the folds unfold, each read finds its
writer). Stated for any float type. -/

section Folds
variable {F : FTy → Type} [FloatOps F]

set_option maxHeartbeats 4000000 in
/-- The take's line and the line after it: the feature operand is `takeFn` of `W`'s pooled output and source row. -/
theorem take_fold (W : Valuation τ sig (Elt F)) :
    StableHlo.after hostOps3_4 (StableHlo.after hostOps3_3 W) (Proc.devRef .tc main_v125)
      = takeFn (W (Proc.devRef .tc main_v119)) (W (Proc.devRef .tc main_v121)) := by
  chain_rfl

set_option maxHeartbeats 4000000 in
/-- The last line before the region: the stacked operand is `stackFn` of `W`'s matrix. -/
theorem stack_fold (W : Valuation τ sig (Elt F)) :
    StableHlo.after hostOps3_4 W (Proc.devRef .tc main_v130) = stackFn (W (Proc.devRef .tc main_arg29)) := by
  chain_rfl

set_option maxHeartbeats 4000000 in
/-- The pooling line: the source row is row 0 of `W`'s edge index, flattened. -/
theorem src_fold (W : Valuation τ sig (Elt F)) :
    StableHlo.after hostOps3_2 W (Proc.devRef .tc main_v121)
      = shapeCast S15360 (extractStridedSlice S1x15360 ![0, 0] (W (Proc.devRef .tc main_arg4)) slices_S2x15360_S1x15360_0_0)
          shapeCasts_S1x15360_S15360 := by
  chain_rfl

end Folds

/-! ## The take read at an index -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h11 : IntOp.andi (1#1 : BitVec 1) 1#1 = 1#1 := by decide
    rw [List.foldl_cons, h a List.mem_cons_self, h11]
    exact foldl_andi_one f l fun n hn => h n (List.mem_cons_of_mem _ hn)

section Take
variable (s : IVec S15360 32)
  (hslt : ∀ k, IntOp.cmpi .slt (s k) 0#32 = 0#1) (hsle : ∀ k, IntOp.cmpi .sle (s k) 2567#32 = 1#1)
  (hsge : ∀ k, IntOp.cmpi .sge (s k) 0#32 = 1#1)
include hslt

/-- No source index is negative: the wrap is the identity. -/
theorem wrapIdx_apply (k : S15360.Idx) : wrapIdx s k = s k := by
  show Scalar.select (IntOp.cmpi .slt (s k) 0#32) (IntOp.addi (s k) 2568#32) (s k) = s k
  rw [hslt k, select_zero]

/-- The index column at row `i 0` is the source index of that edge. -/
theorem idxCol_apply (i : S15360x1.Idx) : idxCol s i = s (ix1 (i 0)) := by
  have h := broadcastInDim_apply (![0] : Fin S15360.rank → Fin S15360x1.rank) bcast_S15360_S15360x1_0 (wrapIdx s) i (ix1 (i 0))
    (fun a => by match a with | ⟨0, _⟩ => exact (if_neg (by decide : ¬ ((15360 : Nat) = 1))).symm)
  exact h.trans (wrapIdx_apply s hslt _)

include hsle hsge

/-- Every source index is in range: the mask is all ones. -/
theorem rowMask_apply (j : S15360.Idx) : rowMask s j = 1#1 := by
  unfold rowMask
  rw [Host.reduce_eq_foldl]
  refine foldl_andi_one _ _ fun i _ => ?_
  show IntOp.andi (IntOp.cmpi .sge (idxCol s i) 0#32) (IntOp.cmpi .sle (idxCol s i) 2567#32) = 1#1
  rw [idxCol_apply s hslt, hsge, hsle]
  decide

/-- THE TAKE READ AT `(e, ch)`: with every source index in range, the features of node `s e`. -/
theorem takeFn_apply (x : FVec Ideal S2568x128 .f32) (hrange : ∀ k, 0 ≤ (s k).toInt ∧ (s k).toInt < 2568)
    (e : Fin 15360) (ch : Fin 128) :
    takeFn (F := Ideal) x s (ix2 e ch)
      = x (ix2 (⟨(s (ix1 e)).toInt.toNat, by have := hrange (ix1 e); omega⟩ : Fin 2568) ch) := by
  have hm : (broadcastInDim S15360x128 ![0] bcast_S15360_S15360x128_0 (rowMask s)) (ix2 e ch) = 1#1 :=
    rowMask_apply s hslt hsle hsge _
  unfold takeFn
  rw [truncf_apply, select_apply, hm, select_one]
  unfold Host.gather
  refine congrArg x ?_
  funext a
  refine Fin.ext ?_
  show gather_S2568x128_S15360x1_S15360x128_1_0_n_n_0_1_1128.start (ix2 e ch) (idxCol s) a
      + gather_S2568x128_S15360x1_S15360x128_1_0_n_n_0_1_1128.batchCoord (ix2 e ch) a
      + gather_S2568x128_S15360x1_S15360x128_1_0_n_n_0_1_1128.offCoord (ix2 e ch) a = _
  rw [GatherDims.batchCoord_eq_zero _ _ _ List.not_mem_nil, Nat.add_zero]
  have k0 : (⟨0, by decide⟩ : Fin S2568x128.rank) ∉ gather_S2568x128_S15360x1_S15360x128_1_0_n_n_0_1_1128.sKept := by decide
  have m0 : (⟨0, by decide⟩ : Fin S2568x128.rank) ∈ gather_S2568x128_S15360x1_S15360x128_1_0_n_n_0_1_1128.startIndexMap := by decide
  have m1 : (⟨1, by decide⟩ : Fin S2568x128.rank) ∉ gather_S2568x128_S15360x1_S15360x128_1_0_n_n_0_1_1128.startIndexMap := by decide
  have k1 : (⟨1, by decide⟩ : Fin S2568x128.rank) ∈ gather_S2568x128_S15360x1_S15360x128_1_0_n_n_0_1_1128.sKept := by decide
  match a with
  | ⟨0, _⟩ =>
    rw [GatherDims.offCoord_eq_zero _ _ _ k0, Nat.add_zero]
    unfold GatherDims.start
    rw [dif_pos m0, idxCol_apply s hslt]
    have hr := hrange (ix1 e)
    exact Nat.min_eq_left (by show (s (ix1 e)).toInt.toNat ≤ 2568 - 1; omega)
  | ⟨1, _⟩ =>
    unfold GatherDims.start
    rw [dif_neg m1, Nat.zero_add]
    unfold GatherDims.offCoord
    rw [dif_pos k1]
    rfl

end Take

/-! ## The stack read at an index -/

/-- Two matrix indices with equal coordinates are equal. -/
theorem ix2_ext {n0 n1 : Nat} {a a' : Fin n0} {b b' : Fin n1} (ha : a.val = a'.val) (hb : b.val = b'.val) :
    ix2 a b = ix2 a' b' := by
  rw [Fin.ext ha, Fin.ext hb]

/-- THE STACK READ AT `(j, o)`: row `j % 128` of column block `j / 128` of the matrix. -/
theorem stackFn_apply (g : FVec Ideal S128x768 .f32) (j : Fin 384) (o : Fin 256) :
    stackFn (F := Ideal) g (ix2 j o)
      = g (ix2 (⟨j.val % 128, Nat.mod_lt _ (by decide)⟩ : Fin 128) (⟨256 * (j.val / 128) + o.val, by omega⟩ : Fin 768)) := by
  unfold stackFn
  rw [truncf_apply]
  have hj := j.isLt
  have ho := o.isLt
  rcases (by omega : j.val < 128 ∨ (128 ≤ j.val ∧ j.val < 256) ∨ 256 ≤ j.val) with h | h | h
  · refine Eq.trans (concatenate_apply_piece (0 : Fin S384x256.rank) _ _ (ix2 j o) 0 ?_ S128x256
      (extractStridedSlice S128x256 ![0, 0] g slices_S128x768_S128x256_0_0) ?_ rfl 0 ?_
      (ix2 (⟨j.val, h⟩ : Fin 128) o) ?_ ?_) ?_
    · show (0 : Nat) < 3; decide
    · rfl
    · rfl
    · intro b hb; match b with | ⟨0, _⟩ => exact absurd rfl hb | ⟨1, _⟩ => rfl
    · show 0 + (j.val) = j.val; omega
    · refine Eq.trans (slice2_axis1_apply 0 g slices_S128x768_S128x256_0_0 (⟨j.val, h⟩ : Fin 128) o
        (⟨0 + o.val, by omega⟩ : Fin 768) rfl) ?_
      exact congrArg g (ix2_ext (by show j.val = j.val % 128; omega) (by show 0 + o.val = 256 * (j.val / 128) + o.val; omega))
  · refine Eq.trans (concatenate_apply_piece (0 : Fin S384x256.rank) _ _ (ix2 j o) 1 ?_ S128x256
      (extractStridedSlice S128x256 ![0, 256] g slices_S128x768_S128x256_0_256) ?_ rfl 128 ?_
      (ix2 (⟨j.val - 128, by omega⟩ : Fin 128) o) ?_ ?_) ?_
    · show (1 : Nat) < 3; decide
    · rfl
    · rfl
    · intro b hb; match b with | ⟨0, _⟩ => exact absurd rfl hb | ⟨1, _⟩ => rfl
    · show 128 + (j.val - 128) = j.val; omega
    · refine Eq.trans (slice2_axis1_apply 256 g slices_S128x768_S128x256_0_256 (⟨j.val - 128, by omega⟩ : Fin 128) o
        (⟨256 + o.val, by omega⟩ : Fin 768) rfl) ?_
      exact congrArg g (ix2_ext (by show j.val - 128 = j.val % 128; omega) (by show 256 + o.val = 256 * (j.val / 128) + o.val; omega))
  · refine Eq.trans (concatenate_apply_piece (0 : Fin S384x256.rank) _ _ (ix2 j o) 2 ?_ S128x256
      (extractStridedSlice S128x256 ![0, 512] g slices_S128x768_S128x256_0_512) ?_ rfl 256 ?_
      (ix2 (⟨j.val - 256, by omega⟩ : Fin 128) o) ?_ ?_) ?_
    · show (2 : Nat) < 3; decide
    · rfl
    · rfl
    · intro b hb; match b with | ⟨0, _⟩ => exact absurd rfl hb | ⟨1, _⟩ => rfl
    · show 256 + (j.val - 256) = j.val; omega
    · refine Eq.trans (slice2_axis1_apply 512 g slices_S128x768_S128x256_0_512 (⟨j.val - 256, by omega⟩ : Fin 128) o
        (⟨512 + o.val, by omega⟩ : Fin 768) rfl) ?_
      exact congrArg g (ix2_ext (by show j.val - 256 = j.val % 128; omega) (by show 512 + o.val = 256 * (j.val / 128) + o.val; omega))

/-! ## Region 3's operands -/

variable (m : (ℓ : Loc nD τ sig) → Buf (Elt Ideal) ℓ) (outs : Outs (F := Ideal)) (c : Dev nD)

/-- A reference none of the first 18 items writes holds its launch contents after them. -/
theorem V18_of_launch (r : Ref sig .tc) (h1 : r ∉ hostOps0_W) (h2 : r ∉ hostOps0_1_W) (h3 : r ∉ hostOps0_2_W) (h4 : r ∉ ([main_v11] : List (Ref sig .tc))) (h5 : r ∉ hostOps1_W) (h6 : r ∉ hostOps1_1_W) (h7 : r ∉ hostOps1_2_W) (h8 : r ∉ hostOps1_3_W) (h9 : r ∉ hostOps1_4_W) (h10 : r ∉ ([main_v51] : List (Ref sig .tc))) (h11 : r ∉ hostOps2_W) (h12 : r ∉ hostOps2_1_W) (h13 : r ∉ hostOps2_2_W) (h14 : r ∉ hostOps2_3_W) (h15 : r ∉ hostOps2_4_W) (h16 : r ∉ ([main_v91] : List (Ref sig .tc))) (h17 : r ∉ hostOps3_W) (h18 : r ∉ hostOps3_1_W) :
    V18 m outs c r = V0 m c r :=
  (V18_of m outs c r h18).trans <| (V17_of m outs c r h17).trans <| (V16_of m outs c r h16).trans <| (V15_of m outs c r h15).trans <| (V14_of m outs c r h14).trans <| (V13_of m outs c r h13).trans <| (V12_of m outs c r h12).trans <| (V11_of m outs c r h11).trans <| (V10_of m outs c r h10).trans <| (V9_of m outs c r h9).trans <| (V8_of m outs c r h8).trans <| (V7_of m outs c r h7).trans <| (V6_of m outs c r h6).trans <| (V5_of m outs c r h5).trans <| (V4_of m outs c r h4).trans <| (V3_of m c r h3).trans <| (V2_of m c r h2).trans (V1_of m c r h1)

/-- A reference none of the first 21 items writes holds its launch contents as region 3 is entered. -/
theorem V21_of_launch (r : Ref sig .tc) (h1 : r ∉ hostOps0_W) (h2 : r ∉ hostOps0_1_W) (h3 : r ∉ hostOps0_2_W) (h4 : r ∉ ([main_v11] : List (Ref sig .tc))) (h5 : r ∉ hostOps1_W) (h6 : r ∉ hostOps1_1_W) (h7 : r ∉ hostOps1_2_W) (h8 : r ∉ hostOps1_3_W) (h9 : r ∉ hostOps1_4_W) (h10 : r ∉ ([main_v51] : List (Ref sig .tc))) (h11 : r ∉ hostOps2_W) (h12 : r ∉ hostOps2_1_W) (h13 : r ∉ hostOps2_2_W) (h14 : r ∉ hostOps2_3_W) (h15 : r ∉ hostOps2_4_W) (h16 : r ∉ ([main_v91] : List (Ref sig .tc))) (h17 : r ∉ hostOps3_W) (h18 : r ∉ hostOps3_1_W) (h19 : r ∉ hostOps3_2_W) (h20 : r ∉ hostOps3_3_W) (h21 : r ∉ hostOps3_4_W) :
    V21 m outs c r = V0 m c r :=
  (V21_of m outs c r h21).trans <| (V20_of m outs c r h20).trans <| (V19_of m outs c r h19).trans
    (V18_of_launch m outs c r h1 h2 h3 h4 h5 h6 h7 h8 h9 h10 h11 h12 h13 h14 h15 h16 h17 h18)

/-! ### The arrays, at their literal types -/

/-- The previous layer's pooled output as region 3 is entered, `2568 × 128`: this layer's node features. -/
abbrev xIn : FVec Ideal S2568x128 .f32 := V21 m outs c main_v119
/-- The edge index at launch, `2 × 15360`: row 0 the sources. -/
abbrev eiArg : IVec S2x15360 32 := V0 m c main_arg4
/-- The layer's projection matrix at launch, `128 × 768`: three column blocks of 256. -/
abbrev gArg : FVec Ideal S128x768 .f32 := V0 m c main_arg29
/-- The source row: row 0 of the edge index, as a flat array of 15360 words. -/
abbrev src : IVec S15360 32 :=
  shapeCast S15360 (extractStridedSlice S1x15360 ![0, 0] (eiArg m c) slices_S2x15360_S1x15360_0_0) shapeCasts_S1x15360_S15360
/-- Region 3's feature operand as entered: `15360 × 128`. -/
abbrev xsBuf : FVec Ideal S15360x128 .bf16 := V21 m outs c main_v125
/-- Region 3's stacked projection operand as entered: `384 × 256`. -/
abbrev gstackBuf : FVec Ideal S384x256 .bf16 := V21 m outs c main_v130

/-! ### The three facts -/

/-- The feature operand is the take of the pooled output at the source row. -/
theorem xsBuf_eq : xsBuf m outs c = takeFn (xIn m outs c) (src m c) := by
  have e39 : V19 m outs c main_v119 = V21 m outs c main_v119 :=
    ((V21_of m outs c main_v119 (by decide)).trans (V20_of m outs c main_v119 (by decide))).symm
  have e41 : V19 m outs c main_v121 = src m c :=
    (src_fold (F := Ideal) (V18 m outs c)).trans (by
      rw [V18_of_launch m outs c main_arg4 (by decide) (by decide) (by decide) (by decide) (by decide) (by decide) (by decide) (by decide) (by decide) (by decide) (by decide) (by decide) (by decide) (by decide) (by decide) (by decide) (by decide) (by decide)])
  exact (take_fold (F := Ideal) (V19 m outs c)).trans (by rw [e39, e41])

/-- The stacked operand is the stack of the layer's matrix. -/
theorem gstackBuf_eq : gstackBuf m outs c = stackFn (gArg m c) :=
  (stack_fold (F := Ideal) (V20 m outs c)).trans (by
    rw [(V20_of m outs c main_arg29 (by decide)).trans <| (V19_of m outs c main_arg29 (by decide)).trans
      (V18_of_launch m outs c main_arg29 (by decide) (by decide) (by decide) (by decide) (by decide) (by decide) (by decide) (by decide) (by decide) (by decide) (by decide) (by decide) (by decide) (by decide) (by decide) (by decide) (by decide) (by decide))])

/-- THE FEATURE OPERAND IS THE ROW GATHER: with every source index in range (as a signed value, and as the three
    compares the take computes, decided), edge `e`, channel `ch` holds the features of node `src e`. -/
theorem xs_eq
    (hslt : ∀ e, IntOp.cmpi .slt (src m c e) 0#32 = 0#1)
    (hsle : ∀ e, IntOp.cmpi .sle (src m c e) 2567#32 = 1#1)
    (hsge : ∀ e, IntOp.cmpi .sge (src m c e) 0#32 = 1#1)
    (hrange : ∀ e, 0 ≤ (src m c e).toInt ∧ (src m c e).toInt < 2568)
    (e : Fin 15360) (ch : Fin 128) :
    xsBuf m outs c (ix2 e ch)
      = xIn m outs c (ix2 (⟨(src m c (ix1 e)).toInt.toNat, by have := hrange (ix1 e); omega⟩ : Fin 2568) ch) := by
  rw [xsBuf_eq]
  exact takeFn_apply (src m c) hslt hsle hsge (xIn m outs c) hrange e ch

/-- THE STACKED PROJECTION: row `j` of the `384 × 256` stack is row `j % 128` of column block `j / 128`. -/
theorem gstack_eq (j : Fin 384) (o : Fin 256) :
    gstackBuf m outs c (ix2 j o)
      = gArg m c (ix2 (⟨j.val % 128, Nat.mod_lt _ (by decide)⟩ : Fin 128) (⟨256 * (j.val / 128) + o.val, by omega⟩ : Fin 768)) := by
  rw [gstackBuf_eq]
  exact stackFn_apply (gArg m c) j o

/-- The other three operands are argument arrays as launched. -/
theorem args_eq :
    V21 m outs c main_arg8 = V0 m c main_arg8 ∧ V21 m outs c main_arg30 = V0 m c main_arg30
      ∧ V21 m outs c main_arg31 = V0 m c main_arg31 :=
  ⟨V21_of_launch m outs c main_arg8 (by decide) (by decide) (by decide) (by decide) (by decide) (by decide) (by decide) (by decide) (by decide) (by decide) (by decide) (by decide) (by decide) (by decide) (by decide) (by decide) (by decide) (by decide) (by decide) (by decide) (by decide),
    V21_of_launch m outs c main_arg30 (by decide) (by decide) (by decide) (by decide) (by decide) (by decide) (by decide) (by decide) (by decide) (by decide) (by decide) (by decide) (by decide) (by decide) (by decide) (by decide) (by decide) (by decide) (by decide) (by decide) (by decide),
    V21_of_launch m outs c main_arg31 (by decide) (by decide) (by decide) (by decide) (by decide) (by decide) (by decide) (by decide) (by decide) (by decide) (by decide) (by decide) (by decide) (by decide) (by decide) (by decide) (by decide) (by decide) (by decide) (by decide) (by decide)⟩

end Cert.KernelIdeal.KHost4
-- ==== Proof.Region3Value.lean ====
/-
  REGION 3's output array, index by index.

  The region runs the edge kernel of one mixture layer at 4 grid points; point t reads rows
  3840 t onwards (3840 of them) of the gathered features (128 channels) and of the pseudo-coordinates (two
  channels), and the whole of the restacked projection (384 x 256), of the mixture centres and of the mixture
  widths (3 x 2 each), and writes the same rows of the output (256 channels).

  For one row the body forms, for each mixture component k = 0, 1, 2, the Gaussian weight of the row
  (Spec.gaussW of the row's two pseudo-coordinates and of row k of the centres and widths), stores the
  row's 128 features times that weight at lanes 128 k onwards of a scratch row of 384 lanes, and contracts the
  scratch row against the projection. So lane j of the scratch row is feature j % 128 times the weight of
  component j / 128, and output channel o of the row is the sum over the 384 lanes j of that lane times
  entry (j, o) of the projection.

  The module proves this in four steps: each weighted copy at an index (the lane sum of two terms, the
  exponential, the broadcast back over the channels); the scratch as ONE function of (row, lane),
  from its three column stores; the contraction at an index; and the passage from the 4 blocks to the
  whole array (block t of a window is rows 3840 t onwards of its array; row e lies in block e / 3840).
-/
import proofs.«402598_j31782757990676_2_alg».proof.Proof.Region3
import proofs.«402598_j31782757990676_2_alg».proof.Proof.Spec
import Idealize.ShloMosaic.Lib.Pipeline.Value
import Idealize.ShloMosaic.Lib.ValueIdx
import Idealize.ShloMosaic.PureOps.Ideal.Laws
import Mathlib.Algebra.BigOperators.Fin
import Idealize.ShloMosaic.Lib.Ring
import Idealize.ShloMosaic.Lib.Tactic

set_option maxRecDepth 16384

noncomputable section

namespace Cert.KernelIdeal.Region3Value

open Cert.KernelIdeal Cert.KernelIdeal.Gen Cert.KernelIdeal.Region3
open Idealize.ShloMosaic Idealize.ShloMosaic.TcCoe Idealize.ShloMosaic.ValueIdx
open Idealize.SL.Sem
open Idealize.ShloMosaic.Tactic
open Idealize.ShloMosaic.Pipeline (Dat)
open Cert.Spec (gaussW)

/-! ## One row, abstractly -/

/-- The weight of mixture component k at a row whose pseudo-coordinates are p, for centres mu and widths sg. -/
def wgt (p : Fin 2 → EReal) (mu sg : Fin 3 → Fin 2 → EReal) (k : Fin 3) : EReal :=
  gaussW (p 0) (p 1) (mu k 0) (mu k 1) (sg k 0) (sg k 1)

/-- One output entry of a row: the 384 stacked lanes (feature j % 128 times the weight of component j / 128)
    contracted against the 384 entries gcol of the projection's column. -/
def rowOut (x : Fin 128 → EReal) (p : Fin 2 → EReal) (mu sg : Fin 3 → Fin 2 → EReal) (gcol : Fin 384 → EReal) : EReal :=
  ∑ j : Fin (3 * 128), (x ⟨j.val % 128, Nat.mod_lt _ (by decide)⟩ * wgt p mu sg ⟨j.val / 128, by have := j.isLt; omega⟩) * gcol j

/-! ## Layout operations of the body at an index -/

/-- A row vector [1,2] broadcast down 3840 rows reads its lane. -/
theorem rowBcast_apply (v : FVec Ideal S1x2 .f32) (r : Fin 3840) (d : Fin 2) :
    broadcastTo S3840x2 v broadcasts_S1x2_S3840x2 (ix2 r d) = v (ix2 0 d) := by
  refine broadcastTo_apply v _ (ix2 r d) (ix2 0 d) fun a => ?_
  match a with
  | ⟨0, _⟩ => rfl
  | ⟨1, _⟩ => rfl

/-- A column [3840,1] broadcast over the 128 feature lanes reads its row. -/
theorem colBcast_apply (v : FVec Ideal S3840x1 .f32) (r : Fin 3840) (d : Fin 128) :
    broadcastTo S3840x128 v broadcasts_S3840x1_S3840x128 (ix2 r d) = v (ix2 r 0) := by
  refine broadcastTo_apply v _ (ix2 r d) (ix2 r 0) fun a => ?_
  match a with
  | ⟨0, _⟩ => rfl
  | ⟨1, _⟩ => rfl

/-- Row k of a [3,2] table, sliced out, flattened and restored to [1,2], reads the table at (k, lane). -/
theorem sliceRow_apply (m : Vec Ideal S3x2 .f32) (k : Nat) (hk : k < 3) (h : S3x2.Slices ![k, 0] S1x2) (d : Fin 2) :
    shapeCast S1x2 (shapeCast S2 (extractStridedSlice S1x2 ![k, 0] m h) shapeCasts_S1x2_S2) shapeCasts_S2_S1x2 (ix2 0 d)
      = m (ix2 ⟨k, hk⟩ d) := by
  rw [shapeCast_shapeCast]
  refine extractStridedSlice_apply _ m h (ix2 0 d) (ix2 ⟨k, hk⟩ d) fun a => ?_
  match a with
  | ⟨0, _⟩ => rfl
  | ⟨1, _⟩ => show d.val = 0 + d.val; omega

/-- The sum over the two lanes of a [3840,2] vector, kept as a column, reads the two lanes of the row added. -/
theorem laneSum_apply (v : FVec Ideal S3840x2 .f32) (hφ : FKind.Formats .f32) (hacc : (0x00000000#32 : BitVec 32) = FKind.add.neutral .f32 hφ)
    (r : Fin 3840) :
    shapeCast S3840x1 (multiReduction .add [1] S3840 v 0x00000000#32 reduces_S3840x2_S3840 hφ hacc) shapeCasts_S3840_S3840x1 (ix2 r 0)
      = v (ix2 r 0) + v (ix2 r 1) := by
  refine (shapeCast_apply _ shapeCasts_S3840_S3840x1 (ix2 r 0) (ix1 r) ?_).trans ?_
  · rw [Shape.rowMajor_val_one, Shape.rowMajor_val_two]
    show r.val = r.val * 1 + 0
    omega
  · refine (Ideal.multiReduction_add_single v _ reduces_S3840x2_S3840 hφ hacc (ix1 r)).trans ?_
    refine (Fin.sum_univ_two (fun k : Fin 2 => v (reduces_S3840x2_S3840.lift (ix1 r) k))).trans ?_
    have e0 : reduces_S3840x2_S3840.lift (ix1 r) (0 : Fin 2) = ix2 r 0 :=
      funext fun a => Fin.ext (by match a with | ⟨0, _⟩ => rfl | ⟨1, _⟩ => rfl)
    have e1 : reduces_S3840x2_S3840.lift (ix1 r) (1 : Fin 2) = ix2 r 1 :=
      funext fun a => Fin.ext (by match a with | ⟨0, _⟩ => rfl | ⟨1, _⟩ => rfl)
    rw [e0, e1]

/-! ## The body's payloads at an index (blocks as variables of their literal types) -/

/-- A weighted copy, whatever its numerators and denominators: the features times the exponential of minus one
    half of the row's two quotients added. -/
theorem pay5_gen (x3 : FVec Ideal S3840x128 .f32) (num den : FVec Ideal S3840x2 .f32) (r : Fin 3840) (ch : Fin 128) :
    k3_pay5 x3 num den (ix2 r ch)
      = x3 (ix2 r ch) * Ideal.exp (Ideal.ofBits .f32 0xBF000000#32 *
          (Ideal.div (num (ix2 r 0)) (den (ix2 r 0)) + Ideal.div (num (ix2 r 1)) (den (ix2 r 1)))) := by
  unfold k3_pay5
  dsimp only
  rw [shapeCast_self]
  show x3 (ix2 r ch) * broadcastTo S3840x128 (exp (mulf (broadcast S3840x1 (Scalar.ofBits .f32 0xBF000000#32)) _)) broadcasts_S3840x1_S3840x128 (ix2 r ch) = _
  rw [colBcast_apply]
  show x3 (ix2 r ch) * Ideal.exp (Ideal.ofBits .f32 0xBF000000#32 * shapeCast S3840x1 _ shapeCasts_S3840_S3840x1 (ix2 r 0)) = _
  exact congrArg (fun z => x3 (ix2 r ch) * Ideal.exp (Ideal.ofBits .f32 0xBF000000#32 * z)) (laneSum_apply (divf num den) _ _ r)

/-- The squared distance to centre k, lane by lane. -/
theorem num_apply (ps : FVec Ideal S3840x2 .f32) (mu : FVec Ideal S3x2 .f32) (k : Nat) (hk : k < 3) (h : S3x2.Slices ![k, 0] S1x2) (r : Fin 3840) (d : Fin 2) :
    @Eq EReal
      (mulf (F := Ideal) (subf ps (broadcastTo S3840x2 (shapeCast S1x2 (shapeCast S2 (extractStridedSlice S1x2 ![k, 0] mu h) shapeCasts_S1x2_S2) shapeCasts_S2_S1x2) broadcasts_S1x2_S3840x2))
         (subf ps (broadcastTo S3840x2 (shapeCast S1x2 (shapeCast S2 (extractStridedSlice S1x2 ![k, 0] mu h) shapeCasts_S1x2_S2) shapeCasts_S2_S1x2) broadcasts_S1x2_S3840x2)) (ix2 r d))
      ((ps (ix2 r d) - mu (ix2 ⟨k, hk⟩ d)) * (ps (ix2 r d) - mu (ix2 ⟨k, hk⟩ d))) := by
  have e : broadcastTo S3840x2 (shapeCast S1x2 (shapeCast S2 (extractStridedSlice S1x2 ![k, 0] mu h) shapeCasts_S1x2_S2) shapeCasts_S2_S1x2) broadcasts_S1x2_S3840x2 (ix2 r d)
      = mu (ix2 ⟨k, hk⟩ d) := (rowBcast_apply _ r d).trans (sliceRow_apply mu k hk h d)
  show (ps (ix2 r d) - _) * (ps (ix2 r d) - _) = _
  rw [e]

/-- The squared width of component k plus the regulariser, lane by lane. -/
theorem den_apply (sg : FVec Ideal S3x2 .f32) (k : Nat) (hk : k < 3) (h : S3x2.Slices ![k, 0] S1x2) (r : Fin 3840) (d : Fin 2) :
    @Eq EReal
      (broadcastTo S3840x2 (addf (F := Ideal) (mulf (shapeCast S1x2 (shapeCast S2 (extractStridedSlice S1x2 ![k, 0] sg h) shapeCasts_S1x2_S2) shapeCasts_S2_S1x2)
          (shapeCast S1x2 (shapeCast S2 (extractStridedSlice S1x2 ![k, 0] sg h) shapeCasts_S1x2_S2) shapeCasts_S2_S1x2))
        (broadcast S1x2 (Scalar.ofBits (F := Ideal) .f32 0x26901D7D#32))) broadcasts_S1x2_S3840x2 (ix2 r d))
      (sg (ix2 ⟨k, hk⟩ d) * sg (ix2 ⟨k, hk⟩ d) + Ideal.ofBits .f32 0x26901D7D#32) := by
  refine (rowBcast_apply _ r d).trans ?_
  have e := sliceRow_apply sg k hk h d
  show shapeCast S1x2 _ shapeCasts_S2_S1x2 (ix2 0 d) * shapeCast S1x2 _ shapeCasts_S2_S1x2 (ix2 0 d) + _ = _
  rw [e]
  rfl

/-! ## The contraction at an index -/

theorem hz : (![0, 0] : Fin 2 → Nat) = fun _ => 0 := funext fun a => by fin_cases a <;> rfl

theorem lhs_pay7_0 (i : S3840x256.Idx) (q : dot_S3840x384_S384x256_S3840x256_1_0_0_1_n_n.contr.Idx) :
    (dot_S3840x384_S384x256_S3840x256_1_0_0_1_n_n.lhsIdx i q 0).val = (i 0).val := by
  unfold DotDims.lhsIdx
  rw [dif_neg (show ¬(0 : Fin S3840x384.rank) ∈ dot_S3840x384_S384x256_S3840x256_1_0_0_1_n_n.lhsBatch by decide), dif_pos (show (0 : Fin S3840x384.rank) ∈ dot_S3840x384_S384x256_S3840x256_1_0_0_1_n_n.lhsNonContracting by decide)]
  rfl
theorem lhs_pay7_1 (i : S3840x256.Idx) (q : dot_S3840x384_S384x256_S3840x256_1_0_0_1_n_n.contr.Idx) :
    (dot_S3840x384_S384x256_S3840x256_1_0_0_1_n_n.lhsIdx i q 1).val = (q ⟨0, by decide⟩).val :=
  dot_S3840x384_S384x256_S3840x256_1_0_0_1_n_n.lhsIdx_val_of_single rfl i q
theorem rhs_pay7_0 (i : S3840x256.Idx) (q : dot_S3840x384_S384x256_S3840x256_1_0_0_1_n_n.contr.Idx) :
    (dot_S3840x384_S384x256_S3840x256_1_0_0_1_n_n.rhsIdx i q 0).val = (q ⟨0, by decide⟩).val :=
  dot_S3840x384_S384x256_S3840x256_1_0_0_1_n_n.rhsIdx_val_of_single rfl i q
theorem rhs_pay7_1 (i : S3840x256.Idx) (q : dot_S3840x384_S384x256_S3840x256_1_0_0_1_n_n.contr.Idx) :
    (dot_S3840x384_S384x256_S3840x256_1_0_0_1_n_n.rhsIdx i q 1).val = (i 1).val := by
  unfold DotDims.rhsIdx
  rw [dif_neg (show ¬(1 : Fin S384x256.rank) ∈ dot_S3840x384_S384x256_S3840x256_1_0_0_1_n_n.rhsBatch by decide), dif_pos (show (1 : Fin S384x256.rank) ∈ dot_S3840x384_S384x256_S3840x256_1_0_0_1_n_n.rhsNonContracting by decide)]
  rfl

/-- The contraction of a scratch block against the projection, at (row, channel): the sum over the 384 lanes. -/
theorem pay7_apply (s : FVec Ideal S3840x384 .bf16) (g : FVec Ideal S384x256 .bf16) (r : Fin 3840) (o : Fin 256) :
    @Eq EReal (k3_pay7 (F := Ideal) s g (ix2 r o)) (∑ j : Fin 384, s (ix2 r j) * g (ix2 j o)) := by
  unfold k3_pay7
  rw [shapeCast_self]
  simp only [matmul]
  rw [Ideal.matmul_constant_zero_apply, ← Equiv.sum_comp (contrEquiv1 dot_S3840x384_S384x256_S3840x256_1_0_0_1_n_n 384 rfl rfl).symm]
  refine Finset.sum_congr rfl fun k _ => ?_
  have hk := contrEquiv1_symm_val dot_S3840x384_S384x256_S3840x256_1_0_0_1_n_n 384 rfl rfl k
  have el : dot_S3840x384_S384x256_S3840x256_1_0_0_1_n_n.lhsIdx (ix2 r o) ((contrEquiv1 dot_S3840x384_S384x256_S3840x256_1_0_0_1_n_n 384 rfl rfl).symm k) = ix2 r k := funext fun a => Fin.ext (by
    match a with
    | ⟨0, _⟩ => exact lhs_pay7_0 _ _
    | ⟨1, _⟩ => exact (lhs_pay7_1 _ _).trans hk)
  have er : dot_S3840x384_S384x256_S3840x256_1_0_0_1_n_n.rhsIdx (ix2 r o) ((contrEquiv1 dot_S3840x384_S384x256_S3840x256_1_0_0_1_n_n 384 rfl rfl).symm k) = ix2 k o := funext fun a => Fin.ext (by
    match a with
    | ⟨0, _⟩ => exact (rhs_pay7_0 _ _).trans hk
    | ⟨1, _⟩ => exact rhs_pay7_1 _ _)
  rw [el, er]

section Block

variable (xs : Vec Ideal S3840x128 .bf16) (ps : Vec Ideal S3840x2 .f32) (g : Vec Ideal S384x256 .bf16) (mu sg : Vec Ideal S3x2 .f32)

/-- The weight of component k at row r of a block. -/
abbrev bw (r : Fin 3840) (k : Fin 3) : EReal :=
  wgt (fun d => ps (ix2 r d)) (fun k d => mu (ix2 k d)) (fun k d => sg (ix2 k d)) k

theorem pay1_apply (i : S3840x128.Idx) : k3_pay1 xs i = xs i := by
  unfold k3_pay1
  rw [shapeCast_self]
  rfl

theorem pay2_apply (r : Fin 3840) (ch : Fin 128) :
    k3_pay2 ps xs mu sg (ix2 r ch) = xs (ix2 r ch) * bw ps mu sg r 0 := by
  refine (pay5_gen (k3_pay1 xs) _ _ r ch).trans ?_
  rw [num_apply ps mu 0 (by decide) _ r 0, num_apply ps mu 0 (by decide) _ r 1, den_apply sg 0 (by decide) _ r 0, den_apply sg 0 (by decide) _ r 1,
    pay1_apply]
  rfl

theorem pay5_apply (r : Fin 3840) (ch : Fin 128) :
    k3_pay5 (k3_pay1 xs) (k3_pay3 ps mu) (k3_pay4 sg) (ix2 r ch) = xs (ix2 r ch) * bw ps mu sg r 1 := by
  refine (pay5_gen (k3_pay1 xs) _ _ r ch).trans ?_
  unfold k3_pay3 k3_pay4
  rw [num_apply ps mu 1 (by decide) _ r 0, num_apply ps mu 1 (by decide) _ r 1, den_apply sg 1 (by decide) _ r 0, den_apply sg 1 (by decide) _ r 1,
    pay1_apply]
  rfl

theorem pay6_apply (r : Fin 3840) (ch : Fin 128) :
    k3_pay6 ps (k3_pay1 xs) mu sg (ix2 r ch) = xs (ix2 r ch) * bw ps mu sg r 2 := by
  refine (pay5_gen (k3_pay1 xs) _ _ r ch).trans ?_
  rw [num_apply ps mu 2 (by decide) _ r 0, num_apply ps mu 2 (by decide) _ r 1, den_apply sg 2 (by decide) _ r 0, den_apply sg 2 (by decide) _ r 1,
    pay1_apply]
  rfl

/-- Lane l of row r of the scratch, as the row's feature l % 128 times the weight of component l / 128. -/
def scrAt (r : Fin 3840) (l : Fin 384) : EReal :=
  xs (ix2 r ⟨l.val % 128, Nat.mod_lt _ (by decide)⟩) * bw ps mu sg r ⟨l.val / 128, by have := l.isLt; omega⟩

/-- THE SCRATCH as one function of (row, lane): lane l holds feature l % 128 times the weight of component l / 128. -/
theorem scr3_apply (r : Fin 3840) (l : Fin 384) :
    scr3 xs ps mu sg (ix2 r l)
      = xs (ix2 r ⟨l.val % 128, Nat.mod_lt _ (by decide)⟩) * bw ps mu sg r ⟨l.val / 128, by have := l.isLt; omega⟩ := by
  unfold scr3
  simp only [View.ld_unit_zero (S := S3840x128) hz, View.ld_unit_zero (S := S3840x2) hz, View.ld_unit_zero (S := S3x2) hz]
  refine View.canon_apply_of_pieces (Val := Elt Ideal) (S := S3840x384) (e := .bf16) (fun y : S3840x384.Idx => scrAt xs ps mu sg ⟨(y 0).val, (y 0).isLt⟩ ⟨(y 1).val, (y 1).isLt⟩) _ ?_ (ix2 r l)
    (cover_scr _ _ _ (ix2 r l))
  refine List.forall_mem_cons.mpr ⟨?_, List.forall_mem_cons.mpr ⟨?_, List.forall_mem_cons.mpr ⟨?_, fun _ h => absurd h List.not_mem_nil⟩⟩⟩
  · intro x
    obtain ⟨r', ch, rfl⟩ : ∃ (r' : Fin 3840) (ch : Fin 128), x = ix2 r' ch :=
      ⟨⟨(x 0).val, (x 0).isLt⟩, ⟨(x 1).val, (x 1).isLt⟩, funext fun a => by match a with | ⟨0, _⟩ => rfl | ⟨1, _⟩ => rfl⟩
    refine (pay6_apply xs ps mu sg r' ch).trans ?_
    have e0 : (⟨((rs256.emb (ix2 r' ch)) 0).val, ((rs256.emb (ix2 r' ch)) 0).isLt⟩ : Fin 3840) = r' := Fin.ext (by show 0 + 1 * r'.val = r'.val; omega)
    have e1 : (⟨((rs256.emb (ix2 r' ch)) 1).val, ((rs256.emb (ix2 r' ch)) 1).isLt⟩ : Fin 384) = ⟨256 + ch.val, by have := ch.isLt; omega⟩ := Fin.ext (by show 256 + 1 * ch.val = 256 + ch.val; omega)
    show _ = scrAt xs ps mu sg _ _
    rw [e0, e1]
    unfold scrAt
    have hc := ch.isLt
    have h1 : (⟨(256 + ch.val) % 128, Nat.mod_lt _ (by decide)⟩ : Fin 128) = ch := Fin.ext (by show (256 + ch.val) % 128 = ch.val; omega)
    have h2 : (⟨(256 + ch.val) / 128, by omega⟩ : Fin 3) = 2 := Fin.ext (by show (256 + ch.val) / 128 = 2; omega)
    rw [h1, h2]
  · intro x
    obtain ⟨r', ch, rfl⟩ : ∃ (r' : Fin 3840) (ch : Fin 128), x = ix2 r' ch :=
      ⟨⟨(x 0).val, (x 0).isLt⟩, ⟨(x 1).val, (x 1).isLt⟩, funext fun a => by match a with | ⟨0, _⟩ => rfl | ⟨1, _⟩ => rfl⟩
    refine (pay5_apply xs ps mu sg r' ch).trans ?_
    have e0 : (⟨((rs128.emb (ix2 r' ch)) 0).val, ((rs128.emb (ix2 r' ch)) 0).isLt⟩ : Fin 3840) = r' := Fin.ext (by show 0 + 1 * r'.val = r'.val; omega)
    have e1 : (⟨((rs128.emb (ix2 r' ch)) 1).val, ((rs128.emb (ix2 r' ch)) 1).isLt⟩ : Fin 384) = ⟨128 + ch.val, by have := ch.isLt; omega⟩ := Fin.ext (by show 128 + 1 * ch.val = 128 + ch.val; omega)
    show _ = scrAt xs ps mu sg _ _
    rw [e0, e1]
    unfold scrAt
    have hc := ch.isLt
    have h1 : (⟨(128 + ch.val) % 128, Nat.mod_lt _ (by decide)⟩ : Fin 128) = ch := Fin.ext (by show (128 + ch.val) % 128 = ch.val; omega)
    have h2 : (⟨(128 + ch.val) / 128, by omega⟩ : Fin 3) = 1 := Fin.ext (by show (128 + ch.val) / 128 = 1; omega)
    rw [h1, h2]
  · intro x
    obtain ⟨r', ch, rfl⟩ : ∃ (r' : Fin 3840) (ch : Fin 128), x = ix2 r' ch :=
      ⟨⟨(x 0).val, (x 0).isLt⟩, ⟨(x 1).val, (x 1).isLt⟩, funext fun a => by match a with | ⟨0, _⟩ => rfl | ⟨1, _⟩ => rfl⟩
    refine (pay2_apply xs ps mu sg r' ch).trans ?_
    have e0 : (⟨((rs0.emb (ix2 r' ch)) 0).val, ((rs0.emb (ix2 r' ch)) 0).isLt⟩ : Fin 3840) = r' := Fin.ext (by show 0 + 1 * r'.val = r'.val; omega)
    have e1 : (⟨((rs0.emb (ix2 r' ch)) 1).val, ((rs0.emb (ix2 r' ch)) 1).isLt⟩ : Fin 384) = ⟨0 + ch.val, by have := ch.isLt; omega⟩ := Fin.ext (by show 0 + 1 * ch.val = 0 + ch.val; omega)
    show _ = scrAt xs ps mu sg _ _
    rw [e0, e1]
    unfold scrAt
    have hc := ch.isLt
    have h1 : (⟨(0 + ch.val) % 128, Nat.mod_lt _ (by decide)⟩ : Fin 128) = ch := Fin.ext (by show (0 + ch.val) % 128 = ch.val; omega)
    have h2 : (⟨(0 + ch.val) / 128, by omega⟩ : Fin 3) = 0 := Fin.ext (by show (0 + ch.val) / 128 = 0; omega)
    rw [h1, h2]

/-- THE OUTPUT BLOCK at (row, channel). -/
theorem out3_apply (r : Fin 3840) (o : Fin 256) :
    out3 xs ps g mu sg (ix2 r o)
      = rowOut (fun ch => xs (ix2 r ch)) (fun d => ps (ix2 r d)) (fun k d => mu (ix2 k d)) (fun k d => sg (ix2 k d))
          (fun j => g (ix2 j o)) := by
  unfold out3
  rw [View.canon_unit_zero hz, View.ld_unit_zero (S := S3840x384) hz, View.ld_unit_zero (S := S384x256) hz]
  refine (pay7_apply (scr3 xs ps mu sg) g r o).trans ?_
  unfold rowOut
  refine Finset.sum_congr rfl fun j _ => ?_
  rw [scr3_apply]

end Block

/-! ## From the blocks to the array -/

/-- rowOut depends on its five arguments through their values only. -/
theorem rowOut_congr {x x' : Fin 128 → EReal} {p p' : Fin 2 → EReal} {mu mu' sg sg' : Fin 3 → Fin 2 → EReal} {gc gc' : Fin 384 → EReal}
    (hx : ∀ ch, x ch = x' ch) (hp : ∀ d, p d = p' d) (hmu : ∀ k d, mu k d = mu' k d) (hsg : ∀ k d, sg k d = sg' k d)
    (hg : ∀ j, gc j = gc' j) : rowOut x p mu sg gc = rowOut x' p' mu' sg' gc' := by
  obtain rfl : x = x' := funext hx
  obtain rfl : p = p' := funext hp
  obtain rfl : mu = mu' := funext fun k => funext (hmu k)
  obtain rfl : sg = sg' := funext fun k => funext (hsg k)
  obtain rfl : gc = gc' := funext hg
  rfl

/-- The printed index maps, decided over the grid: the two edge windows and the output move one block of rows
    per point; the three tables stay at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem N_eq : cfg3.N = 4 := N_3

section AtV

variable (V : (c : Dev nD) → (b : Ref sig .tc) → Buf (Elt Ideal) ((c : Thread nD τ).loc b))

/-- The five arrays the region reads, as it finds them, at their literal types. -/
abbrev xsA (c : Dev nD) : Vec Ideal S15360x128 .bf16 := V c (Pipeline.arrRef spec3 0)
abbrev psA (c : Dev nD) : Vec Ideal S15360x2 .f32 := V c (Pipeline.arrRef spec3 1)
abbrev gA (c : Dev nD) : Vec Ideal S384x256 .bf16 := V c (Pipeline.arrRef spec3 2)
abbrev muA (c : Dev nD) : Vec Ideal S3x2 .f32 := V c (Pipeline.arrRef spec3 3)
abbrev sgA (c : Dev nD) : Vec Ideal S3x2 .f32 := V c (Pipeline.arrRef spec3 4)

/-- The edge-feature block at point t is rows 3840 t onwards of its array. -/
theorem iblk3_0_apply (c : Dev nD) (t : Fin cfg3.N) (r : Fin 3840) (ch : Fin 128) (e : Fin 15360) (he : e.val = 3840 * t.val + r.val) :
    (iblk3 V c 0 t : Vec Ideal S3840x128 .bf16) (ix2 r ch) = xsA V c (ix2 e ch) := by
  obtain ⟨h0, h1, -⟩ := idx_facts t
  unfold iblk3
  rw [View.read_apply]
  show V c (Pipeline.arrRef spec3 0) _ = V c (Pipeline.arrRef spec3 0) _
  congr 1
  funext a
  apply Fin.ext
  match a with
  | ⟨0, _⟩ => show win3_0.index t 0 * 3840 + 1 * r.val = e.val; rw [h0, he]; omega
  | ⟨1, _⟩ => show win3_0.index t 1 * 128 + 1 * ch.val = ch.val; rw [h1]; omega

/-- The pseudo-coordinate block at point t is rows 3840 t onwards of its array. -/
theorem iblk3_1_apply (c : Dev nD) (t : Fin cfg3.N) (r : Fin 3840) (d : Fin 2) (e : Fin 15360) (he : e.val = 3840 * t.val + r.val) :
    (iblk3 V c 1 t : Vec Ideal S3840x2 .f32) (ix2 r d) = psA V c (ix2 e d) := by
  obtain ⟨-, -, h0, h1, -⟩ := idx_facts t
  unfold iblk3
  rw [View.read_apply]
  show V c (Pipeline.arrRef spec3 1) _ = V c (Pipeline.arrRef spec3 1) _
  congr 1
  funext a
  apply Fin.ext
  match a with
  | ⟨0, _⟩ => show win3_1.index t 0 * 3840 + 1 * r.val = e.val; rw [h0, he]; omega
  | ⟨1, _⟩ => show win3_1.index t 1 * 2 + 1 * d.val = d.val; rw [h1]; omega

/-- The projection's block at every point is the whole table. -/
theorem iblk3_2_apply (c : Dev nD) (t : Fin cfg3.N) (j : Fin 384) (o : Fin 256) :
    (iblk3 V c 2 t : Vec Ideal S384x256 .bf16) (ix2 j o) = gA V c (ix2 j o) := by
  obtain ⟨-, -, -, -, h0, h1, -⟩ := idx_facts t
  unfold iblk3
  rw [View.read_apply]
  show V c (Pipeline.arrRef spec3 2) _ = V c (Pipeline.arrRef spec3 2) _
  congr 1
  funext a
  apply Fin.ext
  match a with
  | ⟨0, _⟩ => show win3_2.index t 0 * 384 + 1 * j.val = j.val; rw [h0]; omega
  | ⟨1, _⟩ => show win3_2.index t 1 * 256 + 1 * o.val = o.val; rw [h1]; omega

/-- The centres' block at every point is the whole table. -/
theorem iblk3_3_apply (c : Dev nD) (t : Fin cfg3.N) (k : Fin 3) (d : Fin 2) :
    (iblk3 V c 3 t : Vec Ideal S3x2 .f32) (ix2 k d) = muA V c (ix2 k d) := by
  obtain ⟨-, -, -, -, -, -, h0, h1, -⟩ := idx_facts t
  unfold iblk3
  rw [View.read_apply]
  show V c (Pipeline.arrRef spec3 3) _ = V c (Pipeline.arrRef spec3 3) _
  congr 1
  funext a
  apply Fin.ext
  match a with
  | ⟨0, _⟩ => show win3_3.index t 0 * 3 + 1 * k.val = k.val; rw [h0]; omega
  | ⟨1, _⟩ => show win3_3.index t 1 * 2 + 1 * d.val = d.val; rw [h1]; omega

/-- The widths' block at every point is the whole table. -/
theorem iblk3_4_apply (c : Dev nD) (t : Fin cfg3.N) (k : Fin 3) (d : Fin 2) :
    (iblk3 V c 4 t : Vec Ideal S3x2 .f32) (ix2 k d) = sgA V c (ix2 k d) := by
  obtain ⟨-, -, -, -, -, -, -, -, h0, h1, -⟩ := idx_facts t
  unfold iblk3
  rw [View.read_apply]
  show V c (Pipeline.arrRef spec3 4) _ = V c (Pipeline.arrRef spec3 4) _
  congr 1
  funext a
  apply Fin.ext
  match a with
  | ⟨0, _⟩ => show win3_4.index t 0 * 3 + 1 * k.val = k.val; rw [h0]; omega
  | ⟨1, _⟩ => show win3_4.index t 1 * 2 + 1 * d.val = d.val; rw [h1]; omega

/-- What the output array ends holding, as one function of the five arrays. -/
def G3 (c : Dev nD) : Buf (Elt Ideal) ((c : Thread nD τ).loc main_v131) := fun i =>
  rowOut (fun ch => xsA V c (ix2 ⟨(i 0).val, (i 0).isLt⟩ ch)) (fun d => psA V c (ix2 ⟨(i 0).val, (i 0).isLt⟩ d))
    (fun k d => muA V c (ix2 k d)) (fun k d => sgA V c (ix2 k d)) (fun j => gA V c (ix2 j ⟨(i 1).val, (i 1).isLt⟩))

/-- WHAT POINT t WRITES BACK is block t of G3. -/
theorem flushed_eq (c : Dev nD) (t : Fin cfg3.N) :
    (dat3 V c).flushed 5 t = ((cfg3.win 5).blk t).view.read (Elt Ideal) (G3 V c) := by
  obtain ⟨-, -, -, -, -, -, -, -, -, -, h50, h51⟩ := idx_facts t
  funext y
  have hy : (cfg3.win 5).xinj (cfg3.grid.coords t) y = ix2 ⟨(y 0).val, (y 0).isLt⟩ ⟨(y 1).val, (y 1).isLt⟩ :=
    funext fun a => by match a with | ⟨0, _⟩ => rfl | ⟨1, _⟩ => rfl
  show (dat3 V c).after 5 t ((cfg3.win 5).xinj (cfg3.grid.coords t) y) = G3 V c (((cfg3.win 5).blk t).view.emb y)
  rw [after3_5, hy]
  unfold oblk3
  refine (out3_apply (iblk3 V c 0 t) (iblk3 V c 1 t) (iblk3 V c 2 t) (iblk3 V c 3 t) (iblk3 V c 4 t) ⟨(y 0).val, (y 0).isLt⟩ ⟨(y 1).val, (y 1).isLt⟩).trans ?_
  unfold G3
  have he : ((((cfg3.win 5).blk t).view.emb y) 0).val = 3840 * t.val + (y 0).val := by
    show win3_5.index t 0 * 3840 + 1 * (y 0).val = _
    rw [h50]; omega
  have ho : ((((cfg3.win 5).blk t).view.emb y) 1).val = (y 1).val := by
    show win3_5.index t 1 * 256 + 1 * (y 1).val = _
    rw [h51]; omega
  refine rowOut_congr (fun ch => ?_) (fun d => ?_) (fun k d => ?_) (fun k d => ?_) (fun j => ?_)
  · exact iblk3_0_apply V c t _ ch _ he
  · exact iblk3_1_apply V c t _ d _ he
  · exact iblk3_3_apply V c t k d
  · exact iblk3_4_apply V c t k d
  · refine (iblk3_2_apply V c t j _).trans (congrArg (fun o => gA V c (ix2 j o)) (Fin.ext ho.symm))

/-- Every row of the output array lies in some point's block: row e in block e / 3840. -/
theorem cover (c : Dev nD) (i : S15360x256.Idx) :
    ∃ t : Fin cfg3.N, (cfg3.win 5).flush t = true ∧ i ∈ ((cfg3.win 5).blk t).view.set := by
  have hi0 : (i 0).val < 15360 := (i 0).isLt
  have hi1 : (i 1).val < 256 := (i 1).isLt
  have hN : cfg3.N = 4 := N_eq
  have ht : (i 0).val / 3840 < cfg3.N := by rw [hN]; omega
  obtain ⟨-, -, -, -, -, -, -, -, -, -, h50, h51⟩ := idx_facts ⟨(i 0).val / 3840, ht⟩
  refine ⟨⟨(i 0).val / 3840, ht⟩, flush3_5 _, ?_⟩
  show i ∈ ((View.whole main_v131).slice (win3_5.rect ⟨(i 0).val / 3840, ht⟩)).set
  rw [View.set_slice_whole, Rect.mem_set_unit]
  intro a
  match a with
  | ⟨0, _⟩ =>
    show win3_5.index ⟨(i 0).val / 3840, ht⟩ 0 * 3840 ≤ (i 0).val ∧ (i 0).val < win3_5.index ⟨(i 0).val / 3840, ht⟩ 0 * 3840 + 3840
    rw [h50]; show (i 0).val / 3840 * 3840 ≤ (i 0).val ∧ (i 0).val < (i 0).val / 3840 * 3840 + 3840; omega
  | ⟨1, _⟩ =>
    show win3_5.index ⟨(i 0).val / 3840, ht⟩ 1 * 256 ≤ (i 1).val ∧ (i 1).val < win3_5.index ⟨(i 0).val / 3840, ht⟩ 1 * 256 + 256
    rw [h51]; omega

/-- THE OUTPUT ARRAY after the region. -/
theorem outArr3_eq (c : Dev nD) : outArr3 (F := Ideal) V c = G3 V c :=
  (dat3 V c).arrAt_eq_of_cover 5 (G3 V c) (fun t _ => flushed_eq V c t) (fun i => cover c i)

/-- THE OUTPUT ARRAY at (edge, channel): the stacked contraction of the edge's weighted features. -/
theorem outArr3_apply (c : Dev nD) (e : Fin 15360) (o : Fin 256) :
    @Eq EReal (outArr3 (F := Ideal) V c (ix2 e o))
      (∑ j : Fin (3 * 128),
          (xsA V c (ix2 e ⟨j.val % 128, Nat.mod_lt _ (by decide)⟩)
            * gaussW (psA V c (ix2 e 0)) (psA V c (ix2 e 1))
                (muA V c (ix2 ⟨j.val / 128, by have := j.isLt; omega⟩ 0)) (muA V c (ix2 ⟨j.val / 128, by have := j.isLt; omega⟩ 1))
                (sgA V c (ix2 ⟨j.val / 128, by have := j.isLt; omega⟩ 0)) (sgA V c (ix2 ⟨j.val / 128, by have := j.isLt; omega⟩ 1)))
          * gA V c (ix2 ⟨128 * (j.val / 128) + j.val % 128, by have := j.isLt; omega⟩ o)) := by
  refine (congrFun (outArr3_eq V c) (ix2 e o)).trans ?_
  show rowOut _ _ _ _ _ = _
  unfold rowOut wgt
  refine Finset.sum_congr rfl fun j _ => ?_
  have hj : (⟨128 * (j.val / 128) + j.val % 128, by have := j.isLt; omega⟩ : Fin 384) = j := Fin.ext (by show 128 * (j.val / 128) + j.val % 128 = j.val; omega)
  rw [hj]
  rfl

end AtV

end Cert.KernelIdeal.Region3Value

end
-- ==== Proof.RefHead4.lean ====
/-
  The reference's per-edge messages of the fourth mixture layer, read at one edge and one output channel.

  For edge `e` the reference gathers the feature row of the edge's source node, `x[src e]` (128 channels; `x` is the pooled output of the
  layer before), projects it through the layer's matrix `g : [128, 768]`, reads the 768 columns as three blocks of 256
  (mixture component `k`, output channel `o`: column `256 k + o`), multiplies block `k` by the component's Gaussian weight of the edge and
  sums over the three components:

      msg e o = 0 + ∑ k, (∑ ch, x[src e] ch * g ch (256 k + o)) * w k e .

  The weight is the exponential of minus one half of the sum, over the two pseudo-coordinates of the edge, of the
  squared distance to the component's centre divided by the squared width plus a small constant. The source index
  is wrapped (a negative index has the row count added) and the gather clamps it into range; where the index word
  is a non-negative integer below the row count, both leave it as it is.
-/
import proofs.«402598_j31782757990676_2_alg».proof.Proof.RefRun
import proofs.«402598_j31782757990676_2_alg».proof.Proof.Spec
import proofs.«402598_j31782757990676_2_alg».proof.Proof.RefHead1
import Idealize.ShloMosaic.Lib.ValueIdx
import Idealize.ShloMosaic.Lib.IdealHost
import Idealize.ShloMosaic.Lib.Pipeline.Value
import Idealize.ShloMosaic.PureOps.Ideal.Laws

set_option maxRecDepth 8192

noncomputable section

open scoped BigOperators

namespace Cert.RefHead4

open Cert.ReferenceIdeal Idealize.ShloMosaic Idealize.ShloMosaic.ValueIdx Idealize.ShloMosaic.TcCoe Idealize.SL.Sem
open Idealize.ShloMosaic.StableHlo
open Cert.RefHead1 (hostExp_apply rowGather rowGather_apply plainDot_apply)

variable [Facts]
open Facts₀ Facts

section Terms
variable {F : FTy → Type} [FloatOps F]

/-! ## The operations' terms, as functions of the arguments they read -/

/-- The source index of every edge: row 0 of the edge array (`%186`, `%187`). -/
abbrev srcOf (ei : IVec S2x15360 32) : IVec S15360 32 :=
  shapeCast S15360 (extractStridedSlice S1x15360 ![0, 0] ei slices_S2x15360_S1x15360_0_0) shapeCasts_S1x15360_S15360

/-- The pseudo-coordinates less the mixture centres, over edge, component and coordinate (`%190` … `%194`). -/
def diffOf (ps : FVec F S15360x2 .f32) (mu : FVec F S3x2 .f32) : FVec F S15360x3x2 .f32 :=
  subf (broadcastInDim S15360x3x2 ![0, 1, 2] bcast_S15360x1x2_S15360x3x2_0_1_2
      (broadcastInDim S15360x1x2 ![0, 2] bcast_S15360x2_S15360x1x2_0_2 ps))
    (broadcastInDim S15360x3x2 ![0, 1, 2] bcast_S1x3x2_S15360x3x2_0_1_2
      (broadcastInDim S1x3x2 ![1, 2] bcast_S3x2_S1x3x2_1_2 mu))

/-- The squared widths plus the small constant, over component and coordinate (`%196` … `%199`). -/
def denOf (sg : FVec F S3x2 .f32) : FVec F S1x3x2 .f32 :=
  addf (mulf (broadcastInDim S1x3x2 ![1, 2] bcast_S3x2_S1x3x2_1_2 sg) (broadcastInDim S1x3x2 ![1, 2] bcast_S3x2_S1x3x2_1_2 sg))
    (broadcastInDim S1x3x2 ![] bcast_S_S1x3x2 (constant S_ .f32 0x26901D7D#32))

/-- The mixture weights of every edge (`%195`, `%200` … `%205`). -/
def wOf (ps : FVec F S15360x2 .f32) (mu sg : FVec F S3x2 .f32) : FVec F S15360x3 .f32 :=
  Host.exp (mulf (broadcastInDim S15360x3 ![] bcast_S_S15360x3 (constant S_ .f32 0xBF000000#32))
    (Host.reduceAdd
      (Host.divf (mulf (diffOf ps mu) (diffOf ps mu))
        (broadcastInDim S15360x3x2 ![0, 1, 2] bcast_S1x3x2_S15360x3x2_0_1_2 (denOf sg)))
      (constant S_ .f32 0x00000000#32) reducesTo_S15360x3x2_S15360x3_d2 h_S_))

/-- The gathered source rows (`%206` … `%212`): the index wrapped, then the clamping gather. -/
def xsOf (x : FVec F S2568x128 .f32) (ei : IVec S2x15360 32) : FVec F S15360x128 .f32 :=
  Host.gather gather_S2568x128_S15360x1_S15360x128_1_0_n_n_0_1_1128 x
    (broadcastInDim S15360x1 ![0] bcast_S15360_S15360x1_0
      (select (cmpi .slt (srcOf ei) (broadcastInDim S15360 ![] bcast_S_S15360 (constantI S_ 32 0#32)))
        (addi (srcOf ei) (broadcastInDim S15360 ![] bcast_S_S15360 (constantI S_ 32 2568#32)))
        (srcOf ei)))

/-- The messages (`%213` … `%218`): project, read as three blocks, weight each block, sum the blocks. -/
def msgOf (x : FVec F S2568x128 .f32) (ei : IVec S2x15360 32) (ps : FVec F S15360x2 .f32)
    (g : FVec F S128x768 .f32) (mu sg : FVec F S3x2 .f32) : FVec F S15360x256 .f32 :=
  Host.reduceAdd
    (mulf
      (shapeCast S15360x3x256 (Host.dotGeneral dot_S15360x128_S128x768_S15360x768_1_0_0_1_n_n none (xsOf x ei) g)
        shapeCasts_S15360x768_S15360x3x256)
      (broadcastInDim S15360x3x256 ![0, 1, 2] bcast_S15360x3x1_S15360x3x256_0_1_2
        (broadcastInDim S15360x3x1 ![0, 1] bcast_S15360x3_S15360x3x1_0_1 (wOf ps mu sg))))
    (constant S_ .f32 0x00000000#32) reducesTo_S15360x3x256_S15360x256_d1 h_S_

set_option maxHeartbeats 4000000 in
/-- The reference's lines up to the one that makes the layer's input (the pooled output of the layer before), run
    from contents `W`. -/
abbrev foldX (W : Valuation τ sig (Elt F)) : Valuation τ sig (Elt F) := StableHlo.after RefRun.ops3b W
/-- The lines that hold this layer, run from contents `W`. -/
abbrev foldOf (W : Valuation τ sig (Elt F)) : Valuation τ sig (Elt F) := StableHlo.after RefRun.ops4a (foldX W)

/-- THE FOLD AT `%218`, from ANY contents `W`: the messages of the layer's input as the lines leave it (the pooled
    output of the layer before, made earlier in these lines and final from there on) and of `W`'s five argument
    arrays (each operation's result at its own buffer, every later operation leaving that buffer alone: by
    computation). -/
theorem after_main_v218 (W : Valuation τ sig (Elt F)) :
    foldOf W (Proc.devRef .tc main_v218)
      = msgOf (foldX W (Proc.devRef .tc main_v185)) (W (Proc.devRef .tc main_arg4)) (W (Proc.devRef .tc main_arg8))
          (W (Proc.devRef .tc main_arg29)) (W (Proc.devRef .tc main_arg30)) (W (Proc.devRef .tc main_arg31)) := by
  chain_rfl

end Terms

/-! ## The run's contents at `%218` -/

section Run
variable {F : FTy → Type} [FloatOps F] (m : (ℓ : Loc nD τ sig) → Buf (Elt F) ℓ)

/-- The contents the layer's lines are run from, the contents where the layer's input is made, and the contents the
    lines leave. -/
abbrev Vin (c : Dev nD) : Valuation τ sig (Elt F) := RefRun.V5 m c
abbrev Vx (c : Dev nD) : Valuation τ sig (Elt F) := RefRun.V6 m c
abbrev Vout (c : Dev nD) : Valuation τ sig (Elt F) := RefRun.V7 m c

/-- The layer's input on core `c`: the pooled output of the layer before, where it is made. -/
abbrev xIn (c : Dev nD) : FVec F S2568x128 .f32 := Vx m c main_v185

/-- The layer's input is the same buffer contents when the layer's lines end as where it is made. -/
theorem xIn_eq (c : Dev nD) : Vout m c main_v185 = Vx m c main_v185 := RefRun.V7_of m c main_v185 (by decide)
theorem xIn_eq' (c : Dev nD) : Vx m c main_v185 = Vout m c main_v185 := (xIn_eq m c).symm
/-- The launch arguments the layer reads on core `c`, at their vector types: the edge array, the pseudo-coordinates,
    the layer's matrix, the mixture centres and widths. -/
abbrev aEi (c : Dev nD) : IVec S2x15360 32 := m (c, main_arg4)
abbrev aPs (c : Dev nD) : FVec F S15360x2 .f32 := m (c, main_arg8)
abbrev aG (c : Dev nD) : FVec F S128x768 .f32 := m (c, main_arg29)
abbrev aMu (c : Dev nD) : FVec F S3x2 .f32 := m (c, main_arg30)
abbrev aSg (c : Dev nD) : FVec F S3x2 .f32 := m (c, main_arg31)

/-- No earlier line writes an argument array: the layer's lines find each at its launch contents. -/
theorem Vin_arg (c : Dev nD) (r : Ref sig .tc) (h0 : r ∉ RefRun.ops0_W) (h1 : r ∉ RefRun.ops1_W) (h2 : r ∉ RefRun.ops2a_W) (h3 : r ∉ RefRun.ops2b_W) (h4 : r ∉ RefRun.ops3a_W) : Vin m c r = m (c, r) :=
  (RefRun.V5_of m c r h4).trans ((RefRun.V4_of m c r h3).trans ((RefRun.V3_of m c r h2).trans ((RefRun.V2_of m c r h1).trans ((RefRun.V1_of m c r h0)))))

/-- After its lines the buffer of `%218` holds the messages of the layer's input and the launch arguments. -/
theorem Vout_main_v218 (c : Dev nD) :
    (Vout m c main_v218 : FVec F S15360x256 .f32)
      = msgOf (xIn m c) (aEi m c) (aPs m c) (aG m c) (aMu m c) (aSg m c) := by
  have h := after_main_v218 (Vin m c)
  rw [Vin_arg m c main_arg4 (by decide) (by decide) (by decide) (by decide) (by decide), Vin_arg m c main_arg8 (by decide) (by decide) (by decide) (by decide) (by decide), Vin_arg m c main_arg29 (by decide) (by decide) (by decide) (by decide) (by decide),
    Vin_arg m c main_arg30 (by decide) (by decide) (by decide) (by decide) (by decide), Vin_arg m c main_arg31 (by decide) (by decide) (by decide) (by decide) (by decide)] at h
  exact h

end Run

/-! ## The weight at an index (from here on at the ideal values) -/

theorem wOf_apply (ps : FVec Ideal S15360x2 .f32) (mu sg : FVec Ideal S3x2 .f32) (e : Fin 15360) (k : Fin 3) :
    wOf ps mu sg (ix2 e k)
      = Cert.Spec.gaussW (ps (ix2 e 0)) (ps (ix2 e 1)) (mu (ix2 k 0)) (mu (ix2 k 1)) (sg (ix2 k 0)) (sg (ix2 k 1)) := by
  have hd : ∀ j : Fin 2, diffOf ps mu (ix3 e k j) = ps (ix2 e j) - mu (ix2 k j) := by
    intro j
    unfold diffOf
    rw [subf_apply,
      broadcastInDim_apply ![0, 1, 2] bcast_S15360x1x2_S15360x3x2_0_1_2 _ (ix3 e k j) (ix3 e 0 j) (by
        intro a; match a with | ⟨0, _⟩ => rfl | ⟨1, _⟩ => rfl | ⟨2, _⟩ => rfl),
      broadcastInDim_apply ![0, 2] bcast_S15360x2_S15360x1x2_0_2 ps (ix3 e 0 j) (ix2 e j) (by
        intro a; match a with | ⟨0, _⟩ => rfl | ⟨1, _⟩ => rfl),
      broadcastInDim_apply ![0, 1, 2] bcast_S1x3x2_S15360x3x2_0_1_2 _ (ix3 e k j) (ix3 0 k j) (by
        intro a; match a with | ⟨0, _⟩ => rfl | ⟨1, _⟩ => rfl | ⟨2, _⟩ => rfl),
      broadcastInDim_apply ![1, 2] bcast_S3x2_S1x3x2_1_2 mu (ix3 0 k j) (ix2 k j) (by
        intro a; match a with | ⟨0, _⟩ => rfl | ⟨1, _⟩ => rfl)]
  have hn : ∀ j : Fin 2, broadcastInDim S15360x3x2 ![0, 1, 2] bcast_S1x3x2_S15360x3x2_0_1_2 (denOf sg) (ix3 e k j)
      = sg (ix2 k j) * sg (ix2 k j) + Ideal.ofBits .f32 0x26901D7D#32 := by
    intro j
    unfold denOf
    rw [broadcastInDim_apply ![0, 1, 2] bcast_S1x3x2_S15360x3x2_0_1_2 _ (ix3 e k j) (ix3 0 k j) (by
        intro a; match a with | ⟨0, _⟩ => rfl | ⟨1, _⟩ => rfl | ⟨2, _⟩ => rfl),
      addf_apply, mulf_apply,
      broadcastInDim_apply ![1, 2] bcast_S3x2_S1x3x2_1_2 sg (ix3 0 k j) (ix2 k j) (by
        intro a; match a with | ⟨0, _⟩ => rfl | ⟨1, _⟩ => rfl),
      broadcastInDim_scalar_apply, constant_apply]
  unfold wOf
  rw [hostExp_apply, mulf_apply, broadcastInDim_scalar_apply, constant_apply, hostReduceAdd_apply,
    Ideal.hostReduceAdd_single reducesTo_S15360x3x2_S15360x3_d2 (by decide), constant_apply, Ideal.ofBits_zero_f32, zero_add]
  erw [Fin.sum_univ_two]
  have hl : ∀ j : Fin 2, (Shape.Reduces.lift (s := S15360x3x2) (t := S15360x3) (a := 2) (by decide) (ix2 e k) j) = ix3 e k j := by
    intro j; funext a; apply Fin.ext
    match a with | ⟨0, _⟩ => rfl | ⟨1, _⟩ => rfl | ⟨2, _⟩ => rfl
  rw [hl 0, hl 1, hostDivf_apply, hostDivf_apply, mulf_apply, mulf_apply, hd 0, hd 1, hn 0, hn 1]
  rfl

/-! ## The gathered row and the message -/

/-- The programs' gather record and contraction record are the two kinds above at the layer's sizes. -/
theorem gather_eq : gather_S2568x128_S15360x1_S15360x128_1_0_n_n_0_1_1128
    = rowGather 2568 15360 128 gather_S2568x128_S15360x1_S15360x128_1_0_n_n_0_1_1128_wf := rfl
theorem dot_eq : dot_S15360x128_S128x768_S15360x768_1_0_0_1_n_n = DotDims.plain 15360 128 768 := rfl

/-- THE GATHERED ROW of edge `e`, where the edge's source index is a non-negative integer below the row count:
    the feature row at that index (the wrap selects the index itself, the clamp leaves it). -/
theorem xsOf_apply (x : FVec Ideal S2568x128 .f32) (ei : IVec S2x15360 32) (e : Fin 15360) (ch : Fin 128)
    (hslt : IntOp.cmpi .slt (srcOf ei (ix1 e)) 0#32 = 0#1)
    (hrange : 0 ≤ (srcOf ei (ix1 e)).toInt ∧ (srcOf ei (ix1 e)).toInt < 2568) :
    xsOf x ei (ix2 e ch) = x (ix2 ⟨(srcOf ei (ix1 e)).toInt.toNat, by omega⟩ ch) := by
  unfold xsOf
  rw [gather_eq, rowGather_apply (by decide)]
  have hidx : broadcastInDim S15360x1 ![0] bcast_S15360_S15360x1_0
      (select (cmpi .slt (srcOf ei) (broadcastInDim S15360 ![] bcast_S_S15360 (constantI S_ 32 0#32)))
        (addi (srcOf ei) (broadcastInDim S15360 ![] bcast_S_S15360 (constantI S_ 32 2568#32)))
        (srcOf ei)) (ix2 e 0) = srcOf ei (ix1 e) := by
    rw [broadcastInDim_apply ![0] bcast_S15360_S15360x1_0 _ (ix2 e 0) (ix1 e) (by
        intro a; match a with | ⟨0, _⟩ => rfl), select_apply]
    show Scalar.select (IntOp.cmpi .slt (srcOf ei (ix1 e))
      (broadcastInDim S15360 ![] bcast_S_S15360 (constantI S_ 32 0#32) (ix1 e))) _ _ = _
    rw [broadcastInDim_scalar_apply]
    show Scalar.select (IntOp.cmpi .slt (srcOf ei (ix1 e)) 0#32) _ _ = _
    rw [hslt, select_zero]
  congr 1
  funext a
  refine Fin.ext ?_
  match a with
  | ⟨0, _⟩ =>
    show min _ (2568 - 1) = _
    rw [hidx]
    show min (srcOf ei (ix1 e)).toInt.toNat (2568 - 1) = (srcOf ei (ix1 e)).toInt.toNat
    omega
  | ⟨1, _⟩ => rfl

/-- THE MESSAGE at edge `e`, output channel `o`, as the operations leave it: the reduction's initial value plus the
    sum over the components of the projected row's block entry times the weight. -/
theorem msgOf_apply (x : FVec Ideal S2568x128 .f32) (ei : IVec S2x15360 32) (ps : FVec Ideal S15360x2 .f32)
    (g : FVec Ideal S128x768 .f32) (mu sg : FVec Ideal S3x2 .f32) (e : Fin 15360) (o : Fin 256)
    (hslt : IntOp.cmpi .slt (srcOf ei (ix1 e)) 0#32 = 0#1)
    (hrange : 0 ≤ (srcOf ei (ix1 e)).toInt ∧ (srcOf ei (ix1 e)).toInt < 2568) :
    msgOf x ei ps g mu sg (ix2 e o)
      = Ideal.ofBits .f32 0x00000000#32 + ∑ k : Fin 3,
          (∑ ch : Fin 128, x (ix2 ⟨(srcOf ei (ix1 e)).toInt.toNat, by omega⟩ ch) * g (ix2 ch ⟨256 * k.val + o.val, by omega⟩))
            * Cert.Spec.gaussW (ps (ix2 e 0)) (ps (ix2 e 1)) (mu (ix2 k 0)) (mu (ix2 k 1)) (sg (ix2 k 0)) (sg (ix2 k 1)) := by
  unfold msgOf
  rw [hostReduceAdd_apply, Ideal.hostReduceAdd_single reducesTo_S15360x3x256_S15360x256_d1 (by decide), constant_apply]
  refine congrArg (_ + ·) (Finset.sum_congr rfl fun (k : Fin 3) _ => ?_)
  have hl : (Shape.Reduces.lift (s := S15360x3x256) (t := S15360x256) (a := 1) (by decide) (ix2 e o) k) = ix3 e k o := by
    funext a; apply Fin.ext
    match a with | ⟨0, _⟩ => rfl | ⟨1, _⟩ => rfl | ⟨2, _⟩ => rfl
  rw [hl, mulf_apply,
    broadcastInDim_apply ![0, 1, 2] bcast_S15360x3x1_S15360x3x256_0_1_2 _ (ix3 e k o) (ix3 e k 0) (by
      intro a; match a with | ⟨0, _⟩ => rfl | ⟨1, _⟩ => rfl | ⟨2, _⟩ => rfl),
    broadcastInDim_apply ![0, 1] bcast_S15360x3_S15360x3x1_0_1 _ (ix3 e k 0) (ix2 e k) (by
      intro a; match a with | ⟨0, _⟩ => rfl | ⟨1, _⟩ => rfl),
    wOf_apply,
    shapeCast_apply _ shapeCasts_S15360x768_S15360x3x256 (ix3 e k o) (ix2 e ⟨256 * k.val + o.val, by omega⟩) (by
      rw [Shape.rowMajor_val_two, Shape.rowMajor_val_three]
      show e.val * 768 + (256 * k.val + o.val) = (e.val * 3 + k.val) * 256 + o.val
      omega),
    dot_eq, plainDot_apply]
  refine congrArg (· * _) (Finset.sum_congr rfl fun ch _ => ?_)
  rw [xsOf_apply x ei e ch hslt hrange]

/-! ## The theorem -/

section Theorem
variable (m : (ℓ : Loc nD τ sig) → Buf (Elt Ideal) ℓ)

/-- The reference's message at `(e, o)` after the layer's lines, over the layer's input and the launch arguments: project, then weight. -/
theorem msg_apply (c : Dev nD) (e : Fin 15360) (o : Fin 256)
    (hslt : IntOp.cmpi .slt (srcOf (aEi m c) (ix1 e)) 0#32 = 0#1)
    (hrange : 0 ≤ (srcOf (aEi m c) (ix1 e)).toInt ∧ (srcOf (aEi m c) (ix1 e)).toInt < 2568) :
    (Vout m c main_v218 : FVec Ideal S15360x256 .f32) (ix2 e o)
      = Ideal.ofBits .f32 0x00000000#32 + ∑ k : Fin 3,
          (∑ ch : Fin 128, xIn m c (ix2 ⟨(srcOf (aEi m c) (ix1 e)).toInt.toNat, by omega⟩ ch)
              * aG m c (ix2 ch ⟨256 * k.val + o.val, by omega⟩))
            * Cert.Spec.gaussW (aPs m c (ix2 e 0)) (aPs m c (ix2 e 1))
                (aMu m c (ix2 k 0)) (aMu m c (ix2 k 1))
                (aSg m c (ix2 k 0)) (aSg m c (ix2 k 1)) := by
  rw [Vout_main_v218]
  exact msgOf_apply _ _ _ _ _ _ e o hslt hrange

/-- The same without the reduction's zero. -/
theorem msg_apply' (c : Dev nD) (e : Fin 15360) (o : Fin 256)
    (hslt : IntOp.cmpi .slt (srcOf (aEi m c) (ix1 e)) 0#32 = 0#1)
    (hrange : 0 ≤ (srcOf (aEi m c) (ix1 e)).toInt ∧ (srcOf (aEi m c) (ix1 e)).toInt < 2568) :
    (Vout m c main_v218 : FVec Ideal S15360x256 .f32) (ix2 e o)
      = ∑ k : Fin 3,
          (∑ ch : Fin 128, xIn m c (ix2 ⟨(srcOf (aEi m c) (ix1 e)).toInt.toNat, by omega⟩ ch)
              * aG m c (ix2 ch ⟨256 * k.val + o.val, by omega⟩))
            * Cert.Spec.gaussW (aPs m c (ix2 e 0)) (aPs m c (ix2 e 1))
                (aMu m c (ix2 k 0)) (aMu m c (ix2 k 1))
                (aSg m c (ix2 k 0)) (aSg m c (ix2 k 1)) := by
  rw [msg_apply m c e o hslt hrange, Ideal.ofBits_zero_f32, zero_add]

end Theorem

end Cert.RefHead4

end
-- ==== Proof.Bridge4.lean ====
/-
  THE JOINING STEP OF THE FOURTH MIXTURE LAYER: the per-edge messages the kernel's fourth region leaves are the
  reference's messages, where the two programs' pooled outputs of the layer before agree.

  At edge `e` and output channel `o` the kernel contracts, over the 384 stacked positions `j = 128 k + ch`, the
  weighted feature `x(src e, ch) * w_k(e)` against row `j` of the restacked projection, which is entry
  `(ch, 256 k + o)` of the layer's matrix; the reference projects first and weights afterwards,
  `∑ k, (∑ ch, x(src e, ch) * g(ch, 256 k + o)) * w_k(e)`. Here `x` is the pooled output of the layer before, the
  same array on both sides by hypothesis, and the weight `w_k(e)` is the same Gaussian weight of the edge's
  pseudo-coordinates against the centre and widths of component `k`. Under the precondition the
  pseudo-coordinates, centres and widths are real numbers, so each weight is a NON-NEGATIVE REAL, and
  multiplication by a non-negative real distributes over any sum of extended reals: the two sums agree.
-/
import proofs.«402598_j31782757990676_2_alg».proof.Defs
import proofs.«402598_j31782757990676_2_alg».proof.Proof.EdgeLaw
import proofs.«402598_j31782757990676_2_alg».proof.Proof.Spec
import proofs.«402598_j31782757990676_2_alg».proof.Proof.WeightReal
import proofs.«402598_j31782757990676_2_alg».proof.Proof.PreFacts
import proofs.«402598_j31782757990676_2_alg».proof.Proof.KHost4
import proofs.«402598_j31782757990676_2_alg».proof.Proof.Region3Value
import proofs.«402598_j31782757990676_2_alg».proof.Proof.RefHead4
import Idealize.ShloMosaic.Lib.ValueIdx
import Mathlib.Algebra.BigOperators.Fin

set_option maxRecDepth 8192

noncomputable section

open scoped BigOperators

namespace Cert.Bridge4

open Idealize.ShloMosaic Idealize.ShloMosaic.TcCoe Idealize.ShloMosaic.ValueIdx Idealize.SL.Sem

variable [Cert.KernelIdeal.Facts] [Cert.ReferenceIdeal.Facts] [Cert.Pre_finite_inputs.Facts]

open Cert.KernelIdeal (main_arg4 main_arg8 main_arg29 main_arg30 main_arg31)
open Cert.KernelIdeal.Gen (V0 V21)
open Cert.KernelIdeal.KHost4 (xIn eiArg gArg src)
open Cert.KernelIdeal.Region3 (outArr3 V21')
open Cert.KernelIdeal.Region3Value (xsA psA gA muA sgA)
open Cert.Spec (gaussW)

/-! ## The arrays the region reads -/

/-- The five arrays the region reads are these five buffers of the kernel program. -/
theorem arr0 : Pipeline.arrRef Cert.KernelIdeal.spec3 0 = Cert.KernelIdeal.main_v125 := rfl
theorem arr1 : Pipeline.arrRef Cert.KernelIdeal.spec3 1 = Cert.KernelIdeal.main_arg8 := rfl
theorem arr2 : Pipeline.arrRef Cert.KernelIdeal.spec3 2 = Cert.KernelIdeal.main_v130 := rfl
theorem arr3 : Pipeline.arrRef Cert.KernelIdeal.spec3 3 = Cert.KernelIdeal.main_arg30 := rfl
theorem arr4 : Pipeline.arrRef Cert.KernelIdeal.spec3 4 = Cert.KernelIdeal.main_arg31 := rfl

section Args

variable (m : (ℓ : Loc Cert.KernelIdeal.nD Cert.KernelIdeal.τ Cert.KernelIdeal.sig) → Buf (Elt Ideal) ℓ)
  (c : Dev Cert.KernelIdeal.nD)

/-- The pseudo-coordinates at launch, `15360 × 2`. -/
abbrev psArg : FVec Ideal Cert.KernelIdeal.S15360x2 .f32 := V0 m c main_arg8
/-- The mixture centres at launch, `3 × 2`. -/
abbrev muArg : FVec Ideal Cert.KernelIdeal.S3x2 .f32 := V0 m c main_arg30
/-- The mixture widths at launch, `3 × 2`. -/
abbrev sgArg : FVec Ideal Cert.KernelIdeal.S3x2 .f32 := V0 m c main_arg31

end Args

/-! ## The reference's side -/

/-- THE REFERENCE'S MESSAGE OVER THE KERNEL'S ARRAYS: where the five argument arrays the layer reads and the pooled
    outputs of the layer before agree, the reference's message at `(e, o)` is project-then-weight of the kernel's
    own pooled output and arguments. -/
theorem ref_msg
    (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD)
    (h4 : m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4))
    (h8 : m' ((c.tc : Thread Cert.ReferenceIdeal.nD Cert.ReferenceIdeal.τ).loc Cert.ReferenceIdeal.main_arg8)
        = m ((c.tc : Thread Cert.KernelIdeal.nD Cert.KernelIdeal.τ).loc Cert.KernelIdeal.main_arg8))
    (h29 : m' ((c.tc : Thread Cert.ReferenceIdeal.nD Cert.ReferenceIdeal.τ).loc Cert.ReferenceIdeal.main_arg29)
        = m ((c.tc : Thread Cert.KernelIdeal.nD Cert.KernelIdeal.τ).loc Cert.KernelIdeal.main_arg29))
    (h30 : m' ((c.tc : Thread Cert.ReferenceIdeal.nD Cert.ReferenceIdeal.τ).loc Cert.ReferenceIdeal.main_arg30)
        = m ((c.tc : Thread Cert.KernelIdeal.nD Cert.KernelIdeal.τ).loc Cert.KernelIdeal.main_arg30))
    (h31 : m' ((c.tc : Thread Cert.ReferenceIdeal.nD Cert.ReferenceIdeal.τ).loc Cert.ReferenceIdeal.main_arg31)
        = m ((c.tc : Thread Cert.KernelIdeal.nD Cert.KernelIdeal.τ).loc Cert.KernelIdeal.main_arg31))
    (hx : Cert.KernelIdeal.Gen.V21 m outs c Cert.KernelIdeal.main_v119
        = Cert.ReferenceIdeal.RefRun.V6 m' c Cert.ReferenceIdeal.main_v185)
    (e : Fin 15360) (o : Fin 256)
    (hslt : IntOp.cmpi .slt (src m c (ix1 e)) 0#32 = 0#1)
    (hrange : 0 ≤ (src m c (ix1 e)).toInt ∧ (src m c (ix1 e)).toInt < 2568) :
    (Cert.ReferenceIdeal.RefRun.V7 (F := Ideal) m' c Cert.ReferenceIdeal.main_v218
        : Cert.ReferenceIdeal.S15360x256.Idx → EReal) (ix2 e o)
      = ∑ k : Fin 3,
          (∑ ch : Fin 128, xIn m outs c (ix2 (⟨(src m c (ix1 e)).toInt.toNat, by omega⟩ : Fin 2568) ch)
              * gArg m c (ix2 ch (⟨256 * k.val + o.val, by omega⟩ : Fin 768)))
            * gaussW (psArg m c (ix2 e 0)) (psArg m c (ix2 e 1))
                (muArg m c (ix2 k 0)) (muArg m c (ix2 k 1))
                (sgArg m c (ix2 k 0)) (sgArg m c (ix2 k 1)) := by
  have hX : Cert.RefHead4.xIn (F := Ideal) m' c = xIn m outs c := hx.symm
  have hEi : Cert.RefHead4.aEi m' c = eiArg m c := h4
  have hPs : Cert.RefHead4.aPs m' c = psArg m c := h8
  have hG : Cert.RefHead4.aG m' c = gArg m c := h29
  have hMu : Cert.RefHead4.aMu m' c = muArg m c := h30
  have hSg : Cert.RefHead4.aSg m' c = sgArg m c := h31
  -- the source row is the same array on both sides
  have hslt' : IntOp.cmpi .slt (Cert.RefHead4.srcOf (Cert.RefHead4.aEi m' c) (ix1 e)) 0#32 = 0#1 := by
    rw [hEi]; exact hslt
  have hrange' : 0 ≤ (Cert.RefHead4.srcOf (Cert.RefHead4.aEi m' c) (ix1 e)).toInt
      ∧ (Cert.RefHead4.srcOf (Cert.RefHead4.aEi m' c) (ix1 e)).toInt < 2568 := by
    rw [hEi]; exact hrange
  have hidx : (⟨(Cert.RefHead4.srcOf (Cert.RefHead4.aEi m' c) (ix1 e)).toInt.toNat, by omega⟩ : Fin 2568)
      = ⟨(src m c (ix1 e)).toInt.toNat, by omega⟩ :=
    Fin.ext (congrArg (fun ei => (Cert.RefHead4.srcOf ei (ix1 e)).toInt.toNat) hEi)
  refine Eq.trans (Cert.RefHead4.msg_apply' m' c e o hslt' hrange') ?_
  rw [hidx, hX, hPs, hG, hMu, hSg]

/-! ## The joining step -/

theorem msg4
    (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD)
    (hpre : Cert.Pre_KernelIdeal m)
    (h4 : m' ((c.tc : Thread Cert.ReferenceIdeal.nD Cert.ReferenceIdeal.τ).loc Cert.ReferenceIdeal.main_arg4)
        = m ((c.tc : Thread Cert.KernelIdeal.nD Cert.KernelIdeal.τ).loc Cert.KernelIdeal.main_arg4))
    (h8 : m' ((c.tc : Thread Cert.ReferenceIdeal.nD Cert.ReferenceIdeal.τ).loc Cert.ReferenceIdeal.main_arg8)
        = m ((c.tc : Thread Cert.KernelIdeal.nD Cert.KernelIdeal.τ).loc Cert.KernelIdeal.main_arg8))
    (h29 : m' ((c.tc : Thread Cert.ReferenceIdeal.nD Cert.ReferenceIdeal.τ).loc Cert.ReferenceIdeal.main_arg29)
        = m ((c.tc : Thread Cert.KernelIdeal.nD Cert.KernelIdeal.τ).loc Cert.KernelIdeal.main_arg29))
    (h30 : m' ((c.tc : Thread Cert.ReferenceIdeal.nD Cert.ReferenceIdeal.τ).loc Cert.ReferenceIdeal.main_arg30)
        = m ((c.tc : Thread Cert.KernelIdeal.nD Cert.KernelIdeal.τ).loc Cert.KernelIdeal.main_arg30))
    (h31 : m' ((c.tc : Thread Cert.ReferenceIdeal.nD Cert.ReferenceIdeal.τ).loc Cert.ReferenceIdeal.main_arg31)
        = m ((c.tc : Thread Cert.KernelIdeal.nD Cert.KernelIdeal.τ).loc Cert.KernelIdeal.main_arg31))
    (hx : Cert.KernelIdeal.Gen.V21 m outs c Cert.KernelIdeal.main_v119
        = Cert.ReferenceIdeal.RefRun.V6 m' c Cert.ReferenceIdeal.main_v185) :
    (Cert.KernelIdeal.Region3.outArr3 (F := Ideal) (Cert.KernelIdeal.Region3.V21' m outs) c
        : Cert.KernelIdeal.S15360x256.Idx → EReal)
      = Cert.ReferenceIdeal.RefRun.V7 (F := Ideal) m' c Cert.ReferenceIdeal.main_v218 := by
  funext i
  obtain ⟨e, o, rfl⟩ : ∃ (e : Fin 15360) (o : Fin 256), i = ix2 e o := ⟨i 0, i 1, eq_ix2 i⟩
  show @Eq EReal _ _
  have hp := hpre c
  -- every source index is in range, in the four forms the index-checked row gather is decided by
  have hslt : ∀ e, IntOp.cmpi .slt (src m c e) 0#32 = 0#1 := fun e => Cert.PreFacts.src3_slt hp e
  have hsle : ∀ e, IntOp.cmpi .sle (src m c e) 2567#32 = 1#1 := fun e => Cert.PreFacts.src3_sle hp e
  have hsge : ∀ e, IntOp.cmpi .sge (src m c e) 0#32 = 1#1 := fun e => Cert.PreFacts.src3_sge hp e
  have hrange : ∀ e, 0 ≤ (src m c e).toInt ∧ (src m c e).toInt < 2568 :=
    fun e => Cert.PreFacts.src3_range hp e
  -- the five operands of the region, as functions of the pooled output and the launch arguments
  obtain ⟨hAps, hAmu, hAsg⟩ := Cert.KernelIdeal.KHost4.args_eq m outs c
  have hps : psA (V21' m outs) c = psArg m c := hAps
  have hmu : muA (V21' m outs) c = muArg m c := hAmu
  have hsg : sgA (V21' m outs) c = sgArg m c := hAsg
  have hxs : ∀ ch : Fin 128, xsA (V21' m outs) c (ix2 e ch)
      = xIn m outs c (ix2 (⟨(src m c (ix1 e)).toInt.toNat, by have := hrange (ix1 e); omega⟩ : Fin 2568) ch) :=
    fun ch => Cert.KernelIdeal.KHost4.xs_eq m outs c hslt hsle hsge hrange e ch
  have hgs : ∀ j : Fin 384, gA (V21' m outs) c (ix2 j o)
      = gArg m c (ix2 (⟨j.val % 128, Nat.mod_lt _ (by decide)⟩ : Fin 128) (⟨256 * (j.val / 128) + o.val, by omega⟩ : Fin 768)) :=
    fun j => Cert.KernelIdeal.KHost4.gstack_eq m outs c j o
  -- the pseudo-coordinates, centres and widths are real numbers, so each weight is a non-negative real
  have r5 : ∀ i, ∃ r : ℝ, psArg m c i = (r : EReal) := Cert.PreFacts.real_arg8 hp
  have r15 : ∀ i, ∃ r : ℝ, muArg m c i = (r : EReal) := Cert.PreFacts.real_arg30 hp
  have r16 : ∀ i, ∃ r : ℝ, sgArg m c i = (r : EReal) := Cert.PreFacts.real_arg31 hp
  choose w hw0 hw using fun k : Fin 3 =>
    Cert.WeightReal.gaussW_real' (r5 (ix2 e 0)) (r5 (ix2 e 1)) (r15 (ix2 k 0)) (r15 (ix2 k 1))
      (r16 (ix2 k 0)) (r16 (ix2 k 1))
  -- both sides at the index
  refine Eq.trans (Cert.KernelIdeal.Region3Value.outArr3_apply (V21' m outs) c e o) ?_
  refine Eq.trans ?_ (ref_msg m outs m' c h4 h8 h29 h30 h31 hx e o (hslt _) (hrange _)).symm
  rw [hps, hmu, hsg]
  -- the edge law between them
  have hlaw := Cert.EdgeLaw.project_weight_eq_stack (C := 128) (by decide)
    (fun ch => xIn m outs c (ix2 (⟨(src m c (ix1 e)).toInt.toNat, by have := hrange (ix1 e); omega⟩ : Fin 2568) ch))
    (fun ch k => gArg m c (ix2 ch (⟨256 * k.val + o.val, by omega⟩ : Fin 768))) w hw0
  refine Eq.trans ?_ (Eq.trans hlaw.symm ?_)
  · refine Finset.sum_congr rfl fun j _ => ?_
    have hj : (⟨128 * (j.val / 128) + j.val % 128, by have := j.isLt; omega⟩ : Fin 384) = ⟨j.val, j.isLt⟩ :=
      Fin.ext (by show 128 * (j.val / 128) + j.val % 128 = j.val; omega)
    rw [hxs, hw, hj, hgs]
  · refine Finset.sum_congr rfl fun k _ => ?_
    rw [hw k]

end Cert.Bridge4

end
-- ==== Proof.Layer1TailK.lean ====
import proofs.«402598_j31782757990676_2_alg».proof.Proof.Gen.KernelIdeal.Regions
import Idealize.ShloMosaic.Lib.StableHlo.Run
import Idealize.ShloMosaic.PureOps.Ideal

set_option maxRecDepth 8192

noncomputable section

namespace Cert.Layer1Tail

open Idealize.ShloMosaic

section K
open Cert.KernelIdeal Cert.KernelIdeal.Facts₀ Cert.KernelIdeal.Facts
variable [Cert.KernelIdeal.Facts]

def dstK (ei : IVec S2x983040 32) : IVec S983040x1 32 :=
  broadcastInDim S983040x1 ![0] bcast_S983040_S983040x1_0
    (shapeCast S983040 (extractStridedSlice S1x983040 ![1, 0] ei slices_S2x983040_S1x983040_1_0) shapeCasts_S1x983040_S983040)

def fusedK (msg : FVec Ideal S983040x32 .f32) (dst : IVec S983040x1 32) : FVec Ideal S163848x33 .f32 :=
  Host.scatterAdd scatter_S163848x33_S983040x1_S983040x33_1_0_0_1
    (broadcastInDim S163848x33 ![] bcast_S_S163848x33 (constant S_ .f32 0x00000000#32))
    dst
    (concatenate S983040x33 1
      [⟨S983040x32, msg⟩,
       ⟨S983040x1, broadcastInDim S983040x1 ![] bcast_S_S983040x1 (constant S_ .f32 0x3F800000#32)⟩]
      concatenates_S983040x32_S983040x1_S983040x33_d1)

def aggK (msg : FVec Ideal S983040x32 .f32) (dst : IVec S983040x1 32) : FVec Ideal S163848x32 .f32 :=
  extractStridedSlice S163848x32 ![0, 0] (fusedK msg dst) slices_S163848x33_S163848x32_0_0

def cntK (msg : FVec Ideal S983040x32 .f32) (dst : IVec S983040x1 32) : FVec Ideal S163848x32 .f32 :=
  broadcastInDim S163848x32 ![0, 1] bcast_S163848x1_S163848x32_0_1
    (maximumf (extractStridedSlice S163848x1 ![0, 32] (fusedK msg dst) slices_S163848x33_S163848x1_0_32)
      (broadcastInDim S163848x1 ![] bcast_S_S163848x1 (constant S_ .f32 0x3F800000#32)))

def mixK (agg cnt : FVec Ideal S163848x32 .f32) (x : FVec Ideal S163848x2 .f32) (root : FVec Ideal S2x32 .f32)
    (bias : FVec Ideal S32 .f32) : FVec Ideal S163848x32 .f32 :=
  addf (addf (Host.divf agg cnt) (Host.dotGeneral dot_S163848x2_S2x32_S163848x32_1_0_0_1_n_n none x root))
    (broadcastInDim S163848x32 ![0, 1] bcast_S1x32_S163848x32_0_1 (broadcastInDim S1x32 ![1] bcast_S32_S1x32_1 bias))

def reluK (y : FVec Ideal S163848x32 .f32) : FVec Ideal S163848x32 .f32 :=
  maximumf y (broadcastInDim S163848x32 ![] bcast_S_S163848x32 (constant S_ .f32 0x00000000#32))

def poolK (y : FVec Ideal S163848x32 .f32) (hex : IVec S40962x7 32) : FVec Ideal S40968x32 .f32 :=
  shapeCast S40968x32
    (extractStridedSlice S4x10242x32 ![0, 0, 0]
      (Host.reduce FloatOps.maximumf
        (Host.gather gather_S4x40962x32_S40962x7x1_S4x40962x7x32_03_1_n_n_1_2_4132
          (shapeCast S4x40962x32 y shapeCasts_S163848x32_S4x40962x32)
          (broadcastInDim S40962x7x1 ![0, 1] bcast_S40962x7_S40962x7x1_0_1
            (select (cmpi .slt hex (broadcastInDim S40962x7 ![] bcast_S_S40962x7 (constantI S_ 32 0#32)))
              (addi hex (broadcastInDim S40962x7 ![] bcast_S_S40962x7 (constantI S_ 32 40962#32))) hex)))
        (constant S_ .f32 0xFF800000#32) reducesTo_S4x40962x7x32_S4x40962x32_d2 h_S_)
      slices_S4x40962x32_S4x10242x32_0_0_0)
    shapeCasts_S4x10242x32_S40968x32

def tailK (msg : FVec Ideal S983040x32 .f32) (ei : IVec S2x983040 32) (x : FVec Ideal S163848x2 .f32)
    (root : FVec Ideal S2x32 .f32) (bias : FVec Ideal S32 .f32) (hex : IVec S40962x7 32) : FVec Ideal S40968x32 .f32 :=
  poolK (reluK (mixK (aggK msg (dstK ei)) (cntK msg (dstK ei)) x root bias)) hex

end K

section ReadK
open Cert.KernelIdeal Cert.KernelIdeal.Gen Idealize.ShloMosaic.TcCoe Idealize.SL.Sem Idealize.ShloMosaic.StableHlo
variable [Cert.KernelIdeal.Facts]

theorem ops0_v3 (W : Valuation τ sig (Elt Ideal)) :
    (StableHlo.after hostOps0 W main_v3 : IVec S983040 32)
      = shapeCast S983040 (extractStridedSlice S1x983040 ![1, 0] (W main_arg1) slices_S2x983040_S1x983040_1_0) shapeCasts_S1x983040_S983040 := by
  after_results
  rfl

theorem ops1_v27 (W : Valuation τ sig (Elt Ideal)) :
    (StableHlo.after hostOps1 W main_v27 : FVec Ideal S163848x32 .f32)
      = mixK (aggK (W main_v11) (broadcastInDim S983040x1 ![0] bcast_S983040_S983040x1_0 (W main_v3)))
          (cntK (W main_v11) (broadcastInDim S983040x1 ![0] bcast_S983040_S983040x1_0 (W main_v3)))
          (W main_arg0) (W main_arg17) (W main_arg18) := by
  after_results_simp
  rfl

theorem ops1_1_v28 (W : Valuation τ sig (Elt Ideal)) :
    (StableHlo.after hostOps1_1 W main_v28 : FVec Ideal S163848x32 .f32) = reluK (W main_v27) := by
  after_results
  rfl

theorem ops1_2_v39 (W : Valuation τ sig (Elt Ideal)) :
    (StableHlo.after hostOps1_2 W main_v39 : FVec Ideal S40968x32 .f32) = poolK (W main_v28) (W main_arg9) := by
  after_results
  rfl

variable (m : (ℓ : Loc nD τ sig) → Buf (Elt Ideal) ℓ) (outs : Outs (F := Ideal))

theorem kernel_tail (c : Dev nD) :
    (V9 m outs c main_v39 : FVec Ideal S40968x32 .f32)
      = tailK (outs 4 main_v11 c) (V0 m c main_arg1) (V0 m c main_arg0) (V0 m c main_arg17) (V0 m c main_arg18)
          (V0 m c main_arg9) := by
  have e9 : V9 m outs c main_v39 = V7 m outs c main_v39 :=
    (V9_of m outs c main_v39 (by decide)).trans (V8_of m outs c main_v39 (by decide))
  have a9 : V6 m outs c main_arg9 = V0 m c main_arg9 :=
    (V6_of m outs c main_arg9 (by decide)).trans <| (V5_of m outs c main_arg9 (by decide)).trans <|
      (V4_of m outs c main_arg9 (by decide)).trans <| (V3_of m c main_arg9 (by decide)).trans <|
      (V2_of m c main_arg9 (by decide)).trans (V1_of m c main_arg9 (by decide))
  have a0 : V4 m outs c main_arg0 = V0 m c main_arg0 :=
    (V4_of m outs c main_arg0 (by decide)).trans <| (V3_of m c main_arg0 (by decide)).trans <|
      (V2_of m c main_arg0 (by decide)).trans (V1_of m c main_arg0 (by decide))
  have a17 : V4 m outs c main_arg17 = V0 m c main_arg17 :=
    (V4_of m outs c main_arg17 (by decide)).trans <| (V3_of m c main_arg17 (by decide)).trans <|
      (V2_of m c main_arg17 (by decide)).trans (V1_of m c main_arg17 (by decide))
  have a18 : V4 m outs c main_arg18 = V0 m c main_arg18 :=
    (V4_of m outs c main_arg18 (by decide)).trans <| (V3_of m c main_arg18 (by decide)).trans <|
      (V2_of m c main_arg18 (by decide)).trans (V1_of m c main_arg18 (by decide))
  have a3 : V4 m outs c main_v3 = V1 m c main_v3 :=
    (V4_of m outs c main_v3 (by decide)).trans <| (V3_of m c main_v3 (by decide)).trans (V2_of m c main_v3 (by decide))
  have a11 : V4 m outs c main_v11 = outs 4 main_v11 c := Function.update_self _ _ _
  have r3 : (V1 m c main_v3 : IVec S983040 32)
      = shapeCast S983040 (extractStridedSlice S1x983040 ![1, 0] (V0 m c main_arg1) slices_S2x983040_S1x983040_1_0) shapeCasts_S1x983040_S983040 :=
    ops0_v3 (V0 m c)
  have r27 := ops1_v27 (V4 m outs c)
  have r28 := ops1_1_v28 (V5 m outs c)
  have r39 := ops1_2_v39 (V6 m outs c)
  rw [a11, a3, a0, a17, a18] at r27
  rw [e9]
  refine r39.trans ?_
  rw [a9]
  unfold tailK dstK
  exact congrArg (poolK · (V0 m c main_arg9)) (r28.trans (congrArg reluK (r27.trans (by rw [r3]))))

end ReadK

end Cert.Layer1Tail
end
-- ==== Proof.Layer1TailR.lean ====
import proofs.«402598_j31782757990676_2_alg».proof.Proof.RefRun
import Idealize.ShloMosaic.Lib.StableHlo.Run
import Idealize.ShloMosaic.Lib.Pipeline.Regions
import Idealize.ShloMosaic.Lib.Pipeline.Frame
import Idealize.ShloMosaic.PureOps.Ideal

set_option maxRecDepth 8192

noncomputable section

namespace Cert.Layer1Tail

open Idealize.ShloMosaic

section R
open Cert.ReferenceIdeal Cert.ReferenceIdeal.Facts₀ Cert.ReferenceIdeal.Facts
variable [Cert.ReferenceIdeal.Facts]

def dstR (ei : IVec S2x983040 32) : IVec S983040x1 32 :=
  broadcastInDim S983040x1 ![0] bcast_S983040_S983040x1_0
    (shapeCast S983040 (extractStridedSlice S1x983040 ![1, 0] ei slices_S2x983040_S1x983040_1_0) shapeCasts_S1x983040_S983040)

def aggR (msg : FVec Ideal S983040x32 .f32) (dst : IVec S983040x1 32) : FVec Ideal S163848x32 .f32 :=
  Host.scatterAdd scatter_S163848x32_S983040x1_S983040x32_1_0_0_1
    (broadcastInDim S163848x32 ![] bcast_S_S163848x32 (constant S_ .f32 0x00000000#32)) dst msg

def cntR (dst : IVec S983040x1 32) : FVec Ideal S163848x32 .f32 :=
  broadcastInDim S163848x32 ![0, 1] bcast_S163848x1_S163848x32_0_1
    (broadcastInDim S163848x1 ![0] bcast_S163848_S163848x1_0
      (maximumf
        (Host.scatterAdd scatter_S163848_S983040x1_S983040_n_0_0_1
          (broadcastInDim S163848 ![] bcast_S_S163848 (constant S_ .f32 0x00000000#32)) dst
          (broadcastInDim S983040 ![] bcast_S_S983040 (constant S_ .f32 0x3F800000#32)))
        (broadcastInDim S163848 ![] bcast_S_S163848 (constant S_ .f32 0x3F800000#32))))

def mixR (agg cnt : FVec Ideal S163848x32 .f32) (x : FVec Ideal S163848x2 .f32) (root : FVec Ideal S2x32 .f32)
    (bias : FVec Ideal S32 .f32) : FVec Ideal S163848x32 .f32 :=
  addf (addf (Host.divf agg cnt) (Host.dotGeneral dot_S163848x2_S2x32_S163848x32_1_0_0_1_n_n none x root))
    (broadcastInDim S163848x32 ![0, 1] bcast_S1x32_S163848x32_0_1 (broadcastInDim S1x32 ![1] bcast_S32_S1x32_1 bias))

def reluR (y : FVec Ideal S163848x32 .f32) : FVec Ideal S163848x32 .f32 :=
  maximumf y (broadcastInDim S163848x32 ![] bcast_S_S163848x32 (constant S_ .f32 0x00000000#32))

def poolR (y : FVec Ideal S163848x32 .f32) (hex : IVec S40962x7 32) : FVec Ideal S40968x32 .f32 :=
  shapeCast S40968x32
    (extractStridedSlice S4x10242x32 ![0, 0, 0]
      (Host.reduce FloatOps.maximumf
        (Host.gather gather_S4x40962x32_S40962x7x1_S4x40962x7x32_03_1_n_n_1_2_4132
          (shapeCast S4x40962x32 y shapeCasts_S163848x32_S4x40962x32)
          (broadcastInDim S40962x7x1 ![0, 1] bcast_S40962x7_S40962x7x1_0_1
            (select (cmpi .slt hex (broadcastInDim S40962x7 ![] bcast_S_S40962x7 (constantI S_ 32 0#32)))
              (addi hex (broadcastInDim S40962x7 ![] bcast_S_S40962x7 (constantI S_ 32 40962#32))) hex)))
        (constant S_ .f32 0xFF800000#32) reducesTo_S4x40962x7x32_S4x40962x32_d2 h_S_)
      slices_S4x40962x32_S4x10242x32_0_0_0)
    shapeCasts_S4x10242x32_S40968x32

def tailR (msg : FVec Ideal S983040x32 .f32) (ei : IVec S2x983040 32) (x : FVec Ideal S163848x2 .f32)
    (root : FVec Ideal S2x32 .f32) (bias : FVec Ideal S32 .f32) (hex : IVec S40962x7 32) : FVec Ideal S40968x32 .f32 :=
  poolR (reluR (mixR (aggR msg (dstR ei)) (cntR (dstR ei)) x root bias)) hex

end R

section ReadR
open Cert.ReferenceIdeal Cert.ReferenceIdeal.RefRun Idealize.ShloMosaic.TcCoe Idealize.SL.Sem Idealize.ShloMosaic.StableHlo
open Cert.ReferenceIdeal.Facts₀ Cert.ReferenceIdeal.Facts
variable [Cert.ReferenceIdeal.Facts]

section Lines
variable {F : FTy → Type} [FloatOps F]

abbrev opsB : List (HloOp τ sig (Elt F)) :=
  [
        nullary main_cst_4 (constant S_ .f32 0x00000000#32),
        unary main_cst_4 main_v33 (broadcastInDim S163848x32 ![] bcast_S_S163848x32 : (⟨S_, .f32⟩ : BufTy).Contents (Elt F) → (⟨S163848x32, .f32⟩ : BufTy).Contents (Elt F)),
        unary main_v3 main_v34 (broadcastInDim S983040x1 ![0] bcast_S983040_S983040x1_0 : (⟨S983040, .i32⟩ : BufTy).Contents (Elt F) → (⟨S983040x1, .i32⟩ : BufTy).Contents (Elt F)),
        ternary main_v33 main_v34 main_v32 main_v35 ((fun x i u => Host.scatterAdd scatter_S163848x32_S983040x1_S983040x32_1_0_0_1 x i u) : (⟨S163848x32, .f32⟩ : BufTy).Contents (Elt F) → (⟨S983040x1, .i32⟩ : BufTy).Contents (Elt F) → (⟨S983040x32, .f32⟩ : BufTy).Contents (Elt F) → (⟨S163848x32, .f32⟩ : BufTy).Contents (Elt F)),
        nullary main_cst_5 (constant S_ .f32 0x3F800000#32),
        unary main_cst_5 main_v36 (broadcastInDim S983040 ![] bcast_S_S983040 : (⟨S_, .f32⟩ : BufTy).Contents (Elt F) → (⟨S983040, .f32⟩ : BufTy).Contents (Elt F)),
        nullary main_cst_6 (constant S_ .f32 0x00000000#32),
        unary main_cst_6 main_v37 (broadcastInDim S163848 ![] bcast_S_S163848 : (⟨S_, .f32⟩ : BufTy).Contents (Elt F) → (⟨S163848, .f32⟩ : BufTy).Contents (Elt F)),
        unary main_v3 main_v38 (broadcastInDim S983040x1 ![0] bcast_S983040_S983040x1_0 : (⟨S983040, .i32⟩ : BufTy).Contents (Elt F) → (⟨S983040x1, .i32⟩ : BufTy).Contents (Elt F)),
        ternary main_v37 main_v38 main_v36 main_v39 ((fun x i u => Host.scatterAdd scatter_S163848_S983040x1_S983040_n_0_0_1 x i u) : (⟨S163848, .f32⟩ : BufTy).Contents (Elt F) → (⟨S983040x1, .i32⟩ : BufTy).Contents (Elt F) → (⟨S983040, .f32⟩ : BufTy).Contents (Elt F) → (⟨S163848, .f32⟩ : BufTy).Contents (Elt F)),
        nullary main_cst_7 (constant S_ .f32 0x3F800000#32),
        unary main_cst_7 main_v40 (broadcastInDim S163848 ![] bcast_S_S163848 : (⟨S_, .f32⟩ : BufTy).Contents (Elt F) → (⟨S163848, .f32⟩ : BufTy).Contents (Elt F)),
        binary main_v39 main_v40 main_v41 (maximumf : (⟨S163848, .f32⟩ : BufTy).Contents (Elt F) → (⟨S163848, .f32⟩ : BufTy).Contents (Elt F) → (⟨S163848, .f32⟩ : BufTy).Contents (Elt F)),
        unary main_v41 main_v42 (broadcastInDim S163848x1 ![0] bcast_S163848_S163848x1_0 : (⟨S163848, .f32⟩ : BufTy).Contents (Elt F) → (⟨S163848x1, .f32⟩ : BufTy).Contents (Elt F)),
        unary main_v42 main_v43 (broadcastInDim S163848x32 ![0, 1] bcast_S163848x1_S163848x32_0_1 : (⟨S163848x1, .f32⟩ : BufTy).Contents (Elt F) → (⟨S163848x32, .f32⟩ : BufTy).Contents (Elt F)),
        binary main_v35 main_v43 main_v44 (Host.divf : (⟨S163848x32, .f32⟩ : BufTy).Contents (Elt F) → (⟨S163848x32, .f32⟩ : BufTy).Contents (Elt F) → (⟨S163848x32, .f32⟩ : BufTy).Contents (Elt F)),
        binary main_arg0 main_arg17 main_v45 ((fun l r => Host.dotGeneral dot_S163848x2_S2x32_S163848x32_1_0_0_1_n_n none l r) : (⟨S163848x2, .f32⟩ : BufTy).Contents (Elt F) → (⟨S2x32, .f32⟩ : BufTy).Contents (Elt F) → (⟨S163848x32, .f32⟩ : BufTy).Contents (Elt F)),
        binary main_v44 main_v45 main_v46 (addf : (⟨S163848x32, .f32⟩ : BufTy).Contents (Elt F) → (⟨S163848x32, .f32⟩ : BufTy).Contents (Elt F) → (⟨S163848x32, .f32⟩ : BufTy).Contents (Elt F)),
        unary main_arg18 main_v47 (broadcastInDim S1x32 ![1] bcast_S32_S1x32_1 : (⟨S32, .f32⟩ : BufTy).Contents (Elt F) → (⟨S1x32, .f32⟩ : BufTy).Contents (Elt F)),
        unary main_v47 main_v48 (broadcastInDim S163848x32 ![0, 1] bcast_S1x32_S163848x32_0_1 : (⟨S1x32, .f32⟩ : BufTy).Contents (Elt F) → (⟨S163848x32, .f32⟩ : BufTy).Contents (Elt F)),
        binary main_v46 main_v48 main_v49 (addf : (⟨S163848x32, .f32⟩ : BufTy).Contents (Elt F) → (⟨S163848x32, .f32⟩ : BufTy).Contents (Elt F) → (⟨S163848x32, .f32⟩ : BufTy).Contents (Elt F)) ]

abbrev ops1A : List (HloOp τ sig (Elt F)) :=
  [
    TRef.nullary (TRef.of (T := ⟨S_, .f32⟩) main_call0_cst) (constant S_ .f32 0x00000000#32),
        TRef.unary (TRef.of (T := ⟨S_, .f32⟩) main_call0_cst) (TRef.of (T := ⟨S163848x32, .f32⟩) main_call0_v0) (broadcastInDim S163848x32 ![] bcast_S_S163848x32),
        TRef.binary (TRef.of (T := ⟨S163848x32, .f32⟩) main_v49) (TRef.of (T := ⟨S163848x32, .f32⟩) main_call0_v0) (TRef.of (T := ⟨S163848x32, .f32⟩) main_v50) maximumf,
        reshape main_v50 main_v51 rfl shapeCasts_S163848x32_S4x40962x32,
        nullary main_c_8 (constantI S_ 32 0#32),
        unary main_c_8 main_v52 (broadcastInDim S40962x7 ![] bcast_S_S40962x7 : (⟨S_, .i32⟩ : BufTy).Contents (Elt F) → (⟨S40962x7, .i32⟩ : BufTy).Contents (Elt F)),
        binary main_arg9 main_v52 main_v53 (cmpi .slt : (⟨S40962x7, .i32⟩ : BufTy).Contents (Elt F) → (⟨S40962x7, .i32⟩ : BufTy).Contents (Elt F) → (⟨S40962x7, .i1⟩ : BufTy).Contents (Elt F)),
        nullary main_c_9 (constantI S_ 32 40962#32),
        unary main_c_9 main_v54 (broadcastInDim S40962x7 ![] bcast_S_S40962x7 : (⟨S_, .i32⟩ : BufTy).Contents (Elt F) → (⟨S40962x7, .i32⟩ : BufTy).Contents (Elt F)),
        binary main_arg9 main_v54 main_v55 (addi : (⟨S40962x7, .i32⟩ : BufTy).Contents (Elt F) → (⟨S40962x7, .i32⟩ : BufTy).Contents (Elt F) → (⟨S40962x7, .i32⟩ : BufTy).Contents (Elt F)),
        ternary main_v53 main_v55 main_arg9 main_v56 (select : (⟨S40962x7, .i1⟩ : BufTy).Contents (Elt F) → (⟨S40962x7, .i32⟩ : BufTy).Contents (Elt F) → (⟨S40962x7, .i32⟩ : BufTy).Contents (Elt F) → (⟨S40962x7, .i32⟩ : BufTy).Contents (Elt F)),
        unary main_v56 main_v57 (broadcastInDim S40962x7x1 ![0, 1] bcast_S40962x7_S40962x7x1_0_1 : (⟨S40962x7, .i32⟩ : BufTy).Contents (Elt F) → (⟨S40962x7x1, .i32⟩ : BufTy).Contents (Elt F)),
        binary main_v51 main_v57 main_v58 ((fun x i => Host.gather gather_S4x40962x32_S40962x7x1_S4x40962x7x32_03_1_n_n_1_2_4132 x i) : (⟨S4x40962x32, .f32⟩ : BufTy).Contents (Elt F) → (⟨S40962x7x1, .i32⟩ : BufTy).Contents (Elt F) → (⟨S4x40962x7x32, .f32⟩ : BufTy).Contents (Elt F)),
        nullary main_cst_10 (constant S_ .f32 0xFF800000#32),
        binary main_v58 main_cst_10 main_v59 ((fun x v => Host.reduce FloatOps.maximumf x v reducesTo_S4x40962x7x32_S4x40962x32_d2 h_S_) : (⟨S4x40962x7x32, .f32⟩ : BufTy).Contents (Elt F) → (⟨S_, .f32⟩ : BufTy).Contents (Elt F) → (⟨S4x40962x32, .f32⟩ : BufTy).Contents (Elt F)),
        unary main_v59 main_v60 ((extractStridedSlice S4x10242x32 ![0, 0, 0] · slices_S4x40962x32_S4x10242x32_0_0_0) : (⟨S4x40962x32, .f32⟩ : BufTy).Contents (Elt F) → (⟨S4x10242x32, .f32⟩ : BufTy).Contents (Elt F)),
        reshape main_v60 main_v61 rfl shapeCasts_S4x10242x32_S40968x32 ]

end Lines

theorem ops0_drop : (ops0 : List (HloOp τ sig (Elt Ideal))).drop 39 = opsB := rfl
theorem ops1_take : (ops1 : List (HloOp τ sig (Elt Ideal))).take 17 = ops1A := rfl

theorem refB_v49 (W : Valuation τ sig (Elt Ideal)) :
    (StableHlo.after (opsB (F := Ideal)) W main_v49 : FVec Ideal S163848x32 .f32)
      = mixR (aggR (W main_v32) (broadcastInDim S983040x1 ![0] bcast_S983040_S983040x1_0 (W main_v3)))
          (cntR (broadcastInDim S983040x1 ![0] bcast_S983040_S983040x1_0 (W main_v3)))
          (W main_arg0) (W main_arg17) (W main_arg18) := by
  after_results_simp
  rfl

theorem refB_v32 (W : Valuation τ sig (Elt Ideal)) : StableHlo.after (opsB (F := Ideal)) W main_v32 = W main_v32 := by
  after_results_simp

theorem refA_v3 (W : Valuation τ sig (Elt Ideal)) :
    (StableHlo.after ((ops0 : List (HloOp τ sig (Elt Ideal))).take 39) W main_v3 : IVec S983040 32)
      = shapeCast S983040 (extractStridedSlice S1x983040 ![1, 0] (W main_arg1) slices_S2x983040_S1x983040_1_0) shapeCasts_S1x983040_S983040 := by
  chain_rfl
theorem refA_arg0 (W : Valuation τ sig (Elt Ideal)) : StableHlo.after ((ops0 : List (HloOp τ sig (Elt Ideal))).take 39) W main_arg0 = W main_arg0 := by
  chain_rfl
theorem refA_arg17 (W : Valuation τ sig (Elt Ideal)) : StableHlo.after ((ops0 : List (HloOp τ sig (Elt Ideal))).take 39) W main_arg17 = W main_arg17 := by
  chain_rfl
theorem refA_arg18 (W : Valuation τ sig (Elt Ideal)) : StableHlo.after ((ops0 : List (HloOp τ sig (Elt Ideal))).take 39) W main_arg18 = W main_arg18 := by
  chain_rfl

theorem ref0_v49 (W : Valuation τ sig (Elt Ideal)) :
    (StableHlo.after (ops0 : List (HloOp τ sig (Elt Ideal))) W main_v49 : FVec Ideal S163848x32 .f32)
      = mixR (aggR (StableHlo.after (ops0 : List (HloOp τ sig (Elt Ideal))) W main_v32)
            (broadcastInDim S983040x1 ![0] bcast_S983040_S983040x1_0
              (shapeCast S983040 (extractStridedSlice S1x983040 ![1, 0] (W main_arg1) slices_S2x983040_S1x983040_1_0) shapeCasts_S1x983040_S983040)))
          (cntR (broadcastInDim S983040x1 ![0] bcast_S983040_S983040x1_0
              (shapeCast S983040 (extractStridedSlice S1x983040 ![1, 0] (W main_arg1) slices_S2x983040_S1x983040_1_0) shapeCasts_S1x983040_S983040)))
          (W main_arg0) (W main_arg17) (W main_arg18) := by
  obtain ⟨W', hW'⟩ : ∃ W' : Valuation τ sig (Elt Ideal), W' = StableHlo.after ((ops0 : List (HloOp τ sig (Elt Ideal))).take 39) W := ⟨_, rfl⟩
  have s : StableHlo.after (ops0 : List (HloOp τ sig (Elt Ideal))) W = StableHlo.after (opsB (F := Ideal)) W' := by
    rw [hW', ← ops0_drop, ← StableHlo.after_append, List.take_append_drop]
  have f3 : (W' main_v3 : IVec S983040 32)
      = shapeCast S983040 (extractStridedSlice S1x983040 ![1, 0] (W main_arg1) slices_S2x983040_S1x983040_1_0) shapeCasts_S1x983040_S983040 := by
    rw [hW']; exact refA_v3 W
  have f0 : W' main_arg0 = W main_arg0 := by rw [hW']; exact refA_arg0 W
  have f17 : W' main_arg17 = W main_arg17 := by rw [hW']; exact refA_arg17 W
  have f18 : W' main_arg18 = W main_arg18 := by rw [hW']; exact refA_arg18 W
  have r := refB_v49 W'
  rw [f3, f0, f17, f18, ← refB_v32 W'] at r
  rw [s]
  exact r

theorem ref1A_v61 (W : Valuation τ sig (Elt Ideal)) :
    (StableHlo.after (ops1A (F := Ideal)) W main_v61 : FVec Ideal S40968x32 .f32) = poolR (reluR (W main_v49)) (W main_arg9) := by
  after_results
  rfl

theorem ref1B_v61 (W : Valuation τ sig (Elt Ideal)) : StableHlo.after ((ops1 : List (HloOp τ sig (Elt Ideal))).drop 17) W main_v61 = W main_v61 := by
  chain_rfl

theorem ref1_v61 (W : Valuation τ sig (Elt Ideal)) :
    (StableHlo.after (ops1 : List (HloOp τ sig (Elt Ideal))) W main_v61 : FVec Ideal S40968x32 .f32) = poolR (reluR (W main_v49)) (W main_arg9) := by
  have s : StableHlo.after (ops1 : List (HloOp τ sig (Elt Ideal))) W = StableHlo.after ((ops1 : List (HloOp τ sig (Elt Ideal))).drop 17) (StableHlo.after (ops1A (F := Ideal)) W) := by
    rw [← ops1_take, ← StableHlo.after_append, List.take_append_drop]
  rw [s]
  exact (ref1B_v61 _).trans (ref1A_v61 W)

variable (m' : (ℓ : Loc nD τ sig) → Buf (Elt Ideal) ℓ)

theorem reference_tail (c : Dev nD) :
    (V2 m' c main_v61 : FVec Ideal S40968x32 .f32)
      = tailR (V1 m' c main_v32) (V0 m' c main_arg1) (V0 m' c main_arg0) (V0 m' c main_arg17) (V0 m' c main_arg18)
          (V0 m' c main_arg9) := by
  have a9 : V1 m' c main_arg9 = V0 m' c main_arg9 := V1_of m' c main_arg9 (by decide)
  have r61 : (V2 m' c main_v61 : FVec Ideal S40968x32 .f32) = poolR (reluR (V1 m' c main_v49)) (V1 m' c main_arg9) :=
    ref1_v61 (V1 m' c)
  have r49 : (V1 m' c main_v49 : FVec Ideal S163848x32 .f32) = _ := ref0_v49 (V0 m' c)
  refine r61.trans ?_
  unfold tailR dstR
  exact (congrArg (poolR (reluR (V1 m' c main_v49))) a9).trans (congrArg (poolR · (V0 m' c main_arg9)) (congrArg reluR r49))

end ReadR

end Cert.Layer1Tail
end
-- ==== Proof.ScatterLaw.lean ====
import Idealize.ShloMosaic.Lib.ValueIdx
import Idealize.ShloMosaic.Lib.IdealHost
import Idealize.ShloMosaic.Lib.Pipeline.Value
import proofs.«402598_j31782757990676_2_alg».proof.KernelIdeal
import proofs.«402598_j31782757990676_2_alg».proof.ReferenceIdeal

noncomputable section

open scoped BigOperators
open Finset

namespace Cert.ScatterLaw

open Idealize.ShloMosaic Idealize.ShloMosaic.ValueIdx

abbrev rowsDims (N E K : ℕ) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

abbrev flatDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {N E K w : ℕ} (wf : ScatterDims.WF ⟨2, ![N, K]⟩ ⟨2, ![E, 1]⟩ ⟨2, ![E, K]⟩ [1] [0] [0] 1)
    (idx : IVec ⟨2, ![E, 1]⟩ w) (e : Fin E) (c : Fin K)

theorem rows_start0 : (rowsDims N E K wf).start (ix2 e c) idx 0 = (idx (ix2 e 0)).toInt := by
  unfold ScatterDims.start
  rw [dif_pos (show (0 : Fin 2) ∈ (rowsDims N E K wf).scatterDimsToOperandDims from List.mem_singleton.mpr rfl)]
  have hsi : (rowsDims N E K wf).siIdx (ix2 e c) ⟨List.idxOf (0 : Fin 2) (rowsDims N E K wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem rows_start1 : (rowsDims N E K wf).start (ix2 e c) idx 1 = 0 := by
  unfold ScatterDims.start
  rw [dif_neg (show (1 : Fin 2) ∉ ([0] : List (Fin 2)) by decide)]

theorem rows_window0 : (rowsDims N E K wf).window (ix2 e c) 0 = 0 := by
  unfold ScatterDims.window
  rw [dif_neg (show (0 : Fin 2) ∉ (rowsDims N E K wf).sKept from
    (show (0 : Fin 2) ∉ ((List.finRange 2).filter (· ∉ ([0] : List (Fin 2)))) by decide))]

theorem rows_window1 : (rowsDims N E K wf).window (ix2 e c) 1 = c.val := by
  unfold ScatterDims.window
  rw [dif_pos (show (1 : Fin 2) ∈ (rowsDims N E K wf).sKept from
    (show (1 : Fin 2) ∈ ((List.finRange 2).filter (· ∉ ([0] : List (Fin 2)))) by decide))]
  rfl

theorem rowsDims_resultIdx?_eq_some (n : Fin N) (c' : Fin K) :
    (rowsDims N E K wf).resultIdx? (ix2 e c) idx = some (ix2 n c') ↔ (idx (ix2 e 0)).toInt = (n.val : ℤ) ∧ c = c' := by
  unfold ScatterDims.resultIdx?
  constructor
  · intro h
    split at h
    · rename_i hr
      have h' := Option.some.inj h
      have h0 : ((rowsDims N E K wf).start (ix2 e c) idx 0 + ((rowsDims N E K wf).window (ix2 e c) 0 : ℕ)).toNat = n.val :=
        congrArg Fin.val (congrFun h' 0)
      have h1 : ((rowsDims N E K wf).start (ix2 e c) idx 1 + ((rowsDims N E K wf).window (ix2 e c) 1 : ℕ)).toNat = c'.val :=
        congrArg Fin.val (congrFun h' 1)
      have hr0 := hr 0
      rw [rows_start0, rows_window0] at h0 hr0
      rw [rows_start1, rows_window1] at h1
      exact ⟨by omega, Fin.ext (by omega)⟩
    · exact absurd h (by simp)
  · rintro ⟨h0, rfl⟩
    have hr : ∀ a, 0 ≤ (rowsDims N E K wf).start (ix2 e c) idx a + ((rowsDims N E K wf).window (ix2 e c) a : ℕ) ∧
        (rowsDims N E K wf).start (ix2 e c) idx a + ((rowsDims N E K wf).window (ix2 e c) a : ℕ)
          < ((⟨2, ![N, K]⟩ : Shape).size a : ℕ) := by
      intro a
      match a with
      | ⟨0, _⟩ =>
        show 0 ≤ (rowsDims N E K wf).start (ix2 e c) idx 0 + ((rowsDims N E K wf).window (ix2 e c) 0 : ℕ) ∧
          (rowsDims N E K wf).start (ix2 e c) idx 0 + ((rowsDims N E K wf).window (ix2 e c) 0 : ℕ) < (N : ℕ)
        rw [rows_start0, rows_window0]; have := n.isLt; omega
      | ⟨1, _⟩ =>
        show 0 ≤ (rowsDims N E K wf).start (ix2 e c) idx 1 + ((rowsDims N E K wf).window (ix2 e c) 1 : ℕ) ∧
          (rowsDims N E K wf).start (ix2 e c) idx 1 + ((rowsDims N E K wf).window (ix2 e c) 1 : ℕ) < (K : ℕ)
        rw [rows_start1, rows_window1]; have := c.isLt; omega
    rw [dif_pos hr]
    congr 1
    funext a
    apply Fin.ext
    match a with
    | ⟨0, _⟩ =>
      show ((rowsDims N E K wf).start (ix2 e c) idx 0 + ((rowsDims N E K wf).window (ix2 e c) 0 : ℕ)).toNat = n.val
      rw [rows_start0, rows_window0]; omega
    | ⟨1, _⟩ =>
      show ((rowsDims N E K wf).start (ix2 e c) idx 1 + ((rowsDims N E K wf).window (ix2 e c) 1 : ℕ)).toNat = c.val
      rw [rows_start1, rows_window1]; omega

end Rows

section Flat
variable {N E w : ℕ} (wf : ScatterDims.WF ⟨1, ![N]⟩ ⟨2, ![E, 1]⟩ ⟨1, ![E]⟩ [] [0] [0] 1)
    (idx : IVec ⟨2, ![E, 1]⟩ w) (e : Fin E)

theorem flat_start0 : (flatDims N E wf).start (ix1 e) idx 0 = (idx (ix2 e 0)).toInt := by
  unfold ScatterDims.start
  rw [dif_pos (show (0 : Fin 1) ∈ (flatDims N E wf).scatterDimsToOperandDims from List.mem_singleton.mpr rfl)]
  have hsi : (flatDims N E wf).siIdx (ix1 e) ⟨List.idxOf (0 : Fin 1) (flatDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem flat_window0 : (flatDims N E wf).window (ix1 e) 0 = 0 := by
  unfold ScatterDims.window
  rw [dif_neg (show (0 : Fin 1) ∉ (flatDims N E wf).sKept from
    (show (0 : Fin 1) ∉ ((List.finRange 1).filter (· ∉ ([0] : List (Fin 1)))) by decide))]

theorem flatDims_resultIdx?_eq_some (n : Fin N) :
    (flatDims N E wf).resultIdx? (ix1 e) idx = some (ix1 n) ↔ (idx (ix2 e 0)).toInt = (n.val : ℤ) := by
  unfold ScatterDims.resultIdx?
  constructor
  · intro h
    split at h
    · rename_i hr
      have h' := Option.some.inj h
      have h0 : ((flatDims N E wf).start (ix1 e) idx 0 + ((flatDims N E wf).window (ix1 e) 0 : ℕ)).toNat = n.val :=
        congrArg Fin.val (congrFun h' 0)
      have hr0 := hr 0
      rw [flat_start0, flat_window0] at h0 hr0
      omega
    · exact absurd h (by simp)
  · intro h0
    have hr : ∀ a, 0 ≤ (flatDims N E wf).start (ix1 e) idx a + ((flatDims N E wf).window (ix1 e) a : ℕ) ∧
        (flatDims N E wf).start (ix1 e) idx a + ((flatDims N E wf).window (ix1 e) a : ℕ)
          < ((⟨1, ![N]⟩ : Shape).size a : ℕ) := by
      intro a
      match a with
      | ⟨0, _⟩ =>
        show 0 ≤ (flatDims N E wf).start (ix1 e) idx 0 + ((flatDims N E wf).window (ix1 e) 0 : ℕ) ∧
          (flatDims N E wf).start (ix1 e) idx 0 + ((flatDims N E wf).window (ix1 e) 0 : ℕ) < (N : ℕ)
        rw [flat_start0, flat_window0]; have := n.isLt; omega
    rw [dif_pos hr]
    congr 1
    funext a
    apply Fin.ext
    match a with
    | ⟨0, _⟩ =>
      show ((flatDims N E wf).start (ix1 e) idx 0 + ((flatDims N E wf).window (ix1 e) 0 : ℕ)).toNat = n.val
      rw [flat_start0, flat_window0]; omega

end Flat

theorem rows_scatterAdd_apply {N E K w : ℕ} {φ : FTy} (wf : ScatterDims.WF ⟨2, ![N, K]⟩ ⟨2, ![E, 1]⟩ ⟨2, ![E, K]⟩ [1] [0] [0] 1)
    (x : FVec Ideal ⟨2, ![N, K]⟩ φ) (idx : IVec ⟨2, ![E, 1]⟩ w) (upd : FVec Ideal ⟨2, ![E, K]⟩ φ) (n : Fin N) (c : Fin K) :
    Host.scatterAdd (rowsDims N E K wf) x idx upd (ix2 n c)
      = x (ix2 n c) + ∑ e ∈ univ.filter (fun e : Fin E => (idx (ix2 e 0)).toInt = (n.val : ℤ)), upd (ix2 e c) := by
  show x (ix2 n c) + ∑ j ∈ univ.filter (fun j => (rowsDims N E K wf).resultIdx? j idx = some (ix2 n c)), upd j = _
  congr 1
  rw [Finset.sum_filter, Finset.sum_filter, sum_idx2]
  refine Finset.sum_congr rfl fun e _ => ?_
  simp only [rowsDims_resultIdx?_eq_some]
  by_cases hq : (idx (ix2 e 0)).toInt = (n.val : ℤ)
  · simp [hq]
  · simp [hq]

theorem flat_scatterAdd_apply {N E w : ℕ} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (flatDims N E wf) x idx upd (ix1 n)
      = x (ix1 n) + ∑ e ∈ univ.filter (fun e : Fin E => (idx (ix2 e 0)).toInt = (n.val : ℤ)), upd (ix1 e) := by
  show x (ix1 n) + ∑ j ∈ univ.filter (fun j => (flatDims N E wf).resultIdx? j idx = some (ix1 n)), upd j = _
  congr 1
  rw [Finset.sum_filter, Finset.sum_filter, sum_idx1]
  refine Finset.sum_congr rfl fun e _ => ?_
  simp only [flatDims_resultIdx?_eq_some]

-- Scatter-adding rows widened by a column of ones: the first columns are the scatter-add of the rows themselves.
theorem fused_aggregate {N E C K w : ℕ}
    (wfK : ScatterDims.WF ⟨2, ![N, K]⟩ ⟨2, ![E, 1]⟩ ⟨2, ![E, K]⟩ [1] [0] [0] 1)
    (wfC : ScatterDims.WF ⟨2, ![N, C]⟩ ⟨2, ![E, 1]⟩ ⟨2, ![E, C]⟩ [1] [0] [0] 1)
    (hcat : Shape.Concatenates [(⟨2, ![E, C]⟩ : Shape), ⟨2, ![E, 1]⟩] ⟨2, ![E, K]⟩ 1)
    (hsl : (⟨2, ![N, K]⟩ : Shape).Slices ![0, 0] ⟨2, ![N, C]⟩)
    (msg : FVec Ideal ⟨2, ![E, C]⟩ .f32) (ones : FVec Ideal ⟨2, ![E, 1]⟩ .f32) (dst : IVec ⟨2, ![E, 1]⟩ w)
    (zK : FVec Ideal ⟨2, ![N, K]⟩ .f32) (zC : FVec Ideal ⟨2, ![N, C]⟩ .f32) (hzK : ∀ i, zK i = 0) (hzC : ∀ i, zC i = 0) :
    extractStridedSlice ⟨2, ![N, C]⟩ ![0, 0]
        (Host.scatterAdd (rowsDims N E K wfK) zK dst
          (concatenate ⟨2, ![E, K]⟩ 1 [⟨⟨2, ![E, C]⟩, msg⟩, ⟨⟨2, ![E, 1]⟩, ones⟩] hcat)) hsl
      = Host.scatterAdd (rowsDims N E C wfC) zC dst msg := by
  have hK : C + (1 + 0) = K := hcat.2.2
  funext i
  obtain ⟨n, c, rfl⟩ : ∃ (n : Fin N) (c : Fin C), i = ix2 n c := ⟨i 0, i 1, eq_ix2 i⟩
  have hcK : c.val < K := by have := c.isLt; omega
  rw [extractStridedSlice_apply ![0, 0] _ hsl (ix2 n c) (ix2 n ⟨c.val, hcK⟩) (by
        intro a
        match a with
        | ⟨0, _⟩ => show n.val = 0 + n.val; omega
        | ⟨1, _⟩ => show c.val = 0 + c.val; omega),
    rows_scatterAdd_apply, rows_scatterAdd_apply, hzK, hzC]
  congr 1
  refine Finset.sum_congr rfl fun e _ => ?_
  exact concatenate_pair_apply_left 1 msg ones hcat (ix2 e ⟨c.val, hcK⟩) rfl (ix2 e c) (by
    intro b
    match b with
    | ⟨0, _⟩ => rfl
    | ⟨1, _⟩ => rfl)

-- The last column of that scatter-add is the scatter-add of ones: the number of rows sent to each destination.
theorem fused_count {N E C K w : ℕ}
    (wfK : ScatterDims.WF ⟨2, ![N, K]⟩ ⟨2, ![E, 1]⟩ ⟨2, ![E, K]⟩ [1] [0] [0] 1)
    (wf1 : ScatterDims.WF ⟨1, ![N]⟩ ⟨2, ![E, 1]⟩ ⟨1, ![E]⟩ [] [0] [0] 1)
    (hcat : Shape.Concatenates [(⟨2, ![E, C]⟩ : Shape), ⟨2, ![E, 1]⟩] ⟨2, ![E, K]⟩ 1)
    (hsl : (⟨2, ![N, K]⟩ : Shape).Slices ![0, C] ⟨2, ![N, 1]⟩)
    (msg : FVec Ideal ⟨2, ![E, C]⟩ .f32) (ones : FVec Ideal ⟨2, ![E, 1]⟩ .f32) (dst : IVec ⟨2, ![E, 1]⟩ w)
    (zK : FVec Ideal ⟨2, ![N, K]⟩ .f32) (ones1 : FVec Ideal ⟨1, ![E]⟩ .f32) (z1 : FVec Ideal ⟨1, ![N]⟩ .f32)
    (hones : ∀ i, ones i = 1) (hones1 : ∀ i, ones1 i = 1) (hzK : ∀ i, zK i = 0) (hz1 : ∀ i, z1 i = 0) (n : Fin N) :
    extractStridedSlice ⟨2, ![N, 1]⟩ ![0, C]
        (Host.scatterAdd (rowsDims N E K wfK) zK dst
          (concatenate ⟨2, ![E, K]⟩ 1 [⟨⟨2, ![E, C]⟩, msg⟩, ⟨⟨2, ![E, 1]⟩, ones⟩] hcat)) hsl (ix2 n 0)
      = Host.scatterAdd (flatDims N E wf1) z1 dst ones1 (ix1 n) := by
  have hK : C + (1 + 0) = K := hcat.2.2
  have hCK : C < K := by omega
  rw [extractStridedSlice_apply ![0, C] _ hsl (ix2 n 0) (ix2 n ⟨C, hCK⟩) (by
        intro a
        match a with
        | ⟨0, _⟩ => show n.val = 0 + n.val; omega
        | ⟨1, _⟩ => show C = C + 0; omega),
    rows_scatterAdd_apply, flat_scatterAdd_apply, hzK, hz1]
  congr 1
  refine Finset.sum_congr rfl fun e _ => ?_
  rw [hones1]
  rw [concatenate_pair_apply_right 1 msg ones hcat (ix2 e ⟨C, hCK⟩) rfl rfl (ix2 e 0) (by
        intro b hb
        match b with
        | ⟨0, _⟩ => rfl
        | ⟨1, _⟩ => exact absurd rfl hb) (by show 0 + C = C; omega), hones]

theorem bcast_zero_apply {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply, constant_apply, Ideal.ofBits_zero_f32]

theorem bcast_one_apply {T : Shape} (h : (⟨0, ![]⟩ : Shape).BroadcastsInDim T ![]) (j : T.Idx) :
    broadcastInDim T ![] h (constant (F := Ideal) ⟨0, ![]⟩ .f32 0x3F800000#32) j = 1 := by
  rw [broadcastInDim_scalar_apply, constant_apply, Ideal.ofBits_one_f32]

section Level6
variable [KernelIdeal.Facts₀] [ReferenceIdeal.Facts₀]

theorem kernel_scatter6_eq : KernelIdeal.scatter_S163848x33_S983040x1_S983040x33_1_0_0_1
    = rowsDims 163848 983040 33 KernelIdeal.Facts₀.scatter_S163848x33_S983040x1_S983040x33_1_0_0_1_wf := rfl
theorem reference_scatter6_rows_eq : ReferenceIdeal.scatter_S163848x32_S983040x1_S983040x32_1_0_0_1
    = rowsDims 163848 983040 32 ReferenceIdeal.Facts₀.scatter_S163848x32_S983040x1_S983040x32_1_0_0_1_wf := rfl
theorem reference_scatter6_flat_eq : ReferenceIdeal.scatter_S163848_S983040x1_S983040_n_0_0_1
    = flatDims 163848 983040 ReferenceIdeal.Facts₀.scatter_S163848_S983040x1_S983040_n_0_0_1_wf := rfl

theorem aggregate6 (msg : FVec Ideal KernelIdeal.S983040x32 .f32) (dst : IVec KernelIdeal.S983040x1 32) :
    extractStridedSlice KernelIdeal.S163848x32 ![0, 0]
        (Host.scatterAdd KernelIdeal.scatter_S163848x33_S983040x1_S983040x33_1_0_0_1
          (broadcastInDim KernelIdeal.S163848x33 ![] KernelIdeal.Facts₀.bcast_S_S163848x33 (constant KernelIdeal.S_ .f32 0x00000000#32))
          dst
          (concatenate KernelIdeal.S983040x33 1
            [⟨KernelIdeal.S983040x32, msg⟩,
             ⟨KernelIdeal.S983040x1, broadcastInDim KernelIdeal.S983040x1 ![] KernelIdeal.Facts₀.bcast_S_S983040x1 (constant KernelIdeal.S_ .f32 0x3F800000#32)⟩]
            KernelIdeal.Facts₀.concatenates_S983040x32_S983040x1_S983040x33_d1))
        KernelIdeal.Facts₀.slices_S163848x33_S163848x32_0_0
      = Host.scatterAdd ReferenceIdeal.scatter_S163848x32_S983040x1_S983040x32_1_0_0_1
          (broadcastInDim ReferenceIdeal.S163848x32 ![] ReferenceIdeal.Facts₀.bcast_S_S163848x32 (constant ReferenceIdeal.S_ .f32 0x00000000#32))
          dst msg :=
  fused_aggregate (N := 163848) (E := 983040) (C := 32) (K := 33) _ _ _ _ msg _ dst _ _
    (bcast_zero_apply _) (bcast_zero_apply _)

theorem count6 (msg : FVec Ideal KernelIdeal.S983040x32 .f32) (dst : IVec KernelIdeal.S983040x1 32) (n : Fin 163848) :
    extractStridedSlice KernelIdeal.S163848x1 ![0, 32]
        (Host.scatterAdd KernelIdeal.scatter_S163848x33_S983040x1_S983040x33_1_0_0_1
          (broadcastInDim KernelIdeal.S163848x33 ![] KernelIdeal.Facts₀.bcast_S_S163848x33 (constant KernelIdeal.S_ .f32 0x00000000#32))
          dst
          (concatenate KernelIdeal.S983040x33 1
            [⟨KernelIdeal.S983040x32, msg⟩,
             ⟨KernelIdeal.S983040x1, broadcastInDim KernelIdeal.S983040x1 ![] KernelIdeal.Facts₀.bcast_S_S983040x1 (constant KernelIdeal.S_ .f32 0x3F800000#32)⟩]
            KernelIdeal.Facts₀.concatenates_S983040x32_S983040x1_S983040x33_d1))
        KernelIdeal.Facts₀.slices_S163848x33_S163848x1_0_32 (ix2 n 0)
      = Host.scatterAdd ReferenceIdeal.scatter_S163848_S983040x1_S983040_n_0_0_1
          (broadcastInDim ReferenceIdeal.S163848 ![] ReferenceIdeal.Facts₀.bcast_S_S163848 (constant ReferenceIdeal.S_ .f32 0x00000000#32))
          dst
          (broadcastInDim ReferenceIdeal.S983040 ![] ReferenceIdeal.Facts₀.bcast_S_S983040 (constant ReferenceIdeal.S_ .f32 0x3F800000#32))
          (ix1 n) :=
  fused_count (N := 163848) (E := 983040) (C := 32) (K := 33) _ _ _ _ msg _ dst _ _ _
    (bcast_one_apply _) (bcast_one_apply _) (bcast_zero_apply _) (bcast_zero_apply _) n

end Level6

section Level5
variable [KernelIdeal.Facts₀] [ReferenceIdeal.Facts₀]

theorem kernel_scatter5_eq : KernelIdeal.scatter_S40968x65_S245760x1_S245760x65_1_0_0_1
    = rowsDims 40968 245760 65 KernelIdeal.Facts₀.scatter_S40968x65_S245760x1_S245760x65_1_0_0_1_wf := rfl
theorem reference_scatter5_rows_eq : ReferenceIdeal.scatter_S40968x64_S245760x1_S245760x64_1_0_0_1
    = rowsDims 40968 245760 64 ReferenceIdeal.Facts₀.scatter_S40968x64_S245760x1_S245760x64_1_0_0_1_wf := rfl
theorem reference_scatter5_flat_eq : ReferenceIdeal.scatter_S40968_S245760x1_S245760_n_0_0_1
    = flatDims 40968 245760 ReferenceIdeal.Facts₀.scatter_S40968_S245760x1_S245760_n_0_0_1_wf := rfl

theorem aggregate5 (msg : FVec Ideal KernelIdeal.S245760x64 .f32) (dst : IVec KernelIdeal.S245760x1 32) :
    extractStridedSlice KernelIdeal.S40968x64 ![0, 0]
        (Host.scatterAdd KernelIdeal.scatter_S40968x65_S245760x1_S245760x65_1_0_0_1
          (broadcastInDim KernelIdeal.S40968x65 ![] KernelIdeal.Facts₀.bcast_S_S40968x65 (constant KernelIdeal.S_ .f32 0x00000000#32))
          dst
          (concatenate KernelIdeal.S245760x65 1
            [⟨KernelIdeal.S245760x64, msg⟩,
             ⟨KernelIdeal.S245760x1, broadcastInDim KernelIdeal.S245760x1 ![] KernelIdeal.Facts₀.bcast_S_S245760x1 (constant KernelIdeal.S_ .f32 0x3F800000#32)⟩]
            KernelIdeal.Facts₀.concatenates_S245760x64_S245760x1_S245760x65_d1))
        KernelIdeal.Facts₀.slices_S40968x65_S40968x64_0_0
      = Host.scatterAdd ReferenceIdeal.scatter_S40968x64_S245760x1_S245760x64_1_0_0_1
          (broadcastInDim ReferenceIdeal.S40968x64 ![] ReferenceIdeal.Facts₀.bcast_S_S40968x64 (constant ReferenceIdeal.S_ .f32 0x00000000#32))
          dst msg :=
  fused_aggregate (N := 40968) (E := 245760) (C := 64) (K := 65) _ _ _ _ msg _ dst _ _
    (bcast_zero_apply _) (bcast_zero_apply _)

theorem count5 (msg : FVec Ideal KernelIdeal.S245760x64 .f32) (dst : IVec KernelIdeal.S245760x1 32) (n : Fin 40968) :
    extractStridedSlice KernelIdeal.S40968x1 ![0, 64]
        (Host.scatterAdd KernelIdeal.scatter_S40968x65_S245760x1_S245760x65_1_0_0_1
          (broadcastInDim KernelIdeal.S40968x65 ![] KernelIdeal.Facts₀.bcast_S_S40968x65 (constant KernelIdeal.S_ .f32 0x00000000#32))
          dst
          (concatenate KernelIdeal.S245760x65 1
            [⟨KernelIdeal.S245760x64, msg⟩,
             ⟨KernelIdeal.S245760x1, broadcastInDim KernelIdeal.S245760x1 ![] KernelIdeal.Facts₀.bcast_S_S245760x1 (constant KernelIdeal.S_ .f32 0x3F800000#32)⟩]
            KernelIdeal.Facts₀.concatenates_S245760x64_S245760x1_S245760x65_d1))
        KernelIdeal.Facts₀.slices_S40968x65_S40968x1_0_64 (ix2 n 0)
      = Host.scatterAdd ReferenceIdeal.scatter_S40968_S245760x1_S245760_n_0_0_1
          (broadcastInDim ReferenceIdeal.S40968 ![] ReferenceIdeal.Facts₀.bcast_S_S40968 (constant ReferenceIdeal.S_ .f32 0x00000000#32))
          dst
          (broadcastInDim ReferenceIdeal.S245760 ![] ReferenceIdeal.Facts₀.bcast_S_S245760 (constant ReferenceIdeal.S_ .f32 0x3F800000#32))
          (ix1 n) :=
  fused_count (N := 40968) (E := 245760) (C := 64) (K := 65) _ _ _ _ msg _ dst _ _ _
    (bcast_one_apply _) (bcast_one_apply _) (bcast_zero_apply _) (bcast_zero_apply _) n

end Level5

section Level4
variable [KernelIdeal.Facts₀] [ReferenceIdeal.Facts₀]

theorem kernel_scatter4_eq : KernelIdeal.scatter_S10248x129_S61440x1_S61440x129_1_0_0_1
    = rowsDims 10248 61440 129 KernelIdeal.Facts₀.scatter_S10248x129_S61440x1_S61440x129_1_0_0_1_wf := rfl
theorem reference_scatter4_rows_eq : ReferenceIdeal.scatter_S10248x128_S61440x1_S61440x128_1_0_0_1
    = rowsDims 10248 61440 128 ReferenceIdeal.Facts₀.scatter_S10248x128_S61440x1_S61440x128_1_0_0_1_wf := rfl
theorem reference_scatter4_flat_eq : ReferenceIdeal.scatter_S10248_S61440x1_S61440_n_0_0_1
    = flatDims 10248 61440 ReferenceIdeal.Facts₀.scatter_S10248_S61440x1_S61440_n_0_0_1_wf := rfl

theorem aggregate4 (msg : FVec Ideal KernelIdeal.S61440x128 .f32) (dst : IVec KernelIdeal.S61440x1 32) :
    extractStridedSlice KernelIdeal.S10248x128 ![0, 0]
        (Host.scatterAdd KernelIdeal.scatter_S10248x129_S61440x1_S61440x129_1_0_0_1
          (broadcastInDim KernelIdeal.S10248x129 ![] KernelIdeal.Facts₀.bcast_S_S10248x129 (constant KernelIdeal.S_ .f32 0x00000000#32))
          dst
          (concatenate KernelIdeal.S61440x129 1
            [⟨KernelIdeal.S61440x128, msg⟩,
             ⟨KernelIdeal.S61440x1, broadcastInDim KernelIdeal.S61440x1 ![] KernelIdeal.Facts₀.bcast_S_S61440x1 (constant KernelIdeal.S_ .f32 0x3F800000#32)⟩]
            KernelIdeal.Facts₀.concatenates_S61440x128_S61440x1_S61440x129_d1))
        KernelIdeal.Facts₀.slices_S10248x129_S10248x128_0_0
      = Host.scatterAdd ReferenceIdeal.scatter_S10248x128_S61440x1_S61440x128_1_0_0_1
          (broadcastInDim ReferenceIdeal.S10248x128 ![] ReferenceIdeal.Facts₀.bcast_S_S10248x128 (constant ReferenceIdeal.S_ .f32 0x00000000#32))
          dst msg :=
  fused_aggregate (N := 10248) (E := 61440) (C := 128) (K := 129) _ _ _ _ msg _ dst _ _
    (bcast_zero_apply _) (bcast_zero_apply _)

theorem count4 (msg : FVec Ideal KernelIdeal.S61440x128 .f32) (dst : IVec KernelIdeal.S61440x1 32) (n : Fin 10248) :
    extractStridedSlice KernelIdeal.S10248x1 ![0, 128]
        (Host.scatterAdd KernelIdeal.scatter_S10248x129_S61440x1_S61440x129_1_0_0_1
          (broadcastInDim KernelIdeal.S10248x129 ![] KernelIdeal.Facts₀.bcast_S_S10248x129 (constant KernelIdeal.S_ .f32 0x00000000#32))
          dst
          (concatenate KernelIdeal.S61440x129 1
            [⟨KernelIdeal.S61440x128, msg⟩,
             ⟨KernelIdeal.S61440x1, broadcastInDim KernelIdeal.S61440x1 ![] KernelIdeal.Facts₀.bcast_S_S61440x1 (constant KernelIdeal.S_ .f32 0x3F800000#32)⟩]
            KernelIdeal.Facts₀.concatenates_S61440x128_S61440x1_S61440x129_d1))
        KernelIdeal.Facts₀.slices_S10248x129_S10248x1_0_128 (ix2 n 0)
      = Host.scatterAdd ReferenceIdeal.scatter_S10248_S61440x1_S61440_n_0_0_1
          (broadcastInDim ReferenceIdeal.S10248 ![] ReferenceIdeal.Facts₀.bcast_S_S10248 (constant ReferenceIdeal.S_ .f32 0x00000000#32))
          dst
          (broadcastInDim ReferenceIdeal.S61440 ![] ReferenceIdeal.Facts₀.bcast_S_S61440 (constant ReferenceIdeal.S_ .f32 0x3F800000#32))
          (ix1 n) :=
  fused_count (N := 10248) (E := 61440) (C := 128) (K := 129) _ _ _ _ msg _ dst _ _ _
    (bcast_one_apply _) (bcast_one_apply _) (bcast_zero_apply _) (bcast_zero_apply _) n

end Level4

section Level3
variable [KernelIdeal.Facts₀] [ReferenceIdeal.Facts₀]

theorem kernel_scatter3_eq : KernelIdeal.scatter_S2568x257_S15360x1_S15360x257_1_0_0_1
    = rowsDims 2568 15360 257 KernelIdeal.Facts₀.scatter_S2568x257_S15360x1_S15360x257_1_0_0_1_wf := rfl
theorem reference_scatter3_rows_eq : ReferenceIdeal.scatter_S2568x256_S15360x1_S15360x256_1_0_0_1
    = rowsDims 2568 15360 256 ReferenceIdeal.Facts₀.scatter_S2568x256_S15360x1_S15360x256_1_0_0_1_wf := rfl
theorem reference_scatter3_flat_eq : ReferenceIdeal.scatter_S2568_S15360x1_S15360_n_0_0_1
    = flatDims 2568 15360 ReferenceIdeal.Facts₀.scatter_S2568_S15360x1_S15360_n_0_0_1_wf := rfl

theorem aggregate3 (msg : FVec Ideal KernelIdeal.S15360x256 .f32) (dst : IVec KernelIdeal.S15360x1 32) :
    extractStridedSlice KernelIdeal.S2568x256 ![0, 0]
        (Host.scatterAdd KernelIdeal.scatter_S2568x257_S15360x1_S15360x257_1_0_0_1
          (broadcastInDim KernelIdeal.S2568x257 ![] KernelIdeal.Facts₀.bcast_S_S2568x257 (constant KernelIdeal.S_ .f32 0x00000000#32))
          dst
          (concatenate KernelIdeal.S15360x257 1
            [⟨KernelIdeal.S15360x256, msg⟩,
             ⟨KernelIdeal.S15360x1, broadcastInDim KernelIdeal.S15360x1 ![] KernelIdeal.Facts₀.bcast_S_S15360x1 (constant KernelIdeal.S_ .f32 0x3F800000#32)⟩]
            KernelIdeal.Facts₀.concatenates_S15360x256_S15360x1_S15360x257_d1))
        KernelIdeal.Facts₀.slices_S2568x257_S2568x256_0_0
      = Host.scatterAdd ReferenceIdeal.scatter_S2568x256_S15360x1_S15360x256_1_0_0_1
          (broadcastInDim ReferenceIdeal.S2568x256 ![] ReferenceIdeal.Facts₀.bcast_S_S2568x256 (constant ReferenceIdeal.S_ .f32 0x00000000#32))
          dst msg :=
  fused_aggregate (N := 2568) (E := 15360) (C := 256) (K := 257) _ _ _ _ msg _ dst _ _
    (bcast_zero_apply _) (bcast_zero_apply _)

theorem count3 (msg : FVec Ideal KernelIdeal.S15360x256 .f32) (dst : IVec KernelIdeal.S15360x1 32) (n : Fin 2568) :
    extractStridedSlice KernelIdeal.S2568x1 ![0, 256]
        (Host.scatterAdd KernelIdeal.scatter_S2568x257_S15360x1_S15360x257_1_0_0_1
          (broadcastInDim KernelIdeal.S2568x257 ![] KernelIdeal.Facts₀.bcast_S_S2568x257 (constant KernelIdeal.S_ .f32 0x00000000#32))
          dst
          (concatenate KernelIdeal.S15360x257 1
            [⟨KernelIdeal.S15360x256, msg⟩,
             ⟨KernelIdeal.S15360x1, broadcastInDim KernelIdeal.S15360x1 ![] KernelIdeal.Facts₀.bcast_S_S15360x1 (constant KernelIdeal.S_ .f32 0x3F800000#32)⟩]
            KernelIdeal.Facts₀.concatenates_S15360x256_S15360x1_S15360x257_d1))
        KernelIdeal.Facts₀.slices_S2568x257_S2568x1_0_256 (ix2 n 0)
      = Host.scatterAdd ReferenceIdeal.scatter_S2568_S15360x1_S15360_n_0_0_1
          (broadcastInDim ReferenceIdeal.S2568 ![] ReferenceIdeal.Facts₀.bcast_S_S2568 (constant ReferenceIdeal.S_ .f32 0x00000000#32))
          dst
          (broadcastInDim ReferenceIdeal.S15360 ![] ReferenceIdeal.Facts₀.bcast_S_S15360 (constant ReferenceIdeal.S_ .f32 0x3F800000#32))
          (ix1 n) :=
  fused_count (N := 2568) (E := 15360) (C := 256) (K := 257) _ _ _ _ msg _ dst _ _ _
    (bcast_one_apply _) (bcast_one_apply _) (bcast_zero_apply _) (bcast_zero_apply _) n

end Level3

end Cert.ScatterLaw

end
-- ==== Proof.Layer1Tail.lean ====
import proofs.«402598_j31782757990676_2_alg».proof.Proof.Layer1TailK
import proofs.«402598_j31782757990676_2_alg».proof.Proof.Layer1TailR
import proofs.«402598_j31782757990676_2_alg».proof.Proof.ScatterLaw
import Idealize.ShloMosaic.Lib.StableHlo.Predicate
import Idealize.ShloMosaic.Lib.ValueIdx
import Idealize.ShloMosaic.Lib.IdealHost

set_option maxRecDepth 8192

noncomputable section

namespace Cert.Layer1Tail

open Idealize.ShloMosaic

section Cross
open Idealize.ShloMosaic.TcCoe Idealize.SL.Sem
open Idealize.ShloMosaic.StableHlo.Predicate (ij ij_eta ixP bcast_of_col bcast_col1)
variable [Cert.KernelIdeal.Facts] [Cert.ReferenceIdeal.Facts]

theorem dst_eq (ei : IVec Cert.KernelIdeal.S2x983040 32) : dstK ei = dstR ei := rfl

theorem mix_eq (agg cnt : FVec Ideal Cert.KernelIdeal.S163848x32 .f32) (x : FVec Ideal Cert.KernelIdeal.S163848x2 .f32)
    (root : FVec Ideal Cert.KernelIdeal.S2x32 .f32) (bias : FVec Ideal Cert.KernelIdeal.S32 .f32) :
    mixK agg cnt x root bias = mixR agg cnt x root bias := rfl

theorem relu_eq (y : FVec Ideal Cert.KernelIdeal.S163848x32 .f32) : reluK y = reluR y := rfl

theorem pool_eq (y : FVec Ideal Cert.KernelIdeal.S163848x32 .f32) (hex : IVec Cert.KernelIdeal.S40962x7 32) :
    poolK y hex = poolR y hex := rfl

theorem agg_eq (msg : FVec Ideal Cert.KernelIdeal.S983040x32 .f32) (dst : IVec Cert.KernelIdeal.S983040x1 32) :
    aggK msg dst = aggR msg dst :=
  Cert.ScatterLaw.aggregate6 msg dst

theorem maximumf_apply {s : Shape} (x y : FVec Ideal s .f32) (i : s.Idx) :
    maximumf x y i = FloatOps.maximumf (x i) (y i) := rfl

theorem cnt_core (A : FVec Ideal Cert.KernelIdeal.S163848x1 .f32) (C : FVec Ideal Cert.ReferenceIdeal.S163848 .f32)
    (hAC : ∀ n : Fin 163848, A (ValueIdx.ix2 n 0) = C (ValueIdx.ix1 n)) :
    broadcastInDim Cert.KernelIdeal.S163848x32 ![0, 1] Cert.KernelIdeal.Facts₀.bcast_S163848x1_S163848x32_0_1
        (maximumf A (broadcastInDim Cert.KernelIdeal.S163848x1 ![] Cert.KernelIdeal.Facts₀.bcast_S_S163848x1
          (constant Cert.KernelIdeal.S_ .f32 0x3F800000#32)))
      = broadcastInDim Cert.ReferenceIdeal.S163848x32 ![0, 1] Cert.ReferenceIdeal.Facts₀.bcast_S163848x1_S163848x32_0_1
          (broadcastInDim Cert.ReferenceIdeal.S163848x1 ![0] Cert.ReferenceIdeal.Facts₀.bcast_S163848_S163848x1_0
            (maximumf C (broadcastInDim Cert.ReferenceIdeal.S163848 ![] Cert.ReferenceIdeal.Facts₀.bcast_S_S163848
              (constant Cert.ReferenceIdeal.S_ .f32 0x3F800000#32)))) := by
  funext j
  obtain ⟨n, q, rfl⟩ : ∃ (n : Fin 163848) (q : Fin 32), j = ij n q :=
    ⟨j 0, j 1, (ij_eta (n := 163848) (m := 32) j).symm⟩
  have h1 : (ixP n : Cert.KernelIdeal.S163848x1.Idx) = ValueIdx.ix2 n 0 := by
    funext a; match a with | ⟨0, _⟩ => rfl | ⟨1, _⟩ => rfl
  have h2 : (Shape.Idx.ofFin n : Cert.ReferenceIdeal.S163848.Idx) = ValueIdx.ix1 n := by
    funext a; match a with | ⟨0, _⟩ => rfl
  refine (bcast_of_col (n := 163848) (m := 32) _ _ n q).trans ?_
  refine Eq.trans ?_ (bcast_of_col (n := 163848) (m := 32) _ _ n q).symm
  refine Eq.trans ?_ (bcast_col1 (n := 163848) _ _ n).symm
  rw [maximumf_apply, maximumf_apply, Cert.ScatterLaw.bcast_one_apply, Cert.ScatterLaw.bcast_one_apply, h1, h2, hAC n]

theorem cnt_eq (msg : FVec Ideal Cert.KernelIdeal.S983040x32 .f32) (dst : IVec Cert.KernelIdeal.S983040x1 32) :
    cntK msg dst = cntR dst :=
  cnt_core _ _ (fun n => Cert.ScatterLaw.count6 msg dst n)

theorem tailK_eq_tailR (msg : FVec Ideal Cert.KernelIdeal.S983040x32 .f32) (ei : IVec Cert.KernelIdeal.S2x983040 32)
    (x : FVec Ideal Cert.KernelIdeal.S163848x2 .f32) (root : FVec Ideal Cert.KernelIdeal.S2x32 .f32)
    (bias : FVec Ideal Cert.KernelIdeal.S32 .f32) (hex : IVec Cert.KernelIdeal.S40962x7 32) :
    tailK msg ei x root bias hex = tailR msg ei x root bias hex := by
  unfold tailK tailR
  rw [agg_eq, cnt_eq, dst_eq, mix_eq, relu_eq, pool_eq]

theorem layer1_tail
    (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (hmsg : (outs 4 Cert.KernelIdeal.main_v11 c : FVec Ideal Cert.KernelIdeal.S983040x32 .f32)
      = Cert.ReferenceIdeal.RefRun.V1 m' c Cert.ReferenceIdeal.main_v32) :
    (Cert.KernelIdeal.Gen.V9 m outs c Cert.KernelIdeal.main_v39 : FVec Ideal Cert.KernelIdeal.S40968x32 .f32)
      = Cert.ReferenceIdeal.RefRun.V2 m' c Cert.ReferenceIdeal.main_v61 := by
  have hk := kernel_tail m outs c
  have hr := reference_tail m' c
  have e0 : Cert.ReferenceIdeal.RefRun.V0 m' c Cert.ReferenceIdeal.main_arg0 = Cert.KernelIdeal.Gen.V0 m c Cert.KernelIdeal.main_arg0 := h0
  have e1 : Cert.ReferenceIdeal.RefRun.V0 m' c Cert.ReferenceIdeal.main_arg1 = Cert.KernelIdeal.Gen.V0 m c Cert.KernelIdeal.main_arg1 := h1
  have e9 : Cert.ReferenceIdeal.RefRun.V0 m' c Cert.ReferenceIdeal.main_arg9 = Cert.KernelIdeal.Gen.V0 m c Cert.KernelIdeal.main_arg9 := h9
  have e17 : Cert.ReferenceIdeal.RefRun.V0 m' c Cert.ReferenceIdeal.main_arg17 = Cert.KernelIdeal.Gen.V0 m c Cert.KernelIdeal.main_arg17 := h17
  have e18 : Cert.ReferenceIdeal.RefRun.V0 m' c Cert.ReferenceIdeal.main_arg18 = Cert.KernelIdeal.Gen.V0 m c Cert.KernelIdeal.main_arg18 := h18
  rw [e0, e1, e9, e17, e18, ← hmsg] at hr
  exact hk.trans ((tailK_eq_tailR _ _ _ _ _ _).trans hr.symm)

end Cross

end Cert.Layer1Tail
end
-- ==== Proof.Layer2TailK.lean ====
import proofs.«402598_j31782757990676_2_alg».proof.Proof.Gen.KernelIdeal.Regions
import proofs.«402598_j31782757990676_2_alg».proof.Proof.KHost2
import Idealize.ShloMosaic.Lib.StableHlo.Run
import Idealize.ShloMosaic.Lib.ValueIdx

set_option maxRecDepth 8192

noncomputable section

namespace Cert.Layer2Tail

open Idealize.ShloMosaic Idealize.ShloMosaic.TcCoe Idealize.SL.Sem Idealize.ShloMosaic.StableHlo Idealize.ShloMosaic.ValueIdx

section K
open Cert.KernelIdeal Cert.KernelIdeal.Facts₀ Cert.KernelIdeal.Facts
variable [Cert.KernelIdeal.Facts] {F : FTy → Type} [FloatOps F]

def dflatK (ei : IVec S2x245760 32) : IVec S245760 32 :=
  shapeCast S245760 (extractStridedSlice S1x245760 ![1, 0] ei slices_S2x245760_S1x245760_1_0) shapeCasts_S1x245760_S245760

def colK (d : IVec S245760 32) : IVec S245760x1 32 :=
  broadcastInDim S245760x1 ![0] bcast_S245760_S245760x1_0 d

def fusedK (msg : FVec F S245760x64 .f32) (dst : IVec S245760x1 32) : FVec F S40968x65 .f32 :=
  Host.scatterAdd scatter_S40968x65_S245760x1_S245760x65_1_0_0_1
    (broadcastInDim S40968x65 ![] bcast_S_S40968x65 (constant S_ .f32 0x00000000#32))
    dst
    (concatenate S245760x65 1
      [⟨S245760x64, msg⟩,
       ⟨S245760x1, broadcastInDim S245760x1 ![] bcast_S_S245760x1 (constant S_ .f32 0x3F800000#32)⟩]
      concatenates_S245760x64_S245760x1_S245760x65_d1)

def aggK (msg : FVec F S245760x64 .f32) (dst : IVec S245760x1 32) : FVec F S40968x64 .f32 :=
  extractStridedSlice S40968x64 ![0, 0] (fusedK msg dst) slices_S40968x65_S40968x64_0_0

def cntK (msg : FVec F S245760x64 .f32) (dst : IVec S245760x1 32) : FVec F S40968x64 .f32 :=
  broadcastInDim S40968x64 ![0, 1] bcast_S40968x1_S40968x64_0_1
    (maximumf (extractStridedSlice S40968x1 ![0, 64] (fusedK msg dst) slices_S40968x65_S40968x1_0_64)
      (broadcastInDim S40968x1 ![] bcast_S_S40968x1 (constant S_ .f32 0x3F800000#32)))

def mixK (agg cnt : FVec F S40968x64 .f32) (x : FVec F S40968x32 .f32) (root : FVec F S32x64 .f32)
    (bias : FVec F S64 .f32) : FVec F S40968x64 .f32 :=
  addf (addf (Host.divf agg cnt) (Host.dotGeneral dot_S40968x32_S32x64_S40968x64_1_0_0_1_n_n none x root))
    (broadcastInDim S40968x64 ![0, 1] bcast_S1x64_S40968x64_0_1 (broadcastInDim S1x64 ![1] bcast_S64_S1x64_1 bias))

def reluK (y : FVec F S40968x64 .f32) : FVec F S40968x64 .f32 :=
  maximumf y (broadcastInDim S40968x64 ![] bcast_S_S40968x64 (constant S_ .f32 0x00000000#32))

def poolK (y : FVec F S40968x64 .f32) (hex : IVec S10242x7 32) : FVec F S10248x64 .f32 :=
  shapeCast S10248x64
    (extractStridedSlice S4x2562x64 ![0, 0, 0]
      (Host.reduce FloatOps.maximumf
        (Host.gather gather_S4x10242x64_S10242x7x1_S4x10242x7x64_03_1_n_n_1_2_4164
          (shapeCast S4x10242x64 y shapeCasts_S40968x64_S4x10242x64)
          (broadcastInDim S10242x7x1 ![0, 1] bcast_S10242x7_S10242x7x1_0_1
            (select (cmpi .slt hex (broadcastInDim S10242x7 ![] bcast_S_S10242x7 (constantI S_ 32 0#32)))
              (addi hex (broadcastInDim S10242x7 ![] bcast_S_S10242x7 (constantI S_ 32 10242#32))) hex)))
        (constant S_ .f32 0xFF800000#32) reducesTo_S4x10242x7x64_S4x10242x64_d2 h_S_)
      slices_S4x10242x64_S4x2562x64_0_0_0)
    shapeCasts_S4x2562x64_S10248x64

def bodyK (msg : FVec F S245760x64 .f32) (d : IVec S245760 32) (x : FVec F S40968x32 .f32) (root : FVec F S32x64 .f32)
    (bias : FVec F S64 .f32) (hex : IVec S10242x7 32) : FVec F S10248x64 .f32 :=
  poolK (reluK (mixK (aggK msg (colK d)) (cntK msg (colK d)) x root bias)) hex

end K

section Lines
variable {F : FTy → Type} [FloatOps F] [Cert.KernelIdeal.Facts]

set_option maxHeartbeats 4000000 in

theorem k_dst (W : Valuation Cert.KernelIdeal.τ Cert.KernelIdeal.sig (Elt F)) :
    StableHlo.after Cert.KernelIdeal.Gen.hostOps1_2 W (Proc.devRef .tc Cert.KernelIdeal.main_v43) = dflatK (W (Proc.devRef .tc Cert.KernelIdeal.main_arg2)) := by
  chain_rfl

set_option maxHeartbeats 4000000 in

theorem k_mix (W : Valuation Cert.KernelIdeal.τ Cert.KernelIdeal.sig (Elt F)) :
    StableHlo.after Cert.KernelIdeal.Gen.hostOps2 W (Proc.devRef .tc Cert.KernelIdeal.main_v67)
      = mixK (aggK (W (Proc.devRef .tc Cert.KernelIdeal.main_v51)) (colK (W (Proc.devRef .tc Cert.KernelIdeal.main_v43)))) (cntK (W (Proc.devRef .tc Cert.KernelIdeal.main_v51)) (colK (W (Proc.devRef .tc Cert.KernelIdeal.main_v43))))
          (W (Proc.devRef .tc Cert.KernelIdeal.main_v39)) (W (Proc.devRef .tc Cert.KernelIdeal.main_arg22)) (W (Proc.devRef .tc Cert.KernelIdeal.main_arg23)) := by
  chain_rfl

set_option maxHeartbeats 4000000 in

theorem k_relu (W : Valuation Cert.KernelIdeal.τ Cert.KernelIdeal.sig (Elt F)) :
    StableHlo.after Cert.KernelIdeal.Gen.hostOps2_1 W (Proc.devRef .tc Cert.KernelIdeal.main_v68) = reluK (W (Proc.devRef .tc Cert.KernelIdeal.main_v67)) := by
  chain_rfl

set_option maxHeartbeats 4000000 in

theorem k_pool (W : Valuation Cert.KernelIdeal.τ Cert.KernelIdeal.sig (Elt F)) :
    StableHlo.after Cert.KernelIdeal.Gen.hostOps2_2 W (Proc.devRef .tc Cert.KernelIdeal.main_v79) = poolK (W (Proc.devRef .tc Cert.KernelIdeal.main_v68)) (W (Proc.devRef .tc Cert.KernelIdeal.main_arg10)) := by
  after_results
  rfl

end Lines

section Tail
open Cert.KernelIdeal Cert.KernelIdeal.Gen

theorem kernel_tail (m : (ℓ : Loc nD τ sig) → Buf (Elt Ideal) ℓ) (outs : Outs (F := Ideal)) (c : Dev nD) :
    (V15 m outs c Cert.KernelIdeal.main_v79 : FVec Ideal S10248x64 .f32)
      = bodyK (F := Ideal) (outs 10 Cert.KernelIdeal.main_v51 c) (dflatK (V0 m c Cert.KernelIdeal.main_arg2)) (V9 m outs c Cert.KernelIdeal.main_v39)
          (V0 m c Cert.KernelIdeal.main_arg22) (V0 m c Cert.KernelIdeal.main_arg23) (V0 m c Cert.KernelIdeal.main_arg10) := by
  have e79 : V15 m outs c Cert.KernelIdeal.main_v79 = V13 m outs c Cert.KernelIdeal.main_v79 :=
    (V15_of m outs c _ (by decide)).trans (V14_of m outs c _ (by decide))
  have p79 : (V13 m outs c Cert.KernelIdeal.main_v79 : FVec Ideal S10248x64 .f32)
      = poolK (F := Ideal) (V12 m outs c Cert.KernelIdeal.main_v68) (V12 m outs c Cert.KernelIdeal.main_arg10) := k_pool (F := Ideal) (V12 m outs c)
  have r68 : (V12 m outs c Cert.KernelIdeal.main_v68 : FVec Ideal S40968x64 .f32) = reluK (F := Ideal) (V11 m outs c Cert.KernelIdeal.main_v67) :=
    k_relu (F := Ideal) (V11 m outs c)
  have x67 : (V11 m outs c Cert.KernelIdeal.main_v67 : FVec Ideal S40968x64 .f32)
      = mixK (F := Ideal) (aggK (V10 m outs c Cert.KernelIdeal.main_v51) (colK (V10 m outs c Cert.KernelIdeal.main_v43)))
          (cntK (V10 m outs c Cert.KernelIdeal.main_v51) (colK (V10 m outs c Cert.KernelIdeal.main_v43)))
          (V10 m outs c Cert.KernelIdeal.main_v39) (V10 m outs c Cert.KernelIdeal.main_arg22) (V10 m outs c Cert.KernelIdeal.main_arg23) :=
    k_mix (F := Ideal) (V10 m outs c)
  have m51 : V10 m outs c Cert.KernelIdeal.main_v51 = outs 10 Cert.KernelIdeal.main_v51 c := Function.update_self _ _ _
  have x39 : V10 m outs c Cert.KernelIdeal.main_v39 = V9 m outs c Cert.KernelIdeal.main_v39 := V10_of m outs c _ (by decide)
  have d43 : (V10 m outs c Cert.KernelIdeal.main_v43 : IVec S245760 32) = dflatK (V0 m c Cert.KernelIdeal.main_arg2) :=
    (V10_of m outs c _ (by decide)).trans <| (V9_of m outs c _ (by decide)).trans <| (V8_of m outs c _ (by decide)).trans <|
      (k_dst (F := Ideal) (V6 m outs c)).trans
        (congrArg dflatK (Cert.KernelIdeal.KHost2.V6_of_launch m outs c Cert.KernelIdeal.main_arg2 (by decide) (by decide) (by decide) (by decide) (by decide) (by decide)))
  have a22 : V10 m outs c Cert.KernelIdeal.main_arg22 = V0 m c Cert.KernelIdeal.main_arg22 :=
    (V10_of m outs c _ (by decide)).trans (Cert.KernelIdeal.KHost2.V9_of_launch m outs c Cert.KernelIdeal.main_arg22 (by decide) (by decide) (by decide) (by decide) (by decide) (by decide) (by decide) (by decide) (by decide))
  have a23 : V10 m outs c Cert.KernelIdeal.main_arg23 = V0 m c Cert.KernelIdeal.main_arg23 :=
    (V10_of m outs c _ (by decide)).trans (Cert.KernelIdeal.KHost2.V9_of_launch m outs c Cert.KernelIdeal.main_arg23 (by decide) (by decide) (by decide) (by decide) (by decide) (by decide) (by decide) (by decide) (by decide))
  have a10 : V12 m outs c Cert.KernelIdeal.main_arg10 = V0 m c Cert.KernelIdeal.main_arg10 :=
    (V12_of m outs c _ (by decide)).trans <| (V11_of m outs c _ (by decide)).trans <| (V10_of m outs c _ (by decide)).trans
      (Cert.KernelIdeal.KHost2.V9_of_launch m outs c Cert.KernelIdeal.main_arg10 (by decide) (by decide) (by decide) (by decide) (by decide) (by decide) (by decide) (by decide) (by decide))
  rw [e79, p79, r68, x67, m51, x39, d43, a22, a23, a10]
  rfl

end Tail

end Cert.Layer2Tail

end
-- ==== Proof.Layer2TailR.lean ====
import proofs.«402598_j31782757990676_2_alg».proof.Proof.RefRun
import Idealize.ShloMosaic.Lib.StableHlo.Run
import Idealize.ShloMosaic.Lib.Pipeline.Frame
import Idealize.ShloMosaic.Lib.Pipeline.Regions
import Idealize.ShloMosaic.Lib.ValueIdx

set_option maxRecDepth 8192

noncomputable section

namespace Cert.Layer2Tail

open Idealize.ShloMosaic Idealize.ShloMosaic.TcCoe Idealize.SL.Sem Idealize.ShloMosaic.StableHlo Idealize.ShloMosaic.ValueIdx

section R
open Cert.ReferenceIdeal Cert.ReferenceIdeal.Facts₀ Cert.ReferenceIdeal.Facts
variable [Cert.ReferenceIdeal.Facts] {F : FTy → Type} [FloatOps F]

def dflatR (ei : IVec S2x245760 32) : IVec S245760 32 :=
  shapeCast S245760 (extractStridedSlice S1x245760 ![1, 0] ei slices_S2x245760_S1x245760_1_0) shapeCasts_S1x245760_S245760

def colR (d : IVec S245760 32) : IVec S245760x1 32 :=
  broadcastInDim S245760x1 ![0] bcast_S245760_S245760x1_0 d

def aggR (msg : FVec F S245760x64 .f32) (dst : IVec S245760x1 32) : FVec F S40968x64 .f32 :=
  Host.scatterAdd scatter_S40968x64_S245760x1_S245760x64_1_0_0_1
    (broadcastInDim S40968x64 ![] bcast_S_S40968x64 (constant S_ .f32 0x00000000#32)) dst msg

def cntR (dst : IVec S245760x1 32) : FVec F S40968x64 .f32 :=
  broadcastInDim S40968x64 ![0, 1] bcast_S40968x1_S40968x64_0_1
    (broadcastInDim S40968x1 ![0] bcast_S40968_S40968x1_0
      (maximumf
        (Host.scatterAdd scatter_S40968_S245760x1_S245760_n_0_0_1
          (broadcastInDim S40968 ![] bcast_S_S40968 (constant S_ .f32 0x00000000#32)) dst
          (broadcastInDim S245760 ![] bcast_S_S245760 (constant S_ .f32 0x3F800000#32)))
        (broadcastInDim S40968 ![] bcast_S_S40968 (constant S_ .f32 0x3F800000#32))))

def mixR (agg cnt : FVec F S40968x64 .f32) (x : FVec F S40968x32 .f32) (root : FVec F S32x64 .f32)
    (bias : FVec F S64 .f32) : FVec F S40968x64 .f32 :=
  addf (addf (Host.divf agg cnt) (Host.dotGeneral dot_S40968x32_S32x64_S40968x64_1_0_0_1_n_n none x root))
    (broadcastInDim S40968x64 ![0, 1] bcast_S1x64_S40968x64_0_1 (broadcastInDim S1x64 ![1] bcast_S64_S1x64_1 bias))

def reluR (y : FVec F S40968x64 .f32) : FVec F S40968x64 .f32 :=
  maximumf y (broadcastInDim S40968x64 ![] bcast_S_S40968x64 (constant S_ .f32 0x00000000#32))

def poolR (y : FVec F S40968x64 .f32) (hex : IVec S10242x7 32) : FVec F S10248x64 .f32 :=
  shapeCast S10248x64
    (extractStridedSlice S4x2562x64 ![0, 0, 0]
      (Host.reduce FloatOps.maximumf
        (Host.gather gather_S4x10242x64_S10242x7x1_S4x10242x7x64_03_1_n_n_1_2_4164
          (shapeCast S4x10242x64 y shapeCasts_S40968x64_S4x10242x64)
          (broadcastInDim S10242x7x1 ![0, 1] bcast_S10242x7_S10242x7x1_0_1
            (select (cmpi .slt hex (broadcastInDim S10242x7 ![] bcast_S_S10242x7 (constantI S_ 32 0#32)))
              (addi hex (broadcastInDim S10242x7 ![] bcast_S_S10242x7 (constantI S_ 32 10242#32))) hex)))
        (constant S_ .f32 0xFF800000#32) reducesTo_S4x10242x7x64_S4x10242x64_d2 h_S_)
      slices_S4x10242x64_S4x2562x64_0_0_0)
    shapeCasts_S4x2562x64_S10248x64

def bodyR (msg : FVec F S245760x64 .f32) (d : IVec S245760 32) (x : FVec F S40968x32 .f32) (root : FVec F S32x64 .f32)
    (bias : FVec F S64 .f32) (hex : IVec S10242x7 32) : FVec F S10248x64 .f32 :=
  poolR (reluR (mixR (aggR msg (colR d)) (cntR (colR d)) x root bias)) hex

end R

section Lines
variable {F : FTy → Type} [FloatOps F] [Cert.ReferenceIdeal.Facts]

abbrev dstOps : List (HloOp Cert.ReferenceIdeal.τ Cert.ReferenceIdeal.sig (Elt F)) := List.take 56 Cert.ReferenceIdeal.RefRun.ops1

abbrev midOps : List (HloOp Cert.ReferenceIdeal.τ Cert.ReferenceIdeal.sig (Elt F)) := List.drop 56 Cert.ReferenceIdeal.RefRun.ops1

abbrev tailOps : List (HloOp Cert.ReferenceIdeal.τ Cert.ReferenceIdeal.sig (Elt F)) := midOps ++ Cert.ReferenceIdeal.RefRun.ops2a

abbrev poolOps : List (HloOp Cert.ReferenceIdeal.τ Cert.ReferenceIdeal.sig (Elt F)) := Cert.ReferenceIdeal.RefRun.ops2b

set_option maxHeartbeats 4000000 in

theorem r_dst (W : Valuation Cert.ReferenceIdeal.τ Cert.ReferenceIdeal.sig (Elt F)) :
    StableHlo.after dstOps W (Proc.devRef .tc Cert.ReferenceIdeal.main_v65) = dflatR (W (Proc.devRef .tc Cert.ReferenceIdeal.main_arg2)) := by
  chain_rfl

set_option maxHeartbeats 4000000 in

theorem r_dst_args (W : Valuation Cert.ReferenceIdeal.τ Cert.ReferenceIdeal.sig (Elt F)) :
    StableHlo.after dstOps W (Proc.devRef .tc Cert.ReferenceIdeal.main_arg22) = W (Proc.devRef .tc Cert.ReferenceIdeal.main_arg22)
      ∧ StableHlo.after dstOps W (Proc.devRef .tc Cert.ReferenceIdeal.main_arg23) = W (Proc.devRef .tc Cert.ReferenceIdeal.main_arg23)
      ∧ StableHlo.after dstOps W (Proc.devRef .tc Cert.ReferenceIdeal.main_arg10) = W (Proc.devRef .tc Cert.ReferenceIdeal.main_arg10) :=
  ⟨by chain_rfl, by chain_rfl, by chain_rfl⟩

set_option maxHeartbeats 4000000 in

theorem r_mid_keep (W : Valuation Cert.ReferenceIdeal.τ Cert.ReferenceIdeal.sig (Elt F)) :
    StableHlo.after midOps W (Proc.devRef .tc Cert.ReferenceIdeal.main_v94) = W (Proc.devRef .tc Cert.ReferenceIdeal.main_v94)
      ∧ StableHlo.after midOps W (Proc.devRef .tc Cert.ReferenceIdeal.main_v61) = W (Proc.devRef .tc Cert.ReferenceIdeal.main_v61) :=
  ⟨by chain_rfl, by chain_rfl⟩

set_option maxHeartbeats 4000000 in

theorem r_mix (W : Valuation Cert.ReferenceIdeal.τ Cert.ReferenceIdeal.sig (Elt F)) :
    StableHlo.after tailOps W (Proc.devRef .tc Cert.ReferenceIdeal.main_v111)
      = mixR (aggR (W (Proc.devRef .tc Cert.ReferenceIdeal.main_v94)) (colR (W (Proc.devRef .tc Cert.ReferenceIdeal.main_v65)))) (cntR (colR (W (Proc.devRef .tc Cert.ReferenceIdeal.main_v65))))
          (W (Proc.devRef .tc Cert.ReferenceIdeal.main_v61)) (W (Proc.devRef .tc Cert.ReferenceIdeal.main_arg22)) (W (Proc.devRef .tc Cert.ReferenceIdeal.main_arg23)) := by
  chain_rfl

set_option maxHeartbeats 4000000 in

theorem r_tail_hex (W : Valuation Cert.ReferenceIdeal.τ Cert.ReferenceIdeal.sig (Elt F)) :
    StableHlo.after tailOps W (Proc.devRef .tc Cert.ReferenceIdeal.main_arg10) = W (Proc.devRef .tc Cert.ReferenceIdeal.main_arg10) := by
  chain_rfl

set_option maxHeartbeats 4000000 in

theorem r_pool (W : Valuation Cert.ReferenceIdeal.τ Cert.ReferenceIdeal.sig (Elt F)) :
    StableHlo.after poolOps W (Proc.devRef .tc Cert.ReferenceIdeal.main_v123)
      = poolR (reluR (W (Proc.devRef .tc Cert.ReferenceIdeal.main_v111))) (W (Proc.devRef .tc Cert.ReferenceIdeal.main_arg10)) := by
  after_results
  rfl

end Lines

section Tail
open Cert.ReferenceIdeal Cert.ReferenceIdeal.RefRun
variable [Cert.ReferenceIdeal.Facts] (m' : (ℓ : Loc nD τ sig) → Buf (Elt Ideal) ℓ) (c : Dev nD)

theorem Vs_of_launch (r : Ref sig .tc) (h1 : r ∉ ops0_W) :
    V1 m' c r = V0 m' c r :=
  V1_of m' c r h1

theorem v_mid : V2 m' c = StableHlo.after midOps (StableHlo.after dstOps (V1 m' c)) :=
  (congrArg (fun l => StableHlo.after l (V1 m' c)) (List.take_append_drop 56 ops1)).symm.trans
    (StableHlo.after_append _ _ _)

theorem v_pre : V3 m' c = StableHlo.after tailOps (StableHlo.after dstOps (V1 m' c)) :=
  (congrArg (StableHlo.after ops2a) (v_mid m' c)).trans (StableHlo.after_append midOps ops2a _).symm

theorem reference_tail :
    (V4 m' c Cert.ReferenceIdeal.main_v123 : FVec Ideal S10248x64 .f32)
      = bodyR (F := Ideal) (V2 m' c Cert.ReferenceIdeal.main_v94) (dflatR (V0 m' c Cert.ReferenceIdeal.main_arg2)) (V2 m' c Cert.ReferenceIdeal.main_v61)
          (V0 m' c Cert.ReferenceIdeal.main_arg22) (V0 m' c Cert.ReferenceIdeal.main_arg23) (V0 m' c Cert.ReferenceIdeal.main_arg10) := by
  have hargs := r_dst_args (F := Ideal) (V1 m' c)
  have hkeep := r_mid_keep (F := Ideal) (StableHlo.after dstOps (V1 m' c))
  have p123 : (V4 m' c Cert.ReferenceIdeal.main_v123 : FVec Ideal S10248x64 .f32)
      = poolR (F := Ideal) (reluR (V3 m' c Cert.ReferenceIdeal.main_v111)) (V3 m' c Cert.ReferenceIdeal.main_arg10) := r_pool (F := Ideal) (V3 m' c)
  have e94 : StableHlo.after dstOps (V1 m' c) (Proc.devRef .tc Cert.ReferenceIdeal.main_v94) = V2 m' c Cert.ReferenceIdeal.main_v94 :=
    hkeep.1.symm.trans (congrFun (v_mid m' c) _).symm
  have e61 : StableHlo.after dstOps (V1 m' c) (Proc.devRef .tc Cert.ReferenceIdeal.main_v61) = V2 m' c Cert.ReferenceIdeal.main_v61 :=
    hkeep.2.symm.trans (congrFun (v_mid m' c) _).symm
  have e65 : StableHlo.after dstOps (V1 m' c) (Proc.devRef .tc Cert.ReferenceIdeal.main_v65) = dflatR (V0 m' c Cert.ReferenceIdeal.main_arg2) :=
    (r_dst (F := Ideal) (V1 m' c)).trans (congrArg dflatR (Vs_of_launch m' c Cert.ReferenceIdeal.main_arg2 (by decide)))
  have e22 : StableHlo.after dstOps (V1 m' c) (Proc.devRef .tc Cert.ReferenceIdeal.main_arg22) = V0 m' c Cert.ReferenceIdeal.main_arg22 :=
    hargs.1.trans (Vs_of_launch m' c Cert.ReferenceIdeal.main_arg22 (by decide))
  have e23 : StableHlo.after dstOps (V1 m' c) (Proc.devRef .tc Cert.ReferenceIdeal.main_arg23) = V0 m' c Cert.ReferenceIdeal.main_arg23 :=
    hargs.2.1.trans (Vs_of_launch m' c Cert.ReferenceIdeal.main_arg23 (by decide))
  have x111 : (V3 m' c Cert.ReferenceIdeal.main_v111 : FVec Ideal S40968x64 .f32)
      = mixR (F := Ideal) (aggR (V2 m' c Cert.ReferenceIdeal.main_v94) (colR (dflatR (V0 m' c Cert.ReferenceIdeal.main_arg2))))
          (cntR (colR (dflatR (V0 m' c Cert.ReferenceIdeal.main_arg2)))) (V2 m' c Cert.ReferenceIdeal.main_v61)
          (V0 m' c Cert.ReferenceIdeal.main_arg22) (V0 m' c Cert.ReferenceIdeal.main_arg23) :=
    (congrFun (v_pre m' c) _).trans
      ((r_mix (F := Ideal) (StableHlo.after dstOps (V1 m' c))).trans (by rw [e94, e61, e65, e22, e23]))
  have a10 : V3 m' c Cert.ReferenceIdeal.main_arg10 = V0 m' c Cert.ReferenceIdeal.main_arg10 :=
    (congrFun (v_pre m' c) _).trans
      ((r_tail_hex (F := Ideal) (StableHlo.after dstOps (V1 m' c))).trans
        (hargs.2.2.trans (Vs_of_launch m' c Cert.ReferenceIdeal.main_arg10 (by decide))))
  rw [p123, x111, a10]
  rfl

end Tail

end Cert.Layer2Tail

end
-- ==== Proof.Layer2Tail.lean ====
import proofs.«402598_j31782757990676_2_alg».proof.Proof.Layer2TailK
import proofs.«402598_j31782757990676_2_alg».proof.Proof.Layer2TailR
import proofs.«402598_j31782757990676_2_alg».proof.Proof.ScatterLaw
import Idealize.ShloMosaic.Lib.ValueIdx
import Idealize.ShloMosaic.Lib.Pipeline.Value

set_option maxRecDepth 8192

noncomputable section

namespace Cert.Layer2Tail

open Idealize.ShloMosaic Idealize.ShloMosaic.TcCoe Idealize.SL.Sem Idealize.ShloMosaic.StableHlo Idealize.ShloMosaic.ValueIdx

section Same
variable {F : FTy → Type} [FloatOps F] [Cert.KernelIdeal.Facts] [Cert.ReferenceIdeal.Facts]

set_option maxHeartbeats 4000000 in
theorem dflat_eq (ei : IVec Cert.KernelIdeal.S2x245760 32) : dflatK ei = dflatR ei := by
  chain_rfl

set_option maxHeartbeats 4000000 in
theorem col_eq (d : IVec Cert.KernelIdeal.S245760 32) : colK d = colR d := by
  chain_rfl

set_option maxHeartbeats 4000000 in
theorem mix_eq (agg cnt : FVec F Cert.KernelIdeal.S40968x64 .f32) (x : FVec F Cert.KernelIdeal.S40968x32 .f32) (root : FVec F Cert.KernelIdeal.S32x64 .f32)
    (bias : FVec F Cert.KernelIdeal.S64 .f32) : mixK agg cnt x root bias = mixR agg cnt x root bias := by
  chain_rfl

set_option maxHeartbeats 4000000 in
theorem relu_eq (y : FVec F Cert.KernelIdeal.S40968x64 .f32) : reluK y = reluR y := by
  chain_rfl

set_option maxHeartbeats 4000000 in
theorem pool_eq (y : FVec F Cert.KernelIdeal.S40968x64 .f32) (hex : IVec Cert.KernelIdeal.S10242x7 32) : poolK y hex = poolR y hex := by
  rfl

end Same

section Scatter
variable [Cert.KernelIdeal.Facts] [Cert.ReferenceIdeal.Facts]

theorem agg_eq (msg : FVec Ideal Cert.KernelIdeal.S245760x64 .f32) (dst : IVec Cert.KernelIdeal.S245760x1 32) :
    aggK (F := Ideal) msg dst = aggR (F := Ideal) msg dst :=
  Cert.ScatterLaw.aggregate5 msg dst

theorem cnt_eq (msg : FVec Ideal Cert.KernelIdeal.S245760x64 .f32) (dst : IVec Cert.KernelIdeal.S245760x1 32) :
    cntK (F := Ideal) msg dst = cntR (F := Ideal) dst := by
  funext j
  obtain ⟨n, ch, rfl⟩ : ∃ (n : Fin 40968) (ch : Fin 64), j = ix2 n ch := ⟨j 0, j 1, eq_ix2 j⟩
  have hk1 : ∀ a : Fin Cert.KernelIdeal.S40968x1.rank, ((ix2 n (0 : Fin 1) : Cert.KernelIdeal.S40968x1.Idx) a).val
      = if Cert.KernelIdeal.S40968x1.size a = 1 then 0
        else ((ix2 n ch : Cert.KernelIdeal.S40968x64.Idx) ((![0, 1] : Fin Cert.KernelIdeal.S40968x1.rank → Fin Cert.KernelIdeal.S40968x64.rank) a)).val := fun a => by
    match a with
    | ⟨0, _⟩ => exact (if_neg (by decide : ¬ ((40968 : Nat) = 1))).symm
    | ⟨1, _⟩ => exact (if_pos rfl).symm
  have hk2 : ∀ a : Fin Cert.ReferenceIdeal.S40968.rank, ((ix1 n : Cert.ReferenceIdeal.S40968.Idx) a).val
      = if Cert.ReferenceIdeal.S40968.size a = 1 then 0
        else ((ix2 n (0 : Fin 1) : Cert.ReferenceIdeal.S40968x1.Idx) ((![0] : Fin Cert.ReferenceIdeal.S40968.rank → Fin Cert.ReferenceIdeal.S40968x1.rank) a)).val := fun a => by
    match a with
    | ⟨0, _⟩ => exact (if_neg (by decide : ¬ ((40968 : Nat) = 1))).symm
  unfold cntK cntR fusedK
  refine Eq.trans (broadcastInDim_apply _ _ _ _ (ix2 n (0 : Fin 1)) hk1) ?_
  refine Eq.trans ?_ (broadcastInDim_apply _ _ _ _ (ix2 n (0 : Fin 1)) hk1).symm
  refine Eq.trans ?_ (broadcastInDim_apply _ _ _ _ (ix1 n) hk2).symm
  rw [maximumf_apply, maximumf_apply, Cert.ScatterLaw.count5 msg dst n]
  rfl

end Scatter

section Tail
variable [Cert.ReferenceIdeal.Facts]

theorem body_eq (msg : FVec Ideal Cert.KernelIdeal.S245760x64 .f32) (ei : IVec Cert.KernelIdeal.S2x245760 32) (x : FVec Ideal Cert.KernelIdeal.S40968x32 .f32)
    (root : FVec Ideal Cert.KernelIdeal.S32x64 .f32) (bias : FVec Ideal Cert.KernelIdeal.S64 .f32) (hex : IVec Cert.KernelIdeal.S10242x7 32) :
    bodyK (F := Ideal) msg (dflatK ei) x root bias hex = bodyR (F := Ideal) msg (dflatR ei) x root bias hex := by
  unfold bodyK bodyR
  rw [dflat_eq, col_eq, agg_eq, cnt_eq, mix_eq, relu_eq, pool_eq]

theorem layer2_tail
    (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD)
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (hx : (Cert.KernelIdeal.Gen.V9 m outs c Cert.KernelIdeal.main_v39 : FVec Ideal Cert.KernelIdeal.S40968x32 .f32)
      = Cert.ReferenceIdeal.RefRun.V2 m' c Cert.ReferenceIdeal.main_v61)
    (hmsg : (outs 10 Cert.KernelIdeal.main_v51 c : FVec Ideal Cert.KernelIdeal.S245760x64 .f32)
      = Cert.ReferenceIdeal.RefRun.V2 m' c Cert.ReferenceIdeal.main_v94) :
    (Cert.KernelIdeal.Gen.V15 m outs c Cert.KernelIdeal.main_v79 : FVec Ideal Cert.KernelIdeal.S10248x64 .f32)
      = Cert.ReferenceIdeal.RefRun.V4 m' c Cert.ReferenceIdeal.main_v123 := by
  have e2 : Cert.KernelIdeal.Gen.V0 m c Cert.KernelIdeal.main_arg2 = Cert.ReferenceIdeal.RefRun.V0 m' c Cert.ReferenceIdeal.main_arg2 := h2.symm
  have e10 : Cert.KernelIdeal.Gen.V0 m c Cert.KernelIdeal.main_arg10 = Cert.ReferenceIdeal.RefRun.V0 m' c Cert.ReferenceIdeal.main_arg10 := h10.symm
  have e22 : Cert.KernelIdeal.Gen.V0 m c Cert.KernelIdeal.main_arg22 = Cert.ReferenceIdeal.RefRun.V0 m' c Cert.ReferenceIdeal.main_arg22 := h22.symm
  have e23 : Cert.KernelIdeal.Gen.V0 m c Cert.KernelIdeal.main_arg23 = Cert.ReferenceIdeal.RefRun.V0 m' c Cert.ReferenceIdeal.main_arg23 := h23.symm
  have hx' : (Cert.KernelIdeal.Gen.V9 m outs c Cert.KernelIdeal.main_v39 : FVec Ideal Cert.KernelIdeal.S40968x32 .f32)
      = Cert.ReferenceIdeal.RefRun.V2 m' c Cert.ReferenceIdeal.main_v61 :=
    hx
  rw [kernel_tail, reference_tail, hmsg, hx', e2, e10, e22, e23]
  exact body_eq _ _ _ _ _ _

end Tail

end Cert.Layer2Tail

end
-- ==== Proof.Layer3TailK.lean ====
/-
  Layer 3 after the per-edge messages, the kernel program's half: scatter-add of the widened rows (msg ‖ 1) by
  destination, cut into per-node sums and count; the mean agg / max(cnt, 1); the root term x · root (x the previous
  layer's pooled output); the bias; relu; the hexagon max-pool to the next level's 2568 rows. The program's pooled
  output is this function of the region's messages, the edge table, the layer's input and three argument arrays.
-/
import proofs.«402598_j31782757990676_2_alg».proof.Proof.Gen.KernelIdeal.Regions
import proofs.«402598_j31782757990676_2_alg».proof.Proof.KHost3
import Idealize.ShloMosaic.Lib.StableHlo.Run
import Idealize.ShloMosaic.Lib.ValueIdx

set_option maxRecDepth 8192

noncomputable section

namespace Cert.Layer3Tail

open Idealize.ShloMosaic Idealize.ShloMosaic.TcCoe Idealize.SL.Sem Idealize.ShloMosaic.StableHlo Idealize.ShloMosaic.ValueIdx

section K
open Cert.KernelIdeal Cert.KernelIdeal.Facts₀ Cert.KernelIdeal.Facts
variable [Cert.KernelIdeal.Facts] {F : FTy → Type} [FloatOps F]

/-- Row 1 of the edge table (the destinations), flat: [61440]. -/
def dflatK (ei : IVec S2x61440 32) : IVec S61440 32 :=
  shapeCast S61440 (extractStridedSlice S1x61440 ![1, 0] ei slices_S2x61440_S1x61440_1_0) shapeCasts_S1x61440_S61440

/-- The destinations as the column of index vectors the scatters take: [61440, 1]. -/
def colK (d : IVec S61440 32) : IVec S61440x1 32 :=
  broadcastInDim S61440x1 ![0] bcast_S61440_S61440x1_0 d

/-- The one scatter-add of the widened rows (msg ‖ 1) into a zero array of 129 columns. -/
def fusedK (msg : FVec F S61440x128 .f32) (dst : IVec S61440x1 32) : FVec F S10248x129 .f32 :=
  Host.scatterAdd scatter_S10248x129_S61440x1_S61440x129_1_0_0_1
    (broadcastInDim S10248x129 ![] bcast_S_S10248x129 (constant S_ .f32 0x00000000#32))
    dst
    (concatenate S61440x129 1
      [⟨S61440x128, msg⟩,
       ⟨S61440x1, broadcastInDim S61440x1 ![] bcast_S_S61440x1 (constant S_ .f32 0x3F800000#32)⟩]
      concatenates_S61440x128_S61440x1_S61440x129_d1)

/-- The per-node sums: the first 128 columns of the fused scatter. -/
def aggK (msg : FVec F S61440x128 .f32) (dst : IVec S61440x1 32) : FVec F S10248x128 .f32 :=
  extractStridedSlice S10248x128 ![0, 0] (fusedK msg dst) slices_S10248x129_S10248x128_0_0

/-- The divisor max(count, 1) of every node, along the 128 channels: the last column of the fused scatter. -/
def cntK (msg : FVec F S61440x128 .f32) (dst : IVec S61440x1 32) : FVec F S10248x128 .f32 :=
  broadcastInDim S10248x128 ![0, 1] bcast_S10248x1_S10248x128_0_1
    (maximumf (extractStridedSlice S10248x1 ![0, 128] (fusedK msg dst) slices_S10248x129_S10248x1_0_128)
      (broadcastInDim S10248x1 ![] bcast_S_S10248x1 (constant S_ .f32 0x3F800000#32)))

/-- Mean, root term and bias: `agg / cnt + x · root + bias`. -/
def mixK (agg cnt : FVec F S10248x128 .f32) (x : FVec F S10248x64 .f32) (root : FVec F S64x128 .f32)
    (bias : FVec F S128 .f32) : FVec F S10248x128 .f32 :=
  addf (addf (Host.divf agg cnt) (Host.dotGeneral dot_S10248x64_S64x128_S10248x128_1_0_0_1_n_n none x root))
    (broadcastInDim S10248x128 ![0, 1] bcast_S1x128_S10248x128_0_1 (broadcastInDim S1x128 ![1] bcast_S128_S1x128_1 bias))

/-- `max(y, 0)`. -/
def reluK (y : FVec F S10248x128 .f32) : FVec F S10248x128 .f32 :=
  maximumf y (broadcastInDim S10248x128 ![] bcast_S_S10248x128 (constant S_ .f32 0x00000000#32))

/-- The hexagon pool: as [4, 2562, 128], the maximum over the 7 neighbours the table names (a negative entry wrapped by
    2562), the first 642 nodes of each of the 4 parts kept, as [2568, 128]. -/
def poolK (y : FVec F S10248x128 .f32) (hex : IVec S2562x7 32) : FVec F S2568x128 .f32 :=
  shapeCast S2568x128
    (extractStridedSlice S4x642x128 ![0, 0, 0]
      (Host.reduce FloatOps.maximumf
        (Host.gather gather_S4x2562x128_S2562x7x1_S4x2562x7x128_03_1_n_n_1_2_41128
          (shapeCast S4x2562x128 y shapeCasts_S10248x128_S4x2562x128)
          (broadcastInDim S2562x7x1 ![0, 1] bcast_S2562x7_S2562x7x1_0_1
            (select (cmpi .slt hex (broadcastInDim S2562x7 ![] bcast_S_S2562x7 (constantI S_ 32 0#32)))
              (addi hex (broadcastInDim S2562x7 ![] bcast_S_S2562x7 (constantI S_ 32 2562#32))) hex)))
        (constant S_ .f32 0xFF800000#32) reducesTo_S4x2562x7x128_S4x2562x128_d2 h_S_)
      slices_S4x2562x128_S4x642x128_0_0_0)
    shapeCasts_S4x642x128_S2568x128

/-- The layer's tail as this program spells it, from the messages, the flat destination row, the layer's input and the
    three argument arrays it reads. -/
def bodyK (msg : FVec F S61440x128 .f32) (d : IVec S61440 32) (x : FVec F S10248x64 .f32) (root : FVec F S64x128 .f32)
    (bias : FVec F S128 .f32) (hex : IVec S2562x7 32) : FVec F S2568x128 .f32 :=
  poolK (reluK (mixK (aggK msg (colK d)) (cntK msg (colK d)) x root bias)) hex

end K

/-! ## The host lines compute these functions

Over ANY contents `W` before it, each host line read at its result is the stage above of `W`'s buffers. Stated for
any float type. -/

section Lines
variable {F : FTy → Type} [FloatOps F] [Cert.KernelIdeal.Facts]

set_option maxHeartbeats 4000000 in
/-- The earlier pooling line also writes the flat destination row: row 1 of `W`'s edge table. -/
theorem k_dst (W : Valuation Cert.KernelIdeal.τ Cert.KernelIdeal.sig (Elt F)) :
    StableHlo.after Cert.KernelIdeal.Gen.hostOps2_2 W (Proc.devRef .tc Cert.KernelIdeal.main_v83) = dflatK (W (Proc.devRef .tc Cert.KernelIdeal.main_arg3)) := by
  chain_rfl

set_option maxHeartbeats 4000000 in
/-- The line after the region: scatter, mean, root term, bias. -/
theorem k_mix (W : Valuation Cert.KernelIdeal.τ Cert.KernelIdeal.sig (Elt F)) :
    StableHlo.after Cert.KernelIdeal.Gen.hostOps3 W (Proc.devRef .tc Cert.KernelIdeal.main_v107)
      = mixK (aggK (W (Proc.devRef .tc Cert.KernelIdeal.main_v91)) (colK (W (Proc.devRef .tc Cert.KernelIdeal.main_v83)))) (cntK (W (Proc.devRef .tc Cert.KernelIdeal.main_v91)) (colK (W (Proc.devRef .tc Cert.KernelIdeal.main_v83))))
          (W (Proc.devRef .tc Cert.KernelIdeal.main_v79)) (W (Proc.devRef .tc Cert.KernelIdeal.main_arg27)) (W (Proc.devRef .tc Cert.KernelIdeal.main_arg28)) := by
  chain_rfl

set_option maxHeartbeats 4000000 in
/-- The relu line. -/
theorem k_relu (W : Valuation Cert.KernelIdeal.τ Cert.KernelIdeal.sig (Elt F)) :
    StableHlo.after Cert.KernelIdeal.Gen.hostOps3_1 W (Proc.devRef .tc Cert.KernelIdeal.main_v108) = reluK (W (Proc.devRef .tc Cert.KernelIdeal.main_v107)) := by
  chain_rfl

set_option maxHeartbeats 4000000 in
/-- The pooling line. -/
theorem k_pool (W : Valuation Cert.KernelIdeal.τ Cert.KernelIdeal.sig (Elt F)) :
    StableHlo.after Cert.KernelIdeal.Gen.hostOps3_2 W (Proc.devRef .tc Cert.KernelIdeal.main_v119) = poolK (W (Proc.devRef .tc Cert.KernelIdeal.main_v108)) (W (Proc.devRef .tc Cert.KernelIdeal.main_arg11)) := by
  after_results
  rfl

end Lines

/-! ## The pooled output -/

section Tail
open Cert.KernelIdeal Cert.KernelIdeal.Gen

/-- THE KERNEL PROGRAM'S SIDE: its pooled output is its tail of the region's messages, the edge table, the layer's input
    as region 2 was entered, and the launch arguments. -/
theorem kernel_tail (m : (ℓ : Loc nD τ sig) → Buf (Elt Ideal) ℓ) (outs : Outs (F := Ideal)) (c : Dev nD) :
    (V21 m outs c Cert.KernelIdeal.main_v119 : FVec Ideal S2568x128 .f32)
      = bodyK (F := Ideal) (outs 16 Cert.KernelIdeal.main_v91 c) (dflatK (V0 m c Cert.KernelIdeal.main_arg3)) (V15 m outs c Cert.KernelIdeal.main_v79)
          (V0 m c Cert.KernelIdeal.main_arg27) (V0 m c Cert.KernelIdeal.main_arg28) (V0 m c Cert.KernelIdeal.main_arg11) := by
  have e79 : V21 m outs c Cert.KernelIdeal.main_v119 = V19 m outs c Cert.KernelIdeal.main_v119 :=
    (V21_of m outs c _ (by decide)).trans (V20_of m outs c _ (by decide))
  have p79 : (V19 m outs c Cert.KernelIdeal.main_v119 : FVec Ideal S2568x128 .f32)
      = poolK (F := Ideal) (V18 m outs c Cert.KernelIdeal.main_v108) (V18 m outs c Cert.KernelIdeal.main_arg11) := k_pool (F := Ideal) (V18 m outs c)
  have r68 : (V18 m outs c Cert.KernelIdeal.main_v108 : FVec Ideal S10248x128 .f32) = reluK (F := Ideal) (V17 m outs c Cert.KernelIdeal.main_v107) :=
    k_relu (F := Ideal) (V17 m outs c)
  have x67 : (V17 m outs c Cert.KernelIdeal.main_v107 : FVec Ideal S10248x128 .f32)
      = mixK (F := Ideal) (aggK (V16 m outs c Cert.KernelIdeal.main_v91) (colK (V16 m outs c Cert.KernelIdeal.main_v83)))
          (cntK (V16 m outs c Cert.KernelIdeal.main_v91) (colK (V16 m outs c Cert.KernelIdeal.main_v83)))
          (V16 m outs c Cert.KernelIdeal.main_v79) (V16 m outs c Cert.KernelIdeal.main_arg27) (V16 m outs c Cert.KernelIdeal.main_arg28) :=
    k_mix (F := Ideal) (V16 m outs c)
  have m51 : V16 m outs c Cert.KernelIdeal.main_v91 = outs 16 Cert.KernelIdeal.main_v91 c := Function.update_self _ _ _
  have x39 : V16 m outs c Cert.KernelIdeal.main_v79 = V15 m outs c Cert.KernelIdeal.main_v79 := V16_of m outs c _ (by decide)
  have d43 : (V16 m outs c Cert.KernelIdeal.main_v83 : IVec S61440 32) = dflatK (V0 m c Cert.KernelIdeal.main_arg3) :=
    (V16_of m outs c _ (by decide)).trans <| (V15_of m outs c _ (by decide)).trans <| (V14_of m outs c _ (by decide)).trans <|
      (k_dst (F := Ideal) (V12 m outs c)).trans
        (congrArg dflatK (Cert.KernelIdeal.KHost3.V12_of_launch m outs c Cert.KernelIdeal.main_arg3 (by decide) (by decide) (by decide) (by decide) (by decide) (by decide) (by decide) (by decide) (by decide) (by decide) (by decide) (by decide)))
  have a22 : V16 m outs c Cert.KernelIdeal.main_arg27 = V0 m c Cert.KernelIdeal.main_arg27 :=
    (V16_of m outs c _ (by decide)).trans (Cert.KernelIdeal.KHost3.V15_of_launch m outs c Cert.KernelIdeal.main_arg27 (by decide) (by decide) (by decide) (by decide) (by decide) (by decide) (by decide) (by decide) (by decide) (by decide) (by decide) (by decide) (by decide) (by decide) (by decide))
  have a23 : V16 m outs c Cert.KernelIdeal.main_arg28 = V0 m c Cert.KernelIdeal.main_arg28 :=
    (V16_of m outs c _ (by decide)).trans (Cert.KernelIdeal.KHost3.V15_of_launch m outs c Cert.KernelIdeal.main_arg28 (by decide) (by decide) (by decide) (by decide) (by decide) (by decide) (by decide) (by decide) (by decide) (by decide) (by decide) (by decide) (by decide) (by decide) (by decide))
  have a10 : V18 m outs c Cert.KernelIdeal.main_arg11 = V0 m c Cert.KernelIdeal.main_arg11 :=
    (V18_of m outs c _ (by decide)).trans <| (V17_of m outs c _ (by decide)).trans <| (V16_of m outs c _ (by decide)).trans
      (Cert.KernelIdeal.KHost3.V15_of_launch m outs c Cert.KernelIdeal.main_arg11 (by decide) (by decide) (by decide) (by decide) (by decide) (by decide) (by decide) (by decide) (by decide) (by decide) (by decide) (by decide) (by decide) (by decide) (by decide))
  rw [e79, p79, r68, x67, m51, x39, d43, a22, a23, a10]
  rfl

end Tail

end Cert.Layer3Tail

end
-- ==== Proof.Layer3TailR.lean ====
/-
  Layer 3 after the per-edge messages, the reference's half: the messages and a vector of ones scatter-added by
  destination into per-node sums and counts; the mean agg / max(cnt, 1); the root term x · root (x the previous layer's
  pooled output); the bias; relu; the hexagon max-pool to the next level's 2568 rows. The reference's pooled output is
  this function of its messages, the edge table, the layer's input and three argument arrays.
-/
import proofs.«402598_j31782757990676_2_alg».proof.Proof.RefRun
import Idealize.ShloMosaic.Lib.StableHlo.Run
import Idealize.ShloMosaic.Lib.Pipeline.Frame
import Idealize.ShloMosaic.Lib.Pipeline.Regions
import Idealize.ShloMosaic.Lib.ValueIdx

set_option maxRecDepth 8192

noncomputable section

namespace Cert.Layer3Tail

open Idealize.ShloMosaic Idealize.ShloMosaic.TcCoe Idealize.SL.Sem Idealize.ShloMosaic.StableHlo Idealize.ShloMosaic.ValueIdx

section R
open Cert.ReferenceIdeal Cert.ReferenceIdeal.Facts₀ Cert.ReferenceIdeal.Facts
variable [Cert.ReferenceIdeal.Facts] {F : FTy → Type} [FloatOps F]

/-- Row 1 of the edge table (the destinations), flat: [61440]. -/
def dflatR (ei : IVec S2x61440 32) : IVec S61440 32 :=
  shapeCast S61440 (extractStridedSlice S1x61440 ![1, 0] ei slices_S2x61440_S1x61440_1_0) shapeCasts_S1x61440_S61440

/-- The destinations as the column of index vectors the scatters take: [61440, 1]. -/
def colR (d : IVec S61440 32) : IVec S61440x1 32 :=
  broadcastInDim S61440x1 ![0] bcast_S61440_S61440x1_0 d

/-- The per-node sums: the messages scatter-added into a zero array. -/
def aggR (msg : FVec F S61440x128 .f32) (dst : IVec S61440x1 32) : FVec F S10248x128 .f32 :=
  Host.scatterAdd scatter_S10248x128_S61440x1_S61440x128_1_0_0_1
    (broadcastInDim S10248x128 ![] bcast_S_S10248x128 (constant S_ .f32 0x00000000#32)) dst msg

/-- The divisor max(count, 1) of every node, along the 128 channels: ones scatter-added into a zero vector. -/
def cntR (dst : IVec S61440x1 32) : FVec F S10248x128 .f32 :=
  broadcastInDim S10248x128 ![0, 1] bcast_S10248x1_S10248x128_0_1
    (broadcastInDim S10248x1 ![0] bcast_S10248_S10248x1_0
      (maximumf
        (Host.scatterAdd scatter_S10248_S61440x1_S61440_n_0_0_1
          (broadcastInDim S10248 ![] bcast_S_S10248 (constant S_ .f32 0x00000000#32)) dst
          (broadcastInDim S61440 ![] bcast_S_S61440 (constant S_ .f32 0x3F800000#32)))
        (broadcastInDim S10248 ![] bcast_S_S10248 (constant S_ .f32 0x3F800000#32))))

/-- Mean, root term and bias: `agg / cnt + x · root + bias`. -/
def mixR (agg cnt : FVec F S10248x128 .f32) (x : FVec F S10248x64 .f32) (root : FVec F S64x128 .f32)
    (bias : FVec F S128 .f32) : FVec F S10248x128 .f32 :=
  addf (addf (Host.divf agg cnt) (Host.dotGeneral dot_S10248x64_S64x128_S10248x128_1_0_0_1_n_n none x root))
    (broadcastInDim S10248x128 ![0, 1] bcast_S1x128_S10248x128_0_1 (broadcastInDim S1x128 ![1] bcast_S128_S1x128_1 bias))

/-- `max(y, 0)`. -/
def reluR (y : FVec F S10248x128 .f32) : FVec F S10248x128 .f32 :=
  maximumf y (broadcastInDim S10248x128 ![] bcast_S_S10248x128 (constant S_ .f32 0x00000000#32))

/-- The hexagon pool: as [4, 2562, 128], the maximum over the 7 neighbours the table names (a negative entry wrapped by
    2562), the first 642 nodes of each of the 4 parts kept, as [2568, 128]. -/
def poolR (y : FVec F S10248x128 .f32) (hex : IVec S2562x7 32) : FVec F S2568x128 .f32 :=
  shapeCast S2568x128
    (extractStridedSlice S4x642x128 ![0, 0, 0]
      (Host.reduce FloatOps.maximumf
        (Host.gather gather_S4x2562x128_S2562x7x1_S4x2562x7x128_03_1_n_n_1_2_41128
          (shapeCast S4x2562x128 y shapeCasts_S10248x128_S4x2562x128)
          (broadcastInDim S2562x7x1 ![0, 1] bcast_S2562x7_S2562x7x1_0_1
            (select (cmpi .slt hex (broadcastInDim S2562x7 ![] bcast_S_S2562x7 (constantI S_ 32 0#32)))
              (addi hex (broadcastInDim S2562x7 ![] bcast_S_S2562x7 (constantI S_ 32 2562#32))) hex)))
        (constant S_ .f32 0xFF800000#32) reducesTo_S4x2562x7x128_S4x2562x128_d2 h_S_)
      slices_S4x2562x128_S4x642x128_0_0_0)
    shapeCasts_S4x642x128_S2568x128

/-- The layer's tail as this program spells it, from the messages, the flat destination row, the layer's input and the
    three argument arrays it reads. -/
def bodyR (msg : FVec F S61440x128 .f32) (d : IVec S61440 32) (x : FVec F S10248x64 .f32) (root : FVec F S64x128 .f32)
    (bias : FVec F S128 .f32) (hex : IVec S2562x7 32) : FVec F S2568x128 .f32 :=
  poolR (reluR (mixR (aggR msg (colR d)) (cntR (colR d)) x root bias)) hex

end R

/-! ## The lines compute these functions

The reference's operations around this layer's tail, as four runs in order: `dstOps` (up to the messages: they write the
flat destination row, the layer's input and the messages), `midOps` (the rest of the messages' line), `tailOps` (from
the messages to the pre-activation: `midOps` and what follows it), `poolOps` (relu and the pool). Over ANY contents
before it, each run read at its result is the stage above of those contents' buffers. Stated for any float type. -/

section Lines
variable {F : FTy → Type} [FloatOps F] [Cert.ReferenceIdeal.Facts]

/-- Up to the messages. -/
abbrev dstOps : List (HloOp Cert.ReferenceIdeal.τ Cert.ReferenceIdeal.sig (Elt F)) := Cert.ReferenceIdeal.RefRun.ops2b ++ List.take 9 Cert.ReferenceIdeal.RefRun.ops3a
/-- The rest of the messages' line. -/
abbrev midOps : List (HloOp Cert.ReferenceIdeal.τ Cert.ReferenceIdeal.sig (Elt F)) := List.drop 9 Cert.ReferenceIdeal.RefRun.ops3a
/-- From the messages to the pre-activation. -/
abbrev tailOps : List (HloOp Cert.ReferenceIdeal.τ Cert.ReferenceIdeal.sig (Elt F)) := midOps
/-- Relu and the pool (and the next layer's first operations, which write none of this layer's buffers). -/
abbrev poolOps : List (HloOp Cert.ReferenceIdeal.τ Cert.ReferenceIdeal.sig (Elt F)) := Cert.ReferenceIdeal.RefRun.ops3b

set_option maxHeartbeats 4000000 in
/-- The flat destination row: row 1 of the edge table. -/
theorem r_dst (W : Valuation Cert.ReferenceIdeal.τ Cert.ReferenceIdeal.sig (Elt F)) :
    StableHlo.after dstOps W (Proc.devRef .tc Cert.ReferenceIdeal.main_v127) = dflatR (W (Proc.devRef .tc Cert.ReferenceIdeal.main_arg3)) := by
  chain_rfl

set_option maxHeartbeats 4000000 in
/-- `dstOps` writes none of the three arguments the tail reads. -/
theorem r_dst_args (W : Valuation Cert.ReferenceIdeal.τ Cert.ReferenceIdeal.sig (Elt F)) :
    StableHlo.after dstOps W (Proc.devRef .tc Cert.ReferenceIdeal.main_arg27) = W (Proc.devRef .tc Cert.ReferenceIdeal.main_arg27)
      ∧ StableHlo.after dstOps W (Proc.devRef .tc Cert.ReferenceIdeal.main_arg28) = W (Proc.devRef .tc Cert.ReferenceIdeal.main_arg28)
      ∧ StableHlo.after dstOps W (Proc.devRef .tc Cert.ReferenceIdeal.main_arg11) = W (Proc.devRef .tc Cert.ReferenceIdeal.main_arg11) :=
  ⟨by chain_rfl, by chain_rfl, by chain_rfl⟩

set_option maxHeartbeats 4000000 in
/-- `midOps` writes neither the messages nor the layer's input. -/
theorem r_mid_keep (W : Valuation Cert.ReferenceIdeal.τ Cert.ReferenceIdeal.sig (Elt F)) :
    StableHlo.after midOps W (Proc.devRef .tc Cert.ReferenceIdeal.main_v156) = W (Proc.devRef .tc Cert.ReferenceIdeal.main_v156)
      ∧ StableHlo.after midOps W (Proc.devRef .tc Cert.ReferenceIdeal.main_v123) = W (Proc.devRef .tc Cert.ReferenceIdeal.main_v123) :=
  ⟨by chain_rfl, by chain_rfl⟩

set_option maxHeartbeats 4000000 in
/-- From the messages to the pre-activation: the two scatters, the mean, the root term, the bias. -/
theorem r_mix (W : Valuation Cert.ReferenceIdeal.τ Cert.ReferenceIdeal.sig (Elt F)) :
    StableHlo.after tailOps W (Proc.devRef .tc Cert.ReferenceIdeal.main_v173)
      = mixR (aggR (W (Proc.devRef .tc Cert.ReferenceIdeal.main_v156)) (colR (W (Proc.devRef .tc Cert.ReferenceIdeal.main_v127)))) (cntR (colR (W (Proc.devRef .tc Cert.ReferenceIdeal.main_v127))))
          (W (Proc.devRef .tc Cert.ReferenceIdeal.main_v123)) (W (Proc.devRef .tc Cert.ReferenceIdeal.main_arg27)) (W (Proc.devRef .tc Cert.ReferenceIdeal.main_arg28)) := by
  chain_rfl

set_option maxHeartbeats 4000000 in
/-- `tailOps` does not write the pooling table. -/
theorem r_tail_hex (W : Valuation Cert.ReferenceIdeal.τ Cert.ReferenceIdeal.sig (Elt F)) :
    StableHlo.after tailOps W (Proc.devRef .tc Cert.ReferenceIdeal.main_arg11) = W (Proc.devRef .tc Cert.ReferenceIdeal.main_arg11) := by
  chain_rfl

set_option maxHeartbeats 4000000 in
/-- Relu and the pool. -/
theorem r_pool (W : Valuation Cert.ReferenceIdeal.τ Cert.ReferenceIdeal.sig (Elt F)) :
    StableHlo.after poolOps W (Proc.devRef .tc Cert.ReferenceIdeal.main_v185)
      = poolR (reluR (W (Proc.devRef .tc Cert.ReferenceIdeal.main_v173))) (W (Proc.devRef .tc Cert.ReferenceIdeal.main_arg11)) := by
  after_results
  rfl

end Lines

/-! ## The pooled output -/

section Tail
open Cert.ReferenceIdeal Cert.ReferenceIdeal.RefRun
variable [Cert.ReferenceIdeal.Facts] (m' : (ℓ : Loc nD τ sig) → Buf (Elt Ideal) ℓ) (c : Dev nD)

/-- A reference none of the first 3 lines writes holds its launch contents after them. -/
theorem Vs_of_launch (r : Ref sig .tc) (h1 : r ∉ ops0_W) (h2 : r ∉ ops1_W) (h3 : r ∉ ops2a_W) :
    V3 m' c r = V0 m' c r :=
  (V3_of m' c r h3).trans <| (V2_of m' c r h2).trans (V1_of m' c r h1)

/-- The contents where the messages are final are `midOps` after `dstOps`. -/
theorem v_mid : V5 m' c = StableHlo.after midOps (StableHlo.after dstOps (V3 m' c)) :=
  ((congrArg (fun l => StableHlo.after l (V4 m' c)) (List.take_append_drop 9 ops3a)).symm.trans
    (StableHlo.after_append _ _ _)).trans
    (congrArg (StableHlo.after midOps) (StableHlo.after_append ops2b (List.take 9 ops3a) (V3 m' c)).symm)

/-- The contents before relu and the pool are `tailOps` after `dstOps`. -/
theorem v_pre : V5 m' c = StableHlo.after tailOps (StableHlo.after dstOps (V3 m' c)) :=
  v_mid m' c

/-- THE REFERENCE'S SIDE: its pooled output is its tail of its messages, the edge table, the layer's input and the launch
    arguments. -/
theorem reference_tail :
    (V6 m' c Cert.ReferenceIdeal.main_v185 : FVec Ideal S2568x128 .f32)
      = bodyR (F := Ideal) (V5 m' c Cert.ReferenceIdeal.main_v156) (dflatR (V0 m' c Cert.ReferenceIdeal.main_arg3)) (V5 m' c Cert.ReferenceIdeal.main_v123)
          (V0 m' c Cert.ReferenceIdeal.main_arg27) (V0 m' c Cert.ReferenceIdeal.main_arg28) (V0 m' c Cert.ReferenceIdeal.main_arg11) := by
  have hargs := r_dst_args (F := Ideal) (V3 m' c)
  have hkeep := r_mid_keep (F := Ideal) (StableHlo.after dstOps (V3 m' c))
  have p123 : (V6 m' c Cert.ReferenceIdeal.main_v185 : FVec Ideal S2568x128 .f32)
      = poolR (F := Ideal) (reluR (V5 m' c Cert.ReferenceIdeal.main_v173)) (V5 m' c Cert.ReferenceIdeal.main_arg11) := r_pool (F := Ideal) (V5 m' c)
  have e94 : StableHlo.after dstOps (V3 m' c) (Proc.devRef .tc Cert.ReferenceIdeal.main_v156) = V5 m' c Cert.ReferenceIdeal.main_v156 :=
    hkeep.1.symm.trans (congrFun (v_mid m' c) _).symm
  have e61 : StableHlo.after dstOps (V3 m' c) (Proc.devRef .tc Cert.ReferenceIdeal.main_v123) = V5 m' c Cert.ReferenceIdeal.main_v123 :=
    hkeep.2.symm.trans (congrFun (v_mid m' c) _).symm
  have e65 : StableHlo.after dstOps (V3 m' c) (Proc.devRef .tc Cert.ReferenceIdeal.main_v127) = dflatR (V0 m' c Cert.ReferenceIdeal.main_arg3) :=
    (r_dst (F := Ideal) (V3 m' c)).trans (congrArg dflatR (Vs_of_launch m' c Cert.ReferenceIdeal.main_arg3 (by decide) (by decide) (by decide)))
  have e27 : StableHlo.after dstOps (V3 m' c) (Proc.devRef .tc Cert.ReferenceIdeal.main_arg27) = V0 m' c Cert.ReferenceIdeal.main_arg27 :=
    hargs.1.trans (Vs_of_launch m' c Cert.ReferenceIdeal.main_arg27 (by decide) (by decide) (by decide))
  have e28 : StableHlo.after dstOps (V3 m' c) (Proc.devRef .tc Cert.ReferenceIdeal.main_arg28) = V0 m' c Cert.ReferenceIdeal.main_arg28 :=
    hargs.2.1.trans (Vs_of_launch m' c Cert.ReferenceIdeal.main_arg28 (by decide) (by decide) (by decide))
  have x111 : (V5 m' c Cert.ReferenceIdeal.main_v173 : FVec Ideal S10248x128 .f32)
      = mixR (F := Ideal) (aggR (V5 m' c Cert.ReferenceIdeal.main_v156) (colR (dflatR (V0 m' c Cert.ReferenceIdeal.main_arg3))))
          (cntR (colR (dflatR (V0 m' c Cert.ReferenceIdeal.main_arg3)))) (V5 m' c Cert.ReferenceIdeal.main_v123)
          (V0 m' c Cert.ReferenceIdeal.main_arg27) (V0 m' c Cert.ReferenceIdeal.main_arg28) :=
    (congrFun (v_pre m' c) _).trans
      ((r_mix (F := Ideal) (StableHlo.after dstOps (V3 m' c))).trans (by rw [e94, e61, e65, e27, e28]))
  have a10 : V5 m' c Cert.ReferenceIdeal.main_arg11 = V0 m' c Cert.ReferenceIdeal.main_arg11 :=
    (congrFun (v_pre m' c) _).trans
      ((r_tail_hex (F := Ideal) (StableHlo.after dstOps (V3 m' c))).trans
        (hargs.2.2.trans (Vs_of_launch m' c Cert.ReferenceIdeal.main_arg11 (by decide) (by decide) (by decide))))
  rw [p123, x111, a10]
  rfl

end Tail

end Cert.Layer3Tail

end
-- ==== Proof.Layer3Tail.lean ====
/-
  Layer 3 after the per-edge messages: the two programs' tails are one function. The kernel program scatters the widened
  rows (msg ‖ 1) once and cuts the result into sums and count; the reference scatters the messages and a vector of ones
  separately: the sums agree as arrays and the divisors agree at every node and channel (the scatter laws). Everything
  after the two divisor arrays is the same chain of operations on both sides, stage by stage. If the messages and the
  layer's inputs agree, the pooled outputs agree.
-/
import proofs.«402598_j31782757990676_2_alg».proof.Proof.Layer3TailK
import proofs.«402598_j31782757990676_2_alg».proof.Proof.Layer3TailR
import proofs.«402598_j31782757990676_2_alg».proof.Proof.ScatterLaw
import Idealize.ShloMosaic.Lib.ValueIdx
import Idealize.ShloMosaic.Lib.Pipeline.Value

set_option maxRecDepth 8192

noncomputable section

namespace Cert.Layer3Tail

open Idealize.ShloMosaic Idealize.ShloMosaic.TcCoe Idealize.SL.Sem Idealize.ShloMosaic.StableHlo Idealize.ShloMosaic.ValueIdx

/-! ## The shared stages

Each stage is the same operations in both programs; their shapes, dimension records and shape facts are each program's
own constants, the same literals. Stated for any float type. -/

section Same
variable {F : FTy → Type} [FloatOps F] [Cert.KernelIdeal.Facts] [Cert.ReferenceIdeal.Facts]

set_option maxHeartbeats 4000000 in
theorem dflat_eq (ei : IVec Cert.KernelIdeal.S2x61440 32) : dflatK ei = dflatR ei := by
  chain_rfl

set_option maxHeartbeats 4000000 in
theorem col_eq (d : IVec Cert.KernelIdeal.S61440 32) : colK d = colR d := by
  chain_rfl

set_option maxHeartbeats 4000000 in
theorem mix_eq (agg cnt : FVec F Cert.KernelIdeal.S10248x128 .f32) (x : FVec F Cert.KernelIdeal.S10248x64 .f32) (root : FVec F Cert.KernelIdeal.S64x128 .f32)
    (bias : FVec F Cert.KernelIdeal.S128 .f32) : mixK agg cnt x root bias = mixR agg cnt x root bias := by
  chain_rfl

set_option maxHeartbeats 4000000 in
theorem relu_eq (y : FVec F Cert.KernelIdeal.S10248x128 .f32) : reluK y = reluR y := by
  chain_rfl

set_option maxHeartbeats 4000000 in
theorem pool_eq (y : FVec F Cert.KernelIdeal.S10248x128 .f32) (hex : IVec Cert.KernelIdeal.S2562x7 32) : poolK y hex = poolR y hex := by
  rfl

end Same

/-! ## Sums and divisors: one fused scatter against two -/

section Scatter
variable [Cert.KernelIdeal.Facts] [Cert.ReferenceIdeal.Facts]

/-- The sums: the fused scatter's first 128 columns are the wide scatter of the messages. -/
theorem agg_eq (msg : FVec Ideal Cert.KernelIdeal.S61440x128 .f32) (dst : IVec Cert.KernelIdeal.S61440x1 32) :
    aggK (F := Ideal) msg dst = aggR (F := Ideal) msg dst :=
  Cert.ScatterLaw.aggregate4 msg dst

/-- The divisors: at every node and channel, max(count, 1), the count read off the fused scatter's last column or off
    the scatter of ones. -/
theorem cnt_eq (msg : FVec Ideal Cert.KernelIdeal.S61440x128 .f32) (dst : IVec Cert.KernelIdeal.S61440x1 32) :
    cntK (F := Ideal) msg dst = cntR (F := Ideal) dst := by
  funext j
  obtain ⟨n, ch, rfl⟩ : ∃ (n : Fin 10248) (ch : Fin 128), j = ix2 n ch := ⟨j 0, j 1, eq_ix2 j⟩
  have hk1 : ∀ a : Fin Cert.KernelIdeal.S10248x1.rank, ((ix2 n (0 : Fin 1) : Cert.KernelIdeal.S10248x1.Idx) a).val
      = if Cert.KernelIdeal.S10248x1.size a = 1 then 0
        else ((ix2 n ch : Cert.KernelIdeal.S10248x128.Idx) ((![0, 1] : Fin Cert.KernelIdeal.S10248x1.rank → Fin Cert.KernelIdeal.S10248x128.rank) a)).val := fun a => by
    match a with
    | ⟨0, _⟩ => exact (if_neg (by decide : ¬ ((10248 : Nat) = 1))).symm
    | ⟨1, _⟩ => exact (if_pos rfl).symm
  have hk2 : ∀ a : Fin Cert.ReferenceIdeal.S10248.rank, ((ix1 n : Cert.ReferenceIdeal.S10248.Idx) a).val
      = if Cert.ReferenceIdeal.S10248.size a = 1 then 0
        else ((ix2 n (0 : Fin 1) : Cert.ReferenceIdeal.S10248x1.Idx) ((![0] : Fin Cert.ReferenceIdeal.S10248.rank → Fin Cert.ReferenceIdeal.S10248x1.rank) a)).val := fun a => by
    match a with
    | ⟨0, _⟩ => exact (if_neg (by decide : ¬ ((10248 : Nat) = 1))).symm
  unfold cntK cntR fusedK
  refine Eq.trans (broadcastInDim_apply _ _ _ _ (ix2 n (0 : Fin 1)) hk1) ?_
  refine Eq.trans ?_ (broadcastInDim_apply _ _ _ _ (ix2 n (0 : Fin 1)) hk1).symm
  refine Eq.trans ?_ (broadcastInDim_apply _ _ _ _ (ix1 n) hk2).symm
  rw [maximumf_apply, maximumf_apply, Cert.ScatterLaw.count4 msg dst n]
  rfl

end Scatter

/-! ## The layer's tail -/

section Tail
variable [Cert.ReferenceIdeal.Facts]

/-- The two programs' tails agree on equal inputs. -/
theorem body_eq (msg : FVec Ideal Cert.KernelIdeal.S61440x128 .f32) (ei : IVec Cert.KernelIdeal.S2x61440 32) (x : FVec Ideal Cert.KernelIdeal.S10248x64 .f32)
    (root : FVec Ideal Cert.KernelIdeal.S64x128 .f32) (bias : FVec Ideal Cert.KernelIdeal.S128 .f32) (hex : IVec Cert.KernelIdeal.S2562x7 32) :
    bodyK (F := Ideal) msg (dflatK ei) x root bias hex = bodyR (F := Ideal) msg (dflatR ei) x root bias hex := by
  unfold bodyK bodyR
  rw [dflat_eq, col_eq, agg_eq, cnt_eq, mix_eq, relu_eq, pool_eq]

/-- LAYER 3'S TAIL: from memories agreeing on the four arrays the tail reads, if the layer's inputs and the messages
    agree then the pooled outputs agree. -/
theorem layer3_tail
    (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD)
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (h28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28))
    (hx : (Cert.KernelIdeal.Gen.V15 m outs c Cert.KernelIdeal.main_v79 : FVec Ideal Cert.KernelIdeal.S10248x64 .f32)
      = Cert.ReferenceIdeal.RefRun.V4 m' c Cert.ReferenceIdeal.main_v123)
    (hmsg : (outs 16 Cert.KernelIdeal.main_v91 c : FVec Ideal Cert.KernelIdeal.S61440x128 .f32)
      = Cert.ReferenceIdeal.RefRun.V5 m' c Cert.ReferenceIdeal.main_v156) :
    (Cert.KernelIdeal.Gen.V21 m outs c Cert.KernelIdeal.main_v119 : FVec Ideal Cert.KernelIdeal.S2568x128 .f32)
      = Cert.ReferenceIdeal.RefRun.V6 m' c Cert.ReferenceIdeal.main_v185 := by
  have e3 : Cert.KernelIdeal.Gen.V0 m c Cert.KernelIdeal.main_arg3 = Cert.ReferenceIdeal.RefRun.V0 m' c Cert.ReferenceIdeal.main_arg3 := h3.symm
  have e11 : Cert.KernelIdeal.Gen.V0 m c Cert.KernelIdeal.main_arg11 = Cert.ReferenceIdeal.RefRun.V0 m' c Cert.ReferenceIdeal.main_arg11 := h11.symm
  have e27 : Cert.KernelIdeal.Gen.V0 m c Cert.KernelIdeal.main_arg27 = Cert.ReferenceIdeal.RefRun.V0 m' c Cert.ReferenceIdeal.main_arg27 := h27.symm
  have e28 : Cert.KernelIdeal.Gen.V0 m c Cert.KernelIdeal.main_arg28 = Cert.ReferenceIdeal.RefRun.V0 m' c Cert.ReferenceIdeal.main_arg28 := h28.symm
  have hx' : (Cert.KernelIdeal.Gen.V15 m outs c Cert.KernelIdeal.main_v79 : FVec Ideal Cert.KernelIdeal.S10248x64 .f32)
      = Cert.ReferenceIdeal.RefRun.V5 m' c Cert.ReferenceIdeal.main_v123 :=
    hx.trans (Cert.ReferenceIdeal.RefRun.V5_of m' c _ (by decide)).symm
  rw [kernel_tail, reference_tail, hmsg, hx', e3, e11, e27, e28]
  exact body_eq _ _ _ _ _ _

end Tail

end Cert.Layer3Tail

end
-- ==== Proof.Layer4TailK.lean ====
/-
  Layer 4 after the per-edge messages, the kernel program's half: scatter-add of the widened rows (msg ‖ 1) by
  destination, cut into per-node sums and count; the mean agg / max(cnt, 1); the root term x · root (x the previous
  layer's pooled output); the bias; relu; the hexagon max-pool to the next level's 648 rows. The program's pooled
  output is this function of the region's messages, the edge table, the layer's input and three argument arrays.
-/
import proofs.«402598_j31782757990676_2_alg».proof.Proof.Gen.KernelIdeal.Regions
import proofs.«402598_j31782757990676_2_alg».proof.Proof.KHost4
import Idealize.ShloMosaic.Lib.StableHlo.Run
import Idealize.ShloMosaic.Lib.ValueIdx

set_option maxRecDepth 8192

noncomputable section

namespace Cert.Layer4Tail

open Idealize.ShloMosaic Idealize.ShloMosaic.TcCoe Idealize.SL.Sem Idealize.ShloMosaic.StableHlo Idealize.ShloMosaic.ValueIdx

section K
open Cert.KernelIdeal Cert.KernelIdeal.Facts₀ Cert.KernelIdeal.Facts
variable [Cert.KernelIdeal.Facts] {F : FTy → Type} [FloatOps F]

/-- Row 1 of the edge table (the destinations), flat: [15360]. -/
def dflatK (ei : IVec S2x15360 32) : IVec S15360 32 :=
  shapeCast S15360 (extractStridedSlice S1x15360 ![1, 0] ei slices_S2x15360_S1x15360_1_0) shapeCasts_S1x15360_S15360

/-- The destinations as the column of index vectors the scatters take: [15360, 1]. -/
def colK (d : IVec S15360 32) : IVec S15360x1 32 :=
  broadcastInDim S15360x1 ![0] bcast_S15360_S15360x1_0 d

/-- The one scatter-add of the widened rows (msg ‖ 1) into a zero array of 257 columns. -/
def fusedK (msg : FVec F S15360x256 .f32) (dst : IVec S15360x1 32) : FVec F S2568x257 .f32 :=
  Host.scatterAdd scatter_S2568x257_S15360x1_S15360x257_1_0_0_1
    (broadcastInDim S2568x257 ![] bcast_S_S2568x257 (constant S_ .f32 0x00000000#32))
    dst
    (concatenate S15360x257 1
      [⟨S15360x256, msg⟩,
       ⟨S15360x1, broadcastInDim S15360x1 ![] bcast_S_S15360x1 (constant S_ .f32 0x3F800000#32)⟩]
      concatenates_S15360x256_S15360x1_S15360x257_d1)

/-- The per-node sums: the first 256 columns of the fused scatter. -/
def aggK (msg : FVec F S15360x256 .f32) (dst : IVec S15360x1 32) : FVec F S2568x256 .f32 :=
  extractStridedSlice S2568x256 ![0, 0] (fusedK msg dst) slices_S2568x257_S2568x256_0_0

/-- The divisor max(count, 1) of every node, along the 256 channels: the last column of the fused scatter. -/
def cntK (msg : FVec F S15360x256 .f32) (dst : IVec S15360x1 32) : FVec F S2568x256 .f32 :=
  broadcastInDim S2568x256 ![0, 1] bcast_S2568x1_S2568x256_0_1
    (maximumf (extractStridedSlice S2568x1 ![0, 256] (fusedK msg dst) slices_S2568x257_S2568x1_0_256)
      (broadcastInDim S2568x1 ![] bcast_S_S2568x1 (constant S_ .f32 0x3F800000#32)))

/-- Mean, root term and bias: `agg / cnt + x · root + bias`. -/
def mixK (agg cnt : FVec F S2568x256 .f32) (x : FVec F S2568x128 .f32) (root : FVec F S128x256 .f32)
    (bias : FVec F S256 .f32) : FVec F S2568x256 .f32 :=
  addf (addf (Host.divf agg cnt) (Host.dotGeneral dot_S2568x128_S128x256_S2568x256_1_0_0_1_n_n none x root))
    (broadcastInDim S2568x256 ![0, 1] bcast_S1x256_S2568x256_0_1 (broadcastInDim S1x256 ![1] bcast_S256_S1x256_1 bias))

/-- `max(y, 0)`. -/
def reluK (y : FVec F S2568x256 .f32) : FVec F S2568x256 .f32 :=
  maximumf y (broadcastInDim S2568x256 ![] bcast_S_S2568x256 (constant S_ .f32 0x00000000#32))

/-- The hexagon pool: as [4, 642, 256], the maximum over the 7 neighbours the table names (a negative entry wrapped by
    642), the first 162 nodes of each of the 4 parts kept, as [648, 256]. -/
def poolK (y : FVec F S2568x256 .f32) (hex : IVec S642x7 32) : FVec F S648x256 .f32 :=
  shapeCast S648x256
    (extractStridedSlice S4x162x256 ![0, 0, 0]
      (Host.reduce FloatOps.maximumf
        (Host.gather gather_S4x642x256_S642x7x1_S4x642x7x256_03_1_n_n_1_2_41256
          (shapeCast S4x642x256 y shapeCasts_S2568x256_S4x642x256)
          (broadcastInDim S642x7x1 ![0, 1] bcast_S642x7_S642x7x1_0_1
            (select (cmpi .slt hex (broadcastInDim S642x7 ![] bcast_S_S642x7 (constantI S_ 32 0#32)))
              (addi hex (broadcastInDim S642x7 ![] bcast_S_S642x7 (constantI S_ 32 642#32))) hex)))
        (constant S_ .f32 0xFF800000#32) reducesTo_S4x642x7x256_S4x642x256_d2 h_S_)
      slices_S4x642x256_S4x162x256_0_0_0)
    shapeCasts_S4x162x256_S648x256

/-- The layer's tail as this program spells it, from the messages, the flat destination row, the layer's input and the
    three argument arrays it reads. -/
def bodyK (msg : FVec F S15360x256 .f32) (d : IVec S15360 32) (x : FVec F S2568x128 .f32) (root : FVec F S128x256 .f32)
    (bias : FVec F S256 .f32) (hex : IVec S642x7 32) : FVec F S648x256 .f32 :=
  poolK (reluK (mixK (aggK msg (colK d)) (cntK msg (colK d)) x root bias)) hex

end K

/-! ## The host lines compute these functions

Over ANY contents `W` before it, each host line read at its result is the stage above of `W`'s buffers. Stated for
any float type. -/

section Lines
variable {F : FTy → Type} [FloatOps F] [Cert.KernelIdeal.Facts]

set_option maxHeartbeats 4000000 in
/-- The earlier pooling line also writes the flat destination row: row 1 of `W`'s edge table. -/
theorem k_dst (W : Valuation Cert.KernelIdeal.τ Cert.KernelIdeal.sig (Elt F)) :
    StableHlo.after Cert.KernelIdeal.Gen.hostOps3_2 W (Proc.devRef .tc Cert.KernelIdeal.main_v123) = dflatK (W (Proc.devRef .tc Cert.KernelIdeal.main_arg4)) := by
  chain_rfl

set_option maxHeartbeats 4000000 in
/-- The line after the region: scatter, mean, root term, bias. -/
theorem k_mix (W : Valuation Cert.KernelIdeal.τ Cert.KernelIdeal.sig (Elt F)) :
    StableHlo.after Cert.KernelIdeal.Gen.hostOps4 W (Proc.devRef .tc Cert.KernelIdeal.main_v147)
      = mixK (aggK (W (Proc.devRef .tc Cert.KernelIdeal.main_v131)) (colK (W (Proc.devRef .tc Cert.KernelIdeal.main_v123)))) (cntK (W (Proc.devRef .tc Cert.KernelIdeal.main_v131)) (colK (W (Proc.devRef .tc Cert.KernelIdeal.main_v123))))
          (W (Proc.devRef .tc Cert.KernelIdeal.main_v119)) (W (Proc.devRef .tc Cert.KernelIdeal.main_arg32)) (W (Proc.devRef .tc Cert.KernelIdeal.main_arg33)) := by
  chain_rfl

set_option maxHeartbeats 4000000 in
/-- The relu line. -/
theorem k_relu (W : Valuation Cert.KernelIdeal.τ Cert.KernelIdeal.sig (Elt F)) :
    StableHlo.after Cert.KernelIdeal.Gen.hostOps4_1 W (Proc.devRef .tc Cert.KernelIdeal.main_v148) = reluK (W (Proc.devRef .tc Cert.KernelIdeal.main_v147)) := by
  chain_rfl

set_option maxHeartbeats 4000000 in
/-- The pooling line. -/
theorem k_pool (W : Valuation Cert.KernelIdeal.τ Cert.KernelIdeal.sig (Elt F)) :
    StableHlo.after Cert.KernelIdeal.Gen.hostOps4_2 W (Proc.devRef .tc Cert.KernelIdeal.main_v159) = poolK (W (Proc.devRef .tc Cert.KernelIdeal.main_v148)) (W (Proc.devRef .tc Cert.KernelIdeal.main_arg12)) := by
  after_results
  rfl

end Lines

/-! ## The pooled output -/

section Tail
open Cert.KernelIdeal Cert.KernelIdeal.Gen

/-- THE KERNEL PROGRAM'S SIDE: its pooled output is its tail of the region's messages, the edge table, the layer's input
    as region 3 was entered, and the launch arguments. -/
theorem kernel_tail (m : (ℓ : Loc nD τ sig) → Buf (Elt Ideal) ℓ) (outs : Outs (F := Ideal)) (c : Dev nD) :
    (V27 m outs c Cert.KernelIdeal.main_v159 : FVec Ideal S648x256 .f32)
      = bodyK (F := Ideal) (outs 22 Cert.KernelIdeal.main_v131 c) (dflatK (V0 m c Cert.KernelIdeal.main_arg4)) (V21 m outs c Cert.KernelIdeal.main_v119)
          (V0 m c Cert.KernelIdeal.main_arg32) (V0 m c Cert.KernelIdeal.main_arg33) (V0 m c Cert.KernelIdeal.main_arg12) := by
  have e79 : V27 m outs c Cert.KernelIdeal.main_v159 = V25 m outs c Cert.KernelIdeal.main_v159 :=
    (V27_of m outs c _ (by decide)).trans (V26_of m outs c _ (by decide))
  have p79 : (V25 m outs c Cert.KernelIdeal.main_v159 : FVec Ideal S648x256 .f32)
      = poolK (F := Ideal) (V24 m outs c Cert.KernelIdeal.main_v148) (V24 m outs c Cert.KernelIdeal.main_arg12) := k_pool (F := Ideal) (V24 m outs c)
  have r68 : (V24 m outs c Cert.KernelIdeal.main_v148 : FVec Ideal S2568x256 .f32) = reluK (F := Ideal) (V23 m outs c Cert.KernelIdeal.main_v147) :=
    k_relu (F := Ideal) (V23 m outs c)
  have x67 : (V23 m outs c Cert.KernelIdeal.main_v147 : FVec Ideal S2568x256 .f32)
      = mixK (F := Ideal) (aggK (V22 m outs c Cert.KernelIdeal.main_v131) (colK (V22 m outs c Cert.KernelIdeal.main_v123)))
          (cntK (V22 m outs c Cert.KernelIdeal.main_v131) (colK (V22 m outs c Cert.KernelIdeal.main_v123)))
          (V22 m outs c Cert.KernelIdeal.main_v119) (V22 m outs c Cert.KernelIdeal.main_arg32) (V22 m outs c Cert.KernelIdeal.main_arg33) :=
    k_mix (F := Ideal) (V22 m outs c)
  have m51 : V22 m outs c Cert.KernelIdeal.main_v131 = outs 22 Cert.KernelIdeal.main_v131 c := Function.update_self _ _ _
  have x39 : V22 m outs c Cert.KernelIdeal.main_v119 = V21 m outs c Cert.KernelIdeal.main_v119 := V22_of m outs c _ (by decide)
  have d43 : (V22 m outs c Cert.KernelIdeal.main_v123 : IVec S15360 32) = dflatK (V0 m c Cert.KernelIdeal.main_arg4) :=
    (V22_of m outs c _ (by decide)).trans <| (V21_of m outs c _ (by decide)).trans <| (V20_of m outs c _ (by decide)).trans <|
      (k_dst (F := Ideal) (V18 m outs c)).trans
        (congrArg dflatK (Cert.KernelIdeal.KHost4.V18_of_launch m outs c Cert.KernelIdeal.main_arg4 (by decide) (by decide) (by decide) (by decide) (by decide) (by decide) (by decide) (by decide) (by decide) (by decide) (by decide) (by decide) (by decide) (by decide) (by decide) (by decide) (by decide) (by decide)))
  have a22 : V22 m outs c Cert.KernelIdeal.main_arg32 = V0 m c Cert.KernelIdeal.main_arg32 :=
    (V22_of m outs c _ (by decide)).trans (Cert.KernelIdeal.KHost4.V21_of_launch m outs c Cert.KernelIdeal.main_arg32 (by decide) (by decide) (by decide) (by decide) (by decide) (by decide) (by decide) (by decide) (by decide) (by decide) (by decide) (by decide) (by decide) (by decide) (by decide) (by decide) (by decide) (by decide) (by decide) (by decide) (by decide))
  have a23 : V22 m outs c Cert.KernelIdeal.main_arg33 = V0 m c Cert.KernelIdeal.main_arg33 :=
    (V22_of m outs c _ (by decide)).trans (Cert.KernelIdeal.KHost4.V21_of_launch m outs c Cert.KernelIdeal.main_arg33 (by decide) (by decide) (by decide) (by decide) (by decide) (by decide) (by decide) (by decide) (by decide) (by decide) (by decide) (by decide) (by decide) (by decide) (by decide) (by decide) (by decide) (by decide) (by decide) (by decide) (by decide))
  have a10 : V24 m outs c Cert.KernelIdeal.main_arg12 = V0 m c Cert.KernelIdeal.main_arg12 :=
    (V24_of m outs c _ (by decide)).trans <| (V23_of m outs c _ (by decide)).trans <| (V22_of m outs c _ (by decide)).trans
      (Cert.KernelIdeal.KHost4.V21_of_launch m outs c Cert.KernelIdeal.main_arg12 (by decide) (by decide) (by decide) (by decide) (by decide) (by decide) (by decide) (by decide) (by decide) (by decide) (by decide) (by decide) (by decide) (by decide) (by decide) (by decide) (by decide) (by decide) (by decide) (by decide) (by decide))
  rw [e79, p79, r68, x67, m51, x39, d43, a22, a23, a10]
  rfl

end Tail

end Cert.Layer4Tail

end
-- ==== Proof.Layer4TailR.lean ====
/-
  Layer 4 after the per-edge messages, the reference's half: the messages and a vector of ones scatter-added by
  destination into per-node sums and counts; the mean agg / max(cnt, 1); the root term x · root (x the previous layer's
  pooled output); the bias; relu; the hexagon max-pool to the next level's 648 rows. The reference's pooled output is
  this function of its messages, the edge table, the layer's input and three argument arrays.
-/
import proofs.«402598_j31782757990676_2_alg».proof.Proof.RefRun
import Idealize.ShloMosaic.Lib.StableHlo.Run
import Idealize.ShloMosaic.Lib.Pipeline.Frame
import Idealize.ShloMosaic.Lib.Pipeline.Regions
import Idealize.ShloMosaic.Lib.ValueIdx

set_option maxRecDepth 8192

noncomputable section

namespace Cert.Layer4Tail

open Idealize.ShloMosaic Idealize.ShloMosaic.TcCoe Idealize.SL.Sem Idealize.ShloMosaic.StableHlo Idealize.ShloMosaic.ValueIdx

section R
open Cert.ReferenceIdeal Cert.ReferenceIdeal.Facts₀ Cert.ReferenceIdeal.Facts
variable [Cert.ReferenceIdeal.Facts] {F : FTy → Type} [FloatOps F]

/-- Row 1 of the edge table (the destinations), flat: [15360]. -/
def dflatR (ei : IVec S2x15360 32) : IVec S15360 32 :=
  shapeCast S15360 (extractStridedSlice S1x15360 ![1, 0] ei slices_S2x15360_S1x15360_1_0) shapeCasts_S1x15360_S15360

/-- The destinations as the column of index vectors the scatters take: [15360, 1]. -/
def colR (d : IVec S15360 32) : IVec S15360x1 32 :=
  broadcastInDim S15360x1 ![0] bcast_S15360_S15360x1_0 d

/-- The per-node sums: the messages scatter-added into a zero array. -/
def aggR (msg : FVec F S15360x256 .f32) (dst : IVec S15360x1 32) : FVec F S2568x256 .f32 :=
  Host.scatterAdd scatter_S2568x256_S15360x1_S15360x256_1_0_0_1
    (broadcastInDim S2568x256 ![] bcast_S_S2568x256 (constant S_ .f32 0x00000000#32)) dst msg

/-- The divisor max(count, 1) of every node, along the 256 channels: ones scatter-added into a zero vector. -/
def cntR (dst : IVec S15360x1 32) : FVec F S2568x256 .f32 :=
  broadcastInDim S2568x256 ![0, 1] bcast_S2568x1_S2568x256_0_1
    (broadcastInDim S2568x1 ![0] bcast_S2568_S2568x1_0
      (maximumf
        (Host.scatterAdd scatter_S2568_S15360x1_S15360_n_0_0_1
          (broadcastInDim S2568 ![] bcast_S_S2568 (constant S_ .f32 0x00000000#32)) dst
          (broadcastInDim S15360 ![] bcast_S_S15360 (constant S_ .f32 0x3F800000#32)))
        (broadcastInDim S2568 ![] bcast_S_S2568 (constant S_ .f32 0x3F800000#32))))

/-- Mean, root term and bias: `agg / cnt + x · root + bias`. -/
def mixR (agg cnt : FVec F S2568x256 .f32) (x : FVec F S2568x128 .f32) (root : FVec F S128x256 .f32)
    (bias : FVec F S256 .f32) : FVec F S2568x256 .f32 :=
  addf (addf (Host.divf agg cnt) (Host.dotGeneral dot_S2568x128_S128x256_S2568x256_1_0_0_1_n_n none x root))
    (broadcastInDim S2568x256 ![0, 1] bcast_S1x256_S2568x256_0_1 (broadcastInDim S1x256 ![1] bcast_S256_S1x256_1 bias))

/-- `max(y, 0)`. -/
def reluR (y : FVec F S2568x256 .f32) : FVec F S2568x256 .f32 :=
  maximumf y (broadcastInDim S2568x256 ![] bcast_S_S2568x256 (constant S_ .f32 0x00000000#32))

/-- The hexagon pool: as [4, 642, 256], the maximum over the 7 neighbours the table names (a negative entry wrapped by
    642), the first 162 nodes of each of the 4 parts kept, as [648, 256]. -/
def poolR (y : FVec F S2568x256 .f32) (hex : IVec S642x7 32) : FVec F S648x256 .f32 :=
  shapeCast S648x256
    (extractStridedSlice S4x162x256 ![0, 0, 0]
      (Host.reduce FloatOps.maximumf
        (Host.gather gather_S4x642x256_S642x7x1_S4x642x7x256_03_1_n_n_1_2_41256
          (shapeCast S4x642x256 y shapeCasts_S2568x256_S4x642x256)
          (broadcastInDim S642x7x1 ![0, 1] bcast_S642x7_S642x7x1_0_1
            (select (cmpi .slt hex (broadcastInDim S642x7 ![] bcast_S_S642x7 (constantI S_ 32 0#32)))
              (addi hex (broadcastInDim S642x7 ![] bcast_S_S642x7 (constantI S_ 32 642#32))) hex)))
        (constant S_ .f32 0xFF800000#32) reducesTo_S4x642x7x256_S4x642x256_d2 h_S_)
      slices_S4x642x256_S4x162x256_0_0_0)
    shapeCasts_S4x162x256_S648x256

/-- The layer's tail as this program spells it, from the messages, the flat destination row, the layer's input and the
    three argument arrays it reads. -/
def bodyR (msg : FVec F S15360x256 .f32) (d : IVec S15360 32) (x : FVec F S2568x128 .f32) (root : FVec F S128x256 .f32)
    (bias : FVec F S256 .f32) (hex : IVec S642x7 32) : FVec F S648x256 .f32 :=
  poolR (reluR (mixR (aggR msg (colR d)) (cntR (colR d)) x root bias)) hex

end R

/-! ## The lines compute these functions

The reference's operations around this layer's tail, as four runs in order: `dstOps` (up to the messages: they write the
flat destination row, the layer's input and the messages), `midOps` (the rest of the messages' line), `tailOps` (from
the messages to the pre-activation: `midOps` and what follows it), `poolOps` (relu and the pool). Over ANY contents
before it, each run read at its result is the stage above of those contents' buffers. Stated for any float type. -/

section Lines
variable {F : FTy → Type} [FloatOps F] [Cert.ReferenceIdeal.Facts]

/-- Up to the messages. -/
abbrev dstOps : List (HloOp Cert.ReferenceIdeal.τ Cert.ReferenceIdeal.sig (Elt F)) := Cert.ReferenceIdeal.RefRun.ops3b ++ List.take 24 Cert.ReferenceIdeal.RefRun.ops4a
/-- The rest of the messages' line. -/
abbrev midOps : List (HloOp Cert.ReferenceIdeal.τ Cert.ReferenceIdeal.sig (Elt F)) := List.drop 24 Cert.ReferenceIdeal.RefRun.ops4a
/-- From the messages to the pre-activation. -/
abbrev tailOps : List (HloOp Cert.ReferenceIdeal.τ Cert.ReferenceIdeal.sig (Elt F)) := midOps
/-- Relu and the pool (and the next layer's first operations, which write none of this layer's buffers). -/
abbrev poolOps : List (HloOp Cert.ReferenceIdeal.τ Cert.ReferenceIdeal.sig (Elt F)) := Cert.ReferenceIdeal.RefRun.ops4b

set_option maxHeartbeats 4000000 in
/-- The flat destination row: row 1 of the edge table. -/
theorem r_dst (W : Valuation Cert.ReferenceIdeal.τ Cert.ReferenceIdeal.sig (Elt F)) :
    StableHlo.after dstOps W (Proc.devRef .tc Cert.ReferenceIdeal.main_v189) = dflatR (W (Proc.devRef .tc Cert.ReferenceIdeal.main_arg4)) := by
  chain_rfl

set_option maxHeartbeats 4000000 in
/-- `dstOps` writes none of the three arguments the tail reads. -/
theorem r_dst_args (W : Valuation Cert.ReferenceIdeal.τ Cert.ReferenceIdeal.sig (Elt F)) :
    StableHlo.after dstOps W (Proc.devRef .tc Cert.ReferenceIdeal.main_arg32) = W (Proc.devRef .tc Cert.ReferenceIdeal.main_arg32)
      ∧ StableHlo.after dstOps W (Proc.devRef .tc Cert.ReferenceIdeal.main_arg33) = W (Proc.devRef .tc Cert.ReferenceIdeal.main_arg33)
      ∧ StableHlo.after dstOps W (Proc.devRef .tc Cert.ReferenceIdeal.main_arg12) = W (Proc.devRef .tc Cert.ReferenceIdeal.main_arg12) :=
  ⟨by chain_rfl, by chain_rfl, by chain_rfl⟩

set_option maxHeartbeats 4000000 in
/-- `midOps` writes neither the messages nor the layer's input. -/
theorem r_mid_keep (W : Valuation Cert.ReferenceIdeal.τ Cert.ReferenceIdeal.sig (Elt F)) :
    StableHlo.after midOps W (Proc.devRef .tc Cert.ReferenceIdeal.main_v218) = W (Proc.devRef .tc Cert.ReferenceIdeal.main_v218)
      ∧ StableHlo.after midOps W (Proc.devRef .tc Cert.ReferenceIdeal.main_v185) = W (Proc.devRef .tc Cert.ReferenceIdeal.main_v185) :=
  ⟨by chain_rfl, by chain_rfl⟩

set_option maxHeartbeats 4000000 in
/-- From the messages to the pre-activation: the two scatters, the mean, the root term, the bias. -/
theorem r_mix (W : Valuation Cert.ReferenceIdeal.τ Cert.ReferenceIdeal.sig (Elt F)) :
    StableHlo.after tailOps W (Proc.devRef .tc Cert.ReferenceIdeal.main_v235)
      = mixR (aggR (W (Proc.devRef .tc Cert.ReferenceIdeal.main_v218)) (colR (W (Proc.devRef .tc Cert.ReferenceIdeal.main_v189)))) (cntR (colR (W (Proc.devRef .tc Cert.ReferenceIdeal.main_v189))))
          (W (Proc.devRef .tc Cert.ReferenceIdeal.main_v185)) (W (Proc.devRef .tc Cert.ReferenceIdeal.main_arg32)) (W (Proc.devRef .tc Cert.ReferenceIdeal.main_arg33)) := by
  chain_rfl

set_option maxHeartbeats 4000000 in
/-- `tailOps` does not write the pooling table. -/
theorem r_tail_hex (W : Valuation Cert.ReferenceIdeal.τ Cert.ReferenceIdeal.sig (Elt F)) :
    StableHlo.after tailOps W (Proc.devRef .tc Cert.ReferenceIdeal.main_arg12) = W (Proc.devRef .tc Cert.ReferenceIdeal.main_arg12) := by
  chain_rfl

set_option maxHeartbeats 4000000 in
/-- Relu and the pool. -/
theorem r_pool (W : Valuation Cert.ReferenceIdeal.τ Cert.ReferenceIdeal.sig (Elt F)) :
    StableHlo.after poolOps W (Proc.devRef .tc Cert.ReferenceIdeal.main_v247)
      = poolR (reluR (W (Proc.devRef .tc Cert.ReferenceIdeal.main_v235))) (W (Proc.devRef .tc Cert.ReferenceIdeal.main_arg12)) := by
  after_results
  rfl

end Lines

/-! ## The pooled output -/

section Tail
open Cert.ReferenceIdeal Cert.ReferenceIdeal.RefRun
variable [Cert.ReferenceIdeal.Facts] (m' : (ℓ : Loc nD τ sig) → Buf (Elt Ideal) ℓ) (c : Dev nD)

/-- A reference none of the first 5 lines writes holds its launch contents after them. -/
theorem Vs_of_launch (r : Ref sig .tc) (h1 : r ∉ ops0_W) (h2 : r ∉ ops1_W) (h3 : r ∉ ops2a_W) (h4 : r ∉ ops2b_W) (h5 : r ∉ ops3a_W) :
    V5 m' c r = V0 m' c r :=
  (V5_of m' c r h5).trans <| (V4_of m' c r h4).trans <| (V3_of m' c r h3).trans <| (V2_of m' c r h2).trans (V1_of m' c r h1)

/-- The contents where the messages are final are `midOps` after `dstOps`. -/
theorem v_mid : V7 m' c = StableHlo.after midOps (StableHlo.after dstOps (V5 m' c)) :=
  ((congrArg (fun l => StableHlo.after l (V6 m' c)) (List.take_append_drop 24 ops4a)).symm.trans
    (StableHlo.after_append _ _ _)).trans
    (congrArg (StableHlo.after midOps) (StableHlo.after_append ops3b (List.take 24 ops4a) (V5 m' c)).symm)

/-- The contents before relu and the pool are `tailOps` after `dstOps`. -/
theorem v_pre : V7 m' c = StableHlo.after tailOps (StableHlo.after dstOps (V5 m' c)) :=
  v_mid m' c

/-- THE REFERENCE'S SIDE: its pooled output is its tail of its messages, the edge table, the layer's input and the launch
    arguments. -/
theorem reference_tail :
    (V8 m' c Cert.ReferenceIdeal.main_v247 : FVec Ideal S648x256 .f32)
      = bodyR (F := Ideal) (V7 m' c Cert.ReferenceIdeal.main_v218) (dflatR (V0 m' c Cert.ReferenceIdeal.main_arg4)) (V7 m' c Cert.ReferenceIdeal.main_v185)
          (V0 m' c Cert.ReferenceIdeal.main_arg32) (V0 m' c Cert.ReferenceIdeal.main_arg33) (V0 m' c Cert.ReferenceIdeal.main_arg12) := by
  have hargs := r_dst_args (F := Ideal) (V5 m' c)
  have hkeep := r_mid_keep (F := Ideal) (StableHlo.after dstOps (V5 m' c))
  have p123 : (V8 m' c Cert.ReferenceIdeal.main_v247 : FVec Ideal S648x256 .f32)
      = poolR (F := Ideal) (reluR (V7 m' c Cert.ReferenceIdeal.main_v235)) (V7 m' c Cert.ReferenceIdeal.main_arg12) := r_pool (F := Ideal) (V7 m' c)
  have e94 : StableHlo.after dstOps (V5 m' c) (Proc.devRef .tc Cert.ReferenceIdeal.main_v218) = V7 m' c Cert.ReferenceIdeal.main_v218 :=
    hkeep.1.symm.trans (congrFun (v_mid m' c) _).symm
  have e61 : StableHlo.after dstOps (V5 m' c) (Proc.devRef .tc Cert.ReferenceIdeal.main_v185) = V7 m' c Cert.ReferenceIdeal.main_v185 :=
    hkeep.2.symm.trans (congrFun (v_mid m' c) _).symm
  have e65 : StableHlo.after dstOps (V5 m' c) (Proc.devRef .tc Cert.ReferenceIdeal.main_v189) = dflatR (V0 m' c Cert.ReferenceIdeal.main_arg4) :=
    (r_dst (F := Ideal) (V5 m' c)).trans (congrArg dflatR (Vs_of_launch m' c Cert.ReferenceIdeal.main_arg4 (by decide) (by decide) (by decide) (by decide) (by decide)))
  have e32 : StableHlo.after dstOps (V5 m' c) (Proc.devRef .tc Cert.ReferenceIdeal.main_arg32) = V0 m' c Cert.ReferenceIdeal.main_arg32 :=
    hargs.1.trans (Vs_of_launch m' c Cert.ReferenceIdeal.main_arg32 (by decide) (by decide) (by decide) (by decide) (by decide))
  have e33 : StableHlo.after dstOps (V5 m' c) (Proc.devRef .tc Cert.ReferenceIdeal.main_arg33) = V0 m' c Cert.ReferenceIdeal.main_arg33 :=
    hargs.2.1.trans (Vs_of_launch m' c Cert.ReferenceIdeal.main_arg33 (by decide) (by decide) (by decide) (by decide) (by decide))
  have x111 : (V7 m' c Cert.ReferenceIdeal.main_v235 : FVec Ideal S2568x256 .f32)
      = mixR (F := Ideal) (aggR (V7 m' c Cert.ReferenceIdeal.main_v218) (colR (dflatR (V0 m' c Cert.ReferenceIdeal.main_arg4))))
          (cntR (colR (dflatR (V0 m' c Cert.ReferenceIdeal.main_arg4)))) (V7 m' c Cert.ReferenceIdeal.main_v185)
          (V0 m' c Cert.ReferenceIdeal.main_arg32) (V0 m' c Cert.ReferenceIdeal.main_arg33) :=
    (congrFun (v_pre m' c) _).trans
      ((r_mix (F := Ideal) (StableHlo.after dstOps (V5 m' c))).trans (by rw [e94, e61, e65, e32, e33]))
  have a10 : V7 m' c Cert.ReferenceIdeal.main_arg12 = V0 m' c Cert.ReferenceIdeal.main_arg12 :=
    (congrFun (v_pre m' c) _).trans
      ((r_tail_hex (F := Ideal) (StableHlo.after dstOps (V5 m' c))).trans
        (hargs.2.2.trans (Vs_of_launch m' c Cert.ReferenceIdeal.main_arg12 (by decide) (by decide) (by decide) (by decide) (by decide))))
  rw [p123, x111, a10]
  rfl

end Tail

end Cert.Layer4Tail

end
-- ==== Proof.Layer4Tail.lean ====
/-
  Layer 4 after the per-edge messages: the two programs' tails are one function. The kernel program scatters the widened
  rows (msg ‖ 1) once and cuts the result into sums and count; the reference scatters the messages and a vector of ones
  separately: the sums agree as arrays and the divisors agree at every node and channel (the scatter laws). Everything
  after the two divisor arrays is the same chain of operations on both sides, stage by stage. If the messages and the
  layer's inputs agree, the pooled outputs agree.
-/
import proofs.«402598_j31782757990676_2_alg».proof.Proof.Layer4TailK
import proofs.«402598_j31782757990676_2_alg».proof.Proof.Layer4TailR
import proofs.«402598_j31782757990676_2_alg».proof.Proof.ScatterLaw
import Idealize.ShloMosaic.Lib.ValueIdx
import Idealize.ShloMosaic.Lib.Pipeline.Value

set_option maxRecDepth 8192

noncomputable section

namespace Cert.Layer4Tail

open Idealize.ShloMosaic Idealize.ShloMosaic.TcCoe Idealize.SL.Sem Idealize.ShloMosaic.StableHlo Idealize.ShloMosaic.ValueIdx

/-! ## The shared stages

Each stage is the same operations in both programs; their shapes, dimension records and shape facts are each program's
own constants, the same literals. Stated for any float type. -/

section Same
variable {F : FTy → Type} [FloatOps F] [Cert.KernelIdeal.Facts] [Cert.ReferenceIdeal.Facts]

set_option maxHeartbeats 4000000 in
theorem dflat_eq (ei : IVec Cert.KernelIdeal.S2x15360 32) : dflatK ei = dflatR ei := by
  chain_rfl

set_option maxHeartbeats 4000000 in
theorem col_eq (d : IVec Cert.KernelIdeal.S15360 32) : colK d = colR d := by
  chain_rfl

set_option maxHeartbeats 4000000 in
theorem mix_eq (agg cnt : FVec F Cert.KernelIdeal.S2568x256 .f32) (x : FVec F Cert.KernelIdeal.S2568x128 .f32) (root : FVec F Cert.KernelIdeal.S128x256 .f32)
    (bias : FVec F Cert.KernelIdeal.S256 .f32) : mixK agg cnt x root bias = mixR agg cnt x root bias := by
  chain_rfl

set_option maxHeartbeats 4000000 in
theorem relu_eq (y : FVec F Cert.KernelIdeal.S2568x256 .f32) : reluK y = reluR y := by
  chain_rfl

set_option maxHeartbeats 4000000 in
theorem pool_eq (y : FVec F Cert.KernelIdeal.S2568x256 .f32) (hex : IVec Cert.KernelIdeal.S642x7 32) : poolK y hex = poolR y hex := by
  rfl

end Same

/-! ## Sums and divisors: one fused scatter against two -/

section Scatter
variable [Cert.KernelIdeal.Facts] [Cert.ReferenceIdeal.Facts]

/-- The sums: the fused scatter's first 256 columns are the wide scatter of the messages. -/
theorem agg_eq (msg : FVec Ideal Cert.KernelIdeal.S15360x256 .f32) (dst : IVec Cert.KernelIdeal.S15360x1 32) :
    aggK (F := Ideal) msg dst = aggR (F := Ideal) msg dst :=
  Cert.ScatterLaw.aggregate3 msg dst

/-- The divisors: at every node and channel, max(count, 1), the count read off the fused scatter's last column or off
    the scatter of ones. -/
theorem cnt_eq (msg : FVec Ideal Cert.KernelIdeal.S15360x256 .f32) (dst : IVec Cert.KernelIdeal.S15360x1 32) :
    cntK (F := Ideal) msg dst = cntR (F := Ideal) dst := by
  funext j
  obtain ⟨n, ch, rfl⟩ : ∃ (n : Fin 2568) (ch : Fin 256), j = ix2 n ch := ⟨j 0, j 1, eq_ix2 j⟩
  have hk1 : ∀ a : Fin Cert.KernelIdeal.S2568x1.rank, ((ix2 n (0 : Fin 1) : Cert.KernelIdeal.S2568x1.Idx) a).val
      = if Cert.KernelIdeal.S2568x1.size a = 1 then 0
        else ((ix2 n ch : Cert.KernelIdeal.S2568x256.Idx) ((![0, 1] : Fin Cert.KernelIdeal.S2568x1.rank → Fin Cert.KernelIdeal.S2568x256.rank) a)).val := fun a => by
    match a with
    | ⟨0, _⟩ => exact (if_neg (by decide : ¬ ((2568 : Nat) = 1))).symm
    | ⟨1, _⟩ => exact (if_pos rfl).symm
  have hk2 : ∀ a : Fin Cert.ReferenceIdeal.S2568.rank, ((ix1 n : Cert.ReferenceIdeal.S2568.Idx) a).val
      = if Cert.ReferenceIdeal.S2568.size a = 1 then 0
        else ((ix2 n (0 : Fin 1) : Cert.ReferenceIdeal.S2568x1.Idx) ((![0] : Fin Cert.ReferenceIdeal.S2568.rank → Fin Cert.ReferenceIdeal.S2568x1.rank) a)).val := fun a => by
    match a with
    | ⟨0, _⟩ => exact (if_neg (by decide : ¬ ((2568 : Nat) = 1))).symm
  unfold cntK cntR fusedK
  refine Eq.trans (broadcastInDim_apply _ _ _ _ (ix2 n (0 : Fin 1)) hk1) ?_
  refine Eq.trans ?_ (broadcastInDim_apply _ _ _ _ (ix2 n (0 : Fin 1)) hk1).symm
  refine Eq.trans ?_ (broadcastInDim_apply _ _ _ _ (ix1 n) hk2).symm
  rw [maximumf_apply, maximumf_apply, Cert.ScatterLaw.count3 msg dst n]
  rfl

end Scatter

/-! ## The layer's tail -/

section Tail
variable [Cert.ReferenceIdeal.Facts]

/-- The two programs' tails agree on equal inputs. -/
theorem body_eq (msg : FVec Ideal Cert.KernelIdeal.S15360x256 .f32) (ei : IVec Cert.KernelIdeal.S2x15360 32) (x : FVec Ideal Cert.KernelIdeal.S2568x128 .f32)
    (root : FVec Ideal Cert.KernelIdeal.S128x256 .f32) (bias : FVec Ideal Cert.KernelIdeal.S256 .f32) (hex : IVec Cert.KernelIdeal.S642x7 32) :
    bodyK (F := Ideal) msg (dflatK ei) x root bias hex = bodyR (F := Ideal) msg (dflatR ei) x root bias hex := by
  unfold bodyK bodyR
  rw [dflat_eq, col_eq, agg_eq, cnt_eq, mix_eq, relu_eq, pool_eq]

/-- LAYER 4'S TAIL: from memories agreeing on the four arrays the tail reads, if the layer's inputs and the messages
    agree then the pooled outputs agree. -/
theorem layer4_tail
    (m : (ℓ : Loc Cert.KernelIdeal.nD Cert.KernelIdeal.τ Cert.KernelIdeal.sig) → Buf (Elt Ideal) ℓ)
    (outs : Cert.KernelIdeal.Gen.Outs (F := Ideal))
    (m' : (ℓ : Loc Cert.ReferenceIdeal.nD Cert.ReferenceIdeal.τ Cert.ReferenceIdeal.sig) → Buf (Elt Ideal) ℓ)
    (c : Dev Cert.KernelIdeal.nD)
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h32 : m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32))
    (h33 : m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33))
    (hx : (Cert.KernelIdeal.Gen.V21 m outs c Cert.KernelIdeal.main_v119 : FVec Ideal Cert.KernelIdeal.S2568x128 .f32)
      = Cert.ReferenceIdeal.RefRun.V6 m' c Cert.ReferenceIdeal.main_v185)
    (hmsg : (outs 22 Cert.KernelIdeal.main_v131 c : FVec Ideal Cert.KernelIdeal.S15360x256 .f32)
      = Cert.ReferenceIdeal.RefRun.V7 m' c Cert.ReferenceIdeal.main_v218) :
    (Cert.KernelIdeal.Gen.V27 m outs c Cert.KernelIdeal.main_v159 : FVec Ideal Cert.KernelIdeal.S648x256 .f32)
      = Cert.ReferenceIdeal.RefRun.V8 m' c Cert.ReferenceIdeal.main_v247 := by
  have e4 : Cert.KernelIdeal.Gen.V0 m c Cert.KernelIdeal.main_arg4 = Cert.ReferenceIdeal.RefRun.V0 m' c Cert.ReferenceIdeal.main_arg4 := h4.symm
  have e12 : Cert.KernelIdeal.Gen.V0 m c Cert.KernelIdeal.main_arg12 = Cert.ReferenceIdeal.RefRun.V0 m' c Cert.ReferenceIdeal.main_arg12 := h12.symm
  have e32 : Cert.KernelIdeal.Gen.V0 m c Cert.KernelIdeal.main_arg32 = Cert.ReferenceIdeal.RefRun.V0 m' c Cert.ReferenceIdeal.main_arg32 := h32.symm
  have e33 : Cert.KernelIdeal.Gen.V0 m c Cert.KernelIdeal.main_arg33 = Cert.ReferenceIdeal.RefRun.V0 m' c Cert.ReferenceIdeal.main_arg33 := h33.symm
  have hx' : (Cert.KernelIdeal.Gen.V21 m outs c Cert.KernelIdeal.main_v119 : FVec Ideal Cert.KernelIdeal.S2568x128 .f32)
      = Cert.ReferenceIdeal.RefRun.V7 m' c Cert.ReferenceIdeal.main_v185 :=
    hx.trans (Cert.ReferenceIdeal.RefRun.V7_of m' c _ (by decide)).symm
  rw [kernel_tail, reference_tail, hmsg, hx', e4, e12, e32, e33]
  exact body_eq _ _ _ _ _ _

end Tail

end Cert.Layer4Tail

end
-- ==== Proof.Chain.lean ====
import proofs.«402598_j31782757990676_2_alg».proof.Defs
import proofs.«402598_j31782757990676_2_alg».proof.Proof.RefRun
import proofs.«402598_j31782757990676_2_alg».proof.Proof.KFrame
import proofs.«402598_j31782757990676_2_alg».proof.Proof.FinalTail
import proofs.«402598_j31782757990676_2_alg».proof.Proof.Bridge1
import proofs.«402598_j31782757990676_2_alg».proof.Proof.Bridge2
import proofs.«402598_j31782757990676_2_alg».proof.Proof.Bridge3
import proofs.«402598_j31782757990676_2_alg».proof.Proof.Bridge4
import proofs.«402598_j31782757990676_2_alg».proof.Proof.Layer1Tail
import proofs.«402598_j31782757990676_2_alg».proof.Proof.Layer2Tail
import proofs.«402598_j31782757990676_2_alg».proof.Proof.Layer3Tail
import proofs.«402598_j31782757990676_2_alg».proof.Proof.Layer4Tail

set_option maxRecDepth 8192

noncomputable section

open Idealize.ShloMosaic Idealize.ShloMosaic.TcCoe Idealize.SL.Sem

namespace Cert.Chain

-- Layer by layer: equal pooled outputs give equal per-edge messages (the edge law), equal aggregates (the scatter law) and equal pooled outputs of the next layer; then the dense tail.
theorem result_eq [hK : Cert.KernelIdeal.Facts] [hR : Cert.ReferenceIdeal.Facts] [hP : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal m)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)) :
    Cert.ReferenceIdeal.RefRun.Vend (F := Ideal) m' c Cert.ReferenceIdeal.main_v266
      = Cert.KernelIdeal.Gen.V27 m (Cert.KernelIdeal.KFrame.outs m) c Cert.KernelIdeal.main_v178 := by
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39⟩ := hagree

  have hb1 : (Cert.KernelIdeal.Region0.outArr0 (F := Ideal) (Cert.KernelIdeal.Region0.V3' m) c : Cert.KernelIdeal.S983040x32.Idx → EReal)
      = Cert.ReferenceIdeal.RefRun.V1 (F := Ideal) m' c Cert.ReferenceIdeal.main_v32 :=
    Cert.Bridge1.msg1 m m' c hpre h0 h1 h5 h14 h15 h16
  have hm1 : Cert.KernelIdeal.KFrame.outs m 4 Cert.KernelIdeal.main_v11 c = Cert.ReferenceIdeal.RefRun.V1 m' c Cert.ReferenceIdeal.main_v32 :=
    (Cert.KernelIdeal.KFrame.outs_4 m c).trans hb1
  have hx1 : (Cert.KernelIdeal.Gen.V9 m (Cert.KernelIdeal.KFrame.outs m) c Cert.KernelIdeal.main_v39 : FVec Ideal Cert.KernelIdeal.S40968x32 .f32)
      = Cert.ReferenceIdeal.RefRun.V2 m' c Cert.ReferenceIdeal.main_v61 :=
    Cert.Layer1Tail.layer1_tail m (Cert.KernelIdeal.KFrame.outs m) m' c h0 h1 h9 h17 h18 hm1

  have hb2 : (Cert.KernelIdeal.Region1.outArr1 (F := Ideal) (Cert.KernelIdeal.Region1.V9' m (Cert.KernelIdeal.KFrame.outs m)) c : Cert.KernelIdeal.S245760x64.Idx → EReal)
      = Cert.ReferenceIdeal.RefRun.V2 (F := Ideal) m' c Cert.ReferenceIdeal.main_v94 :=
    Cert.Bridge2.msg2 m (Cert.KernelIdeal.KFrame.outs m) m' c hpre h2 h6 h19 h20 h21 hx1
  have hm2 : Cert.KernelIdeal.KFrame.outs m 10 Cert.KernelIdeal.main_v51 c = Cert.ReferenceIdeal.RefRun.V2 m' c Cert.ReferenceIdeal.main_v94 :=
    (Cert.KernelIdeal.KFrame.outs_10 m c).trans hb2
  have hx2 : Cert.KernelIdeal.Gen.V15 m (Cert.KernelIdeal.KFrame.outs m) c Cert.KernelIdeal.main_v79 = Cert.ReferenceIdeal.RefRun.V4 m' c Cert.ReferenceIdeal.main_v123 :=
    Cert.Layer2Tail.layer2_tail m (Cert.KernelIdeal.KFrame.outs m) m' c h2 h10 h22 h23 hx1 hm2

  have hb3 : Cert.KernelIdeal.Region2.outArr2 (F := Ideal) (Cert.KernelIdeal.Region2.V15' m (Cert.KernelIdeal.KFrame.outs m)) c
      = Cert.ReferenceIdeal.RefRun.V5 (F := Ideal) m' c Cert.ReferenceIdeal.main_v156 :=
    Cert.Bridge3.msg3 m (Cert.KernelIdeal.KFrame.outs m) m' c hpre h3 h7 h24 h25 h26 hx2
  have hm3 : Cert.KernelIdeal.KFrame.outs m 16 Cert.KernelIdeal.main_v91 c = Cert.ReferenceIdeal.RefRun.V5 m' c Cert.ReferenceIdeal.main_v156 :=
    (Cert.KernelIdeal.KFrame.outs_16 m c).trans hb3
  have hx3 : Cert.KernelIdeal.Gen.V21 m (Cert.KernelIdeal.KFrame.outs m) c Cert.KernelIdeal.main_v119 = Cert.ReferenceIdeal.RefRun.V6 m' c Cert.ReferenceIdeal.main_v185 :=
    Cert.Layer3Tail.layer3_tail m (Cert.KernelIdeal.KFrame.outs m) m' c h3 h11 h27 h28 hx2 hm3

  have hb4 : Cert.KernelIdeal.Region3.outArr3 (F := Ideal) (Cert.KernelIdeal.Region3.V21' m (Cert.KernelIdeal.KFrame.outs m)) c
      = Cert.ReferenceIdeal.RefRun.V7 (F := Ideal) m' c Cert.ReferenceIdeal.main_v218 :=
    Cert.Bridge4.msg4 m (Cert.KernelIdeal.KFrame.outs m) m' c hpre h4 h8 h29 h30 h31 hx3
  have hm4 : Cert.KernelIdeal.KFrame.outs m 22 Cert.KernelIdeal.main_v131 c = Cert.ReferenceIdeal.RefRun.V7 m' c Cert.ReferenceIdeal.main_v218 :=
    (Cert.KernelIdeal.KFrame.outs_22 m c).trans hb4
  have hx4' : Cert.KernelIdeal.Gen.V27 m (Cert.KernelIdeal.KFrame.outs m) c Cert.KernelIdeal.main_v159 = Cert.ReferenceIdeal.RefRun.V8 m' c Cert.ReferenceIdeal.main_v247 :=
    Cert.Layer4Tail.layer4_tail m (Cert.KernelIdeal.KFrame.outs m) m' c h4 h12 h32 h33 hx3 hm4

  have carry : Cert.ReferenceIdeal.RefRun.Vend m' c Cert.ReferenceIdeal.main_v247 = Cert.ReferenceIdeal.RefRun.V8 m' c Cert.ReferenceIdeal.main_v247 :=
    (Cert.ReferenceIdeal.RefRun.V10_of m' c _ (by decide)).trans (Cert.ReferenceIdeal.RefRun.V9_of m' c _ (by decide))
  have hx4 : Cert.KernelIdeal.Gen.V27 m (Cert.KernelIdeal.KFrame.outs m) c Cert.KernelIdeal.main_v159 = Cert.ReferenceIdeal.RefRun.Vend m' c Cert.ReferenceIdeal.main_v247 :=
    hx4'.trans carry.symm

  exact (Cert.FinalTail.final_tail m (Cert.KernelIdeal.KFrame.outs m) m' c h13 h34 h35 h36 h37 h38 h39 hx4).symm

end Cert.Chain

end
-- ==== Proof.Claims.lean ====
import proofs.«402598_j31782757990676_2_alg».proof.Defs
import proofs.«402598_j31782757990676_2_alg».proof.Proof.RefRun
import proofs.«402598_j31782757990676_2_alg».proof.Proof.Chain
import proofs.«402598_j31782757990676_2_alg».proof.Proof.KFrame

noncomputable section

open Idealize.ShloMosaic Idealize.ShloMosaic.TcCoe Idealize.SL.Sem

namespace Cert.Proof.Claims

-- The frame is the run with the result buffer's value forgotten.
theorem frame_ki [hK : Cert.KernelIdeal.Facts] [hP : Cert.Pre_finite_inputs.Facts] : Cert.frame_KernelIdeal := fun m ρ _ =>
  (θ_run Cert.KernelIdeal.defs _ _).mono (fun _ h c => (h c).2) (Cert.KernelIdeal.KFrame.run (F := Ideal) m ρ)

-- A run is a function of the kernel bodies and the program: equal ones have the same runs.
theorem run_congr {nD : ℕ} {τ : Topo} {sig : RefSig} {Val : _} {Λ Λ' : Labels} (hΛ : Λ = Λ')
    {defs : Defs nD τ sig Val Λ} {defs' : Defs nD τ sig Val Λ'} (hd : HEq defs defs')
    {p : Dev nD → Prog (TpuEff nD τ sig Val Λ .tc) PUnit} {p' : Dev nD → Prog (TpuEff nD τ sig Val Λ' .tc) PUnit} (hp : HEq p p')
    {s : _} {Q : _} (H : θ_run defs' (onTc p') s Q) : θ_run defs (onTc p) s Q := by
  subst hΛ; cases hd; cases hp; exact H

-- The two printed kernel programs are one text under two names: their kernel bodies and @main coincide by unfolding.
set_option smartUnfolding false in
set_option maxHeartbeats 0 in
theorem Λ_eq [hB : Cert.Kernel.Facts] : (Pipeline.Sig Cert.Kernel.Λ₀ (Fin 4) fun p => (Cert.Kernel.pcfgs (F := Bits) p).Adm)
    = (Pipeline.Sig Cert.KernelIdeal.Λ₀ (Fin 4) fun p => (Cert.KernelIdeal.pcfgs (F := Bits) p).Adm) := rfl

set_option smartUnfolding false in
set_option maxHeartbeats 0 in
theorem defs_heq [hB : Cert.Kernel.Facts] : HEq (Cert.Kernel.defs (F := Bits)) (Cert.KernelIdeal.defs (F := Bits)) := HEq.rfl

set_option maxHeartbeats 0 in
theorem main_heq [hB : Cert.Kernel.Facts] : HEq (Cert.Kernel.main (F := Bits)) (Cert.KernelIdeal.main (F := Bits)) := HEq.rfl

-- The ideal-level program's run holds at every float instance; at the word-level instance it is the other program's frame.
set_option maxHeartbeats 0 in
theorem frame_k [hB : Cert.Kernel.Facts] [hP : Cert.Pre_finite_inputs.Facts] : Cert.frame_Kernel := fun m ρ _ =>
  run_congr Λ_eq defs_heq main_heq
    ((θ_run Cert.KernelIdeal.defs _ _).mono (fun _ h c => (h c).2) (Cert.KernelIdeal.KFrame.run (F := Bits) m ρ))

theorem frame_ri [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.RefRun.run (F := Ideal) m ρ)

-- The idealization rewrote nothing.
theorem preserves : Cert.preserves_Kernel_KernelIdeal := trivial

-- Each program's run names its result as a function of its launch memory; the layer chain equates the two functions.
theorem algebraic [hK : Cert.KernelIdeal.Facts] [hR : Cert.ReferenceIdeal.Facts] [hP : Cert.Pre_finite_inputs.Facts] :
    Cert.algebraic_KernelIdeal_ReferenceIdeal := by
  intro m ρ m' ρ' hpre hagree
  refine ⟨fun c => Cert.KernelIdeal.Gen.V27 m (Cert.KernelIdeal.KFrame.outs m) c Cert.KernelIdeal.main_v178, Cert.KernelIdeal.KFrame.run (F := Ideal) m ρ, ?_⟩
  exact (θ_run Cert.ReferenceIdeal.defs _ _).mono
    (fun _ h c => ⟨(h c).1.trans (Cert.Chain.result_eq m m' c hpre (hagree c)), (h c).2⟩)
    (Cert.ReferenceIdeal.RefRun.run (F := Ideal) m' ρ')

end Cert.Proof.Claims

end
-- ==== Proof.lean ====
import proofs.«402598_j31782757990676_2_alg».proof.Defs
import proofs.«402598_j31782757990676_2_alg».proof.Proof.Gen.Kernel
import proofs.«402598_j31782757990676_2_alg».proof.Proof.Gen.KernelIdeal
import proofs.«402598_j31782757990676_2_alg».proof.Proof.Gen.ReferenceIdeal
import proofs.«402598_j31782757990676_2_alg».proof.Proof.Gen.Pre_finite_inputs
import proofs.«402598_j31782757990676_2_alg».proof.Proof.Claims
import Idealize.ShloMosaic.Adequacy
import Idealize.ShloMosaic.Init

noncomputable section

namespace Cert.Proof

open Idealize.ShloMosaic Idealize.SL.Sem Cert.Proof.Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
